-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v234)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v234) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v334) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100x16 : Shape := ⟨2, ![100, 16]⟩
abbrev S1600000 : Shape := ⟨1, ![1600000]⟩
abbrev S100000 : Shape := ⟨1, ![100000]⟩
abbrev S4 : Shape := ⟨1, ![4]⟩
abbrev S4x128x128 : Shape := ⟨3, ![4, 128, 128]⟩
abbrev S4x128 : Shape := ⟨2, ![4, 128]⟩
abbrev S640x1 : Shape := ⟨2, ![640, 1]⟩
abbrev S1 : Shape := ⟨1, ![1]⟩
abbrev S656x10 : Shape := ⟨2, ![656, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100x16 : S_.BroadcastsInDim S100x16 (![] : Fin 0 → Fin S100x16.rank)
  reducesTo_S100x16_S_d0_1 : S100x16.ReducesTo [0, 1] S_
  bcast_S_S4 : S_.BroadcastsInDim S4 (![] : Fin 0 → Fin S4.rank)
  reducesTo_S4_S_d0 : S4.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S640x1 : S_.BroadcastsInDim S640x1 (![] : Fin 0 → Fin S640x1.rank)
  reducesTo_S640x1_S_d0_1 : S640x1.ReducesTo [0, 1] S_
  bcast_S_S1 : S_.BroadcastsInDim S1 (![] : Fin 0 → Fin S1.rank)
  reducesTo_S1_S_d0 : S1.ReducesTo [0] S_
  bcast_S_S656x10 : S_.BroadcastsInDim S656x10 (![] : Fin 0 → Fin S656x10.rank)
  reducesTo_S656x10_S_d0_1 : S656x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg17 : FVec F S10 .f32) (main_v63 : IVec S_ 1) (main_v67 : IVec S_ 1) : IVec S_ 1 :=
  let main_v68 : IVec S_ 1 := andi main_v63 main_v67
  let main_v69 : FVec F S10 .f32 := Host.absf main_arg17
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  main_v73

def fn_part3 {F : FTy → Type} [FloatOps F] (main_arg14 : FVec F S640x1 .f32) (main_arg15 : FVec F S1 .f32) (main_arg16 : FVec F S656x10 .f32) (main_arg17 : FVec F S10 .f32) (main_v48 : IVec S_ 1) (main_v49 : FVec F S4x128 .f32) (main_v50 : FVec F S4x128 .f32) : IVec S_ 1 :=
  let main_v51 : IVec S4x128 1 := cmpf .olt main_v49 main_v50
  let main_c_19 : IVec S_ 1 := constantI S_ 1 1#1
  let main_v52 : IVec S_ 1 := (fun x v => Host.reduce IntOp.andi x v reducesTo_S4x128_S_d0_1 h_S_) main_v51 main_c_19
  let main_v53 : IVec S_ 1 := andi main_v48 main_v52
  let main_v54 : FVec F S640x1 .f32 := Host.absf main_arg14
  let main_cst_20 : FVec F S_ .f32 := constant S_ .f32 0x7F800000#32
  let main_v55 : FVec F S640x1 .f32 := broadcastInDim S640x1 ![] bcast_S_S640x1 main_cst_20
  let main_v56 : IVec S640x1 1 := cmpf .olt main_v54 main_v55
  let main_c_21 : IVec S_ 1 := constantI S_ 1 1#1
  let main_v57 : IVec S_ 1 := (fun x v => Host.reduce IntOp.andi x v reducesTo_S640x1_S_d0_1 h_S_) main_v56 main_c_21
  let main_v58 : IVec S_ 1 := andi main_v53 main_v57
  let main_v59 : FVec F S1 .f32 := Host.absf main_arg15
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S656x10 .f32 := Host.absf main_arg16
  let main_cst_24 : FVec F S_ .f32 := constant S_ .f32 0x7F800000#32
  let main_v65 : FVec F S656x10 .f32 := broadcastInDim S656x10 ![] bcast_S_S656x10 main_cst_24
  let main_v66 : IVec S656x10 1 := cmpf .olt main_v64 main_v65
  let main_c_25 : IVec S_ 1 := constantI S_ 1 1#1
  let main_v67 : IVec S_ 1 := (fun x v => Host.reduce IntOp.andi x v reducesTo_S656x10_S_d0_1 h_S_) main_v66 main_c_25
  fn_part4 (F := F) main_arg17 main_v63 main_v67

def fn_part2 {F : FTy → Type} [FloatOps F] (main_arg10 : FVec F S4x128x128 .f32) (main_arg11 : FVec F S4x128 .f32) (main_arg12 : FVec F S4x128 .f32) (main_arg13 : FVec F S4x128 .f32) (main_arg14 : FVec F S640x1 .f32) (main_arg15 : FVec F S1 .f32) (main_arg16 : FVec F S656x10 .f32) (main_arg17 : FVec F S10 .f32) (main_v33 : IVec S_ 1) : IVec S_ 1 :=
  let main_v34 : FVec F S4x128x128 .f32 := Host.absf main_arg10
  let main_cst_12 : FVec F S_ .f32 := constant S_ .f32 0x7F800000#32
  let main_v35 : FVec F S4x128x128 .f32 := broadcastInDim S4x128x128 ![] bcast_S_S4x128x128 main_cst_12
  let main_v36 : IVec S4x128x128 1 := cmpf .olt main_v34 main_v35
  let main_c_13 : IVec S_ 1 := constantI S_ 1 1#1
  let main_v37 : IVec S_ 1 := (fun x v => Host.reduce IntOp.andi x v reducesTo_S4x128x128_S_d0_1_2 h_S_) main_v36 main_c_13
  let main_v38 : IVec S_ 1 := andi main_v33 main_v37
  let main_v39 : FVec F S4x128 .f32 := Host.absf main_arg11
  let main_cst_14 : FVec F S_ .f32 := constant S_ .f32 0x7F800000#32
  let main_v40 : FVec F S4x128 .f32 := broadcastInDim S4x128 ![] bcast_S_S4x128 main_cst_14
  let main_v41 : IVec S4x128 1 := cmpf .olt main_v39 main_v40
  let main_c_15 : IVec S_ 1 := constantI S_ 1 1#1
  let main_v42 : IVec S_ 1 := (fun x v => Host.reduce IntOp.andi x v reducesTo_S4x128_S_d0_1 h_S_) main_v41 main_c_15
  let main_v43 : IVec S_ 1 := andi main_v38 main_v42
  let main_v44 : FVec F S4x128 .f32 := Host.absf main_arg12
  let main_cst_16 : FVec F S_ .f32 := constant S_ .f32 0x7F800000#32
  let main_v45 : FVec F S4x128 .f32 := broadcastInDim S4x128 ![] bcast_S_S4x128 main_cst_16
  let main_v46 : IVec S4x128 1 := cmpf .olt main_v44 main_v45
  let main_c_17 : IVec S_ 1 := constantI S_ 1 1#1
  let main_v47 : IVec S_ 1 := (fun x v => Host.reduce IntOp.andi x v reducesTo_S4x128_S_d0_1 h_S_) main_v46 main_c_17
  let main_v48 : IVec S_ 1 := andi main_v43 main_v47
  let main_v49 : FVec F S4x128 .f32 := Host.absf main_arg13
  let main_cst_18 : FVec F S_ .f32 := constant S_ .f32 0x7F800000#32
  let main_v50 : FVec F S4x128 .f32 := broadcastInDim S4x128 ![] bcast_S_S4x128 main_cst_18
  fn_part3 (F := F) main_arg14 main_arg15 main_arg16 main_arg17 main_v48 main_v49 main_v50

def fn_part1 {F : FTy → Type} [FloatOps F] (main_arg7 : FVec F S4x128 .f32) (main_arg8 : FVec F S4x128 .f32) (main_arg9 : FVec F S4x128 .f32) (main_arg10 : FVec F S4x128x128 .f32) (main_arg11 : FVec F S4x128 .f32) (main_arg12 : FVec F S4x128 .f32) (main_arg13 : FVec F S4x128 .f32) (main_arg14 : FVec F S640x1 .f32) (main_arg15 : FVec F S1 .f32) (main_arg16 : FVec F S656x10 .f32) (main_arg17 : FVec F S10 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg7
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg8
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg9
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg10 main_arg11 main_arg12 main_arg13 main_arg14 main_arg15 main_arg16 main_arg17 main_v33

def fn {F : FTy → Type} [FloatOps F] (main_arg0 : FVec F S100000x128 .f32) (main_arg1 : FVec F S100x16 .f32) (main_arg2 : IVec S1600000 32) (main_arg3 : IVec S1600000 32) (main_arg4 : IVec S100000 32) (main_arg5 : FVec F S4 .f32) (main_arg6 : FVec F S4x128x128 .f32) (main_arg7 : FVec F S4x128 .f32) (main_arg8 : FVec F S4x128 .f32) (main_arg9 : FVec F S4x128 .f32) (main_arg10 : FVec F S4x128x128 .f32) (main_arg11 : FVec F S4x128 .f32) (main_arg12 : FVec F S4x128 .f32) (main_arg13 : FVec F S4x128 .f32) (main_arg14 : FVec F S640x1 .f32) (main_arg15 : FVec F S1 .f32) (main_arg16 : FVec F S656x10 .f32) (main_arg17 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100x16 .f32 := Host.absf main_arg1
  let main_cst_0 : FVec F S_ .f32 := constant S_ .f32 0x7F800000#32
  let main_v5 : FVec F S100x16 .f32 := broadcastInDim S100x16 ![] bcast_S_S100x16 main_cst_0
  let main_v6 : IVec S100x16 1 := cmpf .olt main_v4 main_v5
  let main_c_1 : IVec S_ 1 := constantI S_ 1 1#1
  let main_v7 : IVec S_ 1 := (fun x v => Host.reduce IntOp.andi x v reducesTo_S100x16_S_d0_1 h_S_) main_v6 main_c_1
  let main_v8 : IVec S_ 1 := andi main_v3 main_v7
  let main_v9 : FVec F S4 .f32 := Host.absf main_arg5
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4x128x128 .f32 := Host.absf main_arg6
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S100x16 : Shape := ⟨2, ![100, 16]⟩
abbrev S1600000 : Shape := ⟨1, ![1600000]⟩
abbrev S100000 : Shape := ⟨1, ![100000]⟩
abbrev S4 : Shape := ⟨1, ![4]⟩
abbrev S4x128x128 : Shape := ⟨3, ![4, 128, 128]⟩
abbrev S4x128 : Shape := ⟨2, ![4, 128]⟩
abbrev S640x1 : Shape := ⟨2, ![640, 1]⟩
abbrev S1 : Shape := ⟨1, ![1]⟩
abbrev S656x10 : Shape := ⟨2, ![656, 10]⟩
abbrev S10 : Shape := ⟨1, ![10]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S10000x128 : Shape := ⟨2, ![10000, 128]⟩
abbrev S1x1 : Shape := ⟨2, ![1, 1]⟩
abbrev S1000x128 : Shape := ⟨2, ![1000, 128]⟩
abbrev S1000x640 : Shape := ⟨2, ![1000, 640]⟩
abbrev S1000x1 : Shape := ⟨2, ![1000, 1]⟩
abbrev S100x128 : Shape := ⟨2, ![100, 128]⟩
abbrev S100000x1 : Shape := ⟨2, ![100000, 1]⟩
abbrev S100x640 : Shape := ⟨2, ![100, 640]⟩
abbrev S100x656 : Shape := ⟨2, ![100, 656]⟩
abbrev S100x10 : Shape := ⟨2, ![100, 10]⟩
abbrev S1x10 : Shape := ⟨2, ![1, 10]⟩

abbrev nBuf : Space → Nat
  | .hbm => 310
  | .vmem => 134
  | .smem => 0
  | _ => 0

abbrev hbmTy0_0 (i : Nat) : BufTy := match i % 128 with
  | 0 => ⟨S100000x128, .f32⟩
  | 1 => ⟨S100x16, .f32⟩
  | 2 => ⟨S1600000, .i32⟩
  | 3 => ⟨S1600000, .i32⟩
  | 4 => ⟨S100000, .i32⟩
  | 5 => ⟨S4, .f32⟩
  | 6 => ⟨S4x128x128, .f32⟩
  | 7 => ⟨S4x128, .f32⟩
  | 8 => ⟨S4x128, .f32⟩
  | 9 => ⟨S4x128, .f32⟩
  | 10 => ⟨S4x128x128, .f32⟩
  | 11 => ⟨S4x128, .f32⟩
  | 12 => ⟨S4x128, .f32⟩
  | 13 => ⟨S4x128, .f32⟩
  | 14 => ⟨S640x1, .f32⟩
  | 15 => ⟨S1, .f32⟩
  | 16 => ⟨S656x10, .f32⟩
  | 17 => ⟨S10, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x128, .f32⟩
  | 27 => ⟨S_, .f32⟩
  | 28 => ⟨S100000x128, .f32⟩
  | 29 => ⟨S1600000x1, .i32⟩
  | 30 => ⟨S100000x128, .f32⟩
  | 31 => ⟨S1, .f32⟩
  | 32 => ⟨S_, .f32⟩
  | 33 => ⟨S_, .f32⟩
  | 34 => ⟨S_, .f32⟩
  | 35 => ⟨S100000x128, .f32⟩
  | 36 => ⟨S100000x128, .f32⟩
  | 37 => ⟨S100000x128, .f32⟩
  | 38 => ⟨S1x128x128, .f32⟩
  | 39 => ⟨S128x128, .f32⟩
  | 40 => ⟨S1x128, .f32⟩
  | 41 => ⟨S128, .f32⟩
  | 42 => ⟨S1x128, .f32⟩
  | 43 => ⟨S100000x128, .f32⟩
  | 44 => ⟨S1x128, .f32⟩
  | 45 => ⟨S1x128, .f32⟩
  | 46 => ⟨S_, .f32⟩
  | 47 => ⟨S1x128, .f32⟩
  | 48 => ⟨S1x128, .f32⟩
  | 49 => ⟨S_, .f32⟩
  | 50 => ⟨S1x128, .f32⟩
  | 51 => ⟨S1x128, .f32⟩
  | 52 => ⟨S1x128, .f32⟩
  | 53 => ⟨S1x128, .f32⟩
  | 54 => ⟨S1x128, .f32⟩
  | 55 => ⟨S128, .f32⟩
  | 56 => ⟨S1x128, .f32⟩
  | 57 => ⟨S1x128, .f32⟩
  | 58 => ⟨S128, .f32⟩
  | 59 => ⟨S1x128, .f32⟩
  | 60 => ⟨S1x128x128, .f32⟩
  | 61 => ⟨S128x128, .f32⟩
  | 62 => ⟨S1x128, .f32⟩
  | 63 => ⟨S128, .f32⟩
  | 64 => ⟨S1x128, .f32⟩
  | 65 => ⟨S100000x128, .f32⟩
  | 66 => ⟨S1x128, .f32⟩
  | 67 => ⟨S1x128, .f32⟩
  | 68 => ⟨S_, .f32⟩
  | 69 => ⟨S1x128, .f32⟩
  | 70 => ⟨S1x128, .f32⟩
  | 71 => ⟨S_, .f32⟩
  | 72 => ⟨S1x128, .f32⟩
  | 73 => ⟨S1x128, .f32⟩
  | 74 => ⟨S1x128, .f32⟩
  | 75 => ⟨S1x128, .f32⟩
  | 76 => ⟨S1x128, .f32⟩
  | 77 => ⟨S128, .f32⟩
  | 78 => ⟨S1x128, .f32⟩
  | 79 => ⟨S1x128, .f32⟩
  | 80 => ⟨S128, .f32⟩
  | 81 => ⟨S1x128, .f32⟩
  | 82 => ⟨S100000x128, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x128, .f32⟩
  | 92 => ⟨S_, .f32⟩
  | 93 => ⟨S100000x128, .f32⟩
  | 94 => ⟨S1600000x1, .i32⟩
  | 95 => ⟨S100000x128, .f32⟩
  | 96 => ⟨S1, .f32⟩
  | 97 => ⟨S_, .f32⟩
  | 98 => ⟨S_, .f32⟩
  | 99 => ⟨S_, .f32⟩
  | 100 => ⟨S100000x128, .f32⟩
  | 101 => ⟨S100000x128, .f32⟩
  | 102 => ⟨S100000x128, .f32⟩
  | 103 => ⟨S1x128x128, .f32⟩
  | 104 => ⟨S128x128, .f32⟩
  | 105 => ⟨S1x128, .f32⟩
  | 106 => ⟨S128, .f32⟩
  | 107 => ⟨S1x128, .f32⟩
  | 108 => ⟨S100000x128, .f32⟩
  | 109 => ⟨S1x128, .f32⟩
  | 110 => ⟨S1x128, .f32⟩
  | 111 => ⟨S_, .f32⟩
  | 112 => ⟨S1x128, .f32⟩
  | 113 => ⟨S1x128, .f32⟩
  | 114 => ⟨S_, .f32⟩
  | 115 => ⟨S1x128, .f32⟩
  | 116 => ⟨S1x128, .f32⟩
  | 117 => ⟨S1x128, .f32⟩
  | 118 => ⟨S1x128, .f32⟩
  | 119 => ⟨S1x128, .f32⟩
  | 120 => ⟨S128, .f32⟩
  | 121 => ⟨S1x128, .f32⟩
  | 122 => ⟨S1x128, .f32⟩
  | 123 => ⟨S128, .f32⟩
  | 124 => ⟨S1x128, .f32⟩
  | 125 => ⟨S1x128x128, .f32⟩
  | 126 => ⟨S128x128, .f32⟩
  | 127 => ⟨S1x128, .f32⟩
  | _ => ⟨S100000x128, .f32⟩

abbrev hbmTy0_1 (i : Nat) : BufTy := match i % 128 with
  | 0 => ⟨S128, .f32⟩
  | 1 => ⟨S1x128, .f32⟩
  | 2 => ⟨S100000x128, .f32⟩
  | 3 => ⟨S1x128, .f32⟩
  | 4 => ⟨S1x128, .f32⟩
  | 5 => ⟨S_, .f32⟩
  | 6 => ⟨S1x128, .f32⟩
  | 7 => ⟨S1x128, .f32⟩
  | 8 => ⟨S_, .f32⟩
  | 9 => ⟨S1x128, .f32⟩
  | 10 => ⟨S1x128, .f32⟩
  | 11 => ⟨S1x128, .f32⟩
  | 12 => ⟨S1x128, .f32⟩
  | 13 => ⟨S1x128, .f32⟩
  | 14 => ⟨S128, .f32⟩
  | 15 => ⟨S1x128, .f32⟩
  | 16 => ⟨S1x128, .f32⟩
  | 17 => ⟨S128, .f32⟩
  | 18 => ⟨S1x128, .f32⟩
  | 19 => ⟨S100000x128, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x128, .f32⟩
  | 29 => ⟨S_, .f32⟩
  | 30 => ⟨S100000x128, .f32⟩
  | 31 => ⟨S1600000x1, .i32⟩
  | 32 => ⟨S100000x128, .f32⟩
  | 33 => ⟨S1, .f32⟩
  | 34 => ⟨S_, .f32⟩
  | 35 => ⟨S_, .f32⟩
  | 36 => ⟨S_, .f32⟩
  | 37 => ⟨S100000x128, .f32⟩
  | 38 => ⟨S100000x128, .f32⟩
  | 39 => ⟨S100000x128, .f32⟩
  | 40 => ⟨S1x128x128, .f32⟩
  | 41 => ⟨S128x128, .f32⟩
  | 42 => ⟨S1x128, .f32⟩
  | 43 => ⟨S128, .f32⟩
  | 44 => ⟨S1x128, .f32⟩
  | 45 => ⟨S100000x128, .f32⟩
  | 46 => ⟨S1x128, .f32⟩
  | 47 => ⟨S1x128, .f32⟩
  | 48 => ⟨S_, .f32⟩
  | 49 => ⟨S1x128, .f32⟩
  | 50 => ⟨S1x128, .f32⟩
  | 51 => ⟨S_, .f32⟩
  | 52 => ⟨S1x128, .f32⟩
  | 53 => ⟨S1x128, .f32⟩
  | 54 => ⟨S1x128, .f32⟩
  | 55 => ⟨S1x128, .f32⟩
  | 56 => ⟨S1x128, .f32⟩
  | 57 => ⟨S128, .f32⟩
  | 58 => ⟨S1x128, .f32⟩
  | 59 => ⟨S1x128, .f32⟩
  | 60 => ⟨S128, .f32⟩
  | 61 => ⟨S1x128, .f32⟩
  | 62 => ⟨S1x128x128, .f32⟩
  | 63 => ⟨S128x128, .f32⟩
  | 64 => ⟨S1x128, .f32⟩
  | 65 => ⟨S128, .f32⟩
  | 66 => ⟨S1x128, .f32⟩
  | 67 => ⟨S100000x128, .f32⟩
  | 68 => ⟨S1x128, .f32⟩
  | 69 => ⟨S1x128, .f32⟩
  | 70 => ⟨S_, .f32⟩
  | 71 => ⟨S1x128, .f32⟩
  | 72 => ⟨S1x128, .f32⟩
  | 73 => ⟨S_, .f32⟩
  | 74 => ⟨S1x128, .f32⟩
  | 75 => ⟨S1x128, .f32⟩
  | 76 => ⟨S1x128, .f32⟩
  | 77 => ⟨S1x128, .f32⟩
  | 78 => ⟨S1x128, .f32⟩
  | 79 => ⟨S128, .f32⟩
  | 80 => ⟨S1x128, .f32⟩
  | 81 => ⟨S1x128, .f32⟩
  | 82 => ⟨S128, .f32⟩
  | 83 => ⟨S1x128, .f32⟩
  | 84 => ⟨S100000x128, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x128, .f32⟩
  | 94 => ⟨S_, .f32⟩
  | 95 => ⟨S100000x128, .f32⟩
  | 96 => ⟨S1600000x1, .i32⟩
  | 97 => ⟨S100000x128, .f32⟩
  | 98 => ⟨S1, .f32⟩
  | 99 => ⟨S_, .f32⟩
  | 100 => ⟨S_, .f32⟩
  | 101 => ⟨S_, .f32⟩
  | 102 => ⟨S100000x128, .f32⟩
  | 103 => ⟨S100000x128, .f32⟩
  | 104 => ⟨S100000x128, .f32⟩
  | 105 => ⟨S1x128x128, .f32⟩
  | 106 => ⟨S128x128, .f32⟩
  | 107 => ⟨S1x128, .f32⟩
  | 108 => ⟨S128, .f32⟩
  | 109 => ⟨S1x128, .f32⟩
  | 110 => ⟨S100000x128, .f32⟩
  | 111 => ⟨S1x128, .f32⟩
  | 112 => ⟨S1x128, .f32⟩
  | 113 => ⟨S_, .f32⟩
  | 114 => ⟨S1x128, .f32⟩
  | 115 => ⟨S1x128, .f32⟩
  | 116 => ⟨S_, .f32⟩
  | 117 => ⟨S1x128, .f32⟩
  | 118 => ⟨S1x128, .f32⟩
  | 119 => ⟨S1x128, .f32⟩
  | 120 => ⟨S1x128, .f32⟩
  | 121 => ⟨S1x128, .f32⟩
  | 122 => ⟨S128, .f32⟩
  | 123 => ⟨S1x128, .f32⟩
  | 124 => ⟨S1x128, .f32⟩
  | 125 => ⟨S128, .f32⟩
  | 126 => ⟨S1x128, .f32⟩
  | 127 => ⟨S1x128x128, .f32⟩
  | _ => ⟨S100000x128, .f32⟩

abbrev hbmTy0_2 (i : Nat) : BufTy := match i % 128 with
  | 0 => ⟨S128x128, .f32⟩
  | 1 => ⟨S1x128, .f32⟩
  | 2 => ⟨S128, .f32⟩
  | 3 => ⟨S1x128, .f32⟩
  | 4 => ⟨S100000x128, .f32⟩
  | 5 => ⟨S1x128, .f32⟩
  | 6 => ⟨S1x128, .f32⟩
  | 7 => ⟨S_, .f32⟩
  | 8 => ⟨S1x128, .f32⟩
  | 9 => ⟨S1x128, .f32⟩
  | 10 => ⟨S_, .f32⟩
  | 11 => ⟨S1x128, .f32⟩
  | 12 => ⟨S1x128, .f32⟩
  | 13 => ⟨S1x128, .f32⟩
  | 14 => ⟨S1x128, .f32⟩
  | 15 => ⟨S1x128, .f32⟩
  | 16 => ⟨S128, .f32⟩
  | 17 => ⟨S1x128, .f32⟩
  | 18 => ⟨S1x128, .f32⟩
  | 19 => ⟨S128, .f32⟩
  | 20 => ⟨S1x128, .f32⟩
  | 21 => ⟨S100000x128, .f32⟩
  | 22 => ⟨S1x1, .f32⟩
  | 23 => ⟨S100000x128, .f32⟩
  | 24 => ⟨S100000x128, .f32⟩
  | 25 => ⟨S100000x128, .f32⟩
  | 26 => ⟨S100000x128, .f32⟩
  | 27 => ⟨S100000x128, .f32⟩
  | 28 => ⟨S_, .f32⟩
  | 29 => ⟨S100x128, .f32⟩
  | 30 => ⟨S100000x1, .i32⟩
  | 31 => ⟨S100x128, .f32⟩
  | 32 => ⟨S_, .f32⟩
  | 33 => ⟨S100x128, .f32⟩
  | 34 => ⟨S100000x1, .i32⟩
  | 35 => ⟨S100x128, .f32⟩
  | 36 => ⟨S_, .f32⟩
  | 37 => ⟨S100x128, .f32⟩
  | 38 => ⟨S100000x1, .i32⟩
  | 39 => ⟨S100x128, .f32⟩
  | 40 => ⟨S_, .f32⟩
  | 41 => ⟨S100x128, .f32⟩
  | 42 => ⟨S100000x1, .i32⟩
  | 43 => ⟨S100x128, .f32⟩
  | 44 => ⟨S_, .f32⟩
  | 45 => ⟨S100x128, .f32⟩
  | 46 => ⟨S100000x1, .i32⟩
  | 47 => ⟨S100x128, .f32⟩
  | 48 => ⟨S100x640, .f32⟩
  | 49 => ⟨S100x656, .f32⟩
  | 50 => ⟨S100x10, .f32⟩
  | 51 => ⟨S1x10, .f32⟩
  | 52 => ⟨S100x10, .f32⟩
  | 53 => ⟨S100x10, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev vmemTy0_0 (i : Nat) : BufTy := match i % 128 with
  | 0 => ⟨S10000x128, .f32⟩
  | 1 => ⟨S10000x128, .f32⟩
  | 2 => ⟨S128x128, .f32⟩
  | 3 => ⟨S1x128, .f32⟩
  | 4 => ⟨S10000x128, .f32⟩
  | 5 => ⟨S10000x128, .f32⟩
  | 6 => ⟨S1x128, .f32⟩
  | 7 => ⟨S1x128, .f32⟩
  | 8 => ⟨S10000x128, .f32⟩
  | 9 => ⟨S10000x128, .f32⟩
  | 10 => ⟨S1x128, .f32⟩
  | 11 => ⟨S1x128, .f32⟩
  | 12 => ⟨S1x128, .f32⟩
  | 13 => ⟨S1x128, .f32⟩
  | 14 => ⟨S128x128, .f32⟩
  | 15 => ⟨S1x128, .f32⟩
  | 16 => ⟨S10000x128, .f32⟩
  | 17 => ⟨S10000x128, .f32⟩
  | 18 => ⟨S1x128, .f32⟩
  | 19 => ⟨S1x128, .f32⟩
  | 20 => ⟨S10000x128, .f32⟩
  | 21 => ⟨S10000x128, .f32⟩
  | 22 => ⟨S1x128, .f32⟩
  | 23 => ⟨S1x128, .f32⟩
  | 24 => ⟨S1x128, .f32⟩
  | 25 => ⟨S1x128, .f32⟩
  | 26 => ⟨S10000x128, .f32⟩
  | 27 => ⟨S10000x128, .f32⟩
  | 28 => ⟨S10000x128, .f32⟩
  | 29 => ⟨S10000x128, .f32⟩
  | 30 => ⟨S128x128, .f32⟩
  | 31 => ⟨S1x128, .f32⟩
  | 32 => ⟨S10000x128, .f32⟩
  | 33 => ⟨S10000x128, .f32⟩
  | 34 => ⟨S1x128, .f32⟩
  | 35 => ⟨S1x128, .f32⟩
  | 36 => ⟨S10000x128, .f32⟩
  | 37 => ⟨S10000x128, .f32⟩
  | 38 => ⟨S1x128, .f32⟩
  | 39 => ⟨S1x128, .f32⟩
  | 40 => ⟨S1x128, .f32⟩
  | 41 => ⟨S1x128, .f32⟩
  | 42 => ⟨S128x128, .f32⟩
  | 43 => ⟨S1x128, .f32⟩
  | 44 => ⟨S10000x128, .f32⟩
  | 45 => ⟨S10000x128, .f32⟩
  | 46 => ⟨S1x128, .f32⟩
  | 47 => ⟨S1x128, .f32⟩
  | 48 => ⟨S10000x128, .f32⟩
  | 49 => ⟨S10000x128, .f32⟩
  | 50 => ⟨S1x128, .f32⟩
  | 51 => ⟨S1x128, .f32⟩
  | 52 => ⟨S1x128, .f32⟩
  | 53 => ⟨S1x128, .f32⟩
  | 54 => ⟨S10000x128, .f32⟩
  | 55 => ⟨S10000x128, .f32⟩
  | 56 => ⟨S10000x128, .f32⟩
  | 57 => ⟨S10000x128, .f32⟩
  | 58 => ⟨S128x128, .f32⟩
  | 59 => ⟨S1x128, .f32⟩
  | 60 => ⟨S10000x128, .f32⟩
  | 61 => ⟨S10000x128, .f32⟩
  | 62 => ⟨S1x128, .f32⟩
  | 63 => ⟨S1x128, .f32⟩
  | 64 => ⟨S10000x128, .f32⟩
  | 65 => ⟨S10000x128, .f32⟩
  | 66 => ⟨S1x128, .f32⟩
  | 67 => ⟨S1x128, .f32⟩
  | 68 => ⟨S1x128, .f32⟩
  | 69 => ⟨S1x128, .f32⟩
  | 70 => ⟨S128x128, .f32⟩
  | 71 => ⟨S1x128, .f32⟩
  | 72 => ⟨S10000x128, .f32⟩
  | 73 => ⟨S10000x128, .f32⟩
  | 74 => ⟨S1x128, .f32⟩
  | 75 => ⟨S1x128, .f32⟩
  | 76 => ⟨S10000x128, .f32⟩
  | 77 => ⟨S10000x128, .f32⟩
  | 78 => ⟨S1x128, .f32⟩
  | 79 => ⟨S1x128, .f32⟩
  | 80 => ⟨S1x128, .f32⟩
  | 81 => ⟨S1x128, .f32⟩
  | 82 => ⟨S10000x128, .f32⟩
  | 83 => ⟨S10000x128, .f32⟩
  | 84 => ⟨S10000x128, .f32⟩
  | 85 => ⟨S10000x128, .f32⟩
  | 86 => ⟨S128x128, .f32⟩
  | 87 => ⟨S1x128, .f32⟩
  | 88 => ⟨S10000x128, .f32⟩
  | 89 => ⟨S10000x128, .f32⟩
  | 90 => ⟨S1x128, .f32⟩
  | 91 => ⟨S1x128, .f32⟩
  | 92 => ⟨S10000x128, .f32⟩
  | 93 => ⟨S10000x128, .f32⟩
  | 94 => ⟨S1x128, .f32⟩
  | 95 => ⟨S1x128, .f32⟩
  | 96 => ⟨S1x128, .f32⟩
  | 97 => ⟨S1x128, .f32⟩
  | 98 => ⟨S128x128, .f32⟩
  | 99 => ⟨S1x128, .f32⟩
  | 100 => ⟨S10000x128, .f32⟩
  | 101 => ⟨S10000x128, .f32⟩
  | 102 => ⟨S1x128, .f32⟩
  | 103 => ⟨S1x128, .f32⟩
  | 104 => ⟨S10000x128, .f32⟩
  | 105 => ⟨S10000x128, .f32⟩
  | 106 => ⟨S1x128, .f32⟩
  | 107 => ⟨S1x128, .f32⟩
  | 108 => ⟨S1x128, .f32⟩
  | 109 => ⟨S1x128, .f32⟩
  | 110 => ⟨S10000x128, .f32⟩
  | 111 => ⟨S10000x128, .f32⟩
  | 112 => ⟨S1000x128, .f32⟩
  | 113 => ⟨S1000x128, .f32⟩
  | 114 => ⟨S1000x128, .f32⟩
  | 115 => ⟨S1000x128, .f32⟩
  | 116 => ⟨S1000x128, .f32⟩
  | 117 => ⟨S1000x128, .f32⟩
  | 118 => ⟨S1000x128, .f32⟩
  | 119 => ⟨S1000x128, .f32⟩
  | 120 => ⟨S1000x128, .f32⟩
  | 121 => ⟨S1000x128, .f32⟩
  | 122 => ⟨S640x1, .f32⟩
  | 123 => ⟨S1x1, .f32⟩
  | 124 => ⟨S1000x128, .f32⟩
  | 125 => ⟨S1000x128, .f32⟩
  | 126 => ⟨S1000x128, .f32⟩
  | 127 => ⟨S1000x128, .f32⟩
  | _ => ⟨S100000x128, .f32⟩

abbrev vmemTy0_1 (i : Nat) : BufTy := match i % 128 with
  | 0 => ⟨S1000x128, .f32⟩
  | 1 => ⟨S1000x128, .f32⟩
  | 2 => ⟨S1000x128, .f32⟩
  | 3 => ⟨S1000x128, .f32⟩
  | 4 => ⟨S1000x128, .f32⟩
  | 5 => ⟨S1000x128, .f32⟩
  | _ => ⟨S100000x128, .f32⟩

abbrev vmemTy (i : Nat) : BufTy := match i / 128 with
  | 0 => vmemTy0_0 i
  | 1 => vmemTy0_1 i
  | _ => ⟨S100000x128, .f32⟩

abbrev bufTy : (tb : Table) → Fin (tcTables nBuf tb) → BufTy
  | .hbm, ⟨i, _⟩ => hbmTy i
  | .local _ .vmem, ⟨i, _⟩ => vmemTy i
  | _, _ => ⟨S100000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 134 → Bool
  | ⟨i, _⟩ => dmaSemScopedAt i

abbrev sig : RefSig :=
  ofTc nBuf bufTy 0 134 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21_0 : Ref sig .tc := ⟨.hbm, 43, rfl⟩
abbrev main_v21_1 : Ref sig .tc := ⟨.hbm, 44, rfl⟩
abbrev main_v21_2 : Ref sig .tc := ⟨.hbm, 45, rfl⟩
abbrev main_cst_2 : Ref sig .tc := ⟨.hbm, 46, rfl⟩
abbrev main_v22 : Ref sig .tc := ⟨.hbm, 47, rfl⟩
abbrev main_v23 : Ref sig .tc := ⟨.hbm, 48, rfl⟩
abbrev main_cst_3 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39_0 : Ref sig .tc := ⟨.hbm, 65, rfl⟩
abbrev main_v39_1 : Ref sig .tc := ⟨.hbm, 66, rfl⟩
abbrev main_v39_2 : Ref sig .tc := ⟨.hbm, 67, rfl⟩
abbrev main_cst_4 : Ref sig .tc := ⟨.hbm, 68, rfl⟩
abbrev main_v40 : Ref sig .tc := ⟨.hbm, 69, rfl⟩
abbrev main_v41 : Ref sig .tc := ⟨.hbm, 70, rfl⟩
abbrev main_cst_5 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_c_6 : Ref sig .tc := ⟨.hbm, 83, rfl⟩
abbrev main_v53 : Ref sig .tc := ⟨.hbm, 84, rfl⟩
abbrev main_v54 : Ref sig .tc := ⟨.hbm, 85, rfl⟩
abbrev main_c_7 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_8 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_9 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74_0 : Ref sig .tc := ⟨.hbm, 108, rfl⟩
abbrev main_v74_1 : Ref sig .tc := ⟨.hbm, 109, rfl⟩
abbrev main_v74_2 : Ref sig .tc := ⟨.hbm, 110, rfl⟩
abbrev main_cst_10 : Ref sig .tc := ⟨.hbm, 111, rfl⟩
abbrev main_v75 : Ref sig .tc := ⟨.hbm, 112, rfl⟩
abbrev main_v76 : Ref sig .tc := ⟨.hbm, 113, rfl⟩
abbrev main_cst_11 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92_0 : Ref sig .tc := ⟨.hbm, 130, rfl⟩
abbrev main_v92_1 : Ref sig .tc := ⟨.hbm, 131, rfl⟩
abbrev main_v92_2 : Ref sig .tc := ⟨.hbm, 132, rfl⟩
abbrev main_cst_12 : Ref sig .tc := ⟨.hbm, 133, rfl⟩
abbrev main_v93 : Ref sig .tc := ⟨.hbm, 134, rfl⟩
abbrev main_v94 : Ref sig .tc := ⟨.hbm, 135, rfl⟩
abbrev main_cst_13 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_c_14 : Ref sig .tc := ⟨.hbm, 148, rfl⟩
abbrev main_v106 : Ref sig .tc := ⟨.hbm, 149, rfl⟩
abbrev main_v107 : Ref sig .tc := ⟨.hbm, 150, rfl⟩
abbrev main_c_15 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_16 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_cst_17 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127_0 : Ref sig .tc := ⟨.hbm, 173, rfl⟩
abbrev main_v127_1 : Ref sig .tc := ⟨.hbm, 174, rfl⟩
abbrev main_v127_2 : Ref sig .tc := ⟨.hbm, 175, rfl⟩
abbrev main_cst_18 : Ref sig .tc := ⟨.hbm, 176, rfl⟩
abbrev main_v128 : Ref sig .tc := ⟨.hbm, 177, rfl⟩
abbrev main_v129 : Ref sig .tc := ⟨.hbm, 178, rfl⟩
abbrev main_cst_19 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145_0 : Ref sig .tc := ⟨.hbm, 195, rfl⟩
abbrev main_v145_1 : Ref sig .tc := ⟨.hbm, 196, rfl⟩
abbrev main_v145_2 : Ref sig .tc := ⟨.hbm, 197, rfl⟩
abbrev main_cst_20 : Ref sig .tc := ⟨.hbm, 198, rfl⟩
abbrev main_v146 : Ref sig .tc := ⟨.hbm, 199, rfl⟩
abbrev main_v147 : Ref sig .tc := ⟨.hbm, 200, rfl⟩
abbrev main_cst_21 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_c_22 : Ref sig .tc := ⟨.hbm, 213, rfl⟩
abbrev main_v159 : Ref sig .tc := ⟨.hbm, 214, rfl⟩
abbrev main_v160 : Ref sig .tc := ⟨.hbm, 215, rfl⟩
abbrev main_c_23 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_cst_24 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_cst_25 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180_0 : Ref sig .tc := ⟨.hbm, 238, rfl⟩
abbrev main_v180_1 : Ref sig .tc := ⟨.hbm, 239, rfl⟩
abbrev main_v180_2 : Ref sig .tc := ⟨.hbm, 240, rfl⟩
abbrev main_cst_26 : Ref sig .tc := ⟨.hbm, 241, rfl⟩
abbrev main_v181 : Ref sig .tc := ⟨.hbm, 242, rfl⟩
abbrev main_v182 : Ref sig .tc := ⟨.hbm, 243, rfl⟩
abbrev main_cst_27 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198_0 : Ref sig .tc := ⟨.hbm, 260, rfl⟩
abbrev main_v198_1 : Ref sig .tc := ⟨.hbm, 261, rfl⟩
abbrev main_v198_2 : Ref sig .tc := ⟨.hbm, 262, rfl⟩
abbrev main_cst_28 : Ref sig .tc := ⟨.hbm, 263, rfl⟩
abbrev main_v199 : Ref sig .tc := ⟨.hbm, 264, rfl⟩
abbrev main_v200 : Ref sig .tc := ⟨.hbm, 265, rfl⟩
abbrev main_cst_29 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_v213_0 : Ref sig .tc := ⟨.hbm, 279, rfl⟩
abbrev main_v213_1 : Ref sig .tc := ⟨.hbm, 280, rfl⟩
abbrev main_v213_2 : Ref sig .tc := ⟨.hbm, 281, rfl⟩
abbrev main_v213_3 : Ref sig .tc := ⟨.hbm, 282, rfl⟩
abbrev main_v213_4 : Ref sig .tc := ⟨.hbm, 283, rfl⟩
abbrev main_cst_30 : Ref sig .tc := ⟨.hbm, 284, rfl⟩
abbrev main_v214 : Ref sig .tc := ⟨.hbm, 285, rfl⟩
abbrev main_v215 : Ref sig .tc := ⟨.hbm, 286, rfl⟩
abbrev main_v216 : Ref sig .tc := ⟨.hbm, 287, rfl⟩
abbrev main_cst_31 : Ref sig .tc := ⟨.hbm, 288, rfl⟩
abbrev main_v217 : Ref sig .tc := ⟨.hbm, 289, rfl⟩
abbrev main_v218 : Ref sig .tc := ⟨.hbm, 290, rfl⟩
abbrev main_v219 : Ref sig .tc := ⟨.hbm, 291, rfl⟩
abbrev main_cst_32 : Ref sig .tc := ⟨.hbm, 292, rfl⟩
abbrev main_v220 : Ref sig .tc := ⟨.hbm, 293, rfl⟩
abbrev main_v221 : Ref sig .tc := ⟨.hbm, 294, rfl⟩
abbrev main_v222 : Ref sig .tc := ⟨.hbm, 295, rfl⟩
abbrev main_cst_33 : Ref sig .tc := ⟨.hbm, 296, rfl⟩
abbrev main_v223 : Ref sig .tc := ⟨.hbm, 297, rfl⟩
abbrev main_v224 : Ref sig .tc := ⟨.hbm, 298, rfl⟩
abbrev main_v225 : Ref sig .tc := ⟨.hbm, 299, rfl⟩
abbrev main_cst_34 : Ref sig .tc := ⟨.hbm, 300, rfl⟩
abbrev main_v226 : Ref sig .tc := ⟨.hbm, 301, rfl⟩
abbrev main_v227 : Ref sig .tc := ⟨.hbm, 302, rfl⟩
abbrev main_v228 : Ref sig .tc := ⟨.hbm, 303, rfl⟩
abbrev main_v229 : Ref sig .tc := ⟨.hbm, 304, rfl⟩
abbrev main_v230 : Ref sig .tc := ⟨.hbm, 305, rfl⟩
abbrev main_v231 : Ref sig .tc := ⟨.hbm, 306, rfl⟩
abbrev main_v232 : Ref sig .tc := ⟨.hbm, 307, rfl⟩
abbrev main_v233 : Ref sig .tc := ⟨.hbm, 308, rfl⟩
abbrev main_v234 : Ref sig .tc := ⟨.hbm, 309, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg9_0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg5_0 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg6_0 : Ref sig .tc := ⟨.vmem, 43, rfl⟩
abbrev cc4_stg7_0 : Ref sig .tc := ⟨.vmem, 44, rfl⟩
abbrev cc4_stg7_1 : Ref sig .tc := ⟨.vmem, 45, rfl⟩
abbrev cc4_stg8_0 : Ref sig .tc := ⟨.vmem, 46, rfl⟩
abbrev cc4_stg9_0 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg2_0 : Ref sig .tc := ⟨.vmem, 51, rfl⟩
abbrev cc5_stg3_0 : Ref sig .tc := ⟨.vmem, 52, rfl⟩
abbrev cc5_stg4_0 : Ref sig .tc := ⟨.vmem, 53, rfl⟩
abbrev cc5_stg5_0 : Ref sig .tc := ⟨.vmem, 54, rfl⟩
abbrev cc5_stg5_1 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg2_0 : Ref sig .tc := ⟨.vmem, 59, rfl⟩
abbrev cc6_stg3_0 : Ref sig .tc := ⟨.vmem, 60, rfl⟩
abbrev cc6_stg3_1 : Ref sig .tc := ⟨.vmem, 61, rfl⟩
abbrev cc6_stg4_0 : Ref sig .tc := ⟨.vmem, 62, rfl⟩
abbrev cc6_stg5_0 : Ref sig .tc := ⟨.vmem, 63, rfl⟩
abbrev cc7_stg0_0 : Ref sig .tc := ⟨.vmem, 64, rfl⟩
abbrev cc7_stg0_1 : Ref sig .tc := ⟨.vmem, 65, rfl⟩
abbrev cc7_stg1_0 : Ref sig .tc := ⟨.vmem, 66, rfl⟩
abbrev cc7_stg2_0 : Ref sig .tc := ⟨.vmem, 67, rfl⟩
abbrev cc7_stg3_0 : Ref sig .tc := ⟨.vmem, 68, rfl⟩
abbrev cc7_stg4_0 : Ref sig .tc := ⟨.vmem, 69, rfl⟩
abbrev cc7_stg5_0 : Ref sig .tc := ⟨.vmem, 70, rfl⟩
abbrev cc7_stg6_0 : Ref sig .tc := ⟨.vmem, 71, rfl⟩
abbrev cc7_stg7_0 : Ref sig .tc := ⟨.vmem, 72, rfl⟩
abbrev cc7_stg7_1 : Ref sig .tc := ⟨.vmem, 73, rfl⟩
abbrev cc7_stg8_0 : Ref sig .tc := ⟨.vmem, 74, rfl⟩
abbrev cc7_stg9_0 : Ref sig .tc := ⟨.vmem, 75, rfl⟩
abbrev cc8_stg0_0 : Ref sig .tc := ⟨.vmem, 76, rfl⟩
abbrev cc8_stg0_1 : Ref sig .tc := ⟨.vmem, 77, rfl⟩
abbrev cc8_stg1_0 : Ref sig .tc := ⟨.vmem, 78, rfl⟩
abbrev cc8_stg2_0 : Ref sig .tc := ⟨.vmem, 79, rfl⟩
abbrev cc8_stg3_0 : Ref sig .tc := ⟨.vmem, 80, rfl⟩
abbrev cc8_stg4_0 : Ref sig .tc := ⟨.vmem, 81, rfl⟩
abbrev cc8_stg5_0 : Ref sig .tc := ⟨.vmem, 82, rfl⟩
abbrev cc8_stg5_1 : Ref sig .tc := ⟨.vmem, 83, rfl⟩
abbrev cc9_stg0_0 : Ref sig .tc := ⟨.vmem, 84, rfl⟩
abbrev cc9_stg0_1 : Ref sig .tc := ⟨.vmem, 85, rfl⟩
abbrev cc9_stg1_0 : Ref sig .tc := ⟨.vmem, 86, rfl⟩
abbrev cc9_stg2_0 : Ref sig .tc := ⟨.vmem, 87, rfl⟩
abbrev cc9_stg3_0 : Ref sig .tc := ⟨.vmem, 88, rfl⟩
abbrev cc9_stg3_1 : Ref sig .tc := ⟨.vmem, 89, rfl⟩
abbrev cc9_stg4_0 : Ref sig .tc := ⟨.vmem, 90, rfl⟩
abbrev cc9_stg5_0 : Ref sig .tc := ⟨.vmem, 91, rfl⟩
abbrev cc10_stg0_0 : Ref sig .tc := ⟨.vmem, 92, rfl⟩
abbrev cc10_stg0_1 : Ref sig .tc := ⟨.vmem, 93, rfl⟩
abbrev cc10_stg1_0 : Ref sig .tc := ⟨.vmem, 94, rfl⟩
abbrev cc10_stg2_0 : Ref sig .tc := ⟨.vmem, 95, rfl⟩
abbrev cc10_stg3_0 : Ref sig .tc := ⟨.vmem, 96, rfl⟩
abbrev cc10_stg4_0 : Ref sig .tc := ⟨.vmem, 97, rfl⟩
abbrev cc10_stg5_0 : Ref sig .tc := ⟨.vmem, 98, rfl⟩
abbrev cc10_stg6_0 : Ref sig .tc := ⟨.vmem, 99, rfl⟩
abbrev cc10_stg7_0 : Ref sig .tc := ⟨.vmem, 100, rfl⟩
abbrev cc10_stg7_1 : Ref sig .tc := ⟨.vmem, 101, rfl⟩
abbrev cc10_stg8_0 : Ref sig .tc := ⟨.vmem, 102, rfl⟩
abbrev cc10_stg9_0 : Ref sig .tc := ⟨.vmem, 103, rfl⟩
abbrev cc11_stg0_0 : Ref sig .tc := ⟨.vmem, 104, rfl⟩
abbrev cc11_stg0_1 : Ref sig .tc := ⟨.vmem, 105, rfl⟩
abbrev cc11_stg1_0 : Ref sig .tc := ⟨.vmem, 106, rfl⟩
abbrev cc11_stg2_0 : Ref sig .tc := ⟨.vmem, 107, rfl⟩
abbrev cc11_stg3_0 : Ref sig .tc := ⟨.vmem, 108, rfl⟩
abbrev cc11_stg4_0 : Ref sig .tc := ⟨.vmem, 109, rfl⟩
abbrev cc11_stg5_0 : Ref sig .tc := ⟨.vmem, 110, rfl⟩
abbrev cc11_stg5_1 : Ref sig .tc := ⟨.vmem, 111, rfl⟩
abbrev cc12_stg0_0 : Ref sig .tc := ⟨.vmem, 112, rfl⟩
abbrev cc12_stg0_1 : Ref sig .tc := ⟨.vmem, 113, rfl⟩
abbrev cc12_stg1_0 : Ref sig .tc := ⟨.vmem, 114, rfl⟩
abbrev cc12_stg1_1 : Ref sig .tc := ⟨.vmem, 115, rfl⟩
abbrev cc12_stg2_0 : Ref sig .tc := ⟨.vmem, 116, rfl⟩
abbrev cc12_stg2_1 : Ref sig .tc := ⟨.vmem, 117, rfl⟩
abbrev cc12_stg3_0 : Ref sig .tc := ⟨.vmem, 118, rfl⟩
abbrev cc12_stg3_1 : Ref sig .tc := ⟨.vmem, 119, rfl⟩
abbrev cc12_stg4_0 : Ref sig .tc := ⟨.vmem, 120, rfl⟩
abbrev cc12_stg4_1 : Ref sig .tc := ⟨.vmem, 121, rfl⟩
abbrev cc12_stg5_0 : Ref sig .tc := ⟨.vmem, 122, rfl⟩
abbrev cc12_stg6_0 : Ref sig .tc := ⟨.vmem, 123, rfl⟩
abbrev cc12_stg7_0 : Ref sig .tc := ⟨.vmem, 124, rfl⟩
abbrev cc12_stg7_1 : Ref sig .tc := ⟨.vmem, 125, rfl⟩
abbrev cc12_stg8_0 : Ref sig .tc := ⟨.vmem, 126, rfl⟩
abbrev cc12_stg8_1 : Ref sig .tc := ⟨.vmem, 127, rfl⟩
abbrev cc12_stg9_0 : Ref sig .tc := ⟨.vmem, 128, rfl⟩
abbrev cc12_stg9_1 : Ref sig .tc := ⟨.vmem, 129, rfl⟩
abbrev cc12_stg10_0 : Ref sig .tc := ⟨.vmem, 130, rfl⟩
abbrev cc12_stg10_1 : Ref sig .tc := ⟨.vmem, 131, rfl⟩
abbrev cc12_stg11_0 : Ref sig .tc := ⟨.vmem, 132, rfl⟩
abbrev cc12_stg11_1 : Ref sig .tc := ⟨.vmem, 133, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc1_sem8_0 : DmaSem sig := 18
abbrev cc1_sem9_0 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem3_1 : DmaSem sig := 33
abbrev cc3_sem4_0 : DmaSem sig := 34
abbrev cc3_sem5_0 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem6_0 : DmaSem sig := 43
abbrev cc4_sem7_0 : DmaSem sig := 44
abbrev cc4_sem7_1 : DmaSem sig := 45
abbrev cc4_sem8_0 : DmaSem sig := 46
abbrev cc4_sem9_0 : DmaSem sig := 47
abbrev cc5_sem0_0 : DmaSem sig := 48
abbrev cc5_sem0_1 : DmaSem sig := 49
abbrev cc5_sem1_0 : DmaSem sig := 50
abbrev cc5_sem2_0 : DmaSem sig := 51
abbrev cc5_sem3_0 : DmaSem sig := 52
abbrev cc5_sem4_0 : DmaSem sig := 53
abbrev cc5_sem5_0 : DmaSem sig := 54
abbrev cc5_sem5_1 : DmaSem sig := 55
abbrev cc6_sem0_0 : DmaSem sig := 56
abbrev cc6_sem0_1 : DmaSem sig := 57
abbrev cc6_sem1_0 : DmaSem sig := 58
abbrev cc6_sem2_0 : DmaSem sig := 59
abbrev cc6_sem3_0 : DmaSem sig := 60
abbrev cc6_sem3_1 : DmaSem sig := 61
abbrev cc6_sem4_0 : DmaSem sig := 62
abbrev cc6_sem5_0 : DmaSem sig := 63
abbrev cc7_sem0_0 : DmaSem sig := 64
abbrev cc7_sem0_1 : DmaSem sig := 65
abbrev cc7_sem1_0 : DmaSem sig := 66
abbrev cc7_sem2_0 : DmaSem sig := 67
abbrev cc7_sem3_0 : DmaSem sig := 68
abbrev cc7_sem4_0 : DmaSem sig := 69
abbrev cc7_sem5_0 : DmaSem sig := 70
abbrev cc7_sem6_0 : DmaSem sig := 71
abbrev cc7_sem7_0 : DmaSem sig := 72
abbrev cc7_sem7_1 : DmaSem sig := 73
abbrev cc7_sem8_0 : DmaSem sig := 74
abbrev cc7_sem9_0 : DmaSem sig := 75
abbrev cc8_sem0_0 : DmaSem sig := 76
abbrev cc8_sem0_1 : DmaSem sig := 77
abbrev cc8_sem1_0 : DmaSem sig := 78
abbrev cc8_sem2_0 : DmaSem sig := 79
abbrev cc8_sem3_0 : DmaSem sig := 80
abbrev cc8_sem4_0 : DmaSem sig := 81
abbrev cc8_sem5_0 : DmaSem sig := 82
abbrev cc8_sem5_1 : DmaSem sig := 83
abbrev cc9_sem0_0 : DmaSem sig := 84
abbrev cc9_sem0_1 : DmaSem sig := 85
abbrev cc9_sem1_0 : DmaSem sig := 86
abbrev cc9_sem2_0 : DmaSem sig := 87
abbrev cc9_sem3_0 : DmaSem sig := 88
abbrev cc9_sem3_1 : DmaSem sig := 89
abbrev cc9_sem4_0 : DmaSem sig := 90
abbrev cc9_sem5_0 : DmaSem sig := 91
abbrev cc10_sem0_0 : DmaSem sig := 92
abbrev cc10_sem0_1 : DmaSem sig := 93
abbrev cc10_sem1_0 : DmaSem sig := 94
abbrev cc10_sem2_0 : DmaSem sig := 95
abbrev cc10_sem3_0 : DmaSem sig := 96
abbrev cc10_sem4_0 : DmaSem sig := 97
abbrev cc10_sem5_0 : DmaSem sig := 98
abbrev cc10_sem6_0 : DmaSem sig := 99
abbrev cc10_sem7_0 : DmaSem sig := 100
abbrev cc10_sem7_1 : DmaSem sig := 101
abbrev cc10_sem8_0 : DmaSem sig := 102
abbrev cc10_sem9_0 : DmaSem sig := 103
abbrev cc11_sem0_0 : DmaSem sig := 104
abbrev cc11_sem0_1 : DmaSem sig := 105
abbrev cc11_sem1_0 : DmaSem sig := 106
abbrev cc11_sem2_0 : DmaSem sig := 107
abbrev cc11_sem3_0 : DmaSem sig := 108
abbrev cc11_sem4_0 : DmaSem sig := 109
abbrev cc11_sem5_0 : DmaSem sig := 110
abbrev cc11_sem5_1 : DmaSem sig := 111
abbrev cc12_sem0_0 : DmaSem sig := 112
abbrev cc12_sem0_1 : DmaSem sig := 113
abbrev cc12_sem1_0 : DmaSem sig := 114
abbrev cc12_sem1_1 : DmaSem sig := 115
abbrev cc12_sem2_0 : DmaSem sig := 116
abbrev cc12_sem2_1 : DmaSem sig := 117
abbrev cc12_sem3_0 : DmaSem sig := 118
abbrev cc12_sem3_1 : DmaSem sig := 119
abbrev cc12_sem4_0 : DmaSem sig := 120
abbrev cc12_sem4_1 : DmaSem sig := 121
abbrev cc12_sem5_0 : DmaSem sig := 122
abbrev cc12_sem6_0 : DmaSem sig := 123
abbrev cc12_sem7_0 : DmaSem sig := 124
abbrev cc12_sem7_1 : DmaSem sig := 125
abbrev cc12_sem8_0 : DmaSem sig := 126
abbrev cc12_sem8_1 : DmaSem sig := 127
abbrev cc12_sem9_0 : DmaSem sig := 128
abbrev cc12_sem9_1 : DmaSem sig := 129
abbrev cc12_sem10_0 : DmaSem sig := 130
abbrev cc12_sem10_1 : DmaSem sig := 131
abbrev cc12_sem11_0 : DmaSem sig := 132
abbrev cc12_sem11_1 : DmaSem sig := 133

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S10000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S10000x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 1 → Memref sig .tc .vmem S1x128 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S1x128 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S10000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S10000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S10000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_8 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_9 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S10000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S128x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x128 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 2 → Memref sig .tc .vmem S10000x128 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev stage10_8 : Fin 1 → Memref sig .tc .vmem S1x128 .f32 := fun | 0 => Memref.whole cc10_stg8_0 | ⟨_ + 1, h⟩ => absurd h (Nat.not_lt.2 (Nat.le_add_left _ _))
abbrev sem10_8 : Fin 1 → DmaSem sig := fun | 0 => cc10_sem8_0 | ⟨_ + 1, h⟩ => absurd h (Nat.not_lt.2 (Nat.le_add_left _ _))
abbrev reads10_8 : Fin grid10.rank → Bool := ![false]

abbrev stage10_9 : Fin 1 → Memref sig .tc .vmem S1x128 .f32 := fun | 0 => Memref.whole cc10_stg9_0 | ⟨_ + 1, h⟩ => absurd h (Nat.not_lt.2 (Nat.le_add_left _ _))
abbrev sem10_9 : Fin 1 → DmaSem sig := fun | 0 => cc10_sem9_0 | ⟨_ + 1, h⟩ => absurd h (Nat.not_lt.2 (Nat.le_add_left _ _))
abbrev reads10_9 : Fin grid10.rank → Bool := ![false]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S10000x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![100], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_7 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_8 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_9 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_10 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_11 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S1000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S1000x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S1000x128 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 2 → Memref sig .tc .vmem S1000x128 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev stage12_4 : Fin 2 → Memref sig .tc .vmem S1000x128 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev stage12_5 : Fin 1 → Memref sig .tc .vmem S640x1 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S1x1 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev stage12_7 : Fin 2 → Memref sig .tc .vmem S1000x128 .f32 := fun | 0 => Memref.whole cc12_stg7_0 | 1 => Memref.whole cc12_stg7_1 | ⟨_ + 2, h⟩ => absurd h (Nat.not_lt.2 (Nat.le_add_left _ _))
abbrev sem12_7 : Fin 2 → DmaSem sig := fun | 0 => cc12_sem7_0 | 1 => cc12_sem7_1 | ⟨_ + 2, h⟩ => absurd h (Nat.not_lt.2 (Nat.le_add_left _ _))
abbrev reads12_7 : Fin grid12.rank → Bool := ![true]

abbrev stage12_8 : Fin 2 → Memref sig .tc .vmem S1000x128 .f32 := fun | 0 => Memref.whole cc12_stg8_0 | 1 => Memref.whole cc12_stg8_1 | ⟨_ + 2, h⟩ => absurd h (Nat.not_lt.2 (Nat.le_add_left _ _))
abbrev sem12_8 : Fin 2 → DmaSem sig := fun | 0 => cc12_sem8_0 | 1 => cc12_sem8_1 | ⟨_ + 2, h⟩ => absurd h (Nat.not_lt.2 (Nat.le_add_left _ _))
abbrev reads12_8 : Fin grid12.rank → Bool := ![true]

abbrev stage12_9 : Fin 2 → Memref sig .tc .vmem S1000x128 .f32 := fun | 0 => Memref.whole cc12_stg9_0 | 1 => Memref.whole cc12_stg9_1 | ⟨_ + 2, h⟩ => absurd h (Nat.not_lt.2 (Nat.le_add_left _ _))
abbrev sem12_9 : Fin 2 → DmaSem sig := fun | 0 => cc12_sem9_0 | 1 => cc12_sem9_1 | ⟨_ + 2, h⟩ => absurd h (Nat.not_lt.2 (Nat.le_add_left _ _))
abbrev reads12_9 : Fin grid12.rank → Bool := ![true]

abbrev stage12_10 : Fin 2 → Memref sig .tc .vmem S1000x128 .f32 := fun | 0 => Memref.whole cc12_stg10_0 | 1 => Memref.whole cc12_stg10_1 | ⟨_ + 2, h⟩ => absurd h (Nat.not_lt.2 (Nat.le_add_left _ _))
abbrev sem12_10 : Fin 2 → DmaSem sig := fun | 0 => cc12_sem10_0 | 1 => cc12_sem10_1 | ⟨_ + 2, h⟩ => absurd h (Nat.not_lt.2 (Nat.le_add_left _ _))
abbrev reads12_10 : Fin grid12.rank → Bool := ![true]

abbrev stage12_11 : Fin 2 → Memref sig .tc .vmem S1000x128 .f32 := fun | 0 => Memref.whole cc12_stg11_0 | 1 => Memref.whole cc12_stg11_1 | ⟨_ + 2, h⟩ => absurd h (Nat.not_lt.2 (Nat.le_add_left _ _))
abbrev sem12_11 : Fin 2 → DmaSem sig := fun | 0 => cc12_sem11_0 | 1 => cc12_sem11_1 | ⟨_ + 2, h⟩ => absurd h (Nat.not_lt.2 (Nat.le_add_left _ _))
abbrev reads12_11 : Fin grid12.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S4_S1_0 : S4.Slices ![0] S1
  shapeCasts_S1_S_ : S1.ShapeCasts S_
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S10000x128 : S1x128.Broadcasts S10000x128
  reduces_S10000x128_S128 : S10000x128.Reduces [0] S128
  bcast_S_S1x128 : S_.BroadcastsInDim S1x128 (![] : Fin 0 → Fin S1x128.rank)
  slices_S4_S1_1 : S4.Slices ![1] S1
  slices_S4x128x128_S1x128x128_1_0_0 : S4x128x128.Slices ![1, 0, 0] S1x128x128
  slices_S4x128_S1x128_1_0 : S4x128.Slices ![1, 0] S1x128
  slices_S4_S1_2 : S4.Slices ![2] S1
  slices_S4x128x128_S1x128x128_2_0_0 : S4x128x128.Slices ![2, 0, 0] S1x128x128
  slices_S4x128_S1x128_2_0 : S4x128.Slices ![2, 0] S1x128
  slices_S4_S1_3 : S4.Slices ![3] S1
  slices_S4x128x128_S1x128x128_3_0_0 : S4x128x128.Slices ![3, 0, 0] S1x128x128
  slices_S4x128_S1x128_3_0 : S4x128.Slices ![3, 0] S1x128
  shapeCasts_S1_S1x1 : S1.ShapeCasts S1x1
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  concatenates_S1000x128_S1000x128_S1000x128_S1000x128_S1000x128_S1000x640_d1 : Shape.Concatenates [S1000x128, S1000x128, S1000x128, S1000x128, S1000x128] S1000x640 1
  inb_S640x1_S640x1_0_0 : ∀ a, (![0, 0] : Fin 2 → Nat) a + S640x1.size a ≤ S640x1.size a
  h_S640x1 : 0 < S640x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1000x1 : S1x1.Broadcasts S1000x1
  broadcasts_S1000x1_S1000x128 : S1000x1.Broadcasts S1000x128
  bcast_S_S100x128 : S_.BroadcastsInDim S100x128 (![] : Fin 0 → Fin S100x128.rank)
  bcast_S100000_S100000x1_0 : S100000.BroadcastsInDim S100000x1 (![0] : Fin 1 → Fin S100000x1.rank)
  concatenates_S100x128_S100x128_S100x128_S100x128_S100x128_S100x640_d1 : Shape.Concatenates [S100x128, S100x128, S100x128, S100x128, S100x128] S100x640 1
  concatenates_S100x640_S100x16_S100x656_d1 : Shape.Concatenates [S100x640, S100x16] S100x656 1
  bcast_S10_S1x10_1 : S10.BroadcastsInDim S1x10 (![1] : Fin 1 → Fin S1x10.rank)
  bcast_S1x10_S100x10_0_1 : S1x10.BroadcastsInDim S100x10 (![0, 1] : Fin 2 → Fin S100x10.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  dot_S1000x640_S640x1_S1000x1_1_0_0_1_n_n_wf : DotDims.WF S1000x640 S640x1 S1000x1 [1] [0] [0] [1] [] []
  scatter_S100x128_S100000x1_S100000x128_1_0_0_1_wf : ScatterDims.WF S100x128 S100000x1 S100000x128 [1] [0] [0] 1
  dot_S100x656_S656x10_S100x10_1_0_0_1_n_n_wf : DotDims.WF S100x656 S656x10 S100x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x128.size a ≤ S100000x128.size a
  hwx1_7 : ∀ i : grid1.Coords, EltTy.bits .f32 = 32 ∨ (Rect.block (s := S100000x128) S10000x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S100000x128.size a
  hwx2_5 : ∀ i : grid2.Coords, EltTy.bits .f32 = 32 ∨ (Rect.block (s := S100000x128) S10000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S100000x128.size a
  hwx3_3 : ∀ i : grid3.Coords, EltTy.bits .f32 = 32 ∨ (Rect.block (s := S100000x128) S10000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S10000x128.size a ≤ S100000x128.size a
  hwx4_7 : ∀ i : grid4.Coords, EltTy.bits .f32 = 32 ∨ (Rect.block (s := S100000x128) S10000x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x128.size a ≤ S1x128.size a
  hwx4_9 : ∀ i : grid4.Coords, EltTy.bits .f32 = 32 ∨ (Rect.block (s := S1x128) S1x128.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x128.size a ≤ S100000x128.size a
  hwx5_5 : ∀ i : grid5.Coords, EltTy.bits .f32 = 32 ∨ (Rect.block (s := S100000x128) S10000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x128.size a ≤ S100000x128.size a
  hwx6_3 : ∀ i : grid6.Coords, EltTy.bits .f32 = 32 ∨ (Rect.block (s := S100000x128) S10000x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S100000x128.size a
  hwx7_0 : ∀ i : grid7.Coords, EltTy.bits .f32 = 32 ∨ (Rect.block (s := S100000x128) S10000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128x128.size a ≤ S128x128.size a
  hwx7_5 : ∀ i : grid7.Coords, EltTy.bits .f32 = 32 ∨ (Rect.block (s := S128x128) S128x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S10000x128.size a ≤ S100000x128.size a
  hwx7_7 : ∀ i : grid7.Coords, EltTy.bits .f32 = 32 ∨ (Rect.block (s := S100000x128) S10000x128.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x128.size a ≤ S1x128.size a
  hwx7_8 : ∀ i : grid7.Coords, EltTy.bits .f32 = 32 ∨ (Rect.block (s := S1x128) S1x128.size (cc7_transform_8 i) (hinb7_8 i)).WholeWords (EltTy.packing .f32)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S1x128.size a ≤ S1x128.size a
  hwx7_9 : ∀ i : grid7.Coords, EltTy.bits .f32 = 32 ∨ (Rect.block (s := S1x128) S1x128.size (cc7_transform_9 i) (hinb7_9 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x128.size a ≤ S100000x128.size a
  hwx8_0 : ∀ i : grid8.Coords, EltTy.bits .f32 = 32 ∨ (Rect.block (s := S100000x128) S10000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S10000x128.size a ≤ S100000x128.size a
  hwx8_5 : ∀ i : grid8.Coords, EltTy.bits .f32 = 32 ∨ (Rect.block (s := S100000x128) S10000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x128.size a ≤ S100000x128.size a
  hwx9_0 : ∀ i : grid9.Coords, EltTy.bits .f32 = 32 ∨ (Rect.block (s := S100000x128) S10000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S10000x128.size a ≤ S100000x128.size a
  hwx9_3 : ∀ i : grid9.Coords, EltTy.bits .f32 = 32 ∨ (Rect.block (s := S100000x128) S10000x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x128.size a ≤ S1x128.size a
  hwx9_5 : ∀ i : grid9.Coords, EltTy.bits .f32 = 32 ∨ (Rect.block (s := S1x128) S1x128.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x128.size a ≤ S100000x128.size a
  hwx10_0 : ∀ i : grid10.Coords, EltTy.bits .f32 = 32 ∨ (Rect.block (s := S100000x128) S10000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S128x128.size a ≤ S128x128.size a
  hwx10_5 : ∀ i : grid10.Coords, EltTy.bits .f32 = 32 ∨ (Rect.block (s := S128x128) S128x128.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x128.size a ≤ S1x128.size a
  hwx10_6 : ∀ i : grid10.Coords, EltTy.bits .f32 = 32 ∨ (Rect.block (s := S1x128) S1x128.size (cc10_transform_6 i) (hinb10_6 i)).WholeWords (EltTy.packing .f32)
  hstage10_7 : ∀ j, (stage10_7 j).IsWhole
  nbuf10_7 : grid10.bufCount reads10_7 false = 2
  hreads10_7 : ∀ i i' : grid10.Coords, (∀ a, reads10_7 a = true → i a = i' a) → cc10_transform_7 i = cc10_transform_7 i'
  hinb10_7 : ∀ (i : grid10.Coords) a, (cc10_transform_7 i a + 1) * S10000x128.size a ≤ S100000x128.size a
  hwx10_7 : ∀ i : grid10.Coords, EltTy.bits .f32 = 32 ∨ (Rect.block (s := S100000x128) S10000x128.size (cc10_transform_7 i) (hinb10_7 i)).WholeWords (EltTy.packing .f32)
  hstage10_8 : ∀ j, (stage10_8 j).IsWhole
  nbuf10_8 : grid10.bufCount reads10_8 true = 1
  hreads10_8 : ∀ i i' : grid10.Coords, (∀ a, reads10_8 a = true → i a = i' a) → cc10_transform_8 i = cc10_transform_8 i'
  hinb10_8 : ∀ (i : grid10.Coords) a, (cc10_transform_8 i a + 1) * S1x128.size a ≤ S1x128.size a
  hwx10_8 : ∀ i : grid10.Coords, EltTy.bits .f32 = 32 ∨ (Rect.block (s := S1x128) S1x128.size (cc10_transform_8 i) (hinb10_8 i)).WholeWords (EltTy.packing .f32)
  hstage10_9 : ∀ j, (stage10_9 j).IsWhole
  nbuf10_9 : grid10.bufCount reads10_9 true = 1
  hreads10_9 : ∀ i i' : grid10.Coords, (∀ a, reads10_9 a = true → i a = i' a) → cc10_transform_9 i = cc10_transform_9 i'
  hinb10_9 : ∀ (i : grid10.Coords) a, (cc10_transform_9 i a + 1) * S1x128.size a ≤ S1x128.size a
  hwx10_9 : ∀ i : grid10.Coords, EltTy.bits .f32 = 32 ∨ (Rect.block (s := S1x128) S1x128.size (cc10_transform_9 i) (hinb10_9 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x128.size a ≤ S100000x128.size a
  hwx11_0 : ∀ i : grid11.Coords, EltTy.bits .f32 = 32 ∨ (Rect.block (s := S100000x128) S10000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S10000x128.size a ≤ S100000x128.size a
  hwx11_5 : ∀ i : grid11.Coords, EltTy.bits .f32 = 32 ∨ (Rect.block (s := S100000x128) S10000x128.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S1000x128.size a ≤ S100000x128.size a
  hwx12_0 : ∀ i : grid12.Coords, EltTy.bits .f32 = 32 ∨ (Rect.block (s := S100000x128) S1000x128.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S1000x128.size a ≤ S100000x128.size a
  hwx12_1 : ∀ i : grid12.Coords, EltTy.bits .f32 = 32 ∨ (Rect.block (s := S100000x128) S1000x128.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S1000x128.size a ≤ S100000x128.size a
  hwx12_2 : ∀ i : grid12.Coords, EltTy.bits .f32 = 32 ∨ (Rect.block (s := S100000x128) S1000x128.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S1000x128.size a ≤ S100000x128.size a
  hwx12_3 : ∀ i : grid12.Coords, EltTy.bits .f32 = 32 ∨ (Rect.block (s := S100000x128) S1000x128.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S1000x128.size a ≤ S100000x128.size a
  hwx12_4 : ∀ i : grid12.Coords, EltTy.bits .f32 = 32 ∨ (Rect.block (s := S100000x128) S1000x128.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S640x1.size a ≤ S640x1.size a
  hwx12_5 : ∀ i : grid12.Coords, EltTy.bits .f32 = 32 ∨ (Rect.block (s := S640x1) S640x1.size (cc12_transform_5 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S1x1.size a ≤ S1x1.size a
  hwx12_6 : ∀ i : grid12.Coords, EltTy.bits .f32 = 32 ∨ (Rect.block (s := S1x1) S1x1.size (cc12_transform_6 i) (hinb12_6 i)).WholeWords (EltTy.packing .f32)
  hstage12_7 : ∀ j, (stage12_7 j).IsWhole
  nbuf12_7 : grid12.bufCount reads12_7 false = 2
  hreads12_7 : ∀ i i' : grid12.Coords, (∀ a, reads12_7 a = true → i a = i' a) → cc12_transform_7 i = cc12_transform_7 i'
  hinb12_7 : ∀ (i : grid12.Coords) a, (cc12_transform_7 i a + 1) * S1000x128.size a ≤ S100000x128.size a
  hwx12_7 : ∀ i : grid12.Coords, EltTy.bits .f32 = 32 ∨ (Rect.block (s := S100000x128) S1000x128.size (cc12_transform_7 i) (hinb12_7 i)).WholeWords (EltTy.packing .f32)
  hstage12_8 : ∀ j, (stage12_8 j).IsWhole
  nbuf12_8 : grid12.bufCount reads12_8 false = 2
  hreads12_8 : ∀ i i' : grid12.Coords, (∀ a, reads12_8 a = true → i a = i' a) → cc12_transform_8 i = cc12_transform_8 i'
  hinb12_8 : ∀ (i : grid12.Coords) a, (cc12_transform_8 i a + 1) * S1000x128.size a ≤ S100000x128.size a
  hwx12_8 : ∀ i : grid12.Coords, EltTy.bits .f32 = 32 ∨ (Rect.block (s := S100000x128) S1000x128.size (cc12_transform_8 i) (hinb12_8 i)).WholeWords (EltTy.packing .f32)
  hstage12_9 : ∀ j, (stage12_9 j).IsWhole
  nbuf12_9 : grid12.bufCount reads12_9 false = 2
  hreads12_9 : ∀ i i' : grid12.Coords, (∀ a, reads12_9 a = true → i a = i' a) → cc12_transform_9 i = cc12_transform_9 i'
  hinb12_9 : ∀ (i : grid12.Coords) a, (cc12_transform_9 i a + 1) * S1000x128.size a ≤ S100000x128.size a
  hwx12_9 : ∀ i : grid12.Coords, EltTy.bits .f32 = 32 ∨ (Rect.block (s := S100000x128) S1000x128.size (cc12_transform_9 i) (hinb12_9 i)).WholeWords (EltTy.packing .f32)
  hstage12_10 : ∀ j, (stage12_10 j).IsWhole
  nbuf12_10 : grid12.bufCount reads12_10 false = 2
  hreads12_10 : ∀ i i' : grid12.Coords, (∀ a, reads12_10 a = true → i a = i' a) → cc12_transform_10 i = cc12_transform_10 i'
  hinb12_10 : ∀ (i : grid12.Coords) a, (cc12_transform_10 i a + 1) * S1000x128.size a ≤ S100000x128.size a
  hwx12_10 : ∀ i : grid12.Coords, EltTy.bits .f32 = 32 ∨ (Rect.block (s := S100000x128) S1000x128.size (cc12_transform_10 i) (hinb12_10 i)).WholeWords (EltTy.packing .f32)
  hstage12_11 : ∀ j, (stage12_11 j).IsWhole
  nbuf12_11 : grid12.bufCount reads12_11 false = 2
  hreads12_11 : ∀ i i' : grid12.Coords, (∀ a, reads12_11 a = true → i a = i' a) → cc12_transform_11 i = cc12_transform_11 i'
  hinb12_11 : ∀ (i : grid12.Coords) a, (cc12_transform_11 i a + 1) * S1000x128.size a ≤ S100000x128.size a
  hwx12_11 : ∀ i : grid12.Coords, EltTy.bits .f32 = 32 ∨ (Rect.block (s := S100000x128) S1000x128.size (cc12_transform_11 i) (hinb12_11 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S1000x640_S640x1_S1000x1_1_0_0_1_n_n : DotDims S1000x640 S640x1 S1000x1 where
  lhsContracting := [1]
  rhsContracting := [0]
  lhsNonContracting := [0]
  rhsNonContracting := [1]
  lhsBatch := []
  rhsBatch := []
  wf := dot_S1000x640_S640x1_S1000x1_1_0_0_1_n_n_wf
def scatter_S100x128_S100000x1_S100000x128_1_0_0_1 : ScatterDims S100x128 S100000x1 S100000x128 where
  updateWindowDims := [1]
  insertedWindowDims := [0]
  scatterDimsToOperandDims := [0]
  indexVectorDim := 1
  wf := scatter_S100x128_S100000x1_S100000x128_1_0_0_1_wf
def dot_S100x656_S656x10_S100x10_1_0_0_1_n_n : DotDims S100x656 S656x10 S100x10 where
  lhsContracting := [1]
  rhsContracting := [0]
  lhsNonContracting := [0]
  rhsNonContracting := [1]
  lhsBatch := []
  rhsBatch := []
  wf := dot_S100x656_S656x10_S100x10_1_0_0_1_n_n_wf

abbrev win0_0 : Pipeline.Window sig grid0 :=
  Pipeline.Window.ofSpec (Memref.whole main_v15) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21_0) S10000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21_1) S1x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21_2) S1x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v21_0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v39_0) S10000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v39_1) S1x128.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v39_2) S1x128.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v39_0) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S10000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v68) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v70) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v73) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v74_0) S10000x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v74_1) S1x128.size cc3_transform_4 reads3_4 true true 1 stage3_4 sem3_4
    hrank3 hreads3_4 hinb3_4 nbuf3_4 (Memref.isWhole_whole _) hwx3_4 hstage3_4

abbrev win3_5 : Pipeline.Window sig grid3 :=
  Pipeline.Window.ofSpec (Memref.whole main_v74_2) S1x128.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v74_0) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v76) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v80) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v83) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v86) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v88) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v91) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v92_0) S10000x128.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v92_1) S1x128.size cc4_transform_8 reads4_8 true true 1 stage4_8 sem4_8
    hrank4 hreads4_8 hinb4_8 nbuf4_8 (Memref.isWhole_whole _) hwx4_8 hstage4_8

abbrev win4_9 : Pipeline.Window sig grid4 :=
  Pipeline.Window.ofSpec (Memref.whole main_v92_2) S1x128.size cc4_transform_9 reads4_9 true true 1 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v92_0) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v94) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v98) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v101) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v104) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v105) S10000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v121) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v123) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v126) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v127_0) S10000x128.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v127_1) S1x128.size cc6_transform_4 reads6_4 true true 1 stage6_4 sem6_4
    hrank6 hreads6_4 hinb6_4 nbuf6_4 (Memref.isWhole_whole _) hwx6_4 hstage6_4

abbrev win6_5 : Pipeline.Window sig grid6 :=
  Pipeline.Window.ofSpec (Memref.whole main_v127_2) S1x128.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v127_0) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v129) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v133) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v136) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v139) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v141) S128x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v144) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v145_0) S10000x128.size cc7_transform_7 reads7_7 true false 2 stage7_7 sem7_7
    hrank7 hreads7_7 hinb7_7 nbuf7_7 (Memref.isWhole_whole _) hwx7_7 hstage7_7

abbrev win7_8 : Pipeline.Window sig grid7 :=
  Pipeline.Window.ofSpec (Memref.whole main_v145_1) S1x128.size cc7_transform_8 reads7_8 true true 1 stage7_8 sem7_8
    hrank7 hreads7_8 hinb7_8 nbuf7_8 (Memref.isWhole_whole _) hwx7_8 hstage7_8

abbrev win7_9 : Pipeline.Window sig grid7 :=
  Pipeline.Window.ofSpec (Memref.whole main_v145_2) S1x128.size cc7_transform_9 reads7_9 true true 1 stage7_9 sem7_9
    hrank7 hreads7_9 hinb7_9 nbuf7_9 (Memref.isWhole_whole _) hwx7_9 hstage7_9

abbrev win7 : Fin 10 → Pipeline.Window sig grid7 := fun | 0 => win7_0 | 1 => win7_1 | 2 => win7_2 | 3 => win7_3 | 4 => win7_4 | 5 => win7_5 | 6 => win7_6 | 7 => win7_7 | 8 => win7_8 | 9 => win7_9 | ⟨_ + 10, h⟩ => absurd h (Nat.not_lt.2 (Nat.le_add_left _ _))
abbrev spec7 : Fin 10 → Pipeline.WinSpec sig grid7.rank := fun w => (win7 w).toWinSpec

abbrev win8_0 : Pipeline.Window sig grid8 :=
  Pipeline.Window.ofSpec (Memref.whole main_v145_0) S10000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v147) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v151) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v154) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v157) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v158) S10000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v174) S10000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v176) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v179) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v180_0) S10000x128.size cc9_transform_3 reads9_3 true false 2 stage9_3 sem9_3
    hrank9 hreads9_3 hinb9_3 nbuf9_3 (Memref.isWhole_whole _) hwx9_3 hstage9_3

abbrev win9_4 : Pipeline.Window sig grid9 :=
  Pipeline.Window.ofSpec (Memref.whole main_v180_1) S1x128.size cc9_transform_4 reads9_4 true true 1 stage9_4 sem9_4
    hrank9 hreads9_4 hinb9_4 nbuf9_4 (Memref.isWhole_whole _) hwx9_4 hstage9_4

abbrev win9_5 : Pipeline.Window sig grid9 :=
  Pipeline.Window.ofSpec (Memref.whole main_v180_2) S1x128.size cc9_transform_5 reads9_5 true true 1 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v180_0) S10000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v182) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v186) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v189) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v192) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v194) S128x128.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v197) S1x128.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v198_0) S10000x128.size cc10_transform_7 reads10_7 true false 2 stage10_7 sem10_7
    hrank10 hreads10_7 hinb10_7 nbuf10_7 (Memref.isWhole_whole _) hwx10_7 hstage10_7

abbrev win10_8 : Pipeline.Window sig grid10 :=
  Pipeline.Window.ofSpec (Memref.whole main_v198_1) S1x128.size cc10_transform_8 reads10_8 true true 1 stage10_8 sem10_8
    hrank10 hreads10_8 hinb10_8 nbuf10_8 (Memref.isWhole_whole _) hwx10_8 hstage10_8

abbrev win10_9 : Pipeline.Window sig grid10 :=
  Pipeline.Window.ofSpec (Memref.whole main_v198_2) S1x128.size cc10_transform_9 reads10_9 true true 1 stage10_9 sem10_9
    hrank10 hreads10_9 hinb10_9 nbuf10_9 (Memref.isWhole_whole _) hwx10_9 hstage10_9

abbrev win10 : Fin 10 → Pipeline.Window sig grid10 := fun | 0 => win10_0 | 1 => win10_1 | 2 => win10_2 | 3 => win10_3 | 4 => win10_4 | 5 => win10_5 | 6 => win10_6 | 7 => win10_7 | 8 => win10_8 | 9 => win10_9 | ⟨_ + 10, h⟩ => absurd h (Nat.not_lt.2 (Nat.le_add_left _ _))
abbrev spec10 : Fin 10 → Pipeline.WinSpec sig grid10.rank := fun w => (win10 w).toWinSpec

abbrev win11_0 : Pipeline.Window sig grid11 :=
  Pipeline.Window.ofSpec (Memref.whole main_v198_0) S10000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v200) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v204) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v207) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v210) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v211) S10000x128.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_arg0) S1000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v52) S1000x128.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v105) S1000x128.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_v158) S1000x128.size cc12_transform_3 reads12_3 false false 2 stage12_3 sem12_3
    hrank12 hreads12_3 hinb12_3 nbuf12_3 (Memref.isWhole_whole _) hwx12_3 hstage12_3

abbrev win12_4 : Pipeline.Window sig grid12 :=
  Pipeline.Window.ofSpec (Memref.whole main_v211) S1000x128.size cc12_transform_4 reads12_4 false false 2 stage12_4 sem12_4
    hrank12 hreads12_4 hinb12_4 nbuf12_4 (Memref.isWhole_whole _) hwx12_4 hstage12_4

abbrev win12_5 : Pipeline.Window sig grid12 :=
  Pipeline.Window.ofSpec (Memref.whole main_arg14) S640x1.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v212) S1x1.size cc12_transform_6 reads12_6 false true 1 stage12_6 sem12_6
    hrank12 hreads12_6 hinb12_6 nbuf12_6 (Memref.isWhole_whole _) hwx12_6 hstage12_6

abbrev win12_7 : Pipeline.Window sig grid12 :=
  Pipeline.Window.ofSpec (Memref.whole main_v213_0) S1000x128.size cc12_transform_7 reads12_7 true false 2 stage12_7 sem12_7
    hrank12 hreads12_7 hinb12_7 nbuf12_7 (Memref.isWhole_whole _) hwx12_7 hstage12_7

abbrev win12_8 : Pipeline.Window sig grid12 :=
  Pipeline.Window.ofSpec (Memref.whole main_v213_1) S1000x128.size cc12_transform_8 reads12_8 true false 2 stage12_8 sem12_8
    hrank12 hreads12_8 hinb12_8 nbuf12_8 (Memref.isWhole_whole _) hwx12_8 hstage12_8

abbrev win12_9 : Pipeline.Window sig grid12 :=
  Pipeline.Window.ofSpec (Memref.whole main_v213_2) S1000x128.size cc12_transform_9 reads12_9 true false 2 stage12_9 sem12_9
    hrank12 hreads12_9 hinb12_9 nbuf12_9 (Memref.isWhole_whole _) hwx12_9 hstage12_9

abbrev win12_10 : Pipeline.Window sig grid12 :=
  Pipeline.Window.ofSpec (Memref.whole main_v213_3) S1000x128.size cc12_transform_10 reads12_10 true false 2 stage12_10 sem12_10
    hrank12 hreads12_10 hinb12_10 nbuf12_10 (Memref.isWhole_whole _) hwx12_10 hstage12_10

abbrev win12_11 : Pipeline.Window sig grid12 :=
  Pipeline.Window.ofSpec (Memref.whole main_v213_4) S1000x128.size cc12_transform_11 reads12_11 true false 2 stage12_11 sem12_11
    hrank12 hreads12_11 hinb12_11 nbuf12_11 (Memref.isWhole_whole _) hwx12_11 hstage12_11

abbrev win12 : Fin 12 → Pipeline.Window sig grid12 := fun | 0 => win12_0 | 1 => win12_1 | 2 => win12_2 | 3 => win12_3 | 4 => win12_4 | 5 => win12_5 | 6 => win12_6 | 7 => win12_7 | 8 => win12_8 | 9 => win12_9 | 10 => win12_10 | 11 => win12_11 | ⟨_ + 12, h⟩ => absurd h (Nat.not_lt.2 (Nat.le_add_left _ _))
abbrev spec12 : Fin 12 → Pipeline.WinSpec sig grid12.rank := fun w => (win12 w).toWinSpec

class Facts : Prop extends Facts₀ where

variable [Facts]
-- ==== ReferenceIdeal.lean ====
abbrev S100000x128 : Shape := ⟨2, ![100000, 128]⟩
abbrev S100x16 : Shape := ⟨2, ![100, 16]⟩
abbrev S1600000 : Shape := ⟨1, ![1600000]⟩
abbrev S100000 : Shape := ⟨1, ![100000]⟩
abbrev S4 : Shape := ⟨1, ![4]⟩
abbrev S4x128x128 : Shape := ⟨3, ![4, 128, 128]⟩
abbrev S4x128 : Shape := ⟨2, ![4, 128]⟩
abbrev S640x1 : Shape := ⟨2, ![640, 1]⟩
abbrev S1 : Shape := ⟨1, ![1]⟩
abbrev S656x10 : Shape := ⟨2, ![656, 10]⟩
abbrev S10 : Shape := ⟨1, ![10]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S100000x640 : Shape := ⟨2, ![100000, 640]⟩
abbrev S100000x1 : Shape := ⟨2, ![100000, 1]⟩
abbrev S1x1 : Shape := ⟨2, ![1, 1]⟩
abbrev S100x640 : Shape := ⟨2, ![100, 640]⟩
abbrev S100x656 : Shape := ⟨2, ![100, 656]⟩
abbrev S100x10 : Shape := ⟨2, ![100, 10]⟩
abbrev S1x10 : Shape := ⟨2, ![1, 10]⟩

abbrev nBuf : Space → Nat
  | .hbm => 586
  | .vmem => 0
  | .smem => 0
  | _ => 0

abbrev hbmTy0_0 (i : Nat) : BufTy := match i % 128 with
  | 0 => ⟨S100000x128, .f32⟩
  | 1 => ⟨S100x16, .f32⟩
  | 2 => ⟨S1600000, .i32⟩
  | 3 => ⟨S1600000, .i32⟩
  | 4 => ⟨S100000, .i32⟩
  | 5 => ⟨S4, .f32⟩
  | 6 => ⟨S4x128x128, .f32⟩
  | 7 => ⟨S4x128, .f32⟩
  | 8 => ⟨S4x128, .f32⟩
  | 9 => ⟨S4x128, .f32⟩
  | 10 => ⟨S4x128x128, .f32⟩
  | 11 => ⟨S4x128, .f32⟩
  | 12 => ⟨S4x128, .f32⟩
  | 13 => ⟨S4x128, .f32⟩
  | 14 => ⟨S640x1, .f32⟩
  | 15 => ⟨S1, .f32⟩
  | 16 => ⟨S656x10, .f32⟩
  | 17 => ⟨S10, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x128, .f32⟩
  | 27 => ⟨S_, .f32⟩
  | 28 => ⟨S100000x128, .f32⟩
  | 29 => ⟨S1600000x1, .i32⟩
  | 30 => ⟨S100000x128, .f32⟩
  | 31 => ⟨S1, .f32⟩
  | 32 => ⟨S_, .f32⟩
  | 33 => ⟨S_, .f32⟩
  | 34 => ⟨S_, .f32⟩
  | 35 => ⟨S100000x128, .f32⟩
  | 36 => ⟨S100000x128, .f32⟩
  | 37 => ⟨S100000x128, .f32⟩
  | 38 => ⟨S1x128x128, .f32⟩
  | 39 => ⟨S128x128, .f32⟩
  | 40 => ⟨S100000x128, .f32⟩
  | 41 => ⟨S1x128, .f32⟩
  | 42 => ⟨S128, .f32⟩
  | 43 => ⟨S1x128, .f32⟩
  | 44 => ⟨S100000x128, .f32⟩
  | 45 => ⟨S100000x128, .f32⟩
  | 46 => ⟨S1x128, .f32⟩
  | 47 => ⟨S128, .f32⟩
  | 48 => ⟨S1x128, .f32⟩
  | 49 => ⟨S128, .f32⟩
  | 50 => ⟨S_, .f32⟩
  | 51 => ⟨S128, .f32⟩
  | 52 => ⟨S_, .f32⟩
  | 53 => ⟨S128, .f32⟩
  | 54 => ⟨S128, .f32⟩
  | 55 => ⟨S_, .i32⟩
  | 56 => ⟨S_, .f32⟩
  | 57 => ⟨S128, .f32⟩
  | 58 => ⟨S1x128, .f32⟩
  | 59 => ⟨S_, .f32⟩
  | 60 => ⟨S1x128, .f32⟩
  | 61 => ⟨S1x128, .f32⟩
  | 62 => ⟨S100000x128, .f32⟩
  | 63 => ⟨S100000x128, .f32⟩
  | 64 => ⟨S100000x128, .f32⟩
  | 65 => ⟨S_, .f32⟩
  | 66 => ⟨S_, .f32⟩
  | 67 => ⟨S_, .f32⟩
  | 68 => ⟨S_, .f32⟩
  | 69 => ⟨S128, .f32⟩
  | 70 => ⟨S128, .f32⟩
  | 71 => ⟨S128, .f32⟩
  | 72 => ⟨S_, .f32⟩
  | 73 => ⟨S_, .i1⟩
  | 74 => ⟨S_, .f32⟩
  | 75 => ⟨S_, .f32⟩
  | 76 => ⟨S128, .f32⟩
  | 77 => ⟨S128, .f32⟩
  | 78 => ⟨S1x128, .f32⟩
  | 79 => ⟨S100000x128, .f32⟩
  | 80 => ⟨S100000x128, .f32⟩
  | 81 => ⟨S_, .f32⟩
  | 82 => ⟨S128, .f32⟩
  | 83 => ⟨S128, .f32⟩
  | 84 => ⟨S128, .f32⟩
  | 85 => ⟨S1x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S1x128x128, .f32⟩
  | 98 => ⟨S128x128, .f32⟩
  | 99 => ⟨S100000x128, .f32⟩
  | 100 => ⟨S1x128, .f32⟩
  | 101 => ⟨S128, .f32⟩
  | 102 => ⟨S1x128, .f32⟩
  | 103 => ⟨S100000x128, .f32⟩
  | 104 => ⟨S100000x128, .f32⟩
  | 105 => ⟨S1x128, .f32⟩
  | 106 => ⟨S128, .f32⟩
  | 107 => ⟨S1x128, .f32⟩
  | 108 => ⟨S128, .f32⟩
  | 109 => ⟨S_, .f32⟩
  | 110 => ⟨S128, .f32⟩
  | 111 => ⟨S_, .f32⟩
  | 112 => ⟨S128, .f32⟩
  | 113 => ⟨S128, .f32⟩
  | 114 => ⟨S_, .i32⟩
  | 115 => ⟨S_, .f32⟩
  | 116 => ⟨S128, .f32⟩
  | 117 => ⟨S1x128, .f32⟩
  | 118 => ⟨S_, .f32⟩
  | 119 => ⟨S1x128, .f32⟩
  | 120 => ⟨S1x128, .f32⟩
  | 121 => ⟨S100000x128, .f32⟩
  | 122 => ⟨S100000x128, .f32⟩
  | 123 => ⟨S100000x128, .f32⟩
  | 124 => ⟨S_, .f32⟩
  | 125 => ⟨S_, .f32⟩
  | 126 => ⟨S_, .f32⟩
  | 127 => ⟨S_, .f32⟩
  | _ => ⟨S100000x128, .f32⟩

abbrev hbmTy0_1 (i : Nat) : BufTy := match i % 128 with
  | 0 => ⟨S128, .f32⟩
  | 1 => ⟨S128, .f32⟩
  | 2 => ⟨S128, .f32⟩
  | 3 => ⟨S_, .f32⟩
  | 4 => ⟨S_, .i1⟩
  | 5 => ⟨S_, .f32⟩
  | 6 => ⟨S_, .f32⟩
  | 7 => ⟨S128, .f32⟩
  | 8 => ⟨S128, .f32⟩
  | 9 => ⟨S1x128, .f32⟩
  | 10 => ⟨S100000x128, .f32⟩
  | 11 => ⟨S100000x128, .f32⟩
  | 12 => ⟨S_, .f32⟩
  | 13 => ⟨S128, .f32⟩
  | 14 => ⟨S128, .f32⟩
  | 15 => ⟨S128, .f32⟩
  | 16 => ⟨S1x128, .f32⟩
  | 17 => ⟨S100000x128, .f32⟩
  | 18 => ⟨S100000x128, .f32⟩
  | 19 => ⟨S1x128, .f32⟩
  | 20 => ⟨S100000x128, .f32⟩
  | 21 => ⟨S100000x128, .f32⟩
  | 22 => ⟨S1x128, .f32⟩
  | 23 => ⟨S100000x128, .f32⟩
  | 24 => ⟨S100000x128, .f32⟩
  | 25 => ⟨S_, .f32⟩
  | 26 => ⟨S100000x128, .f32⟩
  | 27 => ⟨S100000x128, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x128, .f32⟩
  | 37 => ⟨S_, .f32⟩
  | 38 => ⟨S100000x128, .f32⟩
  | 39 => ⟨S1600000x1, .i32⟩
  | 40 => ⟨S100000x128, .f32⟩
  | 41 => ⟨S1, .f32⟩
  | 42 => ⟨S_, .f32⟩
  | 43 => ⟨S_, .f32⟩
  | 44 => ⟨S_, .f32⟩
  | 45 => ⟨S100000x128, .f32⟩
  | 46 => ⟨S100000x128, .f32⟩
  | 47 => ⟨S100000x128, .f32⟩
  | 48 => ⟨S1x128x128, .f32⟩
  | 49 => ⟨S128x128, .f32⟩
  | 50 => ⟨S100000x128, .f32⟩
  | 51 => ⟨S1x128, .f32⟩
  | 52 => ⟨S128, .f32⟩
  | 53 => ⟨S1x128, .f32⟩
  | 54 => ⟨S100000x128, .f32⟩
  | 55 => ⟨S100000x128, .f32⟩
  | 56 => ⟨S1x128, .f32⟩
  | 57 => ⟨S128, .f32⟩
  | 58 => ⟨S1x128, .f32⟩
  | 59 => ⟨S128, .f32⟩
  | 60 => ⟨S_, .f32⟩
  | 61 => ⟨S128, .f32⟩
  | 62 => ⟨S_, .f32⟩
  | 63 => ⟨S128, .f32⟩
  | 64 => ⟨S128, .f32⟩
  | 65 => ⟨S_, .i32⟩
  | 66 => ⟨S_, .f32⟩
  | 67 => ⟨S128, .f32⟩
  | 68 => ⟨S1x128, .f32⟩
  | 69 => ⟨S_, .f32⟩
  | 70 => ⟨S1x128, .f32⟩
  | 71 => ⟨S1x128, .f32⟩
  | 72 => ⟨S100000x128, .f32⟩
  | 73 => ⟨S100000x128, .f32⟩
  | 74 => ⟨S100000x128, .f32⟩
  | 75 => ⟨S_, .f32⟩
  | 76 => ⟨S_, .f32⟩
  | 77 => ⟨S_, .f32⟩
  | 78 => ⟨S_, .f32⟩
  | 79 => ⟨S128, .f32⟩
  | 80 => ⟨S128, .f32⟩
  | 81 => ⟨S128, .f32⟩
  | 82 => ⟨S_, .f32⟩
  | 83 => ⟨S_, .i1⟩
  | 84 => ⟨S_, .f32⟩
  | 85 => ⟨S_, .f32⟩
  | 86 => ⟨S128, .f32⟩
  | 87 => ⟨S128, .f32⟩
  | 88 => ⟨S1x128, .f32⟩
  | 89 => ⟨S100000x128, .f32⟩
  | 90 => ⟨S100000x128, .f32⟩
  | 91 => ⟨S_, .f32⟩
  | 92 => ⟨S128, .f32⟩
  | 93 => ⟨S128, .f32⟩
  | 94 => ⟨S128, .f32⟩
  | 95 => ⟨S1x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S_, .f32⟩
  | 105 => ⟨S100000x128, .f32⟩
  | 106 => ⟨S100000x128, .f32⟩
  | 107 => ⟨S1x128x128, .f32⟩
  | 108 => ⟨S128x128, .f32⟩
  | 109 => ⟨S100000x128, .f32⟩
  | 110 => ⟨S1x128, .f32⟩
  | 111 => ⟨S128, .f32⟩
  | 112 => ⟨S1x128, .f32⟩
  | 113 => ⟨S100000x128, .f32⟩
  | 114 => ⟨S100000x128, .f32⟩
  | 115 => ⟨S1x128, .f32⟩
  | 116 => ⟨S128, .f32⟩
  | 117 => ⟨S1x128, .f32⟩
  | 118 => ⟨S128, .f32⟩
  | 119 => ⟨S_, .f32⟩
  | 120 => ⟨S128, .f32⟩
  | 121 => ⟨S_, .f32⟩
  | 122 => ⟨S128, .f32⟩
  | 123 => ⟨S128, .f32⟩
  | 124 => ⟨S_, .i32⟩
  | 125 => ⟨S_, .f32⟩
  | 126 => ⟨S128, .f32⟩
  | 127 => ⟨S1x128, .f32⟩
  | _ => ⟨S100000x128, .f32⟩

abbrev hbmTy0_2 (i : Nat) : BufTy := match i % 128 with
  | 0 => ⟨S_, .f32⟩
  | 1 => ⟨S1x128, .f32⟩
  | 2 => ⟨S1x128, .f32⟩
  | 3 => ⟨S100000x128, .f32⟩
  | 4 => ⟨S100000x128, .f32⟩
  | 5 => ⟨S100000x128, .f32⟩
  | 6 => ⟨S_, .f32⟩
  | 7 => ⟨S_, .f32⟩
  | 8 => ⟨S_, .f32⟩
  | 9 => ⟨S_, .f32⟩
  | 10 => ⟨S128, .f32⟩
  | 11 => ⟨S128, .f32⟩
  | 12 => ⟨S128, .f32⟩
  | 13 => ⟨S_, .f32⟩
  | 14 => ⟨S_, .i1⟩
  | 15 => ⟨S_, .f32⟩
  | 16 => ⟨S_, .f32⟩
  | 17 => ⟨S128, .f32⟩
  | 18 => ⟨S128, .f32⟩
  | 19 => ⟨S1x128, .f32⟩
  | 20 => ⟨S100000x128, .f32⟩
  | 21 => ⟨S100000x128, .f32⟩
  | 22 => ⟨S_, .f32⟩
  | 23 => ⟨S128, .f32⟩
  | 24 => ⟨S128, .f32⟩
  | 25 => ⟨S128, .f32⟩
  | 26 => ⟨S1x128, .f32⟩
  | 27 => ⟨S100000x128, .f32⟩
  | 28 => ⟨S100000x128, .f32⟩
  | 29 => ⟨S1x128, .f32⟩
  | 30 => ⟨S100000x128, .f32⟩
  | 31 => ⟨S100000x128, .f32⟩
  | 32 => ⟨S1x128, .f32⟩
  | 33 => ⟨S100000x128, .f32⟩
  | 34 => ⟨S100000x128, .f32⟩
  | 35 => ⟨S_, .f32⟩
  | 36 => ⟨S100000x128, .f32⟩
  | 37 => ⟨S100000x128, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x128, .f32⟩
  | 47 => ⟨S_, .f32⟩
  | 48 => ⟨S100000x128, .f32⟩
  | 49 => ⟨S1600000x1, .i32⟩
  | 50 => ⟨S100000x128, .f32⟩
  | 51 => ⟨S1, .f32⟩
  | 52 => ⟨S_, .f32⟩
  | 53 => ⟨S_, .f32⟩
  | 54 => ⟨S_, .f32⟩
  | 55 => ⟨S100000x128, .f32⟩
  | 56 => ⟨S100000x128, .f32⟩
  | 57 => ⟨S100000x128, .f32⟩
  | 58 => ⟨S1x128x128, .f32⟩
  | 59 => ⟨S128x128, .f32⟩
  | 60 => ⟨S100000x128, .f32⟩
  | 61 => ⟨S1x128, .f32⟩
  | 62 => ⟨S128, .f32⟩
  | 63 => ⟨S1x128, .f32⟩
  | 64 => ⟨S100000x128, .f32⟩
  | 65 => ⟨S100000x128, .f32⟩
  | 66 => ⟨S1x128, .f32⟩
  | 67 => ⟨S128, .f32⟩
  | 68 => ⟨S1x128, .f32⟩
  | 69 => ⟨S128, .f32⟩
  | 70 => ⟨S_, .f32⟩
  | 71 => ⟨S128, .f32⟩
  | 72 => ⟨S_, .f32⟩
  | 73 => ⟨S128, .f32⟩
  | 74 => ⟨S128, .f32⟩
  | 75 => ⟨S_, .i32⟩
  | 76 => ⟨S_, .f32⟩
  | 77 => ⟨S128, .f32⟩
  | 78 => ⟨S1x128, .f32⟩
  | 79 => ⟨S_, .f32⟩
  | 80 => ⟨S1x128, .f32⟩
  | 81 => ⟨S1x128, .f32⟩
  | 82 => ⟨S100000x128, .f32⟩
  | 83 => ⟨S100000x128, .f32⟩
  | 84 => ⟨S100000x128, .f32⟩
  | 85 => ⟨S_, .f32⟩
  | 86 => ⟨S_, .f32⟩
  | 87 => ⟨S_, .f32⟩
  | 88 => ⟨S_, .f32⟩
  | 89 => ⟨S128, .f32⟩
  | 90 => ⟨S128, .f32⟩
  | 91 => ⟨S128, .f32⟩
  | 92 => ⟨S_, .f32⟩
  | 93 => ⟨S_, .i1⟩
  | 94 => ⟨S_, .f32⟩
  | 95 => ⟨S_, .f32⟩
  | 96 => ⟨S128, .f32⟩
  | 97 => ⟨S128, .f32⟩
  | 98 => ⟨S1x128, .f32⟩
  | 99 => ⟨S100000x128, .f32⟩
  | 100 => ⟨S100000x128, .f32⟩
  | 101 => ⟨S_, .f32⟩
  | 102 => ⟨S128, .f32⟩
  | 103 => ⟨S128, .f32⟩
  | 104 => ⟨S128, .f32⟩
  | 105 => ⟨S1x128, .f32⟩
  | 106 => ⟨S100000x128, .f32⟩
  | 107 => ⟨S100000x128, .f32⟩
  | 108 => ⟨S1x128, .f32⟩
  | 109 => ⟨S100000x128, .f32⟩
  | 110 => ⟨S100000x128, .f32⟩
  | 111 => ⟨S1x128, .f32⟩
  | 112 => ⟨S100000x128, .f32⟩
  | 113 => ⟨S100000x128, .f32⟩
  | 114 => ⟨S_, .f32⟩
  | 115 => ⟨S100000x128, .f32⟩
  | 116 => ⟨S100000x128, .f32⟩
  | 117 => ⟨S1x128x128, .f32⟩
  | 118 => ⟨S128x128, .f32⟩
  | 119 => ⟨S100000x128, .f32⟩
  | 120 => ⟨S1x128, .f32⟩
  | 121 => ⟨S128, .f32⟩
  | 122 => ⟨S1x128, .f32⟩
  | 123 => ⟨S100000x128, .f32⟩
  | 124 => ⟨S100000x128, .f32⟩
  | 125 => ⟨S1x128, .f32⟩
  | 126 => ⟨S128, .f32⟩
  | 127 => ⟨S1x128, .f32⟩
  | _ => ⟨S100000x128, .f32⟩

abbrev hbmTy0_3 (i : Nat) : BufTy := match i % 128 with
  | 0 => ⟨S128, .f32⟩
  | 1 => ⟨S_, .f32⟩
  | 2 => ⟨S128, .f32⟩
  | 3 => ⟨S_, .f32⟩
  | 4 => ⟨S128, .f32⟩
  | 5 => ⟨S128, .f32⟩
  | 6 => ⟨S_, .i32⟩
  | 7 => ⟨S_, .f32⟩
  | 8 => ⟨S128, .f32⟩
  | 9 => ⟨S1x128, .f32⟩
  | 10 => ⟨S_, .f32⟩
  | 11 => ⟨S1x128, .f32⟩
  | 12 => ⟨S1x128, .f32⟩
  | 13 => ⟨S100000x128, .f32⟩
  | 14 => ⟨S100000x128, .f32⟩
  | 15 => ⟨S100000x128, .f32⟩
  | 16 => ⟨S_, .f32⟩
  | 17 => ⟨S_, .f32⟩
  | 18 => ⟨S_, .f32⟩
  | 19 => ⟨S_, .f32⟩
  | 20 => ⟨S128, .f32⟩
  | 21 => ⟨S128, .f32⟩
  | 22 => ⟨S128, .f32⟩
  | 23 => ⟨S_, .f32⟩
  | 24 => ⟨S_, .i1⟩
  | 25 => ⟨S_, .f32⟩
  | 26 => ⟨S_, .f32⟩
  | 27 => ⟨S128, .f32⟩
  | 28 => ⟨S128, .f32⟩
  | 29 => ⟨S1x128, .f32⟩
  | 30 => ⟨S100000x128, .f32⟩
  | 31 => ⟨S100000x128, .f32⟩
  | 32 => ⟨S_, .f32⟩
  | 33 => ⟨S128, .f32⟩
  | 34 => ⟨S128, .f32⟩
  | 35 => ⟨S128, .f32⟩
  | 36 => ⟨S1x128, .f32⟩
  | 37 => ⟨S100000x128, .f32⟩
  | 38 => ⟨S100000x128, .f32⟩
  | 39 => ⟨S1x128, .f32⟩
  | 40 => ⟨S100000x128, .f32⟩
  | 41 => ⟨S100000x128, .f32⟩
  | 42 => ⟨S1x128, .f32⟩
  | 43 => ⟨S100000x128, .f32⟩
  | 44 => ⟨S100000x128, .f32⟩
  | 45 => ⟨S_, .f32⟩
  | 46 => ⟨S100000x128, .f32⟩
  | 47 => ⟨S100000x128, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x128, .f32⟩
  | 57 => ⟨S_, .f32⟩
  | 58 => ⟨S100000x128, .f32⟩
  | 59 => ⟨S1600000x1, .i32⟩
  | 60 => ⟨S100000x128, .f32⟩
  | 61 => ⟨S1, .f32⟩
  | 62 => ⟨S_, .f32⟩
  | 63 => ⟨S_, .f32⟩
  | 64 => ⟨S_, .f32⟩
  | 65 => ⟨S100000x128, .f32⟩
  | 66 => ⟨S100000x128, .f32⟩
  | 67 => ⟨S100000x128, .f32⟩
  | 68 => ⟨S1x128x128, .f32⟩
  | 69 => ⟨S128x128, .f32⟩
  | 70 => ⟨S100000x128, .f32⟩
  | 71 => ⟨S1x128, .f32⟩
  | 72 => ⟨S128, .f32⟩
  | 73 => ⟨S1x128, .f32⟩
  | 74 => ⟨S100000x128, .f32⟩
  | 75 => ⟨S100000x128, .f32⟩
  | 76 => ⟨S1x128, .f32⟩
  | 77 => ⟨S128, .f32⟩
  | 78 => ⟨S1x128, .f32⟩
  | 79 => ⟨S128, .f32⟩
  | 80 => ⟨S_, .f32⟩
  | 81 => ⟨S128, .f32⟩
  | 82 => ⟨S_, .f32⟩
  | 83 => ⟨S128, .f32⟩
  | 84 => ⟨S128, .f32⟩
  | 85 => ⟨S_, .i32⟩
  | 86 => ⟨S_, .f32⟩
  | 87 => ⟨S128, .f32⟩
  | 88 => ⟨S1x128, .f32⟩
  | 89 => ⟨S_, .f32⟩
  | 90 => ⟨S1x128, .f32⟩
  | 91 => ⟨S1x128, .f32⟩
  | 92 => ⟨S100000x128, .f32⟩
  | 93 => ⟨S100000x128, .f32⟩
  | 94 => ⟨S100000x128, .f32⟩
  | 95 => ⟨S_, .f32⟩
  | 96 => ⟨S_, .f32⟩
  | 97 => ⟨S_, .f32⟩
  | 98 => ⟨S_, .f32⟩
  | 99 => ⟨S128, .f32⟩
  | 100 => ⟨S128, .f32⟩
  | 101 => ⟨S128, .f32⟩
  | 102 => ⟨S_, .f32⟩
  | 103 => ⟨S_, .i1⟩
  | 104 => ⟨S_, .f32⟩
  | 105 => ⟨S_, .f32⟩
  | 106 => ⟨S128, .f32⟩
  | 107 => ⟨S128, .f32⟩
  | 108 => ⟨S1x128, .f32⟩
  | 109 => ⟨S100000x128, .f32⟩
  | 110 => ⟨S100000x128, .f32⟩
  | 111 => ⟨S_, .f32⟩
  | 112 => ⟨S128, .f32⟩
  | 113 => ⟨S128, .f32⟩
  | 114 => ⟨S128, .f32⟩
  | 115 => ⟨S1x128, .f32⟩
  | 116 => ⟨S100000x128, .f32⟩
  | 117 => ⟨S100000x128, .f32⟩
  | 118 => ⟨S1x128, .f32⟩
  | 119 => ⟨S100000x128, .f32⟩
  | 120 => ⟨S100000x128, .f32⟩
  | 121 => ⟨S1x128, .f32⟩
  | 122 => ⟨S100000x128, .f32⟩
  | 123 => ⟨S100000x128, .f32⟩
  | 124 => ⟨S_, .f32⟩
  | 125 => ⟨S100000x128, .f32⟩
  | 126 => ⟨S100000x128, .f32⟩
  | 127 => ⟨S1x128x128, .f32⟩
  | _ => ⟨S100000x128, .f32⟩

abbrev hbmTy0_4 (i : Nat) : BufTy := match i % 128 with
  | 0 => ⟨S128x128, .f32⟩
  | 1 => ⟨S100000x128, .f32⟩
  | 2 => ⟨S1x128, .f32⟩
  | 3 => ⟨S128, .f32⟩
  | 4 => ⟨S1x128, .f32⟩
  | 5 => ⟨S100000x128, .f32⟩
  | 6 => ⟨S100000x128, .f32⟩
  | 7 => ⟨S1x128, .f32⟩
  | 8 => ⟨S128, .f32⟩
  | 9 => ⟨S1x128, .f32⟩
  | 10 => ⟨S128, .f32⟩
  | 11 => ⟨S_, .f32⟩
  | 12 => ⟨S128, .f32⟩
  | 13 => ⟨S_, .f32⟩
  | 14 => ⟨S128, .f32⟩
  | 15 => ⟨S128, .f32⟩
  | 16 => ⟨S_, .i32⟩
  | 17 => ⟨S_, .f32⟩
  | 18 => ⟨S128, .f32⟩
  | 19 => ⟨S1x128, .f32⟩
  | 20 => ⟨S_, .f32⟩
  | 21 => ⟨S1x128, .f32⟩
  | 22 => ⟨S1x128, .f32⟩
  | 23 => ⟨S100000x128, .f32⟩
  | 24 => ⟨S100000x128, .f32⟩
  | 25 => ⟨S100000x128, .f32⟩
  | 26 => ⟨S_, .f32⟩
  | 27 => ⟨S_, .f32⟩
  | 28 => ⟨S_, .f32⟩
  | 29 => ⟨S_, .f32⟩
  | 30 => ⟨S128, .f32⟩
  | 31 => ⟨S128, .f32⟩
  | 32 => ⟨S128, .f32⟩
  | 33 => ⟨S_, .f32⟩
  | 34 => ⟨S_, .i1⟩
  | 35 => ⟨S_, .f32⟩
  | 36 => ⟨S_, .f32⟩
  | 37 => ⟨S128, .f32⟩
  | 38 => ⟨S128, .f32⟩
  | 39 => ⟨S1x128, .f32⟩
  | 40 => ⟨S100000x128, .f32⟩
  | 41 => ⟨S100000x128, .f32⟩
  | 42 => ⟨S_, .f32⟩
  | 43 => ⟨S128, .f32⟩
  | 44 => ⟨S128, .f32⟩
  | 45 => ⟨S128, .f32⟩
  | 46 => ⟨S1x128, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S1x128, .f32⟩
  | 53 => ⟨S100000x128, .f32⟩
  | 54 => ⟨S100000x128, .f32⟩
  | 55 => ⟨S_, .f32⟩
  | 56 => ⟨S100000x128, .f32⟩
  | 57 => ⟨S100000x128, .f32⟩
  | 58 => ⟨S100000x640, .f32⟩
  | 59 => ⟨S100000x1, .f32⟩
  | 60 => ⟨S1x1, .f32⟩
  | 61 => ⟨S100000x1, .f32⟩
  | 62 => ⟨S100000x1, .f32⟩
  | 63 => ⟨S100000x640, .f32⟩
  | 64 => ⟨S100000x640, .f32⟩
  | 65 => ⟨S_, .f32⟩
  | 66 => ⟨S100x640, .f32⟩
  | 67 => ⟨S100000x1, .i32⟩
  | 68 => ⟨S100x640, .f32⟩
  | 69 => ⟨S100x656, .f32⟩
  | 70 => ⟨S100x10, .f32⟩
  | 71 => ⟨S1x10, .f32⟩
  | 72 => ⟨S100x10, .f32⟩
  | 73 => ⟨S100x10, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_2 : Ref sig .tc := ⟨.hbm, 50, rfl⟩
abbrev main_v28 : Ref sig .tc := ⟨.hbm, 51, rfl⟩
abbrev main_cst_3 : Ref sig .tc := ⟨.hbm, 52, rfl⟩
abbrev main_v29 : Ref sig .tc := ⟨.hbm, 53, rfl⟩
abbrev main_v30 : Ref sig .tc := ⟨.hbm, 54, rfl⟩
abbrev main_c_4 : Ref sig .tc := ⟨.hbm, 55, rfl⟩
abbrev main_call0_cst : Ref sig .tc := ⟨.hbm, 56, rfl⟩
abbrev main_call0_v0 : Ref sig .tc := ⟨.hbm, 57, rfl⟩
abbrev main_call0_v1 : Ref sig .tc := ⟨.hbm, 58, rfl⟩
abbrev main_call0_cst_0 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_cst_1 : Ref sig .tc := ⟨.hbm, 66, rfl⟩
abbrev main_call0_v8 : Ref sig .tc := ⟨.hbm, 67, rfl⟩
abbrev main_call0_cst_2 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_cst_3 : Ref sig .tc := ⟨.hbm, 72, rfl⟩
abbrev main_call0_v12 : Ref sig .tc := ⟨.hbm, 73, rfl⟩
abbrev main_call0_cst_4 : Ref sig .tc := ⟨.hbm, 74, rfl⟩
abbrev main_call0_call0_v0 : Ref sig .tc := ⟨.hbm, 75, rfl⟩
abbrev main_call0_call0_v1 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_cst_5 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_call1_cst : Ref sig .tc := ⟨.hbm, 94, rfl⟩
abbrev main_call1_v0 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_cst_6 : Ref sig .tc := ⟨.hbm, 109, rfl⟩
abbrev main_v60 : Ref sig .tc := ⟨.hbm, 110, rfl⟩
abbrev main_cst_7 : Ref sig .tc := ⟨.hbm, 111, rfl⟩
abbrev main_v61 : Ref sig .tc := ⟨.hbm, 112, rfl⟩
abbrev main_v62 : Ref sig .tc := ⟨.hbm, 113, rfl⟩
abbrev main_c_8 : Ref sig .tc := ⟨.hbm, 114, rfl⟩
abbrev main_call2_cst : Ref sig .tc := ⟨.hbm, 115, rfl⟩
abbrev main_call2_v0 : Ref sig .tc := ⟨.hbm, 116, rfl⟩
abbrev main_call2_v1 : Ref sig .tc := ⟨.hbm, 117, rfl⟩
abbrev main_call2_cst_0 : Ref sig .tc := ⟨.hbm, 118, rfl⟩
abbrev main_call2_v2 : Ref sig .tc := ⟨.hbm, 119, rfl⟩
abbrev main_call2_v3 : Ref sig .tc := ⟨.hbm, 120, rfl⟩
abbrev main_call2_v4 : Ref sig .tc := ⟨.hbm, 121, rfl⟩
abbrev main_call2_v5 : Ref sig .tc := ⟨.hbm, 122, rfl⟩
abbrev main_call2_v6 : Ref sig .tc := ⟨.hbm, 123, rfl⟩
abbrev main_call2_v7 : Ref sig .tc := ⟨.hbm, 124, rfl⟩
abbrev main_call2_cst_1 : Ref sig .tc := ⟨.hbm, 125, rfl⟩
abbrev main_call2_v8 : Ref sig .tc := ⟨.hbm, 126, rfl⟩
abbrev main_call2_cst_2 : Ref sig .tc := ⟨.hbm, 127, rfl⟩
abbrev main_call2_v9 : Ref sig .tc := ⟨.hbm, 128, rfl⟩
abbrev main_call2_v10 : Ref sig .tc := ⟨.hbm, 129, rfl⟩
abbrev main_call2_v11 : Ref sig .tc := ⟨.hbm, 130, rfl⟩
abbrev main_call2_cst_3 : Ref sig .tc := ⟨.hbm, 131, rfl⟩
abbrev main_call2_v12 : Ref sig .tc := ⟨.hbm, 132, rfl⟩
abbrev main_call2_cst_4 : Ref sig .tc := ⟨.hbm, 133, rfl⟩
abbrev main_call2_call0_v0 : Ref sig .tc := ⟨.hbm, 134, rfl⟩
abbrev main_call2_call0_v1 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_cst_9 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_call3_cst : Ref sig .tc := ⟨.hbm, 153, rfl⟩
abbrev main_call3_v0 : Ref sig .tc := ⟨.hbm, 154, rfl⟩
abbrev main_v79 : Ref sig .tc := ⟨.hbm, 155, rfl⟩
abbrev main_c_10 : Ref sig .tc := ⟨.hbm, 156, rfl⟩
abbrev main_v80 : Ref sig .tc := ⟨.hbm, 157, rfl⟩
abbrev main_v81 : Ref sig .tc := ⟨.hbm, 158, rfl⟩
abbrev main_c_11 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_cst_12 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_cst_13 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_cst_14 : Ref sig .tc := ⟨.hbm, 188, rfl⟩
abbrev main_v108 : Ref sig .tc := ⟨.hbm, 189, rfl⟩
abbrev main_cst_15 : Ref sig .tc := ⟨.hbm, 190, rfl⟩
abbrev main_v109 : Ref sig .tc := ⟨.hbm, 191, rfl⟩
abbrev main_v110 : Ref sig .tc := ⟨.hbm, 192, rfl⟩
abbrev main_c_16 : Ref sig .tc := ⟨.hbm, 193, rfl⟩
abbrev main_call4_cst : Ref sig .tc := ⟨.hbm, 194, rfl⟩
abbrev main_call4_v0 : Ref sig .tc := ⟨.hbm, 195, rfl⟩
abbrev main_call4_v1 : Ref sig .tc := ⟨.hbm, 196, rfl⟩
abbrev main_call4_cst_0 : Ref sig .tc := ⟨.hbm, 197, rfl⟩
abbrev main_call4_v2 : Ref sig .tc := ⟨.hbm, 198, rfl⟩
abbrev main_call4_v3 : Ref sig .tc := ⟨.hbm, 199, rfl⟩
abbrev main_call4_v4 : Ref sig .tc := ⟨.hbm, 200, rfl⟩
abbrev main_call4_v5 : Ref sig .tc := ⟨.hbm, 201, rfl⟩
abbrev main_call4_v6 : Ref sig .tc := ⟨.hbm, 202, rfl⟩
abbrev main_call4_v7 : Ref sig .tc := ⟨.hbm, 203, rfl⟩
abbrev main_call4_cst_1 : Ref sig .tc := ⟨.hbm, 204, rfl⟩
abbrev main_call4_v8 : Ref sig .tc := ⟨.hbm, 205, rfl⟩
abbrev main_call4_cst_2 : Ref sig .tc := ⟨.hbm, 206, rfl⟩
abbrev main_call4_v9 : Ref sig .tc := ⟨.hbm, 207, rfl⟩
abbrev main_call4_v10 : Ref sig .tc := ⟨.hbm, 208, rfl⟩
abbrev main_call4_v11 : Ref sig .tc := ⟨.hbm, 209, rfl⟩
abbrev main_call4_cst_3 : Ref sig .tc := ⟨.hbm, 210, rfl⟩
abbrev main_call4_v12 : Ref sig .tc := ⟨.hbm, 211, rfl⟩
abbrev main_call4_cst_4 : Ref sig .tc := ⟨.hbm, 212, rfl⟩
abbrev main_call4_call0_v0 : Ref sig .tc := ⟨.hbm, 213, rfl⟩
abbrev main_call4_call0_v1 : Ref sig .tc := ⟨.hbm, 214, rfl⟩
abbrev main_v111 : Ref sig .tc := ⟨.hbm, 215, rfl⟩
abbrev main_v112 : Ref sig .tc := ⟨.hbm, 216, rfl⟩
abbrev main_v113 : Ref sig .tc := ⟨.hbm, 217, rfl⟩
abbrev main_v114 : Ref sig .tc := ⟨.hbm, 218, rfl⟩
abbrev main_cst_17 : Ref sig .tc := ⟨.hbm, 219, rfl⟩
abbrev main_v115 : Ref sig .tc := ⟨.hbm, 220, rfl⟩
abbrev main_v116 : Ref sig .tc := ⟨.hbm, 221, rfl⟩
abbrev main_v117 : Ref sig .tc := ⟨.hbm, 222, rfl⟩
abbrev main_v118 : Ref sig .tc := ⟨.hbm, 223, rfl⟩
abbrev main_v119 : Ref sig .tc := ⟨.hbm, 224, rfl⟩
abbrev main_v120 : Ref sig .tc := ⟨.hbm, 225, rfl⟩
abbrev main_v121 : Ref sig .tc := ⟨.hbm, 226, rfl⟩
abbrev main_v122 : Ref sig .tc := ⟨.hbm, 227, rfl⟩
abbrev main_v123 : Ref sig .tc := ⟨.hbm, 228, rfl⟩
abbrev main_v124 : Ref sig .tc := ⟨.hbm, 229, rfl⟩
abbrev main_v125 : Ref sig .tc := ⟨.hbm, 230, rfl⟩
abbrev main_v126 : Ref sig .tc := ⟨.hbm, 231, rfl⟩
abbrev main_call5_cst : Ref sig .tc := ⟨.hbm, 232, rfl⟩
abbrev main_call5_v0 : Ref sig .tc := ⟨.hbm, 233, rfl⟩
abbrev main_v127 : Ref sig .tc := ⟨.hbm, 234, rfl⟩
abbrev main_v128 : Ref sig .tc := ⟨.hbm, 235, rfl⟩
abbrev main_v129 : Ref sig .tc := ⟨.hbm, 236, rfl⟩
abbrev main_v130 : Ref sig .tc := ⟨.hbm, 237, rfl⟩
abbrev main_v131 : Ref sig .tc := ⟨.hbm, 238, rfl⟩
abbrev main_v132 : Ref sig .tc := ⟨.hbm, 239, rfl⟩
abbrev main_v133 : Ref sig .tc := ⟨.hbm, 240, rfl⟩
abbrev main_v134 : Ref sig .tc := ⟨.hbm, 241, rfl⟩
abbrev main_v135 : Ref sig .tc := ⟨.hbm, 242, rfl⟩
abbrev main_v136 : Ref sig .tc := ⟨.hbm, 243, rfl⟩
abbrev main_v137 : Ref sig .tc := ⟨.hbm, 244, rfl⟩
abbrev main_v138 : Ref sig .tc := ⟨.hbm, 245, rfl⟩
abbrev main_v139 : Ref sig .tc := ⟨.hbm, 246, rfl⟩
abbrev main_cst_18 : Ref sig .tc := ⟨.hbm, 247, rfl⟩
abbrev main_v140 : Ref sig .tc := ⟨.hbm, 248, rfl⟩
abbrev main_cst_19 : Ref sig .tc := ⟨.hbm, 249, rfl⟩
abbrev main_v141 : Ref sig .tc := ⟨.hbm, 250, rfl⟩
abbrev main_v142 : Ref sig .tc := ⟨.hbm, 251, rfl⟩
abbrev main_c_20 : Ref sig .tc := ⟨.hbm, 252, rfl⟩
abbrev main_call6_cst : Ref sig .tc := ⟨.hbm, 253, rfl⟩
abbrev main_call6_v0 : Ref sig .tc := ⟨.hbm, 254, rfl⟩
abbrev main_call6_v1 : Ref sig .tc := ⟨.hbm, 255, rfl⟩
abbrev main_call6_cst_0 : Ref sig .tc := ⟨.hbm, 256, rfl⟩
abbrev main_call6_v2 : Ref sig .tc := ⟨.hbm, 257, rfl⟩
abbrev main_call6_v3 : Ref sig .tc := ⟨.hbm, 258, rfl⟩
abbrev main_call6_v4 : Ref sig .tc := ⟨.hbm, 259, rfl⟩
abbrev main_call6_v5 : Ref sig .tc := ⟨.hbm, 260, rfl⟩
abbrev main_call6_v6 : Ref sig .tc := ⟨.hbm, 261, rfl⟩
abbrev main_call6_v7 : Ref sig .tc := ⟨.hbm, 262, rfl⟩
abbrev main_call6_cst_1 : Ref sig .tc := ⟨.hbm, 263, rfl⟩
abbrev main_call6_v8 : Ref sig .tc := ⟨.hbm, 264, rfl⟩
abbrev main_call6_cst_2 : Ref sig .tc := ⟨.hbm, 265, rfl⟩
abbrev main_call6_v9 : Ref sig .tc := ⟨.hbm, 266, rfl⟩
abbrev main_call6_v10 : Ref sig .tc := ⟨.hbm, 267, rfl⟩
abbrev main_call6_v11 : Ref sig .tc := ⟨.hbm, 268, rfl⟩
abbrev main_call6_cst_3 : Ref sig .tc := ⟨.hbm, 269, rfl⟩
abbrev main_call6_v12 : Ref sig .tc := ⟨.hbm, 270, rfl⟩
abbrev main_call6_cst_4 : Ref sig .tc := ⟨.hbm, 271, rfl⟩
abbrev main_call6_call0_v0 : Ref sig .tc := ⟨.hbm, 272, rfl⟩
abbrev main_call6_call0_v1 : Ref sig .tc := ⟨.hbm, 273, rfl⟩
abbrev main_v143 : Ref sig .tc := ⟨.hbm, 274, rfl⟩
abbrev main_v144 : Ref sig .tc := ⟨.hbm, 275, rfl⟩
abbrev main_v145 : Ref sig .tc := ⟨.hbm, 276, rfl⟩
abbrev main_v146 : Ref sig .tc := ⟨.hbm, 277, rfl⟩
abbrev main_cst_21 : Ref sig .tc := ⟨.hbm, 278, rfl⟩
abbrev main_v147 : Ref sig .tc := ⟨.hbm, 279, rfl⟩
abbrev main_v148 : Ref sig .tc := ⟨.hbm, 280, rfl⟩
abbrev main_v149 : Ref sig .tc := ⟨.hbm, 281, rfl⟩
abbrev main_v150 : Ref sig .tc := ⟨.hbm, 282, rfl⟩
abbrev main_v151 : Ref sig .tc := ⟨.hbm, 283, rfl⟩
abbrev main_v152 : Ref sig .tc := ⟨.hbm, 284, rfl⟩
abbrev main_v153 : Ref sig .tc := ⟨.hbm, 285, rfl⟩
abbrev main_v154 : Ref sig .tc := ⟨.hbm, 286, rfl⟩
abbrev main_v155 : Ref sig .tc := ⟨.hbm, 287, rfl⟩
abbrev main_v156 : Ref sig .tc := ⟨.hbm, 288, rfl⟩
abbrev main_v157 : Ref sig .tc := ⟨.hbm, 289, rfl⟩
abbrev main_v158 : Ref sig .tc := ⟨.hbm, 290, rfl⟩
abbrev main_call7_cst : Ref sig .tc := ⟨.hbm, 291, rfl⟩
abbrev main_call7_v0 : Ref sig .tc := ⟨.hbm, 292, rfl⟩
abbrev main_v159 : Ref sig .tc := ⟨.hbm, 293, rfl⟩
abbrev main_c_22 : Ref sig .tc := ⟨.hbm, 294, rfl⟩
abbrev main_v160 : Ref sig .tc := ⟨.hbm, 295, rfl⟩
abbrev main_v161 : Ref sig .tc := ⟨.hbm, 296, rfl⟩
abbrev main_c_23 : Ref sig .tc := ⟨.hbm, 297, rfl⟩
abbrev main_v162 : Ref sig .tc := ⟨.hbm, 298, rfl⟩
abbrev main_v163 : Ref sig .tc := ⟨.hbm, 299, rfl⟩
abbrev main_v164 : Ref sig .tc := ⟨.hbm, 300, rfl⟩
abbrev main_v165 : Ref sig .tc := ⟨.hbm, 301, rfl⟩
abbrev main_v166 : Ref sig .tc := ⟨.hbm, 302, rfl⟩
abbrev main_cst_24 : Ref sig .tc := ⟨.hbm, 303, rfl⟩
abbrev main_v167 : Ref sig .tc := ⟨.hbm, 304, rfl⟩
abbrev main_v168 : Ref sig .tc := ⟨.hbm, 305, rfl⟩
abbrev main_v169 : Ref sig .tc := ⟨.hbm, 306, rfl⟩
abbrev main_v170 : Ref sig .tc := ⟨.hbm, 307, rfl⟩
abbrev main_v171 : Ref sig .tc := ⟨.hbm, 308, rfl⟩
abbrev main_cst_25 : Ref sig .tc := ⟨.hbm, 309, rfl⟩
abbrev main_v172 : Ref sig .tc := ⟨.hbm, 310, rfl⟩
abbrev main_v173 : Ref sig .tc := ⟨.hbm, 311, rfl⟩
abbrev main_v174 : Ref sig .tc := ⟨.hbm, 312, rfl⟩
abbrev main_v175 : Ref sig .tc := ⟨.hbm, 313, rfl⟩
abbrev main_v176 : Ref sig .tc := ⟨.hbm, 314, rfl⟩
abbrev main_v177 : Ref sig .tc := ⟨.hbm, 315, rfl⟩
abbrev main_v178 : Ref sig .tc := ⟨.hbm, 316, rfl⟩
abbrev main_v179 : Ref sig .tc := ⟨.hbm, 317, rfl⟩
abbrev main_v180 : Ref sig .tc := ⟨.hbm, 318, rfl⟩
abbrev main_v181 : Ref sig .tc := ⟨.hbm, 319, rfl⟩
abbrev main_v182 : Ref sig .tc := ⟨.hbm, 320, rfl⟩
abbrev main_v183 : Ref sig .tc := ⟨.hbm, 321, rfl⟩
abbrev main_v184 : Ref sig .tc := ⟨.hbm, 322, rfl⟩
abbrev main_v185 : Ref sig .tc := ⟨.hbm, 323, rfl⟩
abbrev main_v186 : Ref sig .tc := ⟨.hbm, 324, rfl⟩
abbrev main_v187 : Ref sig .tc := ⟨.hbm, 325, rfl⟩
abbrev main_cst_26 : Ref sig .tc := ⟨.hbm, 326, rfl⟩
abbrev main_v188 : Ref sig .tc := ⟨.hbm, 327, rfl⟩
abbrev main_cst_27 : Ref sig .tc := ⟨.hbm, 328, rfl⟩
abbrev main_v189 : Ref sig .tc := ⟨.hbm, 329, rfl⟩
abbrev main_v190 : Ref sig .tc := ⟨.hbm, 330, rfl⟩
abbrev main_c_28 : Ref sig .tc := ⟨.hbm, 331, rfl⟩
abbrev main_call8_cst : Ref sig .tc := ⟨.hbm, 332, rfl⟩
abbrev main_call8_v0 : Ref sig .tc := ⟨.hbm, 333, rfl⟩
abbrev main_call8_v1 : Ref sig .tc := ⟨.hbm, 334, rfl⟩
abbrev main_call8_cst_0 : Ref sig .tc := ⟨.hbm, 335, rfl⟩
abbrev main_call8_v2 : Ref sig .tc := ⟨.hbm, 336, rfl⟩
abbrev main_call8_v3 : Ref sig .tc := ⟨.hbm, 337, rfl⟩
abbrev main_call8_v4 : Ref sig .tc := ⟨.hbm, 338, rfl⟩
abbrev main_call8_v5 : Ref sig .tc := ⟨.hbm, 339, rfl⟩
abbrev main_call8_v6 : Ref sig .tc := ⟨.hbm, 340, rfl⟩
abbrev main_call8_v7 : Ref sig .tc := ⟨.hbm, 341, rfl⟩
abbrev main_call8_cst_1 : Ref sig .tc := ⟨.hbm, 342, rfl⟩
abbrev main_call8_v8 : Ref sig .tc := ⟨.hbm, 343, rfl⟩
abbrev main_call8_cst_2 : Ref sig .tc := ⟨.hbm, 344, rfl⟩
abbrev main_call8_v9 : Ref sig .tc := ⟨.hbm, 345, rfl⟩
abbrev main_call8_v10 : Ref sig .tc := ⟨.hbm, 346, rfl⟩
abbrev main_call8_v11 : Ref sig .tc := ⟨.hbm, 347, rfl⟩
abbrev main_call8_cst_3 : Ref sig .tc := ⟨.hbm, 348, rfl⟩
abbrev main_call8_v12 : Ref sig .tc := ⟨.hbm, 349, rfl⟩
abbrev main_call8_cst_4 : Ref sig .tc := ⟨.hbm, 350, rfl⟩
abbrev main_call8_call0_v0 : Ref sig .tc := ⟨.hbm, 351, rfl⟩
abbrev main_call8_call0_v1 : Ref sig .tc := ⟨.hbm, 352, rfl⟩
abbrev main_v191 : Ref sig .tc := ⟨.hbm, 353, rfl⟩
abbrev main_v192 : Ref sig .tc := ⟨.hbm, 354, rfl⟩
abbrev main_v193 : Ref sig .tc := ⟨.hbm, 355, rfl⟩
abbrev main_v194 : Ref sig .tc := ⟨.hbm, 356, rfl⟩
abbrev main_cst_29 : Ref sig .tc := ⟨.hbm, 357, rfl⟩
abbrev main_v195 : Ref sig .tc := ⟨.hbm, 358, rfl⟩
abbrev main_v196 : Ref sig .tc := ⟨.hbm, 359, rfl⟩
abbrev main_v197 : Ref sig .tc := ⟨.hbm, 360, rfl⟩
abbrev main_v198 : Ref sig .tc := ⟨.hbm, 361, rfl⟩
abbrev main_v199 : Ref sig .tc := ⟨.hbm, 362, rfl⟩
abbrev main_v200 : Ref sig .tc := ⟨.hbm, 363, rfl⟩
abbrev main_v201 : Ref sig .tc := ⟨.hbm, 364, rfl⟩
abbrev main_v202 : Ref sig .tc := ⟨.hbm, 365, rfl⟩
abbrev main_v203 : Ref sig .tc := ⟨.hbm, 366, rfl⟩
abbrev main_v204 : Ref sig .tc := ⟨.hbm, 367, rfl⟩
abbrev main_v205 : Ref sig .tc := ⟨.hbm, 368, rfl⟩
abbrev main_v206 : Ref sig .tc := ⟨.hbm, 369, rfl⟩
abbrev main_call9_cst : Ref sig .tc := ⟨.hbm, 370, rfl⟩
abbrev main_call9_v0 : Ref sig .tc := ⟨.hbm, 371, rfl⟩
abbrev main_v207 : Ref sig .tc := ⟨.hbm, 372, rfl⟩
abbrev main_v208 : Ref sig .tc := ⟨.hbm, 373, rfl⟩
abbrev main_v209 : Ref sig .tc := ⟨.hbm, 374, rfl⟩
abbrev main_v210 : Ref sig .tc := ⟨.hbm, 375, rfl⟩
abbrev main_v211 : Ref sig .tc := ⟨.hbm, 376, rfl⟩
abbrev main_v212 : Ref sig .tc := ⟨.hbm, 377, rfl⟩
abbrev main_v213 : Ref sig .tc := ⟨.hbm, 378, rfl⟩
abbrev main_v214 : Ref sig .tc := ⟨.hbm, 379, rfl⟩
abbrev main_v215 : Ref sig .tc := ⟨.hbm, 380, rfl⟩
abbrev main_v216 : Ref sig .tc := ⟨.hbm, 381, rfl⟩
abbrev main_v217 : Ref sig .tc := ⟨.hbm, 382, rfl⟩
abbrev main_v218 : Ref sig .tc := ⟨.hbm, 383, rfl⟩
abbrev main_v219 : Ref sig .tc := ⟨.hbm, 384, rfl⟩
abbrev main_cst_30 : Ref sig .tc := ⟨.hbm, 385, rfl⟩
abbrev main_v220 : Ref sig .tc := ⟨.hbm, 386, rfl⟩
abbrev main_cst_31 : Ref sig .tc := ⟨.hbm, 387, rfl⟩
abbrev main_v221 : Ref sig .tc := ⟨.hbm, 388, rfl⟩
abbrev main_v222 : Ref sig .tc := ⟨.hbm, 389, rfl⟩
abbrev main_c_32 : Ref sig .tc := ⟨.hbm, 390, rfl⟩
abbrev main_call10_cst : Ref sig .tc := ⟨.hbm, 391, rfl⟩
abbrev main_call10_v0 : Ref sig .tc := ⟨.hbm, 392, rfl⟩
abbrev main_call10_v1 : Ref sig .tc := ⟨.hbm, 393, rfl⟩
abbrev main_call10_cst_0 : Ref sig .tc := ⟨.hbm, 394, rfl⟩
abbrev main_call10_v2 : Ref sig .tc := ⟨.hbm, 395, rfl⟩
abbrev main_call10_v3 : Ref sig .tc := ⟨.hbm, 396, rfl⟩
abbrev main_call10_v4 : Ref sig .tc := ⟨.hbm, 397, rfl⟩
abbrev main_call10_v5 : Ref sig .tc := ⟨.hbm, 398, rfl⟩
abbrev main_call10_v6 : Ref sig .tc := ⟨.hbm, 399, rfl⟩
abbrev main_call10_v7 : Ref sig .tc := ⟨.hbm, 400, rfl⟩
abbrev main_call10_cst_1 : Ref sig .tc := ⟨.hbm, 401, rfl⟩
abbrev main_call10_v8 : Ref sig .tc := ⟨.hbm, 402, rfl⟩
abbrev main_call10_cst_2 : Ref sig .tc := ⟨.hbm, 403, rfl⟩
abbrev main_call10_v9 : Ref sig .tc := ⟨.hbm, 404, rfl⟩
abbrev main_call10_v10 : Ref sig .tc := ⟨.hbm, 405, rfl⟩
abbrev main_call10_v11 : Ref sig .tc := ⟨.hbm, 406, rfl⟩
abbrev main_call10_cst_3 : Ref sig .tc := ⟨.hbm, 407, rfl⟩
abbrev main_call10_v12 : Ref sig .tc := ⟨.hbm, 408, rfl⟩
abbrev main_call10_cst_4 : Ref sig .tc := ⟨.hbm, 409, rfl⟩
abbrev main_call10_call0_v0 : Ref sig .tc := ⟨.hbm, 410, rfl⟩
abbrev main_call10_call0_v1 : Ref sig .tc := ⟨.hbm, 411, rfl⟩
abbrev main_v223 : Ref sig .tc := ⟨.hbm, 412, rfl⟩
abbrev main_v224 : Ref sig .tc := ⟨.hbm, 413, rfl⟩
abbrev main_v225 : Ref sig .tc := ⟨.hbm, 414, rfl⟩
abbrev main_v226 : Ref sig .tc := ⟨.hbm, 415, rfl⟩
abbrev main_cst_33 : Ref sig .tc := ⟨.hbm, 416, rfl⟩
abbrev main_v227 : Ref sig .tc := ⟨.hbm, 417, rfl⟩
abbrev main_v228 : Ref sig .tc := ⟨.hbm, 418, rfl⟩
abbrev main_v229 : Ref sig .tc := ⟨.hbm, 419, rfl⟩
abbrev main_v230 : Ref sig .tc := ⟨.hbm, 420, rfl⟩
abbrev main_v231 : Ref sig .tc := ⟨.hbm, 421, rfl⟩
abbrev main_v232 : Ref sig .tc := ⟨.hbm, 422, rfl⟩
abbrev main_v233 : Ref sig .tc := ⟨.hbm, 423, rfl⟩
abbrev main_v234 : Ref sig .tc := ⟨.hbm, 424, rfl⟩
abbrev main_v235 : Ref sig .tc := ⟨.hbm, 425, rfl⟩
abbrev main_v236 : Ref sig .tc := ⟨.hbm, 426, rfl⟩
abbrev main_v237 : Ref sig .tc := ⟨.hbm, 427, rfl⟩
abbrev main_v238 : Ref sig .tc := ⟨.hbm, 428, rfl⟩
abbrev main_call11_cst : Ref sig .tc := ⟨.hbm, 429, rfl⟩
abbrev main_call11_v0 : Ref sig .tc := ⟨.hbm, 430, rfl⟩
abbrev main_v239 : Ref sig .tc := ⟨.hbm, 431, rfl⟩
abbrev main_c_34 : Ref sig .tc := ⟨.hbm, 432, rfl⟩
abbrev main_v240 : Ref sig .tc := ⟨.hbm, 433, rfl⟩
abbrev main_v241 : Ref sig .tc := ⟨.hbm, 434, rfl⟩
abbrev main_c_35 : Ref sig .tc := ⟨.hbm, 435, rfl⟩
abbrev main_v242 : Ref sig .tc := ⟨.hbm, 436, rfl⟩
abbrev main_v243 : Ref sig .tc := ⟨.hbm, 437, rfl⟩
abbrev main_v244 : Ref sig .tc := ⟨.hbm, 438, rfl⟩
abbrev main_v245 : Ref sig .tc := ⟨.hbm, 439, rfl⟩
abbrev main_v246 : Ref sig .tc := ⟨.hbm, 440, rfl⟩
abbrev main_cst_36 : Ref sig .tc := ⟨.hbm, 441, rfl⟩
abbrev main_v247 : Ref sig .tc := ⟨.hbm, 442, rfl⟩
abbrev main_v248 : Ref sig .tc := ⟨.hbm, 443, rfl⟩
abbrev main_v249 : Ref sig .tc := ⟨.hbm, 444, rfl⟩
abbrev main_v250 : Ref sig .tc := ⟨.hbm, 445, rfl⟩
abbrev main_v251 : Ref sig .tc := ⟨.hbm, 446, rfl⟩
abbrev main_cst_37 : Ref sig .tc := ⟨.hbm, 447, rfl⟩
abbrev main_v252 : Ref sig .tc := ⟨.hbm, 448, rfl⟩
abbrev main_v253 : Ref sig .tc := ⟨.hbm, 449, rfl⟩
abbrev main_v254 : Ref sig .tc := ⟨.hbm, 450, rfl⟩
abbrev main_v255 : Ref sig .tc := ⟨.hbm, 451, rfl⟩
abbrev main_v256 : Ref sig .tc := ⟨.hbm, 452, rfl⟩
abbrev main_v257 : Ref sig .tc := ⟨.hbm, 453, rfl⟩
abbrev main_v258 : Ref sig .tc := ⟨.hbm, 454, rfl⟩
abbrev main_v259 : Ref sig .tc := ⟨.hbm, 455, rfl⟩
abbrev main_v260 : Ref sig .tc := ⟨.hbm, 456, rfl⟩
abbrev main_v261 : Ref sig .tc := ⟨.hbm, 457, rfl⟩
abbrev main_v262 : Ref sig .tc := ⟨.hbm, 458, rfl⟩
abbrev main_v263 : Ref sig .tc := ⟨.hbm, 459, rfl⟩
abbrev main_v264 : Ref sig .tc := ⟨.hbm, 460, rfl⟩
abbrev main_v265 : Ref sig .tc := ⟨.hbm, 461, rfl⟩
abbrev main_v266 : Ref sig .tc := ⟨.hbm, 462, rfl⟩
abbrev main_v267 : Ref sig .tc := ⟨.hbm, 463, rfl⟩
abbrev main_cst_38 : Ref sig .tc := ⟨.hbm, 464, rfl⟩
abbrev main_v268 : Ref sig .tc := ⟨.hbm, 465, rfl⟩
abbrev main_cst_39 : Ref sig .tc := ⟨.hbm, 466, rfl⟩
abbrev main_v269 : Ref sig .tc := ⟨.hbm, 467, rfl⟩
abbrev main_v270 : Ref sig .tc := ⟨.hbm, 468, rfl⟩
abbrev main_c_40 : Ref sig .tc := ⟨.hbm, 469, rfl⟩
abbrev main_call12_cst : Ref sig .tc := ⟨.hbm, 470, rfl⟩
abbrev main_call12_v0 : Ref sig .tc := ⟨.hbm, 471, rfl⟩
abbrev main_call12_v1 : Ref sig .tc := ⟨.hbm, 472, rfl⟩
abbrev main_call12_cst_0 : Ref sig .tc := ⟨.hbm, 473, rfl⟩
abbrev main_call12_v2 : Ref sig .tc := ⟨.hbm, 474, rfl⟩
abbrev main_call12_v3 : Ref sig .tc := ⟨.hbm, 475, rfl⟩
abbrev main_call12_v4 : Ref sig .tc := ⟨.hbm, 476, rfl⟩
abbrev main_call12_v5 : Ref sig .tc := ⟨.hbm, 477, rfl⟩
abbrev main_call12_v6 : Ref sig .tc := ⟨.hbm, 478, rfl⟩
abbrev main_call12_v7 : Ref sig .tc := ⟨.hbm, 479, rfl⟩
abbrev main_call12_cst_1 : Ref sig .tc := ⟨.hbm, 480, rfl⟩
abbrev main_call12_v8 : Ref sig .tc := ⟨.hbm, 481, rfl⟩
abbrev main_call12_cst_2 : Ref sig .tc := ⟨.hbm, 482, rfl⟩
abbrev main_call12_v9 : Ref sig .tc := ⟨.hbm, 483, rfl⟩
abbrev main_call12_v10 : Ref sig .tc := ⟨.hbm, 484, rfl⟩
abbrev main_call12_v11 : Ref sig .tc := ⟨.hbm, 485, rfl⟩
abbrev main_call12_cst_3 : Ref sig .tc := ⟨.hbm, 486, rfl⟩
abbrev main_call12_v12 : Ref sig .tc := ⟨.hbm, 487, rfl⟩
abbrev main_call12_cst_4 : Ref sig .tc := ⟨.hbm, 488, rfl⟩
abbrev main_call12_call0_v0 : Ref sig .tc := ⟨.hbm, 489, rfl⟩
abbrev main_call12_call0_v1 : Ref sig .tc := ⟨.hbm, 490, rfl⟩
abbrev main_v271 : Ref sig .tc := ⟨.hbm, 491, rfl⟩
abbrev main_v272 : Ref sig .tc := ⟨.hbm, 492, rfl⟩
abbrev main_v273 : Ref sig .tc := ⟨.hbm, 493, rfl⟩
abbrev main_v274 : Ref sig .tc := ⟨.hbm, 494, rfl⟩
abbrev main_cst_41 : Ref sig .tc := ⟨.hbm, 495, rfl⟩
abbrev main_v275 : Ref sig .tc := ⟨.hbm, 496, rfl⟩
abbrev main_v276 : Ref sig .tc := ⟨.hbm, 497, rfl⟩
abbrev main_v277 : Ref sig .tc := ⟨.hbm, 498, rfl⟩
abbrev main_v278 : Ref sig .tc := ⟨.hbm, 499, rfl⟩
abbrev main_v279 : Ref sig .tc := ⟨.hbm, 500, rfl⟩
abbrev main_v280 : Ref sig .tc := ⟨.hbm, 501, rfl⟩
abbrev main_v281 : Ref sig .tc := ⟨.hbm, 502, rfl⟩
abbrev main_v282 : Ref sig .tc := ⟨.hbm, 503, rfl⟩
abbrev main_v283 : Ref sig .tc := ⟨.hbm, 504, rfl⟩
abbrev main_v284 : Ref sig .tc := ⟨.hbm, 505, rfl⟩
abbrev main_v285 : Ref sig .tc := ⟨.hbm, 506, rfl⟩
abbrev main_v286 : Ref sig .tc := ⟨.hbm, 507, rfl⟩
abbrev main_call13_cst : Ref sig .tc := ⟨.hbm, 508, rfl⟩
abbrev main_call13_v0 : Ref sig .tc := ⟨.hbm, 509, rfl⟩
abbrev main_v287 : Ref sig .tc := ⟨.hbm, 510, rfl⟩
abbrev main_v288 : Ref sig .tc := ⟨.hbm, 511, rfl⟩
abbrev main_v289 : Ref sig .tc := ⟨.hbm, 512, rfl⟩
abbrev main_v290 : Ref sig .tc := ⟨.hbm, 513, rfl⟩
abbrev main_v291 : Ref sig .tc := ⟨.hbm, 514, rfl⟩
abbrev main_v292 : Ref sig .tc := ⟨.hbm, 515, rfl⟩
abbrev main_v293 : Ref sig .tc := ⟨.hbm, 516, rfl⟩
abbrev main_v294 : Ref sig .tc := ⟨.hbm, 517, rfl⟩
abbrev main_v295 : Ref sig .tc := ⟨.hbm, 518, rfl⟩
abbrev main_v296 : Ref sig .tc := ⟨.hbm, 519, rfl⟩
abbrev main_v297 : Ref sig .tc := ⟨.hbm, 520, rfl⟩
abbrev main_v298 : Ref sig .tc := ⟨.hbm, 521, rfl⟩
abbrev main_v299 : Ref sig .tc := ⟨.hbm, 522, rfl⟩
abbrev main_cst_42 : Ref sig .tc := ⟨.hbm, 523, rfl⟩
abbrev main_v300 : Ref sig .tc := ⟨.hbm, 524, rfl⟩
abbrev main_cst_43 : Ref sig .tc := ⟨.hbm, 525, rfl⟩
abbrev main_v301 : Ref sig .tc := ⟨.hbm, 526, rfl⟩
abbrev main_v302 : Ref sig .tc := ⟨.hbm, 527, rfl⟩
abbrev main_c_44 : Ref sig .tc := ⟨.hbm, 528, rfl⟩
abbrev main_call14_cst : Ref sig .tc := ⟨.hbm, 529, rfl⟩
abbrev main_call14_v0 : Ref sig .tc := ⟨.hbm, 530, rfl⟩
abbrev main_call14_v1 : Ref sig .tc := ⟨.hbm, 531, rfl⟩
abbrev main_call14_cst_0 : Ref sig .tc := ⟨.hbm, 532, rfl⟩
abbrev main_call14_v2 : Ref sig .tc := ⟨.hbm, 533, rfl⟩
abbrev main_call14_v3 : Ref sig .tc := ⟨.hbm, 534, rfl⟩
abbrev main_call14_v4 : Ref sig .tc := ⟨.hbm, 535, rfl⟩
abbrev main_call14_v5 : Ref sig .tc := ⟨.hbm, 536, rfl⟩
abbrev main_call14_v6 : Ref sig .tc := ⟨.hbm, 537, rfl⟩
abbrev main_call14_v7 : Ref sig .tc := ⟨.hbm, 538, rfl⟩
abbrev main_call14_cst_1 : Ref sig .tc := ⟨.hbm, 539, rfl⟩
abbrev main_call14_v8 : Ref sig .tc := ⟨.hbm, 540, rfl⟩
abbrev main_call14_cst_2 : Ref sig .tc := ⟨.hbm, 541, rfl⟩
abbrev main_call14_v9 : Ref sig .tc := ⟨.hbm, 542, rfl⟩
abbrev main_call14_v10 : Ref sig .tc := ⟨.hbm, 543, rfl⟩
abbrev main_call14_v11 : Ref sig .tc := ⟨.hbm, 544, rfl⟩
abbrev main_call14_cst_3 : Ref sig .tc := ⟨.hbm, 545, rfl⟩
abbrev main_call14_v12 : Ref sig .tc := ⟨.hbm, 546, rfl⟩
abbrev main_call14_cst_4 : Ref sig .tc := ⟨.hbm, 547, rfl⟩
abbrev main_call14_call0_v0 : Ref sig .tc := ⟨.hbm, 548, rfl⟩
abbrev main_call14_call0_v1 : Ref sig .tc := ⟨.hbm, 549, rfl⟩
abbrev main_v303 : Ref sig .tc := ⟨.hbm, 550, rfl⟩
abbrev main_v304 : Ref sig .tc := ⟨.hbm, 551, rfl⟩
abbrev main_v305 : Ref sig .tc := ⟨.hbm, 552, rfl⟩
abbrev main_v306 : Ref sig .tc := ⟨.hbm, 553, rfl⟩
abbrev main_cst_45 : Ref sig .tc := ⟨.hbm, 554, rfl⟩
abbrev main_v307 : Ref sig .tc := ⟨.hbm, 555, rfl⟩
abbrev main_v308 : Ref sig .tc := ⟨.hbm, 556, rfl⟩
abbrev main_v309 : Ref sig .tc := ⟨.hbm, 557, rfl⟩
abbrev main_v310 : Ref sig .tc := ⟨.hbm, 558, rfl⟩
abbrev main_v311 : Ref sig .tc := ⟨.hbm, 559, rfl⟩
abbrev main_v312 : Ref sig .tc := ⟨.hbm, 560, rfl⟩
abbrev main_v313 : Ref sig .tc := ⟨.hbm, 561, rfl⟩
abbrev main_v314 : Ref sig .tc := ⟨.hbm, 562, rfl⟩
abbrev main_v315 : Ref sig .tc := ⟨.hbm, 563, rfl⟩
abbrev main_v316 : Ref sig .tc := ⟨.hbm, 564, rfl⟩
abbrev main_v317 : Ref sig .tc := ⟨.hbm, 565, rfl⟩
abbrev main_v318 : Ref sig .tc := ⟨.hbm, 566, rfl⟩
abbrev main_call15_cst : Ref sig .tc := ⟨.hbm, 567, rfl⟩
abbrev main_call15_v0 : Ref sig .tc := ⟨.hbm, 568, rfl⟩
abbrev main_v319 : Ref sig .tc := ⟨.hbm, 569, rfl⟩
abbrev main_v320 : Ref sig .tc := ⟨.hbm, 570, rfl⟩
abbrev main_v321 : Ref sig .tc := ⟨.hbm, 571, rfl⟩
abbrev main_v322 : Ref sig .tc := ⟨.hbm, 572, rfl⟩
abbrev main_v323 : Ref sig .tc := ⟨.hbm, 573, rfl⟩
abbrev main_v324 : Ref sig .tc := ⟨.hbm, 574, rfl⟩
abbrev main_v325 : Ref sig .tc := ⟨.hbm, 575, rfl⟩
abbrev main_v326 : Ref sig .tc := ⟨.hbm, 576, rfl⟩
abbrev main_cst_46 : Ref sig .tc := ⟨.hbm, 577, rfl⟩
abbrev main_v327 : Ref sig .tc := ⟨.hbm, 578, rfl⟩
abbrev main_v328 : Ref sig .tc := ⟨.hbm, 579, rfl⟩
abbrev main_v329 : Ref sig .tc := ⟨.hbm, 580, rfl⟩
abbrev main_v330 : Ref sig .tc := ⟨.hbm, 581, rfl⟩
abbrev main_v331 : Ref sig .tc := ⟨.hbm, 582, rfl⟩
abbrev main_v332 : Ref sig .tc := ⟨.hbm, 583, rfl⟩
abbrev main_v333 : Ref sig .tc := ⟨.hbm, 584, rfl⟩
abbrev main_v334 : Ref sig .tc := ⟨.hbm, 585, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S4_S1_0 : S4.Slices ![0] S1
  shapeCasts_S1_S_ : S1.ShapeCasts S_
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S4_S1_1 : S4.Slices ![1] S1
  slices_S4x128x128_S1x128x128_1_0_0 : S4x128x128.Slices ![1, 0, 0] S1x128x128
  slices_S4x128_S1x128_1_0 : S4x128.Slices ![1, 0] S1x128
  slices_S4_S1_2 : S4.Slices ![2] S1
  slices_S4x128x128_S1x128x128_2_0_0 : S4x128x128.Slices ![2, 0, 0] S1x128x128
  slices_S4x128_S1x128_2_0 : S4x128.Slices ![2, 0] S1x128
  slices_S4_S1_3 : S4.Slices ![3] S1
  slices_S4x128x128_S1x128x128_3_0_0 : S4x128x128.Slices ![3, 0, 0] S1x128x128
  slices_S4x128_S1x128_3_0 : S4x128.Slices ![3, 0] S1x128
  concatenates_S100000x128_S100000x128_S100000x128_S100000x128_S100000x128_S100000x640_d1 : Shape.Concatenates [S100000x128, S100000x128, S100000x128, S100000x128, S100000x128] S100000x640 1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S100000x1_S100000x640_0_1 : S100000x1.BroadcastsInDim S100000x640 (![0, 1] : Fin 2 → Fin S100000x640.rank)
  bcast_S_S100x640 : S_.BroadcastsInDim S100x640 (![] : Fin 0 → Fin S100x640.rank)
  bcast_S100000_S100000x1_0 : S100000.BroadcastsInDim S100000x1 (![0] : Fin 1 → Fin S100000x1.rank)
  concatenates_S100x640_S100x16_S100x656_d1 : Shape.Concatenates [S100x640, S100x16] S100x656 1
  bcast_S10_S1x10_1 : S10.BroadcastsInDim S1x10 (![1] : Fin 1 → Fin S1x10.rank)
  bcast_S1x10_S100x10_0_1 : S1x10.BroadcastsInDim S100x10 (![0, 1] : Fin 2 → Fin S100x10.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x640_S640x1_S100000x1_1_0_0_1_n_n_wf : DotDims.WF S100000x640 S640x1 S100000x1 [1] [0] [0] [1] [] []
  scatter_S100x640_S100000x1_S100000x640_1_0_0_1_wf : ScatterDims.WF S100x640 S100000x1 S100000x640 [1] [0] [0] 1
  dot_S100x656_S656x10_S100x10_1_0_0_1_n_n_wf : DotDims.WF S100x656 S656x10 S100x10 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x640_S640x1_S100000x1_1_0_0_1_n_n : DotDims S100000x640 S640x1 S100000x1 where
  lhsContracting := [1]
  rhsContracting := [0]
  lhsNonContracting := [0]
  rhsNonContracting := [1]
  lhsBatch := []
  rhsBatch := []
  wf := dot_S100000x640_S640x1_S100000x1_1_0_0_1_n_n_wf
def scatter_S100x640_S100000x1_S100000x640_1_0_0_1 : ScatterDims S100x640 S100000x1 S100000x640 where
  updateWindowDims := [1]
  insertedWindowDims := [0]
  scatterDimsToOperandDims := [0]
  indexVectorDim := 1
  wf := scatter_S100x640_S100000x1_S100000x640_1_0_0_1_wf
def dot_S100x656_S656x10_S100x10_1_0_0_1_n_n : DotDims S100x656 S656x10 S100x10 where
  lhsContracting := [1]
  rhsContracting := [0]
  lhsNonContracting := [0]
  rhsNonContracting := [1]
  lhsBatch := []
  rhsBatch := []
  wf := dot_S100x656_S656x10_S100x10_1_0_0_1_n_n_wf

class Facts : Prop extends Facts₀ where

variable [Facts]
-- ==== Proof.K.R0.lean ====
import proofs.«105940_j32358283608240_1_alg».proof.Proof.Gen.Kernel.Launch
import proofs.«105940_j32358283608240_1_alg».proof.Proof.Gen.Kernel.Skeleton
import proofs.«105940_j32358283608240_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeroOff0 : (![0, 0] : Fin 2 → ℕ) = fun _ => 0 := funext fun a => by fin_cases a <;> rfl

theorem readAt_whole0 {sp : Space} {S : Shape} {e : EltTy} {m : Memref sig .tc sp S e} (hm : m.IsWhole)
    {off : Fin S.rank → ℕ} (h : off = fun _ => 0) (inb : ∀ a, off a + S.size a ≤ S.size a) (X : S.Idx → Elt F e) :
    View.readAt (Elt F) m.view (Rect.unit off S.size inb).toLoadRect (hm.unread X) = X := by
  subst h
  funext x
  rw [View.readAt_apply, hm.read_unread]
  show X ((Rect.whole S).emb x) = X x
  rw [Rect.emb_whole_apply]

theorem read_writes_whole0 {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst h
  funext y
  have e := View.read_writes_cons_emb (v := v) (f := f) (Rect.whole S) w L y
  rw [Rect.emb_whole_apply] at e
  exact e

abbrev cond0_0 (i : grid0.Coords) : Prop :=
  (Scalar.cmpi .ne (Scalar.extui (Scalar.cmpi .eq (BitVec.ofNat 32 (i 0).val) 0#32)) 0#32) = 1#1

theorem hcond0_0 : ∀ t : Fin cfg0.N, cond0_0 (grid0.coords t) ↔ t.val % 10 = 0 :=
  (by decide +kernel : ∀ t : Fin grid0.N, cond0_0 (grid0.coords t) ↔ t.val % 10 = 0)

set_option maxHeartbeats 1000000 in
theorem sound_kernel0_A (c : Dev nD) (E : Set ℕ) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec F S10000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay3 x0 x1 x2)
            ∗ owns (c : Thread nD τ) arg5 fullShare (k0_pay4 x0 x1 x2 k0_pay1)
            ∗ owns (c : Thread nD τ) arg6 fullShare (k0_pay5 x0 x1 x2 k0_pay2)) -∗ K ⟨⟩))
      ⊢ wp frame (wpE (defs₀ (F := F)) Variants.none c none) E (cc0__stage1_kernel i arg1 harg1 arg2 harg2 arg3 harg3 arg4 harg4 arg5 harg5 arg6 harg6) K := by
  simp only [cc0__stage1_kernel_eq_skeleton]; unfold cc0__stage1_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg1.eq_unread hf0; obtain rfl := harg2.eq_unread hf1; obtain rfl := harg3.eq_unread hf2
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [read_writes_whole0 _ _ zeroOff0, readAt_whole0 harg1 zeroOff0, readAt_whole0 harg2 zeroOff0, readAt_whole0 harg3 zeroOff0]
  isplitl [H4]
  · iexists _; isplitr
    swap; · iexact H4
    ipureintro
    sl_unfold_run_names
    rw [read_writes_whole0 _ _ zeroOff0, View.readCov_cons_toLoadRect,
      readAt_whole0 harg1 zeroOff0, readAt_whole0 harg2 zeroOff0, readAt_whole0 harg3 zeroOff0]
  iexists _; isplitr
  swap; · iexact H5
  ipureintro
  sl_unfold_run_names
  rw [read_writes_whole0 _ _ zeroOff0, View.readCov_cons_toLoadRect,
    readAt_whole0 harg1 zeroOff0, readAt_whole0 harg2 zeroOff0, readAt_whole0 harg3 zeroOff0]

set_option maxHeartbeats 1000000 in
theorem sound_kernel0_B (c : Dev nD) (E : Set ℕ) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec F S10000x128 .f32) (x1 : Vec F S128x128 .f32) (x2 : Vec F S1x128 .f32)
    (a4 : Vec F S1x128 .f32) (a5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare a4 ∗ owns (c : Thread nD τ) arg6 fullShare a5
        ∗ (iprop(owns (c : Thread nD τ) arg1 fullShare x0 ∗ owns (c : Thread nD τ) arg2 fullShare x1 ∗ owns (c : Thread nD τ) arg3 fullShare x2
            ∗ owns (c : Thread nD τ) arg4 fullShare (k0_pay3 x0 x1 x2)
            ∗ owns (c : Thread nD τ) arg5 fullShare (k0_pay4 x0 x1 x2 a4)
            ∗ owns (c : Thread nD τ) arg6 fullShare (k0_pay5 x0 x1 x2 a5)) -∗ K ⟨⟩))
      ⊢ wp frame (wpE (defs₀ (F := F)) Variants.none c none) E (cc0__stage1_kernel i arg1 harg1 arg2 harg2 arg3 harg3 arg4 harg4 arg5 harg5 arg6 harg6) K := by
  simp only [cc0__stage1_kernel_eq_skeleton]; unfold cc0__stage1_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  obtain rfl := harg1.eq_unread hf0; obtain rfl := harg2.eq_unread hf1; obtain rfl := harg3.eq_unread hf2
  obtain rfl := harg5.eq_unread hf4; obtain rfl := harg6.eq_unread hf5
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [read_writes_whole0 _ _ zeroOff0, readAt_whole0 harg1 zeroOff0, readAt_whole0 harg2 zeroOff0, readAt_whole0 harg3 zeroOff0]
  isplitl [H4]
  · iexists _; isplitr
    swap; · iexact H4
    ipureintro
    sl_unfold_run_names
    rw [read_writes_whole0 _ _ zeroOff0, readAt_whole0 harg5 zeroOff0,
      readAt_whole0 harg1 zeroOff0, readAt_whole0 harg2 zeroOff0, readAt_whole0 harg3 zeroOff0]
  iexists _; isplitr
  swap; · iexact H5
  ipureintro
  sl_unfold_run_names
  rw [read_writes_whole0 _ _ zeroOff0, readAt_whole0 harg6 zeroOff0,
    readAt_whole0 harg1 zeroOff0, readAt_whole0 harg2 zeroOff0, readAt_whole0 harg3 zeroOff0]

section
variable {β : Type} {N : ℕ} (f : Fin N → β → β) (z : β)

def out0 : (n : ℕ) → n < N → β
  | 0, hn => f ⟨0, hn⟩ z
  | n + 1, hn => f ⟨n + 1, hn⟩ (out0 n (Nat.lt_of_succ_lt hn))

def acc0 : Fin N → β
  | ⟨0, _⟩ => z
  | ⟨n + 1, hn⟩ => out0 f z n (Nat.lt_of_succ_lt hn)

theorem out0_eq (t : Fin N) : out0 f z t.val t.isLt = f t (acc0 f z t) := by
  obtain ⟨_ | n, hn⟩ := t <;> rfl

theorem acc0_zero (t : Fin N) (h : t.val = 0) : acc0 f z t = z := by
  obtain ⟨_ | n, hn⟩ := t
  · rfl
  · exact absurd h (Nat.succ_ne_zero n)

theorem acc0_succ (t : Fin N) (h : t.val ≠ 0) :
    acc0 f z t = out0 f z (t.val - 1) (Nat.lt_of_le_of_lt (Nat.sub_le _ _) t.isLt) := by
  obtain ⟨_ | n, hn⟩ := t
  · exact absurd rfl h
  · rfl

end

section
variable (x0 : Fin grid0.N → Vec F S10000x128 .f32) (x1 : Fin grid0.N → Vec F S128x128 .f32) (x2 : Fin grid0.N → Vec F S1x128 .f32)

abbrev out0_4 : (n : ℕ) → n < grid0.N → Vec F S1x128 .f32 := out0 (fun t => k0_pay4 (x0 t) (x1 t) (x2 t)) (k0_pay1 (F := F))
abbrev out0_5 : (n : ℕ) → n < grid0.N → Vec F S1x128 .f32 := out0 (fun t => k0_pay5 (x0 t) (x1 t) (x2 t)) (k0_pay2 (F := F))
abbrev acc0_4 : Fin grid0.N → Vec F S1x128 .f32 := acc0 (fun t => k0_pay4 (x0 t) (x1 t) (x2 t)) (k0_pay1 (F := F))
abbrev acc0_5 : Fin grid0.N → Vec F S1x128 .f32 := acc0 (fun t => k0_pay5 (x0 t) (x1 t) (x2 t)) (k0_pay2 (F := F))

theorem out0_4_eq (t : Fin grid0.N) :
    out0_4 x0 x1 x2 t.val t.isLt = k0_pay4 (x0 t) (x1 t) (x2 t) (acc0_4 x0 x1 x2 t) := out0_eq _ _ t
theorem out0_5_eq (t : Fin grid0.N) :
    out0_5 x0 x1 x2 t.val t.isLt = k0_pay5 (x0 t) (x1 t) (x2 t) (acc0_5 x0 x1 x2 t) := out0_eq _ _ t

set_option maxHeartbeats 800000 in
theorem sound_point0 (c : Dev nD) (t : Fin grid0.N) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole)
    {D0 D1 D2 D3 D4 D5 : Type} (b0 : D0 → Vec F S10000x128 .f32) (b1 : D1 → Vec F S128x128 .f32) (b2 : D2 → Vec F S1x128 .f32)
    (b3 : D3 → Vec F S10000x128 .f32) (b4 : D4 → Vec F S1x128 .f32) (b5 : D5 → Vec F S1x128 .f32)
    (h0 : ∀ d, b0 d = x0 t) (h1 : ∀ d, b1 d = x1 t) (h2 : ∀ d, b2 d = x2 t)
    (hB : ¬t.val % 10 = 0 → (∀ d, b4 d = acc0_4 x0 x1 x2 t) ∧ ∀ d, b5 d = acc0_5 x0 x1 x2 t) (Φ O : sProp 𝕄) :
    iprop(Φ ∗ O ∗ (∃ d, owns (c : Thread nD τ) arg1 fullShare (b0 d)) ∗ (∃ d, owns (c : Thread nD τ) arg2 fullShare (b1 d))
        ∗ (∃ d, owns (c : Thread nD τ) arg3 fullShare (b2 d)) ∗ (∃ d, owns (c : Thread nD τ) arg4 fullShare (b3 d))
        ∗ (∃ d, owns (c : Thread nD τ) arg5 fullShare (b4 d)) ∗ (∃ d, owns (c : Thread nD τ) arg6 fullShare (b5 d)))
      ⊢ wp frame (wpE (defs₀ (F := F)) Variants.none c none) Set.univ
          (cc0__stage1_kernel (grid0.coords t) arg1 harg1 arg2 harg2 arg3 harg3 arg4 harg4 arg5 harg5 arg6 harg6) fun _ =>
          iprop(Φ ∗ O ∗ owns (c : Thread nD τ) arg1 fullShare (x0 t) ∗ owns (c : Thread nD τ) arg2 fullShare (x1 t)
            ∗ owns (c : Thread nD τ) arg3 fullShare (x2 t) ∗ owns (c : Thread nD τ) arg4 fullShare (k0_pay3 (x0 t) (x1 t) (x2 t))
            ∗ owns (c : Thread nD τ) arg5 fullShare (out0_4 x0 x1 x2 t.val t.isLt)
            ∗ owns (c : Thread nD τ) arg6 fullShare (out0_5 x0 x1 x2 t.val t.isLt)) := by
  rw [out0_4_eq, out0_5_eq]
  simp only [h0, h1, h2]
  by_cases hz : t.val % 10 = 0
  on_goal 1 =>
    have hN : t.val < 10 := lt_of_lt_of_eq t.isLt N_0
    rw [show acc0_4 x0 x1 x2 t = k0_pay1 from acc0_zero _ _ t (by omega),
      show acc0_5 x0 x1 x2 t = k0_pay2 from acc0_zero _ _ t (by omega)]
  on_goal 2 => simp only [(hB hz).1, (hB hz).2]
  all_goals
    iintro ⟨HΦ, Ho, ⟨%d0, H0⟩, ⟨%d1, H1⟩, ⟨%d2, H2⟩, ⟨%d3, H3⟩, ⟨%d4, H4⟩, ⟨%d5, H5⟩⟩
    first
      | iapply (sound_kernel0_A c Set.univ (grid0.coords t) _ harg1 _ harg2 _ harg3 _ harg4 _ harg5 _ harg6 ((hcond0_0 t).mpr hz)
          (x0 t) (x1 t) (x2 t) _)
      | iapply (sound_kernel0_B c Set.univ (grid0.coords t) _ harg1 _ harg2 _ harg3 _ harg4 _ harg5 _ harg6 (fun h => hz ((hcond0_0 t).mp h))
          (x0 t) (x1 t) (x2 t) (acc0_4 x0 x1 x2 t) (acc0_5 x0 x1 x2 t) _)
    isplitl [H0]; · iexact H0
    isplitl [H1]; · iexact H1
    isplitl [H2]; · iexact H2
    isplitl [H3]; · iexists _; iexact H3
    isplitl [H4]; · first | iexact H4 | (iexists _; iexact H4)
    isplitl [H5]; · first | iexact H5 | (iexists _; iexact H5)
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

end

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_of {c : Dev nD} (dat : Dat τ (Elt F) Unit ℕ (UR sig nD τ) ℕ cfg0 c) (hA : ∀ w, dat.A w = V c (Pipeline.arrRef spec0 w))
    (h0 : ∀ t, dat.after 0 t = iblk0 V c 0 t) (h1 : ∀ t, dat.after 1 t = iblk0 V c 1 t) (h2 : ∀ t, dat.after 2 t = iblk0 V c 2 t)
    (t : Fin cfg0.N) :
    (∀ d, dat.before 0 t d = iblk0 V c 0 t) ∧ (∀ d, dat.before 1 t d = iblk0 V c 1 t) ∧ ∀ d, dat.before 2 t d = iblk0 V c 2 t := by
  refine ⟨fun d => ?_, fun d => ?_, fun d => ?_⟩ <;>
    exact Eq.trans (dat.before_in_eq_fetched _ rfl (fun _ => rfl) (fun _ _ _ => rfl)
      (fun t => by (first | rw [h0] | rw [h1] | rw [h2]); unfold Dat.blockOf iblk0; rw [hA]; try rfl) t d)
      (by unfold Dat.fetched Dat.blockOf iblk0; rw [hA]; try rfl)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (iblk0 V c 0 t) (iblk0 V c 1 t) (iblk0 V c 2 t)
    | ⟨4, _⟩ => out0_4 (iblk0 V c 0) (iblk0 V c 1) (iblk0 V c 2) t.val t.isLt
    | ⟨5, _⟩ => out0_5 (iblk0 V c 0) (iblk0 V c 1) (iblk0 V c 2) t.val t.isLt
  Φ _ := Pipeline.ΦA spec0 c
  q _ := fullShare
  owed _ := 0

theorem A_eq0 (c : Dev nD) (w : Fin cfg0.W) : (dat0 V c).A w = V c (Pipeline.arrRef spec0 w) := rfl
theorem Phi_eq0 (c : Dev nD) (j) : (dat0 V c).Φ j = Pipeline.ΦA spec0 c := rfl
theorem q_eq0 (c : Dev nD) (w : Fin cfg0.W) : (dat0 V c).q w = fullShare := rfl
theorem owed_eq0 (c : Dev nD) (j) : (dat0 V c).owed j = 0 := rfl
theorem recorded_eq0 (c : Dev nD) (j) : (dat0 V c).recorded j = Set.univ := rfl

theorem before0_B (c : Dev nD) (t : Fin cfg0.N) (hz : ¬t.val % 10 = 0) :
    (∀ d, (dat0 V c).before 4 t d = acc0_4 (iblk0 V c 0) (iblk0 V c 1) (iblk0 V c 2) t)
      ∧ ∀ d, (dat0 V c).before 5 t d = acc0_5 (iblk0 V c 0) (iblk0 V c 1) (iblk0 V c 2) t := by
  have hN : t.val < 10 := lt_of_lt_of_eq t.isLt (show cfg0.N = 10 from N_0)
  refine ⟨fun d => ?_, fun d => ?_⟩ <;>
    refine (Dat.before_out_kept _ _ rfl t (by omega) (Bool.eq_false_iff.mpr fun h => ?_) (fun _ => rfl) (fun _ _ => rfl) d).trans
      (acc0_succ _ _ t (by omega)).symm
  · have := (flush0_4 _).mp h; dsimp only at this; omega
  · have := (flush0_5 _).mp h; dsimp only at this; omega

theorem body_obligation0 (c : Dev nD) : BodyObligation (dat0 (F := F) V c) (defs₀ (F := F)) Variants.none () Set.univ := fun t => by
  rw [bigSep_W0, bigSep_W0]
  have hb := before0_of V (dat0 V c) (A_eq0 V c) (fun _ => rfl) (fun _ => rfl) (fun _ => rfl) t
  show _ ⊢ wp _ _ _ (bodyAt0 t) _
  unfold bodyAt0
  exact sound_point0 (iblk0 V c 0) (iblk0 V c 1) (iblk0 V c 2) c t _ _ _ _ _ _ _ _ _ _ _ _
    ((dat0 V c).before 0 t) ((dat0 V c).before 1 t) ((dat0 V c).before 2 t) ((dat0 V c).before 3 t) ((dat0 V c).before 4 t) ((dat0 V c).before 5 t)
    hb.1 hb.2.1 hb.2.2 (before0_B V c t) _ _

end Cert.Kernel.Hand

end
-- ==== Proof.K.R1.lean ====
import proofs.«105940_j32358283608240_1_alg».proof.Proof.Gen.Kernel.Launch
import proofs.«105940_j32358283608240_1_alg».proof.Proof.Gen.Kernel.Skeleton
import proofs.«105940_j32358283608240_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zoff1 : (![0, 0] : Fin 2 → ℕ) = fun _ => 0 := by
  funext a; fin_cases a <;> rfl

theorem readAtW1 {κ : Kind} {sp : Space} {S : Shape} {e : EltTy} (v : View sig κ sp S e) {off : Fin S.rank → ℕ} (h : off = fun _ => 0)
    (inb : ∀ a, off a + S.size a ≤ S.size a) (f : v.ty.Contents (Elt F)) :
    v.readAt (Elt F) (Rect.unit off S.size inb).toLoadRect f = v.read (Elt F) f :=
  View.ld_unit_zero h inb _

theorem readWritesW1 {κ : Kind} {sp : Space} {S : Shape} {e : EltTy} (v : View sig κ sp S e) {off : Fin S.rank → ℕ} (h : off = fun _ => 0)
    (inb : ∀ a, off a + S.size a ≤ S.size a) (f : v.ty.Contents (Elt F)) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb w L]

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)

/-- The running value of an accumulator: the payload `g` folded over the blocks `R 0 … R n` from `z`. -/
def sums1 {N : ℕ} (g : FVec F S10000x128 .f32 → Vec F S1x128 .f32 → Vec F S1x128 .f32) (z : Vec F S1x128 .f32) (R : Fin N → FVec F S10000x128 .f32) :
    (n : ℕ) → n < N → Vec F S1x128 .f32
  | 0, hn => g (R ⟨0, hn⟩) z
  | n + 1, hn => g (R ⟨n + 1, hn⟩) (sums1 g z R n (Nat.lt_of_succ_lt hn))

theorem sums1_step {N : ℕ} (g : FVec F S10000x128 .f32 → Vec F S1x128 .f32 → Vec F S1x128 .f32) (z : Vec F S1x128 .f32) (R : Fin N → FVec F S10000x128 .f32) (t : Fin N) :
    sums1 g z R t.val t.isLt = g (R t) (if t.val = 0 then z else sums1 g z R (t.val - 1) (Nat.lt_of_le_of_lt (Nat.sub_le _ _) t.isLt)) := by
  obtain ⟨n, hn⟩ := t
  cases n with
  | zero => rw [if_pos rfl] <;> rfl
  | succ n => rw [if_neg (Nat.succ_ne_zero n)] <;> rfl

section Run
variable (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S1x128 .f32) (harg9 : arg9.IsWhole) (arg10 : Memref sig .tc .vmem S1x128 .f32) (harg10 : arg10.IsWhole)

set_option maxHeartbeats 1000000 in
theorem kernelRun1 (E : Set ℕ) (x0 : Vec F S10000x128 .f32) (x1 x2 x3 x4 : Vec F S1x128 .f32) (x5 : Vec F S128x128 .f32) (x6 : Vec F S1x128 .f32) (xo8 xo9 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ owns (c : Thread nD τ) arg9 fullShare xo8 ∗ owns (c : Thread nD τ) arg10 fullShare xo9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k1_pay5 x0 x2 x1 x3 x4 x5 x6)
            ∗ owns (c : Thread nD τ) arg9 fullShare (k1_pay1 (k1_pay5 x0 x2 x1 x3 x4 x5 x6) (if cond1_0 i then k1_pay3 else xo8))
            ∗ owns (c : Thread nD τ) arg10 fullShare (k1_pay2 (k1_pay5 x0 x2 x1 x3 x4 x5 x6) (if cond1_0 i then k1_pay4 else xo9))) -∗ K ⟨⟩))
      ⊢ wp frame (wpE (defs₀ (F := F)) Variants.none c none) E (cc1__stage2_kernel i arg1 harg1 arg2 harg2 arg3 harg3 arg4 harg4 arg5 harg5 arg6 harg6 arg7 harg7 arg8 harg8 arg9 harg9 arg10 harg10) K := by
  by_cases hc0 : cond1_0 i <;> first | rw [if_pos hc0, if_pos hc0] | rw [if_neg hc0, if_neg hc0]
  all_goals
    simp only [cc1__stage2_kernel_eq_skeleton]; unfold cc1__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    subst hf0 hf1 hf2 hf3 hf4 hf5 hf6 hf8 hf9
    sl_exec (disch := first | exact hc0)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists _; isplitr
      swap; · iexact H7
      ipureintro
      rw [readWritesW1 _ zoff1]
      simp only [readAtW1 (S := S10000x128) _ zoff1, readAtW1 (S := S1x128) _ zoff1, readAtW1 (S := S128x128) _ zoff1, View.readCov_cons_toLoadRect]
    isplitl [H8]
    · iexists _; isplitr
      swap; · iexact H8
      ipureintro
      rw [readWritesW1 _ zoff1]
      sl_unfold_run_names
      simp only [readAtW1 (S := S10000x128) _ zoff1, readAtW1 (S := S1x128) _ zoff1, readAtW1 (S := S128x128) _ zoff1, View.readCov_cons_toLoadRect]
    iexists _; isplitr
    swap; · iexact H9
    ipureintro
    rw [readWritesW1 _ zoff1]
    sl_unfold_run_names
    simp only [readAtW1 (S := S10000x128) _ zoff1, readAtW1 (S := S1x128) _ zoff1, readAtW1 (S := S128x128) _ zoff1, View.readCov_cons_toLoadRect]

theorem body1 (P Q : sProp 𝕄) {x0 a7 : Vec F S10000x128 .f32} {x1 x2 x3 x4 x6 a8 a9 : Vec F S1x128 .f32} {x5 : Vec F S128x128 .f32}
    {b0 b7 : Vec F S10000x128 .f32 → Vec F S10000x128 .f32} {b1 b2 b3 b4 b6 b8 b9 : Vec F S1x128 .f32 → Vec F S1x128 .f32}
    {b5 : Vec F S128x128 .f32 → Vec F S128x128 .f32}
    (h0 : ∀ d, b0 d = x0) (h1 : ∀ d, b1 d = x1) (h2 : ∀ d, b2 d = x2) (h3 : ∀ d, b3 d = x3) (h4 : ∀ d, b4 d = x4) (h5 : ∀ d, b5 d = x5) (h6 : ∀ d, b6 d = x6)
    (h7 : a7 = k1_pay5 x0 x2 x1 x3 x4 x5 x6)
    (h8 : ∀ d, a8 = k1_pay1 a7 (if cond1_0 i then k1_pay3 else b8 d)) (h9 : ∀ d, a9 = k1_pay2 a7 (if cond1_0 i then k1_pay4 else b9 d)) :
    iprop(P ∗ Q ∗ (∃ d, owns (c : Thread nD τ) arg1 fullShare (b0 d)) ∗ (∃ d, owns (c : Thread nD τ) arg2 fullShare (b1 d)) ∗ (∃ d, owns (c : Thread nD τ) arg3 fullShare (b2 d)) ∗ (∃ d, owns (c : Thread nD τ) arg4 fullShare (b3 d)) ∗ (∃ d, owns (c : Thread nD τ) arg5 fullShare (b4 d)) ∗ (∃ d, owns (c : Thread nD τ) arg6 fullShare (b5 d)) ∗ (∃ d, owns (c : Thread nD τ) arg7 fullShare (b6 d)) ∗ (∃ d, owns (c : Thread nD τ) arg8 fullShare (b7 d)) ∗ (∃ d, owns (c : Thread nD τ) arg9 fullShare (b8 d)) ∗ (∃ d, owns (c : Thread nD τ) arg10 fullShare (b9 d)))
      ⊢ wp frame (wpE (defs₀ (F := F)) Variants.none c none) Set.univ (cc1__stage2_kernel i arg1 harg1 arg2 harg2 arg3 harg3 arg4 harg4 arg5 harg5 arg6 harg6 arg7 harg7 arg8 harg8 arg9 harg9 arg10 harg10) (fun _ =>
        iprop(P ∗ Q ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
          ∗ owns (c : Thread nD τ) arg8 fullShare a7 ∗ owns (c : Thread nD τ) arg9 fullShare a8 ∗ owns (c : Thread nD τ) arg10 fullShare a9)) := by
  subst h7
  simp only [h0, h1, h2, h3, h4, h5, h6]
  iintro ⟨HP, HQ, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [h8 d8, h9 d9]
  iapply (kernelRun1 c i arg1 harg1 arg2 harg2 arg3 harg3 arg4 harg4 arg5 harg5 arg6 harg6 arg7 harg7 arg8 harg8 arg9 harg9 arg10 harg10 Set.univ x0 x1 x2 x3 x4 x5 x6 (b8 d8) (b9 d9) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  iintro ⟨H0, H1, H2, H3, H4, H5, H6, H7, H8, H9⟩
  isplitl [HP]; · iexact HP
  isplitl [HQ]; · iexact HQ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Run

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def res1 (c : Dev nD) (t : Fin cfg1.N) : FVec F S10000x128 .f32 :=
  k1_pay5 (iblk1 V c 0 t) (iblk1 V c 2 t) (iblk1 V c 1 t) (iblk1 V c 3 t) (iblk1 V c 4 t) (iblk1 V c 5 t) (iblk1 V c 6 t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => res1 V c t
    | ⟨8, _⟩ => sums1 k1_pay1 k1_pay3 (res1 V c) t.val t.isLt
    | ⟨9, _⟩ => sums1 k1_pay2 k1_pay4 (res1 V c) t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]
theorem Phi_eq1 (c : Dev nD) (j) : (dat1 V c).Φ j = Pipeline.ΦA spec1 c := by dsimp only [dat1]
theorem q_eq1 (c : Dev nD) (w : Fin cfg1.W) : (dat1 V c).q w = fullShare := by dsimp only [dat1]
theorem owed_eq1 (c : Dev nD) (j) : (dat1 V c).owed j = 0 := by dsimp only [dat1]
theorem recorded_eq1 (c : Dev nD) (j) : (dat1 V c).recorded j = Set.univ := by dsimp only [dat1]

theorem before1_in (c : Dev nD) (t : Fin cfg1.N) : ∀ w : Fin cfg1.W, w.val < 7 → ∀ d,
    (dat1 V c).before w t d = (dat1 V c).after w t := by
  intro w
  fin_cases w <;> first
    | exact fun hw => absurd hw (by decide)
    | exact fun _ d => ((dat1 V c).before_in_eq_fetched _ (by rfl) (fun _ => by rfl) (fun _ _ _ => by rfl)
        (fun t => by unfold Dat.blockOf; dsimp only [dat1, iblk1]; try rfl) t d).trans
        (by unfold Dat.fetched Dat.blockOf; dsimp only [dat1, iblk1]; try rfl)

theorem after1_7 (c : Dev nD) (t : Fin cfg1.N) : (dat1 V c).after 7 t =
    k1_pay5 ((dat1 V c).after 0 t) ((dat1 V c).after 2 t) ((dat1 V c).after 1 t) ((dat1 V c).after 3 t) ((dat1 V c).after 4 t) ((dat1 V c).after 5 t) ((dat1 V c).after 6 t) := by
  dsimp only [dat1, res1]

/-- An accumulator adds the block's sums to zero at the first point and to what the point before left at a later one. -/
theorem after1_8 (c : Dev nD) (t : Fin cfg1.N) (d) : (dat1 V c).after 8 t =
    k1_pay1 ((dat1 V c).after 7 t) (if cond1_0 (grid1.coords t) then k1_pay3 else (dat1 V c).before 8 t d) := by
  have hN : t.val < 10 := lt_of_lt_of_eq t.isLt (show cfg1.N = 10 from N_1)
  by_cases h0 : t.val % 10 = 0
  · rw [if_pos ((hcond1_0 t).mpr h0)]; dsimp only [dat1]
    rw [sums1_step _ _ _ t, if_pos (show t.val = 0 by omega)]
  · rw [if_neg fun h => h0 ((hcond1_0 t).mp h), (dat1 V c).before_out_kept 8 rfl t (by omega)
      (Bool.eq_false_iff.mpr fun h => by have := (flush1_8 _).mp h; dsimp only at this; omega) (fun _ => rfl) (fun _ _ => rfl) d]
    dsimp only [dat1]
    rw [sums1_step _ _ _ t, if_neg (show ¬t.val = 0 by omega)]
theorem after1_9 (c : Dev nD) (t : Fin cfg1.N) (d) : (dat1 V c).after 9 t =
    k1_pay2 ((dat1 V c).after 7 t) (if cond1_0 (grid1.coords t) then k1_pay4 else (dat1 V c).before 9 t d) := by
  have hN : t.val < 10 := lt_of_lt_of_eq t.isLt (show cfg1.N = 10 from N_1)
  by_cases h0 : t.val % 10 = 0
  · rw [if_pos ((hcond1_0 t).mpr h0)]; dsimp only [dat1]
    rw [sums1_step _ _ _ t, if_pos (show t.val = 0 by omega)]
  · rw [if_neg fun h => h0 ((hcond1_0 t).mp h), (dat1 V c).before_out_kept 9 rfl t (by omega)
      (Bool.eq_false_iff.mpr fun h => by have := (flush1_9 _).mp h; dsimp only at this; omega) (fun _ => rfl) (fun _ _ => rfl) d]
    dsimp only [dat1]
    rw [sums1_step _ _ _ t, if_neg (show ¬t.val = 0 by omega)]

theorem body_obligation1 (c : Dev nD) : BodyObligation (dat1 (F := F) V c) (defs₀ (F := F)) Variants.none () Set.univ := fun t => by
  rw [bigSep_W1, bigSep_W1]
  show _ ⊢ wp frame _ _ (bodyAt1 (F := F) t) _
  unfold bodyAt1
  exact body1 c (grid1.coords t) _ _ _ _ _ _ _ _ _ _ _ _ _ _ _ _ _ _ _ _ _ _
    (before1_in V c t 0 (by decide)) (before1_in V c t 1 (by decide)) (before1_in V c t 2 (by decide)) (before1_in V c t 3 (by decide))
    (before1_in V c t 4 (by decide)) (before1_in V c t 5 (by decide)) (before1_in V c t 6 (by decide)) (after1_7 V c t)
    (after1_8 V c t) (after1_9 V c t)

end Cert.Kernel.Hand

end
-- ==== Proof.K.R2.lean ====
import proofs.«105940_j32358283608240_1_alg».proof.Proof.Gen.Kernel.Launch
import proofs.«105940_j32358283608240_1_alg».proof.Proof.Gen.Kernel.Skeleton
import proofs.«105940_j32358283608240_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev r2_0 : Rect S10000x128 := Rect.unit (s := S10000x128) ![0, 0] S10000x128.size inb_S10000x128_S10000x128_0_0
abbrev r2_1 : Rect S1x128 := Rect.unit (s := S1x128) ![0, 0] S1x128.size inb_S1x128_S1x128_0_0

theorem zeros2 : (![0, 0] : Fin 2 → Nat) = fun _ => 0 := funext fun a => by fin_cases a <;> rfl

def out2_5 (x0 : Vec F S10000x128 .f32) (x1 x2 x3 x4 : Vec F S1x128 .f32) : Vec F S10000x128 .f32 :=
  View.canon [⟨r2_0, k2_pay1 (View.ld x0 r2_0) (View.ld x2 r2_1) (View.ld x1 r2_1) (View.ld x3 r2_1) (View.ld x4 r2_1)⟩]

theorem cover2_5 (p0 : (r2_0).shape.Idx → Elt F .f32) (y : S10000x128.Idx) :
    ∃ pc ∈ ([⟨r2_0, p0⟩] : List (View.Piece (Elt F) S10000x128 .f32)), y ∈ pc.1.set :=
  ⟨_, List.mem_singleton_self _, View.mem_set_unit_zero (S := S10000x128) zeros2 inb_S10000x128_S10000x128_0_0 y⟩

theorem out2_5_eq (x0 : Vec F S10000x128 .f32) (x1 x2 x3 x4 : Vec F S1x128 .f32) :
    out2_5 x0 x1 x2 x3 x4 = k2_pay1 x0 x2 x1 x3 x4 := by
  unfold out2_5
  rw [View.canon_unit_zero (S := S10000x128) zeros2 inb_S10000x128_S10000x128_0_0,
    View.ld_unit_zero (S := S10000x128) zeros2 inb_S10000x128_S10000x128_0_0,
    View.ld_unit_zero (S := S1x128) zeros2 inb_S1x128_S1x128_0_0 x1,
    View.ld_unit_zero (S := S1x128) zeros2 inb_S1x128_S1x128_0_0 x2,
    View.ld_unit_zero (S := S1x128) zeros2 inb_S1x128_S1x128_0_0 x3,
    View.ld_unit_zero (S := S1x128) zeros2 inb_S1x128_S1x128_0_0 x4]

set_option maxHeartbeats 1000000 in
theorem sound_kernel2 (c : Dev nD) (E : Set ℕ) (i : grid2.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S10000x128 .f32) (harg6 : arg6.IsWhole)
    (x0 : Vec F S10000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__stage3_kernel i arg1 harg1 arg2 harg2 arg3 harg3 arg4 harg4 arg5 harg5 arg6 harg6) K := by
  simp only [cc2__stage3_kernel_eq_skeleton]; unfold cc2__stage3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem cc2_eq : @cc2__stage3_kernel F _ = @cc2__stage3_kernel F _ := rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem Phi_eq2 (c : Dev nD) (j) : (dat2 V c).Φ j = Pipeline.ΦA spec2 c := by
  dsimp only [dat2]
theorem q_eq2 (c : Dev nD) (w : Fin cfg2.W) : (dat2 V c).q w = fullShare := by
  dsimp only [dat2]
theorem owed_eq2 (c : Dev nD) (j) : (dat2 V c).owed j = 0 := by
  dsimp only [dat2]
theorem recorded_eq2 (c : Dev nD) (j) : (dat2 V c).recorded j = Set.univ := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t =
    out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3.lean ====
import proofs.«105940_j32358283608240_1_alg».proof.Proof.K.R0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_of {c : Dev nD} (dat : Dat τ (Elt F) Unit ℕ (UR sig nD τ) ℕ cfg3 c) (hA : ∀ w, dat.A w = V c (Pipeline.arrRef spec3 w))
    (h0 : ∀ t, dat.after 0 t = iblk3 V c 0 t) (h1 : ∀ t, dat.after 1 t = iblk3 V c 1 t) (h2 : ∀ t, dat.after 2 t = iblk3 V c 2 t)
    (t : Fin cfg3.N) :
    (∀ d, dat.before 0 t d = iblk3 V c 0 t) ∧ (∀ d, dat.before 1 t d = iblk3 V c 1 t) ∧ ∀ d, dat.before 2 t d = iblk3 V c 2 t := by
  refine ⟨fun d => ?_, fun d => ?_, fun d => ?_⟩ <;>
    exact Eq.trans (dat.before_in_eq_fetched _ rfl (fun _ => rfl) (fun _ _ _ => rfl)
      (fun t => by (first | rw [h0] | rw [h1] | rw [h2]); unfold Dat.blockOf iblk3; rw [hA]; try rfl) t d)
      (by unfold Dat.fetched Dat.blockOf iblk3; rw [hA]; try rfl)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k0_pay3 (iblk3 V c 0 t) (iblk3 V c 1 t) (iblk3 V c 2 t)
    | ⟨4, _⟩ => out0_4 (iblk3 V c 0) (iblk3 V c 1) (iblk3 V c 2) t.val t.isLt
    | ⟨5, _⟩ => out0_5 (iblk3 V c 0) (iblk3 V c 1) (iblk3 V c 2) t.val t.isLt
  Φ _ := Pipeline.ΦA spec3 c
  q _ := fullShare
  owed _ := 0

theorem A_eq3 (c : Dev nD) (w : Fin cfg3.W) : (dat3 V c).A w = V c (Pipeline.arrRef spec3 w) := rfl
theorem Phi_eq3 (c : Dev nD) (j) : (dat3 V c).Φ j = Pipeline.ΦA spec3 c := rfl
theorem q_eq3 (c : Dev nD) (w : Fin cfg3.W) : (dat3 V c).q w = fullShare := rfl
theorem owed_eq3 (c : Dev nD) (j) : (dat3 V c).owed j = 0 := rfl
theorem recorded_eq3 (c : Dev nD) (j) : (dat3 V c).recorded j = Set.univ := rfl

theorem before3_B (c : Dev nD) (t : Fin cfg3.N) (hz : ¬t.val % 10 = 0) :
    (∀ d, (dat3 V c).before 4 t d = acc0_4 (iblk3 V c 0) (iblk3 V c 1) (iblk3 V c 2) t)
      ∧ ∀ d, (dat3 V c).before 5 t d = acc0_5 (iblk3 V c 0) (iblk3 V c 1) (iblk3 V c 2) t := by
  have hN : t.val < 10 := lt_of_lt_of_eq t.isLt (show cfg3.N = 10 from N_3)
  refine ⟨fun d => ?_, fun d => ?_⟩ <;>
    refine (Dat.before_out_kept _ _ rfl t (by omega) (Bool.eq_false_iff.mpr fun h => ?_) (fun _ => rfl) (fun _ _ => rfl) d).trans
      (acc0_succ _ _ t (by omega)).symm
  · have := (flush3_4 _).mp h; dsimp only at this; omega
  · have := (flush3_5 _).mp h; dsimp only at this; omega

theorem cc3_eq : @cc3__stage1_kernel F _ = @cc0__stage1_kernel F _ := rfl

theorem body_obligation3 (c : Dev nD) : BodyObligation (dat3 (F := F) V c) (defs₀ (F := F)) Variants.none () Set.univ := fun t => by
  rw [bigSep_W3, bigSep_W3]
  have hb := before3_of V (dat3 V c) (A_eq3 V c) (fun _ => rfl) (fun _ => rfl) (fun _ => rfl) t
  show _ ⊢ wp _ _ _ (bodyAt3 t) _
  unfold bodyAt3
  rw [cc3_eq]
  exact sound_point0 (iblk3 V c 0) (iblk3 V c 1) (iblk3 V c 2) c t _ _ _ _ _ _ _ _ _ _ _ _
    ((dat3 V c).before 0 t) ((dat3 V c).before 1 t) ((dat3 V c).before 2 t) ((dat3 V c).before 3 t) ((dat3 V c).before 4 t) ((dat3 V c).before 5 t)
    hb.1 hb.2.1 hb.2.2 (before3_B V c t) _ _

end Cert.Kernel.Hand

end
-- ==== Proof.K.R4.lean ====
import proofs.«105940_j32358283608240_1_alg».proof.Proof.K.R1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Regions 1 and 4 have the same body. -/
theorem cc4_eq : @cc4__stage2_kernel F _ = @cc1__stage2_kernel F _ := rfl

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def res4 (c : Dev nD) (t : Fin cfg4.N) : FVec F S10000x128 .f32 :=
  k1_pay5 (iblk4 V c 0 t) (iblk4 V c 2 t) (iblk4 V c 1 t) (iblk4 V c 3 t) (iblk4 V c 4 t) (iblk4 V c 5 t) (iblk4 V c 6 t)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => res4 V c t
    | ⟨8, _⟩ => sums1 k1_pay1 k1_pay3 (res4 V c) t.val t.isLt
    | ⟨9, _⟩ => sums1 k1_pay2 k1_pay4 (res4 V c) t.val t.isLt
  Φ _ := Pipeline.ΦA spec4 c
  q _ := fullShare
  owed _ := 0

theorem A_eq4 (c : Dev nD) (w : Fin cfg4.W) : (dat4 V c).A w = V c (Pipeline.arrRef spec4 w) := by
  dsimp only [dat4]
theorem Phi_eq4 (c : Dev nD) (j) : (dat4 V c).Φ j = Pipeline.ΦA spec4 c := by dsimp only [dat4]
theorem q_eq4 (c : Dev nD) (w : Fin cfg4.W) : (dat4 V c).q w = fullShare := by dsimp only [dat4]
theorem owed_eq4 (c : Dev nD) (j) : (dat4 V c).owed j = 0 := by dsimp only [dat4]
theorem recorded_eq4 (c : Dev nD) (j) : (dat4 V c).recorded j = Set.univ := by dsimp only [dat4]

theorem before4_in (c : Dev nD) (t : Fin cfg4.N) : ∀ w : Fin cfg4.W, w.val < 7 → ∀ d,
    (dat4 V c).before w t d = (dat4 V c).after w t := by
  intro w
  fin_cases w <;> first
    | exact fun hw => absurd hw (by decide)
    | exact fun _ d => ((dat4 V c).before_in_eq_fetched _ (by rfl) (fun _ => by rfl) (fun _ _ _ => by rfl)
        (fun t => by unfold Dat.blockOf; dsimp only [dat4, iblk4]; try rfl) t d).trans
        (by unfold Dat.fetched Dat.blockOf; dsimp only [dat4, iblk4]; try rfl)

theorem after4_7 (c : Dev nD) (t : Fin cfg4.N) : (dat4 V c).after 7 t =
    k1_pay5 ((dat4 V c).after 0 t) ((dat4 V c).after 2 t) ((dat4 V c).after 1 t) ((dat4 V c).after 3 t) ((dat4 V c).after 4 t) ((dat4 V c).after 5 t) ((dat4 V c).after 6 t) := by
  dsimp only [dat4, res4]

/-- An accumulator adds the block's sums to zero at the first point and to what the point before left at a later one. -/
theorem after4_8 (c : Dev nD) (t : Fin cfg4.N) (d) : (dat4 V c).after 8 t =
    k1_pay1 ((dat4 V c).after 7 t) (if cond1_0 (grid4.coords t) then k1_pay3 else (dat4 V c).before 8 t d) := by
  have hN : t.val < 10 := lt_of_lt_of_eq t.isLt (show cfg4.N = 10 from N_4)
  by_cases h0 : t.val % 10 = 0
  · rw [if_pos ((hcond1_0 t).mpr h0)]; dsimp only [dat4]
    rw [sums1_step _ _ _ t, if_pos (show t.val = 0 by omega)]
  · rw [if_neg fun h => h0 ((hcond1_0 t).mp h), (dat4 V c).before_out_kept 8 rfl t (by omega)
      (Bool.eq_false_iff.mpr fun h => by have := (flush4_8 _).mp h; dsimp only at this; omega) (fun _ => rfl) (fun _ _ => rfl) d]
    dsimp only [dat4]
    rw [sums1_step _ _ _ t, if_neg (show ¬t.val = 0 by omega)]
theorem after4_9 (c : Dev nD) (t : Fin cfg4.N) (d) : (dat4 V c).after 9 t =
    k1_pay2 ((dat4 V c).after 7 t) (if cond1_0 (grid4.coords t) then k1_pay4 else (dat4 V c).before 9 t d) := by
  have hN : t.val < 10 := lt_of_lt_of_eq t.isLt (show cfg4.N = 10 from N_4)
  by_cases h0 : t.val % 10 = 0
  · rw [if_pos ((hcond1_0 t).mpr h0)]; dsimp only [dat4]
    rw [sums1_step _ _ _ t, if_pos (show t.val = 0 by omega)]
  · rw [if_neg fun h => h0 ((hcond1_0 t).mp h), (dat4 V c).before_out_kept 9 rfl t (by omega)
      (Bool.eq_false_iff.mpr fun h => by have := (flush4_9 _).mp h; dsimp only at this; omega) (fun _ => rfl) (fun _ _ => rfl) d]
    dsimp only [dat4]
    rw [sums1_step _ _ _ t, if_neg (show ¬t.val = 0 by omega)]

theorem body_obligation4 (c : Dev nD) : BodyObligation (dat4 (F := F) V c) (defs₀ (F := F)) Variants.none () Set.univ := fun t => by
  rw [bigSep_W4, bigSep_W4]
  show _ ⊢ wp frame _ _ (bodyAt4 (F := F) t) _
  unfold bodyAt4
  rw [cc4_eq]
  exact body1 c (grid4.coords t) _ _ _ _ _ _ _ _ _ _ _ _ _ _ _ _ _ _ _ _ _ _
    (before4_in V c t 0 (by decide)) (before4_in V c t 1 (by decide)) (before4_in V c t 2 (by decide)) (before4_in V c t 3 (by decide))
    (before4_in V c t 4 (by decide)) (before4_in V c t 5 (by decide)) (before4_in V c t 6 (by decide)) (after4_7 V c t)
    (after4_8 V c t) (after4_9 V c t)

end Cert.Kernel.Hand

end
-- ==== Proof.K.R5.lean ====
import proofs.«105940_j32358283608240_1_alg».proof.Proof.K.R2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem cc5_eq : @cc5__stage3_kernel F _ = @cc2__stage3_kernel F _ := rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out2_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem Phi_eq5 (c : Dev nD) (j) : (dat5 V c).Φ j = Pipeline.ΦA spec5 c := by
  dsimp only [dat5]
theorem q_eq5 (c : Dev nD) (w : Fin cfg5.W) : (dat5 V c).q w = fullShare := by
  dsimp only [dat5]
theorem owed_eq5 (c : Dev nD) (j) : (dat5 V c).owed j = 0 := by
  dsimp only [dat5]
theorem recorded_eq5 (c : Dev nD) (j) : (dat5 V c).recorded j = Set.univ := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t =
    out2_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d
theorem before5_3 (c : Dev nD) (t : Fin cfg5.N) (d) : (dat5 V c).before 3 t d = iblk5 V c 3 t :=
  (dat5 V c).before_in_eq_fetched 3 rfl (fun _ => rfl) (fun _ _ _ => rfl) (fun _ => rfl) t d
theorem before5_4 (c : Dev nD) (t : Fin cfg5.N) (d) : (dat5 V c).before 4 t d = iblk5 V c 4 t :=
  (dat5 V c).before_in_eq_fetched 4 rfl (fun _ => rfl) (fun _ _ _ => rfl) (fun _ => rfl) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  rw [cc5_eq]
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.R6.lean ====
import proofs.«105940_j32358283608240_1_alg».proof.Proof.K.R0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_of {c : Dev nD} (dat : Dat τ (Elt F) Unit ℕ (UR sig nD τ) ℕ cfg6 c) (hA : ∀ w, dat.A w = V c (Pipeline.arrRef spec6 w))
    (h0 : ∀ t, dat.after 0 t = iblk6 V c 0 t) (h1 : ∀ t, dat.after 1 t = iblk6 V c 1 t) (h2 : ∀ t, dat.after 2 t = iblk6 V c 2 t)
    (t : Fin cfg6.N) :
    (∀ d, dat.before 0 t d = iblk6 V c 0 t) ∧ (∀ d, dat.before 1 t d = iblk6 V c 1 t) ∧ ∀ d, dat.before 2 t d = iblk6 V c 2 t := by
  refine ⟨fun d => ?_, fun d => ?_, fun d => ?_⟩ <;>
    exact Eq.trans (dat.before_in_eq_fetched _ rfl (fun _ => rfl) (fun _ _ _ => rfl)
      (fun t => by (first | rw [h0] | rw [h1] | rw [h2]); unfold Dat.blockOf iblk6; rw [hA]; try rfl) t d)
      (by unfold Dat.fetched Dat.blockOf iblk6; rw [hA]; try rfl)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => k0_pay3 (iblk6 V c 0 t) (iblk6 V c 1 t) (iblk6 V c 2 t)
    | ⟨4, _⟩ => out0_4 (iblk6 V c 0) (iblk6 V c 1) (iblk6 V c 2) t.val t.isLt
    | ⟨5, _⟩ => out0_5 (iblk6 V c 0) (iblk6 V c 1) (iblk6 V c 2) t.val t.isLt
  Φ _ := Pipeline.ΦA spec6 c
  q _ := fullShare
  owed _ := 0

theorem A_eq6 (c : Dev nD) (w : Fin cfg6.W) : (dat6 V c).A w = V c (Pipeline.arrRef spec6 w) := rfl
theorem Phi_eq6 (c : Dev nD) (j) : (dat6 V c).Φ j = Pipeline.ΦA spec6 c := rfl
theorem q_eq6 (c : Dev nD) (w : Fin cfg6.W) : (dat6 V c).q w = fullShare := rfl
theorem owed_eq6 (c : Dev nD) (j) : (dat6 V c).owed j = 0 := rfl
theorem recorded_eq6 (c : Dev nD) (j) : (dat6 V c).recorded j = Set.univ := rfl

theorem before6_B (c : Dev nD) (t : Fin cfg6.N) (hz : ¬t.val % 10 = 0) :
    (∀ d, (dat6 V c).before 4 t d = acc0_4 (iblk6 V c 0) (iblk6 V c 1) (iblk6 V c 2) t)
      ∧ ∀ d, (dat6 V c).before 5 t d = acc0_5 (iblk6 V c 0) (iblk6 V c 1) (iblk6 V c 2) t := by
  have hN : t.val < 10 := lt_of_lt_of_eq t.isLt (show cfg6.N = 10 from N_6)
  refine ⟨fun d => ?_, fun d => ?_⟩ <;>
    refine (Dat.before_out_kept _ _ rfl t (by omega) (Bool.eq_false_iff.mpr fun h => ?_) (fun _ => rfl) (fun _ _ => rfl) d).trans
      (acc0_succ _ _ t (by omega)).symm
  · have := (flush6_4 _).mp h; dsimp only at this; omega
  · have := (flush6_5 _).mp h; dsimp only at this; omega

theorem cc6_eq : @cc6__stage1_kernel F _ = @cc0__stage1_kernel F _ := rfl

theorem body_obligation6 (c : Dev nD) : BodyObligation (dat6 (F := F) V c) (defs₀ (F := F)) Variants.none () Set.univ := fun t => by
  rw [bigSep_W6, bigSep_W6]
  have hb := before6_of V (dat6 V c) (A_eq6 V c) (fun _ => rfl) (fun _ => rfl) (fun _ => rfl) t
  show _ ⊢ wp _ _ _ (bodyAt6 t) _
  unfold bodyAt6
  rw [cc6_eq]
  exact sound_point0 (iblk6 V c 0) (iblk6 V c 1) (iblk6 V c 2) c t _ _ _ _ _ _ _ _ _ _ _ _
    ((dat6 V c).before 0 t) ((dat6 V c).before 1 t) ((dat6 V c).before 2 t) ((dat6 V c).before 3 t) ((dat6 V c).before 4 t) ((dat6 V c).before 5 t)
    hb.1 hb.2.1 hb.2.2 (before6_B V c t) _ _

end Cert.Kernel.Hand

end
-- ==== Proof.K.R7.lean ====
import proofs.«105940_j32358283608240_1_alg».proof.Proof.K.R1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Regions 1 and 7 have the same body. -/
theorem cc7_eq : @cc7__stage2_kernel F _ = @cc1__stage2_kernel F _ := rfl

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def res7 (c : Dev nD) (t : Fin cfg7.N) : FVec F S10000x128 .f32 :=
  k1_pay5 (iblk7 V c 0 t) (iblk7 V c 2 t) (iblk7 V c 1 t) (iblk7 V c 3 t) (iblk7 V c 4 t) (iblk7 V c 5 t) (iblk7 V c 6 t)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => res7 V c t
    | ⟨8, _⟩ => sums1 k1_pay1 k1_pay3 (res7 V c) t.val t.isLt
    | ⟨9, _⟩ => sums1 k1_pay2 k1_pay4 (res7 V c) t.val t.isLt
  Φ _ := Pipeline.ΦA spec7 c
  q _ := fullShare
  owed _ := 0

theorem A_eq7 (c : Dev nD) (w : Fin cfg7.W) : (dat7 V c).A w = V c (Pipeline.arrRef spec7 w) := by
  dsimp only [dat7]
theorem Phi_eq7 (c : Dev nD) (j) : (dat7 V c).Φ j = Pipeline.ΦA spec7 c := by dsimp only [dat7]
theorem q_eq7 (c : Dev nD) (w : Fin cfg7.W) : (dat7 V c).q w = fullShare := by dsimp only [dat7]
theorem owed_eq7 (c : Dev nD) (j) : (dat7 V c).owed j = 0 := by dsimp only [dat7]
theorem recorded_eq7 (c : Dev nD) (j) : (dat7 V c).recorded j = Set.univ := by dsimp only [dat7]

theorem before7_in (c : Dev nD) (t : Fin cfg7.N) : ∀ w : Fin cfg7.W, w.val < 7 → ∀ d,
    (dat7 V c).before w t d = (dat7 V c).after w t := by
  intro w
  fin_cases w <;> first
    | exact fun hw => absurd hw (by decide)
    | exact fun _ d => ((dat7 V c).before_in_eq_fetched _ (by rfl) (fun _ => by rfl) (fun _ _ _ => by rfl)
        (fun t => by unfold Dat.blockOf; dsimp only [dat7, iblk7]; try rfl) t d).trans
        (by unfold Dat.fetched Dat.blockOf; dsimp only [dat7, iblk7]; try rfl)

theorem after7_7 (c : Dev nD) (t : Fin cfg7.N) : (dat7 V c).after 7 t =
    k1_pay5 ((dat7 V c).after 0 t) ((dat7 V c).after 2 t) ((dat7 V c).after 1 t) ((dat7 V c).after 3 t) ((dat7 V c).after 4 t) ((dat7 V c).after 5 t) ((dat7 V c).after 6 t) := by
  dsimp only [dat7, res7]

/-- An accumulator adds the block's sums to zero at the first point and to what the point before left at a later one. -/
theorem after7_8 (c : Dev nD) (t : Fin cfg7.N) (d) : (dat7 V c).after 8 t =
    k1_pay1 ((dat7 V c).after 7 t) (if cond1_0 (grid7.coords t) then k1_pay3 else (dat7 V c).before 8 t d) := by
  have hN : t.val < 10 := lt_of_lt_of_eq t.isLt (show cfg7.N = 10 from N_7)
  by_cases h0 : t.val % 10 = 0
  · rw [if_pos ((hcond1_0 t).mpr h0)]; dsimp only [dat7]
    rw [sums1_step _ _ _ t, if_pos (show t.val = 0 by omega)]
  · rw [if_neg fun h => h0 ((hcond1_0 t).mp h), (dat7 V c).before_out_kept 8 rfl t (by omega)
      (Bool.eq_false_iff.mpr fun h => by have := (flush7_8 _).mp h; dsimp only at this; omega) (fun _ => rfl) (fun _ _ => rfl) d]
    dsimp only [dat7]
    rw [sums1_step _ _ _ t, if_neg (show ¬t.val = 0 by omega)]
theorem after7_9 (c : Dev nD) (t : Fin cfg7.N) (d) : (dat7 V c).after 9 t =
    k1_pay2 ((dat7 V c).after 7 t) (if cond1_0 (grid7.coords t) then k1_pay4 else (dat7 V c).before 9 t d) := by
  have hN : t.val < 10 := lt_of_lt_of_eq t.isLt (show cfg7.N = 10 from N_7)
  by_cases h0 : t.val % 10 = 0
  · rw [if_pos ((hcond1_0 t).mpr h0)]; dsimp only [dat7]
    rw [sums1_step _ _ _ t, if_pos (show t.val = 0 by omega)]
  · rw [if_neg fun h => h0 ((hcond1_0 t).mp h), (dat7 V c).before_out_kept 9 rfl t (by omega)
      (Bool.eq_false_iff.mpr fun h => by have := (flush7_9 _).mp h; dsimp only at this; omega) (fun _ => rfl) (fun _ _ => rfl) d]
    dsimp only [dat7]
    rw [sums1_step _ _ _ t, if_neg (show ¬t.val = 0 by omega)]

theorem body_obligation7 (c : Dev nD) : BodyObligation (dat7 (F := F) V c) (defs₀ (F := F)) Variants.none () Set.univ := fun t => by
  rw [bigSep_W7, bigSep_W7]
  show _ ⊢ wp frame _ _ (bodyAt7 (F := F) t) _
  unfold bodyAt7
  rw [cc7_eq]
  exact body1 c (grid7.coords t) _ _ _ _ _ _ _ _ _ _ _ _ _ _ _ _ _ _ _ _ _ _
    (before7_in V c t 0 (by decide)) (before7_in V c t 1 (by decide)) (before7_in V c t 2 (by decide)) (before7_in V c t 3 (by decide))
    (before7_in V c t 4 (by decide)) (before7_in V c t 5 (by decide)) (before7_in V c t 6 (by decide)) (after7_7 V c t)
    (after7_8 V c t) (after7_9 V c t)

end Cert.Kernel.Hand

end
-- ==== Proof.K.R8.lean ====
import proofs.«105940_j32358283608240_1_alg».proof.Proof.K.R2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem cc8_eq : @cc8__stage3_kernel F _ = @cc2__stage3_kernel F _ := rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out2_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]
theorem Phi_eq8 (c : Dev nD) (j) : (dat8 V c).Φ j = Pipeline.ΦA spec8 c := by
  dsimp only [dat8]
theorem q_eq8 (c : Dev nD) (w : Fin cfg8.W) : (dat8 V c).q w = fullShare := by
  dsimp only [dat8]
theorem owed_eq8 (c : Dev nD) (j) : (dat8 V c).owed j = 0 := by
  dsimp only [dat8]
theorem recorded_eq8 (c : Dev nD) (j) : (dat8 V c).recorded j = Set.univ := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t =
    out2_5 (iblk8 V c 0 t) (iblk8 V c 1 t) (iblk8 V c 2 t) (iblk8 V c 3 t) (iblk8 V c 4 t) := by dsimp only [dat8]

theorem before8_0 (c : Dev nD) (t : Fin cfg8.N) (d) : (dat8 V c).before 0 t d = iblk8 V c 0 t :=
  (dat8 V c).before_in_eq_fetched 0 rfl (fun _ => rfl) (fun _ _ _ => rfl) (fun _ => rfl) t d
theorem before8_1 (c : Dev nD) (t : Fin cfg8.N) (d) : (dat8 V c).before 1 t d = iblk8 V c 1 t :=
  (dat8 V c).before_in_eq_fetched 1 rfl (fun _ => rfl) (fun _ _ _ => rfl) (fun _ => rfl) t d
theorem before8_2 (c : Dev nD) (t : Fin cfg8.N) (d) : (dat8 V c).before 2 t d = iblk8 V c 2 t :=
  (dat8 V c).before_in_eq_fetched 2 rfl (fun _ => rfl) (fun _ _ _ => rfl) (fun _ => rfl) t d
theorem before8_3 (c : Dev nD) (t : Fin cfg8.N) (d) : (dat8 V c).before 3 t d = iblk8 V c 3 t :=
  (dat8 V c).before_in_eq_fetched 3 rfl (fun _ => rfl) (fun _ _ _ => rfl) (fun _ => rfl) t d
theorem before8_4 (c : Dev nD) (t : Fin cfg8.N) (d) : (dat8 V c).before 4 t d = iblk8 V c 4 t :=
  (dat8 V c).before_in_eq_fetched 4 rfl (fun _ => rfl) (fun _ _ _ => rfl) (fun _ => rfl) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  rw [cc8_eq]
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.R9.lean ====
import proofs.«105940_j32358283608240_1_alg».proof.Proof.K.R0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem before9_of {c : Dev nD} (dat : Dat τ (Elt F) Unit ℕ (UR sig nD τ) ℕ cfg9 c) (hA : ∀ w, dat.A w = V c (Pipeline.arrRef spec9 w))
    (h0 : ∀ t, dat.after 0 t = iblk9 V c 0 t) (h1 : ∀ t, dat.after 1 t = iblk9 V c 1 t) (h2 : ∀ t, dat.after 2 t = iblk9 V c 2 t)
    (t : Fin cfg9.N) :
    (∀ d, dat.before 0 t d = iblk9 V c 0 t) ∧ (∀ d, dat.before 1 t d = iblk9 V c 1 t) ∧ ∀ d, dat.before 2 t d = iblk9 V c 2 t := by
  refine ⟨fun d => ?_, fun d => ?_, fun d => ?_⟩ <;>
    exact Eq.trans (dat.before_in_eq_fetched _ rfl (fun _ => rfl) (fun _ _ _ => rfl)
      (fun t => by (first | rw [h0] | rw [h1] | rw [h2]); unfold Dat.blockOf iblk9; rw [hA]; try rfl) t d)
      (by unfold Dat.fetched Dat.blockOf iblk9; rw [hA]; try rfl)

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => k0_pay3 (iblk9 V c 0 t) (iblk9 V c 1 t) (iblk9 V c 2 t)
    | ⟨4, _⟩ => out0_4 (iblk9 V c 0) (iblk9 V c 1) (iblk9 V c 2) t.val t.isLt
    | ⟨5, _⟩ => out0_5 (iblk9 V c 0) (iblk9 V c 1) (iblk9 V c 2) t.val t.isLt
  Φ _ := Pipeline.ΦA spec9 c
  q _ := fullShare
  owed _ := 0

theorem A_eq9 (c : Dev nD) (w : Fin cfg9.W) : (dat9 V c).A w = V c (Pipeline.arrRef spec9 w) := rfl
theorem Phi_eq9 (c : Dev nD) (j) : (dat9 V c).Φ j = Pipeline.ΦA spec9 c := rfl
theorem q_eq9 (c : Dev nD) (w : Fin cfg9.W) : (dat9 V c).q w = fullShare := rfl
theorem owed_eq9 (c : Dev nD) (j) : (dat9 V c).owed j = 0 := rfl
theorem recorded_eq9 (c : Dev nD) (j) : (dat9 V c).recorded j = Set.univ := rfl

theorem before9_B (c : Dev nD) (t : Fin cfg9.N) (hz : ¬t.val % 10 = 0) :
    (∀ d, (dat9 V c).before 4 t d = acc0_4 (iblk9 V c 0) (iblk9 V c 1) (iblk9 V c 2) t)
      ∧ ∀ d, (dat9 V c).before 5 t d = acc0_5 (iblk9 V c 0) (iblk9 V c 1) (iblk9 V c 2) t := by
  have hN : t.val < 10 := lt_of_lt_of_eq t.isLt (show cfg9.N = 10 from N_9)
  refine ⟨fun d => ?_, fun d => ?_⟩ <;>
    refine (Dat.before_out_kept _ _ rfl t (by omega) (Bool.eq_false_iff.mpr fun h => ?_) (fun _ => rfl) (fun _ _ => rfl) d).trans
      (acc0_succ _ _ t (by omega)).symm
  · have := (flush9_4 _).mp h; dsimp only at this; omega
  · have := (flush9_5 _).mp h; dsimp only at this; omega

theorem cc9_eq : @cc9__stage1_kernel F _ = @cc0__stage1_kernel F _ := rfl

theorem body_obligation9 (c : Dev nD) : BodyObligation (dat9 (F := F) V c) (defs₀ (F := F)) Variants.none () Set.univ := fun t => by
  rw [bigSep_W9, bigSep_W9]
  have hb := before9_of V (dat9 V c) (A_eq9 V c) (fun _ => rfl) (fun _ => rfl) (fun _ => rfl) t
  show _ ⊢ wp _ _ _ (bodyAt9 t) _
  unfold bodyAt9
  rw [cc9_eq]
  exact sound_point0 (iblk9 V c 0) (iblk9 V c 1) (iblk9 V c 2) c t _ _ _ _ _ _ _ _ _ _ _ _
    ((dat9 V c).before 0 t) ((dat9 V c).before 1 t) ((dat9 V c).before 2 t) ((dat9 V c).before 3 t) ((dat9 V c).before 4 t) ((dat9 V c).before 5 t)
    hb.1 hb.2.1 hb.2.2 (before9_B V c t) _ _

end Cert.Kernel.Hand

end
-- ==== Proof.K.R10.lean ====
import proofs.«105940_j32358283608240_1_alg».proof.Proof.K.R1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Regions 1 and 10 have the same body. -/
theorem cc10_eq : @cc10__stage2_kernel F _ = @cc1__stage2_kernel F _ := rfl

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

def res10 (c : Dev nD) (t : Fin cfg10.N) : FVec F S10000x128 .f32 :=
  k1_pay5 (iblk10 V c 0 t) (iblk10 V c 2 t) (iblk10 V c 1 t) (iblk10 V c 3 t) (iblk10 V c 4 t) (iblk10 V c 5 t) (iblk10 V c 6 t)

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => res10 V c t
    | ⟨8, _⟩ => sums1 k1_pay1 k1_pay3 (res10 V c) t.val t.isLt
    | ⟨9, _⟩ => sums1 k1_pay2 k1_pay4 (res10 V c) t.val t.isLt
  Φ _ := Pipeline.ΦA spec10 c
  q _ := fullShare
  owed _ := 0

theorem A_eq10 (c : Dev nD) (w : Fin cfg10.W) : (dat10 V c).A w = V c (Pipeline.arrRef spec10 w) := by
  dsimp only [dat10]
theorem Phi_eq10 (c : Dev nD) (j) : (dat10 V c).Φ j = Pipeline.ΦA spec10 c := by dsimp only [dat10]
theorem q_eq10 (c : Dev nD) (w : Fin cfg10.W) : (dat10 V c).q w = fullShare := by dsimp only [dat10]
theorem owed_eq10 (c : Dev nD) (j) : (dat10 V c).owed j = 0 := by dsimp only [dat10]
theorem recorded_eq10 (c : Dev nD) (j) : (dat10 V c).recorded j = Set.univ := by dsimp only [dat10]

theorem before10_in (c : Dev nD) (t : Fin cfg10.N) : ∀ w : Fin cfg10.W, w.val < 7 → ∀ d,
    (dat10 V c).before w t d = (dat10 V c).after w t := by
  intro w
  fin_cases w <;> first
    | exact fun hw => absurd hw (by decide)
    | exact fun _ d => ((dat10 V c).before_in_eq_fetched _ (by rfl) (fun _ => by rfl) (fun _ _ _ => by rfl)
        (fun t => by unfold Dat.blockOf; dsimp only [dat10, iblk10]; try rfl) t d).trans
        (by unfold Dat.fetched Dat.blockOf; dsimp only [dat10, iblk10]; try rfl)

theorem after10_7 (c : Dev nD) (t : Fin cfg10.N) : (dat10 V c).after 7 t =
    k1_pay5 ((dat10 V c).after 0 t) ((dat10 V c).after 2 t) ((dat10 V c).after 1 t) ((dat10 V c).after 3 t) ((dat10 V c).after 4 t) ((dat10 V c).after 5 t) ((dat10 V c).after 6 t) := by
  dsimp only [dat10, res10]

/-- An accumulator adds the block's sums to zero at the first point and to what the point before left at a later one. -/
theorem after10_8 (c : Dev nD) (t : Fin cfg10.N) (d) : (dat10 V c).after 8 t =
    k1_pay1 ((dat10 V c).after 7 t) (if cond1_0 (grid10.coords t) then k1_pay3 else (dat10 V c).before 8 t d) := by
  have hN : t.val < 10 := lt_of_lt_of_eq t.isLt (show cfg10.N = 10 from N_10)
  by_cases h0 : t.val % 10 = 0
  · rw [if_pos ((hcond1_0 t).mpr h0)]; dsimp only [dat10]
    rw [sums1_step _ _ _ t, if_pos (show t.val = 0 by omega)]
  · rw [if_neg fun h => h0 ((hcond1_0 t).mp h), (dat10 V c).before_out_kept 8 rfl t (by omega)
      (Bool.eq_false_iff.mpr fun h => by have := (flush10_8 _).mp h; dsimp only at this; omega) (fun _ => rfl) (fun _ _ => rfl) d]
    dsimp only [dat10]
    rw [sums1_step _ _ _ t, if_neg (show ¬t.val = 0 by omega)]
theorem after10_9 (c : Dev nD) (t : Fin cfg10.N) (d) : (dat10 V c).after 9 t =
    k1_pay2 ((dat10 V c).after 7 t) (if cond1_0 (grid10.coords t) then k1_pay4 else (dat10 V c).before 9 t d) := by
  have hN : t.val < 10 := lt_of_lt_of_eq t.isLt (show cfg10.N = 10 from N_10)
  by_cases h0 : t.val % 10 = 0
  · rw [if_pos ((hcond1_0 t).mpr h0)]; dsimp only [dat10]
    rw [sums1_step _ _ _ t, if_pos (show t.val = 0 by omega)]
  · rw [if_neg fun h => h0 ((hcond1_0 t).mp h), (dat10 V c).before_out_kept 9 rfl t (by omega)
      (Bool.eq_false_iff.mpr fun h => by have := (flush10_9 _).mp h; dsimp only at this; omega) (fun _ => rfl) (fun _ _ => rfl) d]
    dsimp only [dat10]
    rw [sums1_step _ _ _ t, if_neg (show ¬t.val = 0 by omega)]

theorem body_obligation10 (c : Dev nD) : BodyObligation (dat10 (F := F) V c) (defs₀ (F := F)) Variants.none () Set.univ := fun t => by
  rw [bigSep_W10, bigSep_W10]
  show _ ⊢ wp frame _ _ (bodyAt10 (F := F) t) _
  unfold bodyAt10
  rw [cc10_eq]
  exact body1 c (grid10.coords t) _ _ _ _ _ _ _ _ _ _ _ _ _ _ _ _ _ _ _ _ _ _
    (before10_in V c t 0 (by decide)) (before10_in V c t 1 (by decide)) (before10_in V c t 2 (by decide)) (before10_in V c t 3 (by decide))
    (before10_in V c t 4 (by decide)) (before10_in V c t 5 (by decide)) (before10_in V c t 6 (by decide)) (after10_7 V c t)
    (after10_8 V c t) (after10_9 V c t)

end Cert.Kernel.Hand

end
-- ==== Proof.K.R11.lean ====
import proofs.«105940_j32358283608240_1_alg».proof.Proof.K.R2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

theorem cc11_eq : @cc11__stage3_kernel F _ = @cc2__stage3_kernel F _ := rfl

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out2_5 (iblk11 V c 0 t) (iblk11 V c 1 t) (iblk11 V c 2 t) (iblk11 V c 3 t) (iblk11 V c 4 t)
  Φ _ := Pipeline.ΦA spec11 c
  q _ := fullShare
  owed _ := 0

theorem A_eq11 (c : Dev nD) (w : Fin cfg11.W) : (dat11 V c).A w = V c (Pipeline.arrRef spec11 w) := by
  dsimp only [dat11]
theorem Phi_eq11 (c : Dev nD) (j) : (dat11 V c).Φ j = Pipeline.ΦA spec11 c := by
  dsimp only [dat11]
theorem q_eq11 (c : Dev nD) (w : Fin cfg11.W) : (dat11 V c).q w = fullShare := by
  dsimp only [dat11]
theorem owed_eq11 (c : Dev nD) (j) : (dat11 V c).owed j = 0 := by
  dsimp only [dat11]
theorem recorded_eq11 (c : Dev nD) (j) : (dat11 V c).recorded j = Set.univ := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t =
    out2_5 (iblk11 V c 0 t) (iblk11 V c 1 t) (iblk11 V c 2 t) (iblk11 V c 3 t) (iblk11 V c 4 t) := by dsimp only [dat11]

theorem before11_0 (c : Dev nD) (t : Fin cfg11.N) (d) : (dat11 V c).before 0 t d = iblk11 V c 0 t :=
  (dat11 V c).before_in_eq_fetched 0 rfl (fun _ => rfl) (fun _ _ _ => rfl) (fun _ => rfl) t d
theorem before11_1 (c : Dev nD) (t : Fin cfg11.N) (d) : (dat11 V c).before 1 t d = iblk11 V c 1 t :=
  (dat11 V c).before_in_eq_fetched 1 rfl (fun _ => rfl) (fun _ _ _ => rfl) (fun _ => rfl) t d
theorem before11_2 (c : Dev nD) (t : Fin cfg11.N) (d) : (dat11 V c).before 2 t d = iblk11 V c 2 t :=
  (dat11 V c).before_in_eq_fetched 2 rfl (fun _ => rfl) (fun _ _ _ => rfl) (fun _ => rfl) t d
theorem before11_3 (c : Dev nD) (t : Fin cfg11.N) (d) : (dat11 V c).before 3 t d = iblk11 V c 3 t :=
  (dat11 V c).before_in_eq_fetched 3 rfl (fun _ => rfl) (fun _ _ _ => rfl) (fun _ => rfl) t d
theorem before11_4 (c : Dev nD) (t : Fin cfg11.N) (d) : (dat11 V c).before 4 t d = iblk11 V c 4 t :=
  (dat11 V c).before_in_eq_fetched 4 rfl (fun _ => rfl) (fun _ _ _ => rfl) (fun _ => rfl) t d

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  rw [cc11_eq]
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation11 (c : Dev nD) : BodyObligation (dat11 (F := F) V c) (defs₀ (F := F)) Variants.none () Set.univ := fun t => by
  rw [bigSep_W11, bigSep_W11]
  exact sound_body11 V c t

end Cert.Kernel.Hand

end
-- ==== Proof.K.R12.lean ====
import proofs.«105940_j32358283608240_1_alg».proof.Proof.Gen.Kernel.Launch
import proofs.«105940_j32358283608240_1_alg».proof.Proof.Gen.Kernel.Skeleton
import proofs.«105940_j32358283608240_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

abbrev r12_0 : Rect S1000x128 := Rect.unit (s := S1000x128) ![0, 0] S1000x128.size inb_S1000x128_S1000x128_0_0
abbrev r12_1 : Rect S640x1 := Rect.unit (s := S640x1) ![0, 0] S640x1.size inb_S640x1_S640x1_0_0
abbrev r12_2 : Rect S1x1 := Rect.unit (s := S1x1) ![0, 0] S1x1.size inb_S1x1_S1x1_0_0

theorem zeros12 : (![0, 0] : Fin 2 → Nat) = fun _ => 0 := funext fun a => by fin_cases a <;> rfl

def out12 (pay : Vec F S1000x128 .f32 → Vec F S1000x128 .f32 → Vec F S1000x128 .f32 → Vec F S1000x128 .f32 → Vec F S1000x128 .f32
      → Vec F S640x1 .f32 → Vec F S1x1 .f32 → FVec F S1000x128 .f32)
    (x0 x1 x2 x3 x4 : Vec F S1000x128 .f32) (x5 : Vec F S640x1 .f32) (x6 : Vec F S1x1 .f32) : Vec F S1000x128 .f32 :=
  View.canon [⟨r12_0, pay (View.ld x0 r12_0) (View.ld x1 r12_0) (View.ld x2 r12_0) (View.ld x3 r12_0) (View.ld x4 r12_0) (View.ld x5 r12_1) (View.ld x6 r12_2)⟩]

theorem cover12 (p : Vec F S1000x128 .f32) (y : S1000x128.Idx) :
    ∃ pc ∈ ([⟨r12_0, p⟩] : List (View.Piece (Elt F) S1000x128 .f32)), y ∈ pc.1.set :=
  ⟨_, List.mem_singleton_self _, View.mem_set_unit_zero (S := S1000x128) zeros12 inb_S1000x128_S1000x128_0_0 y⟩

theorem out12_eq (pay) (x0 x1 x2 x3 x4 : Vec F S1000x128 .f32) (x5 : Vec F S640x1 .f32) (x6 : Vec F S1x1 .f32) :
    out12 pay x0 x1 x2 x3 x4 x5 x6 = pay x0 x1 x2 x3 x4 x5 x6 := by
  unfold out12
  rw [View.canon_unit_zero (S := S1000x128) zeros12 inb_S1000x128_S1000x128_0_0,
    View.ld_unit_zero (S := S1000x128) zeros12 inb_S1000x128_S1000x128_0_0 x0,
    View.ld_unit_zero (S := S1000x128) zeros12 inb_S1000x128_S1000x128_0_0 x1,
    View.ld_unit_zero (S := S1000x128) zeros12 inb_S1000x128_S1000x128_0_0 x2,
    View.ld_unit_zero (S := S1000x128) zeros12 inb_S1000x128_S1000x128_0_0 x3,
    View.ld_unit_zero (S := S1000x128) zeros12 inb_S1000x128_S1000x128_0_0 x4,
    View.ld_unit_zero (S := S640x1) zeros12 inb_S640x1_S640x1_0_0 x5,
    View.ld_unit_zero (S := S1x1) zeros12 inb_S1x1_S1x1_0_0 x6]

set_option maxHeartbeats 1000000 in

theorem sound_kernel12 (c : Dev nD) (E : Set ℕ) (i : grid12.Coords) (arg1 : Memref sig .tc .vmem S1000x128 .f32) (harg1 : arg1.IsWhole) (arg2 : Memref sig .tc .vmem S1000x128 .f32) (harg2 : arg2.IsWhole) (arg3 : Memref sig .tc .vmem S1000x128 .f32) (harg3 : arg3.IsWhole) (arg4 : Memref sig .tc .vmem S1000x128 .f32) (harg4 : arg4.IsWhole) (arg5 : Memref sig .tc .vmem S1000x128 .f32) (harg5 : arg5.IsWhole) (arg6 : Memref sig .tc .vmem S640x1 .f32) (harg6 : arg6.IsWhole) (arg7 : Memref sig .tc .vmem S1x1 .f32) (harg7 : arg7.IsWhole) (arg8 : Memref sig .tc .vmem S1000x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x128 .f32) (harg11 : arg11.IsWhole) (arg12 : Memref sig .tc .vmem S1000x128 .f32) (harg12 : arg12.IsWhole)
    (x0 x1 x2 x3 x4 : Vec F S1000x128 .f32) (x5 : Vec F S640x1 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out12 k12_pay6 x0 x1 x2 x3 x4 x5 x6) ∗ owns (c : Thread nD τ) arg9 fullShare (out12 k12_pay7 x0 x1 x2 x3 x4 x5 x6) ∗ owns (c : Thread nD τ) arg10 fullShare (out12 k12_pay8 x0 x1 x2 x3 x4 x5 x6) ∗ owns (c : Thread nD τ) arg11 fullShare (out12 k12_pay9 x0 x1 x2 x3 x4 x5 x6) ∗ owns (c : Thread nD τ) arg12 fullShare (out12 k12_pay10 x0 x1 x2 x3 x4 x5 x6)) -∗ K ⟨⟩))
      ⊢ wp frame (wpE (defs₀ (F := F)) Variants.none c none) E (cc12__attn_kernel i arg1 harg1 arg2 harg2 arg3 harg3 arg4 harg4 arg5 harg5 arg6 harg6 arg7 harg7 arg8 harg8 arg9 harg9 arg10 harg10 arg11 harg11 arg12 harg12) K := by
  simp only [cc12__attn_kernel_eq_skeleton]; unfold cc12__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
  subst hf0 hf1 hf2 hf3 hf4 hf5 hf6
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists _; isplitr
    swap
    · iexact H7
    ipureintro
    sl_unfold_run_names
    exact View.read_writes_eq_canon _ _ _ (cover12 _)
  isplitl [H8]
  · iexists _; isplitr
    swap
    · iexact H8
    ipureintro
    sl_unfold_run_names
    exact View.read_writes_eq_canon _ _ _ (cover12 _)
  isplitl [H9]
  · iexists _; isplitr
    swap
    · iexact H9
    ipureintro
    sl_unfold_run_names
    exact View.read_writes_eq_canon _ _ _ (cover12 _)
  isplitl [H10]
  · iexists _; isplitr
    swap
    · iexact H10
    ipureintro
    sl_unfold_run_names
    exact View.read_writes_eq_canon _ _ _ (cover12 _)
  iexists _; isplitr
  swap
  · iexact H11
  ipureintro
  sl_unfold_run_names
  exact View.read_writes_eq_canon _ _ _ (cover12 _)

noncomputable def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => out12 k12_pay6 (iblk12 V c 0 t) (iblk12 V c 1 t) (iblk12 V c 2 t) (iblk12 V c 3 t) (iblk12 V c 4 t) (iblk12 V c 5 t) (iblk12 V c 6 t)
    | ⟨8, _⟩ => out12 k12_pay7 (iblk12 V c 0 t) (iblk12 V c 1 t) (iblk12 V c 2 t) (iblk12 V c 3 t) (iblk12 V c 4 t) (iblk12 V c 5 t) (iblk12 V c 6 t)
    | ⟨9, _⟩ => out12 k12_pay8 (iblk12 V c 0 t) (iblk12 V c 1 t) (iblk12 V c 2 t) (iblk12 V c 3 t) (iblk12 V c 4 t) (iblk12 V c 5 t) (iblk12 V c 6 t)
    | ⟨10, _⟩ => out12 k12_pay9 (iblk12 V c 0 t) (iblk12 V c 1 t) (iblk12 V c 2 t) (iblk12 V c 3 t) (iblk12 V c 4 t) (iblk12 V c 5 t) (iblk12 V c 6 t)
    | ⟨11, _⟩ => out12 k12_pay10 (iblk12 V c 0 t) (iblk12 V c 1 t) (iblk12 V c 2 t) (iblk12 V c 3 t) (iblk12 V c 4 t) (iblk12 V c 5 t) (iblk12 V c 6 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem Phi_eq12 (c : Dev nD) (j) : (dat12 V c).Φ j = Pipeline.ΦA spec12 c := by
  dsimp only [dat12]

theorem q_eq12 (c : Dev nD) (w : Fin cfg12.W) : (dat12 V c).q w = fullShare := by
  dsimp only [dat12]

theorem owed_eq12 (c : Dev nD) (j) : (dat12 V c).owed j = 0 := by
  dsimp only [dat12]

theorem recorded_eq12 (c : Dev nD) (j) : (dat12 V c).recorded j = Set.univ := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = iblk12 V c 6 t := by dsimp only [dat12]
theorem after12_7 (c : Dev nD) (t : Fin cfg12.N) : (dat12 V c).after 7 t = out12 k12_pay6 (iblk12 V c 0 t) (iblk12 V c 1 t) (iblk12 V c 2 t) (iblk12 V c 3 t) (iblk12 V c 4 t) (iblk12 V c 5 t) (iblk12 V c 6 t) := by dsimp only [dat12]
theorem after12_8 (c : Dev nD) (t : Fin cfg12.N) : (dat12 V c).after 8 t = out12 k12_pay7 (iblk12 V c 0 t) (iblk12 V c 1 t) (iblk12 V c 2 t) (iblk12 V c 3 t) (iblk12 V c 4 t) (iblk12 V c 5 t) (iblk12 V c 6 t) := by dsimp only [dat12]
theorem after12_9 (c : Dev nD) (t : Fin cfg12.N) : (dat12 V c).after 9 t = out12 k12_pay8 (iblk12 V c 0 t) (iblk12 V c 1 t) (iblk12 V c 2 t) (iblk12 V c 3 t) (iblk12 V c 4 t) (iblk12 V c 5 t) (iblk12 V c 6 t) := by dsimp only [dat12]
theorem after12_10 (c : Dev nD) (t : Fin cfg12.N) : (dat12 V c).after 10 t = out12 k12_pay9 (iblk12 V c 0 t) (iblk12 V c 1 t) (iblk12 V c 2 t) (iblk12 V c 3 t) (iblk12 V c 4 t) (iblk12 V c 5 t) (iblk12 V c 6 t) := by dsimp only [dat12]
theorem after12_11 (c : Dev nD) (t : Fin cfg12.N) : (dat12 V c).after 11 t = out12 k12_pay10 (iblk12 V c 0 t) (iblk12 V c 1 t) (iblk12 V c 2 t) (iblk12 V c 3 t) (iblk12 V c 4 t) (iblk12 V c 5 t) (iblk12 V c 6 t) := by dsimp only [dat12]

theorem before12_0 (c : Dev nD) (t : Fin cfg12.N) (d) : (dat12 V c).before 0 t d = iblk12 V c 0 t :=
  (dat12 V c).before_in_eq_fetched 0 rfl (fun _ => rfl) (fun _ _ _ => rfl) (fun _ => rfl) t d
theorem before12_1 (c : Dev nD) (t : Fin cfg12.N) (d) : (dat12 V c).before 1 t d = iblk12 V c 1 t :=
  (dat12 V c).before_in_eq_fetched 1 rfl (fun _ => rfl) (fun _ _ _ => rfl) (fun _ => rfl) t d
theorem before12_2 (c : Dev nD) (t : Fin cfg12.N) (d) : (dat12 V c).before 2 t d = iblk12 V c 2 t :=
  (dat12 V c).before_in_eq_fetched 2 rfl (fun _ => rfl) (fun _ _ _ => rfl) (fun _ => rfl) t d
theorem before12_3 (c : Dev nD) (t : Fin cfg12.N) (d) : (dat12 V c).before 3 t d = iblk12 V c 3 t :=
  (dat12 V c).before_in_eq_fetched 3 rfl (fun _ => rfl) (fun _ _ _ => rfl) (fun _ => rfl) t d
theorem before12_4 (c : Dev nD) (t : Fin cfg12.N) (d) : (dat12 V c).before 4 t d = iblk12 V c 4 t :=
  (dat12 V c).before_in_eq_fetched 4 rfl (fun _ => rfl) (fun _ _ _ => rfl) (fun _ => rfl) t d
theorem before12_5 (c : Dev nD) (t : Fin cfg12.N) (d) : (dat12 V c).before 5 t d = iblk12 V c 5 t :=
  (dat12 V c).before_in_eq_fetched 5 rfl (fun _ => rfl) (fun _ _ _ => rfl) (fun _ => rfl) t d
theorem before12_6 (c : Dev nD) (t : Fin cfg12.N) (d) : (dat12 V c).before 6 t d = iblk12 V c 6 t :=
  (dat12 V c).before_in_eq_fetched 6 rfl (fun _ => rfl) (fun _ _ _ => rfl) (fun _ => rfl) t d

noncomputable def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d))
    ∗ (∃ d, owns (c : Thread nD τ) (st12_7 t) fullShare ((dat12 V c).before 7 t d))
    ∗ (∃ d, owns (c : Thread nD τ) (st12_8 t) fullShare ((dat12 V c).before 8 t d))
    ∗ (∃ d, owns (c : Thread nD τ) (st12_9 t) fullShare ((dat12 V c).before 9 t d))
    ∗ (∃ d, owns (c : Thread nD τ) (st12_10 t) fullShare ((dat12 V c).before 10 t d))
    ∗ (∃ d, owns (c : Thread nD τ) (st12_11 t) fullShare ((dat12 V c).before 11 t d)))

noncomputable def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t)
    ∗ owns (c : Thread nD τ) (st12_7 t) fullShare ((dat12 V c).after 7 t)
    ∗ owns (c : Thread nD τ) (st12_8 t) fullShare ((dat12 V c).after 8 t)
    ∗ owns (c : Thread nD τ) (st12_9 t) fullShare ((dat12 V c).after 9 t)
    ∗ owns (c : Thread nD τ) (st12_10 t) fullShare ((dat12 V c).after 10 t)
    ∗ owns (c : Thread nD τ) (st12_11 t) fullShare ((dat12 V c).after 11 t))

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5, before12_6]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6, after12_7, after12_8, after12_9, after12_10, after12_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel12 c Set.univ _ _ _ _ _ _ _ _ _ _ _ _ _ _ _ _ _ _ _ _ _ _ _ _ _ (iblk12 V c 0 t) (iblk12 V c 1 t) (iblk12 V c 2 t) (iblk12 V c 3 t) (iblk12 V c 4 t) (iblk12 V c 5 t) (iblk12 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation12 (c : Dev nD) : BodyObligation (dat12 (F := F) V c) (defs₀ (F := F)) Variants.none () Set.univ := fun t => by
  rw [bigSep_W12, bigSep_W12]
  exact sound_body12 V c t

end Cert.Kernel.Hand

end
-- ==== Proof.K.Halves.lean ====
import proofs.«105940_j32358283608240_1_alg».proof.Proof.K.R0
import proofs.«105940_j32358283608240_1_alg».proof.Proof.K.R1
import proofs.«105940_j32358283608240_1_alg».proof.Proof.K.R2
import proofs.«105940_j32358283608240_1_alg».proof.Proof.K.R3
import proofs.«105940_j32358283608240_1_alg».proof.Proof.K.R4
import proofs.«105940_j32358283608240_1_alg».proof.Proof.K.R5
import proofs.«105940_j32358283608240_1_alg».proof.Proof.K.R6
import proofs.«105940_j32358283608240_1_alg».proof.Proof.K.R7
import proofs.«105940_j32358283608240_1_alg».proof.Proof.K.R8
import proofs.«105940_j32358283608240_1_alg».proof.Proof.K.R9
import proofs.«105940_j32358283608240_1_alg».proof.Proof.K.R10
import proofs.«105940_j32358283608240_1_alg».proof.Proof.K.R11
import proofs.«105940_j32358283608240_1_alg».proof.Proof.K.R12
-- ==== Proof.K.Chain.lean ====
import proofs.«105940_j32358283608240_1_alg».proof.Proof.Gen.Kernel.Launch
import proofs.«105940_j32358283608240_1_alg».proof.Proof.Gen.Kernel.Skeleton
import proofs.«105940_j32358283608240_1_alg».proof.Proof.Gen.Kernel.Points
import proofs.«105940_j32358283608240_1_alg».proof.Proof.Gen.Kernel.Regions
import proofs.«105940_j32358283608240_1_alg».proof.Proof.K.Halves
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.ShloMosaic.Pipeline (Dat)

variable {F : FTy → Type}

section Exit

variable {cfg : Pipeline.Cfg sig Λ₀} {c : Dev nD} {V : Valuation τ sig (Elt F)}
  (dat : Dat τ (Elt F) Unit ℕ (UR sig nD τ) ℕ cfg c)

variable (V) in
/-- The entry valuation `V` overwritten at each window's array by that array's final contents. -/
def exitV : Valuation τ sig (Elt F) := Pipeline.withArrays cfg.spec c V fun w => dat.arrAt w cfg.N

theorem exitV_arr (kit : Pipeline.WinFacts cfg.spec) (w : Fin cfg.W) :
    exitV V dat (Pipeline.arrRef cfg.spec w) = dat.arrAt w cfg.N :=
  Pipeline.withArrays_arr _ kit.arr_inj c _ _ w

theorem exitV_of_ne (b : Ref sig .tc) (hb : ∀ w, Pipeline.arrRef cfg.spec w ≠ b) : exitV V dat b = V b :=
  Pipeline.withArrays_of_ne _ c _ _ b hb

theorem exitV_rest (b : Ref sig .tc) (hb : b ∉ Finset.univ.image (Pipeline.arrRef cfg.spec)) : exitV V dat b = V b :=
  exitV_of_ne dat b fun w e => hb (Finset.mem_image.mpr ⟨w, Finset.mem_univ _, e⟩)

/-- At an input window's array the final contents are the entry contents. -/
theorem exitV_in (kit : Pipeline.WinFacts cfg.spec) (hA : ∀ w, dat.A w = V (Pipeline.arrRef cfg.spec w)) (w : Fin cfg.W)
    (hin : (cfg.win w).isOut = false) : exitV V dat (Pipeline.arrRef cfg.spec w) = V (Pipeline.arrRef cfg.spec w) :=
  (exitV_arr dat kit w).trans ((dat.arrAt_in w hin _).trans (hA w))

/-- Overwriting `X` with `W` at the references `rs` gives `W` when the two agree everywhere else. -/
theorem upd_eq (W : Valuation τ sig (Elt F)) (rs : List (Ref sig .tc)) (X : Valuation τ sig (Elt F))
    (h : ∀ b, (∀ r ∈ rs, Proc.devRef .tc r ≠ b) → W b = X b) :
    rs.foldl (fun X r => Function.update X (Proc.devRef .tc r) (W (Proc.devRef .tc r))) X = W := by
  induction rs generalizing X with
  | nil => exact funext fun b => (h b fun _ hr => nomatch hr).symm
  | cons r rs ih =>
    refine ih _ fun b hb => ?_
    beta_reduce
    by_cases e : Proc.devRef .tc r = b
    · subst e; rw [Function.update_self]
    · rw [Function.update_of_ne (Ne.symm e)]; exact h b (List.forall_mem_cons.mpr ⟨e, hb⟩)

/-- `exitV` differs from `V` only at the output windows' arrays, so writing it over `V` there gives it whole. -/
theorem upd_exitV (kit : Pipeline.WinFacts cfg.spec) {V' : Valuation τ sig (Elt F)} (hV : V' = V)
    (hA : ∀ w, dat.A w = V (Pipeline.arrRef cfg.spec w)) (rs : List (Ref sig .tc))
    (hrs : ∀ w, (cfg.win w).isOut = true → Pipeline.arrRef cfg.spec w ∈ rs) :
    rs.foldl (fun X r => Function.update X (Proc.devRef .tc r) (exitV V dat (Proc.devRef .tc r))) V' = exitV V dat := by
  subst hV
  refine upd_eq _ rs _ fun b hb => ?_
  by_cases hw : ∃ w, Proc.devRef .tc (Pipeline.arrRef cfg.spec w) = b
  · obtain ⟨w, rfl⟩ := hw
    cases ho : (cfg.win w).isOut
    · exact exitV_in dat kit hA w ho
    · exact absurd rfl (hb _ (hrs w ho))
  · unfold exitV Pipeline.withArrays; exact dif_neg hw

end Exit

/-- A family of valuations read at the `.tc` references. -/
abbrev rdTc (W : Dev nD → Valuation τ sig (Elt F)) : (c : Dev nD) → (b : Ref sig .tc) → Buf (Elt F) ((c : Thread nD τ).loc b) :=
  fun c b => W c b

variable [FloatOps F] (m : (ℓ : Loc nD τ sig) → Buf (Elt F) ℓ) (c : Dev nD)

abbrev W0 : Valuation τ sig (Elt F) := fun b => m (c, b)
abbrev W1 := StableHlo.after hostOps0 (W0 m c)
abbrev B1 := rdTc (W1 m)

def W2 := exitV (W1 m c) (dat0 (B1 m) c)
theorem W2_arr (w : Fin cfg0.W) :
    W2 m c (Proc.devRef .tc (Pipeline.arrRef spec0 w)) = (dat0 (B1 m) c).arrAt w cfg0.N :=
  exitV_arr _ launch0.win w
theorem hF0 (w : Fin cfg0.W) :
    (dat0 (B1 m) c).arrAt w cfg0.N = (fun b : Ref sig .tc => W2 m c b) (Pipeline.arrRef spec0 w) :=
  (W2_arr m c w).symm
theorem hrest0 : ∀ b : Ref sig .tc, b ∉ Finset.univ.image (Pipeline.arrRef spec0) → W2 m c b = W1 m c b :=
  exitV_rest (dat0 (B1 m) c)
abbrev W3 := StableHlo.after hostOps1 (W2 m c)
abbrev B3 := rdTc (W3 m)

def W4 := exitV (W3 m c) (dat1 (B3 m) c)
theorem W4_arr (w : Fin cfg1.W) :
    W4 m c (Proc.devRef .tc (Pipeline.arrRef spec1 w)) = (dat1 (B3 m) c).arrAt w cfg1.N :=
  exitV_arr _ launch1.win w
theorem hF1 (w : Fin cfg1.W) :
    (dat1 (B3 m) c).arrAt w cfg1.N = (fun b : Ref sig .tc => W4 m c b) (Pipeline.arrRef spec1 w) :=
  (W4_arr m c w).symm
theorem hrest1 : ∀ b : Ref sig .tc, b ∉ Finset.univ.image (Pipeline.arrRef spec1) → W4 m c b = W3 m c b :=
  exitV_rest (dat1 (B3 m) c)
abbrev W5 := StableHlo.after hostOps2 (W4 m c)
abbrev B5 := rdTc (W5 m)

def W6 := exitV (W5 m c) (dat2 (B5 m) c)
theorem W6_arr (w : Fin cfg2.W) :
    W6 m c (Proc.devRef .tc (Pipeline.arrRef spec2 w)) = (dat2 (B5 m) c).arrAt w cfg2.N :=
  exitV_arr _ launch2.win w
theorem hF2 (w : Fin cfg2.W) :
    (dat2 (B5 m) c).arrAt w cfg2.N = (fun b : Ref sig .tc => W6 m c b) (Pipeline.arrRef spec2 w) :=
  (W6_arr m c w).symm
theorem hrest2 : ∀ b : Ref sig .tc, b ∉ Finset.univ.image (Pipeline.arrRef spec2) → W6 m c b = W5 m c b :=
  exitV_rest (dat2 (B5 m) c)
abbrev W7 := StableHlo.after hostOps3 (W6 m c)
abbrev B7 := rdTc (W7 m)

def W8 := exitV (W7 m c) (dat3 (B7 m) c)
theorem W8_arr (w : Fin cfg3.W) :
    W8 m c (Proc.devRef .tc (Pipeline.arrRef spec3 w)) = (dat3 (B7 m) c).arrAt w cfg3.N :=
  exitV_arr _ launch3.win w
theorem W8_of_ne (b : Ref sig .tc) (hb : ∀ w, Pipeline.arrRef spec3 w ≠ b) :
    W8 m c (Proc.devRef .tc b) = W7 m c (Proc.devRef .tc b) :=
  exitV_of_ne (dat3 (B7 m) c) b hb
theorem hF3 (w : Fin cfg3.W) :
    (dat3 (B7 m) c).arrAt w cfg3.N = (fun b : Ref sig .tc => W8 m c b) (Pipeline.arrRef spec3 w) :=
  (W8_arr m c w).symm
theorem hrest3 : ∀ b : Ref sig .tc, b ∉ Finset.univ.image (Pipeline.arrRef spec3) → W8 m c b = W7 m c b :=
  exitV_rest (dat3 (B7 m) c)
abbrev W9 := StableHlo.after hostOps4 (W8 m c)
abbrev B9 := rdTc (W9 m)

def W10 := exitV (W9 m c) (dat4 (B9 m) c)
theorem W10_arr (w : Fin cfg4.W) :
    W10 m c (Proc.devRef .tc (Pipeline.arrRef spec4 w)) = (dat4 (B9 m) c).arrAt w cfg4.N :=
  exitV_arr _ launch4.win w
theorem W10_of_ne (b : Ref sig .tc) (hb : ∀ w, Pipeline.arrRef spec4 w ≠ b) :
    W10 m c (Proc.devRef .tc b) = W9 m c (Proc.devRef .tc b) :=
  exitV_of_ne (dat4 (B9 m) c) b hb
theorem hF4 (w : Fin cfg4.W) :
    (dat4 (B9 m) c).arrAt w cfg4.N = (fun b : Ref sig .tc => W10 m c b) (Pipeline.arrRef spec4 w) :=
  (W10_arr m c w).symm
theorem hrest4 : ∀ b : Ref sig .tc, b ∉ Finset.univ.image (Pipeline.arrRef spec4) → W10 m c b = W9 m c b :=
  exitV_rest (dat4 (B9 m) c)
abbrev W11 := StableHlo.after hostOps5 (W10 m c)
abbrev B11 := rdTc (W11 m)

def W12 := exitV (W11 m c) (dat5 (B11 m) c)
theorem W12_arr (w : Fin cfg5.W) :
    W12 m c (Proc.devRef .tc (Pipeline.arrRef spec5 w)) = (dat5 (B11 m) c).arrAt w cfg5.N :=
  exitV_arr _ launch5.win w
theorem W12_of_ne (b : Ref sig .tc) (hb : ∀ w, Pipeline.arrRef spec5 w ≠ b) :
    W12 m c (Proc.devRef .tc b) = W11 m c (Proc.devRef .tc b) :=
  exitV_of_ne (dat5 (B11 m) c) b hb
theorem hF5 (w : Fin cfg5.W) :
    (dat5 (B11 m) c).arrAt w cfg5.N = (fun b : Ref sig .tc => W12 m c b) (Pipeline.arrRef spec5 w) :=
  (W12_arr m c w).symm
theorem hrest5 : ∀ b : Ref sig .tc, b ∉ Finset.univ.image (Pipeline.arrRef spec5) → W12 m c b = W11 m c b :=
  exitV_rest (dat5 (B11 m) c)
abbrev W13 := StableHlo.after hostOps6 (W12 m c)
abbrev B13 := rdTc (W13 m)

def W14 := exitV (W13 m c) (dat6 (B13 m) c)
theorem W14_arr (w : Fin cfg6.W) :
    W14 m c (Proc.devRef .tc (Pipeline.arrRef spec6 w)) = (dat6 (B13 m) c).arrAt w cfg6.N :=
  exitV_arr _ launch6.win w
theorem W14_of_ne (b : Ref sig .tc) (hb : ∀ w, Pipeline.arrRef spec6 w ≠ b) :
    W14 m c (Proc.devRef .tc b) = W13 m c (Proc.devRef .tc b) :=
  exitV_of_ne (dat6 (B13 m) c) b hb
theorem hF6 (w : Fin cfg6.W) :
    (dat6 (B13 m) c).arrAt w cfg6.N = (fun b : Ref sig .tc => W14 m c b) (Pipeline.arrRef spec6 w) :=
  (W14_arr m c w).symm
theorem hrest6 : ∀ b : Ref sig .tc, b ∉ Finset.univ.image (Pipeline.arrRef spec6) → W14 m c b = W13 m c b :=
  exitV_rest (dat6 (B13 m) c)
abbrev W15 := StableHlo.after hostOps7 (W14 m c)
abbrev B15 := rdTc (W15 m)

def W16 := exitV (W15 m c) (dat7 (B15 m) c)
theorem W16_arr (w : Fin cfg7.W) :
    W16 m c (Proc.devRef .tc (Pipeline.arrRef spec7 w)) = (dat7 (B15 m) c).arrAt w cfg7.N :=
  exitV_arr _ launch7.win w
theorem W16_of_ne (b : Ref sig .tc) (hb : ∀ w, Pipeline.arrRef spec7 w ≠ b) :
    W16 m c (Proc.devRef .tc b) = W15 m c (Proc.devRef .tc b) :=
  exitV_of_ne (dat7 (B15 m) c) b hb
theorem hF7 (w : Fin cfg7.W) :
    (dat7 (B15 m) c).arrAt w cfg7.N = (fun b : Ref sig .tc => W16 m c b) (Pipeline.arrRef spec7 w) :=
  (W16_arr m c w).symm
theorem hrest7 : ∀ b : Ref sig .tc, b ∉ Finset.univ.image (Pipeline.arrRef spec7) → W16 m c b = W15 m c b :=
  exitV_rest (dat7 (B15 m) c)
abbrev W17 := StableHlo.after hostOps8 (W16 m c)
abbrev B17 := rdTc (W17 m)

def W18 := exitV (W17 m c) (dat8 (B17 m) c)
theorem W18_arr (w : Fin cfg8.W) :
    W18 m c (Proc.devRef .tc (Pipeline.arrRef spec8 w)) = (dat8 (B17 m) c).arrAt w cfg8.N :=
  exitV_arr _ launch8.win w
theorem W18_of_ne (b : Ref sig .tc) (hb : ∀ w, Pipeline.arrRef spec8 w ≠ b) :
    W18 m c (Proc.devRef .tc b) = W17 m c (Proc.devRef .tc b) :=
  exitV_of_ne (dat8 (B17 m) c) b hb
theorem hF8 (w : Fin cfg8.W) :
    (dat8 (B17 m) c).arrAt w cfg8.N = (fun b : Ref sig .tc => W18 m c b) (Pipeline.arrRef spec8 w) :=
  (W18_arr m c w).symm
theorem hrest8 : ∀ b : Ref sig .tc, b ∉ Finset.univ.image (Pipeline.arrRef spec8) → W18 m c b = W17 m c b :=
  exitV_rest (dat8 (B17 m) c)
abbrev W19 := StableHlo.after hostOps9 (W18 m c)
abbrev B19 := rdTc (W19 m)

def W20 := exitV (W19 m c) (dat9 (B19 m) c)
theorem W20_arr (w : Fin cfg9.W) :
    W20 m c (Proc.devRef .tc (Pipeline.arrRef spec9 w)) = (dat9 (B19 m) c).arrAt w cfg9.N :=
  exitV_arr _ launch9.win w
theorem W20_of_ne (b : Ref sig .tc) (hb : ∀ w, Pipeline.arrRef spec9 w ≠ b) :
    W20 m c (Proc.devRef .tc b) = W19 m c (Proc.devRef .tc b) :=
  exitV_of_ne (dat9 (B19 m) c) b hb
theorem hF9 (w : Fin cfg9.W) :
    (dat9 (B19 m) c).arrAt w cfg9.N = (fun b : Ref sig .tc => W20 m c b) (Pipeline.arrRef spec9 w) :=
  (W20_arr m c w).symm
theorem hrest9 : ∀ b : Ref sig .tc, b ∉ Finset.univ.image (Pipeline.arrRef spec9) → W20 m c b = W19 m c b :=
  exitV_rest (dat9 (B19 m) c)
abbrev W21 := StableHlo.after hostOps10 (W20 m c)
abbrev B21 := rdTc (W21 m)

def W22 := exitV (W21 m c) (dat10 (B21 m) c)
theorem W22_arr (w : Fin cfg10.W) :
    W22 m c (Proc.devRef .tc (Pipeline.arrRef spec10 w)) = (dat10 (B21 m) c).arrAt w cfg10.N :=
  exitV_arr _ launch10.win w
theorem W22_of_ne (b : Ref sig .tc) (hb : ∀ w, Pipeline.arrRef spec10 w ≠ b) :
    W22 m c (Proc.devRef .tc b) = W21 m c (Proc.devRef .tc b) :=
  exitV_of_ne (dat10 (B21 m) c) b hb
theorem hF10 (w : Fin cfg10.W) :
    (dat10 (B21 m) c).arrAt w cfg10.N = (fun b : Ref sig .tc => W22 m c b) (Pipeline.arrRef spec10 w) :=
  (W22_arr m c w).symm
theorem hrest10 : ∀ b : Ref sig .tc, b ∉ Finset.univ.image (Pipeline.arrRef spec10) → W22 m c b = W21 m c b :=
  exitV_rest (dat10 (B21 m) c)
abbrev W23 := StableHlo.after hostOps11 (W22 m c)
abbrev B23 := rdTc (W23 m)

def W24 := exitV (W23 m c) (dat11 (B23 m) c)
theorem W24_arr (w : Fin cfg11.W) :
    W24 m c (Proc.devRef .tc (Pipeline.arrRef spec11 w)) = (dat11 (B23 m) c).arrAt w cfg11.N :=
  exitV_arr _ launch11.win w
theorem W24_of_ne (b : Ref sig .tc) (hb : ∀ w, Pipeline.arrRef spec11 w ≠ b) :
    W24 m c (Proc.devRef .tc b) = W23 m c (Proc.devRef .tc b) :=
  exitV_of_ne (dat11 (B23 m) c) b hb
theorem hF11 (w : Fin cfg11.W) :
    (dat11 (B23 m) c).arrAt w cfg11.N = (fun b : Ref sig .tc => W24 m c b) (Pipeline.arrRef spec11 w) :=
  (W24_arr m c w).symm
theorem hrest11 : ∀ b : Ref sig .tc, b ∉ Finset.univ.image (Pipeline.arrRef spec11) → W24 m c b = W23 m c b :=
  exitV_rest (dat11 (B23 m) c)
abbrev W25 := StableHlo.after hostOps12 (W24 m c)
abbrev B25 := rdTc (W25 m)

def W26 := exitV (W25 m c) (dat12 (B25 m) c)
theorem W26_arr (w : Fin cfg12.W) :
    W26 m c (Proc.devRef .tc (Pipeline.arrRef spec12 w)) = (dat12 (B25 m) c).arrAt w cfg12.N :=
  exitV_arr _ launch12.win w
theorem W26_of_ne (b : Ref sig .tc) (hb : ∀ w, Pipeline.arrRef spec12 w ≠ b) :
    W26 m c (Proc.devRef .tc b) = W25 m c (Proc.devRef .tc b) :=
  exitV_of_ne (dat12 (B25 m) c) b hb
theorem hF12 (w : Fin cfg12.W) :
    (dat12 (B25 m) c).arrAt w cfg12.N = (fun b : Ref sig .tc => W26 m c b) (Pipeline.arrRef spec12 w) :=
  (W26_arr m c w).symm
theorem hrest12 : ∀ b : Ref sig .tc, b ∉ Finset.univ.image (Pipeline.arrRef spec12) → W26 m c b = W25 m c b :=
  exitV_rest (dat12 (B25 m) c)
theorem W26_in (w : Fin cfg12.W) (hin : (cfg12.win w).isOut = false) :
    W26 m c (Proc.devRef .tc (Pipeline.arrRef spec12 w)) = W25 m c (Proc.devRef .tc (Pipeline.arrRef spec12 w)) :=
  exitV_in _ launch12.win (A_eq12 (B25 m) c) w hin
abbrev W27 := StableHlo.after hostOps13 (W26 m c)

/-- For an even `J`, the exit contents of the region that is item `J − 1`. -/
def outs : Gen.Outs (F := F) := fun J r c =>
  match J with
  | 2 => W2 m c r
  | 4 => W4 m c r
  | 6 => W6 m c r
  | 8 => W8 m c r
  | 10 => W10 m c r
  | 12 => W12 m c r
  | 14 => W14 m c r
  | 16 => W16 m c r
  | 18 => W18 m c r
  | 20 => W20 m c r
  | 22 => W22 m c r
  | 24 => W24 m c r
  | 26 => W26 m c r
  | _ => W0 m c r

theorem V_eq_1 : Gen.V1 m c = W1 m c := rfl
theorem V_eq_2 : Gen.V2 m (outs m) c = W2 m c :=
  upd_exitV _ launch0.win (V_eq_1 m c) (A_eq0 (B1 m) c) [main_v21_0, main_v21_1, main_v21_2] (by decide)
theorem V_eq_3 : Gen.V3 m (outs m) c = W3 m c := congrArg (StableHlo.after hostOps1) (V_eq_2 m c)
theorem V_eq_4 : Gen.V4 m (outs m) c = W4 m c :=
  upd_exitV _ launch1.win (V_eq_3 m c) (A_eq1 (B3 m) c) [main_v39_0, main_v39_1, main_v39_2] (by decide)
theorem V_eq_5 : Gen.V5 m (outs m) c = W5 m c := congrArg (StableHlo.after hostOps2) (V_eq_4 m c)
theorem V_eq_6 : Gen.V6 m (outs m) c = W6 m c :=
  upd_exitV _ launch2.win (V_eq_5 m c) (A_eq2 (B5 m) c) [main_v52] (by decide)
theorem V_eq_7 : Gen.V7 m (outs m) c = W7 m c := congrArg (StableHlo.after hostOps3) (V_eq_6 m c)
theorem V_eq_8 : Gen.V8 m (outs m) c = W8 m c :=
  upd_exitV _ launch3.win (V_eq_7 m c) (A_eq3 (B7 m) c) [main_v74_0, main_v74_1, main_v74_2] (by decide)
theorem V_eq_9 : Gen.V9 m (outs m) c = W9 m c := congrArg (StableHlo.after hostOps4) (V_eq_8 m c)
theorem V_eq_10 : Gen.V10 m (outs m) c = W10 m c :=
  upd_exitV _ launch4.win (V_eq_9 m c) (A_eq4 (B9 m) c) [main_v92_0, main_v92_1, main_v92_2] (by decide)
theorem V_eq_11 : Gen.V11 m (outs m) c = W11 m c := congrArg (StableHlo.after hostOps5) (V_eq_10 m c)
theorem V_eq_12 : Gen.V12 m (outs m) c = W12 m c :=
  upd_exitV _ launch5.win (V_eq_11 m c) (A_eq5 (B11 m) c) [main_v105] (by decide)
theorem V_eq_13 : Gen.V13 m (outs m) c = W13 m c := congrArg (StableHlo.after hostOps6) (V_eq_12 m c)
theorem V_eq_14 : Gen.V14 m (outs m) c = W14 m c :=
  upd_exitV _ launch6.win (V_eq_13 m c) (A_eq6 (B13 m) c) [main_v127_0, main_v127_1, main_v127_2] (by decide)
theorem V_eq_15 : Gen.V15 m (outs m) c = W15 m c := congrArg (StableHlo.after hostOps7) (V_eq_14 m c)
theorem V_eq_16 : Gen.V16 m (outs m) c = W16 m c :=
  upd_exitV _ launch7.win (V_eq_15 m c) (A_eq7 (B15 m) c) [main_v145_0, main_v145_1, main_v145_2] (by decide)
theorem V_eq_17 : Gen.V17 m (outs m) c = W17 m c := congrArg (StableHlo.after hostOps8) (V_eq_16 m c)
theorem V_eq_18 : Gen.V18 m (outs m) c = W18 m c :=
  upd_exitV _ launch8.win (V_eq_17 m c) (A_eq8 (B17 m) c) [main_v158] (by decide)
theorem V_eq_19 : Gen.V19 m (outs m) c = W19 m c := congrArg (StableHlo.after hostOps9) (V_eq_18 m c)
theorem V_eq_20 : Gen.V20 m (outs m) c = W20 m c :=
  upd_exitV _ launch9.win (V_eq_19 m c) (A_eq9 (B19 m) c) [main_v180_0, main_v180_1, main_v180_2] (by decide)
theorem V_eq_21 : Gen.V21 m (outs m) c = W21 m c := congrArg (StableHlo.after hostOps10) (V_eq_20 m c)
theorem V_eq_22 : Gen.V22 m (outs m) c = W22 m c :=
  upd_exitV _ launch10.win (V_eq_21 m c) (A_eq10 (B21 m) c) [main_v198_0, main_v198_1, main_v198_2] (by decide)
theorem V_eq_23 : Gen.V23 m (outs m) c = W23 m c := congrArg (StableHlo.after hostOps11) (V_eq_22 m c)
theorem V_eq_24 : Gen.V24 m (outs m) c = W24 m c :=
  upd_exitV _ launch11.win (V_eq_23 m c) (A_eq11 (B23 m) c) [main_v211] (by decide)
theorem V_eq_25 : Gen.V25 m (outs m) c = W25 m c := congrArg (StableHlo.after hostOps12) (V_eq_24 m c)
theorem V_eq_26 : Gen.V26 m (outs m) c = W26 m c :=
  upd_exitV _ launch12.win (V_eq_25 m c) (A_eq12 (B25 m) c)
    [main_v213_0, main_v213_1, main_v213_2, main_v213_3, main_v213_4] (by decide)
theorem V_eq_27 : Gen.V27 m (outs m) c = W27 m c := congrArg (StableHlo.after hostOps13) (V_eq_26 m c)

theorem W27_main_arg0 : W27 m c (Proc.devRef .tc main_arg0) = m ((c : Thread nD τ).loc main_arg0) :=
  (congrFun (V_eq_27 m c) _).symm.trans (Gen.V27_main_arg0 m (outs m) c)
theorem W27_main_arg1 : W27 m c (Proc.devRef .tc main_arg1) = m ((c : Thread nD τ).loc main_arg1) :=
  (congrFun (V_eq_27 m c) _).symm.trans (Gen.V27_main_arg1 m (outs m) c)
theorem W27_main_arg4 : W27 m c (Proc.devRef .tc main_arg4) = m ((c : Thread nD τ).loc main_arg4) :=
  (congrFun (V_eq_27 m c) _).symm.trans (Gen.V27_main_arg4 m (outs m) c)
theorem W27_main_arg14 : W27 m c (Proc.devRef .tc main_arg14) = m ((c : Thread nD τ).loc main_arg14) :=
  (congrFun (V_eq_27 m c) _).symm.trans (Gen.V27_main_arg14 m (outs m) c)
theorem W27_main_arg15 : W27 m c (Proc.devRef .tc main_arg15) = m ((c : Thread nD τ).loc main_arg15) :=
  (congrFun (V_eq_27 m c) _).symm.trans (Gen.V27_main_arg15 m (outs m) c)
theorem W27_main_arg16 : W27 m c (Proc.devRef .tc main_arg16) = m ((c : Thread nD τ).loc main_arg16) :=
  (congrFun (V_eq_27 m c) _).symm.trans (Gen.V27_main_arg16 m (outs m) c)
theorem W27_main_arg17 : W27 m c (Proc.devRef .tc main_arg17) = m ((c : Thread nD τ).loc main_arg17) :=
  (congrFun (V_eq_27 m c) _).symm.trans (Gen.V27_main_arg17 m (outs m) c)

end Cert.Kernel.Hand

end
-- ==== Proof.K.Regs0.lean ====
import proofs.«105940_j32358283608240_1_alg».proof.Proof.K.Chain
import proofs.«105940_j32358283608240_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 13) → (c : Dev nD) → Dat τ (Elt F) Unit ℕ (UR sig nD τ) ℕ (cfgs p) c
  | ⟨0, _⟩ => fun c => dat0 (B1 m) c
  | ⟨1, _⟩ => fun c => dat1 (B3 m) c
  | ⟨2, _⟩ => fun c => dat2 (B5 m) c
  | ⟨3, _⟩ => fun c => dat3 (B7 m) c
  | ⟨4, _⟩ => fun c => dat4 (B9 m) c
  | ⟨5, _⟩ => fun c => dat5 (B11 m) c
  | ⟨6, _⟩ => fun c => dat6 (B13 m) c
  | ⟨7, _⟩ => fun c => dat7 (B15 m) c
  | ⟨8, _⟩ => fun c => dat8 (B17 m) c
  | ⟨9, _⟩ => fun c => dat9 (B19 m) c
  | ⟨10, _⟩ => fun c => dat10 (B21 m) c
  | ⟨11, _⟩ => fun c => dat11 (B23 m) c
  | ⟨12, _⟩ => fun c => dat12 (B25 m) c

abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev u₀ : UR sig nD τ := initOf (Pipeline.cells cfgs cellOf_inj) (Pipeline.launchToks cfgs cellOf_inj)

theorem launch_own : (ownU u₀ : sProp 𝕄)
    ⊢ |={Set.univ}=> iprop(BI.own (emb₁ u₀) ∗ bigSep Finset.univ fun _ : Dev nD => (iprop(emp) : sProp 𝕄)) := by
  iintro Hu; imodintro
  isplitl [Hu]
  · iapply (show (ownU u₀ : sProp 𝕄) ⊢ BI.own (emb₁ u₀) from .rfl)
    iexact Hu
  iapply (show (BI.emp : sProp 𝕄) ⊢ bigSep Finset.univ (fun _ : Dev nD => (BI.emp : sProp 𝕄)) from by rw [BI.bigSep_emp_const])
  iempintro

theorem launch_rest : iprop((bigSep Finset.univ fun c : Dev nD => iprop(unscopedSems0 c
        ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
    ⊢ (|={Set.univ}=> bigSep Finset.univ (fun c : Dev nD => R c) : sProp 𝕄) :=
  Pipeline.initEach L lv fun c => by
    iintro ⟨⟨-, HO, -, Hp, -⟩, -⟩
    imodintro
    isplitl [Hp]; · iexists _; iexact Hp
    iexists ∅; iexact HO

theorem rest_owes (c : Dev nD) : R c ⊢ (iprop(∃ W, owes (c : Thread nD τ) (0 : CellTallies nD τ sig Unit) W) : sProp 𝕄) := by
  iintro ⟨-, HO⟩; iexact HO

set_option backward.isDefEq.respectTransparency.types false in
/-- The unscoped buffers at `Wi` are region `p`'s arrays and a frame; with the arrays at their exit contents they are the unscoped buffers at `Wo`, which agrees with `Wi` off the arrays. -/
def reg (p : Fin 13) (kit : Pipeline.LaunchFacts (nD := nD) (τ := τ) cfgs p) (Wi Wo : Dev nD → Valuation τ sig (Elt F))
    (hbody : ∀ c, BodyObligation (pdats m p c) (defs₀ (F := F)) Variants.none () Set.univ)
    (hA : ∀ c w, (pdats m p c).A w = Wi c (Pipeline.arrRef (cfgs p).spec w))
    (hΦ : ∀ c j, (pdats m p c).Φ j = Pipeline.ΦA (cfgs p).spec c)
    (hq : ∀ c w, (pdats m p c).q w = fullShare)
    (howed : ∀ c j, (pdats m p c).owed j = 0)
    (hrec : ∀ c j, (pdats m p c).recorded j = Set.univ)
    (hF : ∀ c w, (pdats m p c).arrAt w (cfgs p).N = Wo c (Pipeline.arrRef (cfgs p).spec w))
    (hrest : ∀ c, ∀ b : Ref sig .tc, b ∉ Finset.univ.image (Pipeline.arrRef (cfgs p).spec) → Wo c b = Wi c b) :
    Pipeline.RegionSeg (pcfgs (F := F)) adm (pdats m) () defs₀ Variants.none L lv p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    rw [Pipeline.ownSems0_none]
    have hsplit := Pipeline.arrays_of_unscopedBufs (p := p) (pcfgs (F := F)) adm (pdats m) kit.win kit.arr_whole c
      ((pdats m p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c 0, hrec c 0]
      icases HO with ⟨%W, HO⟩; iexists W; isplitr; · ipureintro; exact fun _ _ => Or.inl trivial
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      kit.win kit.arr_whole c (pdats m) ((pdats m p c).share_full (hq c))
      (fun b => Wi c b) (fun b => Wo c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

end Cert.Kernel.Hand

end
-- ==== Proof.K.Regs.lean ====
import proofs.«105940_j32358283608240_1_alg».proof.Proof.K.Regs0
import proofs.«105940_j32358283608240_1_alg».proof.Proof.K.RunValue
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false

def reg0 := reg m 0 launch0 (W1 m) (W2 m) (body_obligation0 (B1 m)) (A_eq0 (B1 m)) (Phi_eq0 (B1 m)) (q_eq0 (B1 m))
  (owed_eq0 (B1 m)) (recorded_eq0 (B1 m)) (hF0 m) (hrest0 m)
def reg1 := reg m 1 launch1 (W3 m) (W4 m) (body_obligation1 (B3 m)) (A_eq1 (B3 m)) (Phi_eq1 (B3 m)) (q_eq1 (B3 m))
  (owed_eq1 (B3 m)) (recorded_eq1 (B3 m)) (hF1 m) (hrest1 m)
def reg2 := reg m 2 launch2 (W5 m) (W6 m) (body_obligation2 (B5 m)) (A_eq2 (B5 m)) (Phi_eq2 (B5 m)) (q_eq2 (B5 m))
  (owed_eq2 (B5 m)) (recorded_eq2 (B5 m)) (hF2 m) (hrest2 m)
def reg3 := reg m 3 launch3 (W7 m) (W8 m) (body_obligation3 (B7 m)) (A_eq3 (B7 m)) (Phi_eq3 (B7 m)) (q_eq3 (B7 m))
  (owed_eq3 (B7 m)) (recorded_eq3 (B7 m)) (hF3 m) (hrest3 m)
def reg4 := reg m 4 launch4 (W9 m) (W10 m) (body_obligation4 (B9 m)) (A_eq4 (B9 m)) (Phi_eq4 (B9 m)) (q_eq4 (B9 m))
  (owed_eq4 (B9 m)) (recorded_eq4 (B9 m)) (hF4 m) (hrest4 m)
def reg5 := reg m 5 launch5 (W11 m) (W12 m) (body_obligation5 (B11 m)) (A_eq5 (B11 m)) (Phi_eq5 (B11 m)) (q_eq5 (B11 m))
  (owed_eq5 (B11 m)) (recorded_eq5 (B11 m)) (hF5 m) (hrest5 m)
def reg6 := reg m 6 launch6 (W13 m) (W14 m) (body_obligation6 (B13 m)) (A_eq6 (B13 m)) (Phi_eq6 (B13 m)) (q_eq6 (B13 m))
  (owed_eq6 (B13 m)) (recorded_eq6 (B13 m)) (hF6 m) (hrest6 m)
def reg7 := reg m 7 launch7 (W15 m) (W16 m) (body_obligation7 (B15 m)) (A_eq7 (B15 m)) (Phi_eq7 (B15 m)) (q_eq7 (B15 m))
  (owed_eq7 (B15 m)) (recorded_eq7 (B15 m)) (hF7 m) (hrest7 m)
def reg8 := reg m 8 launch8 (W17 m) (W18 m) (body_obligation8 (B17 m)) (A_eq8 (B17 m)) (Phi_eq8 (B17 m)) (q_eq8 (B17 m))
  (owed_eq8 (B17 m)) (recorded_eq8 (B17 m)) (hF8 m) (hrest8 m)
def reg9 := reg m 9 launch9 (W19 m) (W20 m) (body_obligation9 (B19 m)) (A_eq9 (B19 m)) (Phi_eq9 (B19 m)) (q_eq9 (B19 m))
  (owed_eq9 (B19 m)) (recorded_eq9 (B19 m)) (hF9 m) (hrest9 m)
def reg10 := reg m 10 launch10 (W21 m) (W22 m) (body_obligation10 (B21 m)) (A_eq10 (B21 m)) (Phi_eq10 (B21 m)) (q_eq10 (B21 m))
  (owed_eq10 (B21 m)) (recorded_eq10 (B21 m)) (hF10 m) (hrest10 m)
def reg11 := reg m 11 launch11 (W23 m) (W24 m) (body_obligation11 (B23 m)) (A_eq11 (B23 m)) (Phi_eq11 (B23 m)) (q_eq11 (B23 m))
  (owed_eq11 (B23 m)) (recorded_eq11 (B23 m)) (hF11 m) (hrest11 m)
def reg12 := reg m 12 launch12 (W25 m) (W26 m) (body_obligation12 (B25 m)) (A_eq12 (B25 m)) (Phi_eq12 (B25 m)) (q_eq12 (B25 m))
  (owed_eq12 (B25 m)) (recorded_eq12 (B25 m)) (hF12 m) (hrest12 m)

theorem run_value : θ_run defs (onTc (τ := τ) (main (F := F))) ⟨m, fun _ => 0, ρ⟩ (fun r => ∀ c : Dev nD,
      r.2.mem ((c.tc : Thread nD τ).loc main_v234) = W27 m c (Proc.devRef .tc main_v234)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) := by
  generalize hW : W27 m = Wn
  obtain rfl : Wn = fun c => Gen.V27 m (outs m) c := by rw [← hW]; exact funext fun c => (V_eq_27 m c).symm
  exact frame_cond_value m emb₁ () Variants.none L lv (fun _ _ => rfl) ρ (outs m) (pdats m)
    (O₀ := 0) (G := fun _ => iprop(emp)) (u₀ := u₀) (hu₀ := launch_own)
    (E := fun _ c => R c) (hE0 := launch_rest ρ) (hE13 := rest_owes)
    (reg0 m) (fun c => V_eq_1 m c ▸ .rfl) (fun c => V_eq_2 m c ▸ .rfl)
    (reg1 m) (fun c => V_eq_3 m c ▸ .rfl) (fun c => V_eq_4 m c ▸ .rfl)
    (reg2 m) (fun c => V_eq_5 m c ▸ .rfl) (fun c => V_eq_6 m c ▸ .rfl)
    (reg3 m) (fun c => V_eq_7 m c ▸ .rfl) (fun c => V_eq_8 m c ▸ .rfl)
    (reg4 m) (fun c => V_eq_9 m c ▸ .rfl) (fun c => V_eq_10 m c ▸ .rfl)
    (reg5 m) (fun c => V_eq_11 m c ▸ .rfl) (fun c => V_eq_12 m c ▸ .rfl)
    (reg6 m) (fun c => V_eq_13 m c ▸ .rfl) (fun c => V_eq_14 m c ▸ .rfl)
    (reg7 m) (fun c => V_eq_15 m c ▸ .rfl) (fun c => V_eq_16 m c ▸ .rfl)
    (reg8 m) (fun c => V_eq_17 m c ▸ .rfl) (fun c => V_eq_18 m c ▸ .rfl)
    (reg9 m) (fun c => V_eq_19 m c ▸ .rfl) (fun c => V_eq_20 m c ▸ .rfl)
    (reg10 m) (fun c => V_eq_21 m c ▸ .rfl) (fun c => V_eq_22 m c ▸ .rfl)
    (reg11 m) (fun c => V_eq_23 m c ▸ .rfl) (fun c => V_eq_24 m c ▸ .rfl)
    (reg12 m) (fun c => V_eq_25 m c ▸ .rfl) (fun c => V_eq_26 m c ▸ .rfl)

/-- The frame is the run's post without its first conjunct. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run _ _ _).mono (fun _ h c => (h c).2) (run_value m ρ)

end Cert.Kernel.Hand

end
-- ==== Proof.KI.R0.lean ====
import proofs.«105940_j32358283608240_1_alg».proof.Proof.Gen.KernelIdeal.Launch
import proofs.«105940_j32358283608240_1_alg».proof.Proof.Gen.KernelIdeal.Skeleton
import proofs.«105940_j32358283608240_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeroOff0 : (![0, 0] : Fin 2 → ℕ) = fun _ => 0 := funext fun a => by fin_cases a <;> rfl

theorem readAt_whole0 {sp : Space} {S : Shape} {e : EltTy} {m : Memref sig .tc sp S e} (hm : m.IsWhole)
    {off : Fin S.rank → ℕ} (h : off = fun _ => 0) (inb : ∀ a, off a + S.size a ≤ S.size a) (X : S.Idx → Elt F e) :
    View.readAt (Elt F) m.view (Rect.unit off S.size inb).toLoadRect (hm.unread X) = X := by
  subst h
  funext x
  rw [View.readAt_apply, hm.read_unread]
  show X ((Rect.whole S).emb x) = X x
  rw [Rect.emb_whole_apply]

theorem read_writes_whole0 {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst h
  funext y
  have e := View.read_writes_cons_emb (v := v) (f := f) (Rect.whole S) w L y
  rw [Rect.emb_whole_apply] at e
  exact e

abbrev cond0_0 (i : grid0.Coords) : Prop :=
  (Scalar.cmpi .ne (Scalar.extui (Scalar.cmpi .eq (BitVec.ofNat 32 (i 0).val) 0#32)) 0#32) = 1#1

theorem hcond0_0 : ∀ t : Fin cfg0.N, cond0_0 (grid0.coords t) ↔ t.val % 10 = 0 :=
  (by decide +kernel : ∀ t : Fin grid0.N, cond0_0 (grid0.coords t) ↔ t.val % 10 = 0)

set_option maxHeartbeats 1000000 in
theorem sound_kernel0_A (c : Dev nD) (E : Set ℕ) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec F S10000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay3 x0 x1 x2)
            ∗ owns (c : Thread nD τ) arg5 fullShare (k0_pay4 x0 x1 x2 k0_pay1)
            ∗ owns (c : Thread nD τ) arg6 fullShare (k0_pay5 x0 x1 x2 k0_pay2)) -∗ K ⟨⟩))
      ⊢ wp frame (wpE (defs₀ (F := F)) Variants.none c none) E (cc0__stage1_kernel i arg1 harg1 arg2 harg2 arg3 harg3 arg4 harg4 arg5 harg5 arg6 harg6) K := by
  simp only [cc0__stage1_kernel_eq_skeleton]; unfold cc0__stage1_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg1.eq_unread hf0; obtain rfl := harg2.eq_unread hf1; obtain rfl := harg3.eq_unread hf2
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [read_writes_whole0 _ _ zeroOff0, readAt_whole0 harg1 zeroOff0, readAt_whole0 harg2 zeroOff0, readAt_whole0 harg3 zeroOff0]
  isplitl [H4]
  · iexists _; isplitr
    swap; · iexact H4
    ipureintro
    sl_unfold_run_names
    rw [read_writes_whole0 _ _ zeroOff0, View.readCov_cons_toLoadRect,
      readAt_whole0 harg1 zeroOff0, readAt_whole0 harg2 zeroOff0, readAt_whole0 harg3 zeroOff0]
  iexists _; isplitr
  swap; · iexact H5
  ipureintro
  sl_unfold_run_names
  rw [read_writes_whole0 _ _ zeroOff0, View.readCov_cons_toLoadRect,
    readAt_whole0 harg1 zeroOff0, readAt_whole0 harg2 zeroOff0, readAt_whole0 harg3 zeroOff0]

set_option maxHeartbeats 1000000 in
theorem sound_kernel0_B (c : Dev nD) (E : Set ℕ) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec F S10000x128 .f32) (x1 : Vec F S128x128 .f32) (x2 : Vec F S1x128 .f32)
    (a4 : Vec F S1x128 .f32) (a5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare a4 ∗ owns (c : Thread nD τ) arg6 fullShare a5
        ∗ (iprop(owns (c : Thread nD τ) arg1 fullShare x0 ∗ owns (c : Thread nD τ) arg2 fullShare x1 ∗ owns (c : Thread nD τ) arg3 fullShare x2
            ∗ owns (c : Thread nD τ) arg4 fullShare (k0_pay3 x0 x1 x2)
            ∗ owns (c : Thread nD τ) arg5 fullShare (k0_pay4 x0 x1 x2 a4)
            ∗ owns (c : Thread nD τ) arg6 fullShare (k0_pay5 x0 x1 x2 a5)) -∗ K ⟨⟩))
      ⊢ wp frame (wpE (defs₀ (F := F)) Variants.none c none) E (cc0__stage1_kernel i arg1 harg1 arg2 harg2 arg3 harg3 arg4 harg4 arg5 harg5 arg6 harg6) K := by
  simp only [cc0__stage1_kernel_eq_skeleton]; unfold cc0__stage1_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  obtain rfl := harg1.eq_unread hf0; obtain rfl := harg2.eq_unread hf1; obtain rfl := harg3.eq_unread hf2
  obtain rfl := harg5.eq_unread hf4; obtain rfl := harg6.eq_unread hf5
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [read_writes_whole0 _ _ zeroOff0, readAt_whole0 harg1 zeroOff0, readAt_whole0 harg2 zeroOff0, readAt_whole0 harg3 zeroOff0]
  isplitl [H4]
  · iexists _; isplitr
    swap; · iexact H4
    ipureintro
    sl_unfold_run_names
    rw [read_writes_whole0 _ _ zeroOff0, readAt_whole0 harg5 zeroOff0,
      readAt_whole0 harg1 zeroOff0, readAt_whole0 harg2 zeroOff0, readAt_whole0 harg3 zeroOff0]
  iexists _; isplitr
  swap; · iexact H5
  ipureintro
  sl_unfold_run_names
  rw [read_writes_whole0 _ _ zeroOff0, readAt_whole0 harg6 zeroOff0,
    readAt_whole0 harg1 zeroOff0, readAt_whole0 harg2 zeroOff0, readAt_whole0 harg3 zeroOff0]

section
variable {β : Type} {N : ℕ} (f : Fin N → β → β) (z : β)

def out0 : (n : ℕ) → n < N → β
  | 0, hn => f ⟨0, hn⟩ z
  | n + 1, hn => f ⟨n + 1, hn⟩ (out0 n (Nat.lt_of_succ_lt hn))

def acc0 : Fin N → β
  | ⟨0, _⟩ => z
  | ⟨n + 1, hn⟩ => out0 f z n (Nat.lt_of_succ_lt hn)

theorem out0_eq (t : Fin N) : out0 f z t.val t.isLt = f t (acc0 f z t) := by
  obtain ⟨_ | n, hn⟩ := t <;> rfl

theorem acc0_zero (t : Fin N) (h : t.val = 0) : acc0 f z t = z := by
  obtain ⟨_ | n, hn⟩ := t
  · rfl
  · exact absurd h (Nat.succ_ne_zero n)

theorem acc0_succ (t : Fin N) (h : t.val ≠ 0) :
    acc0 f z t = out0 f z (t.val - 1) (Nat.lt_of_le_of_lt (Nat.sub_le _ _) t.isLt) := by
  obtain ⟨_ | n, hn⟩ := t
  · exact absurd rfl h
  · rfl

end

section
variable (x0 : Fin grid0.N → Vec F S10000x128 .f32) (x1 : Fin grid0.N → Vec F S128x128 .f32) (x2 : Fin grid0.N → Vec F S1x128 .f32)

abbrev out0_4 : (n : ℕ) → n < grid0.N → Vec F S1x128 .f32 := out0 (fun t => k0_pay4 (x0 t) (x1 t) (x2 t)) (k0_pay1 (F := F))
abbrev out0_5 : (n : ℕ) → n < grid0.N → Vec F S1x128 .f32 := out0 (fun t => k0_pay5 (x0 t) (x1 t) (x2 t)) (k0_pay2 (F := F))
abbrev acc0_4 : Fin grid0.N → Vec F S1x128 .f32 := acc0 (fun t => k0_pay4 (x0 t) (x1 t) (x2 t)) (k0_pay1 (F := F))
abbrev acc0_5 : Fin grid0.N → Vec F S1x128 .f32 := acc0 (fun t => k0_pay5 (x0 t) (x1 t) (x2 t)) (k0_pay2 (F := F))

theorem out0_4_eq (t : Fin grid0.N) :
    out0_4 x0 x1 x2 t.val t.isLt = k0_pay4 (x0 t) (x1 t) (x2 t) (acc0_4 x0 x1 x2 t) := out0_eq _ _ t
theorem out0_5_eq (t : Fin grid0.N) :
    out0_5 x0 x1 x2 t.val t.isLt = k0_pay5 (x0 t) (x1 t) (x2 t) (acc0_5 x0 x1 x2 t) := out0_eq _ _ t

set_option maxHeartbeats 800000 in
theorem sound_point0 (c : Dev nD) (t : Fin grid0.N) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole)
    {D0 D1 D2 D3 D4 D5 : Type} (b0 : D0 → Vec F S10000x128 .f32) (b1 : D1 → Vec F S128x128 .f32) (b2 : D2 → Vec F S1x128 .f32)
    (b3 : D3 → Vec F S10000x128 .f32) (b4 : D4 → Vec F S1x128 .f32) (b5 : D5 → Vec F S1x128 .f32)
    (h0 : ∀ d, b0 d = x0 t) (h1 : ∀ d, b1 d = x1 t) (h2 : ∀ d, b2 d = x2 t)
    (hB : ¬t.val % 10 = 0 → (∀ d, b4 d = acc0_4 x0 x1 x2 t) ∧ ∀ d, b5 d = acc0_5 x0 x1 x2 t) (Φ O : sProp 𝕄) :
    iprop(Φ ∗ O ∗ (∃ d, owns (c : Thread nD τ) arg1 fullShare (b0 d)) ∗ (∃ d, owns (c : Thread nD τ) arg2 fullShare (b1 d))
        ∗ (∃ d, owns (c : Thread nD τ) arg3 fullShare (b2 d)) ∗ (∃ d, owns (c : Thread nD τ) arg4 fullShare (b3 d))
        ∗ (∃ d, owns (c : Thread nD τ) arg5 fullShare (b4 d)) ∗ (∃ d, owns (c : Thread nD τ) arg6 fullShare (b5 d)))
      ⊢ wp frame (wpE (defs₀ (F := F)) Variants.none c none) Set.univ
          (cc0__stage1_kernel (grid0.coords t) arg1 harg1 arg2 harg2 arg3 harg3 arg4 harg4 arg5 harg5 arg6 harg6) fun _ =>
          iprop(Φ ∗ O ∗ owns (c : Thread nD τ) arg1 fullShare (x0 t) ∗ owns (c : Thread nD τ) arg2 fullShare (x1 t)
            ∗ owns (c : Thread nD τ) arg3 fullShare (x2 t) ∗ owns (c : Thread nD τ) arg4 fullShare (k0_pay3 (x0 t) (x1 t) (x2 t))
            ∗ owns (c : Thread nD τ) arg5 fullShare (out0_4 x0 x1 x2 t.val t.isLt)
            ∗ owns (c : Thread nD τ) arg6 fullShare (out0_5 x0 x1 x2 t.val t.isLt)) := by
  rw [out0_4_eq, out0_5_eq]
  simp only [h0, h1, h2]
  by_cases hz : t.val % 10 = 0
  on_goal 1 =>
    have hN : t.val < 10 := lt_of_lt_of_eq t.isLt N_0
    rw [show acc0_4 x0 x1 x2 t = k0_pay1 from acc0_zero _ _ t (by omega),
      show acc0_5 x0 x1 x2 t = k0_pay2 from acc0_zero _ _ t (by omega)]
  on_goal 2 => simp only [(hB hz).1, (hB hz).2]
  all_goals
    iintro ⟨HΦ, Ho, ⟨%d0, H0⟩, ⟨%d1, H1⟩, ⟨%d2, H2⟩, ⟨%d3, H3⟩, ⟨%d4, H4⟩, ⟨%d5, H5⟩⟩
    first
      | iapply (sound_kernel0_A c Set.univ (grid0.coords t) _ harg1 _ harg2 _ harg3 _ harg4 _ harg5 _ harg6 ((hcond0_0 t).mpr hz)
          (x0 t) (x1 t) (x2 t) _)
      | iapply (sound_kernel0_B c Set.univ (grid0.coords t) _ harg1 _ harg2 _ harg3 _ harg4 _ harg5 _ harg6 (fun h => hz ((hcond0_0 t).mp h))
          (x0 t) (x1 t) (x2 t) (acc0_4 x0 x1 x2 t) (acc0_5 x0 x1 x2 t) _)
    isplitl [H0]; · iexact H0
    isplitl [H1]; · iexact H1
    isplitl [H2]; · iexact H2
    isplitl [H3]; · iexists _; iexact H3
    isplitl [H4]; · first | iexact H4 | (iexists _; iexact H4)
    isplitl [H5]; · first | iexact H5 | (iexists _; iexact H5)
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

end

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_of {c : Dev nD} (dat : Dat τ (Elt F) Unit ℕ (UR sig nD τ) ℕ cfg0 c) (hA : ∀ w, dat.A w = V c (Pipeline.arrRef spec0 w))
    (h0 : ∀ t, dat.after 0 t = iblk0 V c 0 t) (h1 : ∀ t, dat.after 1 t = iblk0 V c 1 t) (h2 : ∀ t, dat.after 2 t = iblk0 V c 2 t)
    (t : Fin cfg0.N) :
    (∀ d, dat.before 0 t d = iblk0 V c 0 t) ∧ (∀ d, dat.before 1 t d = iblk0 V c 1 t) ∧ ∀ d, dat.before 2 t d = iblk0 V c 2 t := by
  refine ⟨fun d => ?_, fun d => ?_, fun d => ?_⟩ <;>
    exact Eq.trans (dat.before_in_eq_fetched _ rfl (fun _ => rfl) (fun _ _ _ => rfl)
      (fun t => by (first | rw [h0] | rw [h1] | rw [h2]); unfold Dat.blockOf iblk0; rw [hA]; try rfl) t d)
      (by unfold Dat.fetched Dat.blockOf iblk0; rw [hA]; try rfl)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (iblk0 V c 0 t) (iblk0 V c 1 t) (iblk0 V c 2 t)
    | ⟨4, _⟩ => out0_4 (iblk0 V c 0) (iblk0 V c 1) (iblk0 V c 2) t.val t.isLt
    | ⟨5, _⟩ => out0_5 (iblk0 V c 0) (iblk0 V c 1) (iblk0 V c 2) t.val t.isLt
  Φ _ := Pipeline.ΦA spec0 c
  q _ := fullShare
  owed _ := 0

theorem A_eq0 (c : Dev nD) (w : Fin cfg0.W) : (dat0 V c).A w = V c (Pipeline.arrRef spec0 w) := rfl
theorem Phi_eq0 (c : Dev nD) (j) : (dat0 V c).Φ j = Pipeline.ΦA spec0 c := rfl
theorem q_eq0 (c : Dev nD) (w : Fin cfg0.W) : (dat0 V c).q w = fullShare := rfl
theorem owed_eq0 (c : Dev nD) (j) : (dat0 V c).owed j = 0 := rfl
theorem recorded_eq0 (c : Dev nD) (j) : (dat0 V c).recorded j = Set.univ := rfl

theorem before0_B (c : Dev nD) (t : Fin cfg0.N) (hz : ¬t.val % 10 = 0) :
    (∀ d, (dat0 V c).before 4 t d = acc0_4 (iblk0 V c 0) (iblk0 V c 1) (iblk0 V c 2) t)
      ∧ ∀ d, (dat0 V c).before 5 t d = acc0_5 (iblk0 V c 0) (iblk0 V c 1) (iblk0 V c 2) t := by
  have hN : t.val < 10 := lt_of_lt_of_eq t.isLt (show cfg0.N = 10 from N_0)
  refine ⟨fun d => ?_, fun d => ?_⟩ <;>
    refine (Dat.before_out_kept _ _ rfl t (by omega) (Bool.eq_false_iff.mpr fun h => ?_) (fun _ => rfl) (fun _ _ => rfl) d).trans
      (acc0_succ _ _ t (by omega)).symm
  · have := (flush0_4 _).mp h; dsimp only at this; omega
  · have := (flush0_5 _).mp h; dsimp only at this; omega

theorem body_obligation0 (c : Dev nD) : BodyObligation (dat0 (F := F) V c) (defs₀ (F := F)) Variants.none () Set.univ := fun t => by
  rw [bigSep_W0, bigSep_W0]
  have hb := before0_of V (dat0 V c) (A_eq0 V c) (fun _ => rfl) (fun _ => rfl) (fun _ => rfl) t
  show _ ⊢ wp _ _ _ (bodyAt0 t) _
  unfold bodyAt0
  exact sound_point0 (iblk0 V c 0) (iblk0 V c 1) (iblk0 V c 2) c t _ _ _ _ _ _ _ _ _ _ _ _
    ((dat0 V c).before 0 t) ((dat0 V c).before 1 t) ((dat0 V c).before 2 t) ((dat0 V c).before 3 t) ((dat0 V c).before 4 t) ((dat0 V c).before 5 t)
    hb.1 hb.2.1 hb.2.2 (before0_B V c t) _ _

end Cert.KernelIdeal.Hand

end
-- ==== Proof.KI.R1.lean ====
import proofs.«105940_j32358283608240_1_alg».proof.Proof.Gen.KernelIdeal.Launch
import proofs.«105940_j32358283608240_1_alg».proof.Proof.Gen.KernelIdeal.Skeleton
import proofs.«105940_j32358283608240_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zoff1 : (![0, 0] : Fin 2 → ℕ) = fun _ => 0 := by
  funext a; fin_cases a <;> rfl

theorem readAtW1 {κ : Kind} {sp : Space} {S : Shape} {e : EltTy} (v : View sig κ sp S e) {off : Fin S.rank → ℕ} (h : off = fun _ => 0)
    (inb : ∀ a, off a + S.size a ≤ S.size a) (f : v.ty.Contents (Elt F)) :
    v.readAt (Elt F) (Rect.unit off S.size inb).toLoadRect f = v.read (Elt F) f :=
  View.ld_unit_zero h inb _

theorem readWritesW1 {κ : Kind} {sp : Space} {S : Shape} {e : EltTy} (v : View sig κ sp S e) {off : Fin S.rank → ℕ} (h : off = fun _ => 0)
    (inb : ∀ a, off a + S.size a ≤ S.size a) (f : v.ty.Contents (Elt F)) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb w L]

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)

/-- The running value of an accumulator: the payload `g` folded over the blocks `R 0 … R n` from `z`. -/
def sums1 {N : ℕ} (g : FVec F S10000x128 .f32 → Vec F S1x128 .f32 → Vec F S1x128 .f32) (z : Vec F S1x128 .f32) (R : Fin N → FVec F S10000x128 .f32) :
    (n : ℕ) → n < N → Vec F S1x128 .f32
  | 0, hn => g (R ⟨0, hn⟩) z
  | n + 1, hn => g (R ⟨n + 1, hn⟩) (sums1 g z R n (Nat.lt_of_succ_lt hn))

theorem sums1_step {N : ℕ} (g : FVec F S10000x128 .f32 → Vec F S1x128 .f32 → Vec F S1x128 .f32) (z : Vec F S1x128 .f32) (R : Fin N → FVec F S10000x128 .f32) (t : Fin N) :
    sums1 g z R t.val t.isLt = g (R t) (if t.val = 0 then z else sums1 g z R (t.val - 1) (Nat.lt_of_le_of_lt (Nat.sub_le _ _) t.isLt)) := by
  obtain ⟨n, hn⟩ := t
  cases n with
  | zero => rw [if_pos rfl] <;> rfl
  | succ n => rw [if_neg (Nat.succ_ne_zero n)] <;> rfl

section Run
variable (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S1x128 .f32) (harg9 : arg9.IsWhole) (arg10 : Memref sig .tc .vmem S1x128 .f32) (harg10 : arg10.IsWhole)

set_option maxHeartbeats 1000000 in
theorem kernelRun1 (E : Set ℕ) (x0 : Vec F S10000x128 .f32) (x1 x2 x3 x4 : Vec F S1x128 .f32) (x5 : Vec F S128x128 .f32) (x6 : Vec F S1x128 .f32) (xo8 xo9 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ owns (c : Thread nD τ) arg9 fullShare xo8 ∗ owns (c : Thread nD τ) arg10 fullShare xo9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k1_pay5 x0 x2 x1 x3 x4 x5 x6)
            ∗ owns (c : Thread nD τ) arg9 fullShare (k1_pay1 (k1_pay5 x0 x2 x1 x3 x4 x5 x6) (if cond1_0 i then k1_pay3 else xo8))
            ∗ owns (c : Thread nD τ) arg10 fullShare (k1_pay2 (k1_pay5 x0 x2 x1 x3 x4 x5 x6) (if cond1_0 i then k1_pay4 else xo9))) -∗ K ⟨⟩))
      ⊢ wp frame (wpE (defs₀ (F := F)) Variants.none c none) E (cc1__stage2_kernel i arg1 harg1 arg2 harg2 arg3 harg3 arg4 harg4 arg5 harg5 arg6 harg6 arg7 harg7 arg8 harg8 arg9 harg9 arg10 harg10) K := by
  by_cases hc0 : cond1_0 i <;> first | rw [if_pos hc0, if_pos hc0] | rw [if_neg hc0, if_neg hc0]
  all_goals
    simp only [cc1__stage2_kernel_eq_skeleton]; unfold cc1__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    subst hf0 hf1 hf2 hf3 hf4 hf5 hf6 hf8 hf9
    sl_exec (disch := first | exact hc0)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists _; isplitr
      swap; · iexact H7
      ipureintro
      rw [readWritesW1 _ zoff1]
      simp only [readAtW1 (S := S10000x128) _ zoff1, readAtW1 (S := S1x128) _ zoff1, readAtW1 (S := S128x128) _ zoff1, View.readCov_cons_toLoadRect]
    isplitl [H8]
    · iexists _; isplitr
      swap; · iexact H8
      ipureintro
      rw [readWritesW1 _ zoff1]
      sl_unfold_run_names
      simp only [readAtW1 (S := S10000x128) _ zoff1, readAtW1 (S := S1x128) _ zoff1, readAtW1 (S := S128x128) _ zoff1, View.readCov_cons_toLoadRect]
    iexists _; isplitr
    swap; · iexact H9
    ipureintro
    rw [readWritesW1 _ zoff1]
    sl_unfold_run_names
    simp only [readAtW1 (S := S10000x128) _ zoff1, readAtW1 (S := S1x128) _ zoff1, readAtW1 (S := S128x128) _ zoff1, View.readCov_cons_toLoadRect]

theorem body1 (P Q : sProp 𝕄) {x0 a7 : Vec F S10000x128 .f32} {x1 x2 x3 x4 x6 a8 a9 : Vec F S1x128 .f32} {x5 : Vec F S128x128 .f32}
    {b0 b7 : Vec F S10000x128 .f32 → Vec F S10000x128 .f32} {b1 b2 b3 b4 b6 b8 b9 : Vec F S1x128 .f32 → Vec F S1x128 .f32}
    {b5 : Vec F S128x128 .f32 → Vec F S128x128 .f32}
    (h0 : ∀ d, b0 d = x0) (h1 : ∀ d, b1 d = x1) (h2 : ∀ d, b2 d = x2) (h3 : ∀ d, b3 d = x3) (h4 : ∀ d, b4 d = x4) (h5 : ∀ d, b5 d = x5) (h6 : ∀ d, b6 d = x6)
    (h7 : a7 = k1_pay5 x0 x2 x1 x3 x4 x5 x6)
    (h8 : ∀ d, a8 = k1_pay1 a7 (if cond1_0 i then k1_pay3 else b8 d)) (h9 : ∀ d, a9 = k1_pay2 a7 (if cond1_0 i then k1_pay4 else b9 d)) :
    iprop(P ∗ Q ∗ (∃ d, owns (c : Thread nD τ) arg1 fullShare (b0 d)) ∗ (∃ d, owns (c : Thread nD τ) arg2 fullShare (b1 d)) ∗ (∃ d, owns (c : Thread nD τ) arg3 fullShare (b2 d)) ∗ (∃ d, owns (c : Thread nD τ) arg4 fullShare (b3 d)) ∗ (∃ d, owns (c : Thread nD τ) arg5 fullShare (b4 d)) ∗ (∃ d, owns (c : Thread nD τ) arg6 fullShare (b5 d)) ∗ (∃ d, owns (c : Thread nD τ) arg7 fullShare (b6 d)) ∗ (∃ d, owns (c : Thread nD τ) arg8 fullShare (b7 d)) ∗ (∃ d, owns (c : Thread nD τ) arg9 fullShare (b8 d)) ∗ (∃ d, owns (c : Thread nD τ) arg10 fullShare (b9 d)))
      ⊢ wp frame (wpE (defs₀ (F := F)) Variants.none c none) Set.univ (cc1__stage2_kernel i arg1 harg1 arg2 harg2 arg3 harg3 arg4 harg4 arg5 harg5 arg6 harg6 arg7 harg7 arg8 harg8 arg9 harg9 arg10 harg10) (fun _ =>
        iprop(P ∗ Q ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
          ∗ owns (c : Thread nD τ) arg8 fullShare a7 ∗ owns (c : Thread nD τ) arg9 fullShare a8 ∗ owns (c : Thread nD τ) arg10 fullShare a9)) := by
  subst h7
  simp only [h0, h1, h2, h3, h4, h5, h6]
  iintro ⟨HP, HQ, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [h8 d8, h9 d9]
  iapply (kernelRun1 c i arg1 harg1 arg2 harg2 arg3 harg3 arg4 harg4 arg5 harg5 arg6 harg6 arg7 harg7 arg8 harg8 arg9 harg9 arg10 harg10 Set.univ x0 x1 x2 x3 x4 x5 x6 (b8 d8) (b9 d9) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  iintro ⟨H0, H1, H2, H3, H4, H5, H6, H7, H8, H9⟩
  isplitl [HP]; · iexact HP
  isplitl [HQ]; · iexact HQ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Run

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def res1 (c : Dev nD) (t : Fin cfg1.N) : FVec F S10000x128 .f32 :=
  k1_pay5 (iblk1 V c 0 t) (iblk1 V c 2 t) (iblk1 V c 1 t) (iblk1 V c 3 t) (iblk1 V c 4 t) (iblk1 V c 5 t) (iblk1 V c 6 t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => res1 V c t
    | ⟨8, _⟩ => sums1 k1_pay1 k1_pay3 (res1 V c) t.val t.isLt
    | ⟨9, _⟩ => sums1 k1_pay2 k1_pay4 (res1 V c) t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]
theorem Phi_eq1 (c : Dev nD) (j) : (dat1 V c).Φ j = Pipeline.ΦA spec1 c := by dsimp only [dat1]
theorem q_eq1 (c : Dev nD) (w : Fin cfg1.W) : (dat1 V c).q w = fullShare := by dsimp only [dat1]
theorem owed_eq1 (c : Dev nD) (j) : (dat1 V c).owed j = 0 := by dsimp only [dat1]
theorem recorded_eq1 (c : Dev nD) (j) : (dat1 V c).recorded j = Set.univ := by dsimp only [dat1]

theorem before1_in (c : Dev nD) (t : Fin cfg1.N) : ∀ w : Fin cfg1.W, w.val < 7 → ∀ d,
    (dat1 V c).before w t d = (dat1 V c).after w t := by
  intro w
  fin_cases w <;> first
    | exact fun hw => absurd hw (by decide)
    | exact fun _ d => ((dat1 V c).before_in_eq_fetched _ (by rfl) (fun _ => by rfl) (fun _ _ _ => by rfl)
        (fun t => by unfold Dat.blockOf; dsimp only [dat1, iblk1]; try rfl) t d).trans
        (by unfold Dat.fetched Dat.blockOf; dsimp only [dat1, iblk1]; try rfl)

theorem after1_7 (c : Dev nD) (t : Fin cfg1.N) : (dat1 V c).after 7 t =
    k1_pay5 ((dat1 V c).after 0 t) ((dat1 V c).after 2 t) ((dat1 V c).after 1 t) ((dat1 V c).after 3 t) ((dat1 V c).after 4 t) ((dat1 V c).after 5 t) ((dat1 V c).after 6 t) := by
  dsimp only [dat1, res1]

/-- An accumulator adds the block's sums to zero at the first point and to what the point before left at a later one. -/
theorem after1_8 (c : Dev nD) (t : Fin cfg1.N) (d) : (dat1 V c).after 8 t =
    k1_pay1 ((dat1 V c).after 7 t) (if cond1_0 (grid1.coords t) then k1_pay3 else (dat1 V c).before 8 t d) := by
  have hN : t.val < 10 := lt_of_lt_of_eq t.isLt (show cfg1.N = 10 from N_1)
  by_cases h0 : t.val % 10 = 0
  · rw [if_pos ((hcond1_0 t).mpr h0)]; dsimp only [dat1]
    rw [sums1_step _ _ _ t, if_pos (show t.val = 0 by omega)]
  · rw [if_neg fun h => h0 ((hcond1_0 t).mp h), (dat1 V c).before_out_kept 8 rfl t (by omega)
      (Bool.eq_false_iff.mpr fun h => by have := (flush1_8 _).mp h; dsimp only at this; omega) (fun _ => rfl) (fun _ _ => rfl) d]
    dsimp only [dat1]
    rw [sums1_step _ _ _ t, if_neg (show ¬t.val = 0 by omega)]
theorem after1_9 (c : Dev nD) (t : Fin cfg1.N) (d) : (dat1 V c).after 9 t =
    k1_pay2 ((dat1 V c).after 7 t) (if cond1_0 (grid1.coords t) then k1_pay4 else (dat1 V c).before 9 t d) := by
  have hN : t.val < 10 := lt_of_lt_of_eq t.isLt (show cfg1.N = 10 from N_1)
  by_cases h0 : t.val % 10 = 0
  · rw [if_pos ((hcond1_0 t).mpr h0)]; dsimp only [dat1]
    rw [sums1_step _ _ _ t, if_pos (show t.val = 0 by omega)]
  · rw [if_neg fun h => h0 ((hcond1_0 t).mp h), (dat1 V c).before_out_kept 9 rfl t (by omega)
      (Bool.eq_false_iff.mpr fun h => by have := (flush1_9 _).mp h; dsimp only at this; omega) (fun _ => rfl) (fun _ _ => rfl) d]
    dsimp only [dat1]
    rw [sums1_step _ _ _ t, if_neg (show ¬t.val = 0 by omega)]

theorem body_obligation1 (c : Dev nD) : BodyObligation (dat1 (F := F) V c) (defs₀ (F := F)) Variants.none () Set.univ := fun t => by
  rw [bigSep_W1, bigSep_W1]
  show _ ⊢ wp frame _ _ (bodyAt1 (F := F) t) _
  unfold bodyAt1
  exact body1 c (grid1.coords t) _ _ _ _ _ _ _ _ _ _ _ _ _ _ _ _ _ _ _ _ _ _
    (before1_in V c t 0 (by decide)) (before1_in V c t 1 (by decide)) (before1_in V c t 2 (by decide)) (before1_in V c t 3 (by decide))
    (before1_in V c t 4 (by decide)) (before1_in V c t 5 (by decide)) (before1_in V c t 6 (by decide)) (after1_7 V c t)
    (after1_8 V c t) (after1_9 V c t)

end Cert.KernelIdeal.Hand

end
-- ==== Proof.KI.R2.lean ====
import proofs.«105940_j32358283608240_1_alg».proof.Proof.Gen.KernelIdeal.Launch
import proofs.«105940_j32358283608240_1_alg».proof.Proof.Gen.KernelIdeal.Skeleton
import proofs.«105940_j32358283608240_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev r2_0 : Rect S10000x128 := Rect.unit (s := S10000x128) ![0, 0] S10000x128.size inb_S10000x128_S10000x128_0_0
abbrev r2_1 : Rect S1x128 := Rect.unit (s := S1x128) ![0, 0] S1x128.size inb_S1x128_S1x128_0_0

theorem zeros2 : (![0, 0] : Fin 2 → Nat) = fun _ => 0 := funext fun a => by fin_cases a <;> rfl

def out2_5 (x0 : Vec F S10000x128 .f32) (x1 x2 x3 x4 : Vec F S1x128 .f32) : Vec F S10000x128 .f32 :=
  View.canon [⟨r2_0, k2_pay1 (View.ld x0 r2_0) (View.ld x2 r2_1) (View.ld x1 r2_1) (View.ld x3 r2_1) (View.ld x4 r2_1)⟩]

theorem cover2_5 (p0 : (r2_0).shape.Idx → Elt F .f32) (y : S10000x128.Idx) :
    ∃ pc ∈ ([⟨r2_0, p0⟩] : List (View.Piece (Elt F) S10000x128 .f32)), y ∈ pc.1.set :=
  ⟨_, List.mem_singleton_self _, View.mem_set_unit_zero (S := S10000x128) zeros2 inb_S10000x128_S10000x128_0_0 y⟩

theorem out2_5_eq (x0 : Vec F S10000x128 .f32) (x1 x2 x3 x4 : Vec F S1x128 .f32) :
    out2_5 x0 x1 x2 x3 x4 = k2_pay1 x0 x2 x1 x3 x4 := by
  unfold out2_5
  rw [View.canon_unit_zero (S := S10000x128) zeros2 inb_S10000x128_S10000x128_0_0,
    View.ld_unit_zero (S := S10000x128) zeros2 inb_S10000x128_S10000x128_0_0,
    View.ld_unit_zero (S := S1x128) zeros2 inb_S1x128_S1x128_0_0 x1,
    View.ld_unit_zero (S := S1x128) zeros2 inb_S1x128_S1x128_0_0 x2,
    View.ld_unit_zero (S := S1x128) zeros2 inb_S1x128_S1x128_0_0 x3,
    View.ld_unit_zero (S := S1x128) zeros2 inb_S1x128_S1x128_0_0 x4]

set_option maxHeartbeats 1000000 in
theorem sound_kernel2 (c : Dev nD) (E : Set ℕ) (i : grid2.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S10000x128 .f32) (harg6 : arg6.IsWhole)
    (x0 : Vec F S10000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__stage3_kernel i arg1 harg1 arg2 harg2 arg3 harg3 arg4 harg4 arg5 harg5 arg6 harg6) K := by
  simp only [cc2__stage3_kernel_eq_skeleton]; unfold cc2__stage3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem cc2_eq : @cc2__stage3_kernel F _ = @cc2__stage3_kernel F _ := rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem Phi_eq2 (c : Dev nD) (j) : (dat2 V c).Φ j = Pipeline.ΦA spec2 c := by
  dsimp only [dat2]
theorem q_eq2 (c : Dev nD) (w : Fin cfg2.W) : (dat2 V c).q w = fullShare := by
  dsimp only [dat2]
theorem owed_eq2 (c : Dev nD) (j) : (dat2 V c).owed j = 0 := by
  dsimp only [dat2]
theorem recorded_eq2 (c : Dev nD) (j) : (dat2 V c).recorded j = Set.univ := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t =
    out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
import proofs.«105940_j32358283608240_1_alg».proof.Proof.KI.R0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_of {c : Dev nD} (dat : Dat τ (Elt F) Unit ℕ (UR sig nD τ) ℕ cfg3 c) (hA : ∀ w, dat.A w = V c (Pipeline.arrRef spec3 w))
    (h0 : ∀ t, dat.after 0 t = iblk3 V c 0 t) (h1 : ∀ t, dat.after 1 t = iblk3 V c 1 t) (h2 : ∀ t, dat.after 2 t = iblk3 V c 2 t)
    (t : Fin cfg3.N) :
    (∀ d, dat.before 0 t d = iblk3 V c 0 t) ∧ (∀ d, dat.before 1 t d = iblk3 V c 1 t) ∧ ∀ d, dat.before 2 t d = iblk3 V c 2 t := by
  refine ⟨fun d => ?_, fun d => ?_, fun d => ?_⟩ <;>
    exact Eq.trans (dat.before_in_eq_fetched _ rfl (fun _ => rfl) (fun _ _ _ => rfl)
      (fun t => by (first | rw [h0] | rw [h1] | rw [h2]); unfold Dat.blockOf iblk3; rw [hA]; try rfl) t d)
      (by unfold Dat.fetched Dat.blockOf iblk3; rw [hA]; try rfl)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k0_pay3 (iblk3 V c 0 t) (iblk3 V c 1 t) (iblk3 V c 2 t)
    | ⟨4, _⟩ => out0_4 (iblk3 V c 0) (iblk3 V c 1) (iblk3 V c 2) t.val t.isLt
    | ⟨5, _⟩ => out0_5 (iblk3 V c 0) (iblk3 V c 1) (iblk3 V c 2) t.val t.isLt
  Φ _ := Pipeline.ΦA spec3 c
  q _ := fullShare
  owed _ := 0

theorem A_eq3 (c : Dev nD) (w : Fin cfg3.W) : (dat3 V c).A w = V c (Pipeline.arrRef spec3 w) := rfl
theorem Phi_eq3 (c : Dev nD) (j) : (dat3 V c).Φ j = Pipeline.ΦA spec3 c := rfl
theorem q_eq3 (c : Dev nD) (w : Fin cfg3.W) : (dat3 V c).q w = fullShare := rfl
theorem owed_eq3 (c : Dev nD) (j) : (dat3 V c).owed j = 0 := rfl
theorem recorded_eq3 (c : Dev nD) (j) : (dat3 V c).recorded j = Set.univ := rfl

theorem before3_B (c : Dev nD) (t : Fin cfg3.N) (hz : ¬t.val % 10 = 0) :
    (∀ d, (dat3 V c).before 4 t d = acc0_4 (iblk3 V c 0) (iblk3 V c 1) (iblk3 V c 2) t)
      ∧ ∀ d, (dat3 V c).before 5 t d = acc0_5 (iblk3 V c 0) (iblk3 V c 1) (iblk3 V c 2) t := by
  have hN : t.val < 10 := lt_of_lt_of_eq t.isLt (show cfg3.N = 10 from N_3)
  refine ⟨fun d => ?_, fun d => ?_⟩ <;>
    refine (Dat.before_out_kept _ _ rfl t (by omega) (Bool.eq_false_iff.mpr fun h => ?_) (fun _ => rfl) (fun _ _ => rfl) d).trans
      (acc0_succ _ _ t (by omega)).symm
  · have := (flush3_4 _).mp h; dsimp only at this; omega
  · have := (flush3_5 _).mp h; dsimp only at this; omega

theorem cc3_eq : @cc3__stage1_kernel F _ = @cc0__stage1_kernel F _ := rfl

theorem body_obligation3 (c : Dev nD) : BodyObligation (dat3 (F := F) V c) (defs₀ (F := F)) Variants.none () Set.univ := fun t => by
  rw [bigSep_W3, bigSep_W3]
  have hb := before3_of V (dat3 V c) (A_eq3 V c) (fun _ => rfl) (fun _ => rfl) (fun _ => rfl) t
  show _ ⊢ wp _ _ _ (bodyAt3 t) _
  unfold bodyAt3
  rw [cc3_eq]
  exact sound_point0 (iblk3 V c 0) (iblk3 V c 1) (iblk3 V c 2) c t _ _ _ _ _ _ _ _ _ _ _ _
    ((dat3 V c).before 0 t) ((dat3 V c).before 1 t) ((dat3 V c).before 2 t) ((dat3 V c).before 3 t) ((dat3 V c).before 4 t) ((dat3 V c).before 5 t)
    hb.1 hb.2.1 hb.2.2 (before3_B V c t) _ _

end Cert.KernelIdeal.Hand

end
-- ==== Proof.KI.R4.lean ====
import proofs.«105940_j32358283608240_1_alg».proof.Proof.KI.R1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Regions 1 and 4 have the same body. -/
theorem cc4_eq : @cc4__stage2_kernel F _ = @cc1__stage2_kernel F _ := rfl

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def res4 (c : Dev nD) (t : Fin cfg4.N) : FVec F S10000x128 .f32 :=
  k1_pay5 (iblk4 V c 0 t) (iblk4 V c 2 t) (iblk4 V c 1 t) (iblk4 V c 3 t) (iblk4 V c 4 t) (iblk4 V c 5 t) (iblk4 V c 6 t)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => res4 V c t
    | ⟨8, _⟩ => sums1 k1_pay1 k1_pay3 (res4 V c) t.val t.isLt
    | ⟨9, _⟩ => sums1 k1_pay2 k1_pay4 (res4 V c) t.val t.isLt
  Φ _ := Pipeline.ΦA spec4 c
  q _ := fullShare
  owed _ := 0

theorem A_eq4 (c : Dev nD) (w : Fin cfg4.W) : (dat4 V c).A w = V c (Pipeline.arrRef spec4 w) := by
  dsimp only [dat4]
theorem Phi_eq4 (c : Dev nD) (j) : (dat4 V c).Φ j = Pipeline.ΦA spec4 c := by dsimp only [dat4]
theorem q_eq4 (c : Dev nD) (w : Fin cfg4.W) : (dat4 V c).q w = fullShare := by dsimp only [dat4]
theorem owed_eq4 (c : Dev nD) (j) : (dat4 V c).owed j = 0 := by dsimp only [dat4]
theorem recorded_eq4 (c : Dev nD) (j) : (dat4 V c).recorded j = Set.univ := by dsimp only [dat4]

theorem before4_in (c : Dev nD) (t : Fin cfg4.N) : ∀ w : Fin cfg4.W, w.val < 7 → ∀ d,
    (dat4 V c).before w t d = (dat4 V c).after w t := by
  intro w
  fin_cases w <;> first
    | exact fun hw => absurd hw (by decide)
    | exact fun _ d => ((dat4 V c).before_in_eq_fetched _ (by rfl) (fun _ => by rfl) (fun _ _ _ => by rfl)
        (fun t => by unfold Dat.blockOf; dsimp only [dat4, iblk4]; try rfl) t d).trans
        (by unfold Dat.fetched Dat.blockOf; dsimp only [dat4, iblk4]; try rfl)

theorem after4_7 (c : Dev nD) (t : Fin cfg4.N) : (dat4 V c).after 7 t =
    k1_pay5 ((dat4 V c).after 0 t) ((dat4 V c).after 2 t) ((dat4 V c).after 1 t) ((dat4 V c).after 3 t) ((dat4 V c).after 4 t) ((dat4 V c).after 5 t) ((dat4 V c).after 6 t) := by
  dsimp only [dat4, res4]

/-- An accumulator adds the block's sums to zero at the first point and to what the point before left at a later one. -/
theorem after4_8 (c : Dev nD) (t : Fin cfg4.N) (d) : (dat4 V c).after 8 t =
    k1_pay1 ((dat4 V c).after 7 t) (if cond1_0 (grid4.coords t) then k1_pay3 else (dat4 V c).before 8 t d) := by
  have hN : t.val < 10 := lt_of_lt_of_eq t.isLt (show cfg4.N = 10 from N_4)
  by_cases h0 : t.val % 10 = 0
  · rw [if_pos ((hcond1_0 t).mpr h0)]; dsimp only [dat4]
    rw [sums1_step _ _ _ t, if_pos (show t.val = 0 by omega)]
  · rw [if_neg fun h => h0 ((hcond1_0 t).mp h), (dat4 V c).before_out_kept 8 rfl t (by omega)
      (Bool.eq_false_iff.mpr fun h => by have := (flush4_8 _).mp h; dsimp only at this; omega) (fun _ => rfl) (fun _ _ => rfl) d]
    dsimp only [dat4]
    rw [sums1_step _ _ _ t, if_neg (show ¬t.val = 0 by omega)]
theorem after4_9 (c : Dev nD) (t : Fin cfg4.N) (d) : (dat4 V c).after 9 t =
    k1_pay2 ((dat4 V c).after 7 t) (if cond1_0 (grid4.coords t) then k1_pay4 else (dat4 V c).before 9 t d) := by
  have hN : t.val < 10 := lt_of_lt_of_eq t.isLt (show cfg4.N = 10 from N_4)
  by_cases h0 : t.val % 10 = 0
  · rw [if_pos ((hcond1_0 t).mpr h0)]; dsimp only [dat4]
    rw [sums1_step _ _ _ t, if_pos (show t.val = 0 by omega)]
  · rw [if_neg fun h => h0 ((hcond1_0 t).mp h), (dat4 V c).before_out_kept 9 rfl t (by omega)
      (Bool.eq_false_iff.mpr fun h => by have := (flush4_9 _).mp h; dsimp only at this; omega) (fun _ => rfl) (fun _ _ => rfl) d]
    dsimp only [dat4]
    rw [sums1_step _ _ _ t, if_neg (show ¬t.val = 0 by omega)]

theorem body_obligation4 (c : Dev nD) : BodyObligation (dat4 (F := F) V c) (defs₀ (F := F)) Variants.none () Set.univ := fun t => by
  rw [bigSep_W4, bigSep_W4]
  show _ ⊢ wp frame _ _ (bodyAt4 (F := F) t) _
  unfold bodyAt4
  rw [cc4_eq]
  exact body1 c (grid4.coords t) _ _ _ _ _ _ _ _ _ _ _ _ _ _ _ _ _ _ _ _ _ _
    (before4_in V c t 0 (by decide)) (before4_in V c t 1 (by decide)) (before4_in V c t 2 (by decide)) (before4_in V c t 3 (by decide))
    (before4_in V c t 4 (by decide)) (before4_in V c t 5 (by decide)) (before4_in V c t 6 (by decide)) (after4_7 V c t)
    (after4_8 V c t) (after4_9 V c t)

end Cert.KernelIdeal.Hand

end
-- ==== Proof.KI.R5.lean ====
import proofs.«105940_j32358283608240_1_alg».proof.Proof.KI.R2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem cc5_eq : @cc5__stage3_kernel F _ = @cc2__stage3_kernel F _ := rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out2_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem Phi_eq5 (c : Dev nD) (j) : (dat5 V c).Φ j = Pipeline.ΦA spec5 c := by
  dsimp only [dat5]
theorem q_eq5 (c : Dev nD) (w : Fin cfg5.W) : (dat5 V c).q w = fullShare := by
  dsimp only [dat5]
theorem owed_eq5 (c : Dev nD) (j) : (dat5 V c).owed j = 0 := by
  dsimp only [dat5]
theorem recorded_eq5 (c : Dev nD) (j) : (dat5 V c).recorded j = Set.univ := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t =
    out2_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d
theorem before5_3 (c : Dev nD) (t : Fin cfg5.N) (d) : (dat5 V c).before 3 t d = iblk5 V c 3 t :=
  (dat5 V c).before_in_eq_fetched 3 rfl (fun _ => rfl) (fun _ _ _ => rfl) (fun _ => rfl) t d
theorem before5_4 (c : Dev nD) (t : Fin cfg5.N) (d) : (dat5 V c).before 4 t d = iblk5 V c 4 t :=
  (dat5 V c).before_in_eq_fetched 4 rfl (fun _ => rfl) (fun _ _ _ => rfl) (fun _ => rfl) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  rw [cc5_eq]
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.R6.lean ====
import proofs.«105940_j32358283608240_1_alg».proof.Proof.KI.R0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_of {c : Dev nD} (dat : Dat τ (Elt F) Unit ℕ (UR sig nD τ) ℕ cfg6 c) (hA : ∀ w, dat.A w = V c (Pipeline.arrRef spec6 w))
    (h0 : ∀ t, dat.after 0 t = iblk6 V c 0 t) (h1 : ∀ t, dat.after 1 t = iblk6 V c 1 t) (h2 : ∀ t, dat.after 2 t = iblk6 V c 2 t)
    (t : Fin cfg6.N) :
    (∀ d, dat.before 0 t d = iblk6 V c 0 t) ∧ (∀ d, dat.before 1 t d = iblk6 V c 1 t) ∧ ∀ d, dat.before 2 t d = iblk6 V c 2 t := by
  refine ⟨fun d => ?_, fun d => ?_, fun d => ?_⟩ <;>
    exact Eq.trans (dat.before_in_eq_fetched _ rfl (fun _ => rfl) (fun _ _ _ => rfl)
      (fun t => by (first | rw [h0] | rw [h1] | rw [h2]); unfold Dat.blockOf iblk6; rw [hA]; try rfl) t d)
      (by unfold Dat.fetched Dat.blockOf iblk6; rw [hA]; try rfl)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => k0_pay3 (iblk6 V c 0 t) (iblk6 V c 1 t) (iblk6 V c 2 t)
    | ⟨4, _⟩ => out0_4 (iblk6 V c 0) (iblk6 V c 1) (iblk6 V c 2) t.val t.isLt
    | ⟨5, _⟩ => out0_5 (iblk6 V c 0) (iblk6 V c 1) (iblk6 V c 2) t.val t.isLt
  Φ _ := Pipeline.ΦA spec6 c
  q _ := fullShare
  owed _ := 0

theorem A_eq6 (c : Dev nD) (w : Fin cfg6.W) : (dat6 V c).A w = V c (Pipeline.arrRef spec6 w) := rfl
theorem Phi_eq6 (c : Dev nD) (j) : (dat6 V c).Φ j = Pipeline.ΦA spec6 c := rfl
theorem q_eq6 (c : Dev nD) (w : Fin cfg6.W) : (dat6 V c).q w = fullShare := rfl
theorem owed_eq6 (c : Dev nD) (j) : (dat6 V c).owed j = 0 := rfl
theorem recorded_eq6 (c : Dev nD) (j) : (dat6 V c).recorded j = Set.univ := rfl

theorem before6_B (c : Dev nD) (t : Fin cfg6.N) (hz : ¬t.val % 10 = 0) :
    (∀ d, (dat6 V c).before 4 t d = acc0_4 (iblk6 V c 0) (iblk6 V c 1) (iblk6 V c 2) t)
      ∧ ∀ d, (dat6 V c).before 5 t d = acc0_5 (iblk6 V c 0) (iblk6 V c 1) (iblk6 V c 2) t := by
  have hN : t.val < 10 := lt_of_lt_of_eq t.isLt (show cfg6.N = 10 from N_6)
  refine ⟨fun d => ?_, fun d => ?_⟩ <;>
    refine (Dat.before_out_kept _ _ rfl t (by omega) (Bool.eq_false_iff.mpr fun h => ?_) (fun _ => rfl) (fun _ _ => rfl) d).trans
      (acc0_succ _ _ t (by omega)).symm
  · have := (flush6_4 _).mp h; dsimp only at this; omega
  · have := (flush6_5 _).mp h; dsimp only at this; omega

theorem cc6_eq : @cc6__stage1_kernel F _ = @cc0__stage1_kernel F _ := rfl

theorem body_obligation6 (c : Dev nD) : BodyObligation (dat6 (F := F) V c) (defs₀ (F := F)) Variants.none () Set.univ := fun t => by
  rw [bigSep_W6, bigSep_W6]
  have hb := before6_of V (dat6 V c) (A_eq6 V c) (fun _ => rfl) (fun _ => rfl) (fun _ => rfl) t
  show _ ⊢ wp _ _ _ (bodyAt6 t) _
  unfold bodyAt6
  rw [cc6_eq]
  exact sound_point0 (iblk6 V c 0) (iblk6 V c 1) (iblk6 V c 2) c t _ _ _ _ _ _ _ _ _ _ _ _
    ((dat6 V c).before 0 t) ((dat6 V c).before 1 t) ((dat6 V c).before 2 t) ((dat6 V c).before 3 t) ((dat6 V c).before 4 t) ((dat6 V c).before 5 t)
    hb.1 hb.2.1 hb.2.2 (before6_B V c t) _ _

end Cert.KernelIdeal.Hand

end
-- ==== Proof.KI.R7.lean ====
import proofs.«105940_j32358283608240_1_alg».proof.Proof.KI.R1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Regions 1 and 7 have the same body. -/
theorem cc7_eq : @cc7__stage2_kernel F _ = @cc1__stage2_kernel F _ := rfl

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def res7 (c : Dev nD) (t : Fin cfg7.N) : FVec F S10000x128 .f32 :=
  k1_pay5 (iblk7 V c 0 t) (iblk7 V c 2 t) (iblk7 V c 1 t) (iblk7 V c 3 t) (iblk7 V c 4 t) (iblk7 V c 5 t) (iblk7 V c 6 t)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => res7 V c t
    | ⟨8, _⟩ => sums1 k1_pay1 k1_pay3 (res7 V c) t.val t.isLt
    | ⟨9, _⟩ => sums1 k1_pay2 k1_pay4 (res7 V c) t.val t.isLt
  Φ _ := Pipeline.ΦA spec7 c
  q _ := fullShare
  owed _ := 0

theorem A_eq7 (c : Dev nD) (w : Fin cfg7.W) : (dat7 V c).A w = V c (Pipeline.arrRef spec7 w) := by
  dsimp only [dat7]
theorem Phi_eq7 (c : Dev nD) (j) : (dat7 V c).Φ j = Pipeline.ΦA spec7 c := by dsimp only [dat7]
theorem q_eq7 (c : Dev nD) (w : Fin cfg7.W) : (dat7 V c).q w = fullShare := by dsimp only [dat7]
theorem owed_eq7 (c : Dev nD) (j) : (dat7 V c).owed j = 0 := by dsimp only [dat7]
theorem recorded_eq7 (c : Dev nD) (j) : (dat7 V c).recorded j = Set.univ := by dsimp only [dat7]

theorem before7_in (c : Dev nD) (t : Fin cfg7.N) : ∀ w : Fin cfg7.W, w.val < 7 → ∀ d,
    (dat7 V c).before w t d = (dat7 V c).after w t := by
  intro w
  fin_cases w <;> first
    | exact fun hw => absurd hw (by decide)
    | exact fun _ d => ((dat7 V c).before_in_eq_fetched _ (by rfl) (fun _ => by rfl) (fun _ _ _ => by rfl)
        (fun t => by unfold Dat.blockOf; dsimp only [dat7, iblk7]; try rfl) t d).trans
        (by unfold Dat.fetched Dat.blockOf; dsimp only [dat7, iblk7]; try rfl)

theorem after7_7 (c : Dev nD) (t : Fin cfg7.N) : (dat7 V c).after 7 t =
    k1_pay5 ((dat7 V c).after 0 t) ((dat7 V c).after 2 t) ((dat7 V c).after 1 t) ((dat7 V c).after 3 t) ((dat7 V c).after 4 t) ((dat7 V c).after 5 t) ((dat7 V c).after 6 t) := by
  dsimp only [dat7, res7]

/-- An accumulator adds the block's sums to zero at the first point and to what the point before left at a later one. -/
theorem after7_8 (c : Dev nD) (t : Fin cfg7.N) (d) : (dat7 V c).after 8 t =
    k1_pay1 ((dat7 V c).after 7 t) (if cond1_0 (grid7.coords t) then k1_pay3 else (dat7 V c).before 8 t d) := by
  have hN : t.val < 10 := lt_of_lt_of_eq t.isLt (show cfg7.N = 10 from N_7)
  by_cases h0 : t.val % 10 = 0
  · rw [if_pos ((hcond1_0 t).mpr h0)]; dsimp only [dat7]
    rw [sums1_step _ _ _ t, if_pos (show t.val = 0 by omega)]
  · rw [if_neg fun h => h0 ((hcond1_0 t).mp h), (dat7 V c).before_out_kept 8 rfl t (by omega)
      (Bool.eq_false_iff.mpr fun h => by have := (flush7_8 _).mp h; dsimp only at this; omega) (fun _ => rfl) (fun _ _ => rfl) d]
    dsimp only [dat7]
    rw [sums1_step _ _ _ t, if_neg (show ¬t.val = 0 by omega)]
theorem after7_9 (c : Dev nD) (t : Fin cfg7.N) (d) : (dat7 V c).after 9 t =
    k1_pay2 ((dat7 V c).after 7 t) (if cond1_0 (grid7.coords t) then k1_pay4 else (dat7 V c).before 9 t d) := by
  have hN : t.val < 10 := lt_of_lt_of_eq t.isLt (show cfg7.N = 10 from N_7)
  by_cases h0 : t.val % 10 = 0
  · rw [if_pos ((hcond1_0 t).mpr h0)]; dsimp only [dat7]
    rw [sums1_step _ _ _ t, if_pos (show t.val = 0 by omega)]
  · rw [if_neg fun h => h0 ((hcond1_0 t).mp h), (dat7 V c).before_out_kept 9 rfl t (by omega)
      (Bool.eq_false_iff.mpr fun h => by have := (flush7_9 _).mp h; dsimp only at this; omega) (fun _ => rfl) (fun _ _ => rfl) d]
    dsimp only [dat7]
    rw [sums1_step _ _ _ t, if_neg (show ¬t.val = 0 by omega)]

theorem body_obligation7 (c : Dev nD) : BodyObligation (dat7 (F := F) V c) (defs₀ (F := F)) Variants.none () Set.univ := fun t => by
  rw [bigSep_W7, bigSep_W7]
  show _ ⊢ wp frame _ _ (bodyAt7 (F := F) t) _
  unfold bodyAt7
  rw [cc7_eq]
  exact body1 c (grid7.coords t) _ _ _ _ _ _ _ _ _ _ _ _ _ _ _ _ _ _ _ _ _ _
    (before7_in V c t 0 (by decide)) (before7_in V c t 1 (by decide)) (before7_in V c t 2 (by decide)) (before7_in V c t 3 (by decide))
    (before7_in V c t 4 (by decide)) (before7_in V c t 5 (by decide)) (before7_in V c t 6 (by decide)) (after7_7 V c t)
    (after7_8 V c t) (after7_9 V c t)

end Cert.KernelIdeal.Hand

end
-- ==== Proof.KI.R8.lean ====
import proofs.«105940_j32358283608240_1_alg».proof.Proof.KI.R2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem cc8_eq : @cc8__stage3_kernel F _ = @cc2__stage3_kernel F _ := rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out2_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]
theorem Phi_eq8 (c : Dev nD) (j) : (dat8 V c).Φ j = Pipeline.ΦA spec8 c := by
  dsimp only [dat8]
theorem q_eq8 (c : Dev nD) (w : Fin cfg8.W) : (dat8 V c).q w = fullShare := by
  dsimp only [dat8]
theorem owed_eq8 (c : Dev nD) (j) : (dat8 V c).owed j = 0 := by
  dsimp only [dat8]
theorem recorded_eq8 (c : Dev nD) (j) : (dat8 V c).recorded j = Set.univ := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t =
    out2_5 (iblk8 V c 0 t) (iblk8 V c 1 t) (iblk8 V c 2 t) (iblk8 V c 3 t) (iblk8 V c 4 t) := by dsimp only [dat8]

theorem before8_0 (c : Dev nD) (t : Fin cfg8.N) (d) : (dat8 V c).before 0 t d = iblk8 V c 0 t :=
  (dat8 V c).before_in_eq_fetched 0 rfl (fun _ => rfl) (fun _ _ _ => rfl) (fun _ => rfl) t d
theorem before8_1 (c : Dev nD) (t : Fin cfg8.N) (d) : (dat8 V c).before 1 t d = iblk8 V c 1 t :=
  (dat8 V c).before_in_eq_fetched 1 rfl (fun _ => rfl) (fun _ _ _ => rfl) (fun _ => rfl) t d
theorem before8_2 (c : Dev nD) (t : Fin cfg8.N) (d) : (dat8 V c).before 2 t d = iblk8 V c 2 t :=
  (dat8 V c).before_in_eq_fetched 2 rfl (fun _ => rfl) (fun _ _ _ => rfl) (fun _ => rfl) t d
theorem before8_3 (c : Dev nD) (t : Fin cfg8.N) (d) : (dat8 V c).before 3 t d = iblk8 V c 3 t :=
  (dat8 V c).before_in_eq_fetched 3 rfl (fun _ => rfl) (fun _ _ _ => rfl) (fun _ => rfl) t d
theorem before8_4 (c : Dev nD) (t : Fin cfg8.N) (d) : (dat8 V c).before 4 t d = iblk8 V c 4 t :=
  (dat8 V c).before_in_eq_fetched 4 rfl (fun _ => rfl) (fun _ _ _ => rfl) (fun _ => rfl) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  rw [cc8_eq]
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.R9.lean ====
import proofs.«105940_j32358283608240_1_alg».proof.Proof.KI.R0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem before9_of {c : Dev nD} (dat : Dat τ (Elt F) Unit ℕ (UR sig nD τ) ℕ cfg9 c) (hA : ∀ w, dat.A w = V c (Pipeline.arrRef spec9 w))
    (h0 : ∀ t, dat.after 0 t = iblk9 V c 0 t) (h1 : ∀ t, dat.after 1 t = iblk9 V c 1 t) (h2 : ∀ t, dat.after 2 t = iblk9 V c 2 t)
    (t : Fin cfg9.N) :
    (∀ d, dat.before 0 t d = iblk9 V c 0 t) ∧ (∀ d, dat.before 1 t d = iblk9 V c 1 t) ∧ ∀ d, dat.before 2 t d = iblk9 V c 2 t := by
  refine ⟨fun d => ?_, fun d => ?_, fun d => ?_⟩ <;>
    exact Eq.trans (dat.before_in_eq_fetched _ rfl (fun _ => rfl) (fun _ _ _ => rfl)
      (fun t => by (first | rw [h0] | rw [h1] | rw [h2]); unfold Dat.blockOf iblk9; rw [hA]; try rfl) t d)
      (by unfold Dat.fetched Dat.blockOf iblk9; rw [hA]; try rfl)

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => k0_pay3 (iblk9 V c 0 t) (iblk9 V c 1 t) (iblk9 V c 2 t)
    | ⟨4, _⟩ => out0_4 (iblk9 V c 0) (iblk9 V c 1) (iblk9 V c 2) t.val t.isLt
    | ⟨5, _⟩ => out0_5 (iblk9 V c 0) (iblk9 V c 1) (iblk9 V c 2) t.val t.isLt
  Φ _ := Pipeline.ΦA spec9 c
  q _ := fullShare
  owed _ := 0

theorem A_eq9 (c : Dev nD) (w : Fin cfg9.W) : (dat9 V c).A w = V c (Pipeline.arrRef spec9 w) := rfl
theorem Phi_eq9 (c : Dev nD) (j) : (dat9 V c).Φ j = Pipeline.ΦA spec9 c := rfl
theorem q_eq9 (c : Dev nD) (w : Fin cfg9.W) : (dat9 V c).q w = fullShare := rfl
theorem owed_eq9 (c : Dev nD) (j) : (dat9 V c).owed j = 0 := rfl
theorem recorded_eq9 (c : Dev nD) (j) : (dat9 V c).recorded j = Set.univ := rfl

theorem before9_B (c : Dev nD) (t : Fin cfg9.N) (hz : ¬t.val % 10 = 0) :
    (∀ d, (dat9 V c).before 4 t d = acc0_4 (iblk9 V c 0) (iblk9 V c 1) (iblk9 V c 2) t)
      ∧ ∀ d, (dat9 V c).before 5 t d = acc0_5 (iblk9 V c 0) (iblk9 V c 1) (iblk9 V c 2) t := by
  have hN : t.val < 10 := lt_of_lt_of_eq t.isLt (show cfg9.N = 10 from N_9)
  refine ⟨fun d => ?_, fun d => ?_⟩ <;>
    refine (Dat.before_out_kept _ _ rfl t (by omega) (Bool.eq_false_iff.mpr fun h => ?_) (fun _ => rfl) (fun _ _ => rfl) d).trans
      (acc0_succ _ _ t (by omega)).symm
  · have := (flush9_4 _).mp h; dsimp only at this; omega
  · have := (flush9_5 _).mp h; dsimp only at this; omega

theorem cc9_eq : @cc9__stage1_kernel F _ = @cc0__stage1_kernel F _ := rfl

theorem body_obligation9 (c : Dev nD) : BodyObligation (dat9 (F := F) V c) (defs₀ (F := F)) Variants.none () Set.univ := fun t => by
  rw [bigSep_W9, bigSep_W9]
  have hb := before9_of V (dat9 V c) (A_eq9 V c) (fun _ => rfl) (fun _ => rfl) (fun _ => rfl) t
  show _ ⊢ wp _ _ _ (bodyAt9 t) _
  unfold bodyAt9
  rw [cc9_eq]
  exact sound_point0 (iblk9 V c 0) (iblk9 V c 1) (iblk9 V c 2) c t _ _ _ _ _ _ _ _ _ _ _ _
    ((dat9 V c).before 0 t) ((dat9 V c).before 1 t) ((dat9 V c).before 2 t) ((dat9 V c).before 3 t) ((dat9 V c).before 4 t) ((dat9 V c).before 5 t)
    hb.1 hb.2.1 hb.2.2 (before9_B V c t) _ _

end Cert.KernelIdeal.Hand

end
-- ==== Proof.KI.R10.lean ====
import proofs.«105940_j32358283608240_1_alg».proof.Proof.KI.R1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Regions 1 and 10 have the same body. -/
theorem cc10_eq : @cc10__stage2_kernel F _ = @cc1__stage2_kernel F _ := rfl

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

def res10 (c : Dev nD) (t : Fin cfg10.N) : FVec F S10000x128 .f32 :=
  k1_pay5 (iblk10 V c 0 t) (iblk10 V c 2 t) (iblk10 V c 1 t) (iblk10 V c 3 t) (iblk10 V c 4 t) (iblk10 V c 5 t) (iblk10 V c 6 t)

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => res10 V c t
    | ⟨8, _⟩ => sums1 k1_pay1 k1_pay3 (res10 V c) t.val t.isLt
    | ⟨9, _⟩ => sums1 k1_pay2 k1_pay4 (res10 V c) t.val t.isLt
  Φ _ := Pipeline.ΦA spec10 c
  q _ := fullShare
  owed _ := 0

theorem A_eq10 (c : Dev nD) (w : Fin cfg10.W) : (dat10 V c).A w = V c (Pipeline.arrRef spec10 w) := by
  dsimp only [dat10]
theorem Phi_eq10 (c : Dev nD) (j) : (dat10 V c).Φ j = Pipeline.ΦA spec10 c := by dsimp only [dat10]
theorem q_eq10 (c : Dev nD) (w : Fin cfg10.W) : (dat10 V c).q w = fullShare := by dsimp only [dat10]
theorem owed_eq10 (c : Dev nD) (j) : (dat10 V c).owed j = 0 := by dsimp only [dat10]
theorem recorded_eq10 (c : Dev nD) (j) : (dat10 V c).recorded j = Set.univ := by dsimp only [dat10]

theorem before10_in (c : Dev nD) (t : Fin cfg10.N) : ∀ w : Fin cfg10.W, w.val < 7 → ∀ d,
    (dat10 V c).before w t d = (dat10 V c).after w t := by
  intro w
  fin_cases w <;> first
    | exact fun hw => absurd hw (by decide)
    | exact fun _ d => ((dat10 V c).before_in_eq_fetched _ (by rfl) (fun _ => by rfl) (fun _ _ _ => by rfl)
        (fun t => by unfold Dat.blockOf; dsimp only [dat10, iblk10]; try rfl) t d).trans
        (by unfold Dat.fetched Dat.blockOf; dsimp only [dat10, iblk10]; try rfl)

theorem after10_7 (c : Dev nD) (t : Fin cfg10.N) : (dat10 V c).after 7 t =
    k1_pay5 ((dat10 V c).after 0 t) ((dat10 V c).after 2 t) ((dat10 V c).after 1 t) ((dat10 V c).after 3 t) ((dat10 V c).after 4 t) ((dat10 V c).after 5 t) ((dat10 V c).after 6 t) := by
  dsimp only [dat10, res10]

/-- An accumulator adds the block's sums to zero at the first point and to what the point before left at a later one. -/
theorem after10_8 (c : Dev nD) (t : Fin cfg10.N) (d) : (dat10 V c).after 8 t =
    k1_pay1 ((dat10 V c).after 7 t) (if cond1_0 (grid10.coords t) then k1_pay3 else (dat10 V c).before 8 t d) := by
  have hN : t.val < 10 := lt_of_lt_of_eq t.isLt (show cfg10.N = 10 from N_10)
  by_cases h0 : t.val % 10 = 0
  · rw [if_pos ((hcond1_0 t).mpr h0)]; dsimp only [dat10]
    rw [sums1_step _ _ _ t, if_pos (show t.val = 0 by omega)]
  · rw [if_neg fun h => h0 ((hcond1_0 t).mp h), (dat10 V c).before_out_kept 8 rfl t (by omega)
      (Bool.eq_false_iff.mpr fun h => by have := (flush10_8 _).mp h; dsimp only at this; omega) (fun _ => rfl) (fun _ _ => rfl) d]
    dsimp only [dat10]
    rw [sums1_step _ _ _ t, if_neg (show ¬t.val = 0 by omega)]
theorem after10_9 (c : Dev nD) (t : Fin cfg10.N) (d) : (dat10 V c).after 9 t =
    k1_pay2 ((dat10 V c).after 7 t) (if cond1_0 (grid10.coords t) then k1_pay4 else (dat10 V c).before 9 t d) := by
  have hN : t.val < 10 := lt_of_lt_of_eq t.isLt (show cfg10.N = 10 from N_10)
  by_cases h0 : t.val % 10 = 0
  · rw [if_pos ((hcond1_0 t).mpr h0)]; dsimp only [dat10]
    rw [sums1_step _ _ _ t, if_pos (show t.val = 0 by omega)]
  · rw [if_neg fun h => h0 ((hcond1_0 t).mp h), (dat10 V c).before_out_kept 9 rfl t (by omega)
      (Bool.eq_false_iff.mpr fun h => by have := (flush10_9 _).mp h; dsimp only at this; omega) (fun _ => rfl) (fun _ _ => rfl) d]
    dsimp only [dat10]
    rw [sums1_step _ _ _ t, if_neg (show ¬t.val = 0 by omega)]

theorem body_obligation10 (c : Dev nD) : BodyObligation (dat10 (F := F) V c) (defs₀ (F := F)) Variants.none () Set.univ := fun t => by
  rw [bigSep_W10, bigSep_W10]
  show _ ⊢ wp frame _ _ (bodyAt10 (F := F) t) _
  unfold bodyAt10
  rw [cc10_eq]
  exact body1 c (grid10.coords t) _ _ _ _ _ _ _ _ _ _ _ _ _ _ _ _ _ _ _ _ _ _
    (before10_in V c t 0 (by decide)) (before10_in V c t 1 (by decide)) (before10_in V c t 2 (by decide)) (before10_in V c t 3 (by decide))
    (before10_in V c t 4 (by decide)) (before10_in V c t 5 (by decide)) (before10_in V c t 6 (by decide)) (after10_7 V c t)
    (after10_8 V c t) (after10_9 V c t)

end Cert.KernelIdeal.Hand

end
-- ==== Proof.KI.R11.lean ====
import proofs.«105940_j32358283608240_1_alg».proof.Proof.KI.R2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

theorem cc11_eq : @cc11__stage3_kernel F _ = @cc2__stage3_kernel F _ := rfl

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out2_5 (iblk11 V c 0 t) (iblk11 V c 1 t) (iblk11 V c 2 t) (iblk11 V c 3 t) (iblk11 V c 4 t)
  Φ _ := Pipeline.ΦA spec11 c
  q _ := fullShare
  owed _ := 0

theorem A_eq11 (c : Dev nD) (w : Fin cfg11.W) : (dat11 V c).A w = V c (Pipeline.arrRef spec11 w) := by
  dsimp only [dat11]
theorem Phi_eq11 (c : Dev nD) (j) : (dat11 V c).Φ j = Pipeline.ΦA spec11 c := by
  dsimp only [dat11]
theorem q_eq11 (c : Dev nD) (w : Fin cfg11.W) : (dat11 V c).q w = fullShare := by
  dsimp only [dat11]
theorem owed_eq11 (c : Dev nD) (j) : (dat11 V c).owed j = 0 := by
  dsimp only [dat11]
theorem recorded_eq11 (c : Dev nD) (j) : (dat11 V c).recorded j = Set.univ := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t =
    out2_5 (iblk11 V c 0 t) (iblk11 V c 1 t) (iblk11 V c 2 t) (iblk11 V c 3 t) (iblk11 V c 4 t) := by dsimp only [dat11]

theorem before11_0 (c : Dev nD) (t : Fin cfg11.N) (d) : (dat11 V c).before 0 t d = iblk11 V c 0 t :=
  (dat11 V c).before_in_eq_fetched 0 rfl (fun _ => rfl) (fun _ _ _ => rfl) (fun _ => rfl) t d
theorem before11_1 (c : Dev nD) (t : Fin cfg11.N) (d) : (dat11 V c).before 1 t d = iblk11 V c 1 t :=
  (dat11 V c).before_in_eq_fetched 1 rfl (fun _ => rfl) (fun _ _ _ => rfl) (fun _ => rfl) t d
theorem before11_2 (c : Dev nD) (t : Fin cfg11.N) (d) : (dat11 V c).before 2 t d = iblk11 V c 2 t :=
  (dat11 V c).before_in_eq_fetched 2 rfl (fun _ => rfl) (fun _ _ _ => rfl) (fun _ => rfl) t d
theorem before11_3 (c : Dev nD) (t : Fin cfg11.N) (d) : (dat11 V c).before 3 t d = iblk11 V c 3 t :=
  (dat11 V c).before_in_eq_fetched 3 rfl (fun _ => rfl) (fun _ _ _ => rfl) (fun _ => rfl) t d
theorem before11_4 (c : Dev nD) (t : Fin cfg11.N) (d) : (dat11 V c).before 4 t d = iblk11 V c 4 t :=
  (dat11 V c).before_in_eq_fetched 4 rfl (fun _ => rfl) (fun _ _ _ => rfl) (fun _ => rfl) t d

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  rw [cc11_eq]
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation11 (c : Dev nD) : BodyObligation (dat11 (F := F) V c) (defs₀ (F := F)) Variants.none () Set.univ := fun t => by
  rw [bigSep_W11, bigSep_W11]
  exact sound_body11 V c t

end Cert.KernelIdeal.Hand

end
-- ==== Proof.KI.R12.lean ====
import proofs.«105940_j32358283608240_1_alg».proof.Proof.Gen.KernelIdeal.Launch
import proofs.«105940_j32358283608240_1_alg».proof.Proof.Gen.KernelIdeal.Skeleton
import proofs.«105940_j32358283608240_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

abbrev r12_0 : Rect S1000x128 := Rect.unit (s := S1000x128) ![0, 0] S1000x128.size inb_S1000x128_S1000x128_0_0
abbrev r12_1 : Rect S640x1 := Rect.unit (s := S640x1) ![0, 0] S640x1.size inb_S640x1_S640x1_0_0
abbrev r12_2 : Rect S1x1 := Rect.unit (s := S1x1) ![0, 0] S1x1.size inb_S1x1_S1x1_0_0

theorem zeros12 : (![0, 0] : Fin 2 → Nat) = fun _ => 0 := funext fun a => by fin_cases a <;> rfl

def out12 (pay : Vec F S1000x128 .f32 → Vec F S1000x128 .f32 → Vec F S1000x128 .f32 → Vec F S1000x128 .f32 → Vec F S1000x128 .f32
      → Vec F S640x1 .f32 → Vec F S1x1 .f32 → FVec F S1000x128 .f32)
    (x0 x1 x2 x3 x4 : Vec F S1000x128 .f32) (x5 : Vec F S640x1 .f32) (x6 : Vec F S1x1 .f32) : Vec F S1000x128 .f32 :=
  View.canon [⟨r12_0, pay (View.ld x0 r12_0) (View.ld x1 r12_0) (View.ld x2 r12_0) (View.ld x3 r12_0) (View.ld x4 r12_0) (View.ld x5 r12_1) (View.ld x6 r12_2)⟩]

theorem cover12 (p : Vec F S1000x128 .f32) (y : S1000x128.Idx) :
    ∃ pc ∈ ([⟨r12_0, p⟩] : List (View.Piece (Elt F) S1000x128 .f32)), y ∈ pc.1.set :=
  ⟨_, List.mem_singleton_self _, View.mem_set_unit_zero (S := S1000x128) zeros12 inb_S1000x128_S1000x128_0_0 y⟩

theorem out12_eq (pay) (x0 x1 x2 x3 x4 : Vec F S1000x128 .f32) (x5 : Vec F S640x1 .f32) (x6 : Vec F S1x1 .f32) :
    out12 pay x0 x1 x2 x3 x4 x5 x6 = pay x0 x1 x2 x3 x4 x5 x6 := by
  unfold out12
  rw [View.canon_unit_zero (S := S1000x128) zeros12 inb_S1000x128_S1000x128_0_0,
    View.ld_unit_zero (S := S1000x128) zeros12 inb_S1000x128_S1000x128_0_0 x0,
    View.ld_unit_zero (S := S1000x128) zeros12 inb_S1000x128_S1000x128_0_0 x1,
    View.ld_unit_zero (S := S1000x128) zeros12 inb_S1000x128_S1000x128_0_0 x2,
    View.ld_unit_zero (S := S1000x128) zeros12 inb_S1000x128_S1000x128_0_0 x3,
    View.ld_unit_zero (S := S1000x128) zeros12 inb_S1000x128_S1000x128_0_0 x4,
    View.ld_unit_zero (S := S640x1) zeros12 inb_S640x1_S640x1_0_0 x5,
    View.ld_unit_zero (S := S1x1) zeros12 inb_S1x1_S1x1_0_0 x6]

set_option maxHeartbeats 1000000 in

theorem sound_kernel12 (c : Dev nD) (E : Set ℕ) (i : grid12.Coords) (arg1 : Memref sig .tc .vmem S1000x128 .f32) (harg1 : arg1.IsWhole) (arg2 : Memref sig .tc .vmem S1000x128 .f32) (harg2 : arg2.IsWhole) (arg3 : Memref sig .tc .vmem S1000x128 .f32) (harg3 : arg3.IsWhole) (arg4 : Memref sig .tc .vmem S1000x128 .f32) (harg4 : arg4.IsWhole) (arg5 : Memref sig .tc .vmem S1000x128 .f32) (harg5 : arg5.IsWhole) (arg6 : Memref sig .tc .vmem S640x1 .f32) (harg6 : arg6.IsWhole) (arg7 : Memref sig .tc .vmem S1x1 .f32) (harg7 : arg7.IsWhole) (arg8 : Memref sig .tc .vmem S1000x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x128 .f32) (harg11 : arg11.IsWhole) (arg12 : Memref sig .tc .vmem S1000x128 .f32) (harg12 : arg12.IsWhole)
    (x0 x1 x2 x3 x4 : Vec F S1000x128 .f32) (x5 : Vec F S640x1 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out12 k12_pay6 x0 x1 x2 x3 x4 x5 x6) ∗ owns (c : Thread nD τ) arg9 fullShare (out12 k12_pay7 x0 x1 x2 x3 x4 x5 x6) ∗ owns (c : Thread nD τ) arg10 fullShare (out12 k12_pay8 x0 x1 x2 x3 x4 x5 x6) ∗ owns (c : Thread nD τ) arg11 fullShare (out12 k12_pay9 x0 x1 x2 x3 x4 x5 x6) ∗ owns (c : Thread nD τ) arg12 fullShare (out12 k12_pay10 x0 x1 x2 x3 x4 x5 x6)) -∗ K ⟨⟩))
      ⊢ wp frame (wpE (defs₀ (F := F)) Variants.none c none) E (cc12__attn_kernel i arg1 harg1 arg2 harg2 arg3 harg3 arg4 harg4 arg5 harg5 arg6 harg6 arg7 harg7 arg8 harg8 arg9 harg9 arg10 harg10 arg11 harg11 arg12 harg12) K := by
  simp only [cc12__attn_kernel_eq_skeleton]; unfold cc12__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
  subst hf0 hf1 hf2 hf3 hf4 hf5 hf6
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists _; isplitr
    swap
    · iexact H7
    ipureintro
    sl_unfold_run_names
    exact View.read_writes_eq_canon _ _ _ (cover12 _)
  isplitl [H8]
  · iexists _; isplitr
    swap
    · iexact H8
    ipureintro
    sl_unfold_run_names
    exact View.read_writes_eq_canon _ _ _ (cover12 _)
  isplitl [H9]
  · iexists _; isplitr
    swap
    · iexact H9
    ipureintro
    sl_unfold_run_names
    exact View.read_writes_eq_canon _ _ _ (cover12 _)
  isplitl [H10]
  · iexists _; isplitr
    swap
    · iexact H10
    ipureintro
    sl_unfold_run_names
    exact View.read_writes_eq_canon _ _ _ (cover12 _)
  iexists _; isplitr
  swap
  · iexact H11
  ipureintro
  sl_unfold_run_names
  exact View.read_writes_eq_canon _ _ _ (cover12 _)

noncomputable def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => out12 k12_pay6 (iblk12 V c 0 t) (iblk12 V c 1 t) (iblk12 V c 2 t) (iblk12 V c 3 t) (iblk12 V c 4 t) (iblk12 V c 5 t) (iblk12 V c 6 t)
    | ⟨8, _⟩ => out12 k12_pay7 (iblk12 V c 0 t) (iblk12 V c 1 t) (iblk12 V c 2 t) (iblk12 V c 3 t) (iblk12 V c 4 t) (iblk12 V c 5 t) (iblk12 V c 6 t)
    | ⟨9, _⟩ => out12 k12_pay8 (iblk12 V c 0 t) (iblk12 V c 1 t) (iblk12 V c 2 t) (iblk12 V c 3 t) (iblk12 V c 4 t) (iblk12 V c 5 t) (iblk12 V c 6 t)
    | ⟨10, _⟩ => out12 k12_pay9 (iblk12 V c 0 t) (iblk12 V c 1 t) (iblk12 V c 2 t) (iblk12 V c 3 t) (iblk12 V c 4 t) (iblk12 V c 5 t) (iblk12 V c 6 t)
    | ⟨11, _⟩ => out12 k12_pay10 (iblk12 V c 0 t) (iblk12 V c 1 t) (iblk12 V c 2 t) (iblk12 V c 3 t) (iblk12 V c 4 t) (iblk12 V c 5 t) (iblk12 V c 6 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem Phi_eq12 (c : Dev nD) (j) : (dat12 V c).Φ j = Pipeline.ΦA spec12 c := by
  dsimp only [dat12]

theorem q_eq12 (c : Dev nD) (w : Fin cfg12.W) : (dat12 V c).q w = fullShare := by
  dsimp only [dat12]

theorem owed_eq12 (c : Dev nD) (j) : (dat12 V c).owed j = 0 := by
  dsimp only [dat12]

theorem recorded_eq12 (c : Dev nD) (j) : (dat12 V c).recorded j = Set.univ := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = iblk12 V c 6 t := by dsimp only [dat12]
theorem after12_7 (c : Dev nD) (t : Fin cfg12.N) : (dat12 V c).after 7 t = out12 k12_pay6 (iblk12 V c 0 t) (iblk12 V c 1 t) (iblk12 V c 2 t) (iblk12 V c 3 t) (iblk12 V c 4 t) (iblk12 V c 5 t) (iblk12 V c 6 t) := by dsimp only [dat12]
theorem after12_8 (c : Dev nD) (t : Fin cfg12.N) : (dat12 V c).after 8 t = out12 k12_pay7 (iblk12 V c 0 t) (iblk12 V c 1 t) (iblk12 V c 2 t) (iblk12 V c 3 t) (iblk12 V c 4 t) (iblk12 V c 5 t) (iblk12 V c 6 t) := by dsimp only [dat12]
theorem after12_9 (c : Dev nD) (t : Fin cfg12.N) : (dat12 V c).after 9 t = out12 k12_pay8 (iblk12 V c 0 t) (iblk12 V c 1 t) (iblk12 V c 2 t) (iblk12 V c 3 t) (iblk12 V c 4 t) (iblk12 V c 5 t) (iblk12 V c 6 t) := by dsimp only [dat12]
theorem after12_10 (c : Dev nD) (t : Fin cfg12.N) : (dat12 V c).after 10 t = out12 k12_pay9 (iblk12 V c 0 t) (iblk12 V c 1 t) (iblk12 V c 2 t) (iblk12 V c 3 t) (iblk12 V c 4 t) (iblk12 V c 5 t) (iblk12 V c 6 t) := by dsimp only [dat12]
theorem after12_11 (c : Dev nD) (t : Fin cfg12.N) : (dat12 V c).after 11 t = out12 k12_pay10 (iblk12 V c 0 t) (iblk12 V c 1 t) (iblk12 V c 2 t) (iblk12 V c 3 t) (iblk12 V c 4 t) (iblk12 V c 5 t) (iblk12 V c 6 t) := by dsimp only [dat12]

theorem before12_0 (c : Dev nD) (t : Fin cfg12.N) (d) : (dat12 V c).before 0 t d = iblk12 V c 0 t :=
  (dat12 V c).before_in_eq_fetched 0 rfl (fun _ => rfl) (fun _ _ _ => rfl) (fun _ => rfl) t d
theorem before12_1 (c : Dev nD) (t : Fin cfg12.N) (d) : (dat12 V c).before 1 t d = iblk12 V c 1 t :=
  (dat12 V c).before_in_eq_fetched 1 rfl (fun _ => rfl) (fun _ _ _ => rfl) (fun _ => rfl) t d
theorem before12_2 (c : Dev nD) (t : Fin cfg12.N) (d) : (dat12 V c).before 2 t d = iblk12 V c 2 t :=
  (dat12 V c).before_in_eq_fetched 2 rfl (fun _ => rfl) (fun _ _ _ => rfl) (fun _ => rfl) t d
theorem before12_3 (c : Dev nD) (t : Fin cfg12.N) (d) : (dat12 V c).before 3 t d = iblk12 V c 3 t :=
  (dat12 V c).before_in_eq_fetched 3 rfl (fun _ => rfl) (fun _ _ _ => rfl) (fun _ => rfl) t d
theorem before12_4 (c : Dev nD) (t : Fin cfg12.N) (d) : (dat12 V c).before 4 t d = iblk12 V c 4 t :=
  (dat12 V c).before_in_eq_fetched 4 rfl (fun _ => rfl) (fun _ _ _ => rfl) (fun _ => rfl) t d
theorem before12_5 (c : Dev nD) (t : Fin cfg12.N) (d) : (dat12 V c).before 5 t d = iblk12 V c 5 t :=
  (dat12 V c).before_in_eq_fetched 5 rfl (fun _ => rfl) (fun _ _ _ => rfl) (fun _ => rfl) t d
theorem before12_6 (c : Dev nD) (t : Fin cfg12.N) (d) : (dat12 V c).before 6 t d = iblk12 V c 6 t :=
  (dat12 V c).before_in_eq_fetched 6 rfl (fun _ => rfl) (fun _ _ _ => rfl) (fun _ => rfl) t d

noncomputable def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d))
    ∗ (∃ d, owns (c : Thread nD τ) (st12_7 t) fullShare ((dat12 V c).before 7 t d))
    ∗ (∃ d, owns (c : Thread nD τ) (st12_8 t) fullShare ((dat12 V c).before 8 t d))
    ∗ (∃ d, owns (c : Thread nD τ) (st12_9 t) fullShare ((dat12 V c).before 9 t d))
    ∗ (∃ d, owns (c : Thread nD τ) (st12_10 t) fullShare ((dat12 V c).before 10 t d))
    ∗ (∃ d, owns (c : Thread nD τ) (st12_11 t) fullShare ((dat12 V c).before 11 t d)))

noncomputable def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t)
    ∗ owns (c : Thread nD τ) (st12_7 t) fullShare ((dat12 V c).after 7 t)
    ∗ owns (c : Thread nD τ) (st12_8 t) fullShare ((dat12 V c).after 8 t)
    ∗ owns (c : Thread nD τ) (st12_9 t) fullShare ((dat12 V c).after 9 t)
    ∗ owns (c : Thread nD τ) (st12_10 t) fullShare ((dat12 V c).after 10 t)
    ∗ owns (c : Thread nD τ) (st12_11 t) fullShare ((dat12 V c).after 11 t))

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5, before12_6]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6, after12_7, after12_8, after12_9, after12_10, after12_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel12 c Set.univ _ _ _ _ _ _ _ _ _ _ _ _ _ _ _ _ _ _ _ _ _ _ _ _ _ (iblk12 V c 0 t) (iblk12 V c 1 t) (iblk12 V c 2 t) (iblk12 V c 3 t) (iblk12 V c 4 t) (iblk12 V c 5 t) (iblk12 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation12 (c : Dev nD) : BodyObligation (dat12 (F := F) V c) (defs₀ (F := F)) Variants.none () Set.univ := fun t => by
  rw [bigSep_W12, bigSep_W12]
  exact sound_body12 V c t

end Cert.KernelIdeal.Hand

end
-- ==== Proof.KI.Halves.lean ====
import proofs.«105940_j32358283608240_1_alg».proof.Proof.KI.R0
import proofs.«105940_j32358283608240_1_alg».proof.Proof.KI.R1
import proofs.«105940_j32358283608240_1_alg».proof.Proof.KI.R2
import proofs.«105940_j32358283608240_1_alg».proof.Proof.KI.R3
import proofs.«105940_j32358283608240_1_alg».proof.Proof.KI.R4
import proofs.«105940_j32358283608240_1_alg».proof.Proof.KI.R5
import proofs.«105940_j32358283608240_1_alg».proof.Proof.KI.R6
import proofs.«105940_j32358283608240_1_alg».proof.Proof.KI.R7
import proofs.«105940_j32358283608240_1_alg».proof.Proof.KI.R8
import proofs.«105940_j32358283608240_1_alg».proof.Proof.KI.R9
import proofs.«105940_j32358283608240_1_alg».proof.Proof.KI.R10
import proofs.«105940_j32358283608240_1_alg».proof.Proof.KI.R11
import proofs.«105940_j32358283608240_1_alg».proof.Proof.KI.R12
-- ==== Proof.KI.Chain.lean ====
import proofs.«105940_j32358283608240_1_alg».proof.Proof.Gen.KernelIdeal.Launch
import proofs.«105940_j32358283608240_1_alg».proof.Proof.Gen.KernelIdeal.Skeleton
import proofs.«105940_j32358283608240_1_alg».proof.Proof.Gen.KernelIdeal.Points
import proofs.«105940_j32358283608240_1_alg».proof.Proof.Gen.KernelIdeal.Regions
import proofs.«105940_j32358283608240_1_alg».proof.Proof.KI.Halves
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.ShloMosaic.Pipeline (Dat)

variable {F : FTy → Type}

section Exit

variable {cfg : Pipeline.Cfg sig Λ₀} {c : Dev nD} {V : Valuation τ sig (Elt F)}
  (dat : Dat τ (Elt F) Unit ℕ (UR sig nD τ) ℕ cfg c)

variable (V) in
/-- The entry valuation `V` overwritten at each window's array by that array's final contents. -/
def exitV : Valuation τ sig (Elt F) := Pipeline.withArrays cfg.spec c V fun w => dat.arrAt w cfg.N

theorem exitV_arr (kit : Pipeline.WinFacts cfg.spec) (w : Fin cfg.W) :
    exitV V dat (Pipeline.arrRef cfg.spec w) = dat.arrAt w cfg.N :=
  Pipeline.withArrays_arr _ kit.arr_inj c _ _ w

theorem exitV_of_ne (b : Ref sig .tc) (hb : ∀ w, Pipeline.arrRef cfg.spec w ≠ b) : exitV V dat b = V b :=
  Pipeline.withArrays_of_ne _ c _ _ b hb

theorem exitV_rest (b : Ref sig .tc) (hb : b ∉ Finset.univ.image (Pipeline.arrRef cfg.spec)) : exitV V dat b = V b :=
  exitV_of_ne dat b fun w e => hb (Finset.mem_image.mpr ⟨w, Finset.mem_univ _, e⟩)

/-- At an input window's array the final contents are the entry contents. -/
theorem exitV_in (kit : Pipeline.WinFacts cfg.spec) (hA : ∀ w, dat.A w = V (Pipeline.arrRef cfg.spec w)) (w : Fin cfg.W)
    (hin : (cfg.win w).isOut = false) : exitV V dat (Pipeline.arrRef cfg.spec w) = V (Pipeline.arrRef cfg.spec w) :=
  (exitV_arr dat kit w).trans ((dat.arrAt_in w hin _).trans (hA w))

/-- Overwriting `X` with `W` at the references `rs` gives `W` when the two agree everywhere else. -/
theorem upd_eq (W : Valuation τ sig (Elt F)) (rs : List (Ref sig .tc)) (X : Valuation τ sig (Elt F))
    (h : ∀ b, (∀ r ∈ rs, Proc.devRef .tc r ≠ b) → W b = X b) :
    rs.foldl (fun X r => Function.update X (Proc.devRef .tc r) (W (Proc.devRef .tc r))) X = W := by
  induction rs generalizing X with
  | nil => exact funext fun b => (h b fun _ hr => nomatch hr).symm
  | cons r rs ih =>
    refine ih _ fun b hb => ?_
    beta_reduce
    by_cases e : Proc.devRef .tc r = b
    · subst e; rw [Function.update_self]
    · rw [Function.update_of_ne (Ne.symm e)]; exact h b (List.forall_mem_cons.mpr ⟨e, hb⟩)

/-- `exitV` differs from `V` only at the output windows' arrays, so writing it over `V` there gives it whole. -/
theorem upd_exitV (kit : Pipeline.WinFacts cfg.spec) {V' : Valuation τ sig (Elt F)} (hV : V' = V)
    (hA : ∀ w, dat.A w = V (Pipeline.arrRef cfg.spec w)) (rs : List (Ref sig .tc))
    (hrs : ∀ w, (cfg.win w).isOut = true → Pipeline.arrRef cfg.spec w ∈ rs) :
    rs.foldl (fun X r => Function.update X (Proc.devRef .tc r) (exitV V dat (Proc.devRef .tc r))) V' = exitV V dat := by
  subst hV
  refine upd_eq _ rs _ fun b hb => ?_
  by_cases hw : ∃ w, Proc.devRef .tc (Pipeline.arrRef cfg.spec w) = b
  · obtain ⟨w, rfl⟩ := hw
    cases ho : (cfg.win w).isOut
    · exact exitV_in dat kit hA w ho
    · exact absurd rfl (hb _ (hrs w ho))
  · unfold exitV Pipeline.withArrays; exact dif_neg hw

end Exit

/-- A family of valuations read at the `.tc` references. -/
abbrev rdTc (W : Dev nD → Valuation τ sig (Elt F)) : (c : Dev nD) → (b : Ref sig .tc) → Buf (Elt F) ((c : Thread nD τ).loc b) :=
  fun c b => W c b

variable [FloatOps F] (m : (ℓ : Loc nD τ sig) → Buf (Elt F) ℓ) (c : Dev nD)

abbrev W0 : Valuation τ sig (Elt F) := fun b => m (c, b)
abbrev W1 := StableHlo.after hostOps0 (W0 m c)
abbrev B1 := rdTc (W1 m)

def W2 := exitV (W1 m c) (dat0 (B1 m) c)
theorem W2_arr (w : Fin cfg0.W) :
    W2 m c (Proc.devRef .tc (Pipeline.arrRef spec0 w)) = (dat0 (B1 m) c).arrAt w cfg0.N :=
  exitV_arr _ launch0.win w
theorem hF0 (w : Fin cfg0.W) :
    (dat0 (B1 m) c).arrAt w cfg0.N = (fun b : Ref sig .tc => W2 m c b) (Pipeline.arrRef spec0 w) :=
  (W2_arr m c w).symm
theorem hrest0 : ∀ b : Ref sig .tc, b ∉ Finset.univ.image (Pipeline.arrRef spec0) → W2 m c b = W1 m c b :=
  exitV_rest (dat0 (B1 m) c)
abbrev W3 := StableHlo.after hostOps1 (W2 m c)
abbrev B3 := rdTc (W3 m)

def W4 := exitV (W3 m c) (dat1 (B3 m) c)
theorem W4_arr (w : Fin cfg1.W) :
    W4 m c (Proc.devRef .tc (Pipeline.arrRef spec1 w)) = (dat1 (B3 m) c).arrAt w cfg1.N :=
  exitV_arr _ launch1.win w
theorem hF1 (w : Fin cfg1.W) :
    (dat1 (B3 m) c).arrAt w cfg1.N = (fun b : Ref sig .tc => W4 m c b) (Pipeline.arrRef spec1 w) :=
  (W4_arr m c w).symm
theorem hrest1 : ∀ b : Ref sig .tc, b ∉ Finset.univ.image (Pipeline.arrRef spec1) → W4 m c b = W3 m c b :=
  exitV_rest (dat1 (B3 m) c)
abbrev W5 := StableHlo.after hostOps2 (W4 m c)
abbrev B5 := rdTc (W5 m)

def W6 := exitV (W5 m c) (dat2 (B5 m) c)
theorem W6_arr (w : Fin cfg2.W) :
    W6 m c (Proc.devRef .tc (Pipeline.arrRef spec2 w)) = (dat2 (B5 m) c).arrAt w cfg2.N :=
  exitV_arr _ launch2.win w
theorem hF2 (w : Fin cfg2.W) :
    (dat2 (B5 m) c).arrAt w cfg2.N = (fun b : Ref sig .tc => W6 m c b) (Pipeline.arrRef spec2 w) :=
  (W6_arr m c w).symm
theorem hrest2 : ∀ b : Ref sig .tc, b ∉ Finset.univ.image (Pipeline.arrRef spec2) → W6 m c b = W5 m c b :=
  exitV_rest (dat2 (B5 m) c)
abbrev W7 := StableHlo.after hostOps3 (W6 m c)
abbrev B7 := rdTc (W7 m)

def W8 := exitV (W7 m c) (dat3 (B7 m) c)
theorem W8_arr (w : Fin cfg3.W) :
    W8 m c (Proc.devRef .tc (Pipeline.arrRef spec3 w)) = (dat3 (B7 m) c).arrAt w cfg3.N :=
  exitV_arr _ launch3.win w
theorem W8_of_ne (b : Ref sig .tc) (hb : ∀ w, Pipeline.arrRef spec3 w ≠ b) :
    W8 m c (Proc.devRef .tc b) = W7 m c (Proc.devRef .tc b) :=
  exitV_of_ne (dat3 (B7 m) c) b hb
theorem hF3 (w : Fin cfg3.W) :
    (dat3 (B7 m) c).arrAt w cfg3.N = (fun b : Ref sig .tc => W8 m c b) (Pipeline.arrRef spec3 w) :=
  (W8_arr m c w).symm
theorem hrest3 : ∀ b : Ref sig .tc, b ∉ Finset.univ.image (Pipeline.arrRef spec3) → W8 m c b = W7 m c b :=
  exitV_rest (dat3 (B7 m) c)
abbrev W9 := StableHlo.after hostOps4 (W8 m c)
abbrev B9 := rdTc (W9 m)

def W10 := exitV (W9 m c) (dat4 (B9 m) c)
theorem W10_arr (w : Fin cfg4.W) :
    W10 m c (Proc.devRef .tc (Pipeline.arrRef spec4 w)) = (dat4 (B9 m) c).arrAt w cfg4.N :=
  exitV_arr _ launch4.win w
theorem W10_of_ne (b : Ref sig .tc) (hb : ∀ w, Pipeline.arrRef spec4 w ≠ b) :
    W10 m c (Proc.devRef .tc b) = W9 m c (Proc.devRef .tc b) :=
  exitV_of_ne (dat4 (B9 m) c) b hb
theorem hF4 (w : Fin cfg4.W) :
    (dat4 (B9 m) c).arrAt w cfg4.N = (fun b : Ref sig .tc => W10 m c b) (Pipeline.arrRef spec4 w) :=
  (W10_arr m c w).symm
theorem hrest4 : ∀ b : Ref sig .tc, b ∉ Finset.univ.image (Pipeline.arrRef spec4) → W10 m c b = W9 m c b :=
  exitV_rest (dat4 (B9 m) c)
abbrev W11 := StableHlo.after hostOps5 (W10 m c)
abbrev B11 := rdTc (W11 m)

def W12 := exitV (W11 m c) (dat5 (B11 m) c)
theorem W12_arr (w : Fin cfg5.W) :
    W12 m c (Proc.devRef .tc (Pipeline.arrRef spec5 w)) = (dat5 (B11 m) c).arrAt w cfg5.N :=
  exitV_arr _ launch5.win w
theorem W12_of_ne (b : Ref sig .tc) (hb : ∀ w, Pipeline.arrRef spec5 w ≠ b) :
    W12 m c (Proc.devRef .tc b) = W11 m c (Proc.devRef .tc b) :=
  exitV_of_ne (dat5 (B11 m) c) b hb
theorem hF5 (w : Fin cfg5.W) :
    (dat5 (B11 m) c).arrAt w cfg5.N = (fun b : Ref sig .tc => W12 m c b) (Pipeline.arrRef spec5 w) :=
  (W12_arr m c w).symm
theorem hrest5 : ∀ b : Ref sig .tc, b ∉ Finset.univ.image (Pipeline.arrRef spec5) → W12 m c b = W11 m c b :=
  exitV_rest (dat5 (B11 m) c)
abbrev W13 := StableHlo.after hostOps6 (W12 m c)
abbrev B13 := rdTc (W13 m)

def W14 := exitV (W13 m c) (dat6 (B13 m) c)
theorem W14_arr (w : Fin cfg6.W) :
    W14 m c (Proc.devRef .tc (Pipeline.arrRef spec6 w)) = (dat6 (B13 m) c).arrAt w cfg6.N :=
  exitV_arr _ launch6.win w
theorem W14_of_ne (b : Ref sig .tc) (hb : ∀ w, Pipeline.arrRef spec6 w ≠ b) :
    W14 m c (Proc.devRef .tc b) = W13 m c (Proc.devRef .tc b) :=
  exitV_of_ne (dat6 (B13 m) c) b hb
theorem hF6 (w : Fin cfg6.W) :
    (dat6 (B13 m) c).arrAt w cfg6.N = (fun b : Ref sig .tc => W14 m c b) (Pipeline.arrRef spec6 w) :=
  (W14_arr m c w).symm
theorem hrest6 : ∀ b : Ref sig .tc, b ∉ Finset.univ.image (Pipeline.arrRef spec6) → W14 m c b = W13 m c b :=
  exitV_rest (dat6 (B13 m) c)
abbrev W15 := StableHlo.after hostOps7 (W14 m c)
abbrev B15 := rdTc (W15 m)

def W16 := exitV (W15 m c) (dat7 (B15 m) c)
theorem W16_arr (w : Fin cfg7.W) :
    W16 m c (Proc.devRef .tc (Pipeline.arrRef spec7 w)) = (dat7 (B15 m) c).arrAt w cfg7.N :=
  exitV_arr _ launch7.win w
theorem W16_of_ne (b : Ref sig .tc) (hb : ∀ w, Pipeline.arrRef spec7 w ≠ b) :
    W16 m c (Proc.devRef .tc b) = W15 m c (Proc.devRef .tc b) :=
  exitV_of_ne (dat7 (B15 m) c) b hb
theorem hF7 (w : Fin cfg7.W) :
    (dat7 (B15 m) c).arrAt w cfg7.N = (fun b : Ref sig .tc => W16 m c b) (Pipeline.arrRef spec7 w) :=
  (W16_arr m c w).symm
theorem hrest7 : ∀ b : Ref sig .tc, b ∉ Finset.univ.image (Pipeline.arrRef spec7) → W16 m c b = W15 m c b :=
  exitV_rest (dat7 (B15 m) c)
abbrev W17 := StableHlo.after hostOps8 (W16 m c)
abbrev B17 := rdTc (W17 m)

def W18 := exitV (W17 m c) (dat8 (B17 m) c)
theorem W18_arr (w : Fin cfg8.W) :
    W18 m c (Proc.devRef .tc (Pipeline.arrRef spec8 w)) = (dat8 (B17 m) c).arrAt w cfg8.N :=
  exitV_arr _ launch8.win w
theorem W18_of_ne (b : Ref sig .tc) (hb : ∀ w, Pipeline.arrRef spec8 w ≠ b) :
    W18 m c (Proc.devRef .tc b) = W17 m c (Proc.devRef .tc b) :=
  exitV_of_ne (dat8 (B17 m) c) b hb
theorem hF8 (w : Fin cfg8.W) :
    (dat8 (B17 m) c).arrAt w cfg8.N = (fun b : Ref sig .tc => W18 m c b) (Pipeline.arrRef spec8 w) :=
  (W18_arr m c w).symm
theorem hrest8 : ∀ b : Ref sig .tc, b ∉ Finset.univ.image (Pipeline.arrRef spec8) → W18 m c b = W17 m c b :=
  exitV_rest (dat8 (B17 m) c)
abbrev W19 := StableHlo.after hostOps9 (W18 m c)
abbrev B19 := rdTc (W19 m)

def W20 := exitV (W19 m c) (dat9 (B19 m) c)
theorem W20_arr (w : Fin cfg9.W) :
    W20 m c (Proc.devRef .tc (Pipeline.arrRef spec9 w)) = (dat9 (B19 m) c).arrAt w cfg9.N :=
  exitV_arr _ launch9.win w
theorem W20_of_ne (b : Ref sig .tc) (hb : ∀ w, Pipeline.arrRef spec9 w ≠ b) :
    W20 m c (Proc.devRef .tc b) = W19 m c (Proc.devRef .tc b) :=
  exitV_of_ne (dat9 (B19 m) c) b hb
theorem hF9 (w : Fin cfg9.W) :
    (dat9 (B19 m) c).arrAt w cfg9.N = (fun b : Ref sig .tc => W20 m c b) (Pipeline.arrRef spec9 w) :=
  (W20_arr m c w).symm
theorem hrest9 : ∀ b : Ref sig .tc, b ∉ Finset.univ.image (Pipeline.arrRef spec9) → W20 m c b = W19 m c b :=
  exitV_rest (dat9 (B19 m) c)
abbrev W21 := StableHlo.after hostOps10 (W20 m c)
abbrev B21 := rdTc (W21 m)

def W22 := exitV (W21 m c) (dat10 (B21 m) c)
theorem W22_arr (w : Fin cfg10.W) :
    W22 m c (Proc.devRef .tc (Pipeline.arrRef spec10 w)) = (dat10 (B21 m) c).arrAt w cfg10.N :=
  exitV_arr _ launch10.win w
theorem W22_of_ne (b : Ref sig .tc) (hb : ∀ w, Pipeline.arrRef spec10 w ≠ b) :
    W22 m c (Proc.devRef .tc b) = W21 m c (Proc.devRef .tc b) :=
  exitV_of_ne (dat10 (B21 m) c) b hb
theorem hF10 (w : Fin cfg10.W) :
    (dat10 (B21 m) c).arrAt w cfg10.N = (fun b : Ref sig .tc => W22 m c b) (Pipeline.arrRef spec10 w) :=
  (W22_arr m c w).symm
theorem hrest10 : ∀ b : Ref sig .tc, b ∉ Finset.univ.image (Pipeline.arrRef spec10) → W22 m c b = W21 m c b :=
  exitV_rest (dat10 (B21 m) c)
abbrev W23 := StableHlo.after hostOps11 (W22 m c)
abbrev B23 := rdTc (W23 m)

def W24 := exitV (W23 m c) (dat11 (B23 m) c)
theorem W24_arr (w : Fin cfg11.W) :
    W24 m c (Proc.devRef .tc (Pipeline.arrRef spec11 w)) = (dat11 (B23 m) c).arrAt w cfg11.N :=
  exitV_arr _ launch11.win w
theorem W24_of_ne (b : Ref sig .tc) (hb : ∀ w, Pipeline.arrRef spec11 w ≠ b) :
    W24 m c (Proc.devRef .tc b) = W23 m c (Proc.devRef .tc b) :=
  exitV_of_ne (dat11 (B23 m) c) b hb
theorem hF11 (w : Fin cfg11.W) :
    (dat11 (B23 m) c).arrAt w cfg11.N = (fun b : Ref sig .tc => W24 m c b) (Pipeline.arrRef spec11 w) :=
  (W24_arr m c w).symm
theorem hrest11 : ∀ b : Ref sig .tc, b ∉ Finset.univ.image (Pipeline.arrRef spec11) → W24 m c b = W23 m c b :=
  exitV_rest (dat11 (B23 m) c)
abbrev W25 := StableHlo.after hostOps12 (W24 m c)
abbrev B25 := rdTc (W25 m)

def W26 := exitV (W25 m c) (dat12 (B25 m) c)
theorem W26_arr (w : Fin cfg12.W) :
    W26 m c (Proc.devRef .tc (Pipeline.arrRef spec12 w)) = (dat12 (B25 m) c).arrAt w cfg12.N :=
  exitV_arr _ launch12.win w
theorem W26_of_ne (b : Ref sig .tc) (hb : ∀ w, Pipeline.arrRef spec12 w ≠ b) :
    W26 m c (Proc.devRef .tc b) = W25 m c (Proc.devRef .tc b) :=
  exitV_of_ne (dat12 (B25 m) c) b hb
theorem hF12 (w : Fin cfg12.W) :
    (dat12 (B25 m) c).arrAt w cfg12.N = (fun b : Ref sig .tc => W26 m c b) (Pipeline.arrRef spec12 w) :=
  (W26_arr m c w).symm
theorem hrest12 : ∀ b : Ref sig .tc, b ∉ Finset.univ.image (Pipeline.arrRef spec12) → W26 m c b = W25 m c b :=
  exitV_rest (dat12 (B25 m) c)
theorem W26_in (w : Fin cfg12.W) (hin : (cfg12.win w).isOut = false) :
    W26 m c (Proc.devRef .tc (Pipeline.arrRef spec12 w)) = W25 m c (Proc.devRef .tc (Pipeline.arrRef spec12 w)) :=
  exitV_in _ launch12.win (A_eq12 (B25 m) c) w hin
abbrev W27 := StableHlo.after hostOps13 (W26 m c)

/-- For an even `J`, the exit contents of the region that is item `J − 1`. -/
def outs : Gen.Outs (F := F) := fun J r c =>
  match J with
  | 2 => W2 m c r
  | 4 => W4 m c r
  | 6 => W6 m c r
  | 8 => W8 m c r
  | 10 => W10 m c r
  | 12 => W12 m c r
  | 14 => W14 m c r
  | 16 => W16 m c r
  | 18 => W18 m c r
  | 20 => W20 m c r
  | 22 => W22 m c r
  | 24 => W24 m c r
  | 26 => W26 m c r
  | _ => W0 m c r

theorem V_eq_1 : Gen.V1 m c = W1 m c := rfl
theorem V_eq_2 : Gen.V2 m (outs m) c = W2 m c :=
  upd_exitV _ launch0.win (V_eq_1 m c) (A_eq0 (B1 m) c) [main_v21_0, main_v21_1, main_v21_2] (by decide)
theorem V_eq_3 : Gen.V3 m (outs m) c = W3 m c := congrArg (StableHlo.after hostOps1) (V_eq_2 m c)
theorem V_eq_4 : Gen.V4 m (outs m) c = W4 m c :=
  upd_exitV _ launch1.win (V_eq_3 m c) (A_eq1 (B3 m) c) [main_v39_0, main_v39_1, main_v39_2] (by decide)
theorem V_eq_5 : Gen.V5 m (outs m) c = W5 m c := congrArg (StableHlo.after hostOps2) (V_eq_4 m c)
theorem V_eq_6 : Gen.V6 m (outs m) c = W6 m c :=
  upd_exitV _ launch2.win (V_eq_5 m c) (A_eq2 (B5 m) c) [main_v52] (by decide)
theorem V_eq_7 : Gen.V7 m (outs m) c = W7 m c := congrArg (StableHlo.after hostOps3) (V_eq_6 m c)
theorem V_eq_8 : Gen.V8 m (outs m) c = W8 m c :=
  upd_exitV _ launch3.win (V_eq_7 m c) (A_eq3 (B7 m) c) [main_v74_0, main_v74_1, main_v74_2] (by decide)
theorem V_eq_9 : Gen.V9 m (outs m) c = W9 m c := congrArg (StableHlo.after hostOps4) (V_eq_8 m c)
theorem V_eq_10 : Gen.V10 m (outs m) c = W10 m c :=
  upd_exitV _ launch4.win (V_eq_9 m c) (A_eq4 (B9 m) c) [main_v92_0, main_v92_1, main_v92_2] (by decide)
theorem V_eq_11 : Gen.V11 m (outs m) c = W11 m c := congrArg (StableHlo.after hostOps5) (V_eq_10 m c)
theorem V_eq_12 : Gen.V12 m (outs m) c = W12 m c :=
  upd_exitV _ launch5.win (V_eq_11 m c) (A_eq5 (B11 m) c) [main_v105] (by decide)
theorem V_eq_13 : Gen.V13 m (outs m) c = W13 m c := congrArg (StableHlo.after hostOps6) (V_eq_12 m c)
theorem V_eq_14 : Gen.V14 m (outs m) c = W14 m c :=
  upd_exitV _ launch6.win (V_eq_13 m c) (A_eq6 (B13 m) c) [main_v127_0, main_v127_1, main_v127_2] (by decide)
theorem V_eq_15 : Gen.V15 m (outs m) c = W15 m c := congrArg (StableHlo.after hostOps7) (V_eq_14 m c)
theorem V_eq_16 : Gen.V16 m (outs m) c = W16 m c :=
  upd_exitV _ launch7.win (V_eq_15 m c) (A_eq7 (B15 m) c) [main_v145_0, main_v145_1, main_v145_2] (by decide)
theorem V_eq_17 : Gen.V17 m (outs m) c = W17 m c := congrArg (StableHlo.after hostOps8) (V_eq_16 m c)
theorem V_eq_18 : Gen.V18 m (outs m) c = W18 m c :=
  upd_exitV _ launch8.win (V_eq_17 m c) (A_eq8 (B17 m) c) [main_v158] (by decide)
theorem V_eq_19 : Gen.V19 m (outs m) c = W19 m c := congrArg (StableHlo.after hostOps9) (V_eq_18 m c)
theorem V_eq_20 : Gen.V20 m (outs m) c = W20 m c :=
  upd_exitV _ launch9.win (V_eq_19 m c) (A_eq9 (B19 m) c) [main_v180_0, main_v180_1, main_v180_2] (by decide)
theorem V_eq_21 : Gen.V21 m (outs m) c = W21 m c := congrArg (StableHlo.after hostOps10) (V_eq_20 m c)
theorem V_eq_22 : Gen.V22 m (outs m) c = W22 m c :=
  upd_exitV _ launch10.win (V_eq_21 m c) (A_eq10 (B21 m) c) [main_v198_0, main_v198_1, main_v198_2] (by decide)
theorem V_eq_23 : Gen.V23 m (outs m) c = W23 m c := congrArg (StableHlo.after hostOps11) (V_eq_22 m c)
theorem V_eq_24 : Gen.V24 m (outs m) c = W24 m c :=
  upd_exitV _ launch11.win (V_eq_23 m c) (A_eq11 (B23 m) c) [main_v211] (by decide)
theorem V_eq_25 : Gen.V25 m (outs m) c = W25 m c := congrArg (StableHlo.after hostOps12) (V_eq_24 m c)
theorem V_eq_26 : Gen.V26 m (outs m) c = W26 m c :=
  upd_exitV _ launch12.win (V_eq_25 m c) (A_eq12 (B25 m) c)
    [main_v213_0, main_v213_1, main_v213_2, main_v213_3, main_v213_4] (by decide)
theorem V_eq_27 : Gen.V27 m (outs m) c = W27 m c := congrArg (StableHlo.after hostOps13) (V_eq_26 m c)

theorem W27_main_arg0 : W27 m c (Proc.devRef .tc main_arg0) = m ((c : Thread nD τ).loc main_arg0) :=
  (congrFun (V_eq_27 m c) _).symm.trans (Gen.V27_main_arg0 m (outs m) c)
theorem W27_main_arg1 : W27 m c (Proc.devRef .tc main_arg1) = m ((c : Thread nD τ).loc main_arg1) :=
  (congrFun (V_eq_27 m c) _).symm.trans (Gen.V27_main_arg1 m (outs m) c)
theorem W27_main_arg4 : W27 m c (Proc.devRef .tc main_arg4) = m ((c : Thread nD τ).loc main_arg4) :=
  (congrFun (V_eq_27 m c) _).symm.trans (Gen.V27_main_arg4 m (outs m) c)
theorem W27_main_arg14 : W27 m c (Proc.devRef .tc main_arg14) = m ((c : Thread nD τ).loc main_arg14) :=
  (congrFun (V_eq_27 m c) _).symm.trans (Gen.V27_main_arg14 m (outs m) c)
theorem W27_main_arg15 : W27 m c (Proc.devRef .tc main_arg15) = m ((c : Thread nD τ).loc main_arg15) :=
  (congrFun (V_eq_27 m c) _).symm.trans (Gen.V27_main_arg15 m (outs m) c)
theorem W27_main_arg16 : W27 m c (Proc.devRef .tc main_arg16) = m ((c : Thread nD τ).loc main_arg16) :=
  (congrFun (V_eq_27 m c) _).symm.trans (Gen.V27_main_arg16 m (outs m) c)
theorem W27_main_arg17 : W27 m c (Proc.devRef .tc main_arg17) = m ((c : Thread nD τ).loc main_arg17) :=
  (congrFun (V_eq_27 m c) _).symm.trans (Gen.V27_main_arg17 m (outs m) c)

end Cert.KernelIdeal.Hand

end
-- ==== Proof.KI.Regs0.lean ====
import proofs.«105940_j32358283608240_1_alg».proof.Proof.KI.Chain
import proofs.«105940_j32358283608240_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 13) → (c : Dev nD) → Dat τ (Elt F) Unit ℕ (UR sig nD τ) ℕ (cfgs p) c
  | ⟨0, _⟩ => fun c => dat0 (B1 m) c
  | ⟨1, _⟩ => fun c => dat1 (B3 m) c
  | ⟨2, _⟩ => fun c => dat2 (B5 m) c
  | ⟨3, _⟩ => fun c => dat3 (B7 m) c
  | ⟨4, _⟩ => fun c => dat4 (B9 m) c
  | ⟨5, _⟩ => fun c => dat5 (B11 m) c
  | ⟨6, _⟩ => fun c => dat6 (B13 m) c
  | ⟨7, _⟩ => fun c => dat7 (B15 m) c
  | ⟨8, _⟩ => fun c => dat8 (B17 m) c
  | ⟨9, _⟩ => fun c => dat9 (B19 m) c
  | ⟨10, _⟩ => fun c => dat10 (B21 m) c
  | ⟨11, _⟩ => fun c => dat11 (B23 m) c
  | ⟨12, _⟩ => fun c => dat12 (B25 m) c

abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev u₀ : UR sig nD τ := initOf (Pipeline.cells cfgs cellOf_inj) (Pipeline.launchToks cfgs cellOf_inj)

theorem launch_own : (ownU u₀ : sProp 𝕄)
    ⊢ |={Set.univ}=> iprop(BI.own (emb₁ u₀) ∗ bigSep Finset.univ fun _ : Dev nD => (iprop(emp) : sProp 𝕄)) := by
  iintro Hu; imodintro
  isplitl [Hu]
  · iapply (show (ownU u₀ : sProp 𝕄) ⊢ BI.own (emb₁ u₀) from .rfl)
    iexact Hu
  iapply (show (BI.emp : sProp 𝕄) ⊢ bigSep Finset.univ (fun _ : Dev nD => (BI.emp : sProp 𝕄)) from by rw [BI.bigSep_emp_const])
  iempintro

theorem launch_rest : iprop((bigSep Finset.univ fun c : Dev nD => iprop(unscopedSems0 c
        ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
    ⊢ (|={Set.univ}=> bigSep Finset.univ (fun c : Dev nD => R c) : sProp 𝕄) :=
  Pipeline.initEach L lv fun c => by
    iintro ⟨⟨-, HO, -, Hp, -⟩, -⟩
    imodintro
    isplitl [Hp]; · iexists _; iexact Hp
    iexists ∅; iexact HO

theorem rest_owes (c : Dev nD) : R c ⊢ (iprop(∃ W, owes (c : Thread nD τ) (0 : CellTallies nD τ sig Unit) W) : sProp 𝕄) := by
  iintro ⟨-, HO⟩; iexact HO

set_option backward.isDefEq.respectTransparency.types false in
/-- The unscoped buffers at `Wi` are region `p`'s arrays and a frame; with the arrays at their exit contents they are the unscoped buffers at `Wo`, which agrees with `Wi` off the arrays. -/
def reg (p : Fin 13) (kit : Pipeline.LaunchFacts (nD := nD) (τ := τ) cfgs p) (Wi Wo : Dev nD → Valuation τ sig (Elt F))
    (hbody : ∀ c, BodyObligation (pdats m p c) (defs₀ (F := F)) Variants.none () Set.univ)
    (hA : ∀ c w, (pdats m p c).A w = Wi c (Pipeline.arrRef (cfgs p).spec w))
    (hΦ : ∀ c j, (pdats m p c).Φ j = Pipeline.ΦA (cfgs p).spec c)
    (hq : ∀ c w, (pdats m p c).q w = fullShare)
    (howed : ∀ c j, (pdats m p c).owed j = 0)
    (hrec : ∀ c j, (pdats m p c).recorded j = Set.univ)
    (hF : ∀ c w, (pdats m p c).arrAt w (cfgs p).N = Wo c (Pipeline.arrRef (cfgs p).spec w))
    (hrest : ∀ c, ∀ b : Ref sig .tc, b ∉ Finset.univ.image (Pipeline.arrRef (cfgs p).spec) → Wo c b = Wi c b) :
    Pipeline.RegionSeg (pcfgs (F := F)) adm (pdats m) () defs₀ Variants.none L lv p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    rw [Pipeline.ownSems0_none]
    have hsplit := Pipeline.arrays_of_unscopedBufs (p := p) (pcfgs (F := F)) adm (pdats m) kit.win kit.arr_whole c
      ((pdats m p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c 0, hrec c 0]
      icases HO with ⟨%W, HO⟩; iexists W; isplitr; · ipureintro; exact fun _ _ => Or.inl trivial
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      kit.win kit.arr_whole c (pdats m) ((pdats m p c).share_full (hq c))
      (fun b => Wi c b) (fun b => Wo c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

end Cert.KernelIdeal.Hand

end
-- ==== Proof.KI.Regs.lean ====
import proofs.«105940_j32358283608240_1_alg».proof.Proof.KI.Regs0
import proofs.«105940_j32358283608240_1_alg».proof.Proof.KI.RunValue
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false

def reg0 := reg m 0 launch0 (W1 m) (W2 m) (body_obligation0 (B1 m)) (A_eq0 (B1 m)) (Phi_eq0 (B1 m)) (q_eq0 (B1 m))
  (owed_eq0 (B1 m)) (recorded_eq0 (B1 m)) (hF0 m) (hrest0 m)
def reg1 := reg m 1 launch1 (W3 m) (W4 m) (body_obligation1 (B3 m)) (A_eq1 (B3 m)) (Phi_eq1 (B3 m)) (q_eq1 (B3 m))
  (owed_eq1 (B3 m)) (recorded_eq1 (B3 m)) (hF1 m) (hrest1 m)
def reg2 := reg m 2 launch2 (W5 m) (W6 m) (body_obligation2 (B5 m)) (A_eq2 (B5 m)) (Phi_eq2 (B5 m)) (q_eq2 (B5 m))
  (owed_eq2 (B5 m)) (recorded_eq2 (B5 m)) (hF2 m) (hrest2 m)
def reg3 := reg m 3 launch3 (W7 m) (W8 m) (body_obligation3 (B7 m)) (A_eq3 (B7 m)) (Phi_eq3 (B7 m)) (q_eq3 (B7 m))
  (owed_eq3 (B7 m)) (recorded_eq3 (B7 m)) (hF3 m) (hrest3 m)
def reg4 := reg m 4 launch4 (W9 m) (W10 m) (body_obligation4 (B9 m)) (A_eq4 (B9 m)) (Phi_eq4 (B9 m)) (q_eq4 (B9 m))
  (owed_eq4 (B9 m)) (recorded_eq4 (B9 m)) (hF4 m) (hrest4 m)
def reg5 := reg m 5 launch5 (W11 m) (W12 m) (body_obligation5 (B11 m)) (A_eq5 (B11 m)) (Phi_eq5 (B11 m)) (q_eq5 (B11 m))
  (owed_eq5 (B11 m)) (recorded_eq5 (B11 m)) (hF5 m) (hrest5 m)
def reg6 := reg m 6 launch6 (W13 m) (W14 m) (body_obligation6 (B13 m)) (A_eq6 (B13 m)) (Phi_eq6 (B13 m)) (q_eq6 (B13 m))
  (owed_eq6 (B13 m)) (recorded_eq6 (B13 m)) (hF6 m) (hrest6 m)
def reg7 := reg m 7 launch7 (W15 m) (W16 m) (body_obligation7 (B15 m)) (A_eq7 (B15 m)) (Phi_eq7 (B15 m)) (q_eq7 (B15 m))
  (owed_eq7 (B15 m)) (recorded_eq7 (B15 m)) (hF7 m) (hrest7 m)
def reg8 := reg m 8 launch8 (W17 m) (W18 m) (body_obligation8 (B17 m)) (A_eq8 (B17 m)) (Phi_eq8 (B17 m)) (q_eq8 (B17 m))
  (owed_eq8 (B17 m)) (recorded_eq8 (B17 m)) (hF8 m) (hrest8 m)
def reg9 := reg m 9 launch9 (W19 m) (W20 m) (body_obligation9 (B19 m)) (A_eq9 (B19 m)) (Phi_eq9 (B19 m)) (q_eq9 (B19 m))
  (owed_eq9 (B19 m)) (recorded_eq9 (B19 m)) (hF9 m) (hrest9 m)
def reg10 := reg m 10 launch10 (W21 m) (W22 m) (body_obligation10 (B21 m)) (A_eq10 (B21 m)) (Phi_eq10 (B21 m)) (q_eq10 (B21 m))
  (owed_eq10 (B21 m)) (recorded_eq10 (B21 m)) (hF10 m) (hrest10 m)
def reg11 := reg m 11 launch11 (W23 m) (W24 m) (body_obligation11 (B23 m)) (A_eq11 (B23 m)) (Phi_eq11 (B23 m)) (q_eq11 (B23 m))
  (owed_eq11 (B23 m)) (recorded_eq11 (B23 m)) (hF11 m) (hrest11 m)
def reg12 := reg m 12 launch12 (W25 m) (W26 m) (body_obligation12 (B25 m)) (A_eq12 (B25 m)) (Phi_eq12 (B25 m)) (q_eq12 (B25 m))
  (owed_eq12 (B25 m)) (recorded_eq12 (B25 m)) (hF12 m) (hrest12 m)

theorem run_value : θ_run defs (onTc (τ := τ) (main (F := F))) ⟨m, fun _ => 0, ρ⟩ (fun r => ∀ c : Dev nD,
      r.2.mem ((c.tc : Thread nD τ).loc main_v234) = W27 m c (Proc.devRef .tc main_v234)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) := by
  generalize hW : W27 m = Wn
  obtain rfl : Wn = fun c => Gen.V27 m (outs m) c := by rw [← hW]; exact funext fun c => (V_eq_27 m c).symm
  exact frame_cond_value m emb₁ () Variants.none L lv (fun _ _ => rfl) ρ (outs m) (pdats m)
    (O₀ := 0) (G := fun _ => iprop(emp)) (u₀ := u₀) (hu₀ := launch_own)
    (E := fun _ c => R c) (hE0 := launch_rest ρ) (hE13 := rest_owes)
    (reg0 m) (fun c => V_eq_1 m c ▸ .rfl) (fun c => V_eq_2 m c ▸ .rfl)
    (reg1 m) (fun c => V_eq_3 m c ▸ .rfl) (fun c => V_eq_4 m c ▸ .rfl)
    (reg2 m) (fun c => V_eq_5 m c ▸ .rfl) (fun c => V_eq_6 m c ▸ .rfl)
    (reg3 m) (fun c => V_eq_7 m c ▸ .rfl) (fun c => V_eq_8 m c ▸ .rfl)
    (reg4 m) (fun c => V_eq_9 m c ▸ .rfl) (fun c => V_eq_10 m c ▸ .rfl)
    (reg5 m) (fun c => V_eq_11 m c ▸ .rfl) (fun c => V_eq_12 m c ▸ .rfl)
    (reg6 m) (fun c => V_eq_13 m c ▸ .rfl) (fun c => V_eq_14 m c ▸ .rfl)
    (reg7 m) (fun c => V_eq_15 m c ▸ .rfl) (fun c => V_eq_16 m c ▸ .rfl)
    (reg8 m) (fun c => V_eq_17 m c ▸ .rfl) (fun c => V_eq_18 m c ▸ .rfl)
    (reg9 m) (fun c => V_eq_19 m c ▸ .rfl) (fun c => V_eq_20 m c ▸ .rfl)
    (reg10 m) (fun c => V_eq_21 m c ▸ .rfl) (fun c => V_eq_22 m c ▸ .rfl)
    (reg11 m) (fun c => V_eq_23 m c ▸ .rfl) (fun c => V_eq_24 m c ▸ .rfl)
    (reg12 m) (fun c => V_eq_25 m c ▸ .rfl) (fun c => V_eq_26 m c ▸ .rfl)

/-- The frame is the run's post without its first conjunct. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run _ _ _).mono (fun _ h c => (h c).2) (run_value m ρ)

end Cert.KernelIdeal.Hand

end
-- ==== Proof.Ref.Ops.lean ====
import proofs.«105940_j32358283608240_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ StableHlo.nullary main_c (constantI S_ 32 0#32),
    StableHlo.unary main_c main_v0 (broadcastInDim S1600000 ![] bcast_S_S1600000 : (⟨S_, .i32⟩ : BufTy).Contents (Elt F) → (⟨S1600000, .i32⟩ : BufTy).Contents (Elt F)),
    StableHlo.binary main_arg2 main_v0 main_v1 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v2 (broadcastInDim S1600000 ![] bcast_S_S1600000 : (⟨S_, .i32⟩ : BufTy).Contents (Elt F) → (⟨S1600000, .i32⟩ : BufTy).Contents (Elt F)),
    StableHlo.binary main_arg2 main_v2 main_v3 (addi : (⟨S1600000, .i32⟩ : BufTy).Contents (Elt F) → (⟨S1600000, .i32⟩ : BufTy).Contents (Elt F) → (⟨S1600000, .i32⟩ : BufTy).Contents (Elt F)),
    StableHlo.ternary main_v1 main_v3 main_arg2 main_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v4 main_v5 (broadcastInDim S1600000x1 ![0] bcast_S1600000_S1600000x1_0 : (⟨S1600000, .i32⟩ : BufTy).Contents (Elt F) → (⟨S1600000x1, .i32⟩ : BufTy).Contents (Elt F)),
    StableHlo.binary main_arg0 main_v5 main_v6 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v7 (broadcastInDim S100000x128 ![] bcast_S_S100000x128 : (⟨S_, .f32⟩ : BufTy).Contents (Elt F) → (⟨S100000x128, .f32⟩ : BufTy).Contents (Elt F)),
    StableHlo.unary main_arg3 main_v8 (broadcastInDim S1600000x1 ![0] bcast_S1600000_S1600000x1_0 : (⟨S1600000, .i32⟩ : BufTy).Contents (Elt F) → (⟨S1600000x1, .i32⟩ : BufTy).Contents (Elt F)),
    StableHlo.ternary main_v7 main_v8 main_v6 main_v9 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_arg5 main_v10 ((extractStridedSlice S1 ![0] · slices_S4_S1_0) : (⟨S4, .f32⟩ : BufTy).Contents (Elt F) → (⟨S1, .f32⟩ : BufTy).Contents (Elt F)),
    StableHlo.reshape main_v10 main_v11 rfl shapeCasts_S1_S_,
    StableHlo.nullary main_cst_1 (constant S_ .f32 0x3F800000#32),
    StableHlo.binary main_cst_1 main_v11 main_v12 (addf : (⟨S_, .f32⟩ : BufTy).Contents (Elt F) → (⟨S_, .f32⟩ : BufTy).Contents (Elt F) → (⟨S_, .f32⟩ : BufTy).Contents (Elt F)),
    StableHlo.unary main_v12 main_v13 (broadcastInDim S100000x128 ![] bcast_S_S100000x128 : (⟨S_, .f32⟩ : BufTy).Contents (Elt F) → (⟨S100000x128, .f32⟩ : BufTy).Contents (Elt F)),
    StableHlo.binary main_v13 main_arg0 main_v14 (mulf : (⟨S100000x128, .f32⟩ : BufTy).Contents (Elt F) → (⟨S100000x128, .f32⟩ : BufTy).Contents (Elt F) → (⟨S100000x128, .f32⟩ : BufTy).Contents (Elt F)),
    StableHlo.binary main_v9 main_v14 main_v15 (addf : (⟨S100000x128, .f32⟩ : BufTy).Contents (Elt F) → (⟨S100000x128, .f32⟩ : BufTy).Contents (Elt F) → (⟨S100000x128, .f32⟩ : BufTy).Contents (Elt F)),
    StableHlo.unary main_arg6 main_v16 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v16 main_v17 rfl shapeCasts_S1x128x128_S128x128,
    StableHlo.binary main_v15 main_v17 main_v18 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v19 ((extractStridedSlice S1x128 ![0, 0] · slices_S4x128_S1x128_0_0) : (⟨S4x128, .f32⟩ : BufTy).Contents (Elt F) → (⟨S1x128, .f32⟩ : BufTy).Contents (Elt F)),
    StableHlo.reshape main_v19 main_v20 rfl shapeCasts_S1x128_S128,
    StableHlo.unary main_v20 main_v21 (broadcastInDim S1x128 ![1] bcast_S128_S1x128_1 : (⟨S128, .f32⟩ : BufTy).Contents (Elt F) → (⟨S1x128, .f32⟩ : BufTy).Contents (Elt F)),
    StableHlo.unary main_v21 main_v22 (broadcastInDim S100000x128 ![0, 1] bcast_S1x128_S100000x128_0_1 : (⟨S1x128, .f32⟩ : BufTy).Contents (Elt F) → (⟨S100000x128, .f32⟩ : BufTy).Contents (Elt F)),
    StableHlo.binary main_v18 main_v22 main_v23 (addf : (⟨S100000x128, .f32⟩ : BufTy).Contents (Elt F) → (⟨S100000x128, .f32⟩ : BufTy).Contents (Elt F) → (⟨S100000x128, .f32⟩ : BufTy).Contents (Elt F)),
    StableHlo.unary main_arg8 main_v24 ((extractStridedSlice S1x128 ![0, 0] · slices_S4x128_S1x128_0_0) : (⟨S4x128, .f32⟩ : BufTy).Contents (Elt F) → (⟨S1x128, .f32⟩ : BufTy).Contents (Elt F)),
    StableHlo.reshape main_v24 main_v25 rfl shapeCasts_S1x128_S128,
    StableHlo.unary main_arg9 main_v26 ((extractStridedSlice S1x128 ![0, 0] · slices_S4x128_S1x128_0_0) : (⟨S4x128, .f32⟩ : BufTy).Contents (Elt F) → (⟨S1x128, .f32⟩ : BufTy).Contents (Elt F)),
    StableHlo.reshape main_v26 main_v27 rfl shapeCasts_S1x128_S128,
    StableHlo.nullary main_cst_2 (constant S_ .f32 0x00000000#32),
    StableHlo.binary main_v23 main_cst_2 main_v28 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_3 (constant S_ .f32 0x47C35000#32),
    StableHlo.unary main_cst_3 main_v29 (broadcastInDim S128 ![] bcast_S_S128 : (⟨S_, .f32⟩ : BufTy).Contents (Elt F) → (⟨S128, .f32⟩ : BufTy).Contents (Elt F)),
    StableHlo.binary main_v28 main_v29 main_v30 (Host.divf : (⟨S128, .f32⟩ : BufTy).Contents (Elt F) → (⟨S128, .f32⟩ : BufTy).Contents (Elt F) → (⟨S128, .f32⟩ : BufTy).Contents (Elt F)),
    StableHlo.nullary main_c_4 (constantI S_ 32 0#32),
    StableHlo.TRef.nullary main_call0.cst (constant S_ .f32 0x00000000#32),
    StableHlo.TRef.binary ((.of main_v23) : StableHlo.TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary ((.of main_v23) : StableHlo.TRef sig ⟨S100000x128, .f32⟩) main_call0.v4 main_call0.v5 subf,
    StableHlo.TRef.binary main_call0.v5 main_call0.v5 main_call0.v6 mulf,
    StableHlo.TRef.unary ((.of main_c_4) : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary (main_call0.cst_4 : StableHlo.TRef sig ⟨S_, .f32⟩) main_call0.call0.v0 id,
    StableHlo.TRef.unary main_call0.call0.v0 main_call0.call0.v1 (broadcastInDim S128 ![] bcast_S_S128),
    StableHlo.TRef.ternary (main_call0.v12 : StableHlo.TRef sig ⟨S_, .i1⟩) (main_call0.v11 : StableHlo.TRef sig ⟨S128, .f32⟩) main_call0.call0.v1 main_call0.call0.v2 (fun p a b => select (broadcastInDim S128 ![] bcast_S_S128 p) a b),
    StableHlo.unary main_v30 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S100000x128 ![0, 1] bcast_S1x128_S100000x128_0_1 : (⟨S1x128, .f32⟩ : BufTy).Contents (Elt F) → (⟨S100000x128, .f32⟩ : BufTy).Contents (Elt F)),
    StableHlo.binary main_v23 main_v33 main_v34 (subf : (⟨S100000x128, .f32⟩ : BufTy).Contents (Elt F) → (⟨S100000x128, .f32⟩ : BufTy).Contents (Elt F) → (⟨S100000x128, .f32⟩ : BufTy).Contents (Elt F)),
    StableHlo.nullary main_cst_5 (constant S_ .f32 0x3727C5AC#32),
    StableHlo.unary main_cst_5 main_v35 (broadcastInDim S128 ![] bcast_S_S128 : (⟨S_, .f32⟩ : BufTy).Contents (Elt F) → (⟨S128, .f32⟩ : BufTy).Contents (Elt F)),
    StableHlo.binary main_v31 main_v35 main_v36 (addf : (⟨S128, .f32⟩ : BufTy).Contents (Elt F) → (⟨S128, .f32⟩ : BufTy).Contents (Elt F) → (⟨S128, .f32⟩ : BufTy).Contents (Elt F)),
    StableHlo.unary main_v36 main_v37 (Host.rsqrt : (⟨S128, .f32⟩ : BufTy).Contents (Elt F) → (⟨S128, .f32⟩ : BufTy).Contents (Elt F)),
    StableHlo.unary main_v37 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S100000x128 ![0, 1] bcast_S1x128_S100000x128_0_1 : (⟨S1x128, .f32⟩ : BufTy).Contents (Elt F) → (⟨S100000x128, .f32⟩ : BufTy).Contents (Elt F)),
    StableHlo.binary main_v34 main_v39 main_v40 (mulf : (⟨S100000x128, .f32⟩ : BufTy).Contents (Elt F) → (⟨S100000x128, .f32⟩ : BufTy).Contents (Elt F) → (⟨S100000x128, .f32⟩ : BufTy).Contents (Elt F)),
    StableHlo.unary main_v25 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v40 main_v42 main_v43 (mulf : (⟨S100000x128, .f32⟩ : BufTy).Contents (Elt F) → (⟨S100000x128, .f32⟩ : BufTy).Contents (Elt F) → (⟨S100000x128, .f32⟩ : BufTy).Contents (Elt F)),
    StableHlo.unary main_v27 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S100000x128 ![0, 1] bcast_S1x128_S100000x128_0_1 : (⟨S1x128, .f32⟩ : BufTy).Contents (Elt F) → (⟨S100000x128, .f32⟩ : BufTy).Contents (Elt F)),
    StableHlo.binary main_v43 main_v45 main_v46 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary ((.of main_v46) : StableHlo.TRef sig ⟨S100000x128, .f32⟩) main_call1.v0 main_call1.v1 maximumf,
    StableHlo.unary main_arg10 main_v48 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v48 main_v49 rfl shapeCasts_S1x128x128_S128x128,
    StableHlo.binary main_v47 main_v49 main_v50 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg11 main_v51 ((extractStridedSlice S1x128 ![0, 0] · slices_S4x128_S1x128_0_0) : (⟨S4x128, .f32⟩ : BufTy).Contents (Elt F) → (⟨S1x128, .f32⟩ : BufTy).Contents (Elt F)) ]

abbrev ops1 : List (HloOp τ sig (Elt F)) :=
  [ StableHlo.reshape main_v51 main_v52 rfl shapeCasts_S1x128_S128,
    StableHlo.unary main_v52 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S100000x128 ![0, 1] bcast_S1x128_S100000x128_0_1 : (⟨S1x128, .f32⟩ : BufTy).Contents (Elt F) → (⟨S100000x128, .f32⟩ : BufTy).Contents (Elt F)),
    StableHlo.binary main_v50 main_v54 main_v55 (addf : (⟨S100000x128, .f32⟩ : BufTy).Contents (Elt F) → (⟨S100000x128, .f32⟩ : BufTy).Contents (Elt F) → (⟨S100000x128, .f32⟩ : BufTy).Contents (Elt F)),
    StableHlo.unary main_arg12 main_v56 ((extractStridedSlice S1x128 ![0, 0] · slices_S4x128_S1x128_0_0) : (⟨S4x128, .f32⟩ : BufTy).Contents (Elt F) → (⟨S1x128, .f32⟩ : BufTy).Contents (Elt F)),
    StableHlo.reshape main_v56 main_v57 rfl shapeCasts_S1x128_S128,
    StableHlo.unary main_arg13 main_v58 ((extractStridedSlice S1x128 ![0, 0] · slices_S4x128_S1x128_0_0) : (⟨S4x128, .f32⟩ : BufTy).Contents (Elt F) → (⟨S1x128, .f32⟩ : BufTy).Contents (Elt F)),
    StableHlo.reshape main_v58 main_v59 rfl shapeCasts_S1x128_S128,
    StableHlo.nullary main_cst_6 (constant S_ .f32 0x00000000#32),
    StableHlo.binary main_v55 main_cst_6 main_v60 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_7 (constant S_ .f32 0x47C35000#32),
    StableHlo.unary main_cst_7 main_v61 (broadcastInDim S128 ![] bcast_S_S128 : (⟨S_, .f32⟩ : BufTy).Contents (Elt F) → (⟨S128, .f32⟩ : BufTy).Contents (Elt F)),
    StableHlo.binary main_v60 main_v61 main_v62 (Host.divf : (⟨S128, .f32⟩ : BufTy).Contents (Elt F) → (⟨S128, .f32⟩ : BufTy).Contents (Elt F) → (⟨S128, .f32⟩ : BufTy).Contents (Elt F)),
    StableHlo.nullary main_c_8 (constantI S_ 32 0#32),
    StableHlo.TRef.nullary main_call2.cst (constant S_ .f32 0x00000000#32),
    StableHlo.TRef.binary ((.of main_v55) : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary ((.of main_v55) : StableHlo.TRef sig ⟨S100000x128, .f32⟩) main_call2.v4 main_call2.v5 subf,
    StableHlo.TRef.binary main_call2.v5 main_call2.v5 main_call2.v6 mulf,
    StableHlo.TRef.unary ((.of main_c_8) : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary (main_call2.cst_4 : StableHlo.TRef sig ⟨S_, .f32⟩) main_call2.call0.v0 id,
    StableHlo.TRef.unary main_call2.call0.v0 main_call2.call0.v1 (broadcastInDim S128 ![] bcast_S_S128),
    StableHlo.TRef.ternary (main_call2.v12 : StableHlo.TRef sig ⟨S_, .i1⟩) (main_call2.v11 : StableHlo.TRef sig ⟨S128, .f32⟩) main_call2.call0.v1 main_call2.call0.v2 (fun p a b => select (broadcastInDim S128 ![] bcast_S_S128 p) a b),
    StableHlo.unary main_v62 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S100000x128 ![0, 1] bcast_S1x128_S100000x128_0_1 : (⟨S1x128, .f32⟩ : BufTy).Contents (Elt F) → (⟨S100000x128, .f32⟩ : BufTy).Contents (Elt F)),
    StableHlo.binary main_v55 main_v65 main_v66 (subf : (⟨S100000x128, .f32⟩ : BufTy).Contents (Elt F) → (⟨S100000x128, .f32⟩ : BufTy).Contents (Elt F) → (⟨S100000x128, .f32⟩ : BufTy).Contents (Elt F)),
    StableHlo.nullary main_cst_9 (constant S_ .f32 0x3727C5AC#32),
    StableHlo.unary main_cst_9 main_v67 (broadcastInDim S128 ![] bcast_S_S128 : (⟨S_, .f32⟩ : BufTy).Contents (Elt F) → (⟨S128, .f32⟩ : BufTy).Contents (Elt F)),
    StableHlo.binary main_v63 main_v67 main_v68 (addf : (⟨S128, .f32⟩ : BufTy).Contents (Elt F) → (⟨S128, .f32⟩ : BufTy).Contents (Elt F) → (⟨S128, .f32⟩ : BufTy).Contents (Elt F)),
    StableHlo.unary main_v68 main_v69 (Host.rsqrt : (⟨S128, .f32⟩ : BufTy).Contents (Elt F) → (⟨S128, .f32⟩ : BufTy).Contents (Elt F)),
    StableHlo.unary main_v69 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S100000x128 ![0, 1] bcast_S1x128_S100000x128_0_1 : (⟨S1x128, .f32⟩ : BufTy).Contents (Elt F) → (⟨S100000x128, .f32⟩ : BufTy).Contents (Elt F)),
    StableHlo.binary main_v66 main_v71 main_v72 (mulf : (⟨S100000x128, .f32⟩ : BufTy).Contents (Elt F) → (⟨S100000x128, .f32⟩ : BufTy).Contents (Elt F) → (⟨S100000x128, .f32⟩ : BufTy).Contents (Elt F)),
    StableHlo.unary main_v57 main_v73 (broadcastInDim S1x128 ![1] bcast_S128_S1x128_1 : (⟨S128, .f32⟩ : BufTy).Contents (Elt F) → (⟨S1x128, .f32⟩ : BufTy).Contents (Elt F)),
    StableHlo.unary main_v73 main_v74 (broadcastInDim S100000x128 ![0, 1] bcast_S1x128_S100000x128_0_1 : (⟨S1x128, .f32⟩ : BufTy).Contents (Elt F) → (⟨S100000x128, .f32⟩ : BufTy).Contents (Elt F)),
    StableHlo.binary main_v72 main_v74 main_v75 (mulf : (⟨S100000x128, .f32⟩ : BufTy).Contents (Elt F) → (⟨S100000x128, .f32⟩ : BufTy).Contents (Elt F) → (⟨S100000x128, .f32⟩ : BufTy).Contents (Elt F)),
    StableHlo.unary main_v59 main_v76 (broadcastInDim S1x128 ![1] bcast_S128_S1x128_1 : (⟨S128, .f32⟩ : BufTy).Contents (Elt F) → (⟨S1x128, .f32⟩ : BufTy).Contents (Elt F)),
    StableHlo.unary main_v76 main_v77 (broadcastInDim S100000x128 ![0, 1] bcast_S1x128_S100000x128_0_1 : (⟨S1x128, .f32⟩ : BufTy).Contents (Elt F) → (⟨S100000x128, .f32⟩ : BufTy).Contents (Elt F)),
    StableHlo.binary main_v75 main_v77 main_v78 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary ((.of main_v78) : StableHlo.TRef sig ⟨S100000x128, .f32⟩) main_call3.v0 main_call3.v1 maximumf,
    StableHlo.nullary main_c_10 (constantI S_ 32 0#32),
    StableHlo.unary main_c_10 main_v80 (broadcastInDim S1600000 ![] bcast_S_S1600000 : (⟨S_, .i32⟩ : BufTy).Contents (Elt F) → (⟨S1600000, .i32⟩ : BufTy).Contents (Elt F)),
    StableHlo.binary main_arg2 main_v80 main_v81 (cmpi .slt : (⟨S1600000, .i32⟩ : BufTy).Contents (Elt F) → (⟨S1600000, .i32⟩ : BufTy).Contents (Elt F) → (⟨S1600000, .i1⟩ : BufTy).Contents (Elt F)),
    StableHlo.nullary main_c_11 (constantI S_ 32 100000#32),
    StableHlo.unary main_c_11 main_v82 (broadcastInDim S1600000 ![] bcast_S_S1600000 : (⟨S_, .i32⟩ : BufTy).Contents (Elt F) → (⟨S1600000, .i32⟩ : BufTy).Contents (Elt F)),
    StableHlo.binary main_arg2 main_v82 main_v83 (addi : (⟨S1600000, .i32⟩ : BufTy).Contents (Elt F) → (⟨S1600000, .i32⟩ : BufTy).Contents (Elt F) → (⟨S1600000, .i32⟩ : BufTy).Contents (Elt F)),
    StableHlo.ternary main_v81 main_v83 main_arg2 main_v84 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v84 main_v85 (broadcastInDim S1600000x1 ![0] bcast_S1600000_S1600000x1_0 : (⟨S1600000, .i32⟩ : BufTy).Contents (Elt F) → (⟨S1600000x1, .i32⟩ : BufTy).Contents (Elt F)),
    StableHlo.binary main_v79 main_v85 main_v86 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_12 (constant S_ .f32 0x00000000#32),
    StableHlo.unary main_cst_12 main_v87 (broadcastInDim S100000x128 ![] bcast_S_S100000x128 : (⟨S_, .f32⟩ : BufTy).Contents (Elt F) → (⟨S100000x128, .f32⟩ : BufTy).Contents (Elt F)),
    StableHlo.unary main_arg3 main_v88 (broadcastInDim S1600000x1 ![0] bcast_S1600000_S1600000x1_0 : (⟨S1600000, .i32⟩ : BufTy).Contents (Elt F) → (⟨S1600000x1, .i32⟩ : BufTy).Contents (Elt F)),
    StableHlo.ternary main_v87 main_v88 main_v86 main_v89 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_arg5 main_v90 ((extractStridedSlice S1 ![1] · slices_S4_S1_1) : (⟨S4, .f32⟩ : BufTy).Contents (Elt F) → (⟨S1, .f32⟩ : BufTy).Contents (Elt F)),
    StableHlo.reshape main_v90 main_v91 rfl shapeCasts_S1_S_,
    StableHlo.nullary main_cst_13 (constant S_ .f32 0x3F800000#32),
    StableHlo.binary main_cst_13 main_v91 main_v92 (addf : (⟨S_, .f32⟩ : BufTy).Contents (Elt F) → (⟨S_, .f32⟩ : BufTy).Contents (Elt F) → (⟨S_, .f32⟩ : BufTy).Contents (Elt F)),
    StableHlo.unary main_v92 main_v93 (broadcastInDim S100000x128 ![] bcast_S_S100000x128 : (⟨S_, .f32⟩ : BufTy).Contents (Elt F) → (⟨S100000x128, .f32⟩ : BufTy).Contents (Elt F)),
    StableHlo.binary main_v93 main_v79 main_v94 (mulf : (⟨S100000x128, .f32⟩ : BufTy).Contents (Elt F) → (⟨S100000x128, .f32⟩ : BufTy).Contents (Elt F) → (⟨S100000x128, .f32⟩ : BufTy).Contents (Elt F)),
    StableHlo.binary main_v89 main_v94 main_v95 (addf : (⟨S100000x128, .f32⟩ : BufTy).Contents (Elt F) → (⟨S100000x128, .f32⟩ : BufTy).Contents (Elt F) → (⟨S100000x128, .f32⟩ : BufTy).Contents (Elt F)),
    StableHlo.unary main_arg6 main_v96 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v96 main_v97 rfl shapeCasts_S1x128x128_S128x128,
    StableHlo.binary main_v95 main_v97 main_v98 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v99 ((extractStridedSlice S1x128 ![1, 0] · slices_S4x128_S1x128_1_0) : (⟨S4x128, .f32⟩ : BufTy).Contents (Elt F) → (⟨S1x128, .f32⟩ : BufTy).Contents (Elt F)),
    StableHlo.reshape main_v99 main_v100 rfl shapeCasts_S1x128_S128,
    StableHlo.unary main_v100 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S100000x128 ![0, 1] bcast_S1x128_S100000x128_0_1 : (⟨S1x128, .f32⟩ : BufTy).Contents (Elt F) → (⟨S100000x128, .f32⟩ : BufTy).Contents (Elt F)),
    StableHlo.binary main_v98 main_v102 main_v103 (addf : (⟨S100000x128, .f32⟩ : BufTy).Contents (Elt F) → (⟨S100000x128, .f32⟩ : BufTy).Contents (Elt F) → (⟨S100000x128, .f32⟩ : BufTy).Contents (Elt F)) ]

abbrev ops2 : List (HloOp τ sig (Elt F)) :=
  [ StableHlo.unary main_arg8 main_v104 ((extractStridedSlice S1x128 ![1, 0] · slices_S4x128_S1x128_1_0) : (⟨S4x128, .f32⟩ : BufTy).Contents (Elt F) → (⟨S1x128, .f32⟩ : BufTy).Contents (Elt F)),
    StableHlo.reshape main_v104 main_v105 rfl shapeCasts_S1x128_S128,
    StableHlo.unary main_arg9 main_v106 ((extractStridedSlice S1x128 ![1, 0] · slices_S4x128_S1x128_1_0) : (⟨S4x128, .f32⟩ : BufTy).Contents (Elt F) → (⟨S1x128, .f32⟩ : BufTy).Contents (Elt F)),
    StableHlo.reshape main_v106 main_v107 rfl shapeCasts_S1x128_S128,
    StableHlo.nullary main_cst_14 (constant S_ .f32 0x00000000#32),
    StableHlo.binary main_v103 main_cst_14 main_v108 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_15 (constant S_ .f32 0x47C35000#32),
    StableHlo.unary main_cst_15 main_v109 (broadcastInDim S128 ![] bcast_S_S128 : (⟨S_, .f32⟩ : BufTy).Contents (Elt F) → (⟨S128, .f32⟩ : BufTy).Contents (Elt F)),
    StableHlo.binary main_v108 main_v109 main_v110 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32),
    StableHlo.TRef.nullary main_call4.cst (constant S_ .f32 0x00000000#32),
    StableHlo.TRef.binary ((.of main_v103) : StableHlo.TRef sig ⟨S100000x128, .f32⟩) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary ((.of main_v103) : StableHlo.TRef sig ⟨S100000x128, .f32⟩) main_call4.v4 main_call4.v5 subf,
    StableHlo.TRef.binary main_call4.v5 main_call4.v5 main_call4.v6 mulf,
    StableHlo.TRef.unary ((.of main_c_16) : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary (main_call4.cst_4 : StableHlo.TRef sig ⟨S_, .f32⟩) main_call4.call0.v0 id,
    StableHlo.TRef.unary main_call4.call0.v0 main_call4.call0.v1 (broadcastInDim S128 ![] bcast_S_S128),
    StableHlo.TRef.ternary (main_call4.v12 : StableHlo.TRef sig ⟨S_, .i1⟩) (main_call4.v11 : StableHlo.TRef sig ⟨S128, .f32⟩) main_call4.call0.v1 main_call4.call0.v2 (fun p a b => select (broadcastInDim S128 ![] bcast_S_S128 p) a b),
    StableHlo.unary main_v110 main_v112 (broadcastInDim S1x128 ![1] bcast_S128_S1x128_1 : (⟨S128, .f32⟩ : BufTy).Contents (Elt F) → (⟨S1x128, .f32⟩ : BufTy).Contents (Elt F)),
    StableHlo.unary main_v112 main_v113 (broadcastInDim S100000x128 ![0, 1] bcast_S1x128_S100000x128_0_1 : (⟨S1x128, .f32⟩ : BufTy).Contents (Elt F) → (⟨S100000x128, .f32⟩ : BufTy).Contents (Elt F)),
    StableHlo.binary main_v103 main_v113 main_v114 (subf : (⟨S100000x128, .f32⟩ : BufTy).Contents (Elt F) → (⟨S100000x128, .f32⟩ : BufTy).Contents (Elt F) → (⟨S100000x128, .f32⟩ : BufTy).Contents (Elt F)),
    StableHlo.nullary main_cst_17 (constant S_ .f32 0x3727C5AC#32),
    StableHlo.unary main_cst_17 main_v115 (broadcastInDim S128 ![] bcast_S_S128 : (⟨S_, .f32⟩ : BufTy).Contents (Elt F) → (⟨S128, .f32⟩ : BufTy).Contents (Elt F)),
    StableHlo.binary main_v111 main_v115 main_v116 (addf : (⟨S128, .f32⟩ : BufTy).Contents (Elt F) → (⟨S128, .f32⟩ : BufTy).Contents (Elt F) → (⟨S128, .f32⟩ : BufTy).Contents (Elt F)),
    StableHlo.unary main_v116 main_v117 (Host.rsqrt : (⟨S128, .f32⟩ : BufTy).Contents (Elt F) → (⟨S128, .f32⟩ : BufTy).Contents (Elt F)),
    StableHlo.unary main_v117 main_v118 (broadcastInDim S1x128 ![1] bcast_S128_S1x128_1 : (⟨S128, .f32⟩ : BufTy).Contents (Elt F) → (⟨S1x128, .f32⟩ : BufTy).Contents (Elt F)),
    StableHlo.unary main_v118 main_v119 (broadcastInDim S100000x128 ![0, 1] bcast_S1x128_S100000x128_0_1 : (⟨S1x128, .f32⟩ : BufTy).Contents (Elt F) → (⟨S100000x128, .f32⟩ : BufTy).Contents (Elt F)),
    StableHlo.binary main_v114 main_v119 main_v120 (mulf : (⟨S100000x128, .f32⟩ : BufTy).Contents (Elt F) → (⟨S100000x128, .f32⟩ : BufTy).Contents (Elt F) → (⟨S100000x128, .f32⟩ : BufTy).Contents (Elt F)),
    StableHlo.unary main_v105 main_v121 (broadcastInDim S1x128 ![1] bcast_S128_S1x128_1 : (⟨S128, .f32⟩ : BufTy).Contents (Elt F) → (⟨S1x128, .f32⟩ : BufTy).Contents (Elt F)),
    StableHlo.unary main_v121 main_v122 (broadcastInDim S100000x128 ![0, 1] bcast_S1x128_S100000x128_0_1 : (⟨S1x128, .f32⟩ : BufTy).Contents (Elt F) → (⟨S100000x128, .f32⟩ : BufTy).Contents (Elt F)),
    StableHlo.binary main_v120 main_v122 main_v123 (mulf : (⟨S100000x128, .f32⟩ : BufTy).Contents (Elt F) → (⟨S100000x128, .f32⟩ : BufTy).Contents (Elt F) → (⟨S100000x128, .f32⟩ : BufTy).Contents (Elt F)),
    StableHlo.unary main_v107 main_v124 (broadcastInDim S1x128 ![1] bcast_S128_S1x128_1 : (⟨S128, .f32⟩ : BufTy).Contents (Elt F) → (⟨S1x128, .f32⟩ : BufTy).Contents (Elt F)),
    StableHlo.unary main_v124 main_v125 (broadcastInDim S100000x128 ![0, 1] bcast_S1x128_S100000x128_0_1 : (⟨S1x128, .f32⟩ : BufTy).Contents (Elt F) → (⟨S100000x128, .f32⟩ : BufTy).Contents (Elt F)),
    StableHlo.binary main_v123 main_v125 main_v126 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary ((.of main_v126) : StableHlo.TRef sig ⟨S100000x128, .f32⟩) main_call5.v0 main_call5.v1 maximumf,
    StableHlo.unary main_arg10 main_v128 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v128 main_v129 rfl shapeCasts_S1x128x128_S128x128,
    StableHlo.binary main_v127 main_v129 main_v130 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg11 main_v131 ((extractStridedSlice S1x128 ![1, 0] · slices_S4x128_S1x128_1_0) : (⟨S4x128, .f32⟩ : BufTy).Contents (Elt F) → (⟨S1x128, .f32⟩ : BufTy).Contents (Elt F)),
    StableHlo.reshape main_v131 main_v132 rfl shapeCasts_S1x128_S128,
    StableHlo.unary main_v132 main_v133 (broadcastInDim S1x128 ![1] bcast_S128_S1x128_1 : (⟨S128, .f32⟩ : BufTy).Contents (Elt F) → (⟨S1x128, .f32⟩ : BufTy).Contents (Elt F)),
    StableHlo.unary main_v133 main_v134 (broadcastInDim S100000x128 ![0, 1] bcast_S1x128_S100000x128_0_1 : (⟨S1x128, .f32⟩ : BufTy).Contents (Elt F) → (⟨S100000x128, .f32⟩ : BufTy).Contents (Elt F)),
    StableHlo.binary main_v130 main_v134 main_v135 (addf : (⟨S100000x128, .f32⟩ : BufTy).Contents (Elt F) → (⟨S100000x128, .f32⟩ : BufTy).Contents (Elt F) → (⟨S100000x128, .f32⟩ : BufTy).Contents (Elt F)),
    StableHlo.unary main_arg12 main_v136 ((extractStridedSlice S1x128 ![1, 0] · slices_S4x128_S1x128_1_0) : (⟨S4x128, .f32⟩ : BufTy).Contents (Elt F) → (⟨S1x128, .f32⟩ : BufTy).Contents (Elt F)),
    StableHlo.reshape main_v136 main_v137 rfl shapeCasts_S1x128_S128,
    StableHlo.unary main_arg13 main_v138 ((extractStridedSlice S1x128 ![1, 0] · slices_S4x128_S1x128_1_0) : (⟨S4x128, .f32⟩ : BufTy).Contents (Elt F) → (⟨S1x128, .f32⟩ : BufTy).Contents (Elt F)),
    StableHlo.reshape main_v138 main_v139 rfl shapeCasts_S1x128_S128,
    StableHlo.nullary main_cst_18 (constant S_ .f32 0x00000000#32),
    StableHlo.binary main_v135 main_cst_18 main_v140 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_19 (constant S_ .f32 0x47C35000#32),
    StableHlo.unary main_cst_19 main_v141 (broadcastInDim S128 ![] bcast_S_S128 : (⟨S_, .f32⟩ : BufTy).Contents (Elt F) → (⟨S128, .f32⟩ : BufTy).Contents (Elt F)),
    StableHlo.binary main_v140 main_v141 main_v142 (Host.divf : (⟨S128, .f32⟩ : BufTy).Contents (Elt F) → (⟨S128, .f32⟩ : BufTy).Contents (Elt F) → (⟨S128, .f32⟩ : BufTy).Contents (Elt F)),
    StableHlo.nullary main_c_20 (constantI S_ 32 0#32),
    StableHlo.TRef.nullary main_call6.cst (constant S_ .f32 0x00000000#32),
    StableHlo.TRef.binary ((.of main_v135) : StableHlo.TRef sig ⟨S100000x128, .f32⟩) main_call6.cst main_call6.v0 (fun x v => Host.reduceAdd x v reducesTo_S100000x128_S128_d0 h_S_),
    StableHlo.TRef.unary main_call6.v0 main_call6.v1 (broadcastInDim S1x128 ![1] bcast_S128_S1x128_1),
    StableHlo.TRef.nullary main_call6.cst_0 (constant S_ .f32 0x47C35000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S100000x128 ![0, 1] bcast_S1x128_S100000x128_0_1),
    StableHlo.TRef.binary ((.of main_v135) : StableHlo.TRef sig ⟨S100000x128, .f32⟩) main_call6.v4 main_call6.v5 subf,
    StableHlo.TRef.binary main_call6.v5 main_call6.v5 main_call6.v6 mulf,
    StableHlo.TRef.unary ((.of main_c_20) : StableHlo.TRef sig ⟨S_, .i32⟩) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary (main_call6.cst_4 : StableHlo.TRef sig ⟨S_, .f32⟩) main_call6.call0.v0 id,
    StableHlo.TRef.unary main_call6.call0.v0 main_call6.call0.v1 (broadcastInDim S128 ![] bcast_S_S128),
    StableHlo.TRef.ternary (main_call6.v12 : StableHlo.TRef sig ⟨S_, .i1⟩) (main_call6.v11 : StableHlo.TRef sig ⟨S128, .f32⟩) main_call6.call0.v1 main_call6.call0.v2 (fun p a b => select (broadcastInDim S128 ![] bcast_S_S128 p) a b),
    StableHlo.unary main_v142 main_v144 (broadcastInDim S1x128 ![1] bcast_S128_S1x128_1 : (⟨S128, .f32⟩ : BufTy).Contents (Elt F) → (⟨S1x128, .f32⟩ : BufTy).Contents (Elt F)),
    StableHlo.unary main_v144 main_v145 (broadcastInDim S100000x128 ![0, 1] bcast_S1x128_S100000x128_0_1 : (⟨S1x128, .f32⟩ : BufTy).Contents (Elt F) → (⟨S100000x128, .f32⟩ : BufTy).Contents (Elt F)),
    StableHlo.binary main_v135 main_v145 main_v146 (subf : (⟨S100000x128, .f32⟩ : BufTy).Contents (Elt F) → (⟨S100000x128, .f32⟩ : BufTy).Contents (Elt F) → (⟨S100000x128, .f32⟩ : BufTy).Contents (Elt F)),
    StableHlo.nullary main_cst_21 (constant S_ .f32 0x3727C5AC#32),
    StableHlo.unary main_cst_21 main_v147 (broadcastInDim S128 ![] bcast_S_S128 : (⟨S_, .f32⟩ : BufTy).Contents (Elt F) → (⟨S128, .f32⟩ : BufTy).Contents (Elt F)),
    StableHlo.binary main_v143 main_v147 main_v148 (addf : (⟨S128, .f32⟩ : BufTy).Contents (Elt F) → (⟨S128, .f32⟩ : BufTy).Contents (Elt F) → (⟨S128, .f32⟩ : BufTy).Contents (Elt F)),
    StableHlo.unary main_v148 main_v149 (Host.rsqrt : (⟨S128, .f32⟩ : BufTy).Contents (Elt F) → (⟨S128, .f32⟩ : BufTy).Contents (Elt F)),
    StableHlo.unary main_v149 main_v150 (broadcastInDim S1x128 ![1] bcast_S128_S1x128_1 : (⟨S128, .f32⟩ : BufTy).Contents (Elt F) → (⟨S1x128, .f32⟩ : BufTy).Contents (Elt F)),
    StableHlo.unary main_v150 main_v151 (broadcastInDim S100000x128 ![0, 1] bcast_S1x128_S100000x128_0_1 : (⟨S1x128, .f32⟩ : BufTy).Contents (Elt F) → (⟨S100000x128, .f32⟩ : BufTy).Contents (Elt F)),
    StableHlo.binary main_v146 main_v151 main_v152 (mulf : (⟨S100000x128, .f32⟩ : BufTy).Contents (Elt F) → (⟨S100000x128, .f32⟩ : BufTy).Contents (Elt F) → (⟨S100000x128, .f32⟩ : BufTy).Contents (Elt F)),
    StableHlo.unary main_v137 main_v153 (broadcastInDim S1x128 ![1] bcast_S128_S1x128_1 : (⟨S128, .f32⟩ : BufTy).Contents (Elt F) → (⟨S1x128, .f32⟩ : BufTy).Contents (Elt F)),
    StableHlo.unary main_v153 main_v154 (broadcastInDim S100000x128 ![0, 1] bcast_S1x128_S100000x128_0_1 : (⟨S1x128, .f32⟩ : BufTy).Contents (Elt F) → (⟨S100000x128, .f32⟩ : BufTy).Contents (Elt F)),
    StableHlo.binary main_v152 main_v154 main_v155 (mulf : (⟨S100000x128, .f32⟩ : BufTy).Contents (Elt F) → (⟨S100000x128, .f32⟩ : BufTy).Contents (Elt F) → (⟨S100000x128, .f32⟩ : BufTy).Contents (Elt F)) ]

abbrev ops3 : List (HloOp τ sig (Elt F)) :=
  [ StableHlo.unary main_v139 main_v156 (broadcastInDim S1x128 ![1] bcast_S128_S1x128_1 : (⟨S128, .f32⟩ : BufTy).Contents (Elt F) → (⟨S1x128, .f32⟩ : BufTy).Contents (Elt F)),
    StableHlo.unary main_v156 main_v157 (broadcastInDim S100000x128 ![0, 1] bcast_S1x128_S100000x128_0_1 : (⟨S1x128, .f32⟩ : BufTy).Contents (Elt F) → (⟨S100000x128, .f32⟩ : BufTy).Contents (Elt F)),
    StableHlo.binary main_v155 main_v157 main_v158 (addf : (⟨S100000x128, .f32⟩ : BufTy).Contents (Elt F) → (⟨S100000x128, .f32⟩ : BufTy).Contents (Elt F) → (⟨S100000x128, .f32⟩ : BufTy).Contents (Elt F)),
    StableHlo.TRef.nullary main_call7.cst (constant S_ .f32 0x00000000#32),
    StableHlo.TRef.unary main_call7.cst main_call7.v0 (broadcastInDim S100000x128 ![] bcast_S_S100000x128),
    StableHlo.TRef.binary ((.of main_v158) : StableHlo.TRef sig ⟨S100000x128, .f32⟩) main_call7.v0 main_call7.v1 maximumf,
    StableHlo.nullary main_c_22 (constantI S_ 32 0#32),
    StableHlo.unary main_c_22 main_v160 (broadcastInDim S1600000 ![] bcast_S_S1600000 : (⟨S_, .i32⟩ : BufTy).Contents (Elt F) → (⟨S1600000, .i32⟩ : BufTy).Contents (Elt F)),
    StableHlo.binary main_arg2 main_v160 main_v161 (cmpi .slt : (⟨S1600000, .i32⟩ : BufTy).Contents (Elt F) → (⟨S1600000, .i32⟩ : BufTy).Contents (Elt F) → (⟨S1600000, .i1⟩ : BufTy).Contents (Elt F)),
    StableHlo.nullary main_c_23 (constantI S_ 32 100000#32),
    StableHlo.unary main_c_23 main_v162 (broadcastInDim S1600000 ![] bcast_S_S1600000 : (⟨S_, .i32⟩ : BufTy).Contents (Elt F) → (⟨S1600000, .i32⟩ : BufTy).Contents (Elt F)),
    StableHlo.binary main_arg2 main_v162 main_v163 (addi : (⟨S1600000, .i32⟩ : BufTy).Contents (Elt F) → (⟨S1600000, .i32⟩ : BufTy).Contents (Elt F) → (⟨S1600000, .i32⟩ : BufTy).Contents (Elt F)),
    StableHlo.ternary main_v161 main_v163 main_arg2 main_v164 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v164 main_v165 (broadcastInDim S1600000x1 ![0] bcast_S1600000_S1600000x1_0 : (⟨S1600000, .i32⟩ : BufTy).Contents (Elt F) → (⟨S1600000x1, .i32⟩ : BufTy).Contents (Elt F)),
    StableHlo.binary main_v159 main_v165 main_v166 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_24 (constant S_ .f32 0x00000000#32),
    StableHlo.unary main_cst_24 main_v167 (broadcastInDim S100000x128 ![] bcast_S_S100000x128 : (⟨S_, .f32⟩ : BufTy).Contents (Elt F) → (⟨S100000x128, .f32⟩ : BufTy).Contents (Elt F)),
    StableHlo.unary main_arg3 main_v168 (broadcastInDim S1600000x1 ![0] bcast_S1600000_S1600000x1_0 : (⟨S1600000, .i32⟩ : BufTy).Contents (Elt F) → (⟨S1600000x1, .i32⟩ : BufTy).Contents (Elt F)),
    StableHlo.ternary main_v167 main_v168 main_v166 main_v169 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_arg5 main_v170 ((extractStridedSlice S1 ![2] · slices_S4_S1_2) : (⟨S4, .f32⟩ : BufTy).Contents (Elt F) → (⟨S1, .f32⟩ : BufTy).Contents (Elt F)),
    StableHlo.reshape main_v170 main_v171 rfl shapeCasts_S1_S_,
    StableHlo.nullary main_cst_25 (constant S_ .f32 0x3F800000#32),
    StableHlo.binary main_cst_25 main_v171 main_v172 (addf : (⟨S_, .f32⟩ : BufTy).Contents (Elt F) → (⟨S_, .f32⟩ : BufTy).Contents (Elt F) → (⟨S_, .f32⟩ : BufTy).Contents (Elt F)),
    StableHlo.unary main_v172 main_v173 (broadcastInDim S100000x128 ![] bcast_S_S100000x128 : (⟨S_, .f32⟩ : BufTy).Contents (Elt F) → (⟨S100000x128, .f32⟩ : BufTy).Contents (Elt F)),
    StableHlo.binary main_v173 main_v159 main_v174 (mulf : (⟨S100000x128, .f32⟩ : BufTy).Contents (Elt F) → (⟨S100000x128, .f32⟩ : BufTy).Contents (Elt F) → (⟨S100000x128, .f32⟩ : BufTy).Contents (Elt F)),
    StableHlo.binary main_v169 main_v174 main_v175 (addf : (⟨S100000x128, .f32⟩ : BufTy).Contents (Elt F) → (⟨S100000x128, .f32⟩ : BufTy).Contents (Elt F) → (⟨S100000x128, .f32⟩ : BufTy).Contents (Elt F)),
    StableHlo.unary main_arg6 main_v176 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v176 main_v177 rfl shapeCasts_S1x128x128_S128x128,
    StableHlo.binary main_v175 main_v177 main_v178 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v179 ((extractStridedSlice S1x128 ![2, 0] · slices_S4x128_S1x128_2_0) : (⟨S4x128, .f32⟩ : BufTy).Contents (Elt F) → (⟨S1x128, .f32⟩ : BufTy).Contents (Elt F)),
    StableHlo.reshape main_v179 main_v180 rfl shapeCasts_S1x128_S128,
    StableHlo.unary main_v180 main_v181 (broadcastInDim S1x128 ![1] bcast_S128_S1x128_1 : (⟨S128, .f32⟩ : BufTy).Contents (Elt F) → (⟨S1x128, .f32⟩ : BufTy).Contents (Elt F)),
    StableHlo.unary main_v181 main_v182 (broadcastInDim S100000x128 ![0, 1] bcast_S1x128_S100000x128_0_1 : (⟨S1x128, .f32⟩ : BufTy).Contents (Elt F) → (⟨S100000x128, .f32⟩ : BufTy).Contents (Elt F)),
    StableHlo.binary main_v178 main_v182 main_v183 (addf : (⟨S100000x128, .f32⟩ : BufTy).Contents (Elt F) → (⟨S100000x128, .f32⟩ : BufTy).Contents (Elt F) → (⟨S100000x128, .f32⟩ : BufTy).Contents (Elt F)),
    StableHlo.unary main_arg8 main_v184 ((extractStridedSlice S1x128 ![2, 0] · slices_S4x128_S1x128_2_0) : (⟨S4x128, .f32⟩ : BufTy).Contents (Elt F) → (⟨S1x128, .f32⟩ : BufTy).Contents (Elt F)),
    StableHlo.reshape main_v184 main_v185 rfl shapeCasts_S1x128_S128,
    StableHlo.unary main_arg9 main_v186 ((extractStridedSlice S1x128 ![2, 0] · slices_S4x128_S1x128_2_0) : (⟨S4x128, .f32⟩ : BufTy).Contents (Elt F) → (⟨S1x128, .f32⟩ : BufTy).Contents (Elt F)),
    StableHlo.reshape main_v186 main_v187 rfl shapeCasts_S1x128_S128,
    StableHlo.nullary main_cst_26 (constant S_ .f32 0x00000000#32),
    StableHlo.binary main_v183 main_cst_26 main_v188 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_27 (constant S_ .f32 0x47C35000#32),
    StableHlo.unary main_cst_27 main_v189 (broadcastInDim S128 ![] bcast_S_S128 : (⟨S_, .f32⟩ : BufTy).Contents (Elt F) → (⟨S128, .f32⟩ : BufTy).Contents (Elt F)),
    StableHlo.binary main_v188 main_v189 main_v190 (Host.divf : (⟨S128, .f32⟩ : BufTy).Contents (Elt F) → (⟨S128, .f32⟩ : BufTy).Contents (Elt F) → (⟨S128, .f32⟩ : BufTy).Contents (Elt F)),
    StableHlo.nullary main_c_28 (constantI S_ 32 0#32),
    StableHlo.TRef.nullary main_call8.cst (constant S_ .f32 0x00000000#32),
    StableHlo.TRef.binary ((.of main_v183) : StableHlo.TRef sig ⟨S100000x128, .f32⟩) main_call8.cst main_call8.v0 (fun x v => Host.reduceAdd x v reducesTo_S100000x128_S128_d0 h_S_),
    StableHlo.TRef.unary main_call8.v0 main_call8.v1 (broadcastInDim S1x128 ![1] bcast_S128_S1x128_1),
    StableHlo.TRef.nullary main_call8.cst_0 (constant S_ .f32 0x47C35000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S100000x128 ![0, 1] bcast_S1x128_S100000x128_0_1),
    StableHlo.TRef.binary ((.of main_v183) : StableHlo.TRef sig ⟨S100000x128, .f32⟩) main_call8.v4 main_call8.v5 subf,
    StableHlo.TRef.binary main_call8.v5 main_call8.v5 main_call8.v6 mulf,
    StableHlo.TRef.unary ((.of main_c_28) : StableHlo.TRef sig ⟨S_, .i32⟩) main_call8.v7 (sitofp .f32),
    StableHlo.TRef.nullary main_call8.cst_1 (constant S_ .f32 0x47C35000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S100000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary (main_call8.cst_4 : StableHlo.TRef sig ⟨S_, .f32⟩) main_call8.call0.v0 id,
    StableHlo.TRef.unary main_call8.call0.v0 main_call8.call0.v1 (broadcastInDim S128 ![] bcast_S_S128),
    StableHlo.TRef.ternary (main_call8.v12 : StableHlo.TRef sig ⟨S_, .i1⟩) (main_call8.v11 : StableHlo.TRef sig ⟨S128, .f32⟩) main_call8.call0.v1 main_call8.call0.v2 (fun p a b => select (broadcastInDim S128 ![] bcast_S_S128 p) a b),
    StableHlo.unary main_v190 main_v192 (broadcastInDim S1x128 ![1] bcast_S128_S1x128_1 : (⟨S128, .f32⟩ : BufTy).Contents (Elt F) → (⟨S1x128, .f32⟩ : BufTy).Contents (Elt F)),
    StableHlo.unary main_v192 main_v193 (broadcastInDim S100000x128 ![0, 1] bcast_S1x128_S100000x128_0_1 : (⟨S1x128, .f32⟩ : BufTy).Contents (Elt F) → (⟨S100000x128, .f32⟩ : BufTy).Contents (Elt F)),
    StableHlo.binary main_v183 main_v193 main_v194 (subf : (⟨S100000x128, .f32⟩ : BufTy).Contents (Elt F) → (⟨S100000x128, .f32⟩ : BufTy).Contents (Elt F) → (⟨S100000x128, .f32⟩ : BufTy).Contents (Elt F)),
    StableHlo.nullary main_cst_29 (constant S_ .f32 0x3727C5AC#32),
    StableHlo.unary main_cst_29 main_v195 (broadcastInDim S128 ![] bcast_S_S128 : (⟨S_, .f32⟩ : BufTy).Contents (Elt F) → (⟨S128, .f32⟩ : BufTy).Contents (Elt F)),
    StableHlo.binary main_v191 main_v195 main_v196 (addf : (⟨S128, .f32⟩ : BufTy).Contents (Elt F) → (⟨S128, .f32⟩ : BufTy).Contents (Elt F) → (⟨S128, .f32⟩ : BufTy).Contents (Elt F)),
    StableHlo.unary main_v196 main_v197 (Host.rsqrt : (⟨S128, .f32⟩ : BufTy).Contents (Elt F) → (⟨S128, .f32⟩ : BufTy).Contents (Elt F)),
    StableHlo.unary main_v197 main_v198 (broadcastInDim S1x128 ![1] bcast_S128_S1x128_1 : (⟨S128, .f32⟩ : BufTy).Contents (Elt F) → (⟨S1x128, .f32⟩ : BufTy).Contents (Elt F)),
    StableHlo.unary main_v198 main_v199 (broadcastInDim S100000x128 ![0, 1] bcast_S1x128_S100000x128_0_1 : (⟨S1x128, .f32⟩ : BufTy).Contents (Elt F) → (⟨S100000x128, .f32⟩ : BufTy).Contents (Elt F)),
    StableHlo.binary main_v194 main_v199 main_v200 (mulf : (⟨S100000x128, .f32⟩ : BufTy).Contents (Elt F) → (⟨S100000x128, .f32⟩ : BufTy).Contents (Elt F) → (⟨S100000x128, .f32⟩ : BufTy).Contents (Elt F)),
    StableHlo.unary main_v185 main_v201 (broadcastInDim S1x128 ![1] bcast_S128_S1x128_1 : (⟨S128, .f32⟩ : BufTy).Contents (Elt F) → (⟨S1x128, .f32⟩ : BufTy).Contents (Elt F)),
    StableHlo.unary main_v201 main_v202 (broadcastInDim S100000x128 ![0, 1] bcast_S1x128_S100000x128_0_1 : (⟨S1x128, .f32⟩ : BufTy).Contents (Elt F) → (⟨S100000x128, .f32⟩ : BufTy).Contents (Elt F)),
    StableHlo.binary main_v200 main_v202 main_v203 (mulf : (⟨S100000x128, .f32⟩ : BufTy).Contents (Elt F) → (⟨S100000x128, .f32⟩ : BufTy).Contents (Elt F) → (⟨S100000x128, .f32⟩ : BufTy).Contents (Elt F)),
    StableHlo.unary main_v187 main_v204 (broadcastInDim S1x128 ![1] bcast_S128_S1x128_1 : (⟨S128, .f32⟩ : BufTy).Contents (Elt F) → (⟨S1x128, .f32⟩ : BufTy).Contents (Elt F)),
    StableHlo.unary main_v204 main_v205 (broadcastInDim S100000x128 ![0, 1] bcast_S1x128_S100000x128_0_1 : (⟨S1x128, .f32⟩ : BufTy).Contents (Elt F) → (⟨S100000x128, .f32⟩ : BufTy).Contents (Elt F)),
    StableHlo.binary main_v203 main_v205 main_v206 (addf : (⟨S100000x128, .f32⟩ : BufTy).Contents (Elt F) → (⟨S100000x128, .f32⟩ : BufTy).Contents (Elt F) → (⟨S100000x128, .f32⟩ : BufTy).Contents (Elt F)),
    StableHlo.TRef.nullary main_call9.cst (constant S_ .f32 0x00000000#32),
    StableHlo.TRef.unary main_call9.cst main_call9.v0 (broadcastInDim S100000x128 ![] bcast_S_S100000x128),
    StableHlo.TRef.binary ((.of main_v206) : StableHlo.TRef sig ⟨S100000x128, .f32⟩) main_call9.v0 main_call9.v1 maximumf ]

abbrev ops4 : List (HloOp τ sig (Elt F)) :=
  [ StableHlo.unary main_arg10 main_v208 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v208 main_v209 rfl shapeCasts_S1x128x128_S128x128,
    StableHlo.binary main_v207 main_v209 main_v210 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg11 main_v211 ((extractStridedSlice S1x128 ![2, 0] · slices_S4x128_S1x128_2_0) : (⟨S4x128, .f32⟩ : BufTy).Contents (Elt F) → (⟨S1x128, .f32⟩ : BufTy).Contents (Elt F)),
    StableHlo.reshape main_v211 main_v212 rfl shapeCasts_S1x128_S128,
    StableHlo.unary main_v212 main_v213 (broadcastInDim S1x128 ![1] bcast_S128_S1x128_1 : (⟨S128, .f32⟩ : BufTy).Contents (Elt F) → (⟨S1x128, .f32⟩ : BufTy).Contents (Elt F)),
    StableHlo.unary main_v213 main_v214 (broadcastInDim S100000x128 ![0, 1] bcast_S1x128_S100000x128_0_1 : (⟨S1x128, .f32⟩ : BufTy).Contents (Elt F) → (⟨S100000x128, .f32⟩ : BufTy).Contents (Elt F)),
    StableHlo.binary main_v210 main_v214 main_v215 (addf : (⟨S100000x128, .f32⟩ : BufTy).Contents (Elt F) → (⟨S100000x128, .f32⟩ : BufTy).Contents (Elt F) → (⟨S100000x128, .f32⟩ : BufTy).Contents (Elt F)),
    StableHlo.unary main_arg12 main_v216 ((extractStridedSlice S1x128 ![2, 0] · slices_S4x128_S1x128_2_0) : (⟨S4x128, .f32⟩ : BufTy).Contents (Elt F) → (⟨S1x128, .f32⟩ : BufTy).Contents (Elt F)),
    StableHlo.reshape main_v216 main_v217 rfl shapeCasts_S1x128_S128,
    StableHlo.unary main_arg13 main_v218 ((extractStridedSlice S1x128 ![2, 0] · slices_S4x128_S1x128_2_0) : (⟨S4x128, .f32⟩ : BufTy).Contents (Elt F) → (⟨S1x128, .f32⟩ : BufTy).Contents (Elt F)),
    StableHlo.reshape main_v218 main_v219 rfl shapeCasts_S1x128_S128,
    StableHlo.nullary main_cst_30 (constant S_ .f32 0x00000000#32),
    StableHlo.binary main_v215 main_cst_30 main_v220 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_31 (constant S_ .f32 0x47C35000#32),
    StableHlo.unary main_cst_31 main_v221 (broadcastInDim S128 ![] bcast_S_S128 : (⟨S_, .f32⟩ : BufTy).Contents (Elt F) → (⟨S128, .f32⟩ : BufTy).Contents (Elt F)),
    StableHlo.binary main_v220 main_v221 main_v222 (Host.divf : (⟨S128, .f32⟩ : BufTy).Contents (Elt F) → (⟨S128, .f32⟩ : BufTy).Contents (Elt F) → (⟨S128, .f32⟩ : BufTy).Contents (Elt F)),
    StableHlo.nullary main_c_32 (constantI S_ 32 0#32),
    StableHlo.TRef.nullary main_call10.cst (constant S_ .f32 0x00000000#32),
    StableHlo.TRef.binary ((.of main_v215) : StableHlo.TRef sig ⟨S100000x128, .f32⟩) main_call10.cst main_call10.v0 (fun x v => Host.reduceAdd x v reducesTo_S100000x128_S128_d0 h_S_),
    StableHlo.TRef.unary main_call10.v0 main_call10.v1 (broadcastInDim S1x128 ![1] bcast_S128_S1x128_1),
    StableHlo.TRef.nullary main_call10.cst_0 (constant S_ .f32 0x47C35000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S100000x128 ![0, 1] bcast_S1x128_S100000x128_0_1),
    StableHlo.TRef.binary ((.of main_v215) : StableHlo.TRef sig ⟨S100000x128, .f32⟩) main_call10.v4 main_call10.v5 subf,
    StableHlo.TRef.binary main_call10.v5 main_call10.v5 main_call10.v6 mulf,
    StableHlo.TRef.unary ((.of main_c_32) : StableHlo.TRef sig ⟨S_, .i32⟩) main_call10.v7 (sitofp .f32),
    StableHlo.TRef.nullary main_call10.cst_1 (constant S_ .f32 0x47C35000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S100000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary (main_call10.cst_4 : StableHlo.TRef sig ⟨S_, .f32⟩) main_call10.call0.v0 id,
    StableHlo.TRef.unary main_call10.call0.v0 main_call10.call0.v1 (broadcastInDim S128 ![] bcast_S_S128),
    StableHlo.TRef.ternary (main_call10.v12 : StableHlo.TRef sig ⟨S_, .i1⟩) (main_call10.v11 : StableHlo.TRef sig ⟨S128, .f32⟩) main_call10.call0.v1 main_call10.call0.v2 (fun p a b => select (broadcastInDim S128 ![] bcast_S_S128 p) a b),
    StableHlo.unary main_v222 main_v224 (broadcastInDim S1x128 ![1] bcast_S128_S1x128_1 : (⟨S128, .f32⟩ : BufTy).Contents (Elt F) → (⟨S1x128, .f32⟩ : BufTy).Contents (Elt F)),
    StableHlo.unary main_v224 main_v225 (broadcastInDim S100000x128 ![0, 1] bcast_S1x128_S100000x128_0_1 : (⟨S1x128, .f32⟩ : BufTy).Contents (Elt F) → (⟨S100000x128, .f32⟩ : BufTy).Contents (Elt F)),
    StableHlo.binary main_v215 main_v225 main_v226 (subf : (⟨S100000x128, .f32⟩ : BufTy).Contents (Elt F) → (⟨S100000x128, .f32⟩ : BufTy).Contents (Elt F) → (⟨S100000x128, .f32⟩ : BufTy).Contents (Elt F)),
    StableHlo.nullary main_cst_33 (constant S_ .f32 0x3727C5AC#32),
    StableHlo.unary main_cst_33 main_v227 (broadcastInDim S128 ![] bcast_S_S128 : (⟨S_, .f32⟩ : BufTy).Contents (Elt F) → (⟨S128, .f32⟩ : BufTy).Contents (Elt F)),
    StableHlo.binary main_v223 main_v227 main_v228 (addf : (⟨S128, .f32⟩ : BufTy).Contents (Elt F) → (⟨S128, .f32⟩ : BufTy).Contents (Elt F) → (⟨S128, .f32⟩ : BufTy).Contents (Elt F)),
    StableHlo.unary main_v228 main_v229 (Host.rsqrt : (⟨S128, .f32⟩ : BufTy).Contents (Elt F) → (⟨S128, .f32⟩ : BufTy).Contents (Elt F)),
    StableHlo.unary main_v229 main_v230 (broadcastInDim S1x128 ![1] bcast_S128_S1x128_1 : (⟨S128, .f32⟩ : BufTy).Contents (Elt F) → (⟨S1x128, .f32⟩ : BufTy).Contents (Elt F)),
    StableHlo.unary main_v230 main_v231 (broadcastInDim S100000x128 ![0, 1] bcast_S1x128_S100000x128_0_1 : (⟨S1x128, .f32⟩ : BufTy).Contents (Elt F) → (⟨S100000x128, .f32⟩ : BufTy).Contents (Elt F)),
    StableHlo.binary main_v226 main_v231 main_v232 (mulf : (⟨S100000x128, .f32⟩ : BufTy).Contents (Elt F) → (⟨S100000x128, .f32⟩ : BufTy).Contents (Elt F) → (⟨S100000x128, .f32⟩ : BufTy).Contents (Elt F)),
    StableHlo.unary main_v217 main_v233 (broadcastInDim S1x128 ![1] bcast_S128_S1x128_1 : (⟨S128, .f32⟩ : BufTy).Contents (Elt F) → (⟨S1x128, .f32⟩ : BufTy).Contents (Elt F)),
    StableHlo.unary main_v233 main_v234 (broadcastInDim S100000x128 ![0, 1] bcast_S1x128_S100000x128_0_1 : (⟨S1x128, .f32⟩ : BufTy).Contents (Elt F) → (⟨S100000x128, .f32⟩ : BufTy).Contents (Elt F)),
    StableHlo.binary main_v232 main_v234 main_v235 (mulf : (⟨S100000x128, .f32⟩ : BufTy).Contents (Elt F) → (⟨S100000x128, .f32⟩ : BufTy).Contents (Elt F) → (⟨S100000x128, .f32⟩ : BufTy).Contents (Elt F)),
    StableHlo.unary main_v219 main_v236 (broadcastInDim S1x128 ![1] bcast_S128_S1x128_1 : (⟨S128, .f32⟩ : BufTy).Contents (Elt F) → (⟨S1x128, .f32⟩ : BufTy).Contents (Elt F)),
    StableHlo.unary main_v236 main_v237 (broadcastInDim S100000x128 ![0, 1] bcast_S1x128_S100000x128_0_1 : (⟨S1x128, .f32⟩ : BufTy).Contents (Elt F) → (⟨S100000x128, .f32⟩ : BufTy).Contents (Elt F)),
    StableHlo.binary main_v235 main_v237 main_v238 (addf : (⟨S100000x128, .f32⟩ : BufTy).Contents (Elt F) → (⟨S100000x128, .f32⟩ : BufTy).Contents (Elt F) → (⟨S100000x128, .f32⟩ : BufTy).Contents (Elt F)),
    StableHlo.TRef.nullary main_call11.cst (constant S_ .f32 0x00000000#32),
    StableHlo.TRef.unary main_call11.cst main_call11.v0 (broadcastInDim S100000x128 ![] bcast_S_S100000x128),
    StableHlo.TRef.binary ((.of main_v238) : StableHlo.TRef sig ⟨S100000x128, .f32⟩) main_call11.v0 main_call11.v1 maximumf,
    StableHlo.nullary main_c_34 (constantI S_ 32 0#32),
    StableHlo.unary main_c_34 main_v240 (broadcastInDim S1600000 ![] bcast_S_S1600000 : (⟨S_, .i32⟩ : BufTy).Contents (Elt F) → (⟨S1600000, .i32⟩ : BufTy).Contents (Elt F)),
    StableHlo.binary main_arg2 main_v240 main_v241 (cmpi .slt : (⟨S1600000, .i32⟩ : BufTy).Contents (Elt F) → (⟨S1600000, .i32⟩ : BufTy).Contents (Elt F) → (⟨S1600000, .i1⟩ : BufTy).Contents (Elt F)),
    StableHlo.nullary main_c_35 (constantI S_ 32 100000#32),
    StableHlo.unary main_c_35 main_v242 (broadcastInDim S1600000 ![] bcast_S_S1600000 : (⟨S_, .i32⟩ : BufTy).Contents (Elt F) → (⟨S1600000, .i32⟩ : BufTy).Contents (Elt F)),
    StableHlo.binary main_arg2 main_v242 main_v243 (addi : (⟨S1600000, .i32⟩ : BufTy).Contents (Elt F) → (⟨S1600000, .i32⟩ : BufTy).Contents (Elt F) → (⟨S1600000, .i32⟩ : BufTy).Contents (Elt F)),
    StableHlo.ternary main_v241 main_v243 main_arg2 main_v244 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v244 main_v245 (broadcastInDim S1600000x1 ![0] bcast_S1600000_S1600000x1_0 : (⟨S1600000, .i32⟩ : BufTy).Contents (Elt F) → (⟨S1600000x1, .i32⟩ : BufTy).Contents (Elt F)),
    StableHlo.binary main_v239 main_v245 main_v246 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_36 (constant S_ .f32 0x00000000#32),
    StableHlo.unary main_cst_36 main_v247 (broadcastInDim S100000x128 ![] bcast_S_S100000x128 : (⟨S_, .f32⟩ : BufTy).Contents (Elt F) → (⟨S100000x128, .f32⟩ : BufTy).Contents (Elt F)),
    StableHlo.unary main_arg3 main_v248 (broadcastInDim S1600000x1 ![0] bcast_S1600000_S1600000x1_0 : (⟨S1600000, .i32⟩ : BufTy).Contents (Elt F) → (⟨S1600000x1, .i32⟩ : BufTy).Contents (Elt F)),
    StableHlo.ternary main_v247 main_v248 main_v246 main_v249 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_arg5 main_v250 ((extractStridedSlice S1 ![3] · slices_S4_S1_3) : (⟨S4, .f32⟩ : BufTy).Contents (Elt F) → (⟨S1, .f32⟩ : BufTy).Contents (Elt F)),
    StableHlo.reshape main_v250 main_v251 rfl shapeCasts_S1_S_,
    StableHlo.nullary main_cst_37 (constant S_ .f32 0x3F800000#32),
    StableHlo.binary main_cst_37 main_v251 main_v252 (addf : (⟨S_, .f32⟩ : BufTy).Contents (Elt F) → (⟨S_, .f32⟩ : BufTy).Contents (Elt F) → (⟨S_, .f32⟩ : BufTy).Contents (Elt F)),
    StableHlo.unary main_v252 main_v253 (broadcastInDim S100000x128 ![] bcast_S_S100000x128 : (⟨S_, .f32⟩ : BufTy).Contents (Elt F) → (⟨S100000x128, .f32⟩ : BufTy).Contents (Elt F)),
    StableHlo.binary main_v253 main_v239 main_v254 (mulf : (⟨S100000x128, .f32⟩ : BufTy).Contents (Elt F) → (⟨S100000x128, .f32⟩ : BufTy).Contents (Elt F) → (⟨S100000x128, .f32⟩ : BufTy).Contents (Elt F)),
    StableHlo.binary main_v249 main_v254 main_v255 (addf : (⟨S100000x128, .f32⟩ : BufTy).Contents (Elt F) → (⟨S100000x128, .f32⟩ : BufTy).Contents (Elt F) → (⟨S100000x128, .f32⟩ : BufTy).Contents (Elt F)),
    StableHlo.unary main_arg6 main_v256 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v256 main_v257 rfl shapeCasts_S1x128x128_S128x128,
    StableHlo.binary main_v255 main_v257 main_v258 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v259 ((extractStridedSlice S1x128 ![3, 0] · slices_S4x128_S1x128_3_0) : (⟨S4x128, .f32⟩ : BufTy).Contents (Elt F) → (⟨S1x128, .f32⟩ : BufTy).Contents (Elt F)) ]

abbrev ops5 : List (HloOp τ sig (Elt F)) :=
  [ StableHlo.reshape main_v259 main_v260 rfl shapeCasts_S1x128_S128,
    StableHlo.unary main_v260 main_v261 (broadcastInDim S1x128 ![1] bcast_S128_S1x128_1 : (⟨S128, .f32⟩ : BufTy).Contents (Elt F) → (⟨S1x128, .f32⟩ : BufTy).Contents (Elt F)),
    StableHlo.unary main_v261 main_v262 (broadcastInDim S100000x128 ![0, 1] bcast_S1x128_S100000x128_0_1 : (⟨S1x128, .f32⟩ : BufTy).Contents (Elt F) → (⟨S100000x128, .f32⟩ : BufTy).Contents (Elt F)),
    StableHlo.binary main_v258 main_v262 main_v263 (addf : (⟨S100000x128, .f32⟩ : BufTy).Contents (Elt F) → (⟨S100000x128, .f32⟩ : BufTy).Contents (Elt F) → (⟨S100000x128, .f32⟩ : BufTy).Contents (Elt F)),
    StableHlo.unary main_arg8 main_v264 ((extractStridedSlice S1x128 ![3, 0] · slices_S4x128_S1x128_3_0) : (⟨S4x128, .f32⟩ : BufTy).Contents (Elt F) → (⟨S1x128, .f32⟩ : BufTy).Contents (Elt F)),
    StableHlo.reshape main_v264 main_v265 rfl shapeCasts_S1x128_S128,
    StableHlo.unary main_arg9 main_v266 ((extractStridedSlice S1x128 ![3, 0] · slices_S4x128_S1x128_3_0) : (⟨S4x128, .f32⟩ : BufTy).Contents (Elt F) → (⟨S1x128, .f32⟩ : BufTy).Contents (Elt F)),
    StableHlo.reshape main_v266 main_v267 rfl shapeCasts_S1x128_S128,
    StableHlo.nullary main_cst_38 (constant S_ .f32 0x00000000#32),
    StableHlo.binary main_v263 main_cst_38 main_v268 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_39 (constant S_ .f32 0x47C35000#32),
    StableHlo.unary main_cst_39 main_v269 (broadcastInDim S128 ![] bcast_S_S128 : (⟨S_, .f32⟩ : BufTy).Contents (Elt F) → (⟨S128, .f32⟩ : BufTy).Contents (Elt F)),
    StableHlo.binary main_v268 main_v269 main_v270 (Host.divf : (⟨S128, .f32⟩ : BufTy).Contents (Elt F) → (⟨S128, .f32⟩ : BufTy).Contents (Elt F) → (⟨S128, .f32⟩ : BufTy).Contents (Elt F)),
    StableHlo.nullary main_c_40 (constantI S_ 32 0#32),
    StableHlo.TRef.nullary main_call12.cst (constant S_ .f32 0x00000000#32),
    StableHlo.TRef.binary ((.of main_v263) : StableHlo.TRef sig ⟨S100000x128, .f32⟩) main_call12.cst main_call12.v0 (fun x v => Host.reduceAdd x v reducesTo_S100000x128_S128_d0 h_S_),
    StableHlo.TRef.unary main_call12.v0 main_call12.v1 (broadcastInDim S1x128 ![1] bcast_S128_S1x128_1),
    StableHlo.TRef.nullary main_call12.cst_0 (constant S_ .f32 0x47C35000#32),
    StableHlo.TRef.unary main_call12.cst_0 main_call12.v2 (broadcastInDim S1x128 ![] bcast_S_S1x128),
    StableHlo.TRef.binary main_call12.v1 main_call12.v2 main_call12.v3 Host.divf,
    StableHlo.TRef.unary main_call12.v3 main_call12.v4 (broadcastInDim S100000x128 ![0, 1] bcast_S1x128_S100000x128_0_1),
    StableHlo.TRef.binary ((.of main_v263) : StableHlo.TRef sig ⟨S100000x128, .f32⟩) main_call12.v4 main_call12.v5 subf,
    StableHlo.TRef.binary main_call12.v5 main_call12.v5 main_call12.v6 mulf,
    StableHlo.TRef.unary ((.of main_c_40) : StableHlo.TRef sig ⟨S_, .i32⟩) main_call12.v7 (sitofp .f32),
    StableHlo.TRef.nullary main_call12.cst_1 (constant S_ .f32 0x47C35000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S100000x128_S128_d0 h_S_),
    StableHlo.TRef.unary main_call12.v8 main_call12.v10 (broadcastInDim S128 ![] bcast_S_S128),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary (main_call12.cst_4 : StableHlo.TRef sig ⟨S_, .f32⟩) main_call12.call0.v0 id,
    StableHlo.TRef.unary main_call12.call0.v0 main_call12.call0.v1 (broadcastInDim S128 ![] bcast_S_S128),
    StableHlo.TRef.ternary (main_call12.v12 : StableHlo.TRef sig ⟨S_, .i1⟩) (main_call12.v11 : StableHlo.TRef sig ⟨S128, .f32⟩) main_call12.call0.v1 main_call12.call0.v2 (fun p a b => select (broadcastInDim S128 ![] bcast_S_S128 p) a b),
    StableHlo.unary main_v270 main_v272 (broadcastInDim S1x128 ![1] bcast_S128_S1x128_1 : (⟨S128, .f32⟩ : BufTy).Contents (Elt F) → (⟨S1x128, .f32⟩ : BufTy).Contents (Elt F)),
    StableHlo.unary main_v272 main_v273 (broadcastInDim S100000x128 ![0, 1] bcast_S1x128_S100000x128_0_1 : (⟨S1x128, .f32⟩ : BufTy).Contents (Elt F) → (⟨S100000x128, .f32⟩ : BufTy).Contents (Elt F)),
    StableHlo.binary main_v263 main_v273 main_v274 (subf : (⟨S100000x128, .f32⟩ : BufTy).Contents (Elt F) → (⟨S100000x128, .f32⟩ : BufTy).Contents (Elt F) → (⟨S100000x128, .f32⟩ : BufTy).Contents (Elt F)),
    StableHlo.nullary main_cst_41 (constant S_ .f32 0x3727C5AC#32),
    StableHlo.unary main_cst_41 main_v275 (broadcastInDim S128 ![] bcast_S_S128 : (⟨S_, .f32⟩ : BufTy).Contents (Elt F) → (⟨S128, .f32⟩ : BufTy).Contents (Elt F)),
    StableHlo.binary main_v271 main_v275 main_v276 (addf : (⟨S128, .f32⟩ : BufTy).Contents (Elt F) → (⟨S128, .f32⟩ : BufTy).Contents (Elt F) → (⟨S128, .f32⟩ : BufTy).Contents (Elt F)),
    StableHlo.unary main_v276 main_v277 (Host.rsqrt : (⟨S128, .f32⟩ : BufTy).Contents (Elt F) → (⟨S128, .f32⟩ : BufTy).Contents (Elt F)),
    StableHlo.unary main_v277 main_v278 (broadcastInDim S1x128 ![1] bcast_S128_S1x128_1 : (⟨S128, .f32⟩ : BufTy).Contents (Elt F) → (⟨S1x128, .f32⟩ : BufTy).Contents (Elt F)),
    StableHlo.unary main_v278 main_v279 (broadcastInDim S100000x128 ![0, 1] bcast_S1x128_S100000x128_0_1 : (⟨S1x128, .f32⟩ : BufTy).Contents (Elt F) → (⟨S100000x128, .f32⟩ : BufTy).Contents (Elt F)),
    StableHlo.binary main_v274 main_v279 main_v280 (mulf : (⟨S100000x128, .f32⟩ : BufTy).Contents (Elt F) → (⟨S100000x128, .f32⟩ : BufTy).Contents (Elt F) → (⟨S100000x128, .f32⟩ : BufTy).Contents (Elt F)),
    StableHlo.unary main_v265 main_v281 (broadcastInDim S1x128 ![1] bcast_S128_S1x128_1 : (⟨S128, .f32⟩ : BufTy).Contents (Elt F) → (⟨S1x128, .f32⟩ : BufTy).Contents (Elt F)),
    StableHlo.unary main_v281 main_v282 (broadcastInDim S100000x128 ![0, 1] bcast_S1x128_S100000x128_0_1 : (⟨S1x128, .f32⟩ : BufTy).Contents (Elt F) → (⟨S100000x128, .f32⟩ : BufTy).Contents (Elt F)),
    StableHlo.binary main_v280 main_v282 main_v283 (mulf : (⟨S100000x128, .f32⟩ : BufTy).Contents (Elt F) → (⟨S100000x128, .f32⟩ : BufTy).Contents (Elt F) → (⟨S100000x128, .f32⟩ : BufTy).Contents (Elt F)),
    StableHlo.unary main_v267 main_v284 (broadcastInDim S1x128 ![1] bcast_S128_S1x128_1 : (⟨S128, .f32⟩ : BufTy).Contents (Elt F) → (⟨S1x128, .f32⟩ : BufTy).Contents (Elt F)),
    StableHlo.unary main_v284 main_v285 (broadcastInDim S100000x128 ![0, 1] bcast_S1x128_S100000x128_0_1 : (⟨S1x128, .f32⟩ : BufTy).Contents (Elt F) → (⟨S100000x128, .f32⟩ : BufTy).Contents (Elt F)),
    StableHlo.binary main_v283 main_v285 main_v286 (addf : (⟨S100000x128, .f32⟩ : BufTy).Contents (Elt F) → (⟨S100000x128, .f32⟩ : BufTy).Contents (Elt F) → (⟨S100000x128, .f32⟩ : BufTy).Contents (Elt F)),
    StableHlo.TRef.nullary main_call13.cst (constant S_ .f32 0x00000000#32),
    StableHlo.TRef.unary main_call13.cst main_call13.v0 (broadcastInDim S100000x128 ![] bcast_S_S100000x128),
    StableHlo.TRef.binary ((.of main_v286) : StableHlo.TRef sig ⟨S100000x128, .f32⟩) main_call13.v0 main_call13.v1 maximumf,
    StableHlo.unary main_arg10 main_v288 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v288 main_v289 rfl shapeCasts_S1x128x128_S128x128,
    StableHlo.binary main_v287 main_v289 main_v290 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg11 main_v291 ((extractStridedSlice S1x128 ![3, 0] · slices_S4x128_S1x128_3_0) : (⟨S4x128, .f32⟩ : BufTy).Contents (Elt F) → (⟨S1x128, .f32⟩ : BufTy).Contents (Elt F)),
    StableHlo.reshape main_v291 main_v292 rfl shapeCasts_S1x128_S128,
    StableHlo.unary main_v292 main_v293 (broadcastInDim S1x128 ![1] bcast_S128_S1x128_1 : (⟨S128, .f32⟩ : BufTy).Contents (Elt F) → (⟨S1x128, .f32⟩ : BufTy).Contents (Elt F)),
    StableHlo.unary main_v293 main_v294 (broadcastInDim S100000x128 ![0, 1] bcast_S1x128_S100000x128_0_1 : (⟨S1x128, .f32⟩ : BufTy).Contents (Elt F) → (⟨S100000x128, .f32⟩ : BufTy).Contents (Elt F)),
    StableHlo.binary main_v290 main_v294 main_v295 (addf : (⟨S100000x128, .f32⟩ : BufTy).Contents (Elt F) → (⟨S100000x128, .f32⟩ : BufTy).Contents (Elt F) → (⟨S100000x128, .f32⟩ : BufTy).Contents (Elt F)),
    StableHlo.unary main_arg12 main_v296 ((extractStridedSlice S1x128 ![3, 0] · slices_S4x128_S1x128_3_0) : (⟨S4x128, .f32⟩ : BufTy).Contents (Elt F) → (⟨S1x128, .f32⟩ : BufTy).Contents (Elt F)),
    StableHlo.reshape main_v296 main_v297 rfl shapeCasts_S1x128_S128,
    StableHlo.unary main_arg13 main_v298 ((extractStridedSlice S1x128 ![3, 0] · slices_S4x128_S1x128_3_0) : (⟨S4x128, .f32⟩ : BufTy).Contents (Elt F) → (⟨S1x128, .f32⟩ : BufTy).Contents (Elt F)),
    StableHlo.reshape main_v298 main_v299 rfl shapeCasts_S1x128_S128,
    StableHlo.nullary main_cst_42 (constant S_ .f32 0x00000000#32),
    StableHlo.binary main_v295 main_cst_42 main_v300 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_43 (constant S_ .f32 0x47C35000#32),
    StableHlo.unary main_cst_43 main_v301 (broadcastInDim S128 ![] bcast_S_S128 : (⟨S_, .f32⟩ : BufTy).Contents (Elt F) → (⟨S128, .f32⟩ : BufTy).Contents (Elt F)),
    StableHlo.binary main_v300 main_v301 main_v302 (Host.divf : (⟨S128, .f32⟩ : BufTy).Contents (Elt F) → (⟨S128, .f32⟩ : BufTy).Contents (Elt F) → (⟨S128, .f32⟩ : BufTy).Contents (Elt F)),
    StableHlo.nullary main_c_44 (constantI S_ 32 0#32),
    StableHlo.TRef.nullary main_call14.cst (constant S_ .f32 0x00000000#32),
    StableHlo.TRef.binary ((.of main_v295) : StableHlo.TRef sig ⟨S100000x128, .f32⟩) main_call14.cst main_call14.v0 (fun x v => Host.reduceAdd x v reducesTo_S100000x128_S128_d0 h_S_),
    StableHlo.TRef.unary main_call14.v0 main_call14.v1 (broadcastInDim S1x128 ![1] bcast_S128_S1x128_1),
    StableHlo.TRef.nullary main_call14.cst_0 (constant S_ .f32 0x47C35000#32),
    StableHlo.TRef.unary main_call14.cst_0 main_call14.v2 (broadcastInDim S1x128 ![] bcast_S_S1x128),
    StableHlo.TRef.binary main_call14.v1 main_call14.v2 main_call14.v3 Host.divf,
    StableHlo.TRef.unary main_call14.v3 main_call14.v4 (broadcastInDim S100000x128 ![0, 1] bcast_S1x128_S100000x128_0_1),
    StableHlo.TRef.binary ((.of main_v295) : StableHlo.TRef sig ⟨S100000x128, .f32⟩) main_call14.v4 main_call14.v5 subf,
    StableHlo.TRef.binary main_call14.v5 main_call14.v5 main_call14.v6 mulf,
    StableHlo.TRef.unary ((.of main_c_44) : StableHlo.TRef sig ⟨S_, .i32⟩) main_call14.v7 (sitofp .f32),
    StableHlo.TRef.nullary main_call14.cst_1 (constant S_ .f32 0x47C35000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S100000x128_S128_d0 h_S_),
    StableHlo.TRef.unary main_call14.v8 main_call14.v10 (broadcastInDim S128 ![] bcast_S_S128),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary (main_call14.cst_4 : StableHlo.TRef sig ⟨S_, .f32⟩) main_call14.call0.v0 id,
    StableHlo.TRef.unary main_call14.call0.v0 main_call14.call0.v1 (broadcastInDim S128 ![] bcast_S_S128),
    StableHlo.TRef.ternary (main_call14.v12 : StableHlo.TRef sig ⟨S_, .i1⟩) (main_call14.v11 : StableHlo.TRef sig ⟨S128, .f32⟩) main_call14.call0.v1 main_call14.call0.v2 (fun p a b => select (broadcastInDim S128 ![] bcast_S_S128 p) a b),
    StableHlo.unary main_v302 main_v304 (broadcastInDim S1x128 ![1] bcast_S128_S1x128_1 : (⟨S128, .f32⟩ : BufTy).Contents (Elt F) → (⟨S1x128, .f32⟩ : BufTy).Contents (Elt F)),
    StableHlo.unary main_v304 main_v305 (broadcastInDim S100000x128 ![0, 1] bcast_S1x128_S100000x128_0_1 : (⟨S1x128, .f32⟩ : BufTy).Contents (Elt F) → (⟨S100000x128, .f32⟩ : BufTy).Contents (Elt F)),
    StableHlo.binary main_v295 main_v305 main_v306 (subf : (⟨S100000x128, .f32⟩ : BufTy).Contents (Elt F) → (⟨S100000x128, .f32⟩ : BufTy).Contents (Elt F) → (⟨S100000x128, .f32⟩ : BufTy).Contents (Elt F)),
    StableHlo.nullary main_cst_45 (constant S_ .f32 0x3727C5AC#32),
    StableHlo.unary main_cst_45 main_v307 (broadcastInDim S128 ![] bcast_S_S128 : (⟨S_, .f32⟩ : BufTy).Contents (Elt F) → (⟨S128, .f32⟩ : BufTy).Contents (Elt F)),
    StableHlo.binary main_v303 main_v307 main_v308 (addf : (⟨S128, .f32⟩ : BufTy).Contents (Elt F) → (⟨S128, .f32⟩ : BufTy).Contents (Elt F) → (⟨S128, .f32⟩ : BufTy).Contents (Elt F)),
    StableHlo.unary main_v308 main_v309 (Host.rsqrt : (⟨S128, .f32⟩ : BufTy).Contents (Elt F) → (⟨S128, .f32⟩ : BufTy).Contents (Elt F)),
    StableHlo.unary main_v309 main_v310 (broadcastInDim S1x128 ![1] bcast_S128_S1x128_1 : (⟨S128, .f32⟩ : BufTy).Contents (Elt F) → (⟨S1x128, .f32⟩ : BufTy).Contents (Elt F)),
    StableHlo.unary main_v310 main_v311 (broadcastInDim S100000x128 ![0, 1] bcast_S1x128_S100000x128_0_1 : (⟨S1x128, .f32⟩ : BufTy).Contents (Elt F) → (⟨S100000x128, .f32⟩ : BufTy).Contents (Elt F)) ]

abbrev ops6 : List (HloOp τ sig (Elt F)) :=
  [ StableHlo.binary main_v306 main_v311 main_v312 (mulf : (⟨S100000x128, .f32⟩ : BufTy).Contents (Elt F) → (⟨S100000x128, .f32⟩ : BufTy).Contents (Elt F) → (⟨S100000x128, .f32⟩ : BufTy).Contents (Elt F)),
    StableHlo.unary main_v297 main_v313 (broadcastInDim S1x128 ![1] bcast_S128_S1x128_1 : (⟨S128, .f32⟩ : BufTy).Contents (Elt F) → (⟨S1x128, .f32⟩ : BufTy).Contents (Elt F)),
    StableHlo.unary main_v313 main_v314 (broadcastInDim S100000x128 ![0, 1] bcast_S1x128_S100000x128_0_1 : (⟨S1x128, .f32⟩ : BufTy).Contents (Elt F) → (⟨S100000x128, .f32⟩ : BufTy).Contents (Elt F)),
    StableHlo.binary main_v312 main_v314 main_v315 (mulf : (⟨S100000x128, .f32⟩ : BufTy).Contents (Elt F) → (⟨S100000x128, .f32⟩ : BufTy).Contents (Elt F) → (⟨S100000x128, .f32⟩ : BufTy).Contents (Elt F)),
    StableHlo.unary main_v299 main_v316 (broadcastInDim S1x128 ![1] bcast_S128_S1x128_1 : (⟨S128, .f32⟩ : BufTy).Contents (Elt F) → (⟨S1x128, .f32⟩ : BufTy).Contents (Elt F)),
    StableHlo.unary main_v316 main_v317 (broadcastInDim S100000x128 ![0, 1] bcast_S1x128_S100000x128_0_1 : (⟨S1x128, .f32⟩ : BufTy).Contents (Elt F) → (⟨S100000x128, .f32⟩ : BufTy).Contents (Elt F)),
    StableHlo.binary main_v315 main_v317 main_v318 (addf : (⟨S100000x128, .f32⟩ : BufTy).Contents (Elt F) → (⟨S100000x128, .f32⟩ : BufTy).Contents (Elt F) → (⟨S100000x128, .f32⟩ : BufTy).Contents (Elt F)),
    StableHlo.TRef.nullary main_call15.cst (constant S_ .f32 0x00000000#32),
    StableHlo.TRef.unary main_call15.cst main_call15.v0 (broadcastInDim S100000x128 ![] bcast_S_S100000x128),
    StableHlo.TRef.binary ((.of main_v318) : StableHlo.TRef sig ⟨S100000x128, .f32⟩) main_call15.v0 main_call15.v1 maximumf,
    StableHlo.nary ![main_arg0, main_v79, main_v159, main_v239, main_v319] main_v320 (fun u => concatenate S100000x640 1 [⟨S100000x128, u 0⟩, ⟨S100000x128, u 1⟩, ⟨S100000x128, u 2⟩, ⟨S100000x128, u 3⟩, ⟨S100000x128, u 4⟩] concatenates_S100000x128_S100000x128_S100000x128_S100000x128_S100000x128_S100000x640_d1),
    StableHlo.binary main_v320 main_arg14 main_v321 ((fun l r => Host.dotGeneral dot_S100000x640_S640x1_S100000x1_1_0_0_1_n_n none l r) : (⟨S100000x640, .f32⟩ : BufTy).Contents (Elt F) → (⟨S640x1, .f32⟩ : BufTy).Contents (Elt F) → (⟨S100000x1, .f32⟩ : BufTy).Contents (Elt F)),
    StableHlo.unary main_arg15 main_v322 (broadcastInDim S1x1 ![1] bcast_S1_S1x1_1 : (⟨S1, .f32⟩ : BufTy).Contents (Elt F) → (⟨S1x1, .f32⟩ : BufTy).Contents (Elt F)),
    StableHlo.unary main_v322 main_v323 (broadcastInDim S100000x1 ![0, 1] bcast_S1x1_S100000x1_0_1 : (⟨S1x1, .f32⟩ : BufTy).Contents (Elt F) → (⟨S100000x1, .f32⟩ : BufTy).Contents (Elt F)),
    StableHlo.binary main_v321 main_v323 main_v324 (addf : (⟨S100000x1, .f32⟩ : BufTy).Contents (Elt F) → (⟨S100000x1, .f32⟩ : BufTy).Contents (Elt F) → (⟨S100000x1, .f32⟩ : BufTy).Contents (Elt F)),
    StableHlo.unary main_v324 main_v325 (broadcastInDim S100000x640 ![0, 1] bcast_S100000x1_S100000x640_0_1 : (⟨S100000x1, .f32⟩ : BufTy).Contents (Elt F) → (⟨S100000x640, .f32⟩ : BufTy).Contents (Elt F)),
    StableHlo.binary main_v325 main_v320 main_v326 (mulf : (⟨S100000x640, .f32⟩ : BufTy).Contents (Elt F) → (⟨S100000x640, .f32⟩ : BufTy).Contents (Elt F) → (⟨S100000x640, .f32⟩ : BufTy).Contents (Elt F)),
    StableHlo.nullary main_cst_46 (constant S_ .f32 0x00000000#32),
    StableHlo.unary main_cst_46 main_v327 (broadcastInDim S100x640 ![] bcast_S_S100x640 : (⟨S_, .f32⟩ : BufTy).Contents (Elt F) → (⟨S100x640, .f32⟩ : BufTy).Contents (Elt F)),
    StableHlo.unary main_arg4 main_v328 (broadcastInDim S100000x1 ![0] bcast_S100000_S100000x1_0 : (⟨S100000, .i32⟩ : BufTy).Contents (Elt F) → (⟨S100000x1, .i32⟩ : BufTy).Contents (Elt F)),
    StableHlo.ternary main_v327 main_v328 main_v326 main_v329 ((fun x i u => Host.scatterAdd scatter_S100x640_S100000x1_S100000x640_1_0_0_1 x i u) : (⟨S100x640, .f32⟩ : BufTy).Contents (Elt F) → (⟨S100000x1, .i32⟩ : BufTy).Contents (Elt F) → (⟨S100000x640, .f32⟩ : BufTy).Contents (Elt F) → (⟨S100x640, .f32⟩ : BufTy).Contents (Elt F)),
    StableHlo.binary main_v329 main_arg1 main_v330 ((fun a b => concatenate S100x656 1 [⟨S100x640, a⟩, ⟨S100x16, b⟩] concatenates_S100x640_S100x16_S100x656_d1) : (⟨S100x640, .f32⟩ : BufTy).Contents (Elt F) → (⟨S100x16, .f32⟩ : BufTy).Contents (Elt F) → (⟨S100x656, .f32⟩ : BufTy).Contents (Elt F)),
    StableHlo.binary main_v330 main_arg16 main_v331 ((fun l r => Host.dotGeneral dot_S100x656_S656x10_S100x10_1_0_0_1_n_n none l r) : (⟨S100x656, .f32⟩ : BufTy).Contents (Elt F) → (⟨S656x10, .f32⟩ : BufTy).Contents (Elt F) → (⟨S100x10, .f32⟩ : BufTy).Contents (Elt F)),
    StableHlo.unary main_arg17 main_v332 (broadcastInDim S1x10 ![1] bcast_S10_S1x10_1 : (⟨S10, .f32⟩ : BufTy).Contents (Elt F) → (⟨S1x10, .f32⟩ : BufTy).Contents (Elt F)),
    StableHlo.unary main_v332 main_v333 (broadcastInDim S100x10 ![0, 1] bcast_S1x10_S100x10_0_1 : (⟨S1x10, .f32⟩ : BufTy).Contents (Elt F) → (⟨S100x10, .f32⟩ : BufTy).Contents (Elt F)),
    StableHlo.binary main_v331 main_v333 main_v334 (addf : (⟨S100x10, .f32⟩ : BufTy).Contents (Elt F) → (⟨S100x10, .f32⟩ : BufTy).Contents (Elt F) → (⟨S100x10, .f32⟩ : BufTy).Contents (Elt F)) ]

abbrev ops : List (HloOp τ sig (Elt F)) :=
  ops0 ++ (ops1 ++ (ops2 ++ (ops3 ++ (ops4 ++ (ops5 ++ ops6)))))

end Cert.ReferenceIdeal.Hand

end
-- ==== Proof.Ref.Base.lean ====
import Idealize.ShloMosaic.Lib.StableHlo.Run

namespace Cert.ReferenceIdeal.Hand

open Idealize.ShloMosaic Idealize.ShloMosaic.StableHlo

variable {τ : Topo} {sig : RefSig} {Val : EltTy → Type}

def WritesFrom (n : Nat) (op : HloOp τ sig Val) : Prop :=
  ∀ r : Ref sig .tc, Proc.devRef (τ := τ) .tc r ∈ op.writes → n ≤ r.idx.val

theorem writesFrom_of_writes {n : Nat} {op : HloOp τ sig Val} {y : Ref sig .tc}
    (hw : op.writes = {Proc.devRef .tc y}) (hy : n ≤ y.idx.val) : WritesFrom n op := fun r hr => by
  rw [hw, Finset.mem_singleton] at hr
  exact Proc.devRef_injective _ hr ▸ hy

theorem WritesFrom.mono {m n : Nat} {op : HloOp τ sig Val} (hmn : m ≤ n) (h : WritesFrom n op) : WritesFrom m op :=
  fun r hr => Nat.le_trans hmn (h r hr)

theorem after_of_writesFrom {n : Nat} (l : List (HloOp τ sig Val)) (h : ∀ op ∈ l, WritesFrom n op)
    {r : Ref sig .tc} (hr : r.idx.val < n) (V : Valuation τ sig Val) :
    after l V (Proc.devRef .tc r) = V (Proc.devRef .tc r) :=
  after_of_forall_not_mem l V fun op hop hb => absurd (h op hop r hb) (Nat.not_le.mpr hr)

theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

theorem forall_mem_app {α : Type*} {p : α → Prop} {l₁ l₂ : List α} (h₁ : ∀ a ∈ l₁, p a) (h₂ : ∀ a ∈ l₂, p a) :
    ∀ a ∈ l₁ ++ l₂, p a := fun a ha => (List.mem_append.mp ha).elim (h₁ a) (h₂ a)

macro "each_op " t:tactic : tactic => `(tactic| repeat' (first | ($t:tactic) | apply And.intro))

end Cert.ReferenceIdeal.Hand
-- ==== Proof.Ref.Parts.lean ====
import proofs.«105940_j32358283608240_1_alg».proof.Proof.Ref.Ops
import proofs.«105940_j32358283608240_1_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem part0_eq (c : Dev nD) : main_part0 (F := F) c = seq ops0 := rfl

theorem ops0_sub : (ops0 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]

theorem ops0_fresh : ∀ op ∈ (ops0 : List (HloOp τ sig (Elt F))), op.fresh = ∅ :=
  List.forall_iff_forall_mem.mp (by each_op rfl)

theorem ops0_writesFrom : ∀ op ∈ (ops0 : List (HloOp τ sig (Elt F))), WritesFrom 18 op :=
  List.forall_iff_forall_mem.mp (by each_op exact writesFrom_of_writes rfl (by decide))

theorem part1_eq (c : Dev nD) : main_part1 (F := F) c = seq ops1 := rfl

theorem ops1_sub : (ops1 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]

theorem ops1_fresh : ∀ op ∈ (ops1 : List (HloOp τ sig (Elt F))), op.fresh = ∅ :=
  List.forall_iff_forall_mem.mp (by each_op rfl)

theorem ops1_writesFrom : ∀ op ∈ (ops1 : List (HloOp τ sig (Elt F))), WritesFrom 101 op :=
  List.forall_iff_forall_mem.mp (by each_op exact writesFrom_of_writes rfl (by decide))

theorem part2_eq (c : Dev nD) : main_part2 (F := F) c = seq ops2 := rfl

theorem ops2_sub : (ops2 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]

theorem ops2_fresh : ∀ op ∈ (ops2 : List (HloOp τ sig (Elt F))), op.fresh = ∅ :=
  List.forall_iff_forall_mem.mp (by each_op rfl)

theorem ops2_writesFrom : ∀ op ∈ (ops2 : List (HloOp τ sig (Elt F))), WritesFrom 184 op :=
  List.forall_iff_forall_mem.mp (by each_op exact writesFrom_of_writes rfl (by decide))

theorem part3_eq (c : Dev nD) : main_part3 (F := F) c = seq ops3 := rfl

theorem ops3_sub : (ops3 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]

theorem ops3_fresh : ∀ op ∈ (ops3 : List (HloOp τ sig (Elt F))), op.fresh = ∅ :=
  List.forall_iff_forall_mem.mp (by each_op rfl)

theorem ops3_writesFrom : ∀ op ∈ (ops3 : List (HloOp τ sig (Elt F))), WritesFrom 288 op :=
  List.forall_iff_forall_mem.mp (by each_op exact writesFrom_of_writes rfl (by decide))

theorem part4_eq (c : Dev nD) : main_part4 (F := F) c = seq ops4 := rfl

theorem ops4_sub : (ops4 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]

theorem ops4_fresh : ∀ op ∈ (ops4 : List (HloOp τ sig (Elt F))), op.fresh = ∅ :=
  List.forall_iff_forall_mem.mp (by each_op rfl)

theorem ops4_writesFrom : ∀ op ∈ (ops4 : List (HloOp τ sig (Elt F))), WritesFrom 373 op :=
  List.forall_iff_forall_mem.mp (by each_op exact writesFrom_of_writes rfl (by decide))

theorem part5_eq (c : Dev nD) : main_part5 (F := F) c = seq ops5 := rfl

theorem ops5_sub : (ops5 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]

theorem ops5_fresh : ∀ op ∈ (ops5 : List (HloOp τ sig (Elt F))), op.fresh = ∅ :=
  List.forall_iff_forall_mem.mp (by each_op rfl)

theorem ops5_writesFrom : ∀ op ∈ (ops5 : List (HloOp τ sig (Elt F))), WritesFrom 456 op :=
  List.forall_iff_forall_mem.mp (by each_op exact writesFrom_of_writes rfl (by decide))

theorem part6_eq (c : Dev nD) : main_part6 (F := F) c = seq ops6 := rfl

theorem ops6_sub : (ops6 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]

theorem ops6_fresh : ∀ op ∈ (ops6 : List (HloOp τ sig (Elt F))), op.fresh = ∅ :=
  List.forall_iff_forall_mem.mp (by each_op rfl)

theorem ops6_writesFrom : ∀ op ∈ (ops6 : List (HloOp τ sig (Elt F))), WritesFrom 560 op :=
  List.forall_iff_forall_mem.mp (by each_op exact writesFrom_of_writes rfl (by decide))

end Cert.ReferenceIdeal.Hand

end
-- ==== Proof.Ref.Run.lean ====
import proofs.«105940_j32358283608240_1_alg».proof.Defs
import proofs.«105940_j32358283608240_1_alg».proof.Proof.Gen.Pre_finite_inputs
import proofs.«105940_j32358283608240_1_alg».proof.Proof.Ref.Parts

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem main_eq (c : Dev nD) : main (F := F) c = seq ops := by
  show main (F := F) c = seq (ops0 ++ (ops1 ++ (ops2 ++ (ops3 ++ (ops4 ++ (ops5 ++ ops6))))))
  rw [seq_append, seq_append, seq_append, seq_append, seq_append, seq_append,
    ← part0_eq c, ← part1_eq c, ← part2_eq c, ← part3_eq c, ← part4_eq c, ← part5_eq c, ← part6_eq c]
  rfl

theorem scopedRefs_eq : (Finset.univ.filter fun b : Ref sig .tc => b.isScoped) = ∅ := by decide

theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr (forall_mem_app (List.forall_iff_forall_mem.mp ops0_sub) (forall_mem_app (List.forall_iff_forall_mem.mp ops1_sub) (forall_mem_app (List.forall_iff_forall_mem.mp ops2_sub) (forall_mem_app (List.forall_iff_forall_mem.mp ops3_sub) (forall_mem_app (List.forall_iff_forall_mem.mp ops4_sub) (forall_mem_app (List.forall_iff_forall_mem.mp ops5_sub) (List.forall_iff_forall_mem.mp ops6_sub)))))))

theorem ops_fresh : ∀ op ∈ (ops : List (HloOp τ sig (Elt F))), op.fresh = ∅ :=
  forall_mem_app ops0_fresh (forall_mem_app ops1_fresh (forall_mem_app ops2_fresh (forall_mem_app ops3_fresh (forall_mem_app ops4_fresh (forall_mem_app ops5_fresh ops6_fresh)))))

theorem ops_writes : ∀ op ∈ (ops : List (HloOp τ sig (Elt F))), WritesFrom 18 op :=
  forall_mem_app ops0_writesFrom (forall_mem_app (fun op h => (ops1_writesFrom op h).mono (by decide))
    (forall_mem_app (fun op h => (ops2_writesFrom op h).mono (by decide))
    (forall_mem_app (fun op h => (ops3_writesFrom op h).mono (by decide))
    (forall_mem_app (fun op h => (ops4_writesFrom op h).mono (by decide))
    (forall_mem_app (fun op h => (ops5_writesFrom op h).mono (by decide))
      (fun op h => (ops6_writesFrom op h).mono (by decide)))))))

theorem run_after (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ (fun _ => ops_fresh)

theorem arg_kept0 (m : (ℓ : Loc nD τ sig) → Buf (Elt F) ℓ) (c : Dev nD) :
    after ops (launchContents m c) (Proc.devRef .tc main_arg0) = m ((c.tc : Thread nD τ).loc main_arg0) :=
  after_of_writesFrom (Val := Elt F) ops ops_writes (r := main_arg0) (by decide) _
theorem arg_kept1 (m : (ℓ : Loc nD τ sig) → Buf (Elt F) ℓ) (c : Dev nD) :
    after ops (launchContents m c) (Proc.devRef .tc main_arg1) = m ((c.tc : Thread nD τ).loc main_arg1) :=
  after_of_writesFrom (Val := Elt F) ops ops_writes (r := main_arg1) (by decide) _
theorem arg_kept2 (m : (ℓ : Loc nD τ sig) → Buf (Elt F) ℓ) (c : Dev nD) :
    after ops (launchContents m c) (Proc.devRef .tc main_arg2) = m ((c.tc : Thread nD τ).loc main_arg2) :=
  after_of_writesFrom (Val := Elt F) ops ops_writes (r := main_arg2) (by decide) _
theorem arg_kept3 (m : (ℓ : Loc nD τ sig) → Buf (Elt F) ℓ) (c : Dev nD) :
    after ops (launchContents m c) (Proc.devRef .tc main_arg3) = m ((c.tc : Thread nD τ).loc main_arg3) :=
  after_of_writesFrom (Val := Elt F) ops ops_writes (r := main_arg3) (by decide) _
theorem arg_kept4 (m : (ℓ : Loc nD τ sig) → Buf (Elt F) ℓ) (c : Dev nD) :
    after ops (launchContents m c) (Proc.devRef .tc main_arg4) = m ((c.tc : Thread nD τ).loc main_arg4) :=
  after_of_writesFrom (Val := Elt F) ops ops_writes (r := main_arg4) (by decide) _
theorem arg_kept5 (m : (ℓ : Loc nD τ sig) → Buf (Elt F) ℓ) (c : Dev nD) :
    after ops (launchContents m c) (Proc.devRef .tc main_arg5) = m ((c.tc : Thread nD τ).loc main_arg5) :=
  after_of_writesFrom (Val := Elt F) ops ops_writes (r := main_arg5) (by decide) _
theorem arg_kept6 (m : (ℓ : Loc nD τ sig) → Buf (Elt F) ℓ) (c : Dev nD) :
    after ops (launchContents m c) (Proc.devRef .tc main_arg6) = m ((c.tc : Thread nD τ).loc main_arg6) :=
  after_of_writesFrom (Val := Elt F) ops ops_writes (r := main_arg6) (by decide) _
theorem arg_kept7 (m : (ℓ : Loc nD τ sig) → Buf (Elt F) ℓ) (c : Dev nD) :
    after ops (launchContents m c) (Proc.devRef .tc main_arg7) = m ((c.tc : Thread nD τ).loc main_arg7) :=
  after_of_writesFrom (Val := Elt F) ops ops_writes (r := main_arg7) (by decide) _
theorem arg_kept8 (m : (ℓ : Loc nD τ sig) → Buf (Elt F) ℓ) (c : Dev nD) :
    after ops (launchContents m c) (Proc.devRef .tc main_arg8) = m ((c.tc : Thread nD τ).loc main_arg8) :=
  after_of_writesFrom (Val := Elt F) ops ops_writes (r := main_arg8) (by decide) _
theorem arg_kept9 (m : (ℓ : Loc nD τ sig) → Buf (Elt F) ℓ) (c : Dev nD) :
    after ops (launchContents m c) (Proc.devRef .tc main_arg9) = m ((c.tc : Thread nD τ).loc main_arg9) :=
  after_of_writesFrom (Val := Elt F) ops ops_writes (r := main_arg9) (by decide) _
theorem arg_kept10 (m : (ℓ : Loc nD τ sig) → Buf (Elt F) ℓ) (c : Dev nD) :
    after ops (launchContents m c) (Proc.devRef .tc main_arg10) = m ((c.tc : Thread nD τ).loc main_arg10) :=
  after_of_writesFrom (Val := Elt F) ops ops_writes (r := main_arg10) (by decide) _
theorem arg_kept11 (m : (ℓ : Loc nD τ sig) → Buf (Elt F) ℓ) (c : Dev nD) :
    after ops (launchContents m c) (Proc.devRef .tc main_arg11) = m ((c.tc : Thread nD τ).loc main_arg11) :=
  after_of_writesFrom (Val := Elt F) ops ops_writes (r := main_arg11) (by decide) _
theorem arg_kept12 (m : (ℓ : Loc nD τ sig) → Buf (Elt F) ℓ) (c : Dev nD) :
    after ops (launchContents m c) (Proc.devRef .tc main_arg12) = m ((c.tc : Thread nD τ).loc main_arg12) :=
  after_of_writesFrom (Val := Elt F) ops ops_writes (r := main_arg12) (by decide) _
theorem arg_kept13 (m : (ℓ : Loc nD τ sig) → Buf (Elt F) ℓ) (c : Dev nD) :
    after ops (launchContents m c) (Proc.devRef .tc main_arg13) = m ((c.tc : Thread nD τ).loc main_arg13) :=
  after_of_writesFrom (Val := Elt F) ops ops_writes (r := main_arg13) (by decide) _
theorem arg_kept14 (m : (ℓ : Loc nD τ sig) → Buf (Elt F) ℓ) (c : Dev nD) :
    after ops (launchContents m c) (Proc.devRef .tc main_arg14) = m ((c.tc : Thread nD τ).loc main_arg14) :=
  after_of_writesFrom (Val := Elt F) ops ops_writes (r := main_arg14) (by decide) _
theorem arg_kept15 (m : (ℓ : Loc nD τ sig) → Buf (Elt F) ℓ) (c : Dev nD) :
    after ops (launchContents m c) (Proc.devRef .tc main_arg15) = m ((c.tc : Thread nD τ).loc main_arg15) :=
  after_of_writesFrom (Val := Elt F) ops ops_writes (r := main_arg15) (by decide) _
theorem arg_kept16 (m : (ℓ : Loc nD τ sig) → Buf (Elt F) ℓ) (c : Dev nD) :
    after ops (launchContents m c) (Proc.devRef .tc main_arg16) = m ((c.tc : Thread nD τ).loc main_arg16) :=
  after_of_writesFrom (Val := Elt F) ops ops_writes (r := main_arg16) (by decide) _
theorem arg_kept17 (m : (ℓ : Loc nD τ sig) → Buf (Elt F) ℓ) (c : Dev nD) :
    after ops (launchContents m c) (Proc.devRef .tc main_arg17) = m ((c.tc : Thread nD τ).loc main_arg17) :=
  after_of_writesFrom (Val := Elt F) ops ops_writes (r := main_arg17) (by decide) _

theorem arg_kept (m : (ℓ : Loc nD τ sig) → Buf (Elt F) ℓ) (c : Dev nD) :
    after ops (launchContents m c) (Proc.devRef .tc main_arg0) = m ((c.tc : Thread nD τ).loc main_arg0)
    ∧ after ops (launchContents m c) (Proc.devRef .tc main_arg1) = m ((c.tc : Thread nD τ).loc main_arg1)
    ∧ after ops (launchContents m c) (Proc.devRef .tc main_arg2) = m ((c.tc : Thread nD τ).loc main_arg2)
    ∧ after ops (launchContents m c) (Proc.devRef .tc main_arg3) = m ((c.tc : Thread nD τ).loc main_arg3)
    ∧ after ops (launchContents m c) (Proc.devRef .tc main_arg4) = m ((c.tc : Thread nD τ).loc main_arg4)
    ∧ after ops (launchContents m c) (Proc.devRef .tc main_arg5) = m ((c.tc : Thread nD τ).loc main_arg5)
    ∧ after ops (launchContents m c) (Proc.devRef .tc main_arg6) = m ((c.tc : Thread nD τ).loc main_arg6)
    ∧ after ops (launchContents m c) (Proc.devRef .tc main_arg7) = m ((c.tc : Thread nD τ).loc main_arg7)
    ∧ after ops (launchContents m c) (Proc.devRef .tc main_arg8) = m ((c.tc : Thread nD τ).loc main_arg8)
    ∧ after ops (launchContents m c) (Proc.devRef .tc main_arg9) = m ((c.tc : Thread nD τ).loc main_arg9)
    ∧ after ops (launchContents m c) (Proc.devRef .tc main_arg10) = m ((c.tc : Thread nD τ).loc main_arg10)
    ∧ after ops (launchContents m c) (Proc.devRef .tc main_arg11) = m ((c.tc : Thread nD τ).loc main_arg11)
    ∧ after ops (launchContents m c) (Proc.devRef .tc main_arg12) = m ((c.tc : Thread nD τ).loc main_arg12)
    ∧ after ops (launchContents m c) (Proc.devRef .tc main_arg13) = m ((c.tc : Thread nD τ).loc main_arg13)
    ∧ after ops (launchContents m c) (Proc.devRef .tc main_arg14) = m ((c.tc : Thread nD τ).loc main_arg14)
    ∧ after ops (launchContents m c) (Proc.devRef .tc main_arg15) = m ((c.tc : Thread nD τ).loc main_arg15)
    ∧ after ops (launchContents m c) (Proc.devRef .tc main_arg16) = m ((c.tc : Thread nD τ).loc main_arg16)
    ∧ after ops (launchContents m c) (Proc.devRef .tc main_arg17) = m ((c.tc : Thread nD τ).loc main_arg17) :=
  ⟨arg_kept0 m c, arg_kept1 m c, arg_kept2 m c, arg_kept3 m c, arg_kept4 m c, arg_kept5 m c, arg_kept6 m c, arg_kept7 m c, arg_kept8 m c, arg_kept9 m c, arg_kept10 m c, arg_kept11 m c, arg_kept12 m c, arg_kept13 m c, arg_kept14 m c, arg_kept15 m c, arg_kept16 m c, arg_kept17 m c⟩

theorem after_ops (V : Valuation τ sig (Elt F)) :
    after ops V = after ops6 (after ops5 (after ops4 (after ops3 (after ops2 (after ops1 (after ops0 V)))))) := by
  show after (ops0 ++ (ops1 ++ (ops2 ++ (ops3 ++ (ops4 ++ (ops5 ++ ops6)))))) V = _
  rw [after_app, after_app, after_app, after_app, after_app, after_app]

theorem after_ops_apply (V : Valuation τ sig (Elt F)) (b : DevRef τ sig) :
    after ops V b = after ops6 (after ops5 (after ops4 (after ops3 (after ops2 (after ops1 (after ops0 V)))))) b :=
  congrFun (after_ops V) b

theorem after_ops_upto0 (V : Valuation τ sig (Elt F)) {r : Ref sig .tc} (hr : r.idx.val < 101) :
    after ops V (Proc.devRef .tc r) = after ops0 V (Proc.devRef .tc r) := by
  rw [after_ops_apply, after_of_writesFrom (Val := Elt F) ops6 ops6_writesFrom (Nat.lt_of_lt_of_le hr (by decide)),
    after_of_writesFrom (Val := Elt F) ops5 ops5_writesFrom (Nat.lt_of_lt_of_le hr (by decide)),
    after_of_writesFrom (Val := Elt F) ops4 ops4_writesFrom (Nat.lt_of_lt_of_le hr (by decide)),
    after_of_writesFrom (Val := Elt F) ops3 ops3_writesFrom (Nat.lt_of_lt_of_le hr (by decide)),
    after_of_writesFrom (Val := Elt F) ops2 ops2_writesFrom (Nat.lt_of_lt_of_le hr (by decide)),
    after_of_writesFrom (Val := Elt F) ops1 ops1_writesFrom hr]

theorem after_ops_upto1 (V : Valuation τ sig (Elt F)) {r : Ref sig .tc} (hr : r.idx.val < 184) :
    after ops V (Proc.devRef .tc r) = after ops1 (after ops0 V) (Proc.devRef .tc r) := by
  rw [after_ops_apply, after_of_writesFrom (Val := Elt F) ops6 ops6_writesFrom (Nat.lt_of_lt_of_le hr (by decide)),
    after_of_writesFrom (Val := Elt F) ops5 ops5_writesFrom (Nat.lt_of_lt_of_le hr (by decide)),
    after_of_writesFrom (Val := Elt F) ops4 ops4_writesFrom (Nat.lt_of_lt_of_le hr (by decide)),
    after_of_writesFrom (Val := Elt F) ops3 ops3_writesFrom (Nat.lt_of_lt_of_le hr (by decide)),
    after_of_writesFrom (Val := Elt F) ops2 ops2_writesFrom hr]

theorem after_ops_upto2 (V : Valuation τ sig (Elt F)) {r : Ref sig .tc} (hr : r.idx.val < 288) :
    after ops V (Proc.devRef .tc r) = after ops2 (after ops1 (after ops0 V)) (Proc.devRef .tc r) := by
  rw [after_ops_apply, after_of_writesFrom (Val := Elt F) ops6 ops6_writesFrom (Nat.lt_of_lt_of_le hr (by decide)),
    after_of_writesFrom (Val := Elt F) ops5 ops5_writesFrom (Nat.lt_of_lt_of_le hr (by decide)),
    after_of_writesFrom (Val := Elt F) ops4 ops4_writesFrom (Nat.lt_of_lt_of_le hr (by decide)),
    after_of_writesFrom (Val := Elt F) ops3 ops3_writesFrom hr]

theorem after_ops_upto3 (V : Valuation τ sig (Elt F)) {r : Ref sig .tc} (hr : r.idx.val < 373) :
    after ops V (Proc.devRef .tc r) = after ops3 (after ops2 (after ops1 (after ops0 V))) (Proc.devRef .tc r) := by
  rw [after_ops_apply, after_of_writesFrom (Val := Elt F) ops6 ops6_writesFrom (Nat.lt_of_lt_of_le hr (by decide)),
    after_of_writesFrom (Val := Elt F) ops5 ops5_writesFrom (Nat.lt_of_lt_of_le hr (by decide)),
    after_of_writesFrom (Val := Elt F) ops4 ops4_writesFrom hr]

theorem after_ops_upto4 (V : Valuation τ sig (Elt F)) {r : Ref sig .tc} (hr : r.idx.val < 456) :
    after ops V (Proc.devRef .tc r) = after ops4 (after ops3 (after ops2 (after ops1 (after ops0 V)))) (Proc.devRef .tc r) := by
  rw [after_ops_apply, after_of_writesFrom (Val := Elt F) ops6 ops6_writesFrom (Nat.lt_of_lt_of_le hr (by decide)),
    after_of_writesFrom (Val := Elt F) ops5 ops5_writesFrom hr]

theorem after_ops_upto5 (V : Valuation τ sig (Elt F)) {r : Ref sig .tc} (hr : r.idx.val < 560) :
    after ops V (Proc.devRef .tc r) = after ops5 (after ops4 (after ops3 (after ops2 (after ops1 (after ops0 V))))) (Proc.devRef .tc r) := by
  rw [after_ops_apply, after_of_writesFrom (Val := Elt F) ops6 ops6_writesFrom hr]

theorem frame_ri : Cert.frame_ReferenceIdeal := fun m g _ =>
  (θ_run _ _ _).mono (fun _ h c => ⟨(h c main_arg0).trans (arg_kept0 m c),
      (h c main_arg1).trans (arg_kept1 m c),
      (h c main_arg2).trans (arg_kept2 m c),
      (h c main_arg3).trans (arg_kept3 m c),
      (h c main_arg4).trans (arg_kept4 m c),
      (h c main_arg5).trans (arg_kept5 m c),
      (h c main_arg6).trans (arg_kept6 m c),
      (h c main_arg7).trans (arg_kept7 m c),
      (h c main_arg8).trans (arg_kept8 m c),
      (h c main_arg9).trans (arg_kept9 m c),
      (h c main_arg10).trans (arg_kept10 m c),
      (h c main_arg11).trans (arg_kept11 m c),
      (h c main_arg12).trans (arg_kept12 m c),
      (h c main_arg13).trans (arg_kept13 m c),
      (h c main_arg14).trans (arg_kept14 m c),
      (h c main_arg15).trans (arg_kept15 m c),
      (h c main_arg16).trans (arg_kept16 m c),
      (h c main_arg17).trans (arg_kept17 m c)⟩)
    (run_after m g)

end Cert.ReferenceIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx
open scoped BigOperators

abbrev Mat (a b : ℕ) : Type := Fin a → Fin b → EReal
abbrev Row (b : ℕ) : Type := Fin b → EReal

abbrev toMat {a b : ℕ} (v : (⟨2, ![a, b]⟩ : Shape).Idx → EReal) : Mat a b := fun i j => v (ix2 i j)
abbrev toRow1 {b : ℕ} (v : (⟨2, ![1, b]⟩ : Shape).Idx → EReal) : Row b := fun j => v (ix2 0 j)
abbrev toRow {b : ℕ} (v : (⟨1, ![b]⟩ : Shape).Idx → EReal) : Row b := fun j => v (ix1 j)

def bnEps : EReal := Ideal.ofBits .f32 0x3727C5AC#32
def count : EReal := Ideal.ofBits .f32 0x47C35000#32

def FiniteM {a b : ℕ} (M : Mat a b) : Prop := ∀ i j, ∃ r : ℝ, M i j = (r : EReal)
def FiniteR {b : ℕ} (v : Row b) : Prop := ∀ j, ∃ r : ℝ, v j = (r : EReal)

def lin {n : ℕ} (X : Mat n 128) (W : Mat 128 128) (b : Row 128) : Mat n 128 :=
  fun i j => (∑ k : Fin 128, X i k * W k j) + b j

def colSum {n : ℕ} (Z : Mat n 128) : Row 128 := fun j => ∑ i : Fin n, Z i j

def mean (Z : Mat 100000 128) : Row 128 := fun j => Ideal.div (colSum Z j) count

def varOfSquares (Z : Mat 100000 128) : Row 128 :=
  fun j => Ideal.div (colSum (fun i j => Z i j * Z i j) j) count - mean Z j * mean Z j

def varCentred (Z : Mat 100000 128) : Row 128 :=
  fun j => Ideal.div (colSum (fun i j => (Z i j - mean Z j) * (Z i j - mean Z j)) j) count

def normRelu {n : ℕ} (Z : Mat n 128) (mu var g be : Row 128) : Mat n 128 :=
  fun i j => max ((((Z i j - mu j) * Ideal.rsqrt (var j + bnEps)) * g j) + be j) 0

structure LayerParams where
  W1 : Mat 128 128
  b1 : Row 128
  g1 : Row 128
  be1 : Row 128
  W2 : Mat 128 128
  b2 : Row 128
  gbn : Row 128
  bbn : Row 128

def LayerParams.Finite (p : LayerParams) : Prop :=
  FiniteM p.W1 ∧ FiniteR p.b1 ∧ FiniteR p.g1 ∧ FiniteR p.be1 ∧ FiniteM p.W2 ∧ FiniteR p.b2 ∧ FiniteR p.gbn ∧ FiniteR p.bbn

def layerWith (var : Mat 100000 128 → Row 128) (p : LayerParams) (P : Mat 100000 128) : Mat 100000 128 :=
  normRelu (lin (normRelu (lin P p.W1 p.b1) (mean (lin P p.W1 p.b1)) (var (lin P p.W1 p.b1)) p.g1 p.be1) p.W2 p.b2)
    (mean (lin (normRelu (lin P p.W1 p.b1) (mean (lin P p.W1 p.b1)) (var (lin P p.W1 p.b1)) p.g1 p.be1) p.W2 p.b2))
    (var (lin (normRelu (lin P p.W1 p.b1) (mean (lin P p.W1 p.b1)) (var (lin P p.W1 p.b1)) p.g1 p.be1) p.W2 p.b2))
    p.gbn p.bbn

def layerK : LayerParams → Mat 100000 128 → Mat 100000 128 := layerWith varOfSquares
def layerR : LayerParams → Mat 100000 128 → Mat 100000 128 := layerWith varCentred

end Cert.Spec

end
-- ==== Proof.KI.R0Val.lean ====
import proofs.«105940_j32358283608240_1_alg».proof.Proof.KI.R0
import proofs.«105940_j32358283608240_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Spec
open scoped BigOperators

theorem lhsD0_0 (j : S10000x128.Idx) (k : dot_S10000x128_S128x128_S10000x128_1_0_0_1_n_n.contr.Idx) :
    (dot_S10000x128_S128x128_S10000x128_1_0_0_1_n_n.lhsIdx j k 0).val = (j 0).val := rfl
theorem lhsD0_1 (j : S10000x128.Idx) (k : dot_S10000x128_S128x128_S10000x128_1_0_0_1_n_n.contr.Idx) :
    (dot_S10000x128_S128x128_S10000x128_1_0_0_1_n_n.lhsIdx j k 1).val = (k ⟨0, by decide⟩).val := rfl
theorem rhsD0_0 (j : S10000x128.Idx) (k : dot_S10000x128_S128x128_S10000x128_1_0_0_1_n_n.contr.Idx) :
    (dot_S10000x128_S128x128_S10000x128_1_0_0_1_n_n.rhsIdx j k 0).val = (k ⟨0, by decide⟩).val := rfl
theorem rhsD0_1 (j : S10000x128.Idx) (k : dot_S10000x128_S128x128_S10000x128_1_0_0_1_n_n.contr.Idx) :
    (dot_S10000x128_S128x128_S10000x128_1_0_0_1_n_n.rhsIdx j k 1).val = (j 1).val := rfl

theorem pay3_apply0 (x0 : S10000x128.Idx → EReal) (x1 : S128x128.Idx → EReal) (x2 : S1x128.Idx → EReal) (p : Fin 10000) (q : Fin 128) :
    k0_pay3 (F := Ideal) x0 x1 x2 (ix2 p q) = (∑ k : Fin 128, x0 (ix2 p k) * x1 (ix2 k q)) + x2 (ix2 0 q) := by
  unfold k0_pay3
  rw [shapeCast_self, shapeCast_self, shapeCast_self]
  refine (addf_apply _ _ _).trans ?_
  refine congrArg₂ (· + ·) ?_ ?_
  · refine (Ideal.matmul_constant_zero_apply dot_S10000x128_S128x128_S10000x128_1_0_0_1_n_n none _ _ (ix2 p q)).trans ?_
    rw [← Equiv.sum_comp (contrEquiv1 dot_S10000x128_S128x128_S10000x128_1_0_0_1_n_n 128 rfl rfl).symm]
    refine Finset.sum_congr rfl fun k _ => ?_
    refine congrArg₂ (· * ·) (congrArg x0 ?_) (congrArg x1 ?_)
    · funext a; apply Fin.ext
      match a with
      | ⟨0, _⟩ => exact lhsD0_0 _ _
      | ⟨1, _⟩ => exact (lhsD0_1 _ _).trans (contrEquiv1_symm_val _ 128 rfl rfl k)
    · funext a; apply Fin.ext
      match a with
      | ⟨0, _⟩ => exact (rhsD0_0 _ _).trans (contrEquiv1_symm_val _ 128 rfl rfl k)
      | ⟨1, _⟩ => exact rhsD0_1 _ _
  · exact broadcastTo_apply x2 broadcasts_S1x128_S10000x128 (ix2 p q) (ix2 0 q) (fun a => by
      match a with
      | ⟨0, _⟩ => rfl
      | ⟨1, _⟩ => rfl)

theorem pay4_apply0 (x0 : S10000x128.Idx → EReal) (x1 : S128x128.Idx → EReal) (x2 : S1x128.Idx → EReal)
    (a : S1x128.Idx → EReal) (q : Fin 128) :
    k0_pay4 (F := Ideal) x0 x1 x2 a (ix2 0 q) = a (ix2 0 q) + ∑ p : Fin 10000, k0_pay3 (F := Ideal) x0 x1 x2 (ix2 p q) := by
  unfold k0_pay4
  rw [shapeCast_self]
  refine (addf_apply _ _ _).trans ?_
  refine congrArg (a (ix2 0 q) + ·) ?_
  refine (shapeCast_addUnit_apply ![128] _ shapeCasts_S128_S1x128 (ix2 0 q)).trans ?_
  refine (Ideal.multiReduction_add_single (k0_pay3 (F := Ideal) x0 x1 x2) 0x00000000#32 reduces_S10000x128_S128 _ _ _).trans ?_
  refine Finset.sum_congr rfl fun p _ => congrArg (k0_pay3 (F := Ideal) x0 x1 x2) ?_
  funext d
  apply Fin.ext
  match d with
  | ⟨0, _⟩ => rfl
  | ⟨1, _⟩ => rfl

theorem pay5_apply0 (x0 : S10000x128.Idx → EReal) (x1 : S128x128.Idx → EReal) (x2 : S1x128.Idx → EReal)
    (a : S1x128.Idx → EReal) (q : Fin 128) :
    k0_pay5 (F := Ideal) x0 x1 x2 a (ix2 0 q)
      = a (ix2 0 q) + ∑ p : Fin 10000, k0_pay3 (F := Ideal) x0 x1 x2 (ix2 p q) * k0_pay3 (F := Ideal) x0 x1 x2 (ix2 p q) := by
  unfold k0_pay5
  rw [shapeCast_self]
  refine (addf_apply _ _ _).trans ?_
  refine congrArg (a (ix2 0 q) + ·) ?_
  refine (shapeCast_addUnit_apply ![128] _ shapeCasts_S128_S1x128 (ix2 0 q)).trans ?_
  refine (Ideal.multiReduction_add_single (mulf (k0_pay3 (F := Ideal) x0 x1 x2) (k0_pay3 (F := Ideal) x0 x1 x2)) 0x00000000#32
    reduces_S10000x128_S128 _ _ _).trans ?_
  refine Finset.sum_congr rfl fun p _ => ?_
  refine (mulf_apply _ _ _).trans ?_
  have e : reduces_S10000x128_S128.lift (fun a => ix2 (0 : Fin 1) q a.succ) p = ix2 p q := by
    funext d
    apply Fin.ext
    match d with
    | ⟨0, _⟩ => rfl
    | ⟨1, _⟩ => rfl
  rw [e]
  rfl

def row0 (t : Fin grid0.N) (p : Fin 10000) : Fin 100000 :=
  ⟨10000 * t.val + p.val, by have := lt_of_lt_of_eq t.isLt N_0; have := p.isLt; omega⟩

def ptOf0 (r : Fin 100000) : Fin grid0.N := ⟨r.val / 10000, by rw [N_0]; have := r.isLt; omega⟩

def last0 : Fin grid0.N := ⟨9, by rw [N_0]; decide⟩

theorem sum_blocks0 {M : Type*} [AddCommMonoid M] (f : ℕ → M) :
    ∑ s ∈ Finset.range 10, ∑ p : Fin 10000, f (10000 * s + p.val) = ∑ i : Fin 100000, f i.val := by
  rw [Finset.sum_range]
  rw [← Fintype.sum_prod_type (f := fun x : Fin 10 × Fin 10000 => f (10000 * x.1.val + x.2.val))]
  show _ = ∑ i : Fin (10 * 10000), f i.val
  rw [← Equiv.sum_comp (finProdFinEquiv (m := 10) (n := 10000)) (fun i : Fin (10 * 10000) => f i.val)]
  refine Finset.sum_congr rfl fun x _ => congrArg f ?_
  show 10000 * x.1.val + x.2.val = x.2.val + 10000 * x.1.val
  omega
theorem pay1_apply0 (j : S1x128.Idx) : (k0_pay1 (F := Ideal) : S1x128.Idx → EReal) j = 0 := Ideal.ofBits_zero_f32
theorem pay2_apply0 (j : S1x128.Idx) : (k0_pay2 (F := Ideal) : S1x128.Idx → EReal) j = 0 := Ideal.ofBits_zero_f32

section
variable (x0 : Fin grid0.N → S10000x128.Idx → EReal) (x1 : Fin grid0.N → S128x128.Idx → EReal) (x2 : Fin grid0.N → S1x128.Idx → EReal)
  (P : Mat 100000 128) (W : Mat 128 128) (b : Row 128)

def zrow0 (q : Fin 128) (r : ℕ) : EReal := if h : r < 100000 then lin P W b ⟨r, h⟩ q else 0

theorem zrow0_row (q : Fin 128) (t : Fin grid0.N) (p : Fin 10000) :
    zrow0 P W b q (10000 * t.val + p.val) = lin P W b (row0 t p) q :=
  dif_pos (row0 t p).isLt

variable (h0 : ∀ (t : Fin grid0.N) (p : Fin 10000) (k : Fin 128), x0 t (ix2 p k) = P (row0 t p) k)
  (h1 : ∀ (t : Fin grid0.N) (k q : Fin 128), x1 t (ix2 k q) = W k q) (h2 : ∀ (t : Fin grid0.N) (q : Fin 128), x2 t (ix2 (0 : Fin 1) q) = b q)
include h0 h1 h2

theorem z_blk0 (t : Fin grid0.N) (p : Fin 10000) (q : Fin 128) :
    k0_pay3 (F := Ideal) (x0 t) (x1 t) (x2 t) (ix2 p q) = lin P W b (row0 t p) q := by
  refine (pay3_apply0 (x0 t) (x1 t) (x2 t) p q).trans ?_
  unfold lin
  exact congrArg₂ (· + ·) (Finset.sum_congr rfl fun k _ => congrArg₂ (· * ·) (h0 t p k) (h1 t k q)) (h2 t q)

theorem blk_sum0 (q : Fin 128) (t : Fin grid0.N) :
    ∑ p : Fin 10000, k0_pay3 (F := Ideal) (x0 t) (x1 t) (x2 t) (ix2 p q)
      = ∑ p : Fin 10000, zrow0 P W b q (10000 * t.val + p.val) :=
  Finset.sum_congr rfl fun p _ => (z_blk0 x0 x1 x2 P W b h0 h1 h2 t p q).trans (zrow0_row P W b q t p).symm
theorem blk_sumsq0 (q : Fin 128) (t : Fin grid0.N) :
    ∑ p : Fin 10000, k0_pay3 (F := Ideal) (x0 t) (x1 t) (x2 t) (ix2 p q) * k0_pay3 (F := Ideal) (x0 t) (x1 t) (x2 t) (ix2 p q)
      = ∑ p : Fin 10000, zrow0 P W b q (10000 * t.val + p.val) * zrow0 P W b q (10000 * t.val + p.val) :=
  Finset.sum_congr rfl fun p _ => by rw [z_blk0 x0 x1 x2 P W b h0 h1 h2 t p q, zrow0_row P W b q t p]

theorem out0_4_val (q : Fin 128) : ∀ (n : ℕ) (hn : n < grid0.N),
    (out0_4 (F := Ideal) x0 x1 x2 n hn : S1x128.Idx → EReal) (ix2 0 q)
      = 0 + ∑ s ∈ Finset.range (n + 1), ∑ p : Fin 10000, zrow0 P W b q (10000 * s + p.val)
  | 0, hn => by
    refine (congrFun (out0_4_eq (F := Ideal) x0 x1 x2 ⟨0, hn⟩) (ix2 0 q)).trans ?_
    refine (pay4_apply0 (x0 ⟨0, hn⟩) (x1 ⟨0, hn⟩) (x2 ⟨0, hn⟩) (k0_pay1 (F := Ideal)) q).trans ?_
    rw [Finset.sum_range_one, pay1_apply0, blk_sum0 x0 x1 x2 P W b h0 h1 h2 q ⟨0, hn⟩]
  | n + 1, hn => by
    refine (congrFun (out0_4_eq (F := Ideal) x0 x1 x2 ⟨n + 1, hn⟩) (ix2 0 q)).trans ?_
    refine (pay4_apply0 (x0 ⟨n + 1, hn⟩) (x1 ⟨n + 1, hn⟩) (x2 ⟨n + 1, hn⟩) (acc0_4 (F := Ideal) x0 x1 x2 ⟨n + 1, hn⟩) q).trans ?_
    rw [Finset.sum_range_succ _ (n + 1), ← add_assoc, blk_sum0 x0 x1 x2 P W b h0 h1 h2 q ⟨n + 1, hn⟩]
    refine congrArg (· + ∑ p : Fin 10000, zrow0 P W b q (10000 * (n + 1) + p.val)) ?_
    exact out0_4_val q n (Nat.lt_of_succ_lt hn)

theorem out0_5_val (q : Fin 128) : ∀ (n : ℕ) (hn : n < grid0.N),
    (out0_5 (F := Ideal) x0 x1 x2 n hn : S1x128.Idx → EReal) (ix2 0 q)
      = 0 + ∑ s ∈ Finset.range (n + 1), ∑ p : Fin 10000, zrow0 P W b q (10000 * s + p.val) * zrow0 P W b q (10000 * s + p.val)
  | 0, hn => by
    refine (congrFun (out0_5_eq (F := Ideal) x0 x1 x2 ⟨0, hn⟩) (ix2 0 q)).trans ?_
    refine (pay5_apply0 (x0 ⟨0, hn⟩) (x1 ⟨0, hn⟩) (x2 ⟨0, hn⟩) (k0_pay2 (F := Ideal)) q).trans ?_
    rw [Finset.sum_range_one, pay2_apply0, blk_sumsq0 x0 x1 x2 P W b h0 h1 h2 q ⟨0, hn⟩]
  | n + 1, hn => by
    refine (congrFun (out0_5_eq (F := Ideal) x0 x1 x2 ⟨n + 1, hn⟩) (ix2 0 q)).trans ?_
    refine (pay5_apply0 (x0 ⟨n + 1, hn⟩) (x1 ⟨n + 1, hn⟩) (x2 ⟨n + 1, hn⟩) (acc0_5 (F := Ideal) x0 x1 x2 ⟨n + 1, hn⟩) q).trans ?_
    rw [Finset.sum_range_succ _ (n + 1), ← add_assoc, blk_sumsq0 x0 x1 x2 P W b h0 h1 h2 q ⟨n + 1, hn⟩]
    refine congrArg (· + ∑ p : Fin 10000, zrow0 P W b q (10000 * (n + 1) + p.val) * zrow0 P W b q (10000 * (n + 1) + p.val)) ?_
    exact out0_5_val q n (Nat.lt_of_succ_lt hn)

theorem out0_4_last (q : Fin 128) (h9 : 9 < grid0.N) :
    (out0_4 (F := Ideal) x0 x1 x2 9 h9 : S1x128.Idx → EReal) (ix2 0 q) = colSum (lin P W b) q := by
  rw [out0_4_val x0 x1 x2 P W b h0 h1 h2 q 9 h9, zero_add, sum_blocks0 (zrow0 P W b q)]
  exact Finset.sum_congr rfl fun i _ => dif_pos i.isLt
theorem out0_5_last (q : Fin 128) (h9 : 9 < grid0.N) :
    (out0_5 (F := Ideal) x0 x1 x2 9 h9 : S1x128.Idx → EReal) (ix2 0 q) = colSum (fun a b' => lin P W b a b' * lin P W b a b') q := by
  rw [out0_5_val x0 x1 x2 P W b h0 h1 h2 q 9 h9, zero_add, sum_blocks0 (fun r => zrow0 P W b q r * zrow0 P W b q r)]
  exact Finset.sum_congr rfl fun i _ => by
    show zrow0 P W b q i.val * zrow0 P W b q i.val = _
    rw [show zrow0 P W b q i.val = lin P W b i q from dif_pos i.isLt]

end

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem read_blk0_0 (c : Dev nD) (A : Buf (Elt Ideal) ((cfg0.win 0).arr.view.loc (c.tc : Thread nD τ))) (t : Fin cfg0.N)
    (p : Fin 10000) (k : Fin 128) :
    (((cfg0.win 0).blk t).view.read (Elt Ideal) A : S10000x128.Idx → EReal) (ix2 p k) = (A : S100000x128.Idx → EReal) (ix2 (row0 t p) k) := by
  obtain ⟨e0, e1, -⟩ := idx_facts0 t
  rw [View.read_apply]
  refine congrArg (A : S100000x128.Idx → EReal) ?_
  funext a; apply Fin.ext
  match a with
  | ⟨0, _⟩ => show win0_0.index t (0 : Fin 2) * 10000 + 1 * p.val = 10000 * t.val + p.val; rw [e0]; omega
  | ⟨1, _⟩ => show win0_0.index t (1 : Fin 2) * 128 + 1 * k.val = k.val; rw [e1]; omega

theorem read_blk0_1 (c : Dev nD) (A : Buf (Elt Ideal) ((cfg0.win 1).arr.view.loc (c.tc : Thread nD τ))) (t : Fin cfg0.N)
    (k : Fin 128) (q : Fin 128) :
    (((cfg0.win 1).blk t).view.read (Elt Ideal) A : S128x128.Idx → EReal) (ix2 k q) = (A : S128x128.Idx → EReal) (ix2 k q) := by
  obtain ⟨-, -, e0, e1, -⟩ := idx_facts0 t
  rw [View.read_apply]
  refine congrArg (A : S128x128.Idx → EReal) ?_
  funext a; apply Fin.ext
  match a with
  | ⟨0, _⟩ => show win0_1.index t (0 : Fin 2) * 128 + 1 * k.val = k.val; rw [e0]; omega
  | ⟨1, _⟩ => show win0_1.index t (1 : Fin 2) * 128 + 1 * q.val = q.val; rw [e1]; omega

theorem read_blk0_2 (c : Dev nD) (A : Buf (Elt Ideal) ((cfg0.win 2).arr.view.loc (c.tc : Thread nD τ))) (t : Fin cfg0.N)
    (r : Fin 1) (q : Fin 128) :
    (((cfg0.win 2).blk t).view.read (Elt Ideal) A : S1x128.Idx → EReal) (ix2 r q) = (A : S1x128.Idx → EReal) (ix2 r q) := by
  obtain ⟨-, -, -, -, e0, e1, -⟩ := idx_facts0 t
  rw [View.read_apply]
  refine congrArg (A : S1x128.Idx → EReal) ?_
  funext a; apply Fin.ext
  match a with
  | ⟨0, _⟩ => show win0_2.index t (0 : Fin 2) * 1 + 1 * r.val = r.val; rw [e0]; omega
  | ⟨1, _⟩ => show win0_2.index t (1 : Fin 2) * 128 + 1 * q.val = q.val; rw [e1]; omega

theorem read_blk0_3 (c : Dev nD) (A : Buf (Elt Ideal) ((cfg0.win 3).arr.view.loc (c.tc : Thread nD τ))) (t : Fin cfg0.N)
    (p : Fin 10000) (q : Fin 128) :
    (((cfg0.win 3).blk t).view.read (Elt Ideal) A : S10000x128.Idx → EReal) (ix2 p q) = (A : S100000x128.Idx → EReal) (ix2 (row0 t p) q) := by
  obtain ⟨-, -, -, -, -, -, e0, e1, -⟩ := idx_facts0 t
  rw [View.read_apply]
  refine congrArg (A : S100000x128.Idx → EReal) ?_
  funext a; apply Fin.ext
  match a with
  | ⟨0, _⟩ => show win0_3.index t (0 : Fin 2) * 10000 + 1 * p.val = 10000 * t.val + p.val; rw [e0]; omega
  | ⟨1, _⟩ => show win0_3.index t (1 : Fin 2) * 128 + 1 * q.val = q.val; rw [e1]; omega

theorem read_blk0_4 (c : Dev nD) (A : Buf (Elt Ideal) ((cfg0.win 4).arr.view.loc (c.tc : Thread nD τ))) (t : Fin cfg0.N)
    (r : Fin 1) (q : Fin 128) :
    (((cfg0.win 4).blk t).view.read (Elt Ideal) A : S1x128.Idx → EReal) (ix2 r q) = (A : S1x128.Idx → EReal) (ix2 r q) := by
  obtain ⟨-, -, -, -, -, -, -, -, e0, e1, -⟩ := idx_facts0 t
  rw [View.read_apply]
  refine congrArg (A : S1x128.Idx → EReal) ?_
  funext a; apply Fin.ext
  match a with
  | ⟨0, _⟩ => show win0_4.index t (0 : Fin 2) * 1 + 1 * r.val = r.val; rw [e0]; omega
  | ⟨1, _⟩ => show win0_4.index t (1 : Fin 2) * 128 + 1 * q.val = q.val; rw [e1]; omega
theorem read_blk0_5 (c : Dev nD) (A : Buf (Elt Ideal) ((cfg0.win 5).arr.view.loc (c.tc : Thread nD τ))) (t : Fin cfg0.N)
    (r : Fin 1) (q : Fin 128) :
    (((cfg0.win 5).blk t).view.read (Elt Ideal) A : S1x128.Idx → EReal) (ix2 r q) = (A : S1x128.Idx → EReal) (ix2 r q) := by
  obtain ⟨-, -, -, -, -, -, -, -, -, -, e0, e1⟩ := idx_facts0 t
  rw [View.read_apply]
  refine congrArg (A : S1x128.Idx → EReal) ?_
  funext a; apply Fin.ext
  match a with
  | ⟨0, _⟩ => show win0_5.index t (0 : Fin 2) * 1 + 1 * r.val = r.val; rw [e0]; omega
  | ⟨1, _⟩ => show win0_5.index t (1 : Fin 2) * 128 + 1 * q.val = q.val; rw [e1]; omega
theorem cover0_3 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  refine ⟨ptOf0 (i 0), flush0_3 _, ?_⟩
  obtain ⟨-, -, -, -, -, -, e0, e1, -⟩ := idx_facts0 (ptOf0 (i 0))
  have hv : (ptOf0 (i 0)).val = (i 0).val / 10000 := rfl
  show i ∈ ((View.whole (Pipeline.arrRef spec0 3)).slice (win0_3.rect (ptOf0 (i 0)))).set
  rw [View.set_slice_whole, Rect.mem_set_unit]
  intro a
  match a with
  | ⟨0, _⟩ =>
    show win0_3.index (ptOf0 (i 0)) (0 : Fin 2) * 10000 ≤ (i 0).val ∧ (i 0).val < win0_3.index (ptOf0 (i 0)) (0 : Fin 2) * 10000 + 10000
    rw [e0, hv]; omega
  | ⟨1, _⟩ =>
    show win0_3.index (ptOf0 (i 0)) (1 : Fin 2) * 128 ≤ (i 1).val ∧ (i 1).val < win0_3.index (ptOf0 (i 0)) (1 : Fin 2) * 128 + 128
    rw [e1]; omega
theorem cover0_4 (i : S1x128.Idx) :
    ∃ t : Fin cfg0.N, (cfg0.win 4).flush t = true ∧ i ∈ ((cfg0.win 4).blk t).view.set := by
  have hi0 : (i 0).val < 1 := (i 0).isLt
  have hi1 : (i 1).val < 128 := (i 1).isLt
  refine ⟨last0, (flush0_4 last0).mpr rfl, ?_⟩
  obtain ⟨-, -, -, -, -, -, -, -, e0, e1, -⟩ := idx_facts0 last0
  show i ∈ ((View.whole (Pipeline.arrRef spec0 4)).slice (win0_4.rect last0)).set
  rw [View.set_slice_whole, Rect.mem_set_unit]
  intro a
  match a with
  | ⟨0, _⟩ =>
    show win0_4.index last0 (0 : Fin 2) * 1 ≤ (i 0).val ∧ (i 0).val < win0_4.index last0 (0 : Fin 2) * 1 + 1
    rw [e0]; omega
  | ⟨1, _⟩ =>
    show win0_4.index last0 (1 : Fin 2) * 128 ≤ (i 1).val ∧ (i 1).val < win0_4.index last0 (1 : Fin 2) * 128 + 128
    rw [e1]; omega
theorem cover0_5 (i : S1x128.Idx) :
    ∃ t : Fin cfg0.N, (cfg0.win 5).flush t = true ∧ i ∈ ((cfg0.win 5).blk t).view.set := by
  have hi0 : (i 0).val < 1 := (i 0).isLt
  have hi1 : (i 1).val < 128 := (i 1).isLt
  refine ⟨last0, (flush0_5 last0).mpr rfl, ?_⟩
  obtain ⟨-, -, -, -, -, -, -, -, -, -, e0, e1⟩ := idx_facts0 last0
  show i ∈ ((View.whole (Pipeline.arrRef spec0 5)).slice (win0_5.rect last0)).set
  rw [View.set_slice_whole, Rect.mem_set_unit]
  intro a
  match a with
  | ⟨0, _⟩ =>
    show win0_5.index last0 (0 : Fin 2) * 1 ≤ (i 0).val ∧ (i 0).val < win0_5.index last0 (0 : Fin 2) * 1 + 1
    rw [e0]; omega
  | ⟨1, _⟩ =>
    show win0_5.index last0 (1 : Fin 2) * 128 ≤ (i 1).val ∧ (i 1).val < win0_5.index last0 (1 : Fin 2) * 128 + 128
    rw [e1]; omega
variable (V : (c : Dev nD) → (b : Ref sig .tc) → Buf (Elt Ideal) ((c : Thread nD τ).loc b))

abbrev P0 (c : Dev nD) : Mat 100000 128 := toMat (V c (Pipeline.arrRef spec0 0) : S100000x128.Idx → EReal)
abbrev Wt0 (c : Dev nD) : Mat 128 128 := toMat (V c (Pipeline.arrRef spec0 1) : S128x128.Idx → EReal)
abbrev bs0 (c : Dev nD) : Row 128 := toRow1 (V c (Pipeline.arrRef spec0 2) : S1x128.Idx → EReal)

theorem xb0_apply (c : Dev nD) (t : Fin cfg0.N) (p : Fin 10000) (k : Fin 128) :
    (iblk0 V c 0 t : S10000x128.Idx → EReal) (ix2 p k) = P0 V c (row0 t p) k :=
  read_blk0_0 c (V c (Pipeline.arrRef spec0 0)) t p k
theorem wb0_apply (c : Dev nD) (t : Fin cfg0.N) (k : Fin 128) (q : Fin 128) :
    (iblk0 V c 1 t : S128x128.Idx → EReal) (ix2 k q) = Wt0 V c k q :=
  read_blk0_1 c (V c (Pipeline.arrRef spec0 1)) t k q
theorem bb0_apply (c : Dev nD) (t : Fin cfg0.N) (q : Fin 128) :
    (iblk0 V c 2 t : S1x128.Idx → EReal) (ix2 (0 : Fin 1) q) = bs0 V c q :=
  read_blk0_2 c (V c (Pipeline.arrRef spec0 2)) t 0 q

abbrev G0_3 (c : Dev nD) : S100000x128.Idx → EReal := fun i => lin (P0 V c) (Wt0 V c) (bs0 V c) (i 0) (i 1)

theorem flushed0_3 (c : Dev nD) (t : Fin cfg0.N) :
    (dat0 V c).flushed 3 t = ((cfg0.win 3).blk t).view.read (Elt Ideal) (G0_3 V c) := by
  show (cfg0.win 3).cut (grid0.coords t) (k0_pay3 (iblk0 V c 0 t) (iblk0 V c 1 t) (iblk0 V c 2 t)) = _
  funext j
  obtain ⟨p, q, rfl⟩ : ∃ (p : Fin 10000) (q : Fin 128), j = ix2 p q := ⟨j 0, j 1, eq_ix2 j⟩
  refine (z_blk0 (iblk0 V c 0) (iblk0 V c 1) (iblk0 V c 2) _ _ _ (xb0_apply V c) (wb0_apply V c) (bb0_apply V c) t p q).trans ?_
  exact (read_blk0_3 c (G0_3 V c) t p q).symm

theorem z_arr0 (c : Dev nD) : (dat0 V c).arrAt 3 cfg0.N = G0_3 V c :=
  (dat0 V c).arrAt_eq_of_cover 3 (G0_3 V c) (fun t _ => flushed0_3 V c t) cover0_3

theorem z_val0 (c : Dev nD) :
    toMat ((dat0 V c).arrAt 3 cfg0.N : S100000x128.Idx → EReal) = lin (P0 V c) (Wt0 V c) (bs0 V c) := by
  rw [z_arr0]

abbrev G0_4 (c : Dev nD) : S1x128.Idx → EReal := fun i => colSum (lin (P0 V c) (Wt0 V c) (bs0 V c)) (i 1)
abbrev G0_5 (c : Dev nD) : S1x128.Idx → EReal :=
  fun i => colSum (fun a b => lin (P0 V c) (Wt0 V c) (bs0 V c) a b * lin (P0 V c) (Wt0 V c) (bs0 V c) a b) (i 1)

theorem flushed0_4 (c : Dev nD) (t : Fin cfg0.N) (hf : (cfg0.win 4).flush t = true) :
    (dat0 V c).flushed 4 t = ((cfg0.win 4).blk t).view.read (Elt Ideal) (G0_4 V c) := by
  have hN : cfg0.N = 10 := N_0
  have h9 : t.val = 9 := by have := (flush0_4 t).mp hf; have := t.isLt; omega
  obtain rfl : t = last0 := Fin.ext h9
  show (cfg0.win 4).cut (grid0.coords last0) (out0_4 (iblk0 V c 0) (iblk0 V c 1) (iblk0 V c 2) last0.val last0.isLt) = _
  funext j
  obtain ⟨r, q, rfl⟩ : ∃ (r : Fin 1) (q : Fin 128), j = ix2 r q := ⟨j 0, j 1, eq_ix2 j⟩
  obtain rfl : r = 0 := Subsingleton.elim _ _
  refine (out0_4_last (iblk0 V c 0) (iblk0 V c 1) (iblk0 V c 2) _ _ _ (xb0_apply V c) (wb0_apply V c) (bb0_apply V c) q last0.isLt).trans ?_
  exact (read_blk0_4 c (G0_4 V c) last0 0 q).symm
theorem flushed0_5 (c : Dev nD) (t : Fin cfg0.N) (hf : (cfg0.win 5).flush t = true) :
    (dat0 V c).flushed 5 t = ((cfg0.win 5).blk t).view.read (Elt Ideal) (G0_5 V c) := by
  have hN : cfg0.N = 10 := N_0
  have h9 : t.val = 9 := by have := (flush0_5 t).mp hf; have := t.isLt; omega
  obtain rfl : t = last0 := Fin.ext h9
  show (cfg0.win 5).cut (grid0.coords last0) (out0_5 (iblk0 V c 0) (iblk0 V c 1) (iblk0 V c 2) last0.val last0.isLt) = _
  funext j
  obtain ⟨r, q, rfl⟩ : ∃ (r : Fin 1) (q : Fin 128), j = ix2 r q := ⟨j 0, j 1, eq_ix2 j⟩
  obtain rfl : r = 0 := Subsingleton.elim _ _
  refine (out0_5_last (iblk0 V c 0) (iblk0 V c 1) (iblk0 V c 2) _ _ _ (xb0_apply V c) (wb0_apply V c) (bb0_apply V c) q last0.isLt).trans ?_
  exact (read_blk0_5 c (G0_5 V c) last0 0 q).symm

theorem sum_arr0 (c : Dev nD) : (dat0 V c).arrAt 4 cfg0.N = G0_4 V c :=
  (dat0 V c).arrAt_eq_of_cover 4 (G0_4 V c) (flushed0_4 V c) cover0_4
theorem sumsq_arr0 (c : Dev nD) : (dat0 V c).arrAt 5 cfg0.N = G0_5 V c :=
  (dat0 V c).arrAt_eq_of_cover 5 (G0_5 V c) (flushed0_5 V c) cover0_5

theorem sum_val0 (c : Dev nD) :
    toRow1 ((dat0 V c).arrAt 4 cfg0.N : S1x128.Idx → EReal) = colSum (lin (P0 V c) (Wt0 V c) (bs0 V c)) := by
  rw [sum_arr0]
theorem sumsq_val0 (c : Dev nD) :
    toRow1 ((dat0 V c).arrAt 5 cfg0.N : S1x128.Idx → EReal)
      = colSum (fun i j => lin (P0 V c) (Wt0 V c) (bs0 V c) i j * lin (P0 V c) (Wt0 V c) (bs0 V c) i j) := by
  rw [sumsq_arr0]

end Cert.KernelIdeal.Hand

end
-- ==== Proof.KI.R1Val.lean ====
import proofs.«105940_j32358283608240_1_alg».proof.Proof.KI.R1
import proofs.«105940_j32358283608240_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Spec
open scoped BigOperators

theorem mmL1_0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem mmL1_1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem mmR1_0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem mmR1_1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

theorem mm1_apply (A : FVec Ideal S10000x128 .bf16) (B : FVec Ideal S128x128 .bf16) (p : Fin 10000) (q : Fin 128) :
    matmul dot_S10000x128_S128x128_S10000x128_1_0_0_1_n_n none A B (constant S10000x128 .f32 0x00000000#32) (ix2 p q) = ∑ k : Fin 128, A (ix2 p k) * B (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact mmL1_0 _ _
    | ⟨1, _⟩ => exact (mmL1_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (mmR1_0 _ _).trans hk
    | ⟨1, _⟩ => exact mmR1_1 _ _)
  rw [el, er]

theorem rsqrt_apply1 {s : Shape} {φ : FTy} (a : FVec Ideal s φ) (i : s.Idx) : rsqrt a i = Ideal.rsqrt (a i) := rfl

theorem pay5_apply1 (z : Vec Ideal S10000x128 .f32) (va mu ga be : Vec Ideal S1x128 .f32) (W : Vec Ideal S128x128 .f32)
    (b : Vec Ideal S1x128 .f32) (p : Fin 10000) (q : Fin 128) :
    k1_pay5 z va mu ga be W b (ix2 p q)
      = (∑ k : Fin 128, max ((((z (ix2 p k) - mu (ix2 0 k)) * Ideal.rsqrt (va (ix2 0 k) + bnEps)) * ga (ix2 0 k)) + be (ix2 0 k)) 0
            * W (ix2 k q)) + b (ix2 0 q) := by
  unfold k1_pay5
  simp only [shapeCast_self]
  rw [addf_apply, mm1_apply, broadcastTo_1b_ab_apply]
  refine congrArg₂ (· + ·) (Finset.sum_congr rfl fun k _ => ?_) rfl
  simp only [truncf_apply, maximumf_apply, addf_apply, mulf_apply, subf_apply, broadcast_apply, broadcastTo_1b_ab_apply,
    rsqrt_apply1, Ideal.ofBits_def, Ideal.ofBits_zero_f32]
  rfl

theorem colsum_apply1 (X : FVec Ideal S10000x128 .f32) (q : Fin 128) :
    multiReduction .add [0] S128 X 0x00000000#32 reduces_S10000x128_S128 (.inl rfl) rfl (ix1 q) = ∑ k : Fin 10000, X (ix2 k q) := by
  refine (Ideal.multiReduction_add_single X 0x00000000#32 reduces_S10000x128_S128 (.inl rfl) rfl (ix1 q)).trans ?_
  refine Finset.sum_congr rfl fun k _ => congrArg X ?_
  funext a; apply Fin.ext
  match a with
  | ⟨0, _⟩ => rfl
  | ⟨1, _⟩ => rfl

theorem pay1_apply1 (R : FVec Ideal S10000x128 .f32) (acc : Vec Ideal S1x128 .f32) (q : Fin 128) :
    k1_pay1 R acc (ix2 0 q) = acc (ix2 0 q) + ∑ k : Fin 10000, R (ix2 k q) := by
  unfold k1_pay1
  simp only [shapeCast_self]
  rw [addf_apply, shapeCast_a_1a_apply, colsum_apply1]

theorem pay2_apply1 (R : FVec Ideal S10000x128 .f32) (acc : Vec Ideal S1x128 .f32) (q : Fin 128) :
    k1_pay2 R acc (ix2 0 q) = acc (ix2 0 q) + ∑ k : Fin 10000, R (ix2 k q) * R (ix2 k q) := by
  unfold k1_pay2
  simp only [shapeCast_self]
  rw [addf_apply, shapeCast_a_1a_apply, colsum_apply1]
  rfl

theorem pay3_apply1 (j : S1x128.Idx) : (k1_pay3 (F := Ideal)) j = 0 := by
  unfold k1_pay3
  simp only [broadcast_apply, Ideal.ofBits_def, Ideal.ofBits_zero_f32]
theorem pay4_apply1 (j : S1x128.Idx) : (k1_pay4 (F := Ideal)) j = 0 := by
  unfold k1_pay4
  simp only [broadcast_apply, Ideal.ofBits_def, Ideal.ofBits_zero_f32]

theorem sum_blocks1 {M : Type} [AddCommMonoid M] (f : ℕ → M) :
    ∑ s ∈ Finset.range 10, ∑ p : Fin 10000, f (10000 * s + p.val) = ∑ i : Fin 100000, f i.val := by
  rw [Finset.sum_range (fun s => ∑ p : Fin 10000, f (10000 * s + p.val))]
  rw [← Fintype.sum_prod_type' (fun (s : Fin 10) (p : Fin 10000) => f (10000 * s.val + p.val))]
  show _ = ∑ i : Fin (10 * 10000), f i.val
  rw [← Equiv.sum_comp (finProdFinEquiv (m := 10) (n := 10000)) (fun i : Fin (10 * 10000) => f i.val)]
  refine Finset.sum_congr rfl fun x _ => congrArg f ?_
  rw [finProdFinEquiv_apply_val]; omega

/-- After point `n` an accumulator holds the contributions `φ` of the rows of the blocks `0 … n`, added in point order. -/
theorem sums1_apply {N : ℕ} {g : FVec Ideal S10000x128 .f32 → Vec Ideal S1x128 .f32 → Vec Ideal S1x128 .f32} {z : Vec Ideal S1x128 .f32} {φ : EReal → EReal}
    (hz : ∀ j, z j = 0) (hg : ∀ R acc (q : Fin 128), g R acc (ix2 0 q) = acc (ix2 0 q) + ∑ k : Fin 10000, φ (R (ix2 k q)))
    (R : Fin N → FVec Ideal S10000x128 .f32) (f : ℕ → EReal) (q : Fin 128) (hR : ∀ t (p : Fin 10000), φ (R t (ix2 p q)) = f (10000 * t.val + p.val)) :
    ∀ (n : ℕ) (hn : n < N), sums1 g z R n hn (ix2 0 q) = ∑ s ∈ Finset.range (n + 1), ∑ p : Fin 10000, f (10000 * s + p.val)
  | 0, hn => by
    rw [sums1, hg, hz, zero_add, Finset.sum_range_one]
    exact Finset.sum_congr rfl fun p _ => hR ⟨0, hn⟩ p
  | n + 1, hn => by
    rw [sums1, hg, sums1_apply hz hg R f q hR n (Nat.lt_of_succ_lt hn), Finset.sum_range_succ _ (n + 1)]
    exact congrArg (_ + ·) (Finset.sum_congr rfl fun p _ => hR ⟨n + 1, hn⟩ p)

def ext0 (u : Fin 100000 → EReal) (r : ℕ) : EReal := if h : r < 100000 then u ⟨r, h⟩ else 0

/-- After the tenth point it holds the contributions of all hundred thousand rows. -/
theorem sums1_last {N : ℕ} {g : FVec Ideal S10000x128 .f32 → Vec Ideal S1x128 .f32 → Vec Ideal S1x128 .f32} {z : Vec Ideal S1x128 .f32} {φ : EReal → EReal}
    (hz : ∀ j, z j = 0) (hg : ∀ R acc (q : Fin 128), g R acc (ix2 0 q) = acc (ix2 0 q) + ∑ k : Fin 10000, φ (R (ix2 k q)))
    (R : Fin N → FVec Ideal S10000x128 .f32) (u : Fin 100000 → EReal) (q : Fin 128)
    (hR : ∀ t (p : Fin 10000), φ (R t (ix2 p q)) = ext0 u (10000 * t.val + p.val)) (t : Fin N) (h9 : t.val = 9) :
    sums1 g z R t.val t.isLt (ix2 0 q) = ∑ i, u i := by
  rw [sums1_apply hz hg R _ q hR, h9]
  show ∑ s ∈ Finset.range 10, ∑ p : Fin 10000, ext0 u (10000 * s + p.val) = _
  rw [sum_blocks1 (ext0 u)]
  exact Finset.sum_congr rfl fun i _ => dif_pos i.isLt

section Val
variable (V : (c : Dev nD) → (b : Ref sig .tc) → Buf (Elt Ideal) ((c : Thread nD τ).loc b))

abbrev Z1 (c : Dev nD) : Mat 100000 128 := toMat (V c (Pipeline.arrRef spec1 0) : S100000x128.Idx → EReal)
abbrev mu1 (c : Dev nD) : Row 128 := toRow1 (V c (Pipeline.arrRef spec1 1) : S1x128.Idx → EReal)
abbrev va1 (c : Dev nD) : Row 128 := toRow1 (V c (Pipeline.arrRef spec1 2) : S1x128.Idx → EReal)
abbrev ga1 (c : Dev nD) : Row 128 := toRow1 (V c (Pipeline.arrRef spec1 3) : S1x128.Idx → EReal)
abbrev be1 (c : Dev nD) : Row 128 := toRow1 (V c (Pipeline.arrRef spec1 4) : S1x128.Idx → EReal)
abbrev Wt1 (c : Dev nD) : Mat 128 128 := toMat (V c (Pipeline.arrRef spec1 5) : S128x128.Idx → EReal)
abbrev bs1 (c : Dev nD) : Row 128 := toRow1 (V c (Pipeline.arrRef spec1 6) : S1x128.Idx → EReal)
abbrev A1 (c : Dev nD) : Mat 100000 128 := normRelu (Z1 V c) (mu1 V c) (va1 V c) (ga1 V c) (be1 V c)

theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0 :=
  (by decide +kernel : ∀ t : Fin grid1.N, _)

def row1 (t : Fin cfg1.N) (p : Fin 10000) : Fin 100000 :=
  ⟨10000 * t.val + p.val, by have := lt_of_lt_of_eq t.isLt (show cfg1.N = 10 from N_1); have := p.isLt; omega⟩

theorem iblk1_0_apply (c : Dev nD) (t : Fin cfg1.N) (p : Fin 10000) (k : Fin 128) :
    iblk1 V c 0 t (ix2 p k) = Z1 V c (row1 t p) k := by
  have h := idx_facts1 t
  unfold iblk1
  rw [View.read_apply]
  show V c (Pipeline.arrRef spec1 0) _ = V c (Pipeline.arrRef spec1 0) _
  refine congrArg _ (funext fun a => Fin.ext ?_)
  match a with
  | ⟨0, _⟩ => show win1_0.index t (0 : Fin 2) * 10000 + 1 * p.val = 10000 * t.val + p.val; rw [h.1]; omega
  | ⟨1, _⟩ => show win1_0.index t (1 : Fin 2) * 128 + 1 * k.val = k.val; rw [h.2.1]; omega

theorem iblk1_1_apply (c : Dev nD) (t : Fin cfg1.N) (k : Fin 128) :
    iblk1 V c 1 t (ix2 0 k) = mu1 V c k := by
  have h := idx_facts1 t
  unfold iblk1
  rw [View.read_apply]
  show V c (Pipeline.arrRef spec1 1) _ = V c (Pipeline.arrRef spec1 1) _
  refine congrArg _ (funext fun a => Fin.ext ?_)
  match a with
  | ⟨0, _⟩ => show win1_1.index t (0 : Fin 2) * 1 + 1 * 0 = 0; rw [h.2.2.1]
  | ⟨1, _⟩ => show win1_1.index t (1 : Fin 2) * 128 + 1 * k.val = k.val; rw [h.2.2.2.1]; omega
theorem iblk1_2_apply (c : Dev nD) (t : Fin cfg1.N) (k : Fin 128) :
    iblk1 V c 2 t (ix2 0 k) = va1 V c k := by
  have h := idx_facts1 t
  unfold iblk1
  rw [View.read_apply]
  show V c (Pipeline.arrRef spec1 2) _ = V c (Pipeline.arrRef spec1 2) _
  refine congrArg _ (funext fun a => Fin.ext ?_)
  match a with
  | ⟨0, _⟩ => show win1_2.index t (0 : Fin 2) * 1 + 1 * 0 = 0; rw [h.2.2.2.2.1]
  | ⟨1, _⟩ => show win1_2.index t (1 : Fin 2) * 128 + 1 * k.val = k.val; rw [h.2.2.2.2.2.1]; omega
theorem iblk1_3_apply (c : Dev nD) (t : Fin cfg1.N) (k : Fin 128) :
    iblk1 V c 3 t (ix2 0 k) = ga1 V c k := by
  have h := idx_facts1 t
  unfold iblk1
  rw [View.read_apply]
  show V c (Pipeline.arrRef spec1 3) _ = V c (Pipeline.arrRef spec1 3) _
  refine congrArg _ (funext fun a => Fin.ext ?_)
  match a with
  | ⟨0, _⟩ => show win1_3.index t (0 : Fin 2) * 1 + 1 * 0 = 0; rw [h.2.2.2.2.2.2.1]
  | ⟨1, _⟩ => show win1_3.index t (1 : Fin 2) * 128 + 1 * k.val = k.val; rw [h.2.2.2.2.2.2.2.1]; omega
theorem iblk1_4_apply (c : Dev nD) (t : Fin cfg1.N) (k : Fin 128) :
    iblk1 V c 4 t (ix2 0 k) = be1 V c k := by
  have h := idx_facts1 t
  unfold iblk1
  rw [View.read_apply]
  show V c (Pipeline.arrRef spec1 4) _ = V c (Pipeline.arrRef spec1 4) _
  refine congrArg _ (funext fun a => Fin.ext ?_)
  match a with
  | ⟨0, _⟩ => show win1_4.index t (0 : Fin 2) * 1 + 1 * 0 = 0; rw [h.2.2.2.2.2.2.2.2.1]
  | ⟨1, _⟩ => show win1_4.index t (1 : Fin 2) * 128 + 1 * k.val = k.val; rw [h.2.2.2.2.2.2.2.2.2.1]; omega
theorem iblk1_6_apply (c : Dev nD) (t : Fin cfg1.N) (k : Fin 128) :
    iblk1 V c 6 t (ix2 0 k) = bs1 V c k := by
  have h := idx_facts1 t
  unfold iblk1
  rw [View.read_apply]
  show V c (Pipeline.arrRef spec1 6) _ = V c (Pipeline.arrRef spec1 6) _
  refine congrArg _ (funext fun a => Fin.ext ?_)
  match a with
  | ⟨0, _⟩ => show win1_6.index t (0 : Fin 2) * 1 + 1 * 0 = 0; rw [h.2.2.2.2.2.2.2.2.2.2.2.2.1]
  | ⟨1, _⟩ => show win1_6.index t (1 : Fin 2) * 128 + 1 * k.val = k.val; rw [h.2.2.2.2.2.2.2.2.2.2.2.2.2.1]; omega
theorem iblk1_5_apply (c : Dev nD) (t : Fin cfg1.N) (k q : Fin 128) :
    iblk1 V c 5 t (ix2 k q) = Wt1 V c k q := by
  have h := idx_facts1 t
  unfold iblk1
  rw [View.read_apply]
  show V c (Pipeline.arrRef spec1 5) _ = V c (Pipeline.arrRef spec1 5) _
  refine congrArg _ (funext fun a => Fin.ext ?_)
  match a with
  | ⟨0, _⟩ => show win1_5.index t (0 : Fin 2) * 128 + 1 * k.val = k.val; rw [h.2.2.2.2.2.2.2.2.2.2.1]; omega
  | ⟨1, _⟩ => show win1_5.index t (1 : Fin 2) * 128 + 1 * q.val = q.val; rw [h.2.2.2.2.2.2.2.2.2.2.2.1]; omega

abbrev L1 (c : Dev nD) : Mat 100000 128 := lin (A1 V c) (Wt1 V c) (bs1 V c)

theorem res1_apply (c : Dev nD) (t : Fin cfg1.N) (p : Fin 10000) (q : Fin 128) :
    res1 V c t (ix2 p q) = L1 V c (row1 t p) q := by
  unfold res1
  refine (pay5_apply1 (iblk1 V c 0 t) (iblk1 V c 2 t) (iblk1 V c 1 t) (iblk1 V c 3 t) (iblk1 V c 4 t) (iblk1 V c 5 t) (iblk1 V c 6 t) p q).trans ?_
  simp only [iblk1_0_apply V c t, iblk1_1_apply V c t, iblk1_2_apply V c t, iblk1_3_apply V c t, iblk1_4_apply V c t,
    iblk1_5_apply V c t, iblk1_6_apply V c t]
  rfl

@[irreducible] def csum1 (c : Dev nD) (q : Fin 128) : EReal := colSum (L1 V c) q
@[irreducible] def csq1 (c : Dev nD) (q : Fin 128) : EReal := colSum (fun r j => L1 V c r j * L1 V c r j) q

abbrev G1_7 (c : Dev nD) : S100000x128.Idx → EReal := fun i => L1 V c (i 0) (i 1)
abbrev G1_8 (c : Dev nD) : S1x128.Idx → EReal := fun i => csum1 V c (i 1)
abbrev G1_9 (c : Dev nD) : S1x128.Idx → EReal := fun i => csq1 V c (i 1)

theorem flushed1_7_eq (c : Dev nD) (t : Fin cfg1.N) :
    (dat1 V c).flushed 7 t = ((cfg1.win 7).blk t).view.read (Elt Ideal) (G1_7 V c) := by
  have h := idx_facts1 t
  show (cfg1.win 7).cut (grid1.coords t) ((dat1 V c).after 7 t) = _
  funext j
  obtain ⟨p, q, rfl⟩ : ∃ (p : Fin 10000) (q : Fin 128), j = ix2 p q := ⟨j 0, j 1, eq_ix2 j⟩
  rw [View.read_apply]
  have e : (dat1 V c).after 7 t = res1 V c t := by dsimp only [dat1]
  refine (congrFun e (ix2 p q)).trans ?_
  refine (res1_apply V c t p q).trans ?_
  show L1 V c (row1 t p) q = L1 V c ((((cfg1.win 7).blk t).view.emb (ix2 p q)) 0) ((((cfg1.win 7).blk t).view.emb (ix2 p q)) 1)
  refine congrArg₂ (L1 V c) (Fin.ext ?_) (Fin.ext ?_)
  · show 10000 * t.val + p.val = win1_7.index t (0 : Fin 2) * 10000 + 1 * p.val
    rw [h.2.2.2.2.2.2.2.2.2.2.2.2.2.2.1]; omega
  · show q.val = win1_7.index t (1 : Fin 2) * 128 + 1 * q.val
    rw [h.2.2.2.2.2.2.2.2.2.2.2.2.2.2.2.1]; omega

theorem cover1_7 (i : S100000x128.Idx) : ∃ t : Fin cfg1.N, (cfg1.win 7).flush t = true ∧ i ∈ ((cfg1.win 7).blk t).view.set := by
  have hi0 : (i 0).val < 100000 := (i 0).isLt
  have hi1 : (i 1).val < 128 := (i 1).isLt
  have hN : cfg1.N = 10 := N_1
  obtain ⟨t, ht⟩ : ∃ t : Fin cfg1.N, t.val = (i 0).val / 10000 := ⟨⟨(i 0).val / 10000, by omega⟩, rfl⟩
  have h := idx_facts1 t
  refine ⟨t, flush1_7 t, ?_⟩
  have hy : ((cfg1.win 7).blk t).view.emb (ix2 (⟨(i 0).val % 10000, Nat.mod_lt _ (by decide)⟩ : Fin 10000) (⟨(i 1).val, hi1⟩ : Fin 128)) = i := by
    funext a; apply Fin.ext
    match a with
    | ⟨0, _⟩ => show win1_7.index t (0 : Fin 2) * 10000 + 1 * ((i 0).val % 10000) = (i 0).val; rw [h.2.2.2.2.2.2.2.2.2.2.2.2.2.2.1, ht]; omega
    | ⟨1, _⟩ => show win1_7.index t (1 : Fin 2) * 128 + 1 * (i 1).val = (i 1).val; rw [h.2.2.2.2.2.2.2.2.2.2.2.2.2.2.2.1]; omega
  have hm := ((cfg1.win 7).blk t).view.emb_mem_set (ix2 (⟨(i 0).val % 10000, Nat.mod_lt _ (by decide)⟩ : Fin 10000) (⟨(i 1).val, hi1⟩ : Fin 128))
  rwa [hy] at hm

theorem final1_7 (c : Dev nD) : (dat1 V c).arrAt 7 cfg1.N = G1_7 V c :=
  (dat1 V c).arrAt_eq_of_cover 7 (G1_7 V c) (fun t _ => flushed1_7_eq V c t) cover1_7

theorem sums1_8_last (c : Dev nD) (q : Fin 128) (t : Fin cfg1.N) (h9 : t.val = 9) :
    sums1 k1_pay1 k1_pay3 (res1 V c) t.val t.isLt (ix2 (0 : Fin 1) q) = csum1 V c q := by
  unfold csum1 colSum
  exact sums1_last (φ := fun x => x) pay3_apply1 pay1_apply1 (res1 V c) (fun r => L1 V c r q) q
    (fun t p => by rw [res1_apply]; unfold ext0 row1; rw [dif_pos]) t h9
theorem sums1_9_last (c : Dev nD) (q : Fin 128) (t : Fin cfg1.N) (h9 : t.val = 9) :
    sums1 k1_pay2 k1_pay4 (res1 V c) t.val t.isLt (ix2 (0 : Fin 1) q) = csq1 V c q := by
  unfold csq1 colSum
  exact sums1_last (φ := fun x => x * x) pay4_apply1 pay2_apply1 (res1 V c) (fun r => L1 V c r q * L1 V c r q) q
    (fun t p => by rw [res1_apply]; unfold ext0 row1; rw [dif_pos]) t h9

theorem G1_8_apply (c : Dev nD) (i : S1x128.Idx) (q : Fin 128) (hi : (i 1).val = q.val) : G1_8 V c i = csum1 V c q :=
  congrArg (csum1 V c) (Fin.ext hi)

theorem flushed1_8_eq (c : Dev nD) (t : Fin cfg1.N) (hf : (cfg1.win 8).flush t = true) :
    (dat1 V c).flushed 8 t = ((cfg1.win 8).blk t).view.read (Elt Ideal) (G1_8 V c) := by
  have hN : cfg1.N = 10 := N_1
  have h9 : t.val = 9 := by have := (flush1_8 t).mp hf; have := t.isLt; omega
  have h := idx_facts1 t
  show (cfg1.win 8).cut (grid1.coords t) ((dat1 V c).after 8 t) = _
  funext j
  obtain ⟨u, q, rfl⟩ : ∃ (u : Fin 1) (q : Fin 128), j = ix2 u q := ⟨j 0, j 1, eq_ix2 j⟩
  obtain rfl : u = 0 := Subsingleton.elim _ _
  rw [View.read_apply]
  have e : (dat1 V c).after 8 t = sums1 k1_pay1 k1_pay3 (res1 V c) t.val t.isLt := by dsimp only [dat1]
  refine (congrFun e (ix2 (0 : Fin 1) q)).trans ?_
  refine (sums1_8_last V c q t h9).trans ?_
  show csum1 V c q = G1_8 V c (((cfg1.win 8).blk t).view.emb (ix2 (0 : Fin 1) q))
  exact (G1_8_apply V c _ q (show win1_8.index t (1 : Fin 2) * 128 + 1 * q.val = q.val by rw [h.2.2.2.2.2.2.2.2.2.2.2.2.2.2.2.2.2.1]; omega)).symm

theorem cover1_8 (i : S1x128.Idx) : ∃ t : Fin cfg1.N, (cfg1.win 8).flush t = true ∧ i ∈ ((cfg1.win 8).blk t).view.set := by
  have h := idx_facts1 t1_9
  have hi0 : (i 0).val < 1 := (i 0).isLt
  have hi1 : (i 1).val < 128 := (i 1).isLt
  refine ⟨t1_9, (flush1_8 t1_9).mpr rfl, ?_⟩
  have hy : ((cfg1.win 8).blk t1_9).view.emb (ix2 (0 : Fin 1) (⟨(i 1).val, hi1⟩ : Fin 128)) = i := by
    funext a; apply Fin.ext
    match a with
    | ⟨0, _⟩ => show win1_8.index t1_9 (0 : Fin 2) * 1 + 1 * 0 = (i 0).val; rw [h.2.2.2.2.2.2.2.2.2.2.2.2.2.2.2.2.1]; omega
    | ⟨1, _⟩ => show win1_8.index t1_9 (1 : Fin 2) * 128 + 1 * (i 1).val = (i 1).val; rw [h.2.2.2.2.2.2.2.2.2.2.2.2.2.2.2.2.2.1]; omega
  have hm := ((cfg1.win 8).blk t1_9).view.emb_mem_set (ix2 (0 : Fin 1) (⟨(i 1).val, hi1⟩ : Fin 128))
  rwa [hy] at hm

theorem final1_8 (c : Dev nD) : (dat1 V c).arrAt 8 cfg1.N = G1_8 V c :=
  (dat1 V c).arrAt_eq_of_cover 8 (G1_8 V c) (flushed1_8_eq V c) cover1_8

theorem G1_9_apply (c : Dev nD) (i : S1x128.Idx) (q : Fin 128) (hi : (i 1).val = q.val) : G1_9 V c i = csq1 V c q :=
  congrArg (csq1 V c) (Fin.ext hi)

theorem flushed1_9_eq (c : Dev nD) (t : Fin cfg1.N) (hf : (cfg1.win 9).flush t = true) :
    (dat1 V c).flushed 9 t = ((cfg1.win 9).blk t).view.read (Elt Ideal) (G1_9 V c) := by
  have hN : cfg1.N = 10 := N_1
  have h9 : t.val = 9 := by have := (flush1_9 t).mp hf; have := t.isLt; omega
  have h := idx_facts1 t
  show (cfg1.win 9).cut (grid1.coords t) ((dat1 V c).after 9 t) = _
  funext j
  obtain ⟨u, q, rfl⟩ : ∃ (u : Fin 1) (q : Fin 128), j = ix2 u q := ⟨j 0, j 1, eq_ix2 j⟩
  obtain rfl : u = 0 := Subsingleton.elim _ _
  rw [View.read_apply]
  have e : (dat1 V c).after 9 t = sums1 k1_pay2 k1_pay4 (res1 V c) t.val t.isLt := by dsimp only [dat1]
  refine (congrFun e (ix2 (0 : Fin 1) q)).trans ?_
  refine (sums1_9_last V c q t h9).trans ?_
  show csq1 V c q = G1_9 V c (((cfg1.win 9).blk t).view.emb (ix2 (0 : Fin 1) q))
  exact (G1_9_apply V c _ q (show win1_9.index t (1 : Fin 2) * 128 + 1 * q.val = q.val by rw [h.2.2.2.2.2.2.2.2.2.2.2.2.2.2.2.2.2.2.2]; omega)).symm

theorem cover1_9 (i : S1x128.Idx) : ∃ t : Fin cfg1.N, (cfg1.win 9).flush t = true ∧ i ∈ ((cfg1.win 9).blk t).view.set := by
  have h := idx_facts1 t1_9
  have hi0 : (i 0).val < 1 := (i 0).isLt
  have hi1 : (i 1).val < 128 := (i 1).isLt
  refine ⟨t1_9, (flush1_9 t1_9).mpr rfl, ?_⟩
  have hy : ((cfg1.win 9).blk t1_9).view.emb (ix2 (0 : Fin 1) (⟨(i 1).val, hi1⟩ : Fin 128)) = i := by
    funext a; apply Fin.ext
    match a with
    | ⟨0, _⟩ => show win1_9.index t1_9 (0 : Fin 2) * 1 + 1 * 0 = (i 0).val; rw [h.2.2.2.2.2.2.2.2.2.2.2.2.2.2.2.2.2.2.1]; omega
    | ⟨1, _⟩ => show win1_9.index t1_9 (1 : Fin 2) * 128 + 1 * (i 1).val = (i 1).val; rw [h.2.2.2.2.2.2.2.2.2.2.2.2.2.2.2.2.2.2.2]; omega
  have hm := ((cfg1.win 9).blk t1_9).view.emb_mem_set (ix2 (0 : Fin 1) (⟨(i 1).val, hi1⟩ : Fin 128))
  rwa [hy] at hm

theorem final1_9 (c : Dev nD) : (dat1 V c).arrAt 9 cfg1.N = G1_9 V c :=
  (dat1 V c).arrAt_eq_of_cover 9 (G1_9 V c) (flushed1_9_eq V c) cover1_9

theorem z_val1 (c : Dev nD) : toMat ((dat1 V c).arrAt 7 cfg1.N : S100000x128.Idx → EReal) = lin (A1 V c) (Wt1 V c) (bs1 V c) := by
  rw [final1_7]
theorem sum_val1 (c : Dev nD) : toRow1 ((dat1 V c).arrAt 8 cfg1.N : S1x128.Idx → EReal) = colSum (lin (A1 V c) (Wt1 V c) (bs1 V c)) := by
  rw [final1_8]
  funext q
  show csum1 V c q = _
  unfold csum1
  rfl
theorem sumsq_val1 (c : Dev nD) : toRow1 ((dat1 V c).arrAt 9 cfg1.N : S1x128.Idx → EReal)
    = colSum (fun i j => lin (A1 V c) (Wt1 V c) (bs1 V c) i j * lin (A1 V c) (Wt1 V c) (bs1 V c) i j) := by
  rw [final1_9]
  funext q
  show csq1 V c q = _
  unfold csq1
  rfl

end Val

end Cert.KernelIdeal.Hand

end
-- ==== Proof.KI.R2Val.lean ====
import proofs.«105940_j32358283608240_1_alg».proof.Proof.KI.R2
import proofs.«105940_j32358283608240_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.Spec

theorem row_bcast2 (x : Vec Ideal S1x128 .f32) (p : Fin 10000) (q : Fin 128) :
    broadcastTo S10000x128 x broadcasts_S1x128_S10000x128 (ix2 p q) = x (ix2 0 q) :=
  broadcastTo_apply x _ (ix2 p q) (ix2 0 q) (fun a => by match a with | ⟨0, _⟩ => rfl | ⟨1, _⟩ => rfl)

theorem pay2_apply (x0 : Vec Ideal S10000x128 .f32) (xv xm xg xb : Vec Ideal S1x128 .f32) (p : Fin 10000) (q : Fin 128) :
    k2_pay1 x0 xv xm xg xb (ix2 p q) =
      max ((((x0 (ix2 p q) - xm (ix2 0 q)) * Ideal.rsqrt (xv (ix2 0 q) + bnEps)) * xg (ix2 0 q)) + xb (ix2 0 q)) 0 := by
  unfold k2_pay1
  simp only [maximumf_apply, addf_apply, mulf_apply, subf_apply, shapeCast_self, broadcast_apply]
  rw [row_bcast2 xm p q, row_bcast2 xg p q, row_bcast2 xb p q, row_bcast2 _ p q]
  rw [show (FloatOps.ofBits FTy.f32 0#32 : Ideal .f32) = 0 from Ideal.ofBits_zero_f32]
  rfl

theorem point2 (z : S100000x128.Idx → EReal) (mu va ga be : S1x128.Idx → EReal)
    (x0 : Vec Ideal S10000x128 .f32) (x1 x2 x3 x4 : Vec Ideal S1x128 .f32) (p : Fin 10000) (q : Fin 128) (r : Fin 100000)
    (h0 : x0 (ix2 p q) = z (ix2 r q)) (h1 : x1 (ix2 0 q) = mu (ix2 0 q)) (h2 : x2 (ix2 0 q) = va (ix2 0 q))
    (h3 : x3 (ix2 0 q) = ga (ix2 0 q)) (h4 : x4 (ix2 0 q) = be (ix2 0 q)) :
    k2_pay1 x0 x2 x1 x3 x4 (ix2 p q) = normRelu (toMat z) (toRow1 mu) (toRow1 va) (toRow1 ga) (toRow1 be) r q := by
  rw [pay2_apply, h0, h1, h2, h3, h4]
  rfl

theorem idx_facts2 : ∀ t : Fin cfg2.N,
    win2_0.index t (0 : Fin 2) = win2_5.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 9 ∧ win2_5.index t (1 : Fin 2) = 0 :=
  (by decide +kernel : ∀ t : Fin grid2.N, _)

theorem idx_onto2 : ∀ q0 : Fin 10, ∃ t : Fin cfg2.N, win2_5.index t = ![q0.val, 0] :=
  (by decide +kernel : ∀ q0 : Fin 10, ∃ t : Fin grid2.N, win2_5.index t = ![q0.val, 0])

/-- The row blocks sit at block zero and the input block moves with the output block, so the payload of the blocks at point `t` is block `t` of the specification's matrix, whatever the arrays hold. -/
theorem flush2 (z : S100000x128.Idx → EReal) (mu va ga be : S1x128.Idx → EReal) (t : Fin cfg2.N) :
    (cfg2.win 5).cut (grid2.coords t) (k2_pay1 (((cfg2.win 0).blk t).view.read (Elt Ideal) z) (((cfg2.win 2).blk t).view.read (Elt Ideal) va)
        (((cfg2.win 1).blk t).view.read (Elt Ideal) mu) (((cfg2.win 3).blk t).view.read (Elt Ideal) ga) (((cfg2.win 4).blk t).view.read (Elt Ideal) be))
      = ((cfg2.win 5).blk t).view.read (Elt Ideal)
          fun i => normRelu (toMat z) (toRow1 mu) (toRow1 va) (toRow1 ga) (toRow1 be) (i 0) (i 1) := by
  obtain ⟨e00, e01, e10, e11, e20, e21, e30, e31, e40, e41, e50, e51⟩ := idx_facts2 t
  funext j
  obtain ⟨p, q, rfl⟩ : ∃ (p : Fin 10000) (q : Fin 128), j = ix2 p q := ⟨j 0, j 1, eq_ix2 j⟩
  have hp : p.val < 10000 := p.isLt
  have hq : q.val < 128 := q.isLt
  have hr : win2_5.index t (0 : Fin 2) * 10000 + p.val < 100000 := by omega
  show k2_pay1 (F := Ideal) _ _ _ _ _ (ix2 p q) = (fun i : S100000x128.Idx => normRelu (toMat z) (toRow1 mu) (toRow1 va) (toRow1 ga) (toRow1 be) (i 0) (i 1))
    (((cfg2.win 5).blk t).view.emb (ix2 p q))
  have hi : ((cfg2.win 5).blk t).view.emb (ix2 p q) = (ix2 ⟨win2_5.index t (0 : Fin 2) * 10000 + p.val, hr⟩ q : S100000x128.Idx) := by
    funext a; apply Fin.ext
    match a with
    | ⟨0, _⟩ => show win2_5.index t (0 : Fin 2) * 10000 + 1 * p.val = win2_5.index t (0 : Fin 2) * 10000 + p.val; omega
    | ⟨1, _⟩ => show win2_5.index t (1 : Fin 2) * 128 + 1 * q.val = q.val; omega
  rw [hi]
  refine point2 z mu va ga be _ _ _ _ _ p q ⟨win2_5.index t (0 : Fin 2) * 10000 + p.val, hr⟩ ?_ ?_ ?_ ?_ ?_
  · show z (((cfg2.win 0).blk t).view.emb (ix2 p q)) = z (ix2 ⟨win2_5.index t (0 : Fin 2) * 10000 + p.val, hr⟩ q)
    refine congrArg _ (funext fun a => Fin.ext ?_)
    match a with
    | ⟨0, _⟩ => show win2_0.index t (0 : Fin 2) * 10000 + 1 * p.val = win2_5.index t (0 : Fin 2) * 10000 + p.val; omega
    | ⟨1, _⟩ => show win2_0.index t (1 : Fin 2) * 128 + 1 * q.val = q.val; omega
  · show mu (((cfg2.win 1).blk t).view.emb (ix2 0 q)) = mu (ix2 0 q)
    refine congrArg _ (funext fun a => Fin.ext ?_)
    match a with
    | ⟨0, _⟩ => show win2_1.index t (0 : Fin 2) * 1 + 1 * 0 = 0; omega
    | ⟨1, _⟩ => show win2_1.index t (1 : Fin 2) * 128 + 1 * q.val = q.val; omega
  · show va (((cfg2.win 2).blk t).view.emb (ix2 0 q)) = va (ix2 0 q)
    refine congrArg _ (funext fun a => Fin.ext ?_)
    match a with
    | ⟨0, _⟩ => show win2_2.index t (0 : Fin 2) * 1 + 1 * 0 = 0; omega
    | ⟨1, _⟩ => show win2_2.index t (1 : Fin 2) * 128 + 1 * q.val = q.val; omega
  · show ga (((cfg2.win 3).blk t).view.emb (ix2 0 q)) = ga (ix2 0 q)
    refine congrArg _ (funext fun a => Fin.ext ?_)
    match a with
    | ⟨0, _⟩ => show win2_3.index t (0 : Fin 2) * 1 + 1 * 0 = 0; omega
    | ⟨1, _⟩ => show win2_3.index t (1 : Fin 2) * 128 + 1 * q.val = q.val; omega
  · show be (((cfg2.win 4).blk t).view.emb (ix2 0 q)) = be (ix2 0 q)
    refine congrArg _ (funext fun a => Fin.ext ?_)
    match a with
    | ⟨0, _⟩ => show win2_4.index t (0 : Fin 2) * 1 + 1 * 0 = 0; omega
    | ⟨1, _⟩ => show win2_4.index t (1 : Fin 2) * 128 + 1 * q.val = q.val; omega

theorem mem_blk2_5 (t : Fin cfg2.N) (i : S100000x128.Idx) :
    i ∈ ((cfg2.win 5).blk t).view.set ↔ ∀ a : Fin 2, win2_5.index t a * S10000x128.size a ≤ (i a).val
      ∧ (i a).val < win2_5.index t a * S10000x128.size a + S10000x128.size a := by
  show i ∈ ((View.whole main_v52).slice (win2_5.rect t)).set ↔ _
  rw [View.set_slice_whole, Rect.mem_set_unit]
  exact Iff.rfl

theorem covered2_5 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ := idx_onto2 ⟨(i 0).val / 10000, by omega⟩
  have q0 : win2_5.index t (0 : Fin 2) = (i 0).val / 10000 := congrFun ht 0
  have q1 : win2_5.index t (1 : Fin 2) = 0 := congrFun ht 1
  refine ⟨t, flush2_5 t, ?_⟩
  rw [mem_blk2_5]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 128 ≤ (i 1).val ∧ (i 1).val < win2_5.index t (1 : Fin 2) * 128 + 128; omega

variable (V : (c : Dev nD) → (b : Ref sig .tc) → Buf (Elt Ideal) ((c : Thread nD τ).loc b))

abbrev Z2 (c : Dev nD) : Mat 100000 128 := toMat (V c (Pipeline.arrRef spec2 0) : S100000x128.Idx → EReal)
abbrev mu2 (c : Dev nD) : Row 128 := toRow1 (V c (Pipeline.arrRef spec2 1) : S1x128.Idx → EReal)
abbrev va2 (c : Dev nD) : Row 128 := toRow1 (V c (Pipeline.arrRef spec2 2) : S1x128.Idx → EReal)
abbrev ga2 (c : Dev nD) : Row 128 := toRow1 (V c (Pipeline.arrRef spec2 3) : S1x128.Idx → EReal)
abbrev be2 (c : Dev nD) : Row 128 := toRow1 (V c (Pipeline.arrRef spec2 4) : S1x128.Idx → EReal)

theorem h_val2 (c : Dev nD) : toMat ((dat2 V c).arrAt 5 cfg2.N : S100000x128.Idx → EReal)
    = normRelu (Z2 V c) (mu2 V c) (va2 V c) (ga2 V c) (be2 V c) := by
  rw [(dat2 V c).arrAt_eq_of_cover 5 (fun i => normRelu (Z2 V c) (mu2 V c) (va2 V c) (ga2 V c) (be2 V c) (i 0) (i 1))
    (fun t _ => by
      show (cfg2.win 5).cut (grid2.coords t) ((dat2 V c).after 5 t) = _
      rw [after2_5, out2_5_eq]
      exact flush2 (V c (Pipeline.arrRef spec2 0)) (V c (Pipeline.arrRef spec2 1)) (V c (Pipeline.arrRef spec2 2))
        (V c (Pipeline.arrRef spec2 3)) (V c (Pipeline.arrRef spec2 4)) t) covered2_5]
  rfl

end Cert.KernelIdeal.Hand

end
-- ==== Proof.KI.Layer0.lean ====
import proofs.«105940_j32358283608240_1_alg».proof.Proof.KI.Chain
import proofs.«105940_j32358283608240_1_alg».proof.Proof.KI.R0Val
import proofs.«105940_j32358283608240_1_alg».proof.Proof.KI.R1Val
import proofs.«105940_j32358283608240_1_alg».proof.Proof.KI.R2Val
import proofs.«105940_j32358283608240_1_alg».proof.Proof.Spec
import Idealize.ShloMosaic.Lib.IdealHost
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo
open Cert.Spec

theorem via {α β : Type} {f : α → β} {x y : α} {M : β} (e : x = y) (h : f y = M) : f x = M := (congrArg f e).trans h

def Stats (mu va s q : Row 128) : Prop :=
  ∀ j, mu j = Ideal.div (s j) count ∧ va j = Ideal.div (q j) count - Ideal.div (s j) count * Ideal.div (s j) count

theorem stats_at {ym yv s q : S1x128.Idx → EReal} (em : ym = Host.divf s (broadcastInDim S1x128 ![] bcast_S_S1x128 (constant (F := Ideal) S_ .f32 0x47C35000#32)))
    (ev : yv = subf (Host.divf q (broadcastInDim S1x128 ![] bcast_S_S1x128 (constant (F := Ideal) S_ .f32 0x47C35000#32)))
      (mulf (Host.divf s (broadcastInDim S1x128 ![] bcast_S_S1x128 (constant (F := Ideal) S_ .f32 0x47C35000#32))) (Host.divf s (broadcastInDim S1x128 ![] bcast_S_S1x128 (constant (F := Ideal) S_ .f32 0x47C35000#32))))) :
    Stats (toRow1 ym) (toRow1 yv) (toRow1 s) (toRow1 q) := by
  subst em ev
  refine fun j => ⟨?_, ?_⟩
  · show Host.divf _ _ (ix2 0 j) = _
    rw [hostDivf_apply, broadcastInDim_scalar_apply, constant_apply]; rfl
  · show subf _ _ (ix2 0 j) = _
    rw [subf_apply, mulf_apply, hostDivf_apply, hostDivf_apply, broadcastInDim_scalar_apply, constant_apply]; rfl

-- Column sums over the count are the mean, and with the sums of squares the variance.
theorem normRelu_of_parts {z : Mat 100000 128} {s q mu va g be : Row 128} (Z : Mat 100000 128) (hz : z = Z) (hs : s = colSum Z)
    (hq : q = colSum fun i j => Z i j * Z i j) (ht : Stats mu va s q) :
    normRelu z mu va g be = normRelu Z (mean Z) (varOfSquares Z) g be := by
  have e1 : mu = mean Z := funext fun j => by rw [(ht j).1, hs]; rfl
  have e2 : va = varOfSquares Z := funext fun j => by rw [(ht j).2, hq, hs]; rfl
  rw [hz, e1, e2]

def actK (p : LayerParams) (P : Mat 100000 128) : Mat 100000 128 :=
  normRelu (lin P p.W1 p.b1) (mean (lin P p.W1 p.b1)) (varOfSquares (lin P p.W1 p.b1)) p.g1 p.be1

theorem layerK_of_act {p : LayerParams} {P a z2 h : Mat 100000 128} {s2 q2 m2 v2 : Row 128} (ha : a = actK p P)
    (hz : z2 = lin a p.W2 p.b2) (hs : s2 = colSum (lin a p.W2 p.b2))
    (hq : q2 = colSum fun i j => lin a p.W2 p.b2 i j * lin a p.W2 p.b2 i j) (ht : Stats m2 v2 s2 q2)
    (hh : h = normRelu z2 m2 v2 p.gbn p.bbn) : h = layerK p P := by
  rw [hh, normRelu_of_parts _ hz hs hq ht, ha]; rfl

theorem L0_st1 (V : Valuation τ sig (Elt Ideal)) :
    Stats (toRow1 (after hostOps1 V main_v23 : S1x128.Idx → EReal)) (toRow1 (after hostOps1 V main_v27 : S1x128.Idx → EReal))
      (toRow1 (V main_v21_1 : S1x128.Idx → EReal)) (toRow1 (V main_v21_2 : S1x128.Idx → EReal)) :=
  stats_at (by after_results) (by after_results)
theorem L0_st2 (V : Valuation τ sig (Elt Ideal)) :
    Stats (toRow1 (after hostOps2 V main_v41 : S1x128.Idx → EReal)) (toRow1 (after hostOps2 V main_v45 : S1x128.Idx → EReal))
      (toRow1 (V main_v39_1 : S1x128.Idx → EReal)) (toRow1 (V main_v39_2 : S1x128.Idx → EReal)) :=
  stats_at (by after_results) (by after_results)
variable (m : (ℓ : Loc nD τ sig) → Buf (Elt Ideal) ℓ)
def paramsK0 (c : Dev nD) : LayerParams :=
  ⟨toMat (W1 m c main_v17 : S128x128.Idx → EReal), toRow1 (W1 m c main_v20 : S1x128.Idx → EReal),
   toRow1 (W3 m c main_v30 : S1x128.Idx → EReal), toRow1 (W3 m c main_v33 : S1x128.Idx → EReal),
   toMat (W3 m c main_v35 : S128x128.Idx → EReal), toRow1 (W3 m c main_v38 : S1x128.Idx → EReal),
   toRow1 (W5 m c main_v48 : S1x128.Idx → EReal), toRow1 (W5 m c main_v51 : S1x128.Idx → EReal)⟩
theorem L0_act (c : Dev nD) : A1 (B3 m) c = actK (paramsK0 m c) (toMat (W1 m c main_v15 : S100000x128.Idx → EReal)) :=
  normRelu_of_parts (z := toMat (W3 m c main_v21_0 : S100000x128.Idx → EReal)) _
    (via (after_of_writes_sub hostOps1 _ hostOps1_writes (by decide)) (via (W2_arr m c 3) (z_val0 (B1 m) c)))
    (via (W2_arr m c 4) (sum_val0 (B1 m) c)) (via (W2_arr m c 5) (sumsq_val0 (B1 m) c)) (L0_st1 (W2 m c))
theorem layerK0 (c : Dev nD) :
    toMat (W6 m c main_v52 : S100000x128.Idx → EReal)
      = layerK (paramsK0 m c) (toMat (W1 m c main_v15 : S100000x128.Idx → EReal)) :=
  layerK_of_act (z2 := toMat (W5 m c main_v39_0 : S100000x128.Idx → EReal)) (L0_act m c)
    (via (after_of_writes_sub hostOps2 _ hostOps2_writes (by decide)) (via (W4_arr m c 7) (z_val1 (B3 m) c)))
    (via (W4_arr m c 8) (sum_val1 (B3 m) c)) (via (W4_arr m c 9) (sumsq_val1 (B3 m) c))
    (L0_st2 (W4 m c)) (via (W6_arr m c 5) (h_val2 (B5 m) c))
end Cert.KernelIdeal.Hand
end
-- ==== Proof.KI.R3Val.lean ====
import proofs.«105940_j32358283608240_1_alg».proof.Proof.KI.R3
import proofs.«105940_j32358283608240_1_alg».proof.Proof.KI.R0Val

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Spec
open scoped BigOperators

theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

theorem read_blk3_0 (c : Dev nD) (A : Buf (Elt Ideal) ((cfg3.win 0).arr.view.loc (c.tc : Thread nD τ))) (t : Fin cfg3.N)
    (p : Fin 10000) (k : Fin 128) :
    (((cfg3.win 0).blk t).view.read (Elt Ideal) A : S10000x128.Idx → EReal) (ix2 p k) = (A : S100000x128.Idx → EReal) (ix2 (row0 t p) k) := by
  obtain ⟨e0, e1, -⟩ := idx_facts3 t
  rw [View.read_apply]
  refine congrArg (A : S100000x128.Idx → EReal) ?_
  funext a; apply Fin.ext
  match a with
  | ⟨0, _⟩ => show win3_0.index t (0 : Fin 2) * 10000 + 1 * p.val = 10000 * t.val + p.val; rw [e0]; omega
  | ⟨1, _⟩ => show win3_0.index t (1 : Fin 2) * 128 + 1 * k.val = k.val; rw [e1]; omega

theorem read_blk3_1 (c : Dev nD) (A : Buf (Elt Ideal) ((cfg3.win 1).arr.view.loc (c.tc : Thread nD τ))) (t : Fin cfg3.N)
    (k : Fin 128) (q : Fin 128) :
    (((cfg3.win 1).blk t).view.read (Elt Ideal) A : S128x128.Idx → EReal) (ix2 k q) = (A : S128x128.Idx → EReal) (ix2 k q) := by
  obtain ⟨-, -, e0, e1, -⟩ := idx_facts3 t
  rw [View.read_apply]
  refine congrArg (A : S128x128.Idx → EReal) ?_
  funext a; apply Fin.ext
  match a with
  | ⟨0, _⟩ => show win3_1.index t (0 : Fin 2) * 128 + 1 * k.val = k.val; rw [e0]; omega
  | ⟨1, _⟩ => show win3_1.index t (1 : Fin 2) * 128 + 1 * q.val = q.val; rw [e1]; omega

theorem read_blk3_2 (c : Dev nD) (A : Buf (Elt Ideal) ((cfg3.win 2).arr.view.loc (c.tc : Thread nD τ))) (t : Fin cfg3.N)
    (r : Fin 1) (q : Fin 128) :
    (((cfg3.win 2).blk t).view.read (Elt Ideal) A : S1x128.Idx → EReal) (ix2 r q) = (A : S1x128.Idx → EReal) (ix2 r q) := by
  obtain ⟨-, -, -, -, e0, e1, -⟩ := idx_facts3 t
  rw [View.read_apply]
  refine congrArg (A : S1x128.Idx → EReal) ?_
  funext a; apply Fin.ext
  match a with
  | ⟨0, _⟩ => show win3_2.index t (0 : Fin 2) * 1 + 1 * r.val = r.val; rw [e0]; omega
  | ⟨1, _⟩ => show win3_2.index t (1 : Fin 2) * 128 + 1 * q.val = q.val; rw [e1]; omega

theorem read_blk3_3 (c : Dev nD) (A : Buf (Elt Ideal) ((cfg3.win 3).arr.view.loc (c.tc : Thread nD τ))) (t : Fin cfg3.N)
    (p : Fin 10000) (q : Fin 128) :
    (((cfg3.win 3).blk t).view.read (Elt Ideal) A : S10000x128.Idx → EReal) (ix2 p q) = (A : S100000x128.Idx → EReal) (ix2 (row0 t p) q) := by
  obtain ⟨-, -, -, -, -, -, e0, e1, -⟩ := idx_facts3 t
  rw [View.read_apply]
  refine congrArg (A : S100000x128.Idx → EReal) ?_
  funext a; apply Fin.ext
  match a with
  | ⟨0, _⟩ => show win3_3.index t (0 : Fin 2) * 10000 + 1 * p.val = 10000 * t.val + p.val; rw [e0]; omega
  | ⟨1, _⟩ => show win3_3.index t (1 : Fin 2) * 128 + 1 * q.val = q.val; rw [e1]; omega

theorem read_blk3_4 (c : Dev nD) (A : Buf (Elt Ideal) ((cfg3.win 4).arr.view.loc (c.tc : Thread nD τ))) (t : Fin cfg3.N)
    (r : Fin 1) (q : Fin 128) :
    (((cfg3.win 4).blk t).view.read (Elt Ideal) A : S1x128.Idx → EReal) (ix2 r q) = (A : S1x128.Idx → EReal) (ix2 r q) := by
  obtain ⟨-, -, -, -, -, -, -, -, e0, e1, -⟩ := idx_facts3 t
  rw [View.read_apply]
  refine congrArg (A : S1x128.Idx → EReal) ?_
  funext a; apply Fin.ext
  match a with
  | ⟨0, _⟩ => show win3_4.index t (0 : Fin 2) * 1 + 1 * r.val = r.val; rw [e0]; omega
  | ⟨1, _⟩ => show win3_4.index t (1 : Fin 2) * 128 + 1 * q.val = q.val; rw [e1]; omega
theorem read_blk3_5 (c : Dev nD) (A : Buf (Elt Ideal) ((cfg3.win 5).arr.view.loc (c.tc : Thread nD τ))) (t : Fin cfg3.N)
    (r : Fin 1) (q : Fin 128) :
    (((cfg3.win 5).blk t).view.read (Elt Ideal) A : S1x128.Idx → EReal) (ix2 r q) = (A : S1x128.Idx → EReal) (ix2 r q) := by
  obtain ⟨-, -, -, -, -, -, -, -, -, -, e0, e1⟩ := idx_facts3 t
  rw [View.read_apply]
  refine congrArg (A : S1x128.Idx → EReal) ?_
  funext a; apply Fin.ext
  match a with
  | ⟨0, _⟩ => show win3_5.index t (0 : Fin 2) * 1 + 1 * r.val = r.val; rw [e0]; omega
  | ⟨1, _⟩ => show win3_5.index t (1 : Fin 2) * 128 + 1 * q.val = q.val; rw [e1]; omega
theorem cover3_3 (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  refine ⟨ptOf0 (i 0), flush3_3 _, ?_⟩
  obtain ⟨-, -, -, -, -, -, e0, e1, -⟩ := idx_facts3 (ptOf0 (i 0))
  have hv : (ptOf0 (i 0)).val = (i 0).val / 10000 := rfl
  show i ∈ ((View.whole (Pipeline.arrRef spec3 3)).slice (win3_3.rect (ptOf0 (i 0)))).set
  rw [View.set_slice_whole, Rect.mem_set_unit]
  intro a
  match a with
  | ⟨0, _⟩ =>
    show win3_3.index (ptOf0 (i 0)) (0 : Fin 2) * 10000 ≤ (i 0).val ∧ (i 0).val < win3_3.index (ptOf0 (i 0)) (0 : Fin 2) * 10000 + 10000
    rw [e0, hv]; omega
  | ⟨1, _⟩ =>
    show win3_3.index (ptOf0 (i 0)) (1 : Fin 2) * 128 ≤ (i 1).val ∧ (i 1).val < win3_3.index (ptOf0 (i 0)) (1 : Fin 2) * 128 + 128
    rw [e1]; omega
theorem cover3_4 (i : S1x128.Idx) :
    ∃ t : Fin cfg3.N, (cfg3.win 4).flush t = true ∧ i ∈ ((cfg3.win 4).blk t).view.set := by
  have hi0 : (i 0).val < 1 := (i 0).isLt
  have hi1 : (i 1).val < 128 := (i 1).isLt
  refine ⟨last0, (flush3_4 last0).mpr rfl, ?_⟩
  obtain ⟨-, -, -, -, -, -, -, -, e0, e1, -⟩ := idx_facts3 last0
  show i ∈ ((View.whole (Pipeline.arrRef spec3 4)).slice (win3_4.rect last0)).set
  rw [View.set_slice_whole, Rect.mem_set_unit]
  intro a
  match a with
  | ⟨0, _⟩ =>
    show win3_4.index last0 (0 : Fin 2) * 1 ≤ (i 0).val ∧ (i 0).val < win3_4.index last0 (0 : Fin 2) * 1 + 1
    rw [e0]; omega
  | ⟨1, _⟩ =>
    show win3_4.index last0 (1 : Fin 2) * 128 ≤ (i 1).val ∧ (i 1).val < win3_4.index last0 (1 : Fin 2) * 128 + 128
    rw [e1]; omega
theorem cover3_5 (i : S1x128.Idx) :
    ∃ t : Fin cfg3.N, (cfg3.win 5).flush t = true ∧ i ∈ ((cfg3.win 5).blk t).view.set := by
  have hi0 : (i 0).val < 1 := (i 0).isLt
  have hi1 : (i 1).val < 128 := (i 1).isLt
  refine ⟨last0, (flush3_5 last0).mpr rfl, ?_⟩
  obtain ⟨-, -, -, -, -, -, -, -, -, -, e0, e1⟩ := idx_facts3 last0
  show i ∈ ((View.whole (Pipeline.arrRef spec3 5)).slice (win3_5.rect last0)).set
  rw [View.set_slice_whole, Rect.mem_set_unit]
  intro a
  match a with
  | ⟨0, _⟩ =>
    show win3_5.index last0 (0 : Fin 2) * 1 ≤ (i 0).val ∧ (i 0).val < win3_5.index last0 (0 : Fin 2) * 1 + 1
    rw [e0]; omega
  | ⟨1, _⟩ =>
    show win3_5.index last0 (1 : Fin 2) * 128 ≤ (i 1).val ∧ (i 1).val < win3_5.index last0 (1 : Fin 2) * 128 + 128
    rw [e1]; omega
variable (V : (c : Dev nD) → (b : Ref sig .tc) → Buf (Elt Ideal) ((c : Thread nD τ).loc b))

abbrev P3 (c : Dev nD) : Mat 100000 128 := toMat (V c (Pipeline.arrRef spec3 0) : S100000x128.Idx → EReal)
abbrev Wt3 (c : Dev nD) : Mat 128 128 := toMat (V c (Pipeline.arrRef spec3 1) : S128x128.Idx → EReal)
abbrev bs3 (c : Dev nD) : Row 128 := toRow1 (V c (Pipeline.arrRef spec3 2) : S1x128.Idx → EReal)

theorem xb3_apply (c : Dev nD) (t : Fin cfg3.N) (p : Fin 10000) (k : Fin 128) :
    (iblk3 V c 0 t : S10000x128.Idx → EReal) (ix2 p k) = P3 V c (row0 t p) k :=
  read_blk3_0 c (V c (Pipeline.arrRef spec3 0)) t p k
theorem wb3_apply (c : Dev nD) (t : Fin cfg3.N) (k : Fin 128) (q : Fin 128) :
    (iblk3 V c 1 t : S128x128.Idx → EReal) (ix2 k q) = Wt3 V c k q :=
  read_blk3_1 c (V c (Pipeline.arrRef spec3 1)) t k q
theorem bb3_apply (c : Dev nD) (t : Fin cfg3.N) (q : Fin 128) :
    (iblk3 V c 2 t : S1x128.Idx → EReal) (ix2 (0 : Fin 1) q) = bs3 V c q :=
  read_blk3_2 c (V c (Pipeline.arrRef spec3 2)) t 0 q

abbrev G3_3 (c : Dev nD) : S100000x128.Idx → EReal := fun i => lin (P3 V c) (Wt3 V c) (bs3 V c) (i 0) (i 1)

theorem flushed3_3 (c : Dev nD) (t : Fin cfg3.N) :
    (dat3 V c).flushed 3 t = ((cfg3.win 3).blk t).view.read (Elt Ideal) (G3_3 V c) := by
  show (cfg3.win 3).cut (grid3.coords t) (k0_pay3 (iblk3 V c 0 t) (iblk3 V c 1 t) (iblk3 V c 2 t)) = _
  funext j
  obtain ⟨p, q, rfl⟩ : ∃ (p : Fin 10000) (q : Fin 128), j = ix2 p q := ⟨j 0, j 1, eq_ix2 j⟩
  refine (z_blk0 (iblk3 V c 0) (iblk3 V c 1) (iblk3 V c 2) _ _ _ (xb3_apply V c) (wb3_apply V c) (bb3_apply V c) t p q).trans ?_
  exact (read_blk3_3 c (G3_3 V c) t p q).symm

theorem z_arr3 (c : Dev nD) : (dat3 V c).arrAt 3 cfg3.N = G3_3 V c :=
  (dat3 V c).arrAt_eq_of_cover 3 (G3_3 V c) (fun t _ => flushed3_3 V c t) cover3_3

theorem z_val3 (c : Dev nD) :
    toMat ((dat3 V c).arrAt 3 cfg3.N : S100000x128.Idx → EReal) = lin (P3 V c) (Wt3 V c) (bs3 V c) := by
  rw [z_arr3]

abbrev G3_4 (c : Dev nD) : S1x128.Idx → EReal := fun i => colSum (lin (P3 V c) (Wt3 V c) (bs3 V c)) (i 1)
abbrev G3_5 (c : Dev nD) : S1x128.Idx → EReal :=
  fun i => colSum (fun a b => lin (P3 V c) (Wt3 V c) (bs3 V c) a b * lin (P3 V c) (Wt3 V c) (bs3 V c) a b) (i 1)

theorem flushed3_4 (c : Dev nD) (t : Fin cfg3.N) (hf : (cfg3.win 4).flush t = true) :
    (dat3 V c).flushed 4 t = ((cfg3.win 4).blk t).view.read (Elt Ideal) (G3_4 V c) := by
  have hN : cfg3.N = 10 := N_3
  have h9 : t.val = 9 := by have := (flush3_4 t).mp hf; have := t.isLt; omega
  obtain rfl : t = last0 := Fin.ext h9
  show (cfg3.win 4).cut (grid3.coords last0) (out0_4 (iblk3 V c 0) (iblk3 V c 1) (iblk3 V c 2) last0.val last0.isLt) = _
  funext j
  obtain ⟨r, q, rfl⟩ : ∃ (r : Fin 1) (q : Fin 128), j = ix2 r q := ⟨j 0, j 1, eq_ix2 j⟩
  obtain rfl : r = 0 := Subsingleton.elim _ _
  refine (out0_4_last (iblk3 V c 0) (iblk3 V c 1) (iblk3 V c 2) _ _ _ (xb3_apply V c) (wb3_apply V c) (bb3_apply V c) q last0.isLt).trans ?_
  exact (read_blk3_4 c (G3_4 V c) last0 0 q).symm
theorem flushed3_5 (c : Dev nD) (t : Fin cfg3.N) (hf : (cfg3.win 5).flush t = true) :
    (dat3 V c).flushed 5 t = ((cfg3.win 5).blk t).view.read (Elt Ideal) (G3_5 V c) := by
  have hN : cfg3.N = 10 := N_3
  have h9 : t.val = 9 := by have := (flush3_5 t).mp hf; have := t.isLt; omega
  obtain rfl : t = last0 := Fin.ext h9
  show (cfg3.win 5).cut (grid3.coords last0) (out0_5 (iblk3 V c 0) (iblk3 V c 1) (iblk3 V c 2) last0.val last0.isLt) = _
  funext j
  obtain ⟨r, q, rfl⟩ : ∃ (r : Fin 1) (q : Fin 128), j = ix2 r q := ⟨j 0, j 1, eq_ix2 j⟩
  obtain rfl : r = 0 := Subsingleton.elim _ _
  refine (out0_5_last (iblk3 V c 0) (iblk3 V c 1) (iblk3 V c 2) _ _ _ (xb3_apply V c) (wb3_apply V c) (bb3_apply V c) q last0.isLt).trans ?_
  exact (read_blk3_5 c (G3_5 V c) last0 0 q).symm

theorem sum_arr3 (c : Dev nD) : (dat3 V c).arrAt 4 cfg3.N = G3_4 V c :=
  (dat3 V c).arrAt_eq_of_cover 4 (G3_4 V c) (flushed3_4 V c) cover3_4
theorem sumsq_arr3 (c : Dev nD) : (dat3 V c).arrAt 5 cfg3.N = G3_5 V c :=
  (dat3 V c).arrAt_eq_of_cover 5 (G3_5 V c) (flushed3_5 V c) cover3_5

theorem sum_val3 (c : Dev nD) :
    toRow1 ((dat3 V c).arrAt 4 cfg3.N : S1x128.Idx → EReal) = colSum (lin (P3 V c) (Wt3 V c) (bs3 V c)) := by
  rw [sum_arr3]
theorem sumsq_val3 (c : Dev nD) :
    toRow1 ((dat3 V c).arrAt 5 cfg3.N : S1x128.Idx → EReal)
      = colSum (fun i j => lin (P3 V c) (Wt3 V c) (bs3 V c) i j * lin (P3 V c) (Wt3 V c) (bs3 V c) i j) := by
  rw [sumsq_arr3]

end Cert.KernelIdeal.Hand

end
-- ==== Proof.KI.R4Val.lean ====
import proofs.«105940_j32358283608240_1_alg».proof.Proof.KI.R4
import proofs.«105940_j32358283608240_1_alg».proof.Proof.KI.R1Val

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Spec
open scoped BigOperators

section Val
variable (V : (c : Dev nD) → (b : Ref sig .tc) → Buf (Elt Ideal) ((c : Thread nD τ).loc b))

abbrev Z4 (c : Dev nD) : Mat 100000 128 := toMat (V c (Pipeline.arrRef spec4 0) : S100000x128.Idx → EReal)
abbrev mu4 (c : Dev nD) : Row 128 := toRow1 (V c (Pipeline.arrRef spec4 1) : S1x128.Idx → EReal)
abbrev va4 (c : Dev nD) : Row 128 := toRow1 (V c (Pipeline.arrRef spec4 2) : S1x128.Idx → EReal)
abbrev ga4 (c : Dev nD) : Row 128 := toRow1 (V c (Pipeline.arrRef spec4 3) : S1x128.Idx → EReal)
abbrev be4 (c : Dev nD) : Row 128 := toRow1 (V c (Pipeline.arrRef spec4 4) : S1x128.Idx → EReal)
abbrev Wt4 (c : Dev nD) : Mat 128 128 := toMat (V c (Pipeline.arrRef spec4 5) : S128x128.Idx → EReal)
abbrev bs4 (c : Dev nD) : Row 128 := toRow1 (V c (Pipeline.arrRef spec4 6) : S1x128.Idx → EReal)
abbrev A4 (c : Dev nD) : Mat 100000 128 := normRelu (Z4 V c) (mu4 V c) (va4 V c) (ga4 V c) (be4 V c)

theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0
    ∧ win4_8.index t (0 : Fin 2) = 0 ∧ win4_8.index t (1 : Fin 2) = 0
    ∧ win4_9.index t (0 : Fin 2) = 0 ∧ win4_9.index t (1 : Fin 2) = 0 :=
  (by decide +kernel : ∀ t : Fin grid4.N, _)

def row4 (t : Fin cfg4.N) (p : Fin 10000) : Fin 100000 :=
  ⟨10000 * t.val + p.val, by have := lt_of_lt_of_eq t.isLt (show cfg4.N = 10 from N_4); have := p.isLt; omega⟩

theorem iblk4_0_apply (c : Dev nD) (t : Fin cfg4.N) (p : Fin 10000) (k : Fin 128) :
    iblk4 V c 0 t (ix2 p k) = Z4 V c (row4 t p) k := by
  have h := idx_facts4 t
  unfold iblk4
  rw [View.read_apply]
  show V c (Pipeline.arrRef spec4 0) _ = V c (Pipeline.arrRef spec4 0) _
  refine congrArg _ (funext fun a => Fin.ext ?_)
  match a with
  | ⟨0, _⟩ => show win4_0.index t (0 : Fin 2) * 10000 + 1 * p.val = 10000 * t.val + p.val; rw [h.1]; omega
  | ⟨1, _⟩ => show win4_0.index t (1 : Fin 2) * 128 + 1 * k.val = k.val; rw [h.2.1]; omega

theorem iblk4_1_apply (c : Dev nD) (t : Fin cfg4.N) (k : Fin 128) :
    iblk4 V c 1 t (ix2 0 k) = mu4 V c k := by
  have h := idx_facts4 t
  unfold iblk4
  rw [View.read_apply]
  show V c (Pipeline.arrRef spec4 1) _ = V c (Pipeline.arrRef spec4 1) _
  refine congrArg _ (funext fun a => Fin.ext ?_)
  match a with
  | ⟨0, _⟩ => show win4_1.index t (0 : Fin 2) * 1 + 1 * 0 = 0; rw [h.2.2.1]
  | ⟨1, _⟩ => show win4_1.index t (1 : Fin 2) * 128 + 1 * k.val = k.val; rw [h.2.2.2.1]; omega
theorem iblk4_2_apply (c : Dev nD) (t : Fin cfg4.N) (k : Fin 128) :
    iblk4 V c 2 t (ix2 0 k) = va4 V c k := by
  have h := idx_facts4 t
  unfold iblk4
  rw [View.read_apply]
  show V c (Pipeline.arrRef spec4 2) _ = V c (Pipeline.arrRef spec4 2) _
  refine congrArg _ (funext fun a => Fin.ext ?_)
  match a with
  | ⟨0, _⟩ => show win4_2.index t (0 : Fin 2) * 1 + 1 * 0 = 0; rw [h.2.2.2.2.1]
  | ⟨1, _⟩ => show win4_2.index t (1 : Fin 2) * 128 + 1 * k.val = k.val; rw [h.2.2.2.2.2.1]; omega
theorem iblk4_3_apply (c : Dev nD) (t : Fin cfg4.N) (k : Fin 128) :
    iblk4 V c 3 t (ix2 0 k) = ga4 V c k := by
  have h := idx_facts4 t
  unfold iblk4
  rw [View.read_apply]
  show V c (Pipeline.arrRef spec4 3) _ = V c (Pipeline.arrRef spec4 3) _
  refine congrArg _ (funext fun a => Fin.ext ?_)
  match a with
  | ⟨0, _⟩ => show win4_3.index t (0 : Fin 2) * 1 + 1 * 0 = 0; rw [h.2.2.2.2.2.2.1]
  | ⟨1, _⟩ => show win4_3.index t (1 : Fin 2) * 128 + 1 * k.val = k.val; rw [h.2.2.2.2.2.2.2.1]; omega
theorem iblk4_4_apply (c : Dev nD) (t : Fin cfg4.N) (k : Fin 128) :
    iblk4 V c 4 t (ix2 0 k) = be4 V c k := by
  have h := idx_facts4 t
  unfold iblk4
  rw [View.read_apply]
  show V c (Pipeline.arrRef spec4 4) _ = V c (Pipeline.arrRef spec4 4) _
  refine congrArg _ (funext fun a => Fin.ext ?_)
  match a with
  | ⟨0, _⟩ => show win4_4.index t (0 : Fin 2) * 1 + 1 * 0 = 0; rw [h.2.2.2.2.2.2.2.2.1]
  | ⟨1, _⟩ => show win4_4.index t (1 : Fin 2) * 128 + 1 * k.val = k.val; rw [h.2.2.2.2.2.2.2.2.2.1]; omega
theorem iblk4_6_apply (c : Dev nD) (t : Fin cfg4.N) (k : Fin 128) :
    iblk4 V c 6 t (ix2 0 k) = bs4 V c k := by
  have h := idx_facts4 t
  unfold iblk4
  rw [View.read_apply]
  show V c (Pipeline.arrRef spec4 6) _ = V c (Pipeline.arrRef spec4 6) _
  refine congrArg _ (funext fun a => Fin.ext ?_)
  match a with
  | ⟨0, _⟩ => show win4_6.index t (0 : Fin 2) * 1 + 1 * 0 = 0; rw [h.2.2.2.2.2.2.2.2.2.2.2.2.1]
  | ⟨1, _⟩ => show win4_6.index t (1 : Fin 2) * 128 + 1 * k.val = k.val; rw [h.2.2.2.2.2.2.2.2.2.2.2.2.2.1]; omega
theorem iblk4_5_apply (c : Dev nD) (t : Fin cfg4.N) (k q : Fin 128) :
    iblk4 V c 5 t (ix2 k q) = Wt4 V c k q := by
  have h := idx_facts4 t
  unfold iblk4
  rw [View.read_apply]
  show V c (Pipeline.arrRef spec4 5) _ = V c (Pipeline.arrRef spec4 5) _
  refine congrArg _ (funext fun a => Fin.ext ?_)
  match a with
  | ⟨0, _⟩ => show win4_5.index t (0 : Fin 2) * 128 + 1 * k.val = k.val; rw [h.2.2.2.2.2.2.2.2.2.2.1]; omega
  | ⟨1, _⟩ => show win4_5.index t (1 : Fin 2) * 128 + 1 * q.val = q.val; rw [h.2.2.2.2.2.2.2.2.2.2.2.1]; omega

abbrev L4 (c : Dev nD) : Mat 100000 128 := lin (A4 V c) (Wt4 V c) (bs4 V c)

theorem res4_apply (c : Dev nD) (t : Fin cfg4.N) (p : Fin 10000) (q : Fin 128) :
    res4 V c t (ix2 p q) = L4 V c (row4 t p) q := by
  unfold res4
  refine (pay5_apply1 (iblk4 V c 0 t) (iblk4 V c 2 t) (iblk4 V c 1 t) (iblk4 V c 3 t) (iblk4 V c 4 t) (iblk4 V c 5 t) (iblk4 V c 6 t) p q).trans ?_
  simp only [iblk4_0_apply V c t, iblk4_1_apply V c t, iblk4_2_apply V c t, iblk4_3_apply V c t, iblk4_4_apply V c t,
    iblk4_5_apply V c t, iblk4_6_apply V c t]
  rfl

@[irreducible] def csum4 (c : Dev nD) (q : Fin 128) : EReal := colSum (L4 V c) q
@[irreducible] def csq4 (c : Dev nD) (q : Fin 128) : EReal := colSum (fun r j => L4 V c r j * L4 V c r j) q

abbrev G4_7 (c : Dev nD) : S100000x128.Idx → EReal := fun i => L4 V c (i 0) (i 1)
abbrev G4_8 (c : Dev nD) : S1x128.Idx → EReal := fun i => csum4 V c (i 1)
abbrev G4_9 (c : Dev nD) : S1x128.Idx → EReal := fun i => csq4 V c (i 1)

theorem flushed4_7_eq (c : Dev nD) (t : Fin cfg4.N) :
    (dat4 V c).flushed 7 t = ((cfg4.win 7).blk t).view.read (Elt Ideal) (G4_7 V c) := by
  have h := idx_facts4 t
  show (cfg4.win 7).cut (grid4.coords t) ((dat4 V c).after 7 t) = _
  funext j
  obtain ⟨p, q, rfl⟩ : ∃ (p : Fin 10000) (q : Fin 128), j = ix2 p q := ⟨j 0, j 1, eq_ix2 j⟩
  rw [View.read_apply]
  have e : (dat4 V c).after 7 t = res4 V c t := by dsimp only [dat4]
  refine (congrFun e (ix2 p q)).trans ?_
  refine (res4_apply V c t p q).trans ?_
  show L4 V c (row4 t p) q = L4 V c ((((cfg4.win 7).blk t).view.emb (ix2 p q)) 0) ((((cfg4.win 7).blk t).view.emb (ix2 p q)) 1)
  refine congrArg₂ (L4 V c) (Fin.ext ?_) (Fin.ext ?_)
  · show 10000 * t.val + p.val = win4_7.index t (0 : Fin 2) * 10000 + 1 * p.val
    rw [h.2.2.2.2.2.2.2.2.2.2.2.2.2.2.1]; omega
  · show q.val = win4_7.index t (1 : Fin 2) * 128 + 1 * q.val
    rw [h.2.2.2.2.2.2.2.2.2.2.2.2.2.2.2.1]; omega

theorem cover4_7 (i : S100000x128.Idx) : ∃ t : Fin cfg4.N, (cfg4.win 7).flush t = true ∧ i ∈ ((cfg4.win 7).blk t).view.set := by
  have hi0 : (i 0).val < 100000 := (i 0).isLt
  have hi1 : (i 1).val < 128 := (i 1).isLt
  have hN : cfg4.N = 10 := N_4
  obtain ⟨t, ht⟩ : ∃ t : Fin cfg4.N, t.val = (i 0).val / 10000 := ⟨⟨(i 0).val / 10000, by omega⟩, rfl⟩
  have h := idx_facts4 t
  refine ⟨t, flush4_7 t, ?_⟩
  have hy : ((cfg4.win 7).blk t).view.emb (ix2 (⟨(i 0).val % 10000, Nat.mod_lt _ (by decide)⟩ : Fin 10000) (⟨(i 1).val, hi1⟩ : Fin 128)) = i := by
    funext a; apply Fin.ext
    match a with
    | ⟨0, _⟩ => show win4_7.index t (0 : Fin 2) * 10000 + 1 * ((i 0).val % 10000) = (i 0).val; rw [h.2.2.2.2.2.2.2.2.2.2.2.2.2.2.1, ht]; omega
    | ⟨1, _⟩ => show win4_7.index t (1 : Fin 2) * 128 + 1 * (i 1).val = (i 1).val; rw [h.2.2.2.2.2.2.2.2.2.2.2.2.2.2.2.1]; omega
  have hm := ((cfg4.win 7).blk t).view.emb_mem_set (ix2 (⟨(i 0).val % 10000, Nat.mod_lt _ (by decide)⟩ : Fin 10000) (⟨(i 1).val, hi1⟩ : Fin 128))
  rwa [hy] at hm

theorem final4_7 (c : Dev nD) : (dat4 V c).arrAt 7 cfg4.N = G4_7 V c :=
  (dat4 V c).arrAt_eq_of_cover 7 (G4_7 V c) (fun t _ => flushed4_7_eq V c t) cover4_7

theorem sums4_8_last (c : Dev nD) (q : Fin 128) (t : Fin cfg4.N) (h9 : t.val = 9) :
    sums1 k1_pay1 k1_pay3 (res4 V c) t.val t.isLt (ix2 (0 : Fin 1) q) = csum4 V c q := by
  unfold csum4 colSum
  exact sums1_last (φ := fun x => x) pay3_apply1 pay1_apply1 (res4 V c) (fun r => L4 V c r q) q
    (fun t p => by rw [res4_apply]; unfold ext0 row4; rw [dif_pos]) t h9
theorem sums4_9_last (c : Dev nD) (q : Fin 128) (t : Fin cfg4.N) (h9 : t.val = 9) :
    sums1 k1_pay2 k1_pay4 (res4 V c) t.val t.isLt (ix2 (0 : Fin 1) q) = csq4 V c q := by
  unfold csq4 colSum
  exact sums1_last (φ := fun x => x * x) pay4_apply1 pay2_apply1 (res4 V c) (fun r => L4 V c r q * L4 V c r q) q
    (fun t p => by rw [res4_apply]; unfold ext0 row4; rw [dif_pos]) t h9

theorem G4_8_apply (c : Dev nD) (i : S1x128.Idx) (q : Fin 128) (hi : (i 1).val = q.val) : G4_8 V c i = csum4 V c q :=
  congrArg (csum4 V c) (Fin.ext hi)

theorem flushed4_8_eq (c : Dev nD) (t : Fin cfg4.N) (hf : (cfg4.win 8).flush t = true) :
    (dat4 V c).flushed 8 t = ((cfg4.win 8).blk t).view.read (Elt Ideal) (G4_8 V c) := by
  have hN : cfg4.N = 10 := N_4
  have h9 : t.val = 9 := by have := (flush4_8 t).mp hf; have := t.isLt; omega
  have h := idx_facts4 t
  show (cfg4.win 8).cut (grid4.coords t) ((dat4 V c).after 8 t) = _
  funext j
  obtain ⟨u, q, rfl⟩ : ∃ (u : Fin 1) (q : Fin 128), j = ix2 u q := ⟨j 0, j 1, eq_ix2 j⟩
  obtain rfl : u = 0 := Subsingleton.elim _ _
  rw [View.read_apply]
  have e : (dat4 V c).after 8 t = sums1 k1_pay1 k1_pay3 (res4 V c) t.val t.isLt := by dsimp only [dat4]
  refine (congrFun e (ix2 (0 : Fin 1) q)).trans ?_
  refine (sums4_8_last V c q t h9).trans ?_
  show csum4 V c q = G4_8 V c (((cfg4.win 8).blk t).view.emb (ix2 (0 : Fin 1) q))
  exact (G4_8_apply V c _ q (show win4_8.index t (1 : Fin 2) * 128 + 1 * q.val = q.val by rw [h.2.2.2.2.2.2.2.2.2.2.2.2.2.2.2.2.2.1]; omega)).symm

theorem cover4_8 (i : S1x128.Idx) : ∃ t : Fin cfg4.N, (cfg4.win 8).flush t = true ∧ i ∈ ((cfg4.win 8).blk t).view.set := by
  have h := idx_facts4 t4_9
  have hi0 : (i 0).val < 1 := (i 0).isLt
  have hi1 : (i 1).val < 128 := (i 1).isLt
  refine ⟨t4_9, (flush4_8 t4_9).mpr rfl, ?_⟩
  have hy : ((cfg4.win 8).blk t4_9).view.emb (ix2 (0 : Fin 1) (⟨(i 1).val, hi1⟩ : Fin 128)) = i := by
    funext a; apply Fin.ext
    match a with
    | ⟨0, _⟩ => show win4_8.index t4_9 (0 : Fin 2) * 1 + 1 * 0 = (i 0).val; rw [h.2.2.2.2.2.2.2.2.2.2.2.2.2.2.2.2.1]; omega
    | ⟨1, _⟩ => show win4_8.index t4_9 (1 : Fin 2) * 128 + 1 * (i 1).val = (i 1).val; rw [h.2.2.2.2.2.2.2.2.2.2.2.2.2.2.2.2.2.1]; omega
  have hm := ((cfg4.win 8).blk t4_9).view.emb_mem_set (ix2 (0 : Fin 1) (⟨(i 1).val, hi1⟩ : Fin 128))
  rwa [hy] at hm

theorem final4_8 (c : Dev nD) : (dat4 V c).arrAt 8 cfg4.N = G4_8 V c :=
  (dat4 V c).arrAt_eq_of_cover 8 (G4_8 V c) (flushed4_8_eq V c) cover4_8

theorem G4_9_apply (c : Dev nD) (i : S1x128.Idx) (q : Fin 128) (hi : (i 1).val = q.val) : G4_9 V c i = csq4 V c q :=
  congrArg (csq4 V c) (Fin.ext hi)

theorem flushed4_9_eq (c : Dev nD) (t : Fin cfg4.N) (hf : (cfg4.win 9).flush t = true) :
    (dat4 V c).flushed 9 t = ((cfg4.win 9).blk t).view.read (Elt Ideal) (G4_9 V c) := by
  have hN : cfg4.N = 10 := N_4
  have h9 : t.val = 9 := by have := (flush4_9 t).mp hf; have := t.isLt; omega
  have h := idx_facts4 t
  show (cfg4.win 9).cut (grid4.coords t) ((dat4 V c).after 9 t) = _
  funext j
  obtain ⟨u, q, rfl⟩ : ∃ (u : Fin 1) (q : Fin 128), j = ix2 u q := ⟨j 0, j 1, eq_ix2 j⟩
  obtain rfl : u = 0 := Subsingleton.elim _ _
  rw [View.read_apply]
  have e : (dat4 V c).after 9 t = sums1 k1_pay2 k1_pay4 (res4 V c) t.val t.isLt := by dsimp only [dat4]
  refine (congrFun e (ix2 (0 : Fin 1) q)).trans ?_
  refine (sums4_9_last V c q t h9).trans ?_
  show csq4 V c q = G4_9 V c (((cfg4.win 9).blk t).view.emb (ix2 (0 : Fin 1) q))
  exact (G4_9_apply V c _ q (show win4_9.index t (1 : Fin 2) * 128 + 1 * q.val = q.val by rw [h.2.2.2.2.2.2.2.2.2.2.2.2.2.2.2.2.2.2.2]; omega)).symm

theorem cover4_9 (i : S1x128.Idx) : ∃ t : Fin cfg4.N, (cfg4.win 9).flush t = true ∧ i ∈ ((cfg4.win 9).blk t).view.set := by
  have h := idx_facts4 t4_9
  have hi0 : (i 0).val < 1 := (i 0).isLt
  have hi1 : (i 1).val < 128 := (i 1).isLt
  refine ⟨t4_9, (flush4_9 t4_9).mpr rfl, ?_⟩
  have hy : ((cfg4.win 9).blk t4_9).view.emb (ix2 (0 : Fin 1) (⟨(i 1).val, hi1⟩ : Fin 128)) = i := by
    funext a; apply Fin.ext
    match a with
    | ⟨0, _⟩ => show win4_9.index t4_9 (0 : Fin 2) * 1 + 1 * 0 = (i 0).val; rw [h.2.2.2.2.2.2.2.2.2.2.2.2.2.2.2.2.2.2.1]; omega
    | ⟨1, _⟩ => show win4_9.index t4_9 (1 : Fin 2) * 128 + 1 * (i 1).val = (i 1).val; rw [h.2.2.2.2.2.2.2.2.2.2.2.2.2.2.2.2.2.2.2]; omega
  have hm := ((cfg4.win 9).blk t4_9).view.emb_mem_set (ix2 (0 : Fin 1) (⟨(i 1).val, hi1⟩ : Fin 128))
  rwa [hy] at hm

theorem final4_9 (c : Dev nD) : (dat4 V c).arrAt 9 cfg4.N = G4_9 V c :=
  (dat4 V c).arrAt_eq_of_cover 9 (G4_9 V c) (flushed4_9_eq V c) cover4_9

theorem z_val4 (c : Dev nD) : toMat ((dat4 V c).arrAt 7 cfg4.N : S100000x128.Idx → EReal) = lin (A4 V c) (Wt4 V c) (bs4 V c) := by
  rw [final4_7]
theorem sum_val4 (c : Dev nD) : toRow1 ((dat4 V c).arrAt 8 cfg4.N : S1x128.Idx → EReal) = colSum (lin (A4 V c) (Wt4 V c) (bs4 V c)) := by
  rw [final4_8]
  funext q
  show csum4 V c q = _
  unfold csum4
  rfl
theorem sumsq_val4 (c : Dev nD) : toRow1 ((dat4 V c).arrAt 9 cfg4.N : S1x128.Idx → EReal)
    = colSum (fun i j => lin (A4 V c) (Wt4 V c) (bs4 V c) i j * lin (A4 V c) (Wt4 V c) (bs4 V c) i j) := by
  rw [final4_9]
  funext q
  show csq4 V c q = _
  unfold csq4
  rfl

end Val

end Cert.KernelIdeal.Hand

end
-- ==== Proof.KI.R5Val.lean ====
import proofs.«105940_j32358283608240_1_alg».proof.Proof.KI.R5
import proofs.«105940_j32358283608240_1_alg».proof.Proof.KI.R2Val

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.Spec

variable (V : (c : Dev nD) → (b : Ref sig .tc) → Buf (Elt Ideal) ((c : Thread nD τ).loc b))

abbrev Z5 (c : Dev nD) : Mat 100000 128 := toMat (V c (Pipeline.arrRef spec5 0) : S100000x128.Idx → EReal)
abbrev mu5 (c : Dev nD) : Row 128 := toRow1 (V c (Pipeline.arrRef spec5 1) : S1x128.Idx → EReal)
abbrev va5 (c : Dev nD) : Row 128 := toRow1 (V c (Pipeline.arrRef spec5 2) : S1x128.Idx → EReal)
abbrev ga5 (c : Dev nD) : Row 128 := toRow1 (V c (Pipeline.arrRef spec5 3) : S1x128.Idx → EReal)
abbrev be5 (c : Dev nD) : Row 128 := toRow1 (V c (Pipeline.arrRef spec5 4) : S1x128.Idx → EReal)

theorem h_val5 (c : Dev nD) : toMat ((dat5 V c).arrAt 5 cfg5.N : S100000x128.Idx → EReal)
    = normRelu (Z5 V c) (mu5 V c) (va5 V c) (ga5 V c) (be5 V c) := by
  rw [(dat5 V c).arrAt_eq_of_cover 5 (fun i => normRelu (Z5 V c) (mu5 V c) (va5 V c) (ga5 V c) (be5 V c) (i 0) (i 1))
    (fun t _ => by
      show (cfg5.win 5).cut (grid5.coords t) ((dat5 V c).after 5 t) = _
      rw [after5_5, out2_5_eq]
      exact flush2 (V c (Pipeline.arrRef spec5 0)) (V c (Pipeline.arrRef spec5 1)) (V c (Pipeline.arrRef spec5 2))
        (V c (Pipeline.arrRef spec5 3)) (V c (Pipeline.arrRef spec5 4)) t) covered2_5]
  rfl

end Cert.KernelIdeal.Hand

end
-- ==== Proof.KI.Layer1.lean ====
import proofs.«105940_j32358283608240_1_alg».proof.Proof.KI.Chain
import proofs.«105940_j32358283608240_1_alg».proof.Proof.KI.Layer0
import proofs.«105940_j32358283608240_1_alg».proof.Proof.KI.R3Val
import proofs.«105940_j32358283608240_1_alg».proof.Proof.KI.R4Val
import proofs.«105940_j32358283608240_1_alg».proof.Proof.KI.R5Val
import proofs.«105940_j32358283608240_1_alg».proof.Proof.Spec
import Idealize.ShloMosaic.Lib.IdealHost
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo
open Cert.Spec

theorem L1_st1 (V : Valuation τ sig (Elt Ideal)) :
    Stats (toRow1 (after hostOps4 V main_v76 : S1x128.Idx → EReal)) (toRow1 (after hostOps4 V main_v80 : S1x128.Idx → EReal))
      (toRow1 (V main_v74_1 : S1x128.Idx → EReal)) (toRow1 (V main_v74_2 : S1x128.Idx → EReal)) :=
  stats_at (by after_results) (by after_results)
theorem L1_st2 (V : Valuation τ sig (Elt Ideal)) :
    Stats (toRow1 (after hostOps5 V main_v94 : S1x128.Idx → EReal)) (toRow1 (after hostOps5 V main_v98 : S1x128.Idx → EReal))
      (toRow1 (V main_v92_1 : S1x128.Idx → EReal)) (toRow1 (V main_v92_2 : S1x128.Idx → EReal)) :=
  stats_at (by after_results) (by after_results)
variable (m : (ℓ : Loc nD τ sig) → Buf (Elt Ideal) ℓ)
def paramsK1 (c : Dev nD) : LayerParams :=
  ⟨toMat (W7 m c main_v70 : S128x128.Idx → EReal), toRow1 (W7 m c main_v73 : S1x128.Idx → EReal),
   toRow1 (W9 m c main_v83 : S1x128.Idx → EReal), toRow1 (W9 m c main_v86 : S1x128.Idx → EReal),
   toMat (W9 m c main_v88 : S128x128.Idx → EReal), toRow1 (W9 m c main_v91 : S1x128.Idx → EReal),
   toRow1 (W11 m c main_v101 : S1x128.Idx → EReal), toRow1 (W11 m c main_v104 : S1x128.Idx → EReal)⟩
theorem L1_act (c : Dev nD) : A4 (B9 m) c = actK (paramsK1 m c) (toMat (W7 m c main_v68 : S100000x128.Idx → EReal)) :=
  normRelu_of_parts (z := toMat (W9 m c main_v74_0 : S100000x128.Idx → EReal)) _
    (via (after_of_writes_sub hostOps4 _ hostOps4_writes (by decide)) (via (W8_arr m c 3) (z_val3 (B7 m) c)))
    (via (W8_arr m c 4) (sum_val3 (B7 m) c)) (via (W8_arr m c 5) (sumsq_val3 (B7 m) c)) (L1_st1 (W8 m c))
theorem layerK1 (c : Dev nD) :
    toMat (W12 m c main_v105 : S100000x128.Idx → EReal)
      = layerK (paramsK1 m c) (toMat (W7 m c main_v68 : S100000x128.Idx → EReal)) :=
  layerK_of_act (z2 := toMat (W11 m c main_v92_0 : S100000x128.Idx → EReal)) (L1_act m c)
    (via (after_of_writes_sub hostOps5 _ hostOps5_writes (by decide)) (via (W10_arr m c 7) (z_val4 (B9 m) c)))
    (via (W10_arr m c 8) (sum_val4 (B9 m) c)) (via (W10_arr m c 9) (sumsq_val4 (B9 m) c))
    (L1_st2 (W10 m c)) (via (W12_arr m c 5) (h_val5 (B11 m) c))
end Cert.KernelIdeal.Hand
end
-- ==== Proof.KI.R6Val.lean ====
import proofs.«105940_j32358283608240_1_alg».proof.Proof.KI.R6
import proofs.«105940_j32358283608240_1_alg».proof.Proof.KI.R0Val

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Spec
open scoped BigOperators

theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

theorem read_blk6_0 (c : Dev nD) (A : Buf (Elt Ideal) ((cfg6.win 0).arr.view.loc (c.tc : Thread nD τ))) (t : Fin cfg6.N)
    (p : Fin 10000) (k : Fin 128) :
    (((cfg6.win 0).blk t).view.read (Elt Ideal) A : S10000x128.Idx → EReal) (ix2 p k) = (A : S100000x128.Idx → EReal) (ix2 (row0 t p) k) := by
  obtain ⟨e0, e1, -⟩ := idx_facts6 t
  rw [View.read_apply]
  refine congrArg (A : S100000x128.Idx → EReal) ?_
  funext a; apply Fin.ext
  match a with
  | ⟨0, _⟩ => show win6_0.index t (0 : Fin 2) * 10000 + 1 * p.val = 10000 * t.val + p.val; rw [e0]; omega
  | ⟨1, _⟩ => show win6_0.index t (1 : Fin 2) * 128 + 1 * k.val = k.val; rw [e1]; omega

theorem read_blk6_1 (c : Dev nD) (A : Buf (Elt Ideal) ((cfg6.win 1).arr.view.loc (c.tc : Thread nD τ))) (t : Fin cfg6.N)
    (k : Fin 128) (q : Fin 128) :
    (((cfg6.win 1).blk t).view.read (Elt Ideal) A : S128x128.Idx → EReal) (ix2 k q) = (A : S128x128.Idx → EReal) (ix2 k q) := by
  obtain ⟨-, -, e0, e1, -⟩ := idx_facts6 t
  rw [View.read_apply]
  refine congrArg (A : S128x128.Idx → EReal) ?_
  funext a; apply Fin.ext
  match a with
  | ⟨0, _⟩ => show win6_1.index t (0 : Fin 2) * 128 + 1 * k.val = k.val; rw [e0]; omega
  | ⟨1, _⟩ => show win6_1.index t (1 : Fin 2) * 128 + 1 * q.val = q.val; rw [e1]; omega

theorem read_blk6_2 (c : Dev nD) (A : Buf (Elt Ideal) ((cfg6.win 2).arr.view.loc (c.tc : Thread nD τ))) (t : Fin cfg6.N)
    (r : Fin 1) (q : Fin 128) :
    (((cfg6.win 2).blk t).view.read (Elt Ideal) A : S1x128.Idx → EReal) (ix2 r q) = (A : S1x128.Idx → EReal) (ix2 r q) := by
  obtain ⟨-, -, -, -, e0, e1, -⟩ := idx_facts6 t
  rw [View.read_apply]
  refine congrArg (A : S1x128.Idx → EReal) ?_
  funext a; apply Fin.ext
  match a with
  | ⟨0, _⟩ => show win6_2.index t (0 : Fin 2) * 1 + 1 * r.val = r.val; rw [e0]; omega
  | ⟨1, _⟩ => show win6_2.index t (1 : Fin 2) * 128 + 1 * q.val = q.val; rw [e1]; omega

theorem read_blk6_3 (c : Dev nD) (A : Buf (Elt Ideal) ((cfg6.win 3).arr.view.loc (c.tc : Thread nD τ))) (t : Fin cfg6.N)
    (p : Fin 10000) (q : Fin 128) :
    (((cfg6.win 3).blk t).view.read (Elt Ideal) A : S10000x128.Idx → EReal) (ix2 p q) = (A : S100000x128.Idx → EReal) (ix2 (row0 t p) q) := by
  obtain ⟨-, -, -, -, -, -, e0, e1, -⟩ := idx_facts6 t
  rw [View.read_apply]
  refine congrArg (A : S100000x128.Idx → EReal) ?_
  funext a; apply Fin.ext
  match a with
  | ⟨0, _⟩ => show win6_3.index t (0 : Fin 2) * 10000 + 1 * p.val = 10000 * t.val + p.val; rw [e0]; omega
  | ⟨1, _⟩ => show win6_3.index t (1 : Fin 2) * 128 + 1 * q.val = q.val; rw [e1]; omega

theorem read_blk6_4 (c : Dev nD) (A : Buf (Elt Ideal) ((cfg6.win 4).arr.view.loc (c.tc : Thread nD τ))) (t : Fin cfg6.N)
    (r : Fin 1) (q : Fin 128) :
    (((cfg6.win 4).blk t).view.read (Elt Ideal) A : S1x128.Idx → EReal) (ix2 r q) = (A : S1x128.Idx → EReal) (ix2 r q) := by
  obtain ⟨-, -, -, -, -, -, -, -, e0, e1, -⟩ := idx_facts6 t
  rw [View.read_apply]
  refine congrArg (A : S1x128.Idx → EReal) ?_
  funext a; apply Fin.ext
  match a with
  | ⟨0, _⟩ => show win6_4.index t (0 : Fin 2) * 1 + 1 * r.val = r.val; rw [e0]; omega
  | ⟨1, _⟩ => show win6_4.index t (1 : Fin 2) * 128 + 1 * q.val = q.val; rw [e1]; omega
theorem read_blk6_5 (c : Dev nD) (A : Buf (Elt Ideal) ((cfg6.win 5).arr.view.loc (c.tc : Thread nD τ))) (t : Fin cfg6.N)
    (r : Fin 1) (q : Fin 128) :
    (((cfg6.win 5).blk t).view.read (Elt Ideal) A : S1x128.Idx → EReal) (ix2 r q) = (A : S1x128.Idx → EReal) (ix2 r q) := by
  obtain ⟨-, -, -, -, -, -, -, -, -, -, e0, e1⟩ := idx_facts6 t
  rw [View.read_apply]
  refine congrArg (A : S1x128.Idx → EReal) ?_
  funext a; apply Fin.ext
  match a with
  | ⟨0, _⟩ => show win6_5.index t (0 : Fin 2) * 1 + 1 * r.val = r.val; rw [e0]; omega
  | ⟨1, _⟩ => show win6_5.index t (1 : Fin 2) * 128 + 1 * q.val = q.val; rw [e1]; omega
theorem cover6_3 (i : S100000x128.Idx) :
    ∃ t : Fin cfg6.N, (cfg6.win 3).flush t = true ∧ i ∈ ((cfg6.win 3).blk t).view.set := by
  have hi0 : (i 0).val < 100000 := (i 0).isLt
  have hi1 : (i 1).val < 128 := (i 1).isLt
  refine ⟨ptOf0 (i 0), flush6_3 _, ?_⟩
  obtain ⟨-, -, -, -, -, -, e0, e1, -⟩ := idx_facts6 (ptOf0 (i 0))
  have hv : (ptOf0 (i 0)).val = (i 0).val / 10000 := rfl
  show i ∈ ((View.whole (Pipeline.arrRef spec6 3)).slice (win6_3.rect (ptOf0 (i 0)))).set
  rw [View.set_slice_whole, Rect.mem_set_unit]
  intro a
  match a with
  | ⟨0, _⟩ =>
    show win6_3.index (ptOf0 (i 0)) (0 : Fin 2) * 10000 ≤ (i 0).val ∧ (i 0).val < win6_3.index (ptOf0 (i 0)) (0 : Fin 2) * 10000 + 10000
    rw [e0, hv]; omega
  | ⟨1, _⟩ =>
    show win6_3.index (ptOf0 (i 0)) (1 : Fin 2) * 128 ≤ (i 1).val ∧ (i 1).val < win6_3.index (ptOf0 (i 0)) (1 : Fin 2) * 128 + 128
    rw [e1]; omega
theorem cover6_4 (i : S1x128.Idx) :
    ∃ t : Fin cfg6.N, (cfg6.win 4).flush t = true ∧ i ∈ ((cfg6.win 4).blk t).view.set := by
  have hi0 : (i 0).val < 1 := (i 0).isLt
  have hi1 : (i 1).val < 128 := (i 1).isLt
  refine ⟨last0, (flush6_4 last0).mpr rfl, ?_⟩
  obtain ⟨-, -, -, -, -, -, -, -, e0, e1, -⟩ := idx_facts6 last0
  show i ∈ ((View.whole (Pipeline.arrRef spec6 4)).slice (win6_4.rect last0)).set
  rw [View.set_slice_whole, Rect.mem_set_unit]
  intro a
  match a with
  | ⟨0, _⟩ =>
    show win6_4.index last0 (0 : Fin 2) * 1 ≤ (i 0).val ∧ (i 0).val < win6_4.index last0 (0 : Fin 2) * 1 + 1
    rw [e0]; omega
  | ⟨1, _⟩ =>
    show win6_4.index last0 (1 : Fin 2) * 128 ≤ (i 1).val ∧ (i 1).val < win6_4.index last0 (1 : Fin 2) * 128 + 128
    rw [e1]; omega
theorem cover6_5 (i : S1x128.Idx) :
    ∃ t : Fin cfg6.N, (cfg6.win 5).flush t = true ∧ i ∈ ((cfg6.win 5).blk t).view.set := by
  have hi0 : (i 0).val < 1 := (i 0).isLt
  have hi1 : (i 1).val < 128 := (i 1).isLt
  refine ⟨last0, (flush6_5 last0).mpr rfl, ?_⟩
  obtain ⟨-, -, -, -, -, -, -, -, -, -, e0, e1⟩ := idx_facts6 last0
  show i ∈ ((View.whole (Pipeline.arrRef spec6 5)).slice (win6_5.rect last0)).set
  rw [View.set_slice_whole, Rect.mem_set_unit]
  intro a
  match a with
  | ⟨0, _⟩ =>
    show win6_5.index last0 (0 : Fin 2) * 1 ≤ (i 0).val ∧ (i 0).val < win6_5.index last0 (0 : Fin 2) * 1 + 1
    rw [e0]; omega
  | ⟨1, _⟩ =>
    show win6_5.index last0 (1 : Fin 2) * 128 ≤ (i 1).val ∧ (i 1).val < win6_5.index last0 (1 : Fin 2) * 128 + 128
    rw [e1]; omega
variable (V : (c : Dev nD) → (b : Ref sig .tc) → Buf (Elt Ideal) ((c : Thread nD τ).loc b))

abbrev P6 (c : Dev nD) : Mat 100000 128 := toMat (V c (Pipeline.arrRef spec6 0) : S100000x128.Idx → EReal)
abbrev Wt6 (c : Dev nD) : Mat 128 128 := toMat (V c (Pipeline.arrRef spec6 1) : S128x128.Idx → EReal)
abbrev bs6 (c : Dev nD) : Row 128 := toRow1 (V c (Pipeline.arrRef spec6 2) : S1x128.Idx → EReal)

theorem xb6_apply (c : Dev nD) (t : Fin cfg6.N) (p : Fin 10000) (k : Fin 128) :
    (iblk6 V c 0 t : S10000x128.Idx → EReal) (ix2 p k) = P6 V c (row0 t p) k :=
  read_blk6_0 c (V c (Pipeline.arrRef spec6 0)) t p k
theorem wb6_apply (c : Dev nD) (t : Fin cfg6.N) (k : Fin 128) (q : Fin 128) :
    (iblk6 V c 1 t : S128x128.Idx → EReal) (ix2 k q) = Wt6 V c k q :=
  read_blk6_1 c (V c (Pipeline.arrRef spec6 1)) t k q
theorem bb6_apply (c : Dev nD) (t : Fin cfg6.N) (q : Fin 128) :
    (iblk6 V c 2 t : S1x128.Idx → EReal) (ix2 (0 : Fin 1) q) = bs6 V c q :=
  read_blk6_2 c (V c (Pipeline.arrRef spec6 2)) t 0 q

abbrev G6_3 (c : Dev nD) : S100000x128.Idx → EReal := fun i => lin (P6 V c) (Wt6 V c) (bs6 V c) (i 0) (i 1)

theorem flushed6_3 (c : Dev nD) (t : Fin cfg6.N) :
    (dat6 V c).flushed 3 t = ((cfg6.win 3).blk t).view.read (Elt Ideal) (G6_3 V c) := by
  show (cfg6.win 3).cut (grid6.coords t) (k0_pay3 (iblk6 V c 0 t) (iblk6 V c 1 t) (iblk6 V c 2 t)) = _
  funext j
  obtain ⟨p, q, rfl⟩ : ∃ (p : Fin 10000) (q : Fin 128), j = ix2 p q := ⟨j 0, j 1, eq_ix2 j⟩
  refine (z_blk0 (iblk6 V c 0) (iblk6 V c 1) (iblk6 V c 2) _ _ _ (xb6_apply V c) (wb6_apply V c) (bb6_apply V c) t p q).trans ?_
  exact (read_blk6_3 c (G6_3 V c) t p q).symm

theorem z_arr6 (c : Dev nD) : (dat6 V c).arrAt 3 cfg6.N = G6_3 V c :=
  (dat6 V c).arrAt_eq_of_cover 3 (G6_3 V c) (fun t _ => flushed6_3 V c t) cover6_3

theorem z_val6 (c : Dev nD) :
    toMat ((dat6 V c).arrAt 3 cfg6.N : S100000x128.Idx → EReal) = lin (P6 V c) (Wt6 V c) (bs6 V c) := by
  rw [z_arr6]

abbrev G6_4 (c : Dev nD) : S1x128.Idx → EReal := fun i => colSum (lin (P6 V c) (Wt6 V c) (bs6 V c)) (i 1)
abbrev G6_5 (c : Dev nD) : S1x128.Idx → EReal :=
  fun i => colSum (fun a b => lin (P6 V c) (Wt6 V c) (bs6 V c) a b * lin (P6 V c) (Wt6 V c) (bs6 V c) a b) (i 1)

theorem flushed6_4 (c : Dev nD) (t : Fin cfg6.N) (hf : (cfg6.win 4).flush t = true) :
    (dat6 V c).flushed 4 t = ((cfg6.win 4).blk t).view.read (Elt Ideal) (G6_4 V c) := by
  have hN : cfg6.N = 10 := N_6
  have h9 : t.val = 9 := by have := (flush6_4 t).mp hf; have := t.isLt; omega
  obtain rfl : t = last0 := Fin.ext h9
  show (cfg6.win 4).cut (grid6.coords last0) (out0_4 (iblk6 V c 0) (iblk6 V c 1) (iblk6 V c 2) last0.val last0.isLt) = _
  funext j
  obtain ⟨r, q, rfl⟩ : ∃ (r : Fin 1) (q : Fin 128), j = ix2 r q := ⟨j 0, j 1, eq_ix2 j⟩
  obtain rfl : r = 0 := Subsingleton.elim _ _
  refine (out0_4_last (iblk6 V c 0) (iblk6 V c 1) (iblk6 V c 2) _ _ _ (xb6_apply V c) (wb6_apply V c) (bb6_apply V c) q last0.isLt).trans ?_
  exact (read_blk6_4 c (G6_4 V c) last0 0 q).symm
theorem flushed6_5 (c : Dev nD) (t : Fin cfg6.N) (hf : (cfg6.win 5).flush t = true) :
    (dat6 V c).flushed 5 t = ((cfg6.win 5).blk t).view.read (Elt Ideal) (G6_5 V c) := by
  have hN : cfg6.N = 10 := N_6
  have h9 : t.val = 9 := by have := (flush6_5 t).mp hf; have := t.isLt; omega
  obtain rfl : t = last0 := Fin.ext h9
  show (cfg6.win 5).cut (grid6.coords last0) (out0_5 (iblk6 V c 0) (iblk6 V c 1) (iblk6 V c 2) last0.val last0.isLt) = _
  funext j
  obtain ⟨r, q, rfl⟩ : ∃ (r : Fin 1) (q : Fin 128), j = ix2 r q := ⟨j 0, j 1, eq_ix2 j⟩
  obtain rfl : r = 0 := Subsingleton.elim _ _
  refine (out0_5_last (iblk6 V c 0) (iblk6 V c 1) (iblk6 V c 2) _ _ _ (xb6_apply V c) (wb6_apply V c) (bb6_apply V c) q last0.isLt).trans ?_
  exact (read_blk6_5 c (G6_5 V c) last0 0 q).symm

theorem sum_arr6 (c : Dev nD) : (dat6 V c).arrAt 4 cfg6.N = G6_4 V c :=
  (dat6 V c).arrAt_eq_of_cover 4 (G6_4 V c) (flushed6_4 V c) cover6_4
theorem sumsq_arr6 (c : Dev nD) : (dat6 V c).arrAt 5 cfg6.N = G6_5 V c :=
  (dat6 V c).arrAt_eq_of_cover 5 (G6_5 V c) (flushed6_5 V c) cover6_5

theorem sum_val6 (c : Dev nD) :
    toRow1 ((dat6 V c).arrAt 4 cfg6.N : S1x128.Idx → EReal) = colSum (lin (P6 V c) (Wt6 V c) (bs6 V c)) := by
  rw [sum_arr6]
theorem sumsq_val6 (c : Dev nD) :
    toRow1 ((dat6 V c).arrAt 5 cfg6.N : S1x128.Idx → EReal)
      = colSum (fun i j => lin (P6 V c) (Wt6 V c) (bs6 V c) i j * lin (P6 V c) (Wt6 V c) (bs6 V c) i j) := by
  rw [sumsq_arr6]

end Cert.KernelIdeal.Hand

end
-- ==== Proof.KI.R7Val.lean ====
import proofs.«105940_j32358283608240_1_alg».proof.Proof.KI.R7
import proofs.«105940_j32358283608240_1_alg».proof.Proof.KI.R1Val

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Spec
open scoped BigOperators

section Val
variable (V : (c : Dev nD) → (b : Ref sig .tc) → Buf (Elt Ideal) ((c : Thread nD τ).loc b))

abbrev Z7 (c : Dev nD) : Mat 100000 128 := toMat (V c (Pipeline.arrRef spec7 0) : S100000x128.Idx → EReal)
abbrev mu7 (c : Dev nD) : Row 128 := toRow1 (V c (Pipeline.arrRef spec7 1) : S1x128.Idx → EReal)
abbrev va7 (c : Dev nD) : Row 128 := toRow1 (V c (Pipeline.arrRef spec7 2) : S1x128.Idx → EReal)
abbrev ga7 (c : Dev nD) : Row 128 := toRow1 (V c (Pipeline.arrRef spec7 3) : S1x128.Idx → EReal)
abbrev be7 (c : Dev nD) : Row 128 := toRow1 (V c (Pipeline.arrRef spec7 4) : S1x128.Idx → EReal)
abbrev Wt7 (c : Dev nD) : Mat 128 128 := toMat (V c (Pipeline.arrRef spec7 5) : S128x128.Idx → EReal)
abbrev bs7 (c : Dev nD) : Row 128 := toRow1 (V c (Pipeline.arrRef spec7 6) : S1x128.Idx → EReal)
abbrev A7 (c : Dev nD) : Mat 100000 128 := normRelu (Z7 V c) (mu7 V c) (va7 V c) (ga7 V c) (be7 V c)

theorem idx_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = t.val ∧ win7_7.index t (1 : Fin 2) = 0
    ∧ win7_8.index t (0 : Fin 2) = 0 ∧ win7_8.index t (1 : Fin 2) = 0
    ∧ win7_9.index t (0 : Fin 2) = 0 ∧ win7_9.index t (1 : Fin 2) = 0 :=
  (by decide +kernel : ∀ t : Fin grid7.N, _)

def row7 (t : Fin cfg7.N) (p : Fin 10000) : Fin 100000 :=
  ⟨10000 * t.val + p.val, by have := lt_of_lt_of_eq t.isLt (show cfg7.N = 10 from N_7); have := p.isLt; omega⟩

theorem iblk7_0_apply (c : Dev nD) (t : Fin cfg7.N) (p : Fin 10000) (k : Fin 128) :
    iblk7 V c 0 t (ix2 p k) = Z7 V c (row7 t p) k := by
  have h := idx_facts7 t
  unfold iblk7
  rw [View.read_apply]
  show V c (Pipeline.arrRef spec7 0) _ = V c (Pipeline.arrRef spec7 0) _
  refine congrArg _ (funext fun a => Fin.ext ?_)
  match a with
  | ⟨0, _⟩ => show win7_0.index t (0 : Fin 2) * 10000 + 1 * p.val = 10000 * t.val + p.val; rw [h.1]; omega
  | ⟨1, _⟩ => show win7_0.index t (1 : Fin 2) * 128 + 1 * k.val = k.val; rw [h.2.1]; omega

theorem iblk7_1_apply (c : Dev nD) (t : Fin cfg7.N) (k : Fin 128) :
    iblk7 V c 1 t (ix2 0 k) = mu7 V c k := by
  have h := idx_facts7 t
  unfold iblk7
  rw [View.read_apply]
  show V c (Pipeline.arrRef spec7 1) _ = V c (Pipeline.arrRef spec7 1) _
  refine congrArg _ (funext fun a => Fin.ext ?_)
  match a with
  | ⟨0, _⟩ => show win7_1.index t (0 : Fin 2) * 1 + 1 * 0 = 0; rw [h.2.2.1]
  | ⟨1, _⟩ => show win7_1.index t (1 : Fin 2) * 128 + 1 * k.val = k.val; rw [h.2.2.2.1]; omega
theorem iblk7_2_apply (c : Dev nD) (t : Fin cfg7.N) (k : Fin 128) :
    iblk7 V c 2 t (ix2 0 k) = va7 V c k := by
  have h := idx_facts7 t
  unfold iblk7
  rw [View.read_apply]
  show V c (Pipeline.arrRef spec7 2) _ = V c (Pipeline.arrRef spec7 2) _
  refine congrArg _ (funext fun a => Fin.ext ?_)
  match a with
  | ⟨0, _⟩ => show win7_2.index t (0 : Fin 2) * 1 + 1 * 0 = 0; rw [h.2.2.2.2.1]
  | ⟨1, _⟩ => show win7_2.index t (1 : Fin 2) * 128 + 1 * k.val = k.val; rw [h.2.2.2.2.2.1]; omega
theorem iblk7_3_apply (c : Dev nD) (t : Fin cfg7.N) (k : Fin 128) :
    iblk7 V c 3 t (ix2 0 k) = ga7 V c k := by
  have h := idx_facts7 t
  unfold iblk7
  rw [View.read_apply]
  show V c (Pipeline.arrRef spec7 3) _ = V c (Pipeline.arrRef spec7 3) _
  refine congrArg _ (funext fun a => Fin.ext ?_)
  match a with
  | ⟨0, _⟩ => show win7_3.index t (0 : Fin 2) * 1 + 1 * 0 = 0; rw [h.2.2.2.2.2.2.1]
  | ⟨1, _⟩ => show win7_3.index t (1 : Fin 2) * 128 + 1 * k.val = k.val; rw [h.2.2.2.2.2.2.2.1]; omega
theorem iblk7_4_apply (c : Dev nD) (t : Fin cfg7.N) (k : Fin 128) :
    iblk7 V c 4 t (ix2 0 k) = be7 V c k := by
  have h := idx_facts7 t
  unfold iblk7
  rw [View.read_apply]
  show V c (Pipeline.arrRef spec7 4) _ = V c (Pipeline.arrRef spec7 4) _
  refine congrArg _ (funext fun a => Fin.ext ?_)
  match a with
  | ⟨0, _⟩ => show win7_4.index t (0 : Fin 2) * 1 + 1 * 0 = 0; rw [h.2.2.2.2.2.2.2.2.1]
  | ⟨1, _⟩ => show win7_4.index t (1 : Fin 2) * 128 + 1 * k.val = k.val; rw [h.2.2.2.2.2.2.2.2.2.1]; omega
theorem iblk7_6_apply (c : Dev nD) (t : Fin cfg7.N) (k : Fin 128) :
    iblk7 V c 6 t (ix2 0 k) = bs7 V c k := by
  have h := idx_facts7 t
  unfold iblk7
  rw [View.read_apply]
  show V c (Pipeline.arrRef spec7 6) _ = V c (Pipeline.arrRef spec7 6) _
  refine congrArg _ (funext fun a => Fin.ext ?_)
  match a with
  | ⟨0, _⟩ => show win7_6.index t (0 : Fin 2) * 1 + 1 * 0 = 0; rw [h.2.2.2.2.2.2.2.2.2.2.2.2.1]
  | ⟨1, _⟩ => show win7_6.index t (1 : Fin 2) * 128 + 1 * k.val = k.val; rw [h.2.2.2.2.2.2.2.2.2.2.2.2.2.1]; omega
theorem iblk7_5_apply (c : Dev nD) (t : Fin cfg7.N) (k q : Fin 128) :
    iblk7 V c 5 t (ix2 k q) = Wt7 V c k q := by
  have h := idx_facts7 t
  unfold iblk7
  rw [View.read_apply]
  show V c (Pipeline.arrRef spec7 5) _ = V c (Pipeline.arrRef spec7 5) _
  refine congrArg _ (funext fun a => Fin.ext ?_)
  match a with
  | ⟨0, _⟩ => show win7_5.index t (0 : Fin 2) * 128 + 1 * k.val = k.val; rw [h.2.2.2.2.2.2.2.2.2.2.1]; omega
  | ⟨1, _⟩ => show win7_5.index t (1 : Fin 2) * 128 + 1 * q.val = q.val; rw [h.2.2.2.2.2.2.2.2.2.2.2.1]; omega

abbrev L7 (c : Dev nD) : Mat 100000 128 := lin (A7 V c) (Wt7 V c) (bs7 V c)

theorem res7_apply (c : Dev nD) (t : Fin cfg7.N) (p : Fin 10000) (q : Fin 128) :
    res7 V c t (ix2 p q) = L7 V c (row7 t p) q := by
  unfold res7
  refine (pay5_apply1 (iblk7 V c 0 t) (iblk7 V c 2 t) (iblk7 V c 1 t) (iblk7 V c 3 t) (iblk7 V c 4 t) (iblk7 V c 5 t) (iblk7 V c 6 t) p q).trans ?_
  simp only [iblk7_0_apply V c t, iblk7_1_apply V c t, iblk7_2_apply V c t, iblk7_3_apply V c t, iblk7_4_apply V c t,
    iblk7_5_apply V c t, iblk7_6_apply V c t]
  rfl

@[irreducible] def csum7 (c : Dev nD) (q : Fin 128) : EReal := colSum (L7 V c) q
@[irreducible] def csq7 (c : Dev nD) (q : Fin 128) : EReal := colSum (fun r j => L7 V c r j * L7 V c r j) q

abbrev G7_7 (c : Dev nD) : S100000x128.Idx → EReal := fun i => L7 V c (i 0) (i 1)
abbrev G7_8 (c : Dev nD) : S1x128.Idx → EReal := fun i => csum7 V c (i 1)
abbrev G7_9 (c : Dev nD) : S1x128.Idx → EReal := fun i => csq7 V c (i 1)

theorem flushed7_7_eq (c : Dev nD) (t : Fin cfg7.N) :
    (dat7 V c).flushed 7 t = ((cfg7.win 7).blk t).view.read (Elt Ideal) (G7_7 V c) := by
  have h := idx_facts7 t
  show (cfg7.win 7).cut (grid7.coords t) ((dat7 V c).after 7 t) = _
  funext j
  obtain ⟨p, q, rfl⟩ : ∃ (p : Fin 10000) (q : Fin 128), j = ix2 p q := ⟨j 0, j 1, eq_ix2 j⟩
  rw [View.read_apply]
  have e : (dat7 V c).after 7 t = res7 V c t := by dsimp only [dat7]
  refine (congrFun e (ix2 p q)).trans ?_
  refine (res7_apply V c t p q).trans ?_
  show L7 V c (row7 t p) q = L7 V c ((((cfg7.win 7).blk t).view.emb (ix2 p q)) 0) ((((cfg7.win 7).blk t).view.emb (ix2 p q)) 1)
  refine congrArg₂ (L7 V c) (Fin.ext ?_) (Fin.ext ?_)
  · show 10000 * t.val + p.val = win7_7.index t (0 : Fin 2) * 10000 + 1 * p.val
    rw [h.2.2.2.2.2.2.2.2.2.2.2.2.2.2.1]; omega
  · show q.val = win7_7.index t (1 : Fin 2) * 128 + 1 * q.val
    rw [h.2.2.2.2.2.2.2.2.2.2.2.2.2.2.2.1]; omega

theorem cover7_7 (i : S100000x128.Idx) : ∃ t : Fin cfg7.N, (cfg7.win 7).flush t = true ∧ i ∈ ((cfg7.win 7).blk t).view.set := by
  have hi0 : (i 0).val < 100000 := (i 0).isLt
  have hi1 : (i 1).val < 128 := (i 1).isLt
  have hN : cfg7.N = 10 := N_7
  obtain ⟨t, ht⟩ : ∃ t : Fin cfg7.N, t.val = (i 0).val / 10000 := ⟨⟨(i 0).val / 10000, by omega⟩, rfl⟩
  have h := idx_facts7 t
  refine ⟨t, flush7_7 t, ?_⟩
  have hy : ((cfg7.win 7).blk t).view.emb (ix2 (⟨(i 0).val % 10000, Nat.mod_lt _ (by decide)⟩ : Fin 10000) (⟨(i 1).val, hi1⟩ : Fin 128)) = i := by
    funext a; apply Fin.ext
    match a with
    | ⟨0, _⟩ => show win7_7.index t (0 : Fin 2) * 10000 + 1 * ((i 0).val % 10000) = (i 0).val; rw [h.2.2.2.2.2.2.2.2.2.2.2.2.2.2.1, ht]; omega
    | ⟨1, _⟩ => show win7_7.index t (1 : Fin 2) * 128 + 1 * (i 1).val = (i 1).val; rw [h.2.2.2.2.2.2.2.2.2.2.2.2.2.2.2.1]; omega
  have hm := ((cfg7.win 7).blk t).view.emb_mem_set (ix2 (⟨(i 0).val % 10000, Nat.mod_lt _ (by decide)⟩ : Fin 10000) (⟨(i 1).val, hi1⟩ : Fin 128))
  rwa [hy] at hm

theorem final7_7 (c : Dev nD) : (dat7 V c).arrAt 7 cfg7.N = G7_7 V c :=
  (dat7 V c).arrAt_eq_of_cover 7 (G7_7 V c) (fun t _ => flushed7_7_eq V c t) cover7_7

theorem sums7_8_last (c : Dev nD) (q : Fin 128) (t : Fin cfg7.N) (h9 : t.val = 9) :
    sums1 k1_pay1 k1_pay3 (res7 V c) t.val t.isLt (ix2 (0 : Fin 1) q) = csum7 V c q := by
  unfold csum7 colSum
  exact sums1_last (φ := fun x => x) pay3_apply1 pay1_apply1 (res7 V c) (fun r => L7 V c r q) q
    (fun t p => by rw [res7_apply]; unfold ext0 row7; rw [dif_pos]) t h9
theorem sums7_9_last (c : Dev nD) (q : Fin 128) (t : Fin cfg7.N) (h9 : t.val = 9) :
    sums1 k1_pay2 k1_pay4 (res7 V c) t.val t.isLt (ix2 (0 : Fin 1) q) = csq7 V c q := by
  unfold csq7 colSum
  exact sums1_last (φ := fun x => x * x) pay4_apply1 pay2_apply1 (res7 V c) (fun r => L7 V c r q * L7 V c r q) q
    (fun t p => by rw [res7_apply]; unfold ext0 row7; rw [dif_pos]) t h9

theorem G7_8_apply (c : Dev nD) (i : S1x128.Idx) (q : Fin 128) (hi : (i 1).val = q.val) : G7_8 V c i = csum7 V c q :=
  congrArg (csum7 V c) (Fin.ext hi)

theorem flushed7_8_eq (c : Dev nD) (t : Fin cfg7.N) (hf : (cfg7.win 8).flush t = true) :
    (dat7 V c).flushed 8 t = ((cfg7.win 8).blk t).view.read (Elt Ideal) (G7_8 V c) := by
  have hN : cfg7.N = 10 := N_7
  have h9 : t.val = 9 := by have := (flush7_8 t).mp hf; have := t.isLt; omega
  have h := idx_facts7 t
  show (cfg7.win 8).cut (grid7.coords t) ((dat7 V c).after 8 t) = _
  funext j
  obtain ⟨u, q, rfl⟩ : ∃ (u : Fin 1) (q : Fin 128), j = ix2 u q := ⟨j 0, j 1, eq_ix2 j⟩
  obtain rfl : u = 0 := Subsingleton.elim _ _
  rw [View.read_apply]
  have e : (dat7 V c).after 8 t = sums1 k1_pay1 k1_pay3 (res7 V c) t.val t.isLt := by dsimp only [dat7]
  refine (congrFun e (ix2 (0 : Fin 1) q)).trans ?_
  refine (sums7_8_last V c q t h9).trans ?_
  show csum7 V c q = G7_8 V c (((cfg7.win 8).blk t).view.emb (ix2 (0 : Fin 1) q))
  exact (G7_8_apply V c _ q (show win7_8.index t (1 : Fin 2) * 128 + 1 * q.val = q.val by rw [h.2.2.2.2.2.2.2.2.2.2.2.2.2.2.2.2.2.1]; omega)).symm

theorem cover7_8 (i : S1x128.Idx) : ∃ t : Fin cfg7.N, (cfg7.win 8).flush t = true ∧ i ∈ ((cfg7.win 8).blk t).view.set := by
  have h := idx_facts7 t7_9
  have hi0 : (i 0).val < 1 := (i 0).isLt
  have hi1 : (i 1).val < 128 := (i 1).isLt
  refine ⟨t7_9, (flush7_8 t7_9).mpr rfl, ?_⟩
  have hy : ((cfg7.win 8).blk t7_9).view.emb (ix2 (0 : Fin 1) (⟨(i 1).val, hi1⟩ : Fin 128)) = i := by
    funext a; apply Fin.ext
    match a with
    | ⟨0, _⟩ => show win7_8.index t7_9 (0 : Fin 2) * 1 + 1 * 0 = (i 0).val; rw [h.2.2.2.2.2.2.2.2.2.2.2.2.2.2.2.2.1]; omega
    | ⟨1, _⟩ => show win7_8.index t7_9 (1 : Fin 2) * 128 + 1 * (i 1).val = (i 1).val; rw [h.2.2.2.2.2.2.2.2.2.2.2.2.2.2.2.2.2.1]; omega
  have hm := ((cfg7.win 8).blk t7_9).view.emb_mem_set (ix2 (0 : Fin 1) (⟨(i 1).val, hi1⟩ : Fin 128))
  rwa [hy] at hm

theorem final7_8 (c : Dev nD) : (dat7 V c).arrAt 8 cfg7.N = G7_8 V c :=
  (dat7 V c).arrAt_eq_of_cover 8 (G7_8 V c) (flushed7_8_eq V c) cover7_8

theorem G7_9_apply (c : Dev nD) (i : S1x128.Idx) (q : Fin 128) (hi : (i 1).val = q.val) : G7_9 V c i = csq7 V c q :=
  congrArg (csq7 V c) (Fin.ext hi)

theorem flushed7_9_eq (c : Dev nD) (t : Fin cfg7.N) (hf : (cfg7.win 9).flush t = true) :
    (dat7 V c).flushed 9 t = ((cfg7.win 9).blk t).view.read (Elt Ideal) (G7_9 V c) := by
  have hN : cfg7.N = 10 := N_7
  have h9 : t.val = 9 := by have := (flush7_9 t).mp hf; have := t.isLt; omega
  have h := idx_facts7 t
  show (cfg7.win 9).cut (grid7.coords t) ((dat7 V c).after 9 t) = _
  funext j
  obtain ⟨u, q, rfl⟩ : ∃ (u : Fin 1) (q : Fin 128), j = ix2 u q := ⟨j 0, j 1, eq_ix2 j⟩
  obtain rfl : u = 0 := Subsingleton.elim _ _
  rw [View.read_apply]
  have e : (dat7 V c).after 9 t = sums1 k1_pay2 k1_pay4 (res7 V c) t.val t.isLt := by dsimp only [dat7]
  refine (congrFun e (ix2 (0 : Fin 1) q)).trans ?_
  refine (sums7_9_last V c q t h9).trans ?_
  show csq7 V c q = G7_9 V c (((cfg7.win 9).blk t).view.emb (ix2 (0 : Fin 1) q))
  exact (G7_9_apply V c _ q (show win7_9.index t (1 : Fin 2) * 128 + 1 * q.val = q.val by rw [h.2.2.2.2.2.2.2.2.2.2.2.2.2.2.2.2.2.2.2]; omega)).symm

theorem cover7_9 (i : S1x128.Idx) : ∃ t : Fin cfg7.N, (cfg7.win 9).flush t = true ∧ i ∈ ((cfg7.win 9).blk t).view.set := by
  have h := idx_facts7 t7_9
  have hi0 : (i 0).val < 1 := (i 0).isLt
  have hi1 : (i 1).val < 128 := (i 1).isLt
  refine ⟨t7_9, (flush7_9 t7_9).mpr rfl, ?_⟩
  have hy : ((cfg7.win 9).blk t7_9).view.emb (ix2 (0 : Fin 1) (⟨(i 1).val, hi1⟩ : Fin 128)) = i := by
    funext a; apply Fin.ext
    match a with
    | ⟨0, _⟩ => show win7_9.index t7_9 (0 : Fin 2) * 1 + 1 * 0 = (i 0).val; rw [h.2.2.2.2.2.2.2.2.2.2.2.2.2.2.2.2.2.2.1]; omega
    | ⟨1, _⟩ => show win7_9.index t7_9 (1 : Fin 2) * 128 + 1 * (i 1).val = (i 1).val; rw [h.2.2.2.2.2.2.2.2.2.2.2.2.2.2.2.2.2.2.2]; omega
  have hm := ((cfg7.win 9).blk t7_9).view.emb_mem_set (ix2 (0 : Fin 1) (⟨(i 1).val, hi1⟩ : Fin 128))
  rwa [hy] at hm

theorem final7_9 (c : Dev nD) : (dat7 V c).arrAt 9 cfg7.N = G7_9 V c :=
  (dat7 V c).arrAt_eq_of_cover 9 (G7_9 V c) (flushed7_9_eq V c) cover7_9

theorem z_val7 (c : Dev nD) : toMat ((dat7 V c).arrAt 7 cfg7.N : S100000x128.Idx → EReal) = lin (A7 V c) (Wt7 V c) (bs7 V c) := by
  rw [final7_7]
theorem sum_val7 (c : Dev nD) : toRow1 ((dat7 V c).arrAt 8 cfg7.N : S1x128.Idx → EReal) = colSum (lin (A7 V c) (Wt7 V c) (bs7 V c)) := by
  rw [final7_8]
  funext q
  show csum7 V c q = _
  unfold csum7
  rfl
theorem sumsq_val7 (c : Dev nD) : toRow1 ((dat7 V c).arrAt 9 cfg7.N : S1x128.Idx → EReal)
    = colSum (fun i j => lin (A7 V c) (Wt7 V c) (bs7 V c) i j * lin (A7 V c) (Wt7 V c) (bs7 V c) i j) := by
  rw [final7_9]
  funext q
  show csq7 V c q = _
  unfold csq7
  rfl

end Val

end Cert.KernelIdeal.Hand

end
-- ==== Proof.KI.R8Val.lean ====
import proofs.«105940_j32358283608240_1_alg».proof.Proof.KI.R8
import proofs.«105940_j32358283608240_1_alg».proof.Proof.KI.R2Val

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.Spec

variable (V : (c : Dev nD) → (b : Ref sig .tc) → Buf (Elt Ideal) ((c : Thread nD τ).loc b))

abbrev Z8 (c : Dev nD) : Mat 100000 128 := toMat (V c (Pipeline.arrRef spec8 0) : S100000x128.Idx → EReal)
abbrev mu8 (c : Dev nD) : Row 128 := toRow1 (V c (Pipeline.arrRef spec8 1) : S1x128.Idx → EReal)
abbrev va8 (c : Dev nD) : Row 128 := toRow1 (V c (Pipeline.arrRef spec8 2) : S1x128.Idx → EReal)
abbrev ga8 (c : Dev nD) : Row 128 := toRow1 (V c (Pipeline.arrRef spec8 3) : S1x128.Idx → EReal)
abbrev be8 (c : Dev nD) : Row 128 := toRow1 (V c (Pipeline.arrRef spec8 4) : S1x128.Idx → EReal)

theorem h_val8 (c : Dev nD) : toMat ((dat8 V c).arrAt 5 cfg8.N : S100000x128.Idx → EReal)
    = normRelu (Z8 V c) (mu8 V c) (va8 V c) (ga8 V c) (be8 V c) := by
  rw [(dat8 V c).arrAt_eq_of_cover 5 (fun i => normRelu (Z8 V c) (mu8 V c) (va8 V c) (ga8 V c) (be8 V c) (i 0) (i 1))
    (fun t _ => by
      show (cfg8.win 5).cut (grid8.coords t) ((dat8 V c).after 5 t) = _
      rw [after8_5, out2_5_eq]
      exact flush2 (V c (Pipeline.arrRef spec8 0)) (V c (Pipeline.arrRef spec8 1)) (V c (Pipeline.arrRef spec8 2))
        (V c (Pipeline.arrRef spec8 3)) (V c (Pipeline.arrRef spec8 4)) t) covered2_5]
  rfl

end Cert.KernelIdeal.Hand

end
-- ==== Proof.KI.Layer2.lean ====
import proofs.«105940_j32358283608240_1_alg».proof.Proof.KI.Chain
import proofs.«105940_j32358283608240_1_alg».proof.Proof.KI.Layer0
import proofs.«105940_j32358283608240_1_alg».proof.Proof.KI.R6Val
import proofs.«105940_j32358283608240_1_alg».proof.Proof.KI.R7Val
import proofs.«105940_j32358283608240_1_alg».proof.Proof.KI.R8Val
import proofs.«105940_j32358283608240_1_alg».proof.Proof.Spec
import Idealize.ShloMosaic.Lib.IdealHost
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo
open Cert.Spec

theorem L2_st1 (V : Valuation τ sig (Elt Ideal)) :
    Stats (toRow1 (after hostOps7 V main_v129 : S1x128.Idx → EReal)) (toRow1 (after hostOps7 V main_v133 : S1x128.Idx → EReal))
      (toRow1 (V main_v127_1 : S1x128.Idx → EReal)) (toRow1 (V main_v127_2 : S1x128.Idx → EReal)) :=
  stats_at (by after_results) (by after_results)
theorem L2_st2 (V : Valuation τ sig (Elt Ideal)) :
    Stats (toRow1 (after hostOps8 V main_v147 : S1x128.Idx → EReal)) (toRow1 (after hostOps8 V main_v151 : S1x128.Idx → EReal))
      (toRow1 (V main_v145_1 : S1x128.Idx → EReal)) (toRow1 (V main_v145_2 : S1x128.Idx → EReal)) :=
  stats_at (by after_results) (by after_results)
variable (m : (ℓ : Loc nD τ sig) → Buf (Elt Ideal) ℓ)
def paramsK2 (c : Dev nD) : LayerParams :=
  ⟨toMat (W13 m c main_v123 : S128x128.Idx → EReal), toRow1 (W13 m c main_v126 : S1x128.Idx → EReal),
   toRow1 (W15 m c main_v136 : S1x128.Idx → EReal), toRow1 (W15 m c main_v139 : S1x128.Idx → EReal),
   toMat (W15 m c main_v141 : S128x128.Idx → EReal), toRow1 (W15 m c main_v144 : S1x128.Idx → EReal),
   toRow1 (W17 m c main_v154 : S1x128.Idx → EReal), toRow1 (W17 m c main_v157 : S1x128.Idx → EReal)⟩
theorem L2_act (c : Dev nD) : A7 (B15 m) c = actK (paramsK2 m c) (toMat (W13 m c main_v121 : S100000x128.Idx → EReal)) :=
  normRelu_of_parts (z := toMat (W15 m c main_v127_0 : S100000x128.Idx → EReal)) _
    (via (after_of_writes_sub hostOps7 _ hostOps7_writes (by decide)) (via (W14_arr m c 3) (z_val6 (B13 m) c)))
    (via (W14_arr m c 4) (sum_val6 (B13 m) c)) (via (W14_arr m c 5) (sumsq_val6 (B13 m) c)) (L2_st1 (W14 m c))
theorem layerK2 (c : Dev nD) :
    toMat (W18 m c main_v158 : S100000x128.Idx → EReal)
      = layerK (paramsK2 m c) (toMat (W13 m c main_v121 : S100000x128.Idx → EReal)) :=
  layerK_of_act (z2 := toMat (W17 m c main_v145_0 : S100000x128.Idx → EReal)) (L2_act m c)
    (via (after_of_writes_sub hostOps8 _ hostOps8_writes (by decide)) (via (W16_arr m c 7) (z_val7 (B15 m) c)))
    (via (W16_arr m c 8) (sum_val7 (B15 m) c)) (via (W16_arr m c 9) (sumsq_val7 (B15 m) c))
    (L2_st2 (W16 m c)) (via (W18_arr m c 5) (h_val8 (B17 m) c))
end Cert.KernelIdeal.Hand
end
-- ==== Proof.KI.R9Val.lean ====
import proofs.«105940_j32358283608240_1_alg».proof.Proof.KI.R9
import proofs.«105940_j32358283608240_1_alg».proof.Proof.KI.R0Val

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Spec
open scoped BigOperators

theorem idx_facts9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0 :=
  (by decide +kernel : ∀ t : Fin grid9.N, _)

theorem read_blk9_0 (c : Dev nD) (A : Buf (Elt Ideal) ((cfg9.win 0).arr.view.loc (c.tc : Thread nD τ))) (t : Fin cfg9.N)
    (p : Fin 10000) (k : Fin 128) :
    (((cfg9.win 0).blk t).view.read (Elt Ideal) A : S10000x128.Idx → EReal) (ix2 p k) = (A : S100000x128.Idx → EReal) (ix2 (row0 t p) k) := by
  obtain ⟨e0, e1, -⟩ := idx_facts9 t
  rw [View.read_apply]
  refine congrArg (A : S100000x128.Idx → EReal) ?_
  funext a; apply Fin.ext
  match a with
  | ⟨0, _⟩ => show win9_0.index t (0 : Fin 2) * 10000 + 1 * p.val = 10000 * t.val + p.val; rw [e0]; omega
  | ⟨1, _⟩ => show win9_0.index t (1 : Fin 2) * 128 + 1 * k.val = k.val; rw [e1]; omega

theorem read_blk9_1 (c : Dev nD) (A : Buf (Elt Ideal) ((cfg9.win 1).arr.view.loc (c.tc : Thread nD τ))) (t : Fin cfg9.N)
    (k : Fin 128) (q : Fin 128) :
    (((cfg9.win 1).blk t).view.read (Elt Ideal) A : S128x128.Idx → EReal) (ix2 k q) = (A : S128x128.Idx → EReal) (ix2 k q) := by
  obtain ⟨-, -, e0, e1, -⟩ := idx_facts9 t
  rw [View.read_apply]
  refine congrArg (A : S128x128.Idx → EReal) ?_
  funext a; apply Fin.ext
  match a with
  | ⟨0, _⟩ => show win9_1.index t (0 : Fin 2) * 128 + 1 * k.val = k.val; rw [e0]; omega
  | ⟨1, _⟩ => show win9_1.index t (1 : Fin 2) * 128 + 1 * q.val = q.val; rw [e1]; omega

theorem read_blk9_2 (c : Dev nD) (A : Buf (Elt Ideal) ((cfg9.win 2).arr.view.loc (c.tc : Thread nD τ))) (t : Fin cfg9.N)
    (r : Fin 1) (q : Fin 128) :
    (((cfg9.win 2).blk t).view.read (Elt Ideal) A : S1x128.Idx → EReal) (ix2 r q) = (A : S1x128.Idx → EReal) (ix2 r q) := by
  obtain ⟨-, -, -, -, e0, e1, -⟩ := idx_facts9 t
  rw [View.read_apply]
  refine congrArg (A : S1x128.Idx → EReal) ?_
  funext a; apply Fin.ext
  match a with
  | ⟨0, _⟩ => show win9_2.index t (0 : Fin 2) * 1 + 1 * r.val = r.val; rw [e0]; omega
  | ⟨1, _⟩ => show win9_2.index t (1 : Fin 2) * 128 + 1 * q.val = q.val; rw [e1]; omega

theorem read_blk9_3 (c : Dev nD) (A : Buf (Elt Ideal) ((cfg9.win 3).arr.view.loc (c.tc : Thread nD τ))) (t : Fin cfg9.N)
    (p : Fin 10000) (q : Fin 128) :
    (((cfg9.win 3).blk t).view.read (Elt Ideal) A : S10000x128.Idx → EReal) (ix2 p q) = (A : S100000x128.Idx → EReal) (ix2 (row0 t p) q) := by
  obtain ⟨-, -, -, -, -, -, e0, e1, -⟩ := idx_facts9 t
  rw [View.read_apply]
  refine congrArg (A : S100000x128.Idx → EReal) ?_
  funext a; apply Fin.ext
  match a with
  | ⟨0, _⟩ => show win9_3.index t (0 : Fin 2) * 10000 + 1 * p.val = 10000 * t.val + p.val; rw [e0]; omega
  | ⟨1, _⟩ => show win9_3.index t (1 : Fin 2) * 128 + 1 * q.val = q.val; rw [e1]; omega

theorem read_blk9_4 (c : Dev nD) (A : Buf (Elt Ideal) ((cfg9.win 4).arr.view.loc (c.tc : Thread nD τ))) (t : Fin cfg9.N)
    (r : Fin 1) (q : Fin 128) :
    (((cfg9.win 4).blk t).view.read (Elt Ideal) A : S1x128.Idx → EReal) (ix2 r q) = (A : S1x128.Idx → EReal) (ix2 r q) := by
  obtain ⟨-, -, -, -, -, -, -, -, e0, e1, -⟩ := idx_facts9 t
  rw [View.read_apply]
  refine congrArg (A : S1x128.Idx → EReal) ?_
  funext a; apply Fin.ext
  match a with
  | ⟨0, _⟩ => show win9_4.index t (0 : Fin 2) * 1 + 1 * r.val = r.val; rw [e0]; omega
  | ⟨1, _⟩ => show win9_4.index t (1 : Fin 2) * 128 + 1 * q.val = q.val; rw [e1]; omega
theorem read_blk9_5 (c : Dev nD) (A : Buf (Elt Ideal) ((cfg9.win 5).arr.view.loc (c.tc : Thread nD τ))) (t : Fin cfg9.N)
    (r : Fin 1) (q : Fin 128) :
    (((cfg9.win 5).blk t).view.read (Elt Ideal) A : S1x128.Idx → EReal) (ix2 r q) = (A : S1x128.Idx → EReal) (ix2 r q) := by
  obtain ⟨-, -, -, -, -, -, -, -, -, -, e0, e1⟩ := idx_facts9 t
  rw [View.read_apply]
  refine congrArg (A : S1x128.Idx → EReal) ?_
  funext a; apply Fin.ext
  match a with
  | ⟨0, _⟩ => show win9_5.index t (0 : Fin 2) * 1 + 1 * r.val = r.val; rw [e0]; omega
  | ⟨1, _⟩ => show win9_5.index t (1 : Fin 2) * 128 + 1 * q.val = q.val; rw [e1]; omega
theorem cover9_3 (i : S100000x128.Idx) :
    ∃ t : Fin cfg9.N, (cfg9.win 3).flush t = true ∧ i ∈ ((cfg9.win 3).blk t).view.set := by
  have hi0 : (i 0).val < 100000 := (i 0).isLt
  have hi1 : (i 1).val < 128 := (i 1).isLt
  refine ⟨ptOf0 (i 0), flush9_3 _, ?_⟩
  obtain ⟨-, -, -, -, -, -, e0, e1, -⟩ := idx_facts9 (ptOf0 (i 0))
  have hv : (ptOf0 (i 0)).val = (i 0).val / 10000 := rfl
  show i ∈ ((View.whole (Pipeline.arrRef spec9 3)).slice (win9_3.rect (ptOf0 (i 0)))).set
  rw [View.set_slice_whole, Rect.mem_set_unit]
  intro a
  match a with
  | ⟨0, _⟩ =>
    show win9_3.index (ptOf0 (i 0)) (0 : Fin 2) * 10000 ≤ (i 0).val ∧ (i 0).val < win9_3.index (ptOf0 (i 0)) (0 : Fin 2) * 10000 + 10000
    rw [e0, hv]; omega
  | ⟨1, _⟩ =>
    show win9_3.index (ptOf0 (i 0)) (1 : Fin 2) * 128 ≤ (i 1).val ∧ (i 1).val < win9_3.index (ptOf0 (i 0)) (1 : Fin 2) * 128 + 128
    rw [e1]; omega
theorem cover9_4 (i : S1x128.Idx) :
    ∃ t : Fin cfg9.N, (cfg9.win 4).flush t = true ∧ i ∈ ((cfg9.win 4).blk t).view.set := by
  have hi0 : (i 0).val < 1 := (i 0).isLt
  have hi1 : (i 1).val < 128 := (i 1).isLt
  refine ⟨last0, (flush9_4 last0).mpr rfl, ?_⟩
  obtain ⟨-, -, -, -, -, -, -, -, e0, e1, -⟩ := idx_facts9 last0
  show i ∈ ((View.whole (Pipeline.arrRef spec9 4)).slice (win9_4.rect last0)).set
  rw [View.set_slice_whole, Rect.mem_set_unit]
  intro a
  match a with
  | ⟨0, _⟩ =>
    show win9_4.index last0 (0 : Fin 2) * 1 ≤ (i 0).val ∧ (i 0).val < win9_4.index last0 (0 : Fin 2) * 1 + 1
    rw [e0]; omega
  | ⟨1, _⟩ =>
    show win9_4.index last0 (1 : Fin 2) * 128 ≤ (i 1).val ∧ (i 1).val < win9_4.index last0 (1 : Fin 2) * 128 + 128
    rw [e1]; omega
theorem cover9_5 (i : S1x128.Idx) :
    ∃ t : Fin cfg9.N, (cfg9.win 5).flush t = true ∧ i ∈ ((cfg9.win 5).blk t).view.set := by
  have hi0 : (i 0).val < 1 := (i 0).isLt
  have hi1 : (i 1).val < 128 := (i 1).isLt
  refine ⟨last0, (flush9_5 last0).mpr rfl, ?_⟩
  obtain ⟨-, -, -, -, -, -, -, -, -, -, e0, e1⟩ := idx_facts9 last0
  show i ∈ ((View.whole (Pipeline.arrRef spec9 5)).slice (win9_5.rect last0)).set
  rw [View.set_slice_whole, Rect.mem_set_unit]
  intro a
  match a with
  | ⟨0, _⟩ =>
    show win9_5.index last0 (0 : Fin 2) * 1 ≤ (i 0).val ∧ (i 0).val < win9_5.index last0 (0 : Fin 2) * 1 + 1
    rw [e0]; omega
  | ⟨1, _⟩ =>
    show win9_5.index last0 (1 : Fin 2) * 128 ≤ (i 1).val ∧ (i 1).val < win9_5.index last0 (1 : Fin 2) * 128 + 128
    rw [e1]; omega
variable (V : (c : Dev nD) → (b : Ref sig .tc) → Buf (Elt Ideal) ((c : Thread nD τ).loc b))

abbrev P9 (c : Dev nD) : Mat 100000 128 := toMat (V c (Pipeline.arrRef spec9 0) : S100000x128.Idx → EReal)
abbrev Wt9 (c : Dev nD) : Mat 128 128 := toMat (V c (Pipeline.arrRef spec9 1) : S128x128.Idx → EReal)
abbrev bs9 (c : Dev nD) : Row 128 := toRow1 (V c (Pipeline.arrRef spec9 2) : S1x128.Idx → EReal)

theorem xb9_apply (c : Dev nD) (t : Fin cfg9.N) (p : Fin 10000) (k : Fin 128) :
    (iblk9 V c 0 t : S10000x128.Idx → EReal) (ix2 p k) = P9 V c (row0 t p) k :=
  read_blk9_0 c (V c (Pipeline.arrRef spec9 0)) t p k
theorem wb9_apply (c : Dev nD) (t : Fin cfg9.N) (k : Fin 128) (q : Fin 128) :
    (iblk9 V c 1 t : S128x128.Idx → EReal) (ix2 k q) = Wt9 V c k q :=
  read_blk9_1 c (V c (Pipeline.arrRef spec9 1)) t k q
theorem bb9_apply (c : Dev nD) (t : Fin cfg9.N) (q : Fin 128) :
    (iblk9 V c 2 t : S1x128.Idx → EReal) (ix2 (0 : Fin 1) q) = bs9 V c q :=
  read_blk9_2 c (V c (Pipeline.arrRef spec9 2)) t 0 q

abbrev G9_3 (c : Dev nD) : S100000x128.Idx → EReal := fun i => lin (P9 V c) (Wt9 V c) (bs9 V c) (i 0) (i 1)

theorem flushed9_3 (c : Dev nD) (t : Fin cfg9.N) :
    (dat9 V c).flushed 3 t = ((cfg9.win 3).blk t).view.read (Elt Ideal) (G9_3 V c) := by
  show (cfg9.win 3).cut (grid9.coords t) (k0_pay3 (iblk9 V c 0 t) (iblk9 V c 1 t) (iblk9 V c 2 t)) = _
  funext j
  obtain ⟨p, q, rfl⟩ : ∃ (p : Fin 10000) (q : Fin 128), j = ix2 p q := ⟨j 0, j 1, eq_ix2 j⟩
  refine (z_blk0 (iblk9 V c 0) (iblk9 V c 1) (iblk9 V c 2) _ _ _ (xb9_apply V c) (wb9_apply V c) (bb9_apply V c) t p q).trans ?_
  exact (read_blk9_3 c (G9_3 V c) t p q).symm

theorem z_arr9 (c : Dev nD) : (dat9 V c).arrAt 3 cfg9.N = G9_3 V c :=
  (dat9 V c).arrAt_eq_of_cover 3 (G9_3 V c) (fun t _ => flushed9_3 V c t) cover9_3

theorem z_val9 (c : Dev nD) :
    toMat ((dat9 V c).arrAt 3 cfg9.N : S100000x128.Idx → EReal) = lin (P9 V c) (Wt9 V c) (bs9 V c) := by
  rw [z_arr9]

abbrev G9_4 (c : Dev nD) : S1x128.Idx → EReal := fun i => colSum (lin (P9 V c) (Wt9 V c) (bs9 V c)) (i 1)
abbrev G9_5 (c : Dev nD) : S1x128.Idx → EReal :=
  fun i => colSum (fun a b => lin (P9 V c) (Wt9 V c) (bs9 V c) a b * lin (P9 V c) (Wt9 V c) (bs9 V c) a b) (i 1)

theorem flushed9_4 (c : Dev nD) (t : Fin cfg9.N) (hf : (cfg9.win 4).flush t = true) :
    (dat9 V c).flushed 4 t = ((cfg9.win 4).blk t).view.read (Elt Ideal) (G9_4 V c) := by
  have hN : cfg9.N = 10 := N_9
  have h9 : t.val = 9 := by have := (flush9_4 t).mp hf; have := t.isLt; omega
  obtain rfl : t = last0 := Fin.ext h9
  show (cfg9.win 4).cut (grid9.coords last0) (out0_4 (iblk9 V c 0) (iblk9 V c 1) (iblk9 V c 2) last0.val last0.isLt) = _
  funext j
  obtain ⟨r, q, rfl⟩ : ∃ (r : Fin 1) (q : Fin 128), j = ix2 r q := ⟨j 0, j 1, eq_ix2 j⟩
  obtain rfl : r = 0 := Subsingleton.elim _ _
  refine (out0_4_last (iblk9 V c 0) (iblk9 V c 1) (iblk9 V c 2) _ _ _ (xb9_apply V c) (wb9_apply V c) (bb9_apply V c) q last0.isLt).trans ?_
  exact (read_blk9_4 c (G9_4 V c) last0 0 q).symm
theorem flushed9_5 (c : Dev nD) (t : Fin cfg9.N) (hf : (cfg9.win 5).flush t = true) :
    (dat9 V c).flushed 5 t = ((cfg9.win 5).blk t).view.read (Elt Ideal) (G9_5 V c) := by
  have hN : cfg9.N = 10 := N_9
  have h9 : t.val = 9 := by have := (flush9_5 t).mp hf; have := t.isLt; omega
  obtain rfl : t = last0 := Fin.ext h9
  show (cfg9.win 5).cut (grid9.coords last0) (out0_5 (iblk9 V c 0) (iblk9 V c 1) (iblk9 V c 2) last0.val last0.isLt) = _
  funext j
  obtain ⟨r, q, rfl⟩ : ∃ (r : Fin 1) (q : Fin 128), j = ix2 r q := ⟨j 0, j 1, eq_ix2 j⟩
  obtain rfl : r = 0 := Subsingleton.elim _ _
  refine (out0_5_last (iblk9 V c 0) (iblk9 V c 1) (iblk9 V c 2) _ _ _ (xb9_apply V c) (wb9_apply V c) (bb9_apply V c) q last0.isLt).trans ?_
  exact (read_blk9_5 c (G9_5 V c) last0 0 q).symm

theorem sum_arr9 (c : Dev nD) : (dat9 V c).arrAt 4 cfg9.N = G9_4 V c :=
  (dat9 V c).arrAt_eq_of_cover 4 (G9_4 V c) (flushed9_4 V c) cover9_4
theorem sumsq_arr9 (c : Dev nD) : (dat9 V c).arrAt 5 cfg9.N = G9_5 V c :=
  (dat9 V c).arrAt_eq_of_cover 5 (G9_5 V c) (flushed9_5 V c) cover9_5

theorem sum_val9 (c : Dev nD) :
    toRow1 ((dat9 V c).arrAt 4 cfg9.N : S1x128.Idx → EReal) = colSum (lin (P9 V c) (Wt9 V c) (bs9 V c)) := by
  rw [sum_arr9]
theorem sumsq_val9 (c : Dev nD) :
    toRow1 ((dat9 V c).arrAt 5 cfg9.N : S1x128.Idx → EReal)
      = colSum (fun i j => lin (P9 V c) (Wt9 V c) (bs9 V c) i j * lin (P9 V c) (Wt9 V c) (bs9 V c) i j) := by
  rw [sumsq_arr9]

end Cert.KernelIdeal.Hand

end
-- ==== Proof.KI.R10Val.lean ====
import proofs.«105940_j32358283608240_1_alg».proof.Proof.KI.R10
import proofs.«105940_j32358283608240_1_alg».proof.Proof.KI.R1Val

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Spec
open scoped BigOperators

section Val
variable (V : (c : Dev nD) → (b : Ref sig .tc) → Buf (Elt Ideal) ((c : Thread nD τ).loc b))

abbrev Z10 (c : Dev nD) : Mat 100000 128 := toMat (V c (Pipeline.arrRef spec10 0) : S100000x128.Idx → EReal)
abbrev mu10 (c : Dev nD) : Row 128 := toRow1 (V c (Pipeline.arrRef spec10 1) : S1x128.Idx → EReal)
abbrev va10 (c : Dev nD) : Row 128 := toRow1 (V c (Pipeline.arrRef spec10 2) : S1x128.Idx → EReal)
abbrev ga10 (c : Dev nD) : Row 128 := toRow1 (V c (Pipeline.arrRef spec10 3) : S1x128.Idx → EReal)
abbrev be10 (c : Dev nD) : Row 128 := toRow1 (V c (Pipeline.arrRef spec10 4) : S1x128.Idx → EReal)
abbrev Wt10 (c : Dev nD) : Mat 128 128 := toMat (V c (Pipeline.arrRef spec10 5) : S128x128.Idx → EReal)
abbrev bs10 (c : Dev nD) : Row 128 := toRow1 (V c (Pipeline.arrRef spec10 6) : S1x128.Idx → EReal)
abbrev A10 (c : Dev nD) : Mat 100000 128 := normRelu (Z10 V c) (mu10 V c) (va10 V c) (ga10 V c) (be10 V c)

theorem idx_facts10 : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0
    ∧ win10_6.index t (0 : Fin 2) = 0 ∧ win10_6.index t (1 : Fin 2) = 0
    ∧ win10_7.index t (0 : Fin 2) = t.val ∧ win10_7.index t (1 : Fin 2) = 0
    ∧ win10_8.index t (0 : Fin 2) = 0 ∧ win10_8.index t (1 : Fin 2) = 0
    ∧ win10_9.index t (0 : Fin 2) = 0 ∧ win10_9.index t (1 : Fin 2) = 0 :=
  (by decide +kernel : ∀ t : Fin grid10.N, _)

def row10 (t : Fin cfg10.N) (p : Fin 10000) : Fin 100000 :=
  ⟨10000 * t.val + p.val, by have := lt_of_lt_of_eq t.isLt (show cfg10.N = 10 from N_10); have := p.isLt; omega⟩

theorem iblk10_0_apply (c : Dev nD) (t : Fin cfg10.N) (p : Fin 10000) (k : Fin 128) :
    iblk10 V c 0 t (ix2 p k) = Z10 V c (row10 t p) k := by
  have h := idx_facts10 t
  unfold iblk10
  rw [View.read_apply]
  show V c (Pipeline.arrRef spec10 0) _ = V c (Pipeline.arrRef spec10 0) _
  refine congrArg _ (funext fun a => Fin.ext ?_)
  match a with
  | ⟨0, _⟩ => show win10_0.index t (0 : Fin 2) * 10000 + 1 * p.val = 10000 * t.val + p.val; rw [h.1]; omega
  | ⟨1, _⟩ => show win10_0.index t (1 : Fin 2) * 128 + 1 * k.val = k.val; rw [h.2.1]; omega

theorem iblk10_1_apply (c : Dev nD) (t : Fin cfg10.N) (k : Fin 128) :
    iblk10 V c 1 t (ix2 0 k) = mu10 V c k := by
  have h := idx_facts10 t
  unfold iblk10
  rw [View.read_apply]
  show V c (Pipeline.arrRef spec10 1) _ = V c (Pipeline.arrRef spec10 1) _
  refine congrArg _ (funext fun a => Fin.ext ?_)
  match a with
  | ⟨0, _⟩ => show win10_1.index t (0 : Fin 2) * 1 + 1 * 0 = 0; rw [h.2.2.1]
  | ⟨1, _⟩ => show win10_1.index t (1 : Fin 2) * 128 + 1 * k.val = k.val; rw [h.2.2.2.1]; omega
theorem iblk10_2_apply (c : Dev nD) (t : Fin cfg10.N) (k : Fin 128) :
    iblk10 V c 2 t (ix2 0 k) = va10 V c k := by
  have h := idx_facts10 t
  unfold iblk10
  rw [View.read_apply]
  show V c (Pipeline.arrRef spec10 2) _ = V c (Pipeline.arrRef spec10 2) _
  refine congrArg _ (funext fun a => Fin.ext ?_)
  match a with
  | ⟨0, _⟩ => show win10_2.index t (0 : Fin 2) * 1 + 1 * 0 = 0; rw [h.2.2.2.2.1]
  | ⟨1, _⟩ => show win10_2.index t (1 : Fin 2) * 128 + 1 * k.val = k.val; rw [h.2.2.2.2.2.1]; omega
theorem iblk10_3_apply (c : Dev nD) (t : Fin cfg10.N) (k : Fin 128) :
    iblk10 V c 3 t (ix2 0 k) = ga10 V c k := by
  have h := idx_facts10 t
  unfold iblk10
  rw [View.read_apply]
  show V c (Pipeline.arrRef spec10 3) _ = V c (Pipeline.arrRef spec10 3) _
  refine congrArg _ (funext fun a => Fin.ext ?_)
  match a with
  | ⟨0, _⟩ => show win10_3.index t (0 : Fin 2) * 1 + 1 * 0 = 0; rw [h.2.2.2.2.2.2.1]
  | ⟨1, _⟩ => show win10_3.index t (1 : Fin 2) * 128 + 1 * k.val = k.val; rw [h.2.2.2.2.2.2.2.1]; omega
theorem iblk10_4_apply (c : Dev nD) (t : Fin cfg10.N) (k : Fin 128) :
    iblk10 V c 4 t (ix2 0 k) = be10 V c k := by
  have h := idx_facts10 t
  unfold iblk10
  rw [View.read_apply]
  show V c (Pipeline.arrRef spec10 4) _ = V c (Pipeline.arrRef spec10 4) _
  refine congrArg _ (funext fun a => Fin.ext ?_)
  match a with
  | ⟨0, _⟩ => show win10_4.index t (0 : Fin 2) * 1 + 1 * 0 = 0; rw [h.2.2.2.2.2.2.2.2.1]
  | ⟨1, _⟩ => show win10_4.index t (1 : Fin 2) * 128 + 1 * k.val = k.val; rw [h.2.2.2.2.2.2.2.2.2.1]; omega
theorem iblk10_6_apply (c : Dev nD) (t : Fin cfg10.N) (k : Fin 128) :
    iblk10 V c 6 t (ix2 0 k) = bs10 V c k := by
  have h := idx_facts10 t
  unfold iblk10
  rw [View.read_apply]
  show V c (Pipeline.arrRef spec10 6) _ = V c (Pipeline.arrRef spec10 6) _
  refine congrArg _ (funext fun a => Fin.ext ?_)
  match a with
  | ⟨0, _⟩ => show win10_6.index t (0 : Fin 2) * 1 + 1 * 0 = 0; rw [h.2.2.2.2.2.2.2.2.2.2.2.2.1]
  | ⟨1, _⟩ => show win10_6.index t (1 : Fin 2) * 128 + 1 * k.val = k.val; rw [h.2.2.2.2.2.2.2.2.2.2.2.2.2.1]; omega
theorem iblk10_5_apply (c : Dev nD) (t : Fin cfg10.N) (k q : Fin 128) :
    iblk10 V c 5 t (ix2 k q) = Wt10 V c k q := by
  have h := idx_facts10 t
  unfold iblk10
  rw [View.read_apply]
  show V c (Pipeline.arrRef spec10 5) _ = V c (Pipeline.arrRef spec10 5) _
  refine congrArg _ (funext fun a => Fin.ext ?_)
  match a with
  | ⟨0, _⟩ => show win10_5.index t (0 : Fin 2) * 128 + 1 * k.val = k.val; rw [h.2.2.2.2.2.2.2.2.2.2.1]; omega
  | ⟨1, _⟩ => show win10_5.index t (1 : Fin 2) * 128 + 1 * q.val = q.val; rw [h.2.2.2.2.2.2.2.2.2.2.2.1]; omega

abbrev L10 (c : Dev nD) : Mat 100000 128 := lin (A10 V c) (Wt10 V c) (bs10 V c)

theorem res10_apply (c : Dev nD) (t : Fin cfg10.N) (p : Fin 10000) (q : Fin 128) :
    res10 V c t (ix2 p q) = L10 V c (row10 t p) q := by
  unfold res10
  refine (pay5_apply1 (iblk10 V c 0 t) (iblk10 V c 2 t) (iblk10 V c 1 t) (iblk10 V c 3 t) (iblk10 V c 4 t) (iblk10 V c 5 t) (iblk10 V c 6 t) p q).trans ?_
  simp only [iblk10_0_apply V c t, iblk10_1_apply V c t, iblk10_2_apply V c t, iblk10_3_apply V c t, iblk10_4_apply V c t,
    iblk10_5_apply V c t, iblk10_6_apply V c t]
  rfl

@[irreducible] def csum10 (c : Dev nD) (q : Fin 128) : EReal := colSum (L10 V c) q
@[irreducible] def csq10 (c : Dev nD) (q : Fin 128) : EReal := colSum (fun r j => L10 V c r j * L10 V c r j) q

abbrev G10_7 (c : Dev nD) : S100000x128.Idx → EReal := fun i => L10 V c (i 0) (i 1)
abbrev G10_8 (c : Dev nD) : S1x128.Idx → EReal := fun i => csum10 V c (i 1)
abbrev G10_9 (c : Dev nD) : S1x128.Idx → EReal := fun i => csq10 V c (i 1)

theorem flushed10_7_eq (c : Dev nD) (t : Fin cfg10.N) :
    (dat10 V c).flushed 7 t = ((cfg10.win 7).blk t).view.read (Elt Ideal) (G10_7 V c) := by
  have h := idx_facts10 t
  show (cfg10.win 7).cut (grid10.coords t) ((dat10 V c).after 7 t) = _
  funext j
  obtain ⟨p, q, rfl⟩ : ∃ (p : Fin 10000) (q : Fin 128), j = ix2 p q := ⟨j 0, j 1, eq_ix2 j⟩
  rw [View.read_apply]
  have e : (dat10 V c).after 7 t = res10 V c t := by dsimp only [dat10]
  refine (congrFun e (ix2 p q)).trans ?_
  refine (res10_apply V c t p q).trans ?_
  show L10 V c (row10 t p) q = L10 V c ((((cfg10.win 7).blk t).view.emb (ix2 p q)) 0) ((((cfg10.win 7).blk t).view.emb (ix2 p q)) 1)
  refine congrArg₂ (L10 V c) (Fin.ext ?_) (Fin.ext ?_)
  · show 10000 * t.val + p.val = win10_7.index t (0 : Fin 2) * 10000 + 1 * p.val
    rw [h.2.2.2.2.2.2.2.2.2.2.2.2.2.2.1]; omega
  · show q.val = win10_7.index t (1 : Fin 2) * 128 + 1 * q.val
    rw [h.2.2.2.2.2.2.2.2.2.2.2.2.2.2.2.1]; omega

theorem cover10_7 (i : S100000x128.Idx) : ∃ t : Fin cfg10.N, (cfg10.win 7).flush t = true ∧ i ∈ ((cfg10.win 7).blk t).view.set := by
  have hi0 : (i 0).val < 100000 := (i 0).isLt
  have hi1 : (i 1).val < 128 := (i 1).isLt
  have hN : cfg10.N = 10 := N_10
  obtain ⟨t, ht⟩ : ∃ t : Fin cfg10.N, t.val = (i 0).val / 10000 := ⟨⟨(i 0).val / 10000, by omega⟩, rfl⟩
  have h := idx_facts10 t
  refine ⟨t, flush10_7 t, ?_⟩
  have hy : ((cfg10.win 7).blk t).view.emb (ix2 (⟨(i 0).val % 10000, Nat.mod_lt _ (by decide)⟩ : Fin 10000) (⟨(i 1).val, hi1⟩ : Fin 128)) = i := by
    funext a; apply Fin.ext
    match a with
    | ⟨0, _⟩ => show win10_7.index t (0 : Fin 2) * 10000 + 1 * ((i 0).val % 10000) = (i 0).val; rw [h.2.2.2.2.2.2.2.2.2.2.2.2.2.2.1, ht]; omega
    | ⟨1, _⟩ => show win10_7.index t (1 : Fin 2) * 128 + 1 * (i 1).val = (i 1).val; rw [h.2.2.2.2.2.2.2.2.2.2.2.2.2.2.2.1]; omega
  have hm := ((cfg10.win 7).blk t).view.emb_mem_set (ix2 (⟨(i 0).val % 10000, Nat.mod_lt _ (by decide)⟩ : Fin 10000) (⟨(i 1).val, hi1⟩ : Fin 128))
  rwa [hy] at hm

theorem final10_7 (c : Dev nD) : (dat10 V c).arrAt 7 cfg10.N = G10_7 V c :=
  (dat10 V c).arrAt_eq_of_cover 7 (G10_7 V c) (fun t _ => flushed10_7_eq V c t) cover10_7

theorem sums10_8_last (c : Dev nD) (q : Fin 128) (t : Fin cfg10.N) (h9 : t.val = 9) :
    sums1 k1_pay1 k1_pay3 (res10 V c) t.val t.isLt (ix2 (0 : Fin 1) q) = csum10 V c q := by
  unfold csum10 colSum
  exact sums1_last (φ := fun x => x) pay3_apply1 pay1_apply1 (res10 V c) (fun r => L10 V c r q) q
    (fun t p => by rw [res10_apply]; unfold ext0 row10; rw [dif_pos]) t h9
theorem sums10_9_last (c : Dev nD) (q : Fin 128) (t : Fin cfg10.N) (h9 : t.val = 9) :
    sums1 k1_pay2 k1_pay4 (res10 V c) t.val t.isLt (ix2 (0 : Fin 1) q) = csq10 V c q := by
  unfold csq10 colSum
  exact sums1_last (φ := fun x => x * x) pay4_apply1 pay2_apply1 (res10 V c) (fun r => L10 V c r q * L10 V c r q) q
    (fun t p => by rw [res10_apply]; unfold ext0 row10; rw [dif_pos]) t h9

theorem G10_8_apply (c : Dev nD) (i : S1x128.Idx) (q : Fin 128) (hi : (i 1).val = q.val) : G10_8 V c i = csum10 V c q :=
  congrArg (csum10 V c) (Fin.ext hi)

theorem flushed10_8_eq (c : Dev nD) (t : Fin cfg10.N) (hf : (cfg10.win 8).flush t = true) :
    (dat10 V c).flushed 8 t = ((cfg10.win 8).blk t).view.read (Elt Ideal) (G10_8 V c) := by
  have hN : cfg10.N = 10 := N_10
  have h9 : t.val = 9 := by have := (flush10_8 t).mp hf; have := t.isLt; omega
  have h := idx_facts10 t
  show (cfg10.win 8).cut (grid10.coords t) ((dat10 V c).after 8 t) = _
  funext j
  obtain ⟨u, q, rfl⟩ : ∃ (u : Fin 1) (q : Fin 128), j = ix2 u q := ⟨j 0, j 1, eq_ix2 j⟩
  obtain rfl : u = 0 := Subsingleton.elim _ _
  rw [View.read_apply]
  have e : (dat10 V c).after 8 t = sums1 k1_pay1 k1_pay3 (res10 V c) t.val t.isLt := by dsimp only [dat10]
  refine (congrFun e (ix2 (0 : Fin 1) q)).trans ?_
  refine (sums10_8_last V c q t h9).trans ?_
  show csum10 V c q = G10_8 V c (((cfg10.win 8).blk t).view.emb (ix2 (0 : Fin 1) q))
  exact (G10_8_apply V c _ q (show win10_8.index t (1 : Fin 2) * 128 + 1 * q.val = q.val by rw [h.2.2.2.2.2.2.2.2.2.2.2.2.2.2.2.2.2.1]; omega)).symm

theorem cover10_8 (i : S1x128.Idx) : ∃ t : Fin cfg10.N, (cfg10.win 8).flush t = true ∧ i ∈ ((cfg10.win 8).blk t).view.set := by
  have h := idx_facts10 t10_9
  have hi0 : (i 0).val < 1 := (i 0).isLt
  have hi1 : (i 1).val < 128 := (i 1).isLt
  refine ⟨t10_9, (flush10_8 t10_9).mpr rfl, ?_⟩
  have hy : ((cfg10.win 8).blk t10_9).view.emb (ix2 (0 : Fin 1) (⟨(i 1).val, hi1⟩ : Fin 128)) = i := by
    funext a; apply Fin.ext
    match a with
    | ⟨0, _⟩ => show win10_8.index t10_9 (0 : Fin 2) * 1 + 1 * 0 = (i 0).val; rw [h.2.2.2.2.2.2.2.2.2.2.2.2.2.2.2.2.1]; omega
    | ⟨1, _⟩ => show win10_8.index t10_9 (1 : Fin 2) * 128 + 1 * (i 1).val = (i 1).val; rw [h.2.2.2.2.2.2.2.2.2.2.2.2.2.2.2.2.2.1]; omega
  have hm := ((cfg10.win 8).blk t10_9).view.emb_mem_set (ix2 (0 : Fin 1) (⟨(i 1).val, hi1⟩ : Fin 128))
  rwa [hy] at hm

theorem final10_8 (c : Dev nD) : (dat10 V c).arrAt 8 cfg10.N = G10_8 V c :=
  (dat10 V c).arrAt_eq_of_cover 8 (G10_8 V c) (flushed10_8_eq V c) cover10_8

theorem G10_9_apply (c : Dev nD) (i : S1x128.Idx) (q : Fin 128) (hi : (i 1).val = q.val) : G10_9 V c i = csq10 V c q :=
  congrArg (csq10 V c) (Fin.ext hi)

theorem flushed10_9_eq (c : Dev nD) (t : Fin cfg10.N) (hf : (cfg10.win 9).flush t = true) :
    (dat10 V c).flushed 9 t = ((cfg10.win 9).blk t).view.read (Elt Ideal) (G10_9 V c) := by
  have hN : cfg10.N = 10 := N_10
  have h9 : t.val = 9 := by have := (flush10_9 t).mp hf; have := t.isLt; omega
  have h := idx_facts10 t
  show (cfg10.win 9).cut (grid10.coords t) ((dat10 V c).after 9 t) = _
  funext j
  obtain ⟨u, q, rfl⟩ : ∃ (u : Fin 1) (q : Fin 128), j = ix2 u q := ⟨j 0, j 1, eq_ix2 j⟩
  obtain rfl : u = 0 := Subsingleton.elim _ _
  rw [View.read_apply]
  have e : (dat10 V c).after 9 t = sums1 k1_pay2 k1_pay4 (res10 V c) t.val t.isLt := by dsimp only [dat10]
  refine (congrFun e (ix2 (0 : Fin 1) q)).trans ?_
  refine (sums10_9_last V c q t h9).trans ?_
  show csq10 V c q = G10_9 V c (((cfg10.win 9).blk t).view.emb (ix2 (0 : Fin 1) q))
  exact (G10_9_apply V c _ q (show win10_9.index t (1 : Fin 2) * 128 + 1 * q.val = q.val by rw [h.2.2.2.2.2.2.2.2.2.2.2.2.2.2.2.2.2.2.2]; omega)).symm

theorem cover10_9 (i : S1x128.Idx) : ∃ t : Fin cfg10.N, (cfg10.win 9).flush t = true ∧ i ∈ ((cfg10.win 9).blk t).view.set := by
  have h := idx_facts10 t10_9
  have hi0 : (i 0).val < 1 := (i 0).isLt
  have hi1 : (i 1).val < 128 := (i 1).isLt
  refine ⟨t10_9, (flush10_9 t10_9).mpr rfl, ?_⟩
  have hy : ((cfg10.win 9).blk t10_9).view.emb (ix2 (0 : Fin 1) (⟨(i 1).val, hi1⟩ : Fin 128)) = i := by
    funext a; apply Fin.ext
    match a with
    | ⟨0, _⟩ => show win10_9.index t10_9 (0 : Fin 2) * 1 + 1 * 0 = (i 0).val; rw [h.2.2.2.2.2.2.2.2.2.2.2.2.2.2.2.2.2.2.1]; omega
    | ⟨1, _⟩ => show win10_9.index t10_9 (1 : Fin 2) * 128 + 1 * (i 1).val = (i 1).val; rw [h.2.2.2.2.2.2.2.2.2.2.2.2.2.2.2.2.2.2.2]; omega
  have hm := ((cfg10.win 9).blk t10_9).view.emb_mem_set (ix2 (0 : Fin 1) (⟨(i 1).val, hi1⟩ : Fin 128))
  rwa [hy] at hm

theorem final10_9 (c : Dev nD) : (dat10 V c).arrAt 9 cfg10.N = G10_9 V c :=
  (dat10 V c).arrAt_eq_of_cover 9 (G10_9 V c) (flushed10_9_eq V c) cover10_9

theorem z_val10 (c : Dev nD) : toMat ((dat10 V c).arrAt 7 cfg10.N : S100000x128.Idx → EReal) = lin (A10 V c) (Wt10 V c) (bs10 V c) := by
  rw [final10_7]
theorem sum_val10 (c : Dev nD) : toRow1 ((dat10 V c).arrAt 8 cfg10.N : S1x128.Idx → EReal) = colSum (lin (A10 V c) (Wt10 V c) (bs10 V c)) := by
  rw [final10_8]
  funext q
  show csum10 V c q = _
  unfold csum10
  rfl
theorem sumsq_val10 (c : Dev nD) : toRow1 ((dat10 V c).arrAt 9 cfg10.N : S1x128.Idx → EReal)
    = colSum (fun i j => lin (A10 V c) (Wt10 V c) (bs10 V c) i j * lin (A10 V c) (Wt10 V c) (bs10 V c) i j) := by
  rw [final10_9]
  funext q
  show csq10 V c q = _
  unfold csq10
  rfl

end Val

end Cert.KernelIdeal.Hand

end
-- ==== Proof.KI.R11Val.lean ====
import proofs.«105940_j32358283608240_1_alg».proof.Proof.KI.R11
import proofs.«105940_j32358283608240_1_alg».proof.Proof.KI.R2Val

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.Spec

variable (V : (c : Dev nD) → (b : Ref sig .tc) → Buf (Elt Ideal) ((c : Thread nD τ).loc b))

abbrev Z11 (c : Dev nD) : Mat 100000 128 := toMat (V c (Pipeline.arrRef spec11 0) : S100000x128.Idx → EReal)
abbrev mu11 (c : Dev nD) : Row 128 := toRow1 (V c (Pipeline.arrRef spec11 1) : S1x128.Idx → EReal)
abbrev va11 (c : Dev nD) : Row 128 := toRow1 (V c (Pipeline.arrRef spec11 2) : S1x128.Idx → EReal)
abbrev ga11 (c : Dev nD) : Row 128 := toRow1 (V c (Pipeline.arrRef spec11 3) : S1x128.Idx → EReal)
abbrev be11 (c : Dev nD) : Row 128 := toRow1 (V c (Pipeline.arrRef spec11 4) : S1x128.Idx → EReal)

theorem h_val11 (c : Dev nD) : toMat ((dat11 V c).arrAt 5 cfg11.N : S100000x128.Idx → EReal)
    = normRelu (Z11 V c) (mu11 V c) (va11 V c) (ga11 V c) (be11 V c) := by
  rw [(dat11 V c).arrAt_eq_of_cover 5 (fun i => normRelu (Z11 V c) (mu11 V c) (va11 V c) (ga11 V c) (be11 V c) (i 0) (i 1))
    (fun t _ => by
      show (cfg11.win 5).cut (grid11.coords t) ((dat11 V c).after 5 t) = _
      rw [after11_5, out2_5_eq]
      exact flush2 (V c (Pipeline.arrRef spec11 0)) (V c (Pipeline.arrRef spec11 1)) (V c (Pipeline.arrRef spec11 2))
        (V c (Pipeline.arrRef spec11 3)) (V c (Pipeline.arrRef spec11 4)) t) covered2_5]
  rfl

end Cert.KernelIdeal.Hand

end
-- ==== Proof.KI.Layer3.lean ====
import proofs.«105940_j32358283608240_1_alg».proof.Proof.KI.Chain
import proofs.«105940_j32358283608240_1_alg».proof.Proof.KI.Layer0
import proofs.«105940_j32358283608240_1_alg».proof.Proof.KI.R9Val
import proofs.«105940_j32358283608240_1_alg».proof.Proof.KI.R10Val
import proofs.«105940_j32358283608240_1_alg».proof.Proof.KI.R11Val
import proofs.«105940_j32358283608240_1_alg».proof.Proof.Spec
import Idealize.ShloMosaic.Lib.IdealHost
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo
open Cert.Spec

theorem L3_st1 (V : Valuation τ sig (Elt Ideal)) :
    Stats (toRow1 (after hostOps10 V main_v182 : S1x128.Idx → EReal)) (toRow1 (after hostOps10 V main_v186 : S1x128.Idx → EReal))
      (toRow1 (V main_v180_1 : S1x128.Idx → EReal)) (toRow1 (V main_v180_2 : S1x128.Idx → EReal)) :=
  stats_at (by after_results) (by after_results)
theorem L3_st2 (V : Valuation τ sig (Elt Ideal)) :
    Stats (toRow1 (after hostOps11 V main_v200 : S1x128.Idx → EReal)) (toRow1 (after hostOps11 V main_v204 : S1x128.Idx → EReal))
      (toRow1 (V main_v198_1 : S1x128.Idx → EReal)) (toRow1 (V main_v198_2 : S1x128.Idx → EReal)) :=
  stats_at (by after_results) (by after_results)
variable (m : (ℓ : Loc nD τ sig) → Buf (Elt Ideal) ℓ)
def paramsK3 (c : Dev nD) : LayerParams :=
  ⟨toMat (W19 m c main_v176 : S128x128.Idx → EReal), toRow1 (W19 m c main_v179 : S1x128.Idx → EReal),
   toRow1 (W21 m c main_v189 : S1x128.Idx → EReal), toRow1 (W21 m c main_v192 : S1x128.Idx → EReal),
   toMat (W21 m c main_v194 : S128x128.Idx → EReal), toRow1 (W21 m c main_v197 : S1x128.Idx → EReal),
   toRow1 (W23 m c main_v207 : S1x128.Idx → EReal), toRow1 (W23 m c main_v210 : S1x128.Idx → EReal)⟩
theorem L3_act (c : Dev nD) : A10 (B21 m) c = actK (paramsK3 m c) (toMat (W19 m c main_v174 : S100000x128.Idx → EReal)) :=
  normRelu_of_parts (z := toMat (W21 m c main_v180_0 : S100000x128.Idx → EReal)) _
    (via (after_of_writes_sub hostOps10 _ hostOps10_writes (by decide)) (via (W20_arr m c 3) (z_val9 (B19 m) c)))
    (via (W20_arr m c 4) (sum_val9 (B19 m) c)) (via (W20_arr m c 5) (sumsq_val9 (B19 m) c)) (L3_st1 (W20 m c))
theorem layerK3 (c : Dev nD) :
    toMat (W24 m c main_v211 : S100000x128.Idx → EReal)
      = layerK (paramsK3 m c) (toMat (W19 m c main_v174 : S100000x128.Idx → EReal)) :=
  layerK_of_act (z2 := toMat (W23 m c main_v198_0 : S100000x128.Idx → EReal)) (L3_act m c)
    (via (after_of_writes_sub hostOps11 _ hostOps11_writes (by decide)) (via (W22_arr m c 7) (z_val10 (B21 m) c)))
    (via (W22_arr m c 8) (sum_val10 (B21 m) c)) (via (W22_arr m c 9) (sumsq_val10 (B21 m) c))
    (L3_st2 (W22 m c)) (via (W24_arr m c 5) (h_val11 (B23 m) c))
end Cert.KernelIdeal.Hand
end
-- ==== Proof.Ref.LayerLib.lean ====
import proofs.«105940_j32358283608240_1_alg».proof.Proof.Ref.Ops
import proofs.«105940_j32358283608240_1_alg».proof.Proof.Ref.Base
import proofs.«105940_j32358283608240_1_alg».proof.Proof.Spec
import Idealize.ShloMosaic.Lib.IdealHost
import Idealize.ShloMosaic.Lib.ValueLayout
import Idealize.ShloMosaic.Lib.StackMember
import Idealize.ShloMosaic.Lib.Pipeline.Value

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx Cert.Spec
open scoped BigOperators

theorem bcastRows_apply {α : Type} (h2 : S1x128.BroadcastsInDim S100000x128 ![0, 1]) (v : S1x128.Idx → α)
    (r : Fin 100000) (c : Fin 128) : broadcastInDim S100000x128 ![0, 1] h2 v (ix2 r c) = v (ix2 (0 : Fin 1) c) := by
  refine broadcastInDim_apply _ h2 _ (ix2 r c) (ix2 (0 : Fin 1) c) fun a => ?_
  match a with
  | ⟨0, _⟩ => rfl
  | ⟨1, _⟩ => rfl

theorem bcastRow_apply {α : Type} (h1 : S128.BroadcastsInDim S1x128 ![1]) (v : S128.Idx → α) (c : Fin 128) :
    broadcastInDim S1x128 ![1] h1 v (ix2 (0 : Fin 1) c) = v (ix1 c) := by
  refine broadcastInDim_apply _ h1 v (ix2 (0 : Fin 1) c) (ix1 c) fun a => ?_
  match a with
  | ⟨0, _⟩ => rfl

theorem rowBcast_apply {α : Type} (h1 : S128.BroadcastsInDim S1x128 ![1]) (h2 : S1x128.BroadcastsInDim S100000x128 ![0, 1])
    (v : S128.Idx → α) (r : Fin 100000) (c : Fin 128) :
    broadcastInDim S100000x128 ![0, 1] h2 (broadcastInDim S1x128 ![1] h1 v) (ix2 r c) = v (ix1 c) := by
  rw [bcastRows_apply, bcastRow_apply]

theorem colReduce_apply (h : S100000x128.ReducesTo [0] S128) (hu : 0 < S_.numel) (z : FVec Ideal S100000x128 .f32) (c : Fin 128) :
    Host.reduceAdd z (constant (F := Ideal) S_ .f32 0x00000000#32) h hu (ix1 c) = colSum (toMat z) c := by
  rw [hostReduceAdd_apply, Ideal.hostReduceAdd_single h (by decide : S100000x128.Reduces [0] S128)]
  show Ideal.ofBits .f32 0x00000000#32 + _ = _
  rw [Ideal.ofBits_zero_f32, zero_add]
  refine Finset.sum_congr rfl fun k _ => congrArg z ?_
  funext a
  match a with
  | ⟨0, _⟩ => rfl
  | ⟨1, _⟩ => rfl

theorem hostRsqrt_apply {s : Shape} (x : FVec Ideal s .f32) (i : s.Idx) : Host.rsqrt x i = Ideal.rsqrt (x i) := rfl

theorem count_eq : Cert.Spec.count = ((100000 : ℝ) : EReal) := by
  unfold Cert.Spec.count
  simp [Ideal.ofBits, Ideal.ieee, -EReal.coe_mul]; norm_num

theorem count_pos : (0 : EReal) < Cert.Spec.count := by
  rw [count_eq]; exact_mod_cast (by norm_num : (0 : ℝ) < 100000)

def linT (X : FVec Ideal S100000x128 .f32) (W : FVec Ideal S128x128 .f32) (b : FVec Ideal S128 .f32) : FVec Ideal S100000x128 .f32 :=
  addf (Host.dotGeneral dot_S100000x128_S128x128_S100000x128_1_0_0_1_n_n none X W)
    (broadcastInDim S100000x128 ![0, 1] Gen.bcast_S1x128_S100000x128_0_1 (broadcastInDim S1x128 ![1] Gen.bcast_S128_S1x128_1 b))

theorem toMat_linT (X : FVec Ideal S100000x128 .f32) (W : FVec Ideal S128x128 .f32) (b : FVec Ideal S128 .f32) :
    toMat (linT X W b) = lin (toMat X) (toMat W) (toRow b) := by
  funext i j
  show linT X W b (ix2 i j) = _
  unfold linT lin
  rw [addf_apply, rowBcast_apply]
  have hd : dot_S100000x128_S128x128_S100000x128_1_0_0_1_n_n = DotDims.plain 100000 128 128 := rfl
  rw [hd, StackMember.dotGeneral_plain_apply]

def meanT (z : FVec Ideal S100000x128 .f32) : FVec Ideal S128 .f32 :=
  Host.divf (Host.reduceAdd z (constant S_ .f32 0x00000000#32) Gen.reducesTo_S100000x128_S128_d0 Gen.h_S_)
    (broadcastInDim S128 ![] Gen.bcast_S_S128 (constant S_ .f32 0x47C35000#32))

theorem meanT_apply (z : FVec Ideal S100000x128 .f32) (c : Fin 128) : meanT z (ix1 c) = mean (toMat z) c := by
  unfold meanT mean
  rw [hostDivf_apply, colReduce_apply, broadcastInDim_scalar_apply, constant_apply]
  rfl

def devT (z : FVec Ideal S100000x128 .f32) : FVec Ideal S100000x128 .f32 :=
  subf z (broadcastInDim S100000x128 ![0, 1] Gen.bcast_S1x128_S100000x128_0_1
    (Host.divf (broadcastInDim S1x128 ![1] Gen.bcast_S128_S1x128_1
        (Host.reduceAdd z (constant S_ .f32 0x00000000#32) Gen.reducesTo_S100000x128_S128_d0 Gen.h_S_))
      (broadcastInDim S1x128 ![] Gen.bcast_S_S1x128 (constant S_ .f32 0x47C35000#32))))

theorem devT_apply (z : FVec Ideal S100000x128 .f32) (r : Fin 100000) (c : Fin 128) :
    devT z (ix2 r c) = toMat z r c - mean (toMat z) c := by
  unfold devT mean
  rw [subf_apply, bcastRows_apply, hostDivf_apply, bcastRow_apply, colReduce_apply, broadcastInDim_scalar_apply, constant_apply]
  rfl

def nT : FVec Ideal S_ .f32 :=
  subf (constant S_ .f32 0x47C35000#32) (sitofp (F := Ideal) .f32 (constantI S_ 32 0#32))

theorem nT_apply : nT ix0 = Cert.Spec.count := by
  unfold nT
  rw [subf_apply, constant_apply, sitofp_apply, constantI_apply]
  show Cert.Spec.count - (((0#32 : BitVec 32).toInt : ℝ) : EReal) = _
  simp

def varT (z : FVec Ideal S100000x128 .f32) : FVec Ideal S128 .f32 :=
  select (broadcastInDim S128 ![] Gen.bcast_S_S128 (cmpf .ogt nT (constant S_ .f32 0x00000000#32)))
    (Host.divf (Host.reduceAdd (mulf (devT z) (devT z)) (constant S_ .f32 0x00000000#32) Gen.reducesTo_S100000x128_S128_d0 Gen.h_S_)
      (broadcastInDim S128 ![] Gen.bcast_S_S128 nT))
    (broadcastInDim S128 ![] Gen.bcast_S_S128 (id (constant S_ .f32 0x7FC00000#32)))

theorem varT_apply (z : FVec Ideal S100000x128 .f32) (c : Fin 128) : varT z (ix1 c) = varCentred (toMat z) c := by
  unfold varT varCentred
  rw [select_apply, broadcastInDim_scalar_apply, cmpf_apply, nT_apply, constant_apply, Ideal.ofBits_zero_f32]
  have hp : FloatOps.cmpf (F := Ideal) (φ := .f32) .ogt Cert.Spec.count 0 = 1#1 := by
    show BitVec.ofBool (decide ((0 : EReal) < Cert.Spec.count)) = 1#1
    rw [decide_eq_true count_pos]; rfl
  rw [hp, select_one, hostDivf_apply, colReduce_apply, broadcastInDim_scalar_apply, nT_apply]
  unfold colSum
  refine congrArg (fun s => Ideal.div s Cert.Spec.count) (Finset.sum_congr rfl fun i _ => ?_)
  show mulf (devT z) (devT z) (ix2 i c) = _
  rw [mulf_apply, devT_apply]

def bnRelu (z : FVec Ideal S100000x128 .f32) (g be : FVec Ideal S128 .f32) : FVec Ideal S100000x128 .f32 :=
  maximumf
    (addf
      (mulf
        (mulf (subf z (broadcastInDim S100000x128 ![0, 1] Gen.bcast_S1x128_S100000x128_0_1 (broadcastInDim S1x128 ![1] Gen.bcast_S128_S1x128_1 (meanT z))))
          (broadcastInDim S100000x128 ![0, 1] Gen.bcast_S1x128_S100000x128_0_1 (broadcastInDim S1x128 ![1] Gen.bcast_S128_S1x128_1
            (Host.rsqrt (addf (varT z) (broadcastInDim S128 ![] Gen.bcast_S_S128 (constant S_ .f32 0x3727C5AC#32)))))))
        (broadcastInDim S100000x128 ![0, 1] Gen.bcast_S1x128_S100000x128_0_1 (broadcastInDim S1x128 ![1] Gen.bcast_S128_S1x128_1 g)))
      (broadcastInDim S100000x128 ![0, 1] Gen.bcast_S1x128_S100000x128_0_1 (broadcastInDim S1x128 ![1] Gen.bcast_S128_S1x128_1 be)))
    (broadcastInDim S100000x128 ![] Gen.bcast_S_S100000x128 (constant S_ .f32 0x00000000#32))

theorem toMat_bnRelu (z : FVec Ideal S100000x128 .f32) (g be : FVec Ideal S128 .f32) :
    toMat (bnRelu z g be) = normRelu (toMat z) (mean (toMat z)) (varCentred (toMat z)) (toRow g) (toRow be) := by
  funext i j
  show bnRelu z g be (ix2 i j) = _
  unfold bnRelu normRelu
  rw [maximumf_apply, addf_apply, mulf_apply, mulf_apply, subf_apply, rowBcast_apply, rowBcast_apply, rowBcast_apply, rowBcast_apply,
    hostRsqrt_apply, addf_apply, meanT_apply, varT_apply, broadcastInDim_scalar_apply, broadcastInDim_scalar_apply, constant_apply,
    constant_apply, Ideal.ofBits_zero_f32]
  rfl

section Line
variable {τ' : Topo} {sig' : RefSig} {Val : EltTy → Type}

theorem after_cut (l : List (HloOp τ' sig' Val)) (k : Nat) (V : Valuation τ' sig' Val) :
    after l V = after (l.drop k) (after (l.take k) V) := by
  have h := after_app (l.take k) (l.drop k) V
  rwa [List.take_append_drop] at h

theorem after_lay2 (l0 l1 : List (HloOp τ' sig' Val)) (p q : Nat) (V : Valuation τ' sig' Val) :
    after l1 (after l0 V) = after (l1.drop q) (after (l0.drop p ++ l1.take q) (after (l0.take p) V)) := by
  rw [after_app, ← after_cut l1 q, ← after_cut l0 p]

theorem after_lay3 (l0 l1 l2 : List (HloOp τ' sig' Val)) (p q : Nat) (V : Valuation τ' sig' Val) :
    after l2 (after l1 (after l0 V))
      = after (l2.drop q) (after (l0.drop p ++ (l1 ++ l2.take q)) (after (l0.take p) V)) := by
  rw [after_app, after_app, ← after_cut l2 q, ← after_cut l0 p]

theorem after_four (l : List (HloOp τ' sig' Val)) (V : Valuation τ' sig' Val) :
    after l V = after (((l.drop 8).drop 51).drop 8) (after (((l.drop 8).drop 51).take 8)
      (after ((l.drop 8).take 51) (after (l.take 8) V))) := by
  rw [← after_cut ((l.drop 8).drop 51) 8, ← after_cut (l.drop 8) 51, ← after_cut l 8]

theorem after_chain {b1 b2 b3 b4 bR : Nat} {s1 s2 s3 s4 : List (HloOp τ' sig' Val)} {X : Prop}
    (hw : (∀ op ∈ s1, WritesFrom b1 op) ∧ (∀ op ∈ s2, WritesFrom b2 op) ∧ (∀ op ∈ s3, WritesFrom b3 op) ∧ (∀ op ∈ s4, WritesFrom b4 op) ∧ X)
    (hb : b1 ≤ b2 ∧ b2 ≤ b3 ∧ b3 ≤ b4 ∧ b4 ≤ bR) {A W0 : Valuation τ' sig' Val}
    (hA : ∀ r : Ref sig' .tc, r.idx.val < bR → A (Proc.devRef .tc r) = after s4 (after s3 (after s2 (after s1 W0))) (Proc.devRef .tc r))
    {r : Ref sig' .tc} :
    (r.idx.val < b4 → A (Proc.devRef .tc r) = after s3 (after s2 (after s1 W0)) (Proc.devRef .tc r))
    ∧ (r.idx.val < b3 → A (Proc.devRef .tc r) = after s2 (after s1 W0) (Proc.devRef .tc r))
    ∧ (r.idx.val < b2 → A (Proc.devRef .tc r) = after s1 W0 (Proc.devRef .tc r))
    ∧ (r.idx.val < b1 → A (Proc.devRef .tc r) = W0 (Proc.devRef .tc r)) := by
  obtain ⟨h12, h23, h34, h4R⟩ := hb
  have e4 := fun hr : r.idx.val < b4 => (hA r (hr.trans_le h4R)).trans (after_of_writesFrom s4 hw.2.2.2.1 hr _)
  have e3 := fun hr : r.idx.val < b3 => (e4 (hr.trans_le h34)).trans (after_of_writesFrom s3 hw.2.2.1 hr _)
  have e2 := fun hr : r.idx.val < b2 => (e3 (hr.trans_le h23)).trans (after_of_writesFrom s2 hw.2.1 hr _)
  exact ⟨e4, e3, e2, fun hr => (e2 (hr.trans_le h12)).trans (after_of_writesFrom s1 hw.1 hr _)⟩

end Line

abbrev A (m' : (ℓ : Loc nD τ sig) → Buf (Elt Ideal) ℓ) (c : Dev nD) : Valuation τ sig (Elt Ideal) :=
  StableHlo.after (ops (F := Ideal)) (launchContents m' c)

end Cert.ReferenceIdeal.Hand

end
-- ==== Proof.Ref.Layer0.lean ====
import proofs.«105940_j32358283608240_1_alg».proof.Proof.Ref.LayerLib
import proofs.«105940_j32358283608240_1_alg».proof.Proof.Ref.Run

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx Cert.Spec
open scoped BigOperators

namespace L0

abbrev pre : List (HloOp τ sig (Elt Ideal)) := ops0.take 20
abbrev lay : List (HloOp τ sig (Elt Ideal)) := ops0.drop 20 ++ ops1.take 55
abbrev rest : List (HloOp τ sig (Elt Ideal)) := ops1.drop 55
abbrev seg1 : List (HloOp τ sig (Elt Ideal)) := lay.take 8
abbrev seg2 : List (HloOp τ sig (Elt Ideal)) := (lay.drop 8).take 51
abbrev seg3 : List (HloOp τ sig (Elt Ideal)) := ((lay.drop 8).drop 51).take 8
abbrev seg4 : List (HloOp τ sig (Elt Ideal)) := ((lay.drop 8).drop 51).drop 8

theorem writes : (∀ op ∈ seg1, WritesFrom 38 op) ∧ (∀ op ∈ seg2, WritesFrom 46 op) ∧ (∀ op ∈ seg3, WritesFrom 97 op)
    ∧ (∀ op ∈ seg4, WritesFrom 105 op) ∧ ∀ op ∈ rest, WritesFrom 156 op := by
  simp only [seg1, seg2, seg3, seg4, rest, lay, ops0, ops1, List.drop_succ_cons, List.drop_zero, List.take_succ_cons, List.take_zero, List.cons_append, List.nil_append]
  refine ⟨?_, ?_, ?_, ?_, ?_⟩ <;> exact List.forall_iff_forall_mem.mp (by each_op exact writesFrom_of_writes rfl (by decide))

theorem seg1_z (W : Valuation τ sig (Elt Ideal)) :
    (after seg1 W (Proc.devRef .tc main_v23) : S100000x128.Idx → EReal)
      = linT (W (Proc.devRef .tc main_v15)) (after seg1 W (Proc.devRef .tc main_v17)) (after seg1 W (Proc.devRef .tc main_v20)) := by
  simp only [seg1, lay, ops0, ops1, List.drop_succ_cons, List.drop_zero, List.take_succ_cons, List.take_zero, List.cons_append, List.nil_append]
  after_results_simp
  rfl

theorem seg2_a (W : Valuation τ sig (Elt Ideal)) :
    (after seg2 W (Proc.devRef .tc main_v47) : S100000x128.Idx → EReal)
      = bnRelu (W (Proc.devRef .tc main_v23)) (after seg2 W (Proc.devRef .tc main_v25)) (after seg2 W (Proc.devRef .tc main_v27)) := by
  simp only [seg2, lay, ops0, ops1, List.drop_succ_cons, List.drop_zero, List.take_succ_cons, List.take_zero, List.cons_append, List.nil_append]
  after_results_simp
  rfl

theorem seg3_z (W : Valuation τ sig (Elt Ideal)) :
    (after seg3 W (Proc.devRef .tc main_v55) : S100000x128.Idx → EReal)
      = linT (W (Proc.devRef .tc main_v47)) (after seg3 W (Proc.devRef .tc main_v49)) (after seg3 W (Proc.devRef .tc main_v52)) := by
  simp only [seg3, lay, ops0, ops1, List.drop_succ_cons, List.drop_zero, List.take_succ_cons, List.take_zero, List.cons_append, List.nil_append]
  after_results_simp
  rfl

theorem seg4_h (W : Valuation τ sig (Elt Ideal)) :
    (after seg4 W (Proc.devRef .tc main_v79) : S100000x128.Idx → EReal)
      = bnRelu (W (Proc.devRef .tc main_v55)) (after seg4 W (Proc.devRef .tc main_v57)) (after seg4 W (Proc.devRef .tc main_v59)) := by
  simp only [seg4, lay, ops0, ops1, List.drop_succ_cons, List.drop_zero, List.take_succ_cons, List.take_zero, List.cons_append, List.nil_append]
  after_results_simp
  rfl

variable (m' : (ℓ : Loc nD τ sig) → Buf (Elt Ideal) ℓ)

def W0 (c : Dev nD) : Valuation τ sig (Elt Ideal) := after pre (launchContents m' c)

theorem A_W4 (c : Dev nD) {r : Ref sig .tc} (hr : r.idx.val < 156) : A m' c (Proc.devRef .tc r) = after seg4 (after seg3 (after seg2 (after seg1 (W0 m' c)))) (Proc.devRef .tc r) := by
  show after (ops (F := Ideal)) (launchContents m' c) (Proc.devRef .tc r) = _
  rw [after_ops_upto1 _ (Nat.lt_of_lt_of_le hr (by decide)), after_lay2 (ops0 (F := Ideal)) ops1 20 55,
    after_of_writesFrom (Val := Elt Ideal) rest writes.2.2.2.2 hr, after_four lay]
  rfl

def chain (c : Dev nD) {r : Ref sig .tc} := after_chain (r := r) writes (by decide) fun _ => A_W4 m' c

theorem A_z1 (c : Dev nD) : (A m' c (Proc.devRef .tc main_v23) : S100000x128.Idx → EReal)
    = linT (A m' c (Proc.devRef .tc main_v15)) (A m' c (Proc.devRef .tc main_v17)) (A m' c (Proc.devRef .tc main_v20)) := by
  rw [(chain m' c (r := main_v23)).2.2.1 (by decide), (chain m' c (r := main_v17)).2.2.1 (by decide), (chain m' c (r := main_v20)).2.2.1 (by decide),
    (chain m' c (r := main_v15)).2.2.2 (by decide)]
  exact seg1_z _

theorem A_a (c : Dev nD) : (A m' c (Proc.devRef .tc main_v47) : S100000x128.Idx → EReal)
    = bnRelu (A m' c (Proc.devRef .tc main_v23)) (A m' c (Proc.devRef .tc main_v25)) (A m' c (Proc.devRef .tc main_v27)) := by
  rw [(chain m' c (r := main_v47)).2.1 (by decide), (chain m' c (r := main_v25)).2.1 (by decide), (chain m' c (r := main_v27)).2.1 (by decide),
    (chain m' c (r := main_v23)).2.2.1 (by decide)]
  exact seg2_a _

theorem A_z2 (c : Dev nD) : (A m' c (Proc.devRef .tc main_v55) : S100000x128.Idx → EReal)
    = linT (A m' c (Proc.devRef .tc main_v47)) (A m' c (Proc.devRef .tc main_v49)) (A m' c (Proc.devRef .tc main_v52)) := by
  rw [(chain m' c (r := main_v55)).1 (by decide), (chain m' c (r := main_v49)).1 (by decide), (chain m' c (r := main_v52)).1 (by decide),
    (chain m' c (r := main_v47)).2.1 (by decide)]
  exact seg3_z _

theorem A_h (c : Dev nD) : (A m' c (Proc.devRef .tc main_v79) : S100000x128.Idx → EReal)
    = bnRelu (A m' c (Proc.devRef .tc main_v55)) (A m' c (Proc.devRef .tc main_v57)) (A m' c (Proc.devRef .tc main_v59)) := by
  rw [A_W4 m' c (r := main_v79) (by decide), A_W4 m' c (r := main_v57) (by decide), A_W4 m' c (r := main_v59) (by decide),
    (chain m' c (r := main_v55)).1 (by decide)]
  exact seg4_h _

end L0

variable (m' : (ℓ : Loc nD τ sig) → Buf (Elt Ideal) ℓ)

def paramsR0 (c : Dev nD) : Cert.Spec.LayerParams :=
  ⟨toMat (A m' c (Proc.devRef .tc main_v17) : S128x128.Idx → EReal), toRow (A m' c (Proc.devRef .tc main_v20) : S128.Idx → EReal),
    toRow (A m' c (Proc.devRef .tc main_v25) : S128.Idx → EReal), toRow (A m' c (Proc.devRef .tc main_v27) : S128.Idx → EReal),
    toMat (A m' c (Proc.devRef .tc main_v49) : S128x128.Idx → EReal), toRow (A m' c (Proc.devRef .tc main_v52) : S128.Idx → EReal),
    toRow (A m' c (Proc.devRef .tc main_v57) : S128.Idx → EReal), toRow (A m' c (Proc.devRef .tc main_v59) : S128.Idx → EReal)⟩

theorem layerR0 (c : Dev nD) : toMat (A m' c (Proc.devRef .tc main_v79) : S100000x128.Idx → EReal)
    = Cert.Spec.layerR (paramsR0 m' c) (toMat (A m' c (Proc.devRef .tc main_v15) : S100000x128.Idx → EReal)) := by
  rw [L0.A_h, toMat_bnRelu, L0.A_z2, toMat_linT, L0.A_a, toMat_bnRelu, L0.A_z1, toMat_linT]
  rfl

end Cert.ReferenceIdeal.Hand

end
-- ==== Proof.Ref.Layer1.lean ====
import proofs.«105940_j32358283608240_1_alg».proof.Proof.Ref.LayerLib
import proofs.«105940_j32358283608240_1_alg».proof.Proof.Ref.Run

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx Cert.Spec
open scoped BigOperators

namespace L1

abbrev pre : List (HloOp τ sig (Elt Ideal)) := ops1.take 75
abbrev lay : List (HloOp τ sig (Elt Ideal)) := ops1.drop 75 ++ (ops2 ++ ops3.take 6)
abbrev rest : List (HloOp τ sig (Elt Ideal)) := ops3.drop 6
abbrev seg1 : List (HloOp τ sig (Elt Ideal)) := lay.take 8
abbrev seg2 : List (HloOp τ sig (Elt Ideal)) := (lay.drop 8).take 51
abbrev seg3 : List (HloOp τ sig (Elt Ideal)) := ((lay.drop 8).drop 51).take 8
abbrev seg4 : List (HloOp τ sig (Elt Ideal)) := ((lay.drop 8).drop 51).drop 8

theorem writes : (∀ op ∈ seg1, WritesFrom 176 op) ∧ (∀ op ∈ seg2, WritesFrom 184 op) ∧ (∀ op ∈ seg3, WritesFrom 235 op)
    ∧ (∀ op ∈ seg4, WritesFrom 243 op) ∧ ∀ op ∈ rest, WritesFrom 294 op := by
  simp only [seg1, seg2, seg3, seg4, rest, lay, ops1, ops2, ops3, List.drop_succ_cons, List.drop_zero, List.take_succ_cons, List.take_zero, List.cons_append, List.nil_append]
  refine ⟨?_, ?_, ?_, ?_, ?_⟩ <;> exact List.forall_iff_forall_mem.mp (by each_op exact writesFrom_of_writes rfl (by decide))

theorem seg1_z (W : Valuation τ sig (Elt Ideal)) :
    (after seg1 W (Proc.devRef .tc main_v103) : S100000x128.Idx → EReal)
      = linT (W (Proc.devRef .tc main_v95)) (after seg1 W (Proc.devRef .tc main_v97)) (after seg1 W (Proc.devRef .tc main_v100)) := by
  simp only [seg1, lay, ops1, ops2, ops3, List.drop_succ_cons, List.drop_zero, List.take_succ_cons, List.take_zero, List.cons_append, List.nil_append]
  after_results_simp
  rfl

theorem seg2_a (W : Valuation τ sig (Elt Ideal)) :
    (after seg2 W (Proc.devRef .tc main_v127) : S100000x128.Idx → EReal)
      = bnRelu (W (Proc.devRef .tc main_v103)) (after seg2 W (Proc.devRef .tc main_v105)) (after seg2 W (Proc.devRef .tc main_v107)) := by
  simp only [seg2, lay, ops1, ops2, ops3, List.drop_succ_cons, List.drop_zero, List.take_succ_cons, List.take_zero, List.cons_append, List.nil_append]
  after_results_simp
  rfl

theorem seg3_z (W : Valuation τ sig (Elt Ideal)) :
    (after seg3 W (Proc.devRef .tc main_v135) : S100000x128.Idx → EReal)
      = linT (W (Proc.devRef .tc main_v127)) (after seg3 W (Proc.devRef .tc main_v129)) (after seg3 W (Proc.devRef .tc main_v132)) := by
  simp only [seg3, lay, ops1, ops2, ops3, List.drop_succ_cons, List.drop_zero, List.take_succ_cons, List.take_zero, List.cons_append, List.nil_append]
  after_results_simp
  rfl

theorem seg4_h (W : Valuation τ sig (Elt Ideal)) :
    (after seg4 W (Proc.devRef .tc main_v159) : S100000x128.Idx → EReal)
      = bnRelu (W (Proc.devRef .tc main_v135)) (after seg4 W (Proc.devRef .tc main_v137)) (after seg4 W (Proc.devRef .tc main_v139)) := by
  simp only [seg4, lay, ops1, ops2, ops3, List.drop_succ_cons, List.drop_zero, List.take_succ_cons, List.take_zero, List.cons_append, List.nil_append]
  after_results_simp
  rfl

variable (m' : (ℓ : Loc nD τ sig) → Buf (Elt Ideal) ℓ)

def W0 (c : Dev nD) : Valuation τ sig (Elt Ideal) := after pre (after ops0 (launchContents m' c))

theorem A_W4 (c : Dev nD) {r : Ref sig .tc} (hr : r.idx.val < 294) : A m' c (Proc.devRef .tc r) = after seg4 (after seg3 (after seg2 (after seg1 (W0 m' c)))) (Proc.devRef .tc r) := by
  show after (ops (F := Ideal)) (launchContents m' c) (Proc.devRef .tc r) = _
  rw [after_ops_upto3 _ (Nat.lt_of_lt_of_le hr (by decide)), after_lay3 (ops1 (F := Ideal)) ops2 ops3 75 6,
    after_of_writesFrom (Val := Elt Ideal) rest writes.2.2.2.2 hr, after_four lay]
  rfl

def chain (c : Dev nD) {r : Ref sig .tc} := after_chain (r := r) writes (by decide) fun _ => A_W4 m' c

theorem A_z1 (c : Dev nD) : (A m' c (Proc.devRef .tc main_v103) : S100000x128.Idx → EReal)
    = linT (A m' c (Proc.devRef .tc main_v95)) (A m' c (Proc.devRef .tc main_v97)) (A m' c (Proc.devRef .tc main_v100)) := by
  rw [(chain m' c (r := main_v103)).2.2.1 (by decide), (chain m' c (r := main_v97)).2.2.1 (by decide), (chain m' c (r := main_v100)).2.2.1 (by decide),
    (chain m' c (r := main_v95)).2.2.2 (by decide)]
  exact seg1_z _

theorem A_a (c : Dev nD) : (A m' c (Proc.devRef .tc main_v127) : S100000x128.Idx → EReal)
    = bnRelu (A m' c (Proc.devRef .tc main_v103)) (A m' c (Proc.devRef .tc main_v105)) (A m' c (Proc.devRef .tc main_v107)) := by
  rw [(chain m' c (r := main_v127)).2.1 (by decide), (chain m' c (r := main_v105)).2.1 (by decide), (chain m' c (r := main_v107)).2.1 (by decide),
    (chain m' c (r := main_v103)).2.2.1 (by decide)]
  exact seg2_a _

theorem A_z2 (c : Dev nD) : (A m' c (Proc.devRef .tc main_v135) : S100000x128.Idx → EReal)
    = linT (A m' c (Proc.devRef .tc main_v127)) (A m' c (Proc.devRef .tc main_v129)) (A m' c (Proc.devRef .tc main_v132)) := by
  rw [(chain m' c (r := main_v135)).1 (by decide), (chain m' c (r := main_v129)).1 (by decide), (chain m' c (r := main_v132)).1 (by decide),
    (chain m' c (r := main_v127)).2.1 (by decide)]
  exact seg3_z _

theorem A_h (c : Dev nD) : (A m' c (Proc.devRef .tc main_v159) : S100000x128.Idx → EReal)
    = bnRelu (A m' c (Proc.devRef .tc main_v135)) (A m' c (Proc.devRef .tc main_v137)) (A m' c (Proc.devRef .tc main_v139)) := by
  rw [A_W4 m' c (r := main_v159) (by decide), A_W4 m' c (r := main_v137) (by decide), A_W4 m' c (r := main_v139) (by decide),
    (chain m' c (r := main_v135)).1 (by decide)]
  exact seg4_h _

end L1

variable (m' : (ℓ : Loc nD τ sig) → Buf (Elt Ideal) ℓ)

def paramsR1 (c : Dev nD) : Cert.Spec.LayerParams :=
  ⟨toMat (A m' c (Proc.devRef .tc main_v97) : S128x128.Idx → EReal), toRow (A m' c (Proc.devRef .tc main_v100) : S128.Idx → EReal),
    toRow (A m' c (Proc.devRef .tc main_v105) : S128.Idx → EReal), toRow (A m' c (Proc.devRef .tc main_v107) : S128.Idx → EReal),
    toMat (A m' c (Proc.devRef .tc main_v129) : S128x128.Idx → EReal), toRow (A m' c (Proc.devRef .tc main_v132) : S128.Idx → EReal),
    toRow (A m' c (Proc.devRef .tc main_v137) : S128.Idx → EReal), toRow (A m' c (Proc.devRef .tc main_v139) : S128.Idx → EReal)⟩

theorem layerR1 (c : Dev nD) : toMat (A m' c (Proc.devRef .tc main_v159) : S100000x128.Idx → EReal)
    = Cert.Spec.layerR (paramsR1 m' c) (toMat (A m' c (Proc.devRef .tc main_v95) : S100000x128.Idx → EReal)) := by
  rw [L1.A_h, toMat_bnRelu, L1.A_z2, toMat_linT, L1.A_a, toMat_bnRelu, L1.A_z1, toMat_linT]
  rfl

end Cert.ReferenceIdeal.Hand

end
-- ==== Proof.Ref.Layer2.lean ====
import proofs.«105940_j32358283608240_1_alg».proof.Proof.Ref.LayerLib
import proofs.«105940_j32358283608240_1_alg».proof.Proof.Ref.Run

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx Cert.Spec
open scoped BigOperators

namespace L2

abbrev pre : List (HloOp τ sig (Elt Ideal)) := ops3.take 26
abbrev lay : List (HloOp τ sig (Elt Ideal)) := ops3.drop 26 ++ ops4.take 59
abbrev rest : List (HloOp τ sig (Elt Ideal)) := ops4.drop 59
abbrev seg1 : List (HloOp τ sig (Elt Ideal)) := lay.take 8
abbrev seg2 : List (HloOp τ sig (Elt Ideal)) := (lay.drop 8).take 51
abbrev seg3 : List (HloOp τ sig (Elt Ideal)) := ((lay.drop 8).drop 51).take 8
abbrev seg4 : List (HloOp τ sig (Elt Ideal)) := ((lay.drop 8).drop 51).drop 8

theorem writes : (∀ op ∈ seg1, WritesFrom 314 op) ∧ (∀ op ∈ seg2, WritesFrom 322 op) ∧ (∀ op ∈ seg3, WritesFrom 373 op)
    ∧ (∀ op ∈ seg4, WritesFrom 381 op) ∧ ∀ op ∈ rest, WritesFrom 432 op := by
  simp only [seg1, seg2, seg3, seg4, rest, lay, ops3, ops4, List.drop_succ_cons, List.drop_zero, List.take_succ_cons, List.take_zero, List.cons_append, List.nil_append]
  refine ⟨?_, ?_, ?_, ?_, ?_⟩ <;> exact List.forall_iff_forall_mem.mp (by each_op exact writesFrom_of_writes rfl (by decide))

theorem seg1_z (W : Valuation τ sig (Elt Ideal)) :
    (after seg1 W (Proc.devRef .tc main_v183) : S100000x128.Idx → EReal)
      = linT (W (Proc.devRef .tc main_v175)) (after seg1 W (Proc.devRef .tc main_v177)) (after seg1 W (Proc.devRef .tc main_v180)) := by
  simp only [seg1, lay, ops3, ops4, List.drop_succ_cons, List.drop_zero, List.take_succ_cons, List.take_zero, List.cons_append, List.nil_append]
  after_results_simp
  rfl

theorem seg2_a (W : Valuation τ sig (Elt Ideal)) :
    (after seg2 W (Proc.devRef .tc main_v207) : S100000x128.Idx → EReal)
      = bnRelu (W (Proc.devRef .tc main_v183)) (after seg2 W (Proc.devRef .tc main_v185)) (after seg2 W (Proc.devRef .tc main_v187)) := by
  simp only [seg2, lay, ops3, ops4, List.drop_succ_cons, List.drop_zero, List.take_succ_cons, List.take_zero, List.cons_append, List.nil_append]
  after_results_simp
  rfl

theorem seg3_z (W : Valuation τ sig (Elt Ideal)) :
    (after seg3 W (Proc.devRef .tc main_v215) : S100000x128.Idx → EReal)
      = linT (W (Proc.devRef .tc main_v207)) (after seg3 W (Proc.devRef .tc main_v209)) (after seg3 W (Proc.devRef .tc main_v212)) := by
  simp only [seg3, lay, ops3, ops4, List.drop_succ_cons, List.drop_zero, List.take_succ_cons, List.take_zero, List.cons_append, List.nil_append]
  after_results_simp
  rfl

theorem seg4_h (W : Valuation τ sig (Elt Ideal)) :
    (after seg4 W (Proc.devRef .tc main_v239) : S100000x128.Idx → EReal)
      = bnRelu (W (Proc.devRef .tc main_v215)) (after seg4 W (Proc.devRef .tc main_v217)) (after seg4 W (Proc.devRef .tc main_v219)) := by
  simp only [seg4, lay, ops3, ops4, List.drop_succ_cons, List.drop_zero, List.take_succ_cons, List.take_zero, List.cons_append, List.nil_append]
  after_results_simp
  rfl

variable (m' : (ℓ : Loc nD τ sig) → Buf (Elt Ideal) ℓ)

def W0 (c : Dev nD) : Valuation τ sig (Elt Ideal) := after pre (after ops2 (after ops1 (after ops0 (launchContents m' c))))

theorem A_W4 (c : Dev nD) {r : Ref sig .tc} (hr : r.idx.val < 432) : A m' c (Proc.devRef .tc r) = after seg4 (after seg3 (after seg2 (after seg1 (W0 m' c)))) (Proc.devRef .tc r) := by
  show after (ops (F := Ideal)) (launchContents m' c) (Proc.devRef .tc r) = _
  rw [after_ops_upto4 _ (Nat.lt_of_lt_of_le hr (by decide)), after_lay2 (ops3 (F := Ideal)) ops4 26 59,
    after_of_writesFrom (Val := Elt Ideal) rest writes.2.2.2.2 hr, after_four lay]
  rfl

def chain (c : Dev nD) {r : Ref sig .tc} := after_chain (r := r) writes (by decide) fun _ => A_W4 m' c

theorem A_z1 (c : Dev nD) : (A m' c (Proc.devRef .tc main_v183) : S100000x128.Idx → EReal)
    = linT (A m' c (Proc.devRef .tc main_v175)) (A m' c (Proc.devRef .tc main_v177)) (A m' c (Proc.devRef .tc main_v180)) := by
  rw [(chain m' c (r := main_v183)).2.2.1 (by decide), (chain m' c (r := main_v177)).2.2.1 (by decide), (chain m' c (r := main_v180)).2.2.1 (by decide),
    (chain m' c (r := main_v175)).2.2.2 (by decide)]
  exact seg1_z _

theorem A_a (c : Dev nD) : (A m' c (Proc.devRef .tc main_v207) : S100000x128.Idx → EReal)
    = bnRelu (A m' c (Proc.devRef .tc main_v183)) (A m' c (Proc.devRef .tc main_v185)) (A m' c (Proc.devRef .tc main_v187)) := by
  rw [(chain m' c (r := main_v207)).2.1 (by decide), (chain m' c (r := main_v185)).2.1 (by decide), (chain m' c (r := main_v187)).2.1 (by decide),
    (chain m' c (r := main_v183)).2.2.1 (by decide)]
  exact seg2_a _

theorem A_z2 (c : Dev nD) : (A m' c (Proc.devRef .tc main_v215) : S100000x128.Idx → EReal)
    = linT (A m' c (Proc.devRef .tc main_v207)) (A m' c (Proc.devRef .tc main_v209)) (A m' c (Proc.devRef .tc main_v212)) := by
  rw [(chain m' c (r := main_v215)).1 (by decide), (chain m' c (r := main_v209)).1 (by decide), (chain m' c (r := main_v212)).1 (by decide),
    (chain m' c (r := main_v207)).2.1 (by decide)]
  exact seg3_z _

theorem A_h (c : Dev nD) : (A m' c (Proc.devRef .tc main_v239) : S100000x128.Idx → EReal)
    = bnRelu (A m' c (Proc.devRef .tc main_v215)) (A m' c (Proc.devRef .tc main_v217)) (A m' c (Proc.devRef .tc main_v219)) := by
  rw [A_W4 m' c (r := main_v239) (by decide), A_W4 m' c (r := main_v217) (by decide), A_W4 m' c (r := main_v219) (by decide),
    (chain m' c (r := main_v215)).1 (by decide)]
  exact seg4_h _

end L2

variable (m' : (ℓ : Loc nD τ sig) → Buf (Elt Ideal) ℓ)

def paramsR2 (c : Dev nD) : Cert.Spec.LayerParams :=
  ⟨toMat (A m' c (Proc.devRef .tc main_v177) : S128x128.Idx → EReal), toRow (A m' c (Proc.devRef .tc main_v180) : S128.Idx → EReal),
    toRow (A m' c (Proc.devRef .tc main_v185) : S128.Idx → EReal), toRow (A m' c (Proc.devRef .tc main_v187) : S128.Idx → EReal),
    toMat (A m' c (Proc.devRef .tc main_v209) : S128x128.Idx → EReal), toRow (A m' c (Proc.devRef .tc main_v212) : S128.Idx → EReal),
    toRow (A m' c (Proc.devRef .tc main_v217) : S128.Idx → EReal), toRow (A m' c (Proc.devRef .tc main_v219) : S128.Idx → EReal)⟩

theorem layerR2 (c : Dev nD) : toMat (A m' c (Proc.devRef .tc main_v239) : S100000x128.Idx → EReal)
    = Cert.Spec.layerR (paramsR2 m' c) (toMat (A m' c (Proc.devRef .tc main_v175) : S100000x128.Idx → EReal)) := by
  rw [L2.A_h, toMat_bnRelu, L2.A_z2, toMat_linT, L2.A_a, toMat_bnRelu, L2.A_z1, toMat_linT]
  rfl

end Cert.ReferenceIdeal.Hand

end
-- ==== Proof.Ref.Layer3.lean ====
import proofs.«105940_j32358283608240_1_alg».proof.Proof.Ref.LayerLib
import proofs.«105940_j32358283608240_1_alg».proof.Proof.Ref.Run

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx Cert.Spec
open scoped BigOperators

namespace L3

abbrev pre : List (HloOp τ sig (Elt Ideal)) := ops4.take 79
abbrev lay : List (HloOp τ sig (Elt Ideal)) := ops4.drop 79 ++ (ops5 ++ ops6.take 10)
abbrev rest : List (HloOp τ sig (Elt Ideal)) := ops6.drop 10
abbrev seg1 : List (HloOp τ sig (Elt Ideal)) := lay.take 8
abbrev seg2 : List (HloOp τ sig (Elt Ideal)) := (lay.drop 8).take 51
abbrev seg3 : List (HloOp τ sig (Elt Ideal)) := ((lay.drop 8).drop 51).take 8
abbrev seg4 : List (HloOp τ sig (Elt Ideal)) := ((lay.drop 8).drop 51).drop 8

theorem writes : (∀ op ∈ seg1, WritesFrom 452 op) ∧ (∀ op ∈ seg2, WritesFrom 460 op) ∧ (∀ op ∈ seg3, WritesFrom 511 op)
    ∧ (∀ op ∈ seg4, WritesFrom 519 op) ∧ ∀ op ∈ rest, WritesFrom 570 op := by
  simp only [seg1, seg2, seg3, seg4, rest, lay, ops4, ops5, ops6, List.drop_succ_cons, List.drop_zero, List.take_succ_cons, List.take_zero, List.cons_append, List.nil_append]
  refine ⟨?_, ?_, ?_, ?_, ?_⟩ <;> exact List.forall_iff_forall_mem.mp (by each_op exact writesFrom_of_writes rfl (by decide))

theorem seg1_z (W : Valuation τ sig (Elt Ideal)) :
    (after seg1 W (Proc.devRef .tc main_v263) : S100000x128.Idx → EReal)
      = linT (W (Proc.devRef .tc main_v255)) (after seg1 W (Proc.devRef .tc main_v257)) (after seg1 W (Proc.devRef .tc main_v260)) := by
  simp only [seg1, lay, ops4, ops5, ops6, List.drop_succ_cons, List.drop_zero, List.take_succ_cons, List.take_zero, List.cons_append, List.nil_append]
  after_results_simp
  rfl

theorem seg2_a (W : Valuation τ sig (Elt Ideal)) :
    (after seg2 W (Proc.devRef .tc main_v287) : S100000x128.Idx → EReal)
      = bnRelu (W (Proc.devRef .tc main_v263)) (after seg2 W (Proc.devRef .tc main_v265)) (after seg2 W (Proc.devRef .tc main_v267)) := by
  simp only [seg2, lay, ops4, ops5, ops6, List.drop_succ_cons, List.drop_zero, List.take_succ_cons, List.take_zero, List.cons_append, List.nil_append]
  after_results_simp
  rfl

theorem seg3_z (W : Valuation τ sig (Elt Ideal)) :
    (after seg3 W (Proc.devRef .tc main_v295) : S100000x128.Idx → EReal)
      = linT (W (Proc.devRef .tc main_v287)) (after seg3 W (Proc.devRef .tc main_v289)) (after seg3 W (Proc.devRef .tc main_v292)) := by
  simp only [seg3, lay, ops4, ops5, ops6, List.drop_succ_cons, List.drop_zero, List.take_succ_cons, List.take_zero, List.cons_append, List.nil_append]
  after_results_simp
  rfl

theorem seg4_h (W : Valuation τ sig (Elt Ideal)) :
    (after seg4 W (Proc.devRef .tc main_v319) : S100000x128.Idx → EReal)
      = bnRelu (W (Proc.devRef .tc main_v295)) (after seg4 W (Proc.devRef .tc main_v297)) (after seg4 W (Proc.devRef .tc main_v299)) := by
  simp only [seg4, lay, ops4, ops5, ops6, List.drop_succ_cons, List.drop_zero, List.take_succ_cons, List.take_zero, List.cons_append, List.nil_append]
  after_results_simp
  rfl

variable (m' : (ℓ : Loc nD τ sig) → Buf (Elt Ideal) ℓ)

def W0 (c : Dev nD) : Valuation τ sig (Elt Ideal) := after pre (after ops3 (after ops2 (after ops1 (after ops0 (launchContents m' c)))))

theorem A_W4 (c : Dev nD) {r : Ref sig .tc} (hr : r.idx.val < 570) : A m' c (Proc.devRef .tc r) = after seg4 (after seg3 (after seg2 (after seg1 (W0 m' c)))) (Proc.devRef .tc r) := by
  show after (ops (F := Ideal)) (launchContents m' c) (Proc.devRef .tc r) = _
  rw [after_ops_apply, after_lay3 (ops4 (F := Ideal)) ops5 ops6 79 10,
    after_of_writesFrom (Val := Elt Ideal) rest writes.2.2.2.2 hr, after_four lay]
  rfl

def chain (c : Dev nD) {r : Ref sig .tc} := after_chain (r := r) writes (by decide) fun _ => A_W4 m' c

theorem A_z1 (c : Dev nD) : (A m' c (Proc.devRef .tc main_v263) : S100000x128.Idx → EReal)
    = linT (A m' c (Proc.devRef .tc main_v255)) (A m' c (Proc.devRef .tc main_v257)) (A m' c (Proc.devRef .tc main_v260)) := by
  rw [(chain m' c (r := main_v263)).2.2.1 (by decide), (chain m' c (r := main_v257)).2.2.1 (by decide), (chain m' c (r := main_v260)).2.2.1 (by decide),
    (chain m' c (r := main_v255)).2.2.2 (by decide)]
  exact seg1_z _

theorem A_a (c : Dev nD) : (A m' c (Proc.devRef .tc main_v287) : S100000x128.Idx → EReal)
    = bnRelu (A m' c (Proc.devRef .tc main_v263)) (A m' c (Proc.devRef .tc main_v265)) (A m' c (Proc.devRef .tc main_v267)) := by
  rw [(chain m' c (r := main_v287)).2.1 (by decide), (chain m' c (r := main_v265)).2.1 (by decide), (chain m' c (r := main_v267)).2.1 (by decide),
    (chain m' c (r := main_v263)).2.2.1 (by decide)]
  exact seg2_a _

theorem A_z2 (c : Dev nD) : (A m' c (Proc.devRef .tc main_v295) : S100000x128.Idx → EReal)
    = linT (A m' c (Proc.devRef .tc main_v287)) (A m' c (Proc.devRef .tc main_v289)) (A m' c (Proc.devRef .tc main_v292)) := by
  rw [(chain m' c (r := main_v295)).1 (by decide), (chain m' c (r := main_v289)).1 (by decide), (chain m' c (r := main_v292)).1 (by decide),
    (chain m' c (r := main_v287)).2.1 (by decide)]
  exact seg3_z _

theorem A_h (c : Dev nD) : (A m' c (Proc.devRef .tc main_v319) : S100000x128.Idx → EReal)
    = bnRelu (A m' c (Proc.devRef .tc main_v295)) (A m' c (Proc.devRef .tc main_v297)) (A m' c (Proc.devRef .tc main_v299)) := by
  rw [A_W4 m' c (r := main_v319) (by decide), A_W4 m' c (r := main_v297) (by decide), A_W4 m' c (r := main_v299) (by decide),
    (chain m' c (r := main_v295)).1 (by decide)]
  exact seg4_h _

end L3

variable (m' : (ℓ : Loc nD τ sig) → Buf (Elt Ideal) ℓ)

def paramsR3 (c : Dev nD) : Cert.Spec.LayerParams :=
  ⟨toMat (A m' c (Proc.devRef .tc main_v257) : S128x128.Idx → EReal), toRow (A m' c (Proc.devRef .tc main_v260) : S128.Idx → EReal),
    toRow (A m' c (Proc.devRef .tc main_v265) : S128.Idx → EReal), toRow (A m' c (Proc.devRef .tc main_v267) : S128.Idx → EReal),
    toMat (A m' c (Proc.devRef .tc main_v289) : S128x128.Idx → EReal), toRow (A m' c (Proc.devRef .tc main_v292) : S128.Idx → EReal),
    toRow (A m' c (Proc.devRef .tc main_v297) : S128.Idx → EReal), toRow (A m' c (Proc.devRef .tc main_v299) : S128.Idx → EReal)⟩

theorem layerR3 (c : Dev nD) : toMat (A m' c (Proc.devRef .tc main_v319) : S100000x128.Idx → EReal)
    = Cert.Spec.layerR (paramsR3 m' c) (toMat (A m' c (Proc.devRef .tc main_v255) : S100000x128.Idx → EReal)) := by
  rw [L3.A_h, toMat_bnRelu, L3.A_z2, toMat_linT, L3.A_a, toMat_bnRelu, L3.A_z1, toMat_linT]
  rfl

end Cert.ReferenceIdeal.Hand

end
-- ==== Proof.Link.Pool.lean ====
import proofs.«105940_j32358283608240_1_alg».proof.Proof.Gen.KernelIdeal.Launch
import proofs.«105940_j32358283608240_1_alg».proof.Proof.Gen.KernelIdeal.Regions
import proofs.«105940_j32358283608240_1_alg».proof.Proof.Gen.ReferenceIdeal
import proofs.«105940_j32358283608240_1_alg».proof.Proof.Ref.Ops
import proofs.«105940_j32358283608240_1_alg».proof.Proof.Ref.Base
import proofs.«105940_j32358283608240_1_alg».proof.Proof.Ref.Parts
import proofs.«105940_j32358283608240_1_alg».proof.Proof.Ref.Run
import proofs.«105940_j32358283608240_1_alg».proof.Proof.Spec
import Idealize.ShloMosaic.Lib.StableHlo.Run
import Idealize.ShloMosaic.PureOps.Ideal
import Idealize.ShloMosaic.PureOps.Ideal.Laws
import Idealize.ShloMosaic.PureOps.Contract
import Idealize.ShloMosaic.Lib.ValueIdx
import Idealize.ShloMosaic.Lib.IdealHost

set_option maxRecDepth 16384
set_option maxHeartbeats 4000000

noncomputable section

namespace Cert.Proof.Link

open Idealize.ShloMosaic Idealize.ShloMosaic.TcCoe Idealize.ShloMosaic.StableHlo

open Idealize.ShloMosaic.ValueIdx
open scoped BigOperators

def AllReal {s : Shape} (v : s.Idx → EReal) : Prop := ∀ i, ∃ r : ℝ, v i = (r : EReal)

theorem sum_real {ι : Type} (s : Finset ι) (f : ι → EReal) (h : ∀ j ∈ s, ∃ r : ℝ, f j = (r : EReal)) :
    ∃ r : ℝ, ∑ j ∈ s, f j = (r : EReal) := by
  classical
  induction s using Finset.induction_on with
  | empty => exact ⟨0, by simp⟩
  | insert a s ha ih =>
    obtain ⟨r₁, h₁⟩ := h a (Finset.mem_insert_self a s)
    obtain ⟨r₂, h₂⟩ := ih (fun j hj => h j (Finset.mem_insert_of_mem hj))
    exact ⟨r₁ + r₂, by rw [Finset.sum_insert ha, h₁, h₂, EReal.coe_add]⟩

section Real
variable {s si su t : Shape} {φ : FTy}

theorem gather_real (d : GatherDims s si t) {w : ℕ} (x : s.Idx → EReal) (idx : IVec si w) (hx : AllReal x) :
    AllReal (Host.gather d x idx) := fun _ => hx _

theorem scatterAdd_real (d : ScatterDims s si su) {w : ℕ} (x : FVec Ideal s φ) (idx : IVec si w) (upd : FVec Ideal su φ)
    (hx : AllReal x) (hu : AllReal upd) : AllReal (Host.scatterAdd d x idx upd) := by
  intro i
  obtain ⟨a, ha⟩ := hx i
  obtain ⟨g, hg⟩ := sum_real (Finset.univ.filter fun j => d.resultIdx? j idx = some i) upd (fun j _ => hu j)
  refine ⟨a + g, ?_⟩
  show Ideal.hostScatterAdd d x idx upd i = _
  unfold Ideal.hostScatterAdd
  rw [ha, hg, EReal.coe_add]

theorem bcastScalar_real {T : Shape} (h : (⟨0, ![]⟩ : Shape).BroadcastsInDim T ![]) (v : (⟨0, ![]⟩ : Shape).Idx → EReal)
    (hv : ∃ r : ℝ, v ix0 = (r : EReal)) : AllReal (broadcastInDim T ![] h v) := fun j => by
  rw [broadcastInDim_scalar_apply]; exact hv

theorem addf_real (a b : FVec Ideal s φ) (ha : AllReal a) (hb : AllReal b) : AllReal (addf a b) := fun i => by
  obtain ⟨p, hp⟩ := ha i
  obtain ⟨q, hq⟩ := hb i
  exact ⟨p + q, by rw [addf_apply, hp, hq, EReal.coe_add]⟩

theorem mulf_real (a b : FVec Ideal s φ) (ha : AllReal a) (hb : AllReal b) : AllReal (mulf a b) := fun i => by
  obtain ⟨p, hp⟩ := ha i
  obtain ⟨q, hq⟩ := hb i
  exact ⟨p * q, by rw [mulf_apply, hp, hq, EReal.coe_mul]⟩

end Real

namespace K

open Cert.KernelIdeal Cert.KernelIdeal.Gen

abbrev XT : Type := FVec Ideal S100000x128 .f32
abbrev IT : Type := IVec S1600000 32
abbrev ET : Type := FVec Ideal S4 .f32

def wrapCol (src : IT) : IVec S1600000x1 32 :=
  broadcastInDim S1600000x1 ![0] bcast_S1600000_S1600000x1_0
    (select (cmpi CmpIPredicate.slt src (broadcastInDim S1600000 ![] bcast_S_S1600000 (constantI S_ 32 0#32)))
      (addi src (broadcastInDim S1600000 ![] bcast_S_S1600000 (constantI S_ 32 100000#32))) src)

def onePlus (off : Fin S4.rank → ℕ) (hs : S4.Slices off S1) (e : ET) : FVec Ideal S_ .f32 :=
  addf (constant (F := Ideal) S_ FTy.f32 0x3F800000#32) fun i => shapeCast S_ (extractStridedSlice S1 off e hs) shapeCasts_S1_S_ i

def poolAt (off : Fin S4.rank → ℕ) (hs : S4.Slices off S1) (x : XT) (src dst : IT) (e : ET) : XT :=
  addf
    (Host.scatterAdd scatter_S100000x128_S1600000x1_S1600000x128_1_0_0_1
      (broadcastInDim S100000x128 ![] bcast_S_S100000x128 (constant (F := Ideal) S_ FTy.f32 0x00000000#32))
      (broadcastInDim S1600000x1 ![0] bcast_S1600000_S1600000x1_0 dst)
      (Host.gather gather_S100000x128_S1600000x1_S1600000x128_1_0_n_n_0_1_1128 x (wrapCol src)))
    (mulf (broadcastInDim S100000x128 ![] bcast_S_S100000x128 (onePlus off hs e)) x)

abbrev pool0 : XT → IT → IT → ET → XT := poolAt ![0] slices_S4_S1_0
abbrev pool1 : XT → IT → IT → ET → XT := poolAt ![1] slices_S4_S1_1
abbrev pool2 : XT → IT → IT → ET → XT := poolAt ![2] slices_S4_S1_2
abbrev pool3 : XT → IT → IT → ET → XT := poolAt ![3] slices_S4_S1_3

theorem onePlus_real (off : Fin S4.rank → ℕ) (hs : S4.Slices off S1) (e : ET) (he : AllReal e) :
    ∃ r : ℝ, onePlus off hs e ix0 = (r : EReal) := by
  obtain ⟨r, hr⟩ : ∃ r : ℝ, shapeCast S_ (extractStridedSlice S1 off e hs) shapeCasts_S1_S_ ix0 = (r : EReal) := by
    unfold shapeCast extractStridedSlice; exact he _
  refine ⟨1 + r, ?_⟩
  unfold onePlus
  rw [addf_apply, constant_apply, Ideal.ofBits_one_f32, hr, EReal.coe_add, EReal.coe_one]

theorem poolAt_real (off : Fin S4.rank → ℕ) (hs : S4.Slices off S1) (x : XT) (src dst : IT) (e : ET)
    (hx : AllReal x) (he : AllReal e) : AllReal (poolAt off hs x src dst e) := by
  unfold poolAt
  exact addf_real _ _
    (scatterAdd_real _ _ _ _
      (bcastScalar_real _ _ ⟨0, by rw [constant_apply, Ideal.ofBits_zero_f32, EReal.coe_zero]⟩)
      (gather_real _ _ _ hx))
    (mulf_real _ _ (bcastScalar_real _ _ (onePlus_real off hs e he)) hx)

open Cert.Spec in

theorem allReal_of_finiteM (x : XT) (h : Cert.Spec.FiniteM (Cert.Spec.toMat x)) : AllReal x := fun i => by
  rw [eq_ix2 i]; exact h (i 0) (i 1)

theorem finiteM_of_allReal (x : XT) (h : AllReal x) : Cert.Spec.FiniteM (Cert.Spec.toMat x) := fun i j => h (ix2 i j)

theorem poolAt_finite (off : Fin S4.rank → ℕ) (hs : S4.Slices off S1) (x : XT) (src dst : IT) (e : ET)
    (hx : Cert.Spec.FiniteM (Cert.Spec.toMat x)) (he : ∀ i, ∃ r : ℝ, e i = (r : EReal)) :
    Cert.Spec.FiniteM (Cert.Spec.toMat (poolAt off hs x src dst e)) :=
  finiteM_of_allReal _ (poolAt_real off hs x src dst e (allReal_of_finiteM x hx) he)

theorem pool_finite0 (x : XT) (src dst : IT) (e : ET) (hx : Cert.Spec.FiniteM (Cert.Spec.toMat x))
    (he : ∀ i, ∃ r : ℝ, e i = (r : EReal)) : Cert.Spec.FiniteM (Cert.Spec.toMat (pool0 x src dst e)) :=
  poolAt_finite _ _ x src dst e hx he
theorem pool_finite1 (x : XT) (src dst : IT) (e : ET) (hx : Cert.Spec.FiniteM (Cert.Spec.toMat x))
    (he : ∀ i, ∃ r : ℝ, e i = (r : EReal)) : Cert.Spec.FiniteM (Cert.Spec.toMat (pool1 x src dst e)) :=
  poolAt_finite _ _ x src dst e hx he
theorem pool_finite2 (x : XT) (src dst : IT) (e : ET) (hx : Cert.Spec.FiniteM (Cert.Spec.toMat x))
    (he : ∀ i, ∃ r : ℝ, e i = (r : EReal)) : Cert.Spec.FiniteM (Cert.Spec.toMat (pool2 x src dst e)) :=
  poolAt_finite _ _ x src dst e hx he
theorem pool_finite3 (x : XT) (src dst : IT) (e : ET) (hx : Cert.Spec.FiniteM (Cert.Spec.toMat x))
    (he : ∀ i, ∃ r : ℝ, e i = (r : EReal)) : Cert.Spec.FiniteM (Cert.Spec.toMat (pool3 x src dst e)) :=
  poolAt_finite _ _ x src dst e hx he

theorem pooledK0_raw (V : Valuation τ sig (Elt Ideal)) :
    (StableHlo.after (hostOps0 (F := Ideal)) V (Proc.devRef .tc main_v15) : XT)
      = pool0 (V (Proc.devRef .tc main_arg0)) (V (Proc.devRef .tc main_arg2)) (V (Proc.devRef .tc main_arg3)) (V (Proc.devRef .tc main_arg5)) := by
  after_results_simp
  rfl

theorem pooledK1_raw (V : Valuation τ sig (Elt Ideal)) :
    (StableHlo.after (hostOps3 (F := Ideal)) V (Proc.devRef .tc main_v68) : XT)
      = pool1 (V (Proc.devRef .tc main_v52)) (V (Proc.devRef .tc main_arg2)) (V (Proc.devRef .tc main_arg3)) (V (Proc.devRef .tc main_arg5)) := by
  after_results_simp
  rfl

theorem pooledK2_raw (V : Valuation τ sig (Elt Ideal)) :
    (StableHlo.after (hostOps6 (F := Ideal)) V (Proc.devRef .tc main_v121) : XT)
      = pool2 (V (Proc.devRef .tc main_v105)) (V (Proc.devRef .tc main_arg2)) (V (Proc.devRef .tc main_arg3)) (V (Proc.devRef .tc main_arg5)) := by
  after_results_simp
  rfl

theorem pooledK3_raw (V : Valuation τ sig (Elt Ideal)) :
    (StableHlo.after (hostOps9 (F := Ideal)) V (Proc.devRef .tc main_v174) : XT)
      = pool3 (V (Proc.devRef .tc main_v158)) (V (Proc.devRef .tc main_arg2)) (V (Proc.devRef .tc main_arg3)) (V (Proc.devRef .tc main_arg5)) := by
  after_results_simp
  rfl

variable (m : (ℓ : Loc nD τ sig) → Buf (Elt Ideal) ℓ) (outs : Gen.Outs (F := Ideal))

theorem V6_kept (c : Dev nD) (r : Ref sig .tc) (h0 : r ∉ hostOps0_W)
    (h1 : r ∉ ([main_v21_0, main_v21_1, main_v21_2] : List (Ref sig .tc))) (h2 : r ∉ hostOps1_W)
    (h3 : r ∉ ([main_v39_0, main_v39_1, main_v39_2] : List (Ref sig .tc))) (h4 : r ∉ hostOps2_W)
    (h5 : r ∉ ([main_v52] : List (Ref sig .tc))) : V6 m outs c r = m ((c : Thread nD τ).loc r) :=
  (V6_of m outs c r h5).trans <| (V5_of m outs c r h4).trans <| (V4_of m outs c r h3).trans <|
    (V3_of m outs c r h2).trans <| (V2_of m outs c r h1).trans <| (V1_of m c r h0).trans rfl

theorem V12_kept (c : Dev nD) (r : Ref sig .tc) (h : V6 m outs c r = m ((c : Thread nD τ).loc r)) (h0 : r ∉ hostOps3_W)
    (h1 : r ∉ ([main_v74_0, main_v74_1, main_v74_2] : List (Ref sig .tc))) (h2 : r ∉ hostOps4_W)
    (h3 : r ∉ ([main_v92_0, main_v92_1, main_v92_2] : List (Ref sig .tc))) (h4 : r ∉ hostOps5_W)
    (h5 : r ∉ ([main_v105] : List (Ref sig .tc))) : V12 m outs c r = m ((c : Thread nD τ).loc r) :=
  (V12_of m outs c r h5).trans <| (V11_of m outs c r h4).trans <| (V10_of m outs c r h3).trans <|
    (V9_of m outs c r h2).trans <| (V8_of m outs c r h1).trans <| (V7_of m outs c r h0).trans h

theorem V18_kept (c : Dev nD) (r : Ref sig .tc) (h : V12 m outs c r = m ((c : Thread nD τ).loc r)) (h0 : r ∉ hostOps6_W)
    (h1 : r ∉ ([main_v127_0, main_v127_1, main_v127_2] : List (Ref sig .tc))) (h2 : r ∉ hostOps7_W)
    (h3 : r ∉ ([main_v145_0, main_v145_1, main_v145_2] : List (Ref sig .tc))) (h4 : r ∉ hostOps8_W)
    (h5 : r ∉ ([main_v158] : List (Ref sig .tc))) : V18 m outs c r = m ((c : Thread nD τ).loc r) :=
  (V18_of m outs c r h5).trans <| (V17_of m outs c r h4).trans <| (V16_of m outs c r h3).trans <|
    (V15_of m outs c r h2).trans <| (V14_of m outs c r h1).trans <| (V13_of m outs c r h0).trans h

theorem V_args (c : Dev nD) {r : Ref sig .tc} (hr : r ∈ ([main_arg2, main_arg3, main_arg5] : List (Ref sig .tc))) :
    V6 m outs c r = m ((c : Thread nD τ).loc r) ∧ V12 m outs c r = m ((c : Thread nD τ).loc r)
      ∧ V18 m outs c r = m ((c : Thread nD τ).loc r) := by
  simp only [List.mem_cons, List.not_mem_nil, or_false] at hr
  rcases hr with rfl | rfl | rfl <;>
  exact
    have h6 := V6_kept m outs c _ (by decide) (by decide) (by decide) (by decide) (by decide) (by decide)
    have h12 := V12_kept m outs c _ h6 (by decide) (by decide) (by decide) (by decide) (by decide) (by decide)
    ⟨h6, h12, V18_kept m outs c _ h12 (by decide) (by decide) (by decide) (by decide) (by decide) (by decide)⟩

theorem pooledK0_V (c : Dev nD) :
    (V1 m c main_v15 : XT) = pool0 (m ((c : Thread nD τ).loc main_arg0))
      (m ((c : Thread nD τ).loc main_arg2)) (m ((c : Thread nD τ).loc main_arg3)) (m ((c : Thread nD τ).loc main_arg5)) :=
  pooledK0_raw (V0 m c)

theorem pooledK1_V (c : Dev nD) :
    (V7 m outs c main_v68 : XT) = pool1 (V6 m outs c main_v52)
      (m ((c : Thread nD τ).loc main_arg2)) (m ((c : Thread nD τ).loc main_arg3)) (m ((c : Thread nD τ).loc main_arg5)) := by
  rw [← (V_args m outs c (r := main_arg2) (by decide)).1, ← (V_args m outs c (r := main_arg3) (by decide)).1, ← (V_args m outs c (r := main_arg5) (by decide)).1]
  exact pooledK1_raw (V6 m outs c)

theorem pooledK2_V (c : Dev nD) :
    (V13 m outs c main_v121 : XT) = pool2 (V12 m outs c main_v105)
      (m ((c : Thread nD τ).loc main_arg2)) (m ((c : Thread nD τ).loc main_arg3)) (m ((c : Thread nD τ).loc main_arg5)) := by
  rw [← (V_args m outs c (r := main_arg2) (by decide)).2.1, ← (V_args m outs c (r := main_arg3) (by decide)).2.1, ← (V_args m outs c (r := main_arg5) (by decide)).2.1]
  exact pooledK2_raw (V12 m outs c)

theorem pooledK3_V (c : Dev nD) :
    (V19 m outs c main_v174 : XT) = pool3 (V18 m outs c main_v158)
      (m ((c : Thread nD τ).loc main_arg2)) (m ((c : Thread nD τ).loc main_arg3)) (m ((c : Thread nD τ).loc main_arg5)) := by
  rw [← (V_args m outs c (r := main_arg2) (by decide)).2.2, ← (V_args m outs c (r := main_arg3) (by decide)).2.2, ← (V_args m outs c (r := main_arg5) (by decide)).2.2]
  exact pooledK3_raw (V18 m outs c)

end K

namespace R

open Cert.ReferenceIdeal Cert.ReferenceIdeal.Gen Cert.ReferenceIdeal.Hand
open K (XT pool0 pool1 pool2 pool3)

theorem pooledR0_part (V : Valuation τ sig (Elt Ideal)) :
    (StableHlo.after (ops0 (F := Ideal)) V (Proc.devRef .tc main_v15) : XT)
      = pool0 (V (Proc.devRef .tc main_arg0)) (V (Proc.devRef .tc main_arg2)) (V (Proc.devRef .tc main_arg3)) (V (Proc.devRef .tc main_arg5)) := by
  after_results_simp
  rfl

theorem pooledR1_tail (W : Valuation τ sig (Elt Ideal)) :
    (StableHlo.after ((ops1 (F := Ideal)).drop 55) W (Proc.devRef .tc main_v95) : XT)
      = pool1 (W (Proc.devRef .tc main_v79)) (W (Proc.devRef .tc main_arg2)) (W (Proc.devRef .tc main_arg3)) (W (Proc.devRef .tc main_arg5)) := by
  simp only [ops1, List.drop_succ_cons, List.drop_zero]
  after_results_simp
  rfl

theorem hR1_tail (W : Valuation τ sig (Elt Ideal)) :
    StableHlo.after ((ops1 (F := Ideal)).drop 55) W (Proc.devRef .tc main_v79) = W (Proc.devRef .tc main_v79) := by
  simp only [ops1, List.drop_succ_cons, List.drop_zero]
  after_results_simp

theorem pooledR2_tail (W : Valuation τ sig (Elt Ideal)) :
    (StableHlo.after ((ops3 (F := Ideal)).drop 6) W (Proc.devRef .tc main_v175) : XT)
      = pool2 (W (Proc.devRef .tc main_v159)) (W (Proc.devRef .tc main_arg2)) (W (Proc.devRef .tc main_arg3)) (W (Proc.devRef .tc main_arg5)) := by
  simp only [ops3, List.drop_succ_cons, List.drop_zero]
  after_results_simp
  rfl

theorem hR2_tail (W : Valuation τ sig (Elt Ideal)) :
    StableHlo.after ((ops3 (F := Ideal)).drop 6) W (Proc.devRef .tc main_v159) = W (Proc.devRef .tc main_v159) := by
  simp only [ops3, List.drop_succ_cons, List.drop_zero]
  after_results_simp

theorem pooledR3_tail (W : Valuation τ sig (Elt Ideal)) :
    (StableHlo.after ((ops4 (F := Ideal)).drop 59) W (Proc.devRef .tc main_v255) : XT)
      = pool3 (W (Proc.devRef .tc main_v239)) (W (Proc.devRef .tc main_arg2)) (W (Proc.devRef .tc main_arg3)) (W (Proc.devRef .tc main_arg5)) := by
  simp only [ops4, List.drop_succ_cons, List.drop_zero]
  after_results_simp
  rfl

theorem hR3_tail (W : Valuation τ sig (Elt Ideal)) :
    StableHlo.after ((ops4 (F := Ideal)).drop 59) W (Proc.devRef .tc main_v239) = W (Proc.devRef .tc main_v239) := by
  simp only [ops4, List.drop_succ_cons, List.drop_zero]
  after_results_simp

theorem after_cut (l : List (HloOp τ sig (Elt Ideal))) (k : ℕ) (V : Valuation τ sig (Elt Ideal)) :
    StableHlo.after l V = StableHlo.after (l.drop k) (StableHlo.after (l.take k) V) := by
  conv_lhs => rw [← List.take_append_drop k l]
  exact after_app _ _ _

theorem pooledR1_part (V : Valuation τ sig (Elt Ideal)) :
    (StableHlo.after (ops1 (F := Ideal)) V (Proc.devRef .tc main_v95) : XT)
      = pool1 (StableHlo.after (ops1 (F := Ideal)) V (Proc.devRef .tc main_v79))
          (V (Proc.devRef .tc main_arg2)) (V (Proc.devRef .tc main_arg3)) (V (Proc.devRef .tc main_arg5)) := by
  have hk : ∀ {r : Ref sig .tc}, r.idx.val < 18 →
      StableHlo.after ((ops1 (F := Ideal)).take 55) V (Proc.devRef .tc r) = V (Proc.devRef .tc r) := fun hr =>
    after_of_writesFrom _ (fun op ho => ops1_writesFrom op (List.mem_of_mem_take ho)) (Nat.lt_of_lt_of_le hr (by decide)) V
  rw [after_cut (ops1 (F := Ideal)) 55 V, pooledR1_tail, hR1_tail, hk (r := main_arg2) (by decide),
    hk (r := main_arg3) (by decide), hk (r := main_arg5) (by decide)]

theorem pooledR2_part (V : Valuation τ sig (Elt Ideal)) :
    (StableHlo.after (ops3 (F := Ideal)) V (Proc.devRef .tc main_v175) : XT)
      = pool2 (StableHlo.after (ops3 (F := Ideal)) V (Proc.devRef .tc main_v159))
          (V (Proc.devRef .tc main_arg2)) (V (Proc.devRef .tc main_arg3)) (V (Proc.devRef .tc main_arg5)) := by
  have hk : ∀ {r : Ref sig .tc}, r.idx.val < 18 →
      StableHlo.after ((ops3 (F := Ideal)).take 6) V (Proc.devRef .tc r) = V (Proc.devRef .tc r) := fun hr =>
    after_of_writesFrom _ (fun op ho => ops3_writesFrom op (List.mem_of_mem_take ho)) (Nat.lt_of_lt_of_le hr (by decide)) V
  rw [after_cut (ops3 (F := Ideal)) 6 V, pooledR2_tail, hR2_tail, hk (r := main_arg2) (by decide),
    hk (r := main_arg3) (by decide), hk (r := main_arg5) (by decide)]

theorem pooledR3_part (V : Valuation τ sig (Elt Ideal)) :
    (StableHlo.after (ops4 (F := Ideal)) V (Proc.devRef .tc main_v255) : XT)
      = pool3 (StableHlo.after (ops4 (F := Ideal)) V (Proc.devRef .tc main_v239))
          (V (Proc.devRef .tc main_arg2)) (V (Proc.devRef .tc main_arg3)) (V (Proc.devRef .tc main_arg5)) := by
  have hk : ∀ {r : Ref sig .tc}, r.idx.val < 18 →
      StableHlo.after ((ops4 (F := Ideal)).take 59) V (Proc.devRef .tc r) = V (Proc.devRef .tc r) := fun hr =>
    after_of_writesFrom _ (fun op ho => ops4_writesFrom op (List.mem_of_mem_take ho)) (Nat.lt_of_lt_of_le hr (by decide)) V
  rw [after_cut (ops4 (F := Ideal)) 59 V, pooledR3_tail, hR3_tail, hk (r := main_arg2) (by decide),
    hk (r := main_arg3) (by decide), hk (r := main_arg5) (by decide)]

variable (m' : (ℓ : Loc nD τ sig) → Buf (Elt Ideal) ℓ)

abbrev A (c : Dev nD) : Valuation τ sig (Elt Ideal) := StableHlo.after (ops (F := Ideal)) (launchContents m' c)

theorem entry1 (c : Dev nD) {r : Ref sig .tc} (hr : r.idx.val < 18) :
    StableHlo.after ops0 (launchContents m' c) (Proc.devRef .tc r) = m' ((c.tc : Thread nD τ).loc r) :=
  after_of_writesFrom (Val := Elt Ideal) ops0 ops0_writesFrom hr _
theorem entry3 (c : Dev nD) {r : Ref sig .tc} (hr : r.idx.val < 18) :
    StableHlo.after ops2 (StableHlo.after ops1 (StableHlo.after ops0 (launchContents m' c))) (Proc.devRef .tc r) = m' ((c.tc : Thread nD τ).loc r) :=
  (after_of_writesFrom (Val := Elt Ideal) ops2 ops2_writesFrom (Nat.lt_of_lt_of_le hr (by decide)) _).trans <|
    (after_of_writesFrom (Val := Elt Ideal) ops1 ops1_writesFrom (Nat.lt_of_lt_of_le hr (by decide)) _).trans <| entry1 m' c hr
theorem entry4 (c : Dev nD) {r : Ref sig .tc} (hr : r.idx.val < 18) :
    StableHlo.after ops3 (StableHlo.after ops2 (StableHlo.after ops1 (StableHlo.after ops0 (launchContents m' c)))) (Proc.devRef .tc r) = m' ((c.tc : Thread nD τ).loc r) :=
  (after_of_writesFrom (Val := Elt Ideal) ops3 ops3_writesFrom (Nat.lt_of_lt_of_le hr (by decide)) _).trans <| entry3 m' c hr

theorem pooledR0_eq (c : Dev nD) :
    (A m' c (Proc.devRef .tc main_v15) : XT) = pool0 (m' ((c.tc : Thread nD τ).loc main_arg0))
      (m' ((c.tc : Thread nD τ).loc main_arg2)) (m' ((c.tc : Thread nD τ).loc main_arg3)) (m' ((c.tc : Thread nD τ).loc main_arg5)) := by
  show StableHlo.after ops (launchContents m' c) (Proc.devRef .tc main_v15) = _
  rw [after_ops_upto0 _ (r := main_v15) (by decide)]
  exact pooledR0_part (launchContents m' c)

theorem pooledR1_eq (c : Dev nD) :
    (A m' c (Proc.devRef .tc main_v95) : XT) = pool1 (A m' c (Proc.devRef .tc main_v79))
      (m' ((c.tc : Thread nD τ).loc main_arg2)) (m' ((c.tc : Thread nD τ).loc main_arg3)) (m' ((c.tc : Thread nD τ).loc main_arg5)) := by
  show StableHlo.after ops (launchContents m' c) (Proc.devRef .tc main_v95)
    = pool1 (StableHlo.after ops (launchContents m' c) (Proc.devRef .tc main_v79)) _ _ _
  rw [after_ops_upto1 _ (r := main_v95) (by decide), after_ops_upto1 _ (r := main_v79) (by decide), pooledR1_part,
    entry1 m' c (r := main_arg2) (by decide), entry1 m' c (r := main_arg3) (by decide), entry1 m' c (r := main_arg5) (by decide)]

theorem pooledR2_eq (c : Dev nD) :
    (A m' c (Proc.devRef .tc main_v175) : XT) = pool2 (A m' c (Proc.devRef .tc main_v159))
      (m' ((c.tc : Thread nD τ).loc main_arg2)) (m' ((c.tc : Thread nD τ).loc main_arg3)) (m' ((c.tc : Thread nD τ).loc main_arg5)) := by
  show StableHlo.after ops (launchContents m' c) (Proc.devRef .tc main_v175)
    = pool2 (StableHlo.after ops (launchContents m' c) (Proc.devRef .tc main_v159)) _ _ _
  rw [after_ops_upto3 _ (r := main_v175) (by decide), after_ops_upto3 _ (r := main_v159) (by decide), pooledR2_part,
    entry3 m' c (r := main_arg2) (by decide), entry3 m' c (r := main_arg3) (by decide), entry3 m' c (r := main_arg5) (by decide)]

theorem pooledR3_eq (c : Dev nD) :
    (A m' c (Proc.devRef .tc main_v255) : XT) = pool3 (A m' c (Proc.devRef .tc main_v239))
      (m' ((c.tc : Thread nD τ).loc main_arg2)) (m' ((c.tc : Thread nD τ).loc main_arg3)) (m' ((c.tc : Thread nD τ).loc main_arg5)) := by
  show StableHlo.after ops (launchContents m' c) (Proc.devRef .tc main_v255)
    = pool3 (StableHlo.after ops (launchContents m' c) (Proc.devRef .tc main_v239)) _ _ _
  rw [after_ops_upto4 _ (r := main_v255) (by decide), after_ops_upto4 _ (r := main_v239) (by decide), pooledR3_part,
    entry4 m' c (r := main_arg2) (by decide), entry4 m' c (r := main_arg3) (by decide), entry4 m' c (r := main_arg5) (by decide)]

end R

section Link

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (outs : Cert.KernelIdeal.Gen.Outs (F := Ideal))

def Agree : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)

theorem pooled_link0_V (hagree : Agree m m') (c : Dev Cert.KernelIdeal.nD) :
    (R.A m' c (Proc.devRef .tc Cert.ReferenceIdeal.main_v15) : K.XT) = Cert.KernelIdeal.Gen.V1 m c (Proc.devRef .tc Cert.KernelIdeal.main_v15) := by
  obtain ⟨h0, _, h2, h3, _, h5, _⟩ := hagree c
  rw [R.pooledR0_eq, K.pooledK0_V, h0, h2, h3, h5]

theorem pooled_link1_V (hagree : Agree m m') (c : Dev Cert.KernelIdeal.nD)
    (hh : (R.A m' c (Proc.devRef .tc Cert.ReferenceIdeal.main_v79) : K.XT) = Cert.KernelIdeal.Gen.V6 m outs c (Proc.devRef .tc Cert.KernelIdeal.main_v52)) :
    (R.A m' c (Proc.devRef .tc Cert.ReferenceIdeal.main_v95) : K.XT) = Cert.KernelIdeal.Gen.V7 m outs c (Proc.devRef .tc Cert.KernelIdeal.main_v68) := by
  obtain ⟨_, _, h2, h3, _, h5, _⟩ := hagree c
  rw [R.pooledR1_eq, K.pooledK1_V, hh, h2, h3, h5]

theorem pooled_link2_V (hagree : Agree m m') (c : Dev Cert.KernelIdeal.nD)
    (hh : (R.A m' c (Proc.devRef .tc Cert.ReferenceIdeal.main_v159) : K.XT) = Cert.KernelIdeal.Gen.V12 m outs c (Proc.devRef .tc Cert.KernelIdeal.main_v105)) :
    (R.A m' c (Proc.devRef .tc Cert.ReferenceIdeal.main_v175) : K.XT) = Cert.KernelIdeal.Gen.V13 m outs c (Proc.devRef .tc Cert.KernelIdeal.main_v121) := by
  obtain ⟨_, _, h2, h3, _, h5, _⟩ := hagree c
  rw [R.pooledR2_eq, K.pooledK2_V, hh, h2, h3, h5]

theorem pooled_link3_V (hagree : Agree m m') (c : Dev Cert.KernelIdeal.nD)
    (hh : (R.A m' c (Proc.devRef .tc Cert.ReferenceIdeal.main_v239) : K.XT) = Cert.KernelIdeal.Gen.V18 m outs c (Proc.devRef .tc Cert.KernelIdeal.main_v158)) :
    (R.A m' c (Proc.devRef .tc Cert.ReferenceIdeal.main_v255) : K.XT) = Cert.KernelIdeal.Gen.V19 m outs c (Proc.devRef .tc Cert.KernelIdeal.main_v174) := by
  obtain ⟨_, _, h2, h3, _, h5, _⟩ := hagree c
  rw [R.pooledR3_eq, K.pooledK3_V, hh, h2, h3, h5]

end Link

end Cert.Proof.Link

end
-- ==== Proof.Link.PoolW.lean ====
import proofs.«105940_j32358283608240_1_alg».proof.Proof.Link.Pool
import proofs.«105940_j32358283608240_1_alg».proof.Proof.KI.Chain

set_option maxRecDepth 16384

noncomputable section

namespace Cert.Proof.Link

open Idealize.ShloMosaic Idealize.ShloMosaic.TcCoe Idealize.ShloMosaic.StableHlo
open Cert.KernelIdeal.Hand

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

theorem pooledK0_eq (c : Dev Cert.KernelIdeal.nD) :
    (W1 m c (Proc.devRef .tc Cert.KernelIdeal.main_v15) : K.XT) = K.pool0 (m ((c.tc : Thread Cert.KernelIdeal.nD Cert.KernelIdeal.τ).loc Cert.KernelIdeal.main_arg0))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) :=
  K.pooledK0_V m c

theorem pooledK1_eq (c : Dev Cert.KernelIdeal.nD) :
    (W7 m c (Proc.devRef .tc Cert.KernelIdeal.main_v68) : K.XT) = K.pool1 (W6 m c (Proc.devRef .tc Cert.KernelIdeal.main_v52))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) := by
  have h := K.pooledK1_V m (outs m) c
  rw [V_eq_7 m c, V_eq_6 m c] at h
  exact h

theorem pooledK2_eq (c : Dev Cert.KernelIdeal.nD) :
    (W13 m c (Proc.devRef .tc Cert.KernelIdeal.main_v121) : K.XT) = K.pool2 (W12 m c (Proc.devRef .tc Cert.KernelIdeal.main_v105))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) := by
  have h := K.pooledK2_V m (outs m) c
  rw [V_eq_13 m c, V_eq_12 m c] at h
  exact h

theorem pooledK3_eq (c : Dev Cert.KernelIdeal.nD) :
    (W19 m c (Proc.devRef .tc Cert.KernelIdeal.main_v174) : K.XT) = K.pool3 (W18 m c (Proc.devRef .tc Cert.KernelIdeal.main_v158))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) := by
  have h := K.pooledK3_V m (outs m) c
  rw [V_eq_19 m c, V_eq_18 m c] at h
  exact h

theorem pooled_link0 (hagree : Agree m m') (c : Dev Cert.KernelIdeal.nD) :
    (R.A m' c (Proc.devRef .tc Cert.ReferenceIdeal.main_v15) : K.XT) = W1 m c (Proc.devRef .tc Cert.KernelIdeal.main_v15) :=
  pooled_link0_V m m' hagree c

theorem pooled_link1 (hagree : Agree m m') (c : Dev Cert.KernelIdeal.nD)
    (hh : (R.A m' c (Proc.devRef .tc Cert.ReferenceIdeal.main_v79) : K.XT) = W6 m c (Proc.devRef .tc Cert.KernelIdeal.main_v52)) :
    (R.A m' c (Proc.devRef .tc Cert.ReferenceIdeal.main_v95) : K.XT) = W7 m c (Proc.devRef .tc Cert.KernelIdeal.main_v68) := by
  have h := pooled_link1_V m m' (outs m) hagree c (by rw [V_eq_6 m c]; exact hh)
  rw [V_eq_7 m c] at h
  exact h

theorem pooled_link2 (hagree : Agree m m') (c : Dev Cert.KernelIdeal.nD)
    (hh : (R.A m' c (Proc.devRef .tc Cert.ReferenceIdeal.main_v159) : K.XT) = W12 m c (Proc.devRef .tc Cert.KernelIdeal.main_v105)) :
    (R.A m' c (Proc.devRef .tc Cert.ReferenceIdeal.main_v175) : K.XT) = W13 m c (Proc.devRef .tc Cert.KernelIdeal.main_v121) := by
  have h := pooled_link2_V m m' (outs m) hagree c (by rw [V_eq_12 m c]; exact hh)
  rw [V_eq_13 m c] at h
  exact h

theorem pooled_link3 (hagree : Agree m m') (c : Dev Cert.KernelIdeal.nD)
    (hh : (R.A m' c (Proc.devRef .tc Cert.ReferenceIdeal.main_v239) : K.XT) = W18 m c (Proc.devRef .tc Cert.KernelIdeal.main_v158)) :
    (R.A m' c (Proc.devRef .tc Cert.ReferenceIdeal.main_v255) : K.XT) = W19 m c (Proc.devRef .tc Cert.KernelIdeal.main_v174) := by
  have h := pooled_link3_V m m' (outs m) hagree c (by rw [V_eq_18 m c]; exact hh)
  rw [V_eq_19 m c] at h
  exact h

end Cert.Proof.Link

end
-- ==== Proof.Link.Params.lean ====
import proofs.«105940_j32358283608240_1_alg».proof.Proof.KI.Chain
import proofs.«105940_j32358283608240_1_alg».proof.Proof.Ref.Run
import proofs.«105940_j32358283608240_1_alg».proof.Proof.Spec
import proofs.«105940_j32358283608240_1_alg».proof.Defs
import proofs.«105940_j32358283608240_1_alg».proof.Proof.Gen.Pre_finite_inputs
import Idealize.ShloMosaic.Lib.ReduceAll
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.Proof.Link

open Idealize.ShloMosaic Idealize.SL.Sem Idealize.ShloMosaic.ValueIdx Idealize.ShloMosaic.TcCoe Idealize.ShloMosaic.StableHlo

namespace Params

theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  change BitVec.ofBool (decide (max x (-x) < ⊤)) = 1#1 at h
  have h' : max x (-x) < ⊤ := by
    by_contra hn
    rw [decide_eq_false hn] at h
    exact absurd h (by decide)
  rw [max_lt_iff] at h'
  obtain ⟨h1, h2⟩ := h'
  refine ⟨x.toReal, (EReal.coe_toReal (ne_of_lt h1) ?_).symm⟩
  rintro rfl
  simp at h2
theorem finite_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf x) (broadcastInDim s ![] hb (constant Cert.Pre_finite_inputs.S_ .f32 0x7F800000#32)))
        (constantI Cert.Pre_finite_inputs.S_ 1 1#1) hr hu ValueIdx.ix0 = 1#1) :
    ∀ i, ∃ r : ℝ, x i = (r : EReal) := fun i =>
  haveI : Subsingleton Cert.Pre_finite_inputs.S_.Idx := ⟨fun a b => funext fun d => d.elim0⟩
  real_of_abs_lt_inf (x i) (Host.reduce_andi_all _ _ hr hu ValueIdx.ix0 e i)

abbrev AllReal {s : Shape} (x : s.Idx → EReal) : Prop := ∀ i, ∃ r : ℝ, x i = (r : EReal)

abbrev Stack3 : Type := (⟨3, ![4, 128, 128]⟩ : Shape).Idx → EReal
abbrev Stack2 : Type := (⟨2, ![4, 128]⟩ : Shape).Idx → EReal

end Params

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

section
open Cert.KernelIdeal Params

theorem finite_args (hpre : Cert.Pre_KernelIdeal m) (c : Dev nD) :
    AllReal (m ((c.tc : Thread nD τ).loc main_arg0) : S100000x128.Idx → EReal) ∧ AllReal (m ((c.tc : Thread nD τ).loc main_arg5) : S4.Idx → EReal)
    ∧ AllReal (m ((c.tc : Thread nD τ).loc main_arg6) : S4x128x128.Idx → EReal) ∧ AllReal (m ((c.tc : Thread nD τ).loc main_arg7) : S4x128.Idx → EReal)
    ∧ AllReal (m ((c.tc : Thread nD τ).loc main_arg8) : S4x128.Idx → EReal) ∧ AllReal (m ((c.tc : Thread nD τ).loc main_arg9) : S4x128.Idx → EReal)
    ∧ AllReal (m ((c.tc : Thread nD τ).loc main_arg10) : S4x128x128.Idx → EReal) ∧ AllReal (m ((c.tc : Thread nD τ).loc main_arg11) : S4x128.Idx → EReal)
    ∧ AllReal (m ((c.tc : Thread nD τ).loc main_arg12) : S4x128.Idx → EReal) ∧ AllReal (m ((c.tc : Thread nD τ).loc main_arg13) : S4x128.Idx → EReal) := by
  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at h
  obtain ⟨h, -⟩ := IntOp.andi_eq_one.1 h
  obtain ⟨h, -⟩ := IntOp.andi_eq_one.1 h
  obtain ⟨h, -⟩ := IntOp.andi_eq_one.1 h
  obtain ⟨h, -⟩ := IntOp.andi_eq_one.1 h
  obtain ⟨h, h13⟩ := IntOp.andi_eq_one.1 h
  obtain ⟨h, h12⟩ := IntOp.andi_eq_one.1 h
  obtain ⟨h, h11⟩ := IntOp.andi_eq_one.1 h
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h0, -⟩ := IntOp.andi_eq_one.1 h
  exact ⟨finite_of_all _ _ _ _ h0, finite_of_all _ _ _ _ h5, finite_of_all _ _ _ _ h6, finite_of_all _ _ _ _ h7,
    finite_of_all _ _ _ _ h8, finite_of_all _ _ _ _ h9, finite_of_all _ _ _ _ h10, finite_of_all _ _ _ _ h11,
    finite_of_all _ _ _ _ h12, finite_of_all _ _ _ _ h13⟩

end

theorem finite_arg0 (hpre : Cert.Pre_KernelIdeal m) (c : Dev Cert.KernelIdeal.nD) :
    ∀ i, ∃ r : ℝ, (m ((c.tc : Thread Cert.KernelIdeal.nD Cert.KernelIdeal.τ).loc Cert.KernelIdeal.main_arg0) : Cert.KernelIdeal.S100000x128.Idx → EReal) i = (r : EReal) :=
  (finite_args m hpre c).1
theorem finite_arg5 (hpre : Cert.Pre_KernelIdeal m) (c : Dev Cert.KernelIdeal.nD) :
    ∀ i, ∃ r : ℝ, (m ((c.tc : Thread Cert.KernelIdeal.nD Cert.KernelIdeal.τ).loc Cert.KernelIdeal.main_arg5) : Cert.KernelIdeal.S4.Idx → EReal) i = (r : EReal) :=
  (finite_args m hpre c).2.1

namespace Params

open Cert.Spec

def stackMat (l : Fin 4) (x : Stack3) : Mat 128 128 := fun i j => x (ix3 l i j)
def stackRow (l : Fin 4) (x : Stack2) : Row 128 := fun j => x (ix2 l j)

-- Slice l of the stack with its unit axis dropped reads the stack at (l, i, j).
theorem mat_slice (l : Fin 4) {y : (⟨2, ![128, 128]⟩ : Shape).Idx → EReal} {x x' : Stack3} {hs hc}
    (e : y = shapeCast ⟨2, ![128, 128]⟩ (extractStridedSlice ⟨3, ![1, 128, 128]⟩ ![l.val, 0, 0] x hs) hc) (hx : x = x') :
    toMat y = stackMat l x' := by
  subst e hx
  funext i j
  show shapeCast _ _ hc (ix2 i j) = x (ix3 l i j)
  rw [shapeCast_1ab_ab_apply]
  refine extractStridedSlice_apply _ _ _ _ _ fun ax => ?_
  match ax with
  | ⟨0, _⟩ => exact (Nat.add_zero _).symm
  | ⟨1, _⟩ => exact (Nat.zero_add _).symm
  | ⟨2, _⟩ => exact (Nat.zero_add _).symm

theorem row_slice (l : Fin 4) {y : (⟨1, ![128]⟩ : Shape).Idx → EReal} {x x' : Stack2} {hs hc}
    (e : y = shapeCast ⟨1, ![128]⟩ (extractStridedSlice ⟨2, ![1, 128]⟩ ![l.val, 0] x hs) hc) (hx : x = x') :
    toRow y = stackRow l x' := by
  subst e hx
  funext j
  show shapeCast _ _ hc (ix1 j) = x (ix2 l j)
  rw [shapeCast_1a_a_apply]
  exact slice2_axis0_apply l.val x hs 0 j l (Nat.add_zero _).symm

theorem row1_slice (l : Fin 4) {y : (⟨2, ![1, 128]⟩ : Shape).Idx → EReal} {x x' : Stack2} {hs hc hc'}
    (e : y = shapeCast ⟨2, ![1, 128]⟩ (shapeCast ⟨1, ![128]⟩ (extractStridedSlice ⟨2, ![1, 128]⟩ ![l.val, 0] x hs) hc) hc')
    (hx : x = x') : toRow1 y = stackRow l x' := by
  subst e
  funext j
  show shapeCast _ _ hc' (ix2 0 j) = _
  rw [shapeCast_a_1a_apply]
  exact congrFun (row_slice l rfl hx) j

def paramsOf (l : Fin 4) (w1 : Stack3) (b1 g1 be1 : Stack2) (w2 : Stack3) (b2 gbn bbn : Stack2) : LayerParams :=
  ⟨stackMat l w1, stackRow l b1, stackRow l g1, stackRow l be1, stackMat l w2, stackRow l b2, stackRow l gbn, stackRow l bbn⟩

theorem paramsOf_finite (l : Fin 4) {w1 w2 : Stack3} {b1 g1 be1 b2 gbn bbn : Stack2}
    (hw1 : AllReal w1) (hb1 : AllReal b1) (hg1 : AllReal g1) (hbe1 : AllReal be1)
    (hw2 : AllReal w2) (hb2 : AllReal b2) (hgbn : AllReal gbn) (hbbn : AllReal bbn) :
    (paramsOf l w1 b1 g1 be1 w2 b2 gbn bbn).Finite :=
  ⟨fun i j => hw1 _, fun j => hb1 _, fun j => hg1 _, fun j => hbe1 _, fun i j => hw2 _, fun j => hb2 _,
   fun j => hgbn _, fun j => hbbn _⟩

theorem mk_congr {a a' e e' : Mat 128 128} {b b' c c' d d' f f' g g' h h' : Row 128}
    (ha : a = a') (hb : b = b') (hc : c = c') (hd : d = d') (he : e = e') (hf : f = f') (hg : g = g') (hh : h = h') :
    LayerParams.mk a b c d e f g h = LayerParams.mk a' b' c' d' e' f' g' h' := by
  subst ha hb hc hd he hf hg hh; rfl

section SingleAssignment
variable {τ : Topo} {sig : RefSig} {Val : EltTy → Type}
inductive Asc : Nat → List (HloOp τ sig Val) → Nat → Prop
  | nil (n : Nat) : Asc n [] n
  | cons {n e : Nat} {op : HloOp τ sig Val} {l : List (HloOp τ sig Val)} (y : Ref sig .tc)
      (hw : op.writes = {Proc.devRef .tc y}) (hn : n ≤ y.idx.val) (h : Asc (y.idx.val + 1) l e) : Asc n (op :: l) e
theorem ne_of_idx_lt {r y : Ref sig .tc} (h : r.idx.val < y.idx.val) : r ≠ y := fun e => by
  rw [e] at h; exact Nat.lt_irrefl _ h
theorem Asc.not_writes {n e : Nat} {l : List (HloOp τ sig Val)} (h : Asc n l e) {r : Ref sig .tc} (hr : r.idx.val < n) :
    ∀ op ∈ l, Proc.devRef (τ := τ) .tc r ∉ op.writes := by
  induction h with
  | nil n => intro op hop; exact absurd hop List.not_mem_nil
  | cons y hw hn h ih =>
    intro op hop
    rcases List.mem_cons.mp hop with rfl | hop
    · rw [hw, Finset.mem_singleton]
      exact devRef_ne_of_ne (ne_of_idx_lt (Nat.lt_of_lt_of_le hr hn))
    · exact ih (Nat.lt_succ_of_lt (Nat.lt_of_lt_of_le hr hn)) op hop
theorem Asc.keep {n e : Nat} {l : List (HloOp τ sig Val)} (h : Asc n l e) {r : Ref sig .tc} (hr : r.idx.val < n)
    (V : Valuation τ sig Val) : after l V (Proc.devRef .tc r) = V (Proc.devRef .tc r) :=
  after_of_forall_not_mem l V (h.not_writes hr)
theorem Asc.read {n e : Nat} {l : List (HloOp τ sig Val)} (h : Asc n l e) {op : HloOp τ sig Val} (hm : op ∈ l)
    {y : Ref sig .tc} (hw : op.writes = {Proc.devRef .tc y}) (V : Valuation τ sig Val) :
    ∃ W : Valuation τ sig Val, after l V (Proc.devRef .tc y) = op.result W (Proc.devRef .tc y)
      ∧ ∀ r : Ref sig .tc, r.idx.val < y.idx.val → W (Proc.devRef .tc r) = after l V (Proc.devRef .tc r) := by
  induction h generalizing V with
  | nil n => exact absurd hm List.not_mem_nil
  | @cons n e op' l' y' hw' hn h' ih =>
    rcases List.mem_cons.mp hm with rfl | hm'
    · have hy : y' = y := Proc.devRef_injective _ (Finset.singleton_injective (hw'.symm.trans hw))
      subst hy
      refine ⟨V, ?_, fun r hr => ?_⟩
      · rw [after_cons]; exact h'.keep (Nat.lt_succ_self _) _
      · rw [after_cons, h'.keep (Nat.lt_succ_of_lt hr), op.result_of_not_mem V]
        rw [hw, Finset.mem_singleton]
        exact devRef_ne_of_ne (ne_of_idx_lt hr)
    · obtain ⟨W, h1, h2⟩ := ih hm' (op'.result V)
      exact ⟨W, by rw [after_cons]; exact h1, fun r hr => by rw [after_cons]; exact h2 r hr⟩

-- A slice and the reshape of its result, both of the line: the reshape's buffer ends at both applied to the operand's final contents.
theorem Asc.read_pair {n e : Nat} {l : List (HloOp τ sig Val)} (h : Asc n l e) {x z y : Ref sig .tc}
    {f : x.ty.Contents Val → z.ty.Contents Val} {he : z.ty.elt = y.ty.elt} {hn : z.ty.shape.ShapeCasts y.ty.shape}
    {hx hz hz' hy} (h1 : unary x z f hx hz ∈ l) (h2 : reshape z y he hn hz' hy ∈ l)
    (hlt : x.idx.val < z.idx.val ∧ z.idx.val < y.idx.val) (V : Valuation τ sig Val) :
    after l V (Proc.devRef .tc y) = fun k => he ▸ shapeCast y.ty.shape (f (after l V (Proc.devRef .tc x))) hn k := by
  obtain ⟨W, a1, a2⟩ := h.read h2 (reshape_writes z y he hn hz' hy) V
  obtain ⟨W', b1, b2⟩ := h.read h1 (unary_writes x z f hx hz) V
  rw [a1, reshape_result, a2 z hlt.2, b1, unary_result, b2 x hlt.1]

end SingleAssignment

section KernelKeep
open Cert.KernelIdeal Cert.KernelIdeal.Gen

variable {F : FTy → Type} [FloatOps F]
variable (μ : (ℓ : Loc Cert.KernelIdeal.nD Cert.KernelIdeal.τ Cert.KernelIdeal.sig) → Buf (Elt F) ℓ) (o : Gen.Outs (F := F))

abbrev written2 : List (Ref sig .tc) := ([] ++ hostOps0_W) ++ [main_v21_0, main_v21_1, main_v21_2]
abbrev written4 : List (Ref sig .tc) := (written2 ++ hostOps1_W) ++ [main_v39_0, main_v39_1, main_v39_2]
abbrev written6 : List (Ref sig .tc) := (written4 ++ hostOps2_W) ++ [main_v52]
abbrev written8 : List (Ref sig .tc) := (written6 ++ hostOps3_W) ++ [main_v74_0, main_v74_1, main_v74_2]
abbrev written10 : List (Ref sig .tc) := (written8 ++ hostOps4_W) ++ [main_v92_0, main_v92_1, main_v92_2]
abbrev written12 : List (Ref sig .tc) := (written10 ++ hostOps5_W) ++ [main_v105]
abbrev written14 : List (Ref sig .tc) := (written12 ++ hostOps6_W) ++ [main_v127_0, main_v127_1, main_v127_2]
abbrev written16 : List (Ref sig .tc) := (written14 ++ hostOps7_W) ++ [main_v145_0, main_v145_1, main_v145_2]
abbrev written18 : List (Ref sig .tc) := (written16 ++ hostOps8_W) ++ [main_v158]
abbrev written20 : List (Ref sig .tc) := (written18 ++ hostOps9_W) ++ [main_v180_0, main_v180_1, main_v180_2]
abbrev written22 : List (Ref sig .tc) := (written20 ++ hostOps10_W) ++ [main_v198_0, main_v198_1, main_v198_2]

theorem keep_step {R T : Type} {r : R} {w a b : List R} {A B C D : T}
    (hAB : r ∉ b → A = B) (hBC : r ∉ a → B = C) (hCD : r ∉ w → C = D) (h : r ∉ (w ++ a) ++ b) : A = D :=
  (hAB fun hm => h (List.mem_append_right _ hm)).trans <|
    (hBC fun hm => h (List.mem_append_left _ (List.mem_append_right _ hm))).trans <|
      hCD fun hm => h (List.mem_append_left _ (List.mem_append_left _ hm))

theorem keep2 (c : Dev nD) (r : Ref sig .tc) : r ∉ written2 → V2 μ o c r = μ ((c : Thread nD τ).loc r) :=
  keep_step (V2_of μ o c r) (V1_of μ c r) fun _ => rfl
theorem keep4 (c : Dev nD) (r : Ref sig .tc) : r ∉ written4 → V4 μ o c r = μ ((c : Thread nD τ).loc r) :=
  keep_step (V4_of μ o c r) (V3_of μ o c r) (keep2 μ o c r)
theorem keep6 (c : Dev nD) (r : Ref sig .tc) : r ∉ written6 → V6 μ o c r = μ ((c : Thread nD τ).loc r) :=
  keep_step (V6_of μ o c r) (V5_of μ o c r) (keep4 μ o c r)
theorem keep8 (c : Dev nD) (r : Ref sig .tc) : r ∉ written8 → V8 μ o c r = μ ((c : Thread nD τ).loc r) :=
  keep_step (V8_of μ o c r) (V7_of μ o c r) (keep6 μ o c r)
theorem keep10 (c : Dev nD) (r : Ref sig .tc) : r ∉ written10 → V10 μ o c r = μ ((c : Thread nD τ).loc r) :=
  keep_step (V10_of μ o c r) (V9_of μ o c r) (keep8 μ o c r)
theorem keep12 (c : Dev nD) (r : Ref sig .tc) : r ∉ written12 → V12 μ o c r = μ ((c : Thread nD τ).loc r) :=
  keep_step (V12_of μ o c r) (V11_of μ o c r) (keep10 μ o c r)
theorem keep14 (c : Dev nD) (r : Ref sig .tc) : r ∉ written14 → V14 μ o c r = μ ((c : Thread nD τ).loc r) :=
  keep_step (V14_of μ o c r) (V13_of μ o c r) (keep12 μ o c r)
theorem keep16 (c : Dev nD) (r : Ref sig .tc) : r ∉ written16 → V16 μ o c r = μ ((c : Thread nD τ).loc r) :=
  keep_step (V16_of μ o c r) (V15_of μ o c r) (keep14 μ o c r)
theorem keep18 (c : Dev nD) (r : Ref sig .tc) : r ∉ written18 → V18 μ o c r = μ ((c : Thread nD τ).loc r) :=
  keep_step (V18_of μ o c r) (V17_of μ o c r) (keep16 μ o c r)
theorem keep20 (c : Dev nD) (r : Ref sig .tc) : r ∉ written20 → V20 μ o c r = μ ((c : Thread nD τ).loc r) :=
  keep_step (V20_of μ o c r) (V19_of μ o c r) (keep18 μ o c r)
theorem keep22 (c : Dev nD) (r : Ref sig .tc) : r ∉ written22 → V22 μ o c r = μ ((c : Thread nD τ).loc r) :=
  keep_step (V22_of μ o c r) (V21_of μ o c r) (keep20 μ o c r)

end KernelKeep

section ReferenceLine
open Cert.ReferenceIdeal Cert.ReferenceIdeal.Gen Cert.ReferenceIdeal.Hand

variable {F : FTy → Type} [FloatOps F]

theorem asc : Asc 18 (ops : List (HloOp τ sig (Elt F))) 586 := by
  repeat (first | exact Asc.nil _ | refine Asc.cons _ rfl (by decide) ?_)

theorem rd {x z y : Ref sig .tc} {f : x.ty.Contents (Elt Ideal) → z.ty.Contents (Elt Ideal)} {he : z.ty.elt = y.ty.elt}
    {hn : z.ty.shape.ShapeCasts y.ty.shape} {hx hz hz' hy} (i : Nat)
    (h1 : (ops (F := Ideal))[i]? = some (unary x z f hx hz)) (h2 : (ops (F := Ideal))[i + 1]? = some (reshape z y he hn hz' hy))
    (hlt : x.idx.val < z.idx.val ∧ z.idx.val < y.idx.val) (V : Valuation τ sig (Elt Ideal)) :
    after ops V (Proc.devRef .tc y) = fun k => he ▸ shapeCast y.ty.shape (f (after ops V (Proc.devRef .tc x))) hn k :=
  asc.read_pair (List.mem_of_getElem? h1) (List.mem_of_getElem? h2) hlt V

end ReferenceLine

section KernelLayers
open Cert.KernelIdeal Cert.KernelIdeal.Gen Cert.KernelIdeal.Hand Cert.Spec

abbrev argsK (l : Fin 4) (c : Dev nD) : LayerParams :=
  paramsOf l (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))
    (m ((c.tc : Thread nD τ).loc main_arg12)) (m ((c.tc : Thread nD τ).loc main_arg13))

theorem argsK_finite (hpre : Cert.Pre_KernelIdeal m) (l : Fin 4) (c : Dev nD) : (argsK m l c).Finite :=
  let ⟨_, _, h6, h7, h8, h9, h10, h11, h12, h13⟩ := finite_args m hpre c
  paramsOf_finite l h6 h7 h8 h9 h10 h11 h12 h13

theorem W2_arg (c : Dev nD) (r : Ref sig .tc) (h : r ∉ written2) : W2 m c r = m ((c : Thread nD τ).loc r) :=
  V_eq_2 m c ▸ keep2 m (outs m) c r h
theorem W4_arg (c : Dev nD) (r : Ref sig .tc) (h : r ∉ written4) : W4 m c r = m ((c : Thread nD τ).loc r) :=
  V_eq_4 m c ▸ keep4 m (outs m) c r h
theorem W6_arg (c : Dev nD) (r : Ref sig .tc) (h : r ∉ written6) : W6 m c r = m ((c : Thread nD τ).loc r) :=
  V_eq_6 m c ▸ keep6 m (outs m) c r h
theorem W8_arg (c : Dev nD) (r : Ref sig .tc) (h : r ∉ written8) : W8 m c r = m ((c : Thread nD τ).loc r) :=
  V_eq_8 m c ▸ keep8 m (outs m) c r h
theorem W10_arg (c : Dev nD) (r : Ref sig .tc) (h : r ∉ written10) : W10 m c r = m ((c : Thread nD τ).loc r) :=
  V_eq_10 m c ▸ keep10 m (outs m) c r h
theorem W12_arg (c : Dev nD) (r : Ref sig .tc) (h : r ∉ written12) : W12 m c r = m ((c : Thread nD τ).loc r) :=
  V_eq_12 m c ▸ keep12 m (outs m) c r h
theorem W14_arg (c : Dev nD) (r : Ref sig .tc) (h : r ∉ written14) : W14 m c r = m ((c : Thread nD τ).loc r) :=
  V_eq_14 m c ▸ keep14 m (outs m) c r h
theorem W16_arg (c : Dev nD) (r : Ref sig .tc) (h : r ∉ written16) : W16 m c r = m ((c : Thread nD τ).loc r) :=
  V_eq_16 m c ▸ keep16 m (outs m) c r h
theorem W18_arg (c : Dev nD) (r : Ref sig .tc) (h : r ∉ written18) : W18 m c r = m ((c : Thread nD τ).loc r) :=
  V_eq_18 m c ▸ keep18 m (outs m) c r h
theorem W20_arg (c : Dev nD) (r : Ref sig .tc) (h : r ∉ written20) : W20 m c r = m ((c : Thread nD τ).loc r) :=
  V_eq_20 m c ▸ keep20 m (outs m) c r h
theorem W22_arg (c : Dev nD) (r : Ref sig .tc) (h : r ∉ written22) : W22 m c r = m ((c : Thread nD τ).loc r) :=
  V_eq_22 m c ▸ keep22 m (outs m) c r h

abbrev fieldsK0 (c : Dev nD) : LayerParams :=
  ⟨toMat (W1 m c main_v17 : S128x128.Idx → EReal), toRow1 (W1 m c main_v20 : S1x128.Idx → EReal),
   toRow1 (W3 m c main_v30 : S1x128.Idx → EReal), toRow1 (W3 m c main_v33 : S1x128.Idx → EReal),
   toMat (W3 m c main_v35 : S128x128.Idx → EReal), toRow1 (W3 m c main_v38 : S1x128.Idx → EReal),
   toRow1 (W5 m c main_v48 : S1x128.Idx → EReal), toRow1 (W5 m c main_v51 : S1x128.Idx → EReal)⟩
abbrev fieldsK1 (c : Dev nD) : LayerParams :=
  ⟨toMat (W7 m c main_v70 : S128x128.Idx → EReal), toRow1 (W7 m c main_v73 : S1x128.Idx → EReal),
   toRow1 (W9 m c main_v83 : S1x128.Idx → EReal), toRow1 (W9 m c main_v86 : S1x128.Idx → EReal),
   toMat (W9 m c main_v88 : S128x128.Idx → EReal), toRow1 (W9 m c main_v91 : S1x128.Idx → EReal),
   toRow1 (W11 m c main_v101 : S1x128.Idx → EReal), toRow1 (W11 m c main_v104 : S1x128.Idx → EReal)⟩
abbrev fieldsK2 (c : Dev nD) : LayerParams :=
  ⟨toMat (W13 m c main_v123 : S128x128.Idx → EReal), toRow1 (W13 m c main_v126 : S1x128.Idx → EReal),
   toRow1 (W15 m c main_v136 : S1x128.Idx → EReal), toRow1 (W15 m c main_v139 : S1x128.Idx → EReal),
   toMat (W15 m c main_v141 : S128x128.Idx → EReal), toRow1 (W15 m c main_v144 : S1x128.Idx → EReal),
   toRow1 (W17 m c main_v154 : S1x128.Idx → EReal), toRow1 (W17 m c main_v157 : S1x128.Idx → EReal)⟩
abbrev fieldsK3 (c : Dev nD) : LayerParams :=
  ⟨toMat (W19 m c main_v176 : S128x128.Idx → EReal), toRow1 (W19 m c main_v179 : S1x128.Idx → EReal),
   toRow1 (W21 m c main_v189 : S1x128.Idx → EReal), toRow1 (W21 m c main_v192 : S1x128.Idx → EReal),
   toMat (W21 m c main_v194 : S128x128.Idx → EReal), toRow1 (W21 m c main_v197 : S1x128.Idx → EReal),
   toRow1 (W23 m c main_v207 : S1x128.Idx → EReal), toRow1 (W23 m c main_v210 : S1x128.Idx → EReal)⟩

theorem fieldsK0_eq (c : Dev nD) : fieldsK0 m c = argsK m 0 c :=
  mk_congr (mat_slice 0 (by after_results; rfl) rfl) (row1_slice 0 (by after_results; rfl) rfl)
    (row1_slice 0 (by after_results; rfl) (W2_arg m c main_arg8 (by decide)))
    (row1_slice 0 (by after_results; rfl) (W2_arg m c main_arg9 (by decide)))
    (mat_slice 0 (by after_results; rfl) (W2_arg m c main_arg10 (by decide)))
    (row1_slice 0 (by after_results; rfl) (W2_arg m c main_arg11 (by decide)))
    (row1_slice 0 (by after_results; rfl) (W4_arg m c main_arg12 (by decide)))
    (row1_slice 0 (by after_results; rfl) (W4_arg m c main_arg13 (by decide)))
theorem fieldsK1_eq (c : Dev nD) : fieldsK1 m c = argsK m 1 c :=
  mk_congr (mat_slice 1 (by after_results; rfl) (W6_arg m c main_arg6 (by decide))) (row1_slice 1 (by after_results; rfl) (W6_arg m c main_arg7 (by decide)))
    (row1_slice 1 (by after_results; rfl) (W8_arg m c main_arg8 (by decide)))
    (row1_slice 1 (by after_results; rfl) (W8_arg m c main_arg9 (by decide)))
    (mat_slice 1 (by after_results; rfl) (W8_arg m c main_arg10 (by decide)))
    (row1_slice 1 (by after_results; rfl) (W8_arg m c main_arg11 (by decide)))
    (row1_slice 1 (by after_results; rfl) (W10_arg m c main_arg12 (by decide)))
    (row1_slice 1 (by after_results; rfl) (W10_arg m c main_arg13 (by decide)))
theorem fieldsK2_eq (c : Dev nD) : fieldsK2 m c = argsK m 2 c :=
  mk_congr (mat_slice 2 (by after_results; rfl) (W12_arg m c main_arg6 (by decide))) (row1_slice 2 (by after_results; rfl) (W12_arg m c main_arg7 (by decide)))
    (row1_slice 2 (by after_results; rfl) (W14_arg m c main_arg8 (by decide)))
    (row1_slice 2 (by after_results; rfl) (W14_arg m c main_arg9 (by decide)))
    (mat_slice 2 (by after_results; rfl) (W14_arg m c main_arg10 (by decide)))
    (row1_slice 2 (by after_results; rfl) (W14_arg m c main_arg11 (by decide)))
    (row1_slice 2 (by after_results; rfl) (W16_arg m c main_arg12 (by decide)))
    (row1_slice 2 (by after_results; rfl) (W16_arg m c main_arg13 (by decide)))
theorem fieldsK3_eq (c : Dev nD) : fieldsK3 m c = argsK m 3 c :=
  mk_congr (mat_slice 3 (by after_results; rfl) (W18_arg m c main_arg6 (by decide))) (row1_slice 3 (by after_results; rfl) (W18_arg m c main_arg7 (by decide)))
    (row1_slice 3 (by after_results; rfl) (W20_arg m c main_arg8 (by decide)))
    (row1_slice 3 (by after_results; rfl) (W20_arg m c main_arg9 (by decide)))
    (mat_slice 3 (by after_results; rfl) (W20_arg m c main_arg10 (by decide)))
    (row1_slice 3 (by after_results; rfl) (W20_arg m c main_arg11 (by decide)))
    (row1_slice 3 (by after_results; rfl) (W22_arg m c main_arg12 (by decide)))
    (row1_slice 3 (by after_results; rfl) (W22_arg m c main_arg13 (by decide)))

end KernelLayers

section ReferenceLayers
open Cert.ReferenceIdeal Cert.ReferenceIdeal.Gen Cert.ReferenceIdeal.Hand Cert.Spec

abbrev argsR (l : Fin 4) (c : Dev nD) : LayerParams :=
  paramsOf l (m' ((c.tc : Thread nD τ).loc main_arg6)) (m' ((c.tc : Thread nD τ).loc main_arg7))
    (m' ((c.tc : Thread nD τ).loc main_arg8)) (m' ((c.tc : Thread nD τ).loc main_arg9))
    (m' ((c.tc : Thread nD τ).loc main_arg10)) (m' ((c.tc : Thread nD τ).loc main_arg11))
    (m' ((c.tc : Thread nD τ).loc main_arg12)) (m' ((c.tc : Thread nD τ).loc main_arg13))

abbrev endR (c : Dev nD) : Valuation τ sig (Elt Ideal) := after (ops (F := Ideal)) (launchContents m' c)

abbrev fieldsR0 (c : Dev nD) : LayerParams :=
  ⟨toMat (endR m' c main_v17 : S128x128.Idx → EReal),
   toRow (endR m' c main_v20 : S128.Idx → EReal),
   toRow (endR m' c main_v25 : S128.Idx → EReal),
   toRow (endR m' c main_v27 : S128.Idx → EReal),
   toMat (endR m' c main_v49 : S128x128.Idx → EReal),
   toRow (endR m' c main_v52 : S128.Idx → EReal),
   toRow (endR m' c main_v57 : S128.Idx → EReal),
   toRow (endR m' c main_v59 : S128.Idx → EReal)⟩
abbrev fieldsR1 (c : Dev nD) : LayerParams :=
  ⟨toMat (endR m' c main_v97 : S128x128.Idx → EReal),
   toRow (endR m' c main_v100 : S128.Idx → EReal),
   toRow (endR m' c main_v105 : S128.Idx → EReal),
   toRow (endR m' c main_v107 : S128.Idx → EReal),
   toMat (endR m' c main_v129 : S128x128.Idx → EReal),
   toRow (endR m' c main_v132 : S128.Idx → EReal),
   toRow (endR m' c main_v137 : S128.Idx → EReal),
   toRow (endR m' c main_v139 : S128.Idx → EReal)⟩
abbrev fieldsR2 (c : Dev nD) : LayerParams :=
  ⟨toMat (endR m' c main_v177 : S128x128.Idx → EReal),
   toRow (endR m' c main_v180 : S128.Idx → EReal),
   toRow (endR m' c main_v185 : S128.Idx → EReal),
   toRow (endR m' c main_v187 : S128.Idx → EReal),
   toMat (endR m' c main_v209 : S128x128.Idx → EReal),
   toRow (endR m' c main_v212 : S128.Idx → EReal),
   toRow (endR m' c main_v217 : S128.Idx → EReal),
   toRow (endR m' c main_v219 : S128.Idx → EReal)⟩
abbrev fieldsR3 (c : Dev nD) : LayerParams :=
  ⟨toMat (endR m' c main_v257 : S128x128.Idx → EReal),
   toRow (endR m' c main_v260 : S128.Idx → EReal),
   toRow (endR m' c main_v265 : S128.Idx → EReal),
   toRow (endR m' c main_v267 : S128.Idx → EReal),
   toMat (endR m' c main_v289 : S128x128.Idx → EReal),
   toRow (endR m' c main_v292 : S128.Idx → EReal),
   toRow (endR m' c main_v297 : S128.Idx → EReal),
   toRow (endR m' c main_v299 : S128.Idx → EReal)⟩

theorem fieldsR0_eq (c : Dev nD) : fieldsR0 m' c = argsR m' 0 c :=
  mk_congr (mat_slice 0 (rd 20 rfl rfl (by decide) _) (arg_kept6 m' c))
    (row_slice 0 (rd 23 rfl rfl (by decide) _) (arg_kept7 m' c))
    (row_slice 0 (rd 28 rfl rfl (by decide) _) (arg_kept8 m' c))
    (row_slice 0 (rd 30 rfl rfl (by decide) _) (arg_kept9 m' c))
    (mat_slice 0 (rd 79 rfl rfl (by decide) _) (arg_kept10 m' c))
    (row_slice 0 (rd 82 rfl rfl (by decide) _) (arg_kept11 m' c))
    (row_slice 0 (rd 87 rfl rfl (by decide) _) (arg_kept12 m' c))
    (row_slice 0 (rd 89 rfl rfl (by decide) _) (arg_kept13 m' c))
theorem fieldsR1_eq (c : Dev nD) : fieldsR1 m' c = argsR m' 1 c :=
  mk_congr (mat_slice 1 (rd 158 rfl rfl (by decide) _) (arg_kept6 m' c))
    (row_slice 1 (rd 161 rfl rfl (by decide) _) (arg_kept7 m' c))
    (row_slice 1 (rd 166 rfl rfl (by decide) _) (arg_kept8 m' c))
    (row_slice 1 (rd 168 rfl rfl (by decide) _) (arg_kept9 m' c))
    (mat_slice 1 (rd 217 rfl rfl (by decide) _) (arg_kept10 m' c))
    (row_slice 1 (rd 220 rfl rfl (by decide) _) (arg_kept11 m' c))
    (row_slice 1 (rd 225 rfl rfl (by decide) _) (arg_kept12 m' c))
    (row_slice 1 (rd 227 rfl rfl (by decide) _) (arg_kept13 m' c))
theorem fieldsR2_eq (c : Dev nD) : fieldsR2 m' c = argsR m' 2 c :=
  mk_congr (mat_slice 2 (rd 296 rfl rfl (by decide) _) (arg_kept6 m' c))
    (row_slice 2 (rd 299 rfl rfl (by decide) _) (arg_kept7 m' c))
    (row_slice 2 (rd 304 rfl rfl (by decide) _) (arg_kept8 m' c))
    (row_slice 2 (rd 306 rfl rfl (by decide) _) (arg_kept9 m' c))
    (mat_slice 2 (rd 355 rfl rfl (by decide) _) (arg_kept10 m' c))
    (row_slice 2 (rd 358 rfl rfl (by decide) _) (arg_kept11 m' c))
    (row_slice 2 (rd 363 rfl rfl (by decide) _) (arg_kept12 m' c))
    (row_slice 2 (rd 365 rfl rfl (by decide) _) (arg_kept13 m' c))
theorem fieldsR3_eq (c : Dev nD) : fieldsR3 m' c = argsR m' 3 c :=
  mk_congr (mat_slice 3 (rd 434 rfl rfl (by decide) _) (arg_kept6 m' c))
    (row_slice 3 (rd 437 rfl rfl (by decide) _) (arg_kept7 m' c))
    (row_slice 3 (rd 442 rfl rfl (by decide) _) (arg_kept8 m' c))
    (row_slice 3 (rd 444 rfl rfl (by decide) _) (arg_kept9 m' c))
    (mat_slice 3 (rd 493 rfl rfl (by decide) _) (arg_kept10 m' c))
    (row_slice 3 (rd 496 rfl rfl (by decide) _) (arg_kept11 m' c))
    (row_slice 3 (rd 501 rfl rfl (by decide) _) (arg_kept12 m' c))
    (row_slice 3 (rd 503 rfl rfl (by decide) _) (arg_kept13 m' c))

end ReferenceLayers

abbrev Agree : Prop :=
  ∀ c : Dev Cert.KernelIdeal.nD,
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
    ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
    ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
    ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
    ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
    ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)

theorem args_agree (hagree : Agree m m') (l : Fin 4) (c : Dev Cert.KernelIdeal.nD) : argsR m' l c = argsK m l c :=
  let ⟨_, _, _, _, _, _, h6, h7, h8, h9, h10, h11, h12, h13, _⟩ := hagree c
  mk_congr (congrArg (stackMat l) h6) (congrArg (stackRow l) h7) (congrArg (stackRow l) h8) (congrArg (stackRow l) h9)
    (congrArg (stackMat l) h10) (congrArg (stackRow l) h11) (congrArg (stackRow l) h12) (congrArg (stackRow l) h13)

end Params

theorem params_link0 (c : Dev Cert.KernelIdeal.nD) (hagree : Params.Agree m m') :
    Params.fieldsR0 m' c = Params.fieldsK0 m c :=
  (Params.fieldsR0_eq m' c).trans ((Params.args_agree m m' hagree 0 c).trans (Params.fieldsK0_eq m c).symm)
theorem params_link1 (c : Dev Cert.KernelIdeal.nD) (hagree : Params.Agree m m') :
    Params.fieldsR1 m' c = Params.fieldsK1 m c :=
  (Params.fieldsR1_eq m' c).trans ((Params.args_agree m m' hagree 1 c).trans (Params.fieldsK1_eq m c).symm)
theorem params_link2 (c : Dev Cert.KernelIdeal.nD) (hagree : Params.Agree m m') :
    Params.fieldsR2 m' c = Params.fieldsK2 m c :=
  (Params.fieldsR2_eq m' c).trans ((Params.args_agree m m' hagree 2 c).trans (Params.fieldsK2_eq m c).symm)
theorem params_link3 (c : Dev Cert.KernelIdeal.nD) (hagree : Params.Agree m m') :
    Params.fieldsR3 m' c = Params.fieldsK3 m c :=
  (Params.fieldsR3_eq m' c).trans ((Params.args_agree m m' hagree 3 c).trans (Params.fieldsK3_eq m c).symm)
theorem params_finite0 (c : Dev Cert.KernelIdeal.nD) (hpre : Cert.Pre_KernelIdeal m) : (Params.fieldsK0 m c).Finite :=
  (Params.fieldsK0_eq m c).symm ▸ Params.argsK_finite m hpre 0 c
theorem params_finite1 (c : Dev Cert.KernelIdeal.nD) (hpre : Cert.Pre_KernelIdeal m) : (Params.fieldsK1 m c).Finite :=
  (Params.fieldsK1_eq m c).symm ▸ Params.argsK_finite m hpre 1 c
theorem params_finite2 (c : Dev Cert.KernelIdeal.nD) (hpre : Cert.Pre_KernelIdeal m) : (Params.fieldsK2 m c).Finite :=
  (Params.fieldsK2_eq m c).symm ▸ Params.argsK_finite m hpre 2 c
theorem params_finite3 (c : Dev Cert.KernelIdeal.nD) (hpre : Cert.Pre_KernelIdeal m) : (Params.fieldsK3 m c).Finite :=
  (Params.fieldsK3_eq m c).symm ▸ Params.argsK_finite m hpre 3 c
end Cert.Proof.Link

end
-- ==== Proof.KI.R12Val.lean ====
import proofs.«105940_j32358283608240_1_alg».proof.Proof.KI.R12
import proofs.«105940_j32358283608240_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.Spec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

def catRow12 (x : Fin 5 → Vec Ideal S1000x128 .f32) (p : Fin 1000) (k : Fin 640) : EReal :=
  x ⟨k.val / 128, by have := k.isLt; omega⟩ (ix2 p ⟨k.val % 128, Nat.mod_lt _ (by decide)⟩)

def score12 (x : Fin 5 → Vec Ideal S1000x128 .f32) (w : Vec Ideal S640x1 .f32) (b : Vec Ideal S1x1 .f32) (p : Fin 1000) : EReal :=
  (∑ k : Fin 640, catRow12 x p k * w (ix2 k 0)) + b (ix2 0 0)

theorem lhs12_0 (i : S1000x1.Idx) (q : dot_S1000x640_S640x1_S1000x1_1_0_0_1_n_n.contr.Idx) :
    (dot_S1000x640_S640x1_S1000x1_1_0_0_1_n_n.lhsIdx i q 0).val = (i 0).val := by
  unfold DotDims.lhsIdx
  rw [dif_neg (show ¬(0 : Fin S1000x640.rank) ∈ dot_S1000x640_S640x1_S1000x1_1_0_0_1_n_n.lhsBatch by decide), dif_pos (show (0 : Fin S1000x640.rank) ∈ dot_S1000x640_S640x1_S1000x1_1_0_0_1_n_n.lhsNonContracting by decide)]
  rfl

theorem lhs12_1 (i : S1000x1.Idx) (q : dot_S1000x640_S640x1_S1000x1_1_0_0_1_n_n.contr.Idx) :
    (dot_S1000x640_S640x1_S1000x1_1_0_0_1_n_n.lhsIdx i q 1).val = (q ⟨0, by decide⟩).val :=
  dot_S1000x640_S640x1_S1000x1_1_0_0_1_n_n.lhsIdx_val_of_single rfl i q

theorem rhs12_0 (i : S1000x1.Idx) (q : dot_S1000x640_S640x1_S1000x1_1_0_0_1_n_n.contr.Idx) :
    (dot_S1000x640_S640x1_S1000x1_1_0_0_1_n_n.rhsIdx i q 0).val = (q ⟨0, by decide⟩).val :=
  dot_S1000x640_S640x1_S1000x1_1_0_0_1_n_n.rhsIdx_val_of_single rfl i q

theorem rhs12_1 (i : S1000x1.Idx) (q : dot_S1000x640_S640x1_S1000x1_1_0_0_1_n_n.contr.Idx) :
    (dot_S1000x640_S640x1_S1000x1_1_0_0_1_n_n.rhsIdx i q 1).val = (i 1).val := by
  unfold DotDims.rhsIdx
  rw [dif_neg (show ¬(1 : Fin S640x1.rank) ∈ dot_S1000x640_S640x1_S1000x1_1_0_0_1_n_n.rhsBatch by decide), dif_pos (show (1 : Fin S640x1.rank) ∈ dot_S1000x640_S640x1_S1000x1_1_0_0_1_n_n.rhsNonContracting by decide)]
  rfl

theorem bcastCol12 {α : Type} (v : S1000x1.Idx → α) (p : Fin 1000) (q : Fin 128) :
    broadcastTo S1000x128 v broadcasts_S1000x1_S1000x128 (ix2 p q) = v (ix2 p 0) := by
  refine broadcastTo_apply v broadcasts_S1000x1_S1000x128 (ix2 p q) (ix2 p (0 : Fin 1)) fun ax => ?_
  match ax with
  | ⟨0, _⟩ => rfl
  | ⟨1, _⟩ => rfl

theorem bcastOne12 {α : Type} (v : S1x1.Idx → α) (p : Fin 1000) :
    broadcastTo S1000x1 v broadcasts_S1x1_S1000x1 (ix2 p 0) = v (ix2 0 0) := by
  refine broadcastTo_apply v broadcasts_S1x1_S1000x1 (ix2 p (0 : Fin 1)) (ix2 (0 : Fin 1) (0 : Fin 1)) fun ax => ?_
  match ax with
  | ⟨0, _⟩ => rfl
  | ⟨1, _⟩ => rfl

theorem cat12_apply (x0 x1 x2 x3 x4 : Vec Ideal S1000x128 .f32) (p : Fin 1000) (k : Fin 640) :
    concatenate S1000x640 1 [⟨S1000x128, x0⟩, ⟨S1000x128, x1⟩, ⟨S1000x128, x2⟩, ⟨S1000x128, x3⟩, ⟨S1000x128, x4⟩]
      concatenates_S1000x128_S1000x128_S1000x128_S1000x128_S1000x128_S1000x640_d1 (ix2 p k) = catRow12 ![x0, x1, x2, x3, x4] p k := by
  have hk := k.isLt
  exact concatenate_ofFn_apply (t := S1000x640) (s₁ := S1000x128) (1 : Fin S1000x640.rank) (N := 5) ![x0, x1, x2, x3, x4]
    concatenates_S1000x128_S1000x128_S1000x128_S1000x128_S1000x128_S1000x640_d1 rfl 128 rfl (ix2 p k) ⟨k.val / 128, by omega⟩ rfl
    (ix2 p ⟨k.val % 128, Nat.mod_lt _ (by decide)⟩) rfl
    (fun b' => match b' with
      | ⟨0, _⟩ => fun _ => rfl
      | ⟨1, _⟩ => fun h => absurd rfl h)

theorem pay5_apply12 (x0 x1 x2 x3 x4 : Vec Ideal S1000x128 .f32) (w : Vec Ideal S640x1 .f32) (b : Vec Ideal S1x1 .f32) (p : Fin 1000) :
    k12_pay5 x0 x1 x2 x3 x4 w b (ix2 p 0) = score12 ![x0, x1, x2, x3, x4] w b p := by
  unfold k12_pay5 k12_pay1 k12_pay2 k12_pay3 k12_pay4 score12
  simp only [matmul]
  rw [addf_apply, Ideal.matmul_constant_zero_apply, ← Equiv.sum_comp (contrEquiv1 dot_S1000x640_S640x1_S1000x1_1_0_0_1_n_n 640 rfl rfl).symm, bcastOne12]
  congr 1
  swap
  · rw [shapeCast_self]
  refine Finset.sum_congr rfl fun k _ => ?_
  have hk := contrEquiv1_symm_val dot_S1000x640_S640x1_S1000x1_1_0_0_1_n_n 640 rfl rfl k
  have el : dot_S1000x640_S640x1_S1000x1_1_0_0_1_n_n.lhsIdx (ix2 p 0) ((contrEquiv1 dot_S1000x640_S640x1_S1000x1_1_0_0_1_n_n 640 rfl rfl).symm k) = ix2 p k := funext fun a => Fin.ext (by
    match a with
    | ⟨0, _⟩ => exact lhs12_0 _ _
    | ⟨1, _⟩ => exact (lhs12_1 _ _).trans hk)
  have er : dot_S1000x640_S640x1_S1000x1_1_0_0_1_n_n.rhsIdx (ix2 p 0) ((contrEquiv1 dot_S1000x640_S640x1_S1000x1_1_0_0_1_n_n 640 rfl rfl).symm k) = ix2 k 0 := funext fun a => Fin.ext (by
    match a with
    | ⟨0, _⟩ => exact (rhs12_0 _ _).trans hk
    | ⟨1, _⟩ => exact rhs12_1 _ _)
  rw [el, er, truncf_apply, truncf_apply, cat12_apply]
  simp only [shapeCast_self]

theorem pay6_apply12 (x0 x1 x2 x3 x4 : Vec Ideal S1000x128 .f32) (w : Vec Ideal S640x1 .f32) (b : Vec Ideal S1x1 .f32) (p : Fin 1000) (q : Fin 128) :
    k12_pay6 x0 x1 x2 x3 x4 w b (ix2 p q) = x0 (ix2 p q) * score12 ![x0, x1, x2, x3, x4] w b p := by
  unfold k12_pay6
  rw [mulf_apply, bcastCol12, pay5_apply12]

theorem pay7_apply12 (x0 x1 x2 x3 x4 : Vec Ideal S1000x128 .f32) (w : Vec Ideal S640x1 .f32) (b : Vec Ideal S1x1 .f32) (p : Fin 1000) (q : Fin 128) :
    k12_pay7 x0 x1 x2 x3 x4 w b (ix2 p q) = x1 (ix2 p q) * score12 ![x0, x1, x2, x3, x4] w b p := by
  unfold k12_pay7 k12_pay1
  rw [mulf_apply, bcastCol12, pay5_apply12, shapeCast_self]

theorem pay8_apply12 (x0 x1 x2 x3 x4 : Vec Ideal S1000x128 .f32) (w : Vec Ideal S640x1 .f32) (b : Vec Ideal S1x1 .f32) (p : Fin 1000) (q : Fin 128) :
    k12_pay8 x0 x1 x2 x3 x4 w b (ix2 p q) = x2 (ix2 p q) * score12 ![x0, x1, x2, x3, x4] w b p := by
  unfold k12_pay8 k12_pay2
  rw [mulf_apply, bcastCol12, pay5_apply12, shapeCast_self]

theorem pay9_apply12 (x0 x1 x2 x3 x4 : Vec Ideal S1000x128 .f32) (w : Vec Ideal S640x1 .f32) (b : Vec Ideal S1x1 .f32) (p : Fin 1000) (q : Fin 128) :
    k12_pay9 x0 x1 x2 x3 x4 w b (ix2 p q) = x3 (ix2 p q) * score12 ![x0, x1, x2, x3, x4] w b p := by
  unfold k12_pay9 k12_pay3
  rw [mulf_apply, bcastCol12, pay5_apply12, shapeCast_self]

theorem pay10_apply12 (x0 x1 x2 x3 x4 : Vec Ideal S1000x128 .f32) (w : Vec Ideal S640x1 .f32) (b : Vec Ideal S1x1 .f32) (p : Fin 1000) (q : Fin 128) :
    k12_pay10 x0 x1 x2 x3 x4 w b (ix2 p q) = x4 (ix2 p q) * score12 ![x0, x1, x2, x3, x4] w b p := by
  unfold k12_pay10 k12_pay4
  rw [mulf_apply, bcastCol12, pay5_apply12, shapeCast_self]

variable (V : (c : Dev nD) → (b : Ref sig .tc) → Buf (Elt Ideal) ((c : Thread nD τ).loc b))

abbrev Rep0 (c : Dev nD) : Mat 100000 128 := toMat (V c (Pipeline.arrRef spec12 0) : S100000x128.Idx → EReal)
abbrev Rep1 (c : Dev nD) : Mat 100000 128 := toMat (V c (Pipeline.arrRef spec12 1) : S100000x128.Idx → EReal)
abbrev Rep2 (c : Dev nD) : Mat 100000 128 := toMat (V c (Pipeline.arrRef spec12 2) : S100000x128.Idx → EReal)
abbrev Rep3 (c : Dev nD) : Mat 100000 128 := toMat (V c (Pipeline.arrRef spec12 3) : S100000x128.Idx → EReal)
abbrev Rep4 (c : Dev nD) : Mat 100000 128 := toMat (V c (Pipeline.arrRef spec12 4) : S100000x128.Idx → EReal)
abbrev Rep (c : Dev nD) (s : Fin 5) : Mat 100000 128 := ![Rep0 V c, Rep1 V c, Rep2 V c, Rep3 V c, Rep4 V c] s
abbrev wAtt (c : Dev nD) : Fin 640 → EReal := fun k => (V c (Pipeline.arrRef spec12 5) : S640x1.Idx → EReal) (ix2 k 0)
abbrev bAtt (c : Dev nD) : EReal := (V c (Pipeline.arrRef spec12 6) : S1x1.Idx → EReal) (ix2 0 0)

def attnCol (c : Dev nD) : Fin 100000 → EReal := fun i =>
  (∑ k : Fin 640, Rep V c ⟨k.val / 128, by have := k.isLt; omega⟩ i ⟨k.val % 128, Nat.mod_lt _ (by decide)⟩ * wAtt V c k) + bAtt V c

abbrev xblk12_0 (c : Dev nD) (t : Fin cfg12.N) : Vec Ideal S1000x128 .f32 := iblk12 V c 0 t
abbrev xblk12_1 (c : Dev nD) (t : Fin cfg12.N) : Vec Ideal S1000x128 .f32 := iblk12 V c 1 t
abbrev xblk12_2 (c : Dev nD) (t : Fin cfg12.N) : Vec Ideal S1000x128 .f32 := iblk12 V c 2 t
abbrev xblk12_3 (c : Dev nD) (t : Fin cfg12.N) : Vec Ideal S1000x128 .f32 := iblk12 V c 3 t
abbrev xblk12_4 (c : Dev nD) (t : Fin cfg12.N) : Vec Ideal S1000x128 .f32 := iblk12 V c 4 t
abbrev wblk12 (c : Dev nD) (t : Fin cfg12.N) : Vec Ideal S640x1 .f32 := iblk12 V c 5 t
abbrev bblk12 (c : Dev nD) (t : Fin cfg12.N) : Vec Ideal S1x1 .f32 := iblk12 V c 6 t

def row12 (t : Fin cfg12.N) (p : Fin 1000) : Fin 100000 :=
  ⟨t.val * 1000 + p.val, by have := Nat.lt_of_lt_of_eq t.isLt N_12; have := p.isLt; omega⟩

theorem idx12_7 : ∀ t : Fin cfg12.N, win12_7.index t (0 : Fin 2) = t.val ∧ win12_7.index t (1 : Fin 2) = 0 :=
  (by decide +kernel : ∀ t : Fin grid12.N, _)
theorem idx12_5 : ∀ t : Fin cfg12.N, win12_5.index t (0 : Fin 2) = 0 ∧ win12_5.index t (1 : Fin 2) = 0 :=
  (by decide +kernel : ∀ t : Fin grid12.N, _)
theorem idx12_6 : ∀ t : Fin cfg12.N, win12_6.index t (0 : Fin 2) = 0 ∧ win12_6.index t (1 : Fin 2) = 0 :=
  (by decide +kernel : ∀ t : Fin grid12.N, _)

/-- The five row-block inputs and the five outputs have one index map, so their blocks at a point sit at the same rows of their arrays. -/
theorem emb12 (t : Fin cfg12.N) (p : Fin 1000) (q : Fin 128) : ((cfg12.win 7).blk t).view.emb (ix2 p q) = ix2 (row12 t p) q := by
  obtain ⟨e0, e1⟩ := idx12_7 t
  refine funext fun a => Fin.ext ?_
  match a with
  | ⟨0, _⟩ => show win12_7.index t (0 : Fin 2) * 1000 + 1 * p.val = t.val * 1000 + p.val; omega
  | ⟨1, _⟩ => show win12_7.index t (1 : Fin 2) * 128 + 1 * q.val = q.val; omega

theorem wblk12_apply (c : Dev nD) (t : Fin cfg12.N) (k : Fin 640) : wblk12 V c t (ix2 k 0) = wAtt V c k := by
  show V c (Pipeline.arrRef spec12 5) (((cfg12.win 5).blk t).view.emb (ix2 k 0)) = V c (Pipeline.arrRef spec12 5) (ix2 k 0)
  obtain ⟨e0, e1⟩ := idx12_5 t
  refine congrArg _ (funext fun a => Fin.ext ?_)
  match a with
  | ⟨0, _⟩ => show win12_5.index t (0 : Fin 2) * 640 + 1 * k.val = k.val; omega
  | ⟨1, _⟩ => show win12_5.index t (1 : Fin 2) * 1 + 1 * 0 = 0; omega

theorem bblk12_apply (c : Dev nD) (t : Fin cfg12.N) : bblk12 V c t (ix2 0 0) = bAtt V c := by
  show V c (Pipeline.arrRef spec12 6) (((cfg12.win 6).blk t).view.emb (ix2 0 0)) = V c (Pipeline.arrRef spec12 6) (ix2 0 0)
  obtain ⟨e0, e1⟩ := idx12_6 t
  refine congrArg _ (funext fun a => Fin.ext ?_)
  match a with
  | ⟨0, _⟩ => show win12_6.index t (0 : Fin 2) * 1 + 1 * 0 = 0; omega
  | ⟨1, _⟩ => show win12_6.index t (1 : Fin 2) * 1 + 1 * 0 = 0; omega

theorem xblk12_apply (c : Dev nD) (t : Fin cfg12.N) (p : Fin 1000) (q : Fin 128) (n : Fin 5) :
    ![xblk12_0 V c t, xblk12_1 V c t, xblk12_2 V c t, xblk12_3 V c t, xblk12_4 V c t] n (ix2 p q) = Rep V c n (row12 t p) q := by
  fin_cases n
  · exact congrArg (V c (Pipeline.arrRef spec12 0) : S100000x128.Idx → EReal) (emb12 t p q)
  · exact congrArg (V c (Pipeline.arrRef spec12 1) : S100000x128.Idx → EReal) (emb12 t p q)
  · exact congrArg (V c (Pipeline.arrRef spec12 2) : S100000x128.Idx → EReal) (emb12 t p q)
  · exact congrArg (V c (Pipeline.arrRef spec12 3) : S100000x128.Idx → EReal) (emb12 t p q)
  · exact congrArg (V c (Pipeline.arrRef spec12 4) : S100000x128.Idx → EReal) (emb12 t p q)

theorem score_blk12 (c : Dev nD) (t : Fin cfg12.N) (p : Fin 1000) :
    score12 ![xblk12_0 V c t, xblk12_1 V c t, xblk12_2 V c t, xblk12_3 V c t, xblk12_4 V c t] (wblk12 V c t) (bblk12 V c t) p = attnCol V c (row12 t p) := by
  unfold score12 attnCol catRow12
  rw [bblk12_apply]
  congr 1
  refine Finset.sum_congr rfl fun k _ => ?_
  rw [wblk12_apply, xblk12_apply]

/-- A block that is entrywise a row of `R` times the score of that row is block `t` of the array `R · score`. -/
theorem flush12 (c : Dev nD) (t : Fin cfg12.N) (R : Mat 100000 128) (X : Vec Ideal S1000x128 .f32)
    (hX : ∀ p q, X (ix2 p q) = R (row12 t p) q * attnCol V c (row12 t p)) :
    (cfg12.win 7).cut (grid12.coords t) X
      = ((cfg12.win 7).blk t).view.read (Elt Ideal) fun i : S100000x128.Idx => R (i 0) (i 1) * attnCol V c (i 0) := by
  funext j
  obtain ⟨p, q, rfl⟩ : ∃ (p : Fin 1000) (q : Fin 128), j = ix2 p q := ⟨j 0, j 1, eq_ix2 j⟩
  show X (ix2 p q) = (fun i : S100000x128.Idx => R (i 0) (i 1) * attnCol V c (i 0)) (((cfg12.win 7).blk t).view.emb (ix2 p q))
  rw [emb12]
  exact hX p q

theorem mem_blk12_7 (t : Fin cfg12.N) (i : S100000x128.Idx) :
    i ∈ ((cfg12.win 7).blk t).view.set ↔ ∀ a : Fin 2, win12_7.index t a * S1000x128.size a ≤ (i a).val ∧ (i a).val < win12_7.index t a * S1000x128.size a + S1000x128.size a := by
  show i ∈ ((View.whole main_v213_0).slice (win12_7.rect t)).set ↔ _
  rw [View.set_slice_whole, Rect.mem_set_unit]
  exact Iff.rfl

theorem cover12_7 (i : S100000x128.Idx) :
    ∃ t : Fin cfg12.N, (cfg12.win 7).flush t = true ∧ i ∈ ((cfg12.win 7).blk t).view.set := by
  have hi0 : (i 0).val < 100000 := (i 0).isLt
  have hi1 : (i 1).val < 128 := (i 1).isLt
  let t : Fin cfg12.N := ⟨(i 0).val / 1000, Nat.lt_of_lt_of_eq (by omega : (i 0).val / 1000 < 100) N_12.symm⟩
  obtain ⟨e0, e1⟩ := idx12_7 t
  have ht : t.val = (i 0).val / 1000 := rfl
  refine ⟨t, flush12_7 t, ?_⟩
  rw [mem_blk12_7]
  intro a
  match a with
  | ⟨0, _⟩ => show win12_7.index t (0 : Fin 2) * 1000 ≤ (i 0).val ∧ (i 0).val < win12_7.index t (0 : Fin 2) * 1000 + 1000; omega
  | ⟨1, _⟩ => show win12_7.index t (1 : Fin 2) * 128 ≤ (i 1).val ∧ (i 1).val < win12_7.index t (1 : Fin 2) * 128 + 128; omega

theorem out_val12_0 (c : Dev nD) :
    toMat ((dat12 V c).arrAt 7 cfg12.N : S100000x128.Idx → EReal) = fun i j => Rep V c 0 i j * attnCol V c i := by
  rw [(dat12 V c).arrAt_eq_of_cover 7 (fun i => Rep0 V c (i 0) (i 1) * attnCol V c (i 0)) (fun t _ => by
    show (cfg12.win 7).cut (grid12.coords t) ((dat12 V c).after 7 t) = _
    rw [after12_7, out12_eq]
    exact flush12 V c t (Rep0 V c) _ fun p q =>
      (pay6_apply12 (xblk12_0 V c t) (xblk12_1 V c t) (xblk12_2 V c t) (xblk12_3 V c t) (xblk12_4 V c t) (wblk12 V c t) (bblk12 V c t) p q).trans (by rw [score_blk12]; exact congrArg (· * _) (xblk12_apply V c t p q 0))) cover12_7]
  rfl

theorem out_val12_1 (c : Dev nD) :
    toMat ((dat12 V c).arrAt 8 cfg12.N : S100000x128.Idx → EReal) = fun i j => Rep V c 1 i j * attnCol V c i := by
  rw [(dat12 V c).arrAt_eq_of_cover 8 (fun i => Rep1 V c (i 0) (i 1) * attnCol V c (i 0)) (fun t _ => by
    show (cfg12.win 8).cut (grid12.coords t) ((dat12 V c).after 8 t) = _
    rw [after12_8, out12_eq]
    exact flush12 V c t (Rep1 V c) _ fun p q =>
      (pay7_apply12 (xblk12_0 V c t) (xblk12_1 V c t) (xblk12_2 V c t) (xblk12_3 V c t) (xblk12_4 V c t) (wblk12 V c t) (bblk12 V c t) p q).trans (by rw [score_blk12]; exact congrArg (· * _) (xblk12_apply V c t p q 1))) cover12_7]
  rfl

theorem out_val12_2 (c : Dev nD) :
    toMat ((dat12 V c).arrAt 9 cfg12.N : S100000x128.Idx → EReal) = fun i j => Rep V c 2 i j * attnCol V c i := by
  rw [(dat12 V c).arrAt_eq_of_cover 9 (fun i => Rep2 V c (i 0) (i 1) * attnCol V c (i 0)) (fun t _ => by
    show (cfg12.win 9).cut (grid12.coords t) ((dat12 V c).after 9 t) = _
    rw [after12_9, out12_eq]
    exact flush12 V c t (Rep2 V c) _ fun p q =>
      (pay8_apply12 (xblk12_0 V c t) (xblk12_1 V c t) (xblk12_2 V c t) (xblk12_3 V c t) (xblk12_4 V c t) (wblk12 V c t) (bblk12 V c t) p q).trans (by rw [score_blk12]; exact congrArg (· * _) (xblk12_apply V c t p q 2))) cover12_7]
  rfl

theorem out_val12_3 (c : Dev nD) :
    toMat ((dat12 V c).arrAt 10 cfg12.N : S100000x128.Idx → EReal) = fun i j => Rep V c 3 i j * attnCol V c i := by
  rw [(dat12 V c).arrAt_eq_of_cover 10 (fun i => Rep3 V c (i 0) (i 1) * attnCol V c (i 0)) (fun t _ => by
    show (cfg12.win 10).cut (grid12.coords t) ((dat12 V c).after 10 t) = _
    rw [after12_10, out12_eq]
    exact flush12 V c t (Rep3 V c) _ fun p q =>
      (pay9_apply12 (xblk12_0 V c t) (xblk12_1 V c t) (xblk12_2 V c t) (xblk12_3 V c t) (xblk12_4 V c t) (wblk12 V c t) (bblk12 V c t) p q).trans (by rw [score_blk12]; exact congrArg (· * _) (xblk12_apply V c t p q 3))) cover12_7]
  rfl

theorem out_val12_4 (c : Dev nD) :
    toMat ((dat12 V c).arrAt 11 cfg12.N : S100000x128.Idx → EReal) = fun i j => Rep V c 4 i j * attnCol V c i := by
  rw [(dat12 V c).arrAt_eq_of_cover 11 (fun i => Rep4 V c (i 0) (i 1) * attnCol V c (i 0)) (fun t _ => by
    show (cfg12.win 11).cut (grid12.coords t) ((dat12 V c).after 11 t) = _
    rw [after12_11, out12_eq]
    exact flush12 V c t (Rep4 V c) _ fun p q =>
      (pay10_apply12 (xblk12_0 V c t) (xblk12_1 V c t) (xblk12_2 V c t) (xblk12_3 V c t) (xblk12_4 V c t) (wblk12 V c t) (bblk12 V c t) p q).trans (by rw [score_blk12]; exact congrArg (· * _) (xblk12_apply V c t p q 4))) cover12_7]
  rfl

end Cert.KernelIdeal.Hand

end
-- ==== Proof.Link.Tail.lean ====
import proofs.«105940_j32358283608240_1_alg».proof.Proof.KI.Chain
import proofs.«105940_j32358283608240_1_alg».proof.Proof.KI.R12Val
import proofs.«105940_j32358283608240_1_alg».proof.Proof.Ref.Run
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import Idealize.ShloMosaic.Lib.StableHlo.Run
import Idealize.ShloMosaic.Lib.StackMember

set_option maxRecDepth 16384

noncomputable section

namespace Cert.Proof.Link

open Idealize.ShloMosaic Idealize.ShloMosaic.ValueIdx
open scoped BigOperators
section Scatter
variable {G C N : Nat}

abbrev rowsDims (wf : ScatterDims.WF ⟨2, ![G, C]⟩ ⟨2, ![N, 1]⟩ ⟨2, ![N, C]⟩ [1] [0] [0] 1) :
    ScatterDims ⟨2, ![G, C]⟩ ⟨2, ![N, 1]⟩ ⟨2, ![N, C]⟩ :=
  { updateWindowDims := [1], insertedWindowDims := [0], scatterDimsToOperandDims := [0], indexVectorDim := 1, wf := wf }

theorem rowsDims_window0 (wf) (j : (⟨2, ![N, C]⟩ : Shape).Idx) :
    (rowsDims (G := G) wf).window j 0 = 0 := by
  have h : (0 : Fin 2) ∉ (rowsDims (G := G) wf).sKept := by
    show (0 : Fin 2) ∉ (List.finRange 2).filter (· ∉ ([0] : List (Fin 2)))
    decide
  unfold ScatterDims.window
  rw [dif_neg h]

theorem rowsDims_window1 (wf) (j : (⟨2, ![N, C]⟩ : Shape).Idx) :
    (rowsDims (G := G) wf).window j 1 = (j 1).val := by
  have h : (1 : Fin 2) ∈ (rowsDims (G := G) wf).sKept := by
    show (1 : Fin 2) ∈ (List.finRange 2).filter (· ∉ ([0] : List (Fin 2)))
    decide
  unfold ScatterDims.window
  rw [dif_pos h]
  rfl

theorem rowsDims_start1 (wf) (j : (⟨2, ![N, C]⟩ : Shape).Idx) (idx : IVec ⟨2, ![N,1]⟩ 32) :
    (rowsDims (G := G) wf).start j idx 1 = 0 := by
  unfold ScatterDims.start
  rw [dif_neg (show ¬ ((1 : Fin 2) ∈ ([0] : List (Fin 2))) by decide)]

theorem rowsDims_start0 (wf) (j : (⟨2, ![N, C]⟩ : Shape).Idx) (idx : IVec ⟨2, ![N,1]⟩ 32) :
    (rowsDims (G := G) wf).start j idx 0 = (idx (ix2 (j 0) 0)).toInt := by
  unfold ScatterDims.start
  rw [dif_pos (show ((0 : Fin 2) ∈ ([0] : List (Fin 2))) by decide)]
  congr 2
  funext b
  fin_cases b
  · simp [ScatterDims.siIdx, ScatterDims.siCoord]
    exact Fin.ext rfl
  · simp [ScatterDims.siIdx]
    rfl

theorem rowsDims_resultIdx_iff (wf) (idx : IVec ⟨2, ![N,1]⟩ 32) (j : (⟨2, ![N, C]⟩ : Shape).Idx)
    (i : (⟨2, ![G, C]⟩ : Shape).Idx) :
    (rowsDims (G := G) wf).resultIdx? j idx = some i ↔
      (idx (ix2 (j 0) 0)).toInt = ((i 0).val : Int) ∧ (j 1).val = (i 1).val := by
  have hs0 := rowsDims_start0 (G := G) wf j idx
  have hs1 := rowsDims_start1 (G := G) wf j idx
  have hw0 := rowsDims_window0 (G := G) wf j
  have hw1 := rowsDims_window1 (G := G) wf j
  have hi0 : (i 0).val < G := (i 0).isLt
  have hi1 : (i 1).val < C := (i 1).isLt
  unfold ScatterDims.resultIdx?
  split_ifs with h
  · rw [Option.some.injEq]
    have h0 := h 0
    have h1 := h 1
    rw [hs0, hw0] at h0
    rw [hs1, hw1] at h1
    constructor
    · intro e
      have e0 := congrArg Fin.val (congrFun e 0)
      have e1 := congrArg Fin.val (congrFun e 1)
      simp only [hs0, hw0, hs1, hw1] at e0 e1
      constructor <;> omega
    · rintro ⟨e0, e1⟩
      funext a
      fin_cases a
      · apply Fin.ext
        show ((rowsDims (G := G) wf).start j idx 0 + ((rowsDims (G := G) wf).window j 0 : ℕ)).toNat = (i 0).val
        rw [hs0, hw0]; omega
      · apply Fin.ext
        show ((rowsDims (G := G) wf).start j idx 1 + ((rowsDims (G := G) wf).window j 1 : ℕ)).toNat = (i 1).val
        rw [hs1, hw1]; omega
  · simp only [reduceCtorEq, false_iff]
    rintro ⟨e0, e1⟩
    apply h
    intro a
    fin_cases a
    · show 0 ≤ (rowsDims (G := G) wf).start j idx 0 + ((rowsDims (G := G) wf).window j 0 : ℕ) ∧
        (rowsDims (G := G) wf).start j idx 0 + ((rowsDims (G := G) wf).window j 0 : ℕ) < ((G : ℕ) : ℤ)
      rw [hs0, hw0]; omega
    · show 0 ≤ (rowsDims (G := G) wf).start j idx 1 + ((rowsDims (G := G) wf).window j 1 : ℕ) ∧
        (rowsDims (G := G) wf).start j idx 1 + ((rowsDims (G := G) wf).window j 1 : ℕ) < ((C : ℕ) : ℤ)
      rw [hs1, hw1]; omega

theorem rowsScatter_apply (wf) (x : (⟨2, ![G, C]⟩ : Shape).Idx → EReal) (idx : IVec ⟨2, ![N, 1]⟩ 32)
    (upd : (⟨2, ![N, C]⟩ : Shape).Idx → EReal) (g : Fin G) (k : Fin C) :
    Ideal.hostScatterAdd (rowsDims (G := G) wf) x idx upd (ix2 g k)
      = x (ix2 g k) + ∑ n : Fin N, if (idx (ix2 n 0)).toInt = (g.val : Int) then upd (ix2 n k) else 0 := by
  unfold Ideal.hostScatterAdd
  congr 1
  rw [Finset.sum_filter, sum_idx2]
  refine Finset.sum_congr rfl fun n _ => ?_
  simp only [rowsDims_resultIdx_iff]
  show (∑ q : Fin C, if (idx (ix2 n 0)).toInt = (g.val : Int) ∧ q.val = k.val then upd (ix2 n q) else 0) = _
  by_cases hn : (idx (ix2 n 0)).toInt = (g.val : Int)
  · simp [hn, Fin.val_inj]
  · simp [hn]

end Scatter

section K
open Cert.KernelIdeal Cert.KernelIdeal.Gen

def segSumK (seg : IVec S100000 32) (u : FVec Ideal S100000x128 .f32) : FVec Ideal S100x128 .f32 :=
  Host.scatterAdd (F := Ideal) scatter_S100x128_S100000x1_S100000x128_1_0_0_1
    (broadcastInDim S100x128 ![] bcast_S_S100x128 (constant S_ .f32 0x00000000#32))
    (broadcastInDim S100000x1 ![0] bcast_S100000_S100000x1_0 seg) u

def embK (seg : IVec S100000 32) (Y : Fin 5 → FVec Ideal S100000x128 .f32) : FVec Ideal S100x640 .f32 :=
  concatenate S100x640 1 [⟨S100x128, segSumK seg (Y 0)⟩, ⟨S100x128, segSumK seg (Y 1)⟩, ⟨S100x128, segSumK seg (Y 2)⟩,
    ⟨S100x128, segSumK seg (Y 3)⟩, ⟨S100x128, segSumK seg (Y 4)⟩]
    concatenates_S100x128_S100x128_S100x128_S100x128_S100x128_S100x640_d1

def finK (g : FVec Ideal S100x640 .f32) (pi : FVec Ideal S100x16 .f32) (W : FVec Ideal S656x10 .f32) (b : FVec Ideal S10 .f32) :
    FVec Ideal S100x10 .f32 :=
  addf (Host.dotGeneral (F := Ideal) dot_S100x656_S656x10_S100x10_1_0_0_1_n_n none
      (concatenate S100x656 1 [⟨S100x640, g⟩, ⟨S100x16, pi⟩] concatenates_S100x640_S100x16_S100x656_d1) W)
    (broadcastInDim S100x10 ![0, 1] bcast_S1x10_S100x10_0_1 (broadcastInDim S1x10 ![1] bcast_S10_S1x10_1 b))

end K

section R
open Cert.ReferenceIdeal Cert.ReferenceIdeal.Gen

def hrR (X : Fin 5 → FVec Ideal S100000x128 .f32) : FVec Ideal S100000x640 .f32 :=
  concatenate S100000x640 1 [⟨S100000x128, X 0⟩, ⟨S100000x128, X 1⟩, ⟨S100000x128, X 2⟩, ⟨S100000x128, X 3⟩,
    ⟨S100000x128, X 4⟩] concatenates_S100000x128_S100000x128_S100000x128_S100000x128_S100000x128_S100000x640_d1

def embR (seg : IVec S100000 32) (a : FVec Ideal S100000x1 .f32) (X : Fin 5 → FVec Ideal S100000x128 .f32) :
    FVec Ideal S100x640 .f32 :=
  Host.scatterAdd (F := Ideal) scatter_S100x640_S100000x1_S100000x640_1_0_0_1
    (broadcastInDim S100x640 ![] bcast_S_S100x640 (constant S_ .f32 0x00000000#32))
    (broadcastInDim S100000x1 ![0] bcast_S100000_S100000x1_0 seg)
    (mulf (broadcastInDim S100000x640 ![0, 1] bcast_S100000x1_S100000x640_0_1 a) (hrR X))

def attnR (hr : FVec Ideal S100000x640 .f32) (w : FVec Ideal S640x1 .f32) (b : FVec Ideal S1 .f32) : FVec Ideal S100000x1 .f32 :=
  addf (Host.dotGeneral (F := Ideal) dot_S100000x640_S640x1_S100000x1_1_0_0_1_n_n none hr w)
    (broadcastInDim S100000x1 ![0, 1] bcast_S1x1_S100000x1_0_1 (broadcastInDim S1x1 ![1] bcast_S1_S1x1_1 b))

end R

theorem host_scatterAdd_ideal {s si su : Shape} (d : ScatterDims s si su) {w : Nat} (x : FVec Ideal s .f32) (idx : IVec si w)
    (upd : FVec Ideal su .f32) : Host.scatterAdd (F := Ideal) d x idx upd = Ideal.hostScatterAdd d x idx upd := rfl

theorem scatterK_eq : Cert.KernelIdeal.scatter_S100x128_S100000x1_S100000x128_1_0_0_1
    = rowsDims (G := 100) (C := 128) (N := 100000) Cert.KernelIdeal.Facts₀.scatter_S100x128_S100000x1_S100000x128_1_0_0_1_wf := rfl

theorem scatterR_eq : Cert.ReferenceIdeal.scatter_S100x640_S100000x1_S100000x640_1_0_0_1
    = rowsDims (G := 100) (C := 640) (N := 100000) Cert.ReferenceIdeal.Facts₀.scatter_S100x640_S100000x1_S100000x640_1_0_0_1_wf := rfl

theorem segCol_apply (h : (⟨1, ![100000]⟩ : Shape).BroadcastsInDim ⟨2, ![100000, 1]⟩ ![0]) (seg : IVec ⟨1, ![100000]⟩ 32)
    (n : Fin 100000) : broadcastInDim ⟨2, ![100000, 1]⟩ ![0] h seg (ix2 n 0) = seg (ix1 n) :=
  broadcastInDim_apply (s := ⟨1, ![100000]⟩) (t := ⟨2, ![100000, 1]⟩) ![0] h seg (ix2 n 0) (ix1 n)
    (fun b => match b with | ⟨0, _⟩ => (if_neg (fun h => absurd h (by decide : ¬ (100000 : ℕ) = 1))).symm)

theorem attnBcast_apply (h : (⟨2, ![100000, 1]⟩ : Shape).BroadcastsInDim ⟨2, ![100000, 640]⟩ ![0, 1])
    (a : FVec Ideal ⟨2, ![100000, 1]⟩ .f32) (n : Fin 100000) (k : Fin 640) :
    broadcastInDim ⟨2, ![100000, 640]⟩ ![0, 1] h a (ix2 n k) = a (ix2 n 0) :=
  broadcastInDim_apply (s := ⟨2, ![100000, 1]⟩) (t := ⟨2, ![100000, 640]⟩) ![0, 1] h a (ix2 n k) (ix2 n 0)
    (fun b => match b with
      | ⟨0, _⟩ => (if_neg (fun h => absurd h (by decide : ¬ (100000 : ℕ) = 1))).symm
      | ⟨1, _⟩ => (if_pos rfl).symm)

theorem segSumK_apply (seg : IVec ⟨1, ![100000]⟩ 32) (u : FVec Ideal ⟨2, ![100000, 128]⟩ .f32) (g : Fin 100) (q : Fin 128) :
    segSumK seg u (ix2 g q)
      = 0 + ∑ n : Fin 100000, if (seg (ix1 n)).toInt = (g.val : Int) then u (ix2 n q) else 0 := by
  unfold segSumK
  rw [host_scatterAdd_ideal, scatterK_eq, rowsScatter_apply, broadcastInDim_scalar_apply, constant_apply, Ideal.ofBits_zero_f32]
  refine congrArg (0 + ·) (Finset.sum_congr rfl fun n _ => ?_)
  rw [show broadcastInDim Cert.KernelIdeal.S100000x1 ![0] Cert.KernelIdeal.Gen.bcast_S100000_S100000x1_0 seg (ix2 n 0)
        = seg (ix1 n) from segCol_apply _ seg n]

theorem embR_apply (seg : IVec ⟨1, ![100000]⟩ 32) (a : FVec Ideal ⟨2, ![100000, 1]⟩ .f32)
    (X : Fin 5 → FVec Ideal ⟨2, ![100000, 128]⟩ .f32) (g : Fin 100) (k : Fin 640) :
    embR seg a X (ix2 g k)
      = 0 + ∑ n : Fin 100000, if (seg (ix1 n)).toInt = (g.val : Int) then a (ix2 n 0) * hrR X (ix2 n k) else 0 := by
  unfold embR
  rw [host_scatterAdd_ideal, scatterR_eq, rowsScatter_apply, broadcastInDim_scalar_apply, constant_apply, Ideal.ofBits_zero_f32]
  refine congrArg (0 + ·) (Finset.sum_congr rfl fun n _ => ?_)
  rw [show broadcastInDim Cert.ReferenceIdeal.S100000x1 ![0] Cert.ReferenceIdeal.Gen.bcast_S100000_S100000x1_0 seg (ix2 n 0)
        = seg (ix1 n) from segCol_apply _ seg n, mulf_apply,
    show broadcastInDim Cert.ReferenceIdeal.S100000x640 ![0, 1] Cert.ReferenceIdeal.Gen.bcast_S100000x1_S100000x640_0_1 a (ix2 n k)
        = a (ix2 n 0) from attnBcast_apply _ a n k]

theorem embK_apply (seg : IVec ⟨1, ![100000]⟩ 32) (Y : Fin 5 → FVec Ideal ⟨2, ![100000, 128]⟩ .f32) (g : Fin 100) (k : Fin 640)
    (hs : k.val / 128 < 5) (hq : k.val % 128 < 128) :
    embK seg Y (ix2 g k) = segSumK seg (Y ⟨k.val / 128, hs⟩) (ix2 g ⟨k.val % 128, hq⟩) := by
  unfold embK
  exact concatenate_ofFn_apply (t := ⟨2, ![100, 640]⟩) (s₁ := ⟨2, ![100, 128]⟩) 1 (fun s : Fin 5 => segSumK seg (Y s)) _ rfl 128 rfl
    (ix2 g k) ⟨k.val / 128, hs⟩ rfl (ix2 g ⟨k.val % 128, hq⟩) rfl
    (fun b hb => match b, hb with | ⟨0, _⟩, _ => rfl | ⟨1, _⟩, hb => absurd rfl hb)

theorem hrR_apply (X : Fin 5 → FVec Ideal ⟨2, ![100000, 128]⟩ .f32) (n : Fin 100000) (k : Fin 640)
    (hs : k.val / 128 < 5) (hq : k.val % 128 < 128) :
    hrR X (ix2 n k) = X ⟨k.val / 128, hs⟩ (ix2 n ⟨k.val % 128, hq⟩) := by
  unfold hrR
  exact concatenate_ofFn_apply (t := ⟨2, ![100000, 640]⟩) (s₁ := ⟨2, ![100000, 128]⟩) 1 (fun s : Fin 5 => X s) _ rfl 128 rfl
    (ix2 n k) ⟨k.val / 128, hs⟩ rfl (ix2 n ⟨k.val % 128, hq⟩) rfl
    (fun b hb => match b, hb with | ⟨0, _⟩, _ => rfl | ⟨1, _⟩, hb => absurd rfl hb)

theorem emb_eq (seg : IVec ⟨1, ![100000]⟩ 32) (X Y : Fin 5 → FVec Ideal ⟨2, ![100000, 128]⟩ .f32)
    (a : FVec Ideal ⟨2, ![100000, 1]⟩ .f32) (α : Fin 100000 → EReal)
    (hY : ∀ s n q, Y s (ix2 n q) = X s (ix2 n q) * α n) (ha : ∀ n, a (ix2 n 0) = α n) :
    embK seg Y = embR seg a X := by
  funext i
  obtain ⟨g, k, rfl⟩ : ∃ (g : Fin 100) (k : Fin 640), i = ix2 g k := ⟨i 0, i 1, eq_ix2 i⟩
  have hk : k.val < 640 := k.isLt
  have hs : k.val / 128 < 5 := by omega
  have hq : k.val % 128 < 128 := Nat.mod_lt _ (by norm_num)
  rw [embK_apply seg Y g k hs hq, segSumK_apply, embR_apply]
  refine congrArg (0 + ·) (Finset.sum_congr rfl fun n _ => ?_)
  rw [hY, hrR_apply X n k hs hq, ha, mul_comm]

section KRead
open Cert.KernelIdeal Cert.KernelIdeal.Gen
open Idealize.ShloMosaic.TcCoe Idealize.ShloMosaic.StableHlo
open Cert.ReferenceIdeal.Hand (WritesFrom writesFrom_of_writes after_of_writesFrom after_app)

def outsK (V : Valuation τ sig (Elt Ideal)) : Fin 5 → FVec Ideal S100000x128 .f32 :=
  ![V (Proc.devRef .tc main_v213_0), V (Proc.devRef .tc main_v213_1), V (Proc.devRef .tc main_v213_2),
    V (Proc.devRef .tc main_v213_3), V (Proc.devRef .tc main_v213_4)]

theorem hostOps13_writesFrom : ∀ op ∈ (hostOps13 (F := Ideal)), WritesFrom 284 op :=
  List.forall_iff_forall_mem.mp (by each_op exact writesFrom_of_writes rfl (by decide))

theorem headK_keep (V : Valuation τ sig (Elt Ideal)) {r : Ref sig .tc} (hr : r.idx.val < 284) :
    after ((hostOps13 (F := Ideal)).take 20) V (Proc.devRef .tc r) = V (Proc.devRef .tc r) :=
  after_of_writesFrom _ (fun op h => hostOps13_writesFrom op (List.mem_of_mem_take h)) hr V

theorem hostOps13_keep (V : Valuation τ sig (Elt Ideal)) {r : Ref sig .tc} (hr : r.idx.val < 284) :
    after (hostOps13 (F := Ideal)) V (Proc.devRef .tc r) = V (Proc.devRef .tc r) :=
  after_of_writesFrom _ hostOps13_writesFrom hr V

set_option maxHeartbeats 1000000 in

theorem lastK_read (U : Valuation τ sig (Elt Ideal)) :
    after ((hostOps13 (F := Ideal)).drop 20) U (Proc.devRef .tc main_v234)
      = finK (concatenate S100x640 1 [⟨S100x128, U (Proc.devRef .tc main_v216)⟩, ⟨S100x128, U (Proc.devRef .tc main_v219)⟩,
            ⟨S100x128, U (Proc.devRef .tc main_v222)⟩, ⟨S100x128, U (Proc.devRef .tc main_v225)⟩,
            ⟨S100x128, U (Proc.devRef .tc main_v228)⟩] concatenates_S100x128_S100x128_S100x128_S100x128_S100x128_S100x640_d1)
          (U (Proc.devRef .tc main_arg1)) (U (Proc.devRef .tc main_arg16)) (U (Proc.devRef .tc main_arg17)) := by
  simp only [hostOps13, List.drop_succ_cons, List.drop_zero]
  after_results
  rfl

set_option maxHeartbeats 1000000 in
theorem headK_read (V : Valuation τ sig (Elt Ideal)) :
    after ((hostOps13 (F := Ideal)).take 20) V (Proc.devRef .tc main_v216)
        = segSumK (V (Proc.devRef .tc main_arg4)) (V (Proc.devRef .tc main_v213_0))
      ∧ after ((hostOps13 (F := Ideal)).take 20) V (Proc.devRef .tc main_v219)
        = segSumK (V (Proc.devRef .tc main_arg4)) (V (Proc.devRef .tc main_v213_1))
      ∧ after ((hostOps13 (F := Ideal)).take 20) V (Proc.devRef .tc main_v222)
        = segSumK (V (Proc.devRef .tc main_arg4)) (V (Proc.devRef .tc main_v213_2))
      ∧ after ((hostOps13 (F := Ideal)).take 20) V (Proc.devRef .tc main_v225)
        = segSumK (V (Proc.devRef .tc main_arg4)) (V (Proc.devRef .tc main_v213_3))
      ∧ after ((hostOps13 (F := Ideal)).take 20) V (Proc.devRef .tc main_v228)
        = segSumK (V (Proc.devRef .tc main_arg4)) (V (Proc.devRef .tc main_v213_4)) := by
  simp only [hostOps13, List.take_succ_cons, List.take_zero]
  refine ⟨?_, ?_, ?_, ?_, ?_⟩ <;> (after_results; rfl)

theorem tailK_read (V : Valuation τ sig (Elt Ideal)) :
    after (hostOps13 (F := Ideal)) V (Proc.devRef .tc main_v234)
      = finK (embK (V (Proc.devRef .tc main_arg4)) (outsK V))
          (V (Proc.devRef .tc main_arg1)) (V (Proc.devRef .tc main_arg16)) (V (Proc.devRef .tc main_arg17)) := by
  have h1 : after (hostOps13 (F := Ideal)) V
      = after ((hostOps13 (F := Ideal)).drop 20) (after ((hostOps13 (F := Ideal)).take 20) V) := by
    rw [← after_app, List.take_append_drop]
  rw [h1, lastK_read, (headK_read V).1, (headK_read V).2.1, (headK_read V).2.2.1, (headK_read V).2.2.2.1, (headK_read V).2.2.2.2,
    headK_keep V (r := main_arg1) (by decide), headK_keep V (r := main_arg16) (by decide),
    headK_keep V (r := main_arg17) (by decide)]
  rfl

end KRead

section RRead
open Cert.ReferenceIdeal Cert.ReferenceIdeal.Gen Cert.ReferenceIdeal.Hand
open Idealize.ShloMosaic.TcCoe Idealize.ShloMosaic.StableHlo

def repsR (U : Valuation τ sig (Elt Ideal)) : Fin 5 → FVec Ideal S100000x128 .f32 :=
  ![U (Proc.devRef .tc main_arg0), U (Proc.devRef .tc main_v79), U (Proc.devRef .tc main_v159),
    U (Proc.devRef .tc main_v239), U (Proc.devRef .tc main_v319)]

theorem lastR_writesFrom : ∀ op ∈ ((ops6 (F := Ideal)).drop 10), WritesFrom 570 op :=
  List.forall_iff_forall_mem.mp (by
    simp only [ops6, List.drop_succ_cons, List.drop_zero]
    each_op exact writesFrom_of_writes rfl (by decide))

set_option maxHeartbeats 2000000 in
theorem lastR_read (U : Valuation τ sig (Elt Ideal)) :
    after ((ops6 (F := Ideal)).drop 10) U (Proc.devRef .tc main_v334)
      = finK (embR (U (Proc.devRef .tc main_arg4))
            (attnR (hrR (repsR U)) (U (Proc.devRef .tc main_arg14)) (U (Proc.devRef .tc main_arg15))) (repsR U))
          (U (Proc.devRef .tc main_arg1)) (U (Proc.devRef .tc main_arg16)) (U (Proc.devRef .tc main_arg17)) := by
  simp only [ops6, List.drop_succ_cons, List.drop_zero]
  after_results
  rfl

theorem tailR_read (L : Valuation τ sig (Elt Ideal)) :
    after (ops (F := Ideal)) L (Proc.devRef .tc main_v334)
      = finK (embR (after ops L (Proc.devRef .tc main_arg4))
            (attnR (hrR (repsR (after ops L))) (after ops L (Proc.devRef .tc main_arg14))
              (after ops L (Proc.devRef .tc main_arg15))) (repsR (after ops L)))
          (after ops L (Proc.devRef .tc main_arg1)) (after ops L (Proc.devRef .tc main_arg16))
          (after ops L (Proc.devRef .tc main_arg17)) := by
  have h1 : after (ops (F := Ideal)) L
      = after ((ops6 (F := Ideal)).drop 10)
          (after ((ops6 (F := Ideal)).take 10) (after ops5 (after ops4 (after ops3 (after ops2 (after ops1 (after ops0 L))))))) := by
    rw [after_ops]
    exact (congrArg (fun l => after l _) (List.take_append_drop 10 (ops6 (F := Ideal))).symm).trans (after_app _ _ _)
  generalize after ((ops6 (F := Ideal)).take 10) (after ops5 (after ops4 (after ops3 (after ops2 (after ops1 (after ops0 L)))))) = U at h1
  have hU : ∀ {r : Ref sig .tc}, r.idx.val < 570 → after (ops (F := Ideal)) L (Proc.devRef .tc r) = U (Proc.devRef .tc r) :=
    fun hr => by rw [h1]; exact after_of_writesFrom _ lastR_writesFrom hr U
  unfold repsR
  rw [hU (r := main_arg0) (by decide), hU (r := main_v79) (by decide), hU (r := main_v159) (by decide),
    hU (r := main_v239) (by decide), hU (r := main_v319) (by decide), hU (r := main_arg4) (by decide),
    hU (r := main_arg14) (by decide), hU (r := main_arg15) (by decide), hU (r := main_arg1) (by decide),
    hU (r := main_arg16) (by decide), hU (r := main_arg17) (by decide), h1]
  exact lastR_read U

end RRead

section Attn
open Idealize.ShloMosaic.StackMember

theorem dotR_eq : Cert.ReferenceIdeal.dot_S100000x640_S640x1_S100000x1_1_0_0_1_n_n = DotDims.plain 100000 640 1 := rfl

theorem biasCol_apply (h1 : (⟨1, ![1]⟩ : Shape).BroadcastsInDim ⟨2, ![1, 1]⟩ ![1])
    (h2 : (⟨2, ![1, 1]⟩ : Shape).BroadcastsInDim ⟨2, ![100000, 1]⟩ ![0, 1]) (b : FVec Ideal ⟨1, ![1]⟩ .f32) (n : Fin 100000) :
    broadcastInDim ⟨2, ![100000, 1]⟩ ![0, 1] h2 (broadcastInDim ⟨2, ![1, 1]⟩ ![1] h1 b) (ix2 n 0) = b (ix1 0) := by
  rw [broadcastInDim_apply (s := ⟨2, ![1, 1]⟩) (t := ⟨2, ![100000, 1]⟩) ![0, 1] h2 _ (ix2 n 0) (ix2 0 0)
      (fun a => match a with | ⟨0, _⟩ => (if_pos rfl).symm | ⟨1, _⟩ => (if_pos rfl).symm),
    broadcastInDim_apply (s := ⟨1, ![1]⟩) (t := ⟨2, ![1, 1]⟩) ![1] h1 b (ix2 0 0) (ix1 0)
      (fun a => match a with | ⟨0, _⟩ => (if_pos rfl).symm)]

theorem attnR_apply (hr : FVec Ideal ⟨2, ![100000, 640]⟩ .f32) (w : FVec Ideal ⟨2, ![640, 1]⟩ .f32)
    (b : FVec Ideal ⟨1, ![1]⟩ .f32) (n : Fin 100000) :
    attnR hr w b (ix2 n 0) = (∑ k : Fin 640, hr (ix2 n k) * w (ix2 k 0)) + b (ix1 0) := by
  unfold attnR
  rw [addf_apply, dotR_eq, dotGeneral_plain_apply,
    show broadcastInDim Cert.ReferenceIdeal.S100000x1 ![0, 1] Cert.ReferenceIdeal.Gen.bcast_S1x1_S100000x1_0_1
        (broadcastInDim Cert.ReferenceIdeal.S1x1 ![1] Cert.ReferenceIdeal.Gen.bcast_S1_S1x1_1 b) (ix2 n 0) = b (ix1 0)
      from biasCol_apply _ _ b n]

end Attn

section KKeep
open Cert.KernelIdeal Cert.KernelIdeal.Gen
open Idealize.ShloMosaic.TcCoe Idealize.ShloMosaic.StableHlo
open Cert.ReferenceIdeal.Hand (WritesFrom writesFrom_of_writes after_of_writesFrom)

theorem hostOps3_writesFrom : ∀ op ∈ (hostOps3 (F := Ideal)), WritesFrom 83 op :=
  List.forall_iff_forall_mem.mp (by each_op exact writesFrom_of_writes rfl (by decide))
theorem hostOps4_writesFrom : ∀ op ∈ (hostOps4 (F := Ideal)), WritesFrom 83 op :=
  List.forall_iff_forall_mem.mp (by each_op exact writesFrom_of_writes rfl (by decide))
theorem hostOps5_writesFrom : ∀ op ∈ (hostOps5 (F := Ideal)), WritesFrom 83 op :=
  List.forall_iff_forall_mem.mp (by each_op exact writesFrom_of_writes rfl (by decide))
theorem hostOps6_writesFrom : ∀ op ∈ (hostOps6 (F := Ideal)), WritesFrom 148 op :=
  List.forall_iff_forall_mem.mp (by each_op exact writesFrom_of_writes rfl (by decide))
theorem hostOps7_writesFrom : ∀ op ∈ (hostOps7 (F := Ideal)), WritesFrom 148 op :=
  List.forall_iff_forall_mem.mp (by each_op exact writesFrom_of_writes rfl (by decide))
theorem hostOps8_writesFrom : ∀ op ∈ (hostOps8 (F := Ideal)), WritesFrom 148 op :=
  List.forall_iff_forall_mem.mp (by each_op exact writesFrom_of_writes rfl (by decide))
theorem hostOps9_writesFrom : ∀ op ∈ (hostOps9 (F := Ideal)), WritesFrom 213 op :=
  List.forall_iff_forall_mem.mp (by each_op exact writesFrom_of_writes rfl (by decide))
theorem hostOps10_writesFrom : ∀ op ∈ (hostOps10 (F := Ideal)), WritesFrom 213 op :=
  List.forall_iff_forall_mem.mp (by each_op exact writesFrom_of_writes rfl (by decide))
theorem hostOps11_writesFrom : ∀ op ∈ (hostOps11 (F := Ideal)), WritesFrom 213 op :=
  List.forall_iff_forall_mem.mp (by each_op exact writesFrom_of_writes rfl (by decide))
theorem hostOps12_writesFrom : ∀ op ∈ (hostOps12 (F := Ideal)), WritesFrom 278 op :=
  List.forall_iff_forall_mem.mp (by each_op exact writesFrom_of_writes rfl (by decide))

theorem bAtt_read (V : Valuation τ sig (Elt Ideal)) :
    (after (hostOps12 (F := Ideal)) V (Proc.devRef .tc main_v212) : FVec Ideal S1x1 .f32) (ix2 0 0)
      = (V (Proc.devRef .tc main_arg15) : FVec Ideal S1 .f32) (ix1 0) := by
  simp only [hostOps12, after_cons, after_nil]
  rw [reshape_result]
  show shapeCast S1x1 (V (Proc.devRef .tc main_arg15) : FVec Ideal S1 .f32) shapeCasts_S1_S1x1 (ix2 0 0) = _
  exact shapeCast_apply _ _ (ix2 0 0) (ix1 0) (by rw [Shape.rowMajor_val_one, Shape.rowMajor_val_two]; rfl)

end KKeep

section KLinks
open Cert.KernelIdeal Cert.KernelIdeal.Gen Cert.KernelIdeal.Hand
open Idealize.ShloMosaic.TcCoe Idealize.ShloMosaic.StableHlo
open Cert.ReferenceIdeal.Hand (after_of_writesFrom)

variable (m : (ℓ : Loc nD τ sig) → Buf (Elt Ideal) ℓ)

/-- A buffer numbered below every later stretch's writes and no window's array of the regions between leaves them all unchanged. -/
theorem keptC (c : Dev nD) {r : Ref sig .tc} (hr : r.idx.val < 213) (h9 : ∀ w, Pipeline.arrRef spec9 w ≠ r)
    (h10 : ∀ w, Pipeline.arrRef spec10 w ≠ r) (h11 : ∀ w, Pipeline.arrRef spec11 w ≠ r) :
    W25 m c (Proc.devRef .tc r) = W18 m c (Proc.devRef .tc r) :=
  (after_of_writesFrom hostOps12 hostOps12_writesFrom (Nat.lt_trans hr (by decide)) (W24 m c)).trans <|
  (W24_of_ne m c r h11).trans <|
  (after_of_writesFrom hostOps11 hostOps11_writesFrom hr (W22 m c)).trans <|
  (W22_of_ne m c r h10).trans <|
  (after_of_writesFrom hostOps10 hostOps10_writesFrom hr (W20 m c)).trans <|
  (W20_of_ne m c r h9).trans <|
  after_of_writesFrom hostOps9 hostOps9_writesFrom hr (W18 m c)

theorem keptB (c : Dev nD) {r : Ref sig .tc} (hr : r.idx.val < 148) (h6 : ∀ w, Pipeline.arrRef spec6 w ≠ r)
    (h7 : ∀ w, Pipeline.arrRef spec7 w ≠ r) (h8 : ∀ w, Pipeline.arrRef spec8 w ≠ r) :
    W18 m c (Proc.devRef .tc r) = W12 m c (Proc.devRef .tc r) :=
  (W18_of_ne m c r h8).trans <|
  (after_of_writesFrom hostOps8 hostOps8_writesFrom hr (W16 m c)).trans <|
  (W16_of_ne m c r h7).trans <|
  (after_of_writesFrom hostOps7 hostOps7_writesFrom hr (W14 m c)).trans <|
  (W14_of_ne m c r h6).trans <|
  after_of_writesFrom hostOps6 hostOps6_writesFrom hr (W12 m c)

theorem keptA (c : Dev nD) {r : Ref sig .tc} (hr : r.idx.val < 83) (h3 : ∀ w, Pipeline.arrRef spec3 w ≠ r)
    (h4 : ∀ w, Pipeline.arrRef spec4 w ≠ r) (h5 : ∀ w, Pipeline.arrRef spec5 w ≠ r) :
    W12 m c (Proc.devRef .tc r) = W6 m c (Proc.devRef .tc r) :=
  (W12_of_ne m c r h5).trans <|
  (after_of_writesFrom hostOps5 hostOps5_writesFrom hr (W10 m c)).trans <|
  (W10_of_ne m c r h4).trans <|
  (after_of_writesFrom hostOps4 hostOps4_writesFrom hr (W8 m c)).trans <|
  (W8_of_ne m c r h3).trans <|
  after_of_writesFrom hostOps3 hostOps3_writesFrom hr (W6 m c)

theorem kept52 (c : Dev nD) : W25 m c (Proc.devRef .tc main_v52) = W6 m c (Proc.devRef .tc main_v52) :=
  (keptC m c (r := main_v52) (by decide) (by decide) (by decide) (by decide)).trans <|
  (keptB m c (r := main_v52) (by decide) (by decide) (by decide) (by decide)).trans <|
  keptA m c (r := main_v52) (by decide) (by decide) (by decide) (by decide)
theorem kept105 (c : Dev nD) : W25 m c (Proc.devRef .tc main_v105) = W12 m c (Proc.devRef .tc main_v105) :=
  (keptC m c (r := main_v105) (by decide) (by decide) (by decide) (by decide)).trans <|
  keptB m c (r := main_v105) (by decide) (by decide) (by decide) (by decide)
theorem kept158 (c : Dev nD) : W25 m c (Proc.devRef .tc main_v158) = W18 m c (Proc.devRef .tc main_v158) :=
  keptC m c (r := main_v158) (by decide) (by decide) (by decide) (by decide)

theorem kept211 (c : Dev nD) : W25 m c (Proc.devRef .tc main_v211) = W24 m c (Proc.devRef .tc main_v211) :=
  after_of_writesFrom hostOps12 hostOps12_writesFrom (r := main_v211) (by decide) (W24 m c)

theorem W26_arg1 (c : Dev nD) : W26 m c (Proc.devRef .tc main_arg1) = m ((c : Thread nD τ).loc main_arg1) :=
  (hostOps13_keep (W26 m c) (r := main_arg1) (by decide)).symm.trans (W27_main_arg1 m c)
theorem W26_arg4 (c : Dev nD) : W26 m c (Proc.devRef .tc main_arg4) = m ((c : Thread nD τ).loc main_arg4) :=
  (hostOps13_keep (W26 m c) (r := main_arg4) (by decide)).symm.trans (W27_main_arg4 m c)
theorem W26_arg16 (c : Dev nD) : W26 m c (Proc.devRef .tc main_arg16) = m ((c : Thread nD τ).loc main_arg16) :=
  (hostOps13_keep (W26 m c) (r := main_arg16) (by decide)).symm.trans (W27_main_arg16 m c)
theorem W26_arg17 (c : Dev nD) : W26 m c (Proc.devRef .tc main_arg17) = m ((c : Thread nD τ).loc main_arg17) :=
  (hostOps13_keep (W26 m c) (r := main_arg17) (by decide)).symm.trans (W27_main_arg17 m c)

theorem W25_arg0 (c : Dev nD) : W25 m c (Proc.devRef .tc main_arg0) = m ((c : Thread nD τ).loc main_arg0) :=
  (W26_in m c 0 rfl).symm.trans
    ((hostOps13_keep (W26 m c) (r := main_arg0) (by decide)).symm.trans (W27_main_arg0 m c))
theorem W25_arg14 (c : Dev nD) : W25 m c (Proc.devRef .tc main_arg14) = m ((c : Thread nD τ).loc main_arg14) :=
  (W26_in m c 5 rfl).symm.trans
    ((hostOps13_keep (W26 m c) (r := main_arg14) (by decide)).symm.trans (W27_main_arg14 m c))

theorem W24_arg15 (c : Dev nD) : W24 m c (Proc.devRef .tc main_arg15) = m ((c : Thread nD τ).loc main_arg15) :=
  (after_of_writesFrom hostOps12 hostOps12_writesFrom (r := main_arg15) (by decide) (W24 m c)).symm.trans
    ((W26_of_ne m c main_arg15 (by decide)).symm.trans
      ((hostOps13_keep (W26 m c) (r := main_arg15) (by decide)).symm.trans (W27_main_arg15 m c)))

def repsK (c : Dev nD) : Fin 5 → FVec Ideal S100000x128 .f32 :=
  ![W25 m c (Proc.devRef .tc main_arg0), W25 m c (Proc.devRef .tc main_v52), W25 m c (Proc.devRef .tc main_v105),
    W25 m c (Proc.devRef .tc main_v158), W25 m c (Proc.devRef .tc main_v211)]

theorem Rep_eq (c : Dev nD) (s : Fin 5) (n : Fin 100000) (q : Fin 128) :
    Rep (B25 m) c s n q = repsK m c s (ix2 n q) := by
  fin_cases s <;> rfl

theorem outsK_eq (c : Dev nD) (s : Fin 5) (n : Fin 100000) (q : Fin 128) :
    outsK (W26 m c) s (ix2 n q) = repsK m c s (ix2 n q) * attnCol (B25 m) c n := by
  fin_cases s
  · exact (congrFun (W26_arr m c 7) (ix2 n q)).trans (congrFun (congrFun (out_val12_0 (B25 m) c) n) q)
  · exact (congrFun (W26_arr m c 8) (ix2 n q)).trans (congrFun (congrFun (out_val12_1 (B25 m) c) n) q)
  · exact (congrFun (W26_arr m c 9) (ix2 n q)).trans (congrFun (congrFun (out_val12_2 (B25 m) c) n) q)
  · exact (congrFun (W26_arr m c 10) (ix2 n q)).trans (congrFun (congrFun (out_val12_3 (B25 m) c) n) q)
  · exact (congrFun (W26_arr m c 11) (ix2 n q)).trans (congrFun (congrFun (out_val12_4 (B25 m) c) n) q)

theorem attnCol_eq (c : Dev nD) (n : Fin 100000) :
    attnCol (B25 m) c n
      = (∑ k : Fin 640, hrR (repsK m c) (ix2 n k) * (W25 m c (Proc.devRef .tc main_arg14) : FVec Ideal S640x1 .f32) (ix2 k 0))
        + (W24 m c (Proc.devRef .tc main_arg15) : FVec Ideal S1 .f32) (ix1 0) := by
  unfold attnCol
  beta_reduce
  refine congrArg₂ (· + ·) (Finset.sum_congr rfl fun k _ => ?_) (bAtt_read (W24 m c))
  have hk : k.val < 640 := k.isLt
  exact congrArg₂ (· * ·)
    ((Rep_eq m c _ _ _).trans (hrR_apply (repsK m c) n k (by omega) (Nat.mod_lt _ (by norm_num))).symm) rfl

end KLinks

section Final
open Idealize.ShloMosaic.TcCoe Idealize.ShloMosaic.StableHlo
open Cert.KernelIdeal.Hand (W6 W12 W18 W24 W25 W26 W27 B25 attnCol)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

abbrev AR (c : Dev Cert.ReferenceIdeal.nD) : Valuation Cert.ReferenceIdeal.τ Cert.ReferenceIdeal.sig (Elt Ideal) :=
  after (Cert.ReferenceIdeal.Hand.ops (F := Ideal)) (launchContents m' c)

set_option maxHeartbeats 1000000 in

theorem tail_link (c : Dev Cert.KernelIdeal.nD)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h1 : (AR m' c (Proc.devRef .tc Cert.ReferenceIdeal.main_v79) : (⟨2, ![100000, 128]⟩ : Shape).Idx → EReal)
        = (W6 m c (Proc.devRef .tc Cert.KernelIdeal.main_v52) : (⟨2, ![100000, 128]⟩ : Shape).Idx → EReal))
    (h2 : (AR m' c (Proc.devRef .tc Cert.ReferenceIdeal.main_v159) : (⟨2, ![100000, 128]⟩ : Shape).Idx → EReal)
        = (W12 m c (Proc.devRef .tc Cert.KernelIdeal.main_v105) : (⟨2, ![100000, 128]⟩ : Shape).Idx → EReal))
    (h3 : (AR m' c (Proc.devRef .tc Cert.ReferenceIdeal.main_v239) : (⟨2, ![100000, 128]⟩ : Shape).Idx → EReal)
        = (W18 m c (Proc.devRef .tc Cert.KernelIdeal.main_v158) : (⟨2, ![100000, 128]⟩ : Shape).Idx → EReal))
    (h4 : (AR m' c (Proc.devRef .tc Cert.ReferenceIdeal.main_v319) : (⟨2, ![100000, 128]⟩ : Shape).Idx → EReal)
        = (W24 m c (Proc.devRef .tc Cert.KernelIdeal.main_v211) : (⟨2, ![100000, 128]⟩ : Shape).Idx → EReal)) :
    (AR m' c (Proc.devRef .tc Cert.ReferenceIdeal.main_v334) : (⟨2, ![100, 10]⟩ : Shape).Idx → EReal)
      = (W27 m c (Proc.devRef .tc Cert.KernelIdeal.main_v234) : (⟨2, ![100, 10]⟩ : Shape).Idx → EReal) := by
  obtain ⟨a0, a1, _, _, a4, _, _, _, _, _, _, _, _, _, a14, a15, a16, a17⟩ := hagree c

  have e1 : (AR m' c (Proc.devRef .tc Cert.ReferenceIdeal.main_arg1) : FVec Ideal ⟨2, ![100, 16]⟩ .f32)
      = W26 m c (Proc.devRef .tc Cert.KernelIdeal.main_arg1) :=
    (Cert.ReferenceIdeal.Hand.arg_kept1 m' c).trans (a1.trans (W26_arg1 m c).symm)
  have e4 : (AR m' c (Proc.devRef .tc Cert.ReferenceIdeal.main_arg4) : IVec ⟨1, ![100000]⟩ 32)
      = W26 m c (Proc.devRef .tc Cert.KernelIdeal.main_arg4) :=
    (Cert.ReferenceIdeal.Hand.arg_kept4 m' c).trans (a4.trans (W26_arg4 m c).symm)
  have e16 : (AR m' c (Proc.devRef .tc Cert.ReferenceIdeal.main_arg16) : FVec Ideal ⟨2, ![656, 10]⟩ .f32)
      = W26 m c (Proc.devRef .tc Cert.KernelIdeal.main_arg16) :=
    (Cert.ReferenceIdeal.Hand.arg_kept16 m' c).trans (a16.trans (W26_arg16 m c).symm)
  have e17 : (AR m' c (Proc.devRef .tc Cert.ReferenceIdeal.main_arg17) : FVec Ideal ⟨1, ![10]⟩ .f32)
      = W26 m c (Proc.devRef .tc Cert.KernelIdeal.main_arg17) :=
    (Cert.ReferenceIdeal.Hand.arg_kept17 m' c).trans (a17.trans (W26_arg17 m c).symm)
  have e0 : (AR m' c (Proc.devRef .tc Cert.ReferenceIdeal.main_arg0) : FVec Ideal ⟨2, ![100000, 128]⟩ .f32)
      = W25 m c (Proc.devRef .tc Cert.KernelIdeal.main_arg0) :=
    (Cert.ReferenceIdeal.Hand.arg_kept0 m' c).trans (a0.trans (W25_arg0 m c).symm)
  have e14 : (AR m' c (Proc.devRef .tc Cert.ReferenceIdeal.main_arg14) : FVec Ideal ⟨2, ![640, 1]⟩ .f32)
      = W25 m c (Proc.devRef .tc Cert.KernelIdeal.main_arg14) :=
    (Cert.ReferenceIdeal.Hand.arg_kept14 m' c).trans (a14.trans (W25_arg14 m c).symm)
  have e15 : (AR m' c (Proc.devRef .tc Cert.ReferenceIdeal.main_arg15) : FVec Ideal ⟨1, ![1]⟩ .f32)
      = W24 m c (Proc.devRef .tc Cert.KernelIdeal.main_arg15) :=
    (Cert.ReferenceIdeal.Hand.arg_kept15 m' c).trans (a15.trans (W24_arg15 m c).symm)

  have x1 := h1.trans (kept52 m c).symm
  have x2 := h2.trans (kept105 m c).symm
  have x3 := h3.trans (kept158 m c).symm
  have x4 := h4.trans (kept211 m c).symm
  have hreps : repsR (AR m' c) = repsK m c := by
    unfold repsR repsK
    rw [e0, x1, x2, x3, x4]

  have hY : ∀ (s : Fin 5) (n : Fin 100000) (q : Fin 128),
      outsK (W26 m c) s (ix2 n q) = repsR (AR m' c) s (ix2 n q) * attnCol (B25 m) c n := by
    rw [hreps]
    exact outsK_eq m c

  have ha : ∀ n : Fin 100000,
      attnR (hrR (repsR (AR m' c))) (AR m' c (Proc.devRef .tc Cert.ReferenceIdeal.main_arg14))
        (AR m' c (Proc.devRef .tc Cert.ReferenceIdeal.main_arg15)) (ix2 n 0) = attnCol (B25 m) c n := by
    intro n
    rw [attnR_apply, hreps, e14, e15]
    exact (attnCol_eq m c n).symm
  have hemb : embK (W26 m c (Proc.devRef .tc Cert.KernelIdeal.main_arg4)) (outsK (W26 m c))
      = embR (AR m' c (Proc.devRef .tc Cert.ReferenceIdeal.main_arg4))
          (attnR (hrR (repsR (AR m' c))) (AR m' c (Proc.devRef .tc Cert.ReferenceIdeal.main_arg14))
            (AR m' c (Proc.devRef .tc Cert.ReferenceIdeal.main_arg15))) (repsR (AR m' c)) := by
    rw [← e4]
    exact emb_eq _ _ _ _ _ hY ha
  refine (tailR_read (launchContents m' c)).trans (Eq.trans ?_ (tailK_read (W26 m c)).symm)
  rw [hemb, ← e1, ← e16, ← e17]

end Final

end Cert.Proof.Link

end
-- ==== Proof.SpecBridge.lean ====
import Idealize.ShloMosaic.PureOps.Ideal
import proofs.«105940_j32358283608240_1_alg».proof.Proof.Spec

noncomputable section

namespace Cert.Spec

open Idealize.ShloMosaic
open scoped BigOperators

theorem count_eq : count = ((100000 : ℝ) : EReal) := by
  simp [count, Ideal.ofBits, Ideal.ieee, -EReal.coe_mul]; norm_num

theorem bnEps_eq : bnEps = ((10995116 * (2 : ℝ) ^ (-40 : ℤ) : ℝ) : EReal) := by
  simp [bnEps, Ideal.ofBits, Ideal.ieee, -EReal.coe_mul]

theorem bnEps_pos : ∃ e : ℝ, 0 < e ∧ bnEps = (e : EReal) :=
  ⟨10995116 * (2 : ℝ) ^ (-40 : ℤ), by positivity, bnEps_eq⟩

theorem div_count (r : ℝ) : Ideal.div (r : EReal) count = ((r / 100000 : ℝ) : EReal) := by
  rw [count_eq, Ideal.div_coe (by norm_num), ← EReal.coe_mul, mul_one_div]

theorem rsqrt_pos (x : ℝ) (hx : 0 < x) : ∃ y : ℝ, Ideal.rsqrt (x : EReal) = (y : EReal) :=
  ⟨(Real.sqrt x)⁻¹, by rw [Ideal.rsqrt_coe, if_neg (not_lt.mpr hx.le), if_neg hx.ne']⟩

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (x y : ℝ) : ((max x y : ℝ) : EReal) = max (x : EReal) (y : EReal) :=
  EReal.coe_strictMono.monotone.map_max

theorem FiniteM.exists_real {a b : ℕ} {M : Mat a b} (h : FiniteM M) :
    ∃ r : Fin a → Fin b → ℝ, M = fun i j => (r i j : EReal) := by
  choose r hr using h
  exact ⟨r, funext fun i => funext fun j => hr i j⟩

theorem FiniteR.exists_real {b : ℕ} {v : Row b} (h : FiniteR v) :
    ∃ r : Fin b → ℝ, v = fun j => (r j : EReal) := by
  choose r hr using h
  exact ⟨r, funext fun j => hr j⟩

theorem lin_finite {n : ℕ} (X : Mat n 128) (W : Mat 128 128) (b : Row 128) :
    FiniteM X → FiniteM W → FiniteR b → FiniteM (lin X W b) := by
  intro hX hW hb
  obtain ⟨x, rfl⟩ := hX.exists_real
  obtain ⟨w, rfl⟩ := hW.exists_real
  obtain ⟨c, rfl⟩ := hb.exists_real
  intro i j
  refine ⟨(∑ k : Fin 128, x i k * w k j) + c j, ?_⟩
  simp only [lin]
  rw [EReal.coe_add, coe_sum]
  simp only [EReal.coe_mul]

theorem colSum_coe {n : ℕ} (r : Fin n → Fin 128 → ℝ) (j : Fin 128) :
    colSum (fun i j => (r i j : EReal)) j = ((∑ i : Fin n, r i j : ℝ) : EReal) := by
  simp only [colSum]; rw [coe_sum]

theorem mean_coe (r : Fin 100000 → Fin 128 → ℝ) (j : Fin 128) :
    mean (fun i j => (r i j : EReal)) j = (((∑ i : Fin 100000, r i j) / 100000 : ℝ) : EReal) := by
  simp only [mean]; rw [colSum_coe, div_count]

theorem mean_finite (Z : Mat 100000 128) : FiniteM Z → FiniteR (mean Z) := by
  intro hZ
  obtain ⟨r, rfl⟩ := hZ.exists_real
  exact fun j => ⟨_, mean_coe r j⟩

theorem real_var {ι : Type*} [Fintype ι] (z : ι → ℝ) (N : ℝ) (hN : N ≠ 0) (hc : (Fintype.card ι : ℝ) = N) :
    (∑ i, z i * z i) / N - (∑ i, z i) / N * ((∑ i, z i) / N)
      = (∑ i, (z i - (∑ i, z i) / N) * (z i - (∑ i, z i) / N)) / N := by
  set S := ∑ i, z i with hS
  have h1 : ∑ i, (z i - S / N) * (z i - S / N)
      = (∑ i, z i * z i) - 2 * (S / N) * S + N * (S / N * (S / N)) := by
    have : ∀ i, (z i - S / N) * (z i - S / N) = z i * z i - 2 * (S / N) * z i + S / N * (S / N) := fun i => by ring
    simp only [this]
    rw [Finset.sum_add_distrib, Finset.sum_sub_distrib, ← Finset.mul_sum, Finset.sum_const, Finset.card_univ,
      nsmul_eq_mul, hc]
  rw [h1]
  field_simp
  ring

theorem varOfSquares_coe (r : Fin 100000 → Fin 128 → ℝ) (j : Fin 128) :
    varOfSquares (fun i j => (r i j : EReal)) j
      = (((∑ i : Fin 100000, r i j * r i j) / 100000
          - (∑ i : Fin 100000, r i j) / 100000 * ((∑ i : Fin 100000, r i j) / 100000) : ℝ) : EReal) := by
  simp only [varOfSquares]
  rw [mean_coe]
  simp only [← EReal.coe_mul]
  rw [colSum_coe (fun i j => r i j * r i j), div_count, ← EReal.coe_sub]

theorem varCentred_coe (r : Fin 100000 → Fin 128 → ℝ) (j : Fin 128) :
    varCentred (fun i j => (r i j : EReal)) j
      = (((∑ i : Fin 100000, (r i j - (∑ i : Fin 100000, r i j) / 100000)
            * (r i j - (∑ i : Fin 100000, r i j) / 100000)) / 100000 : ℝ) : EReal) := by
  simp only [varCentred]
  simp only [mean_coe, ← EReal.coe_sub, ← EReal.coe_mul]
  rw [colSum_coe (fun i j => (r i j - (∑ i : Fin 100000, r i j) / 100000)
            * (r i j - (∑ i : Fin 100000, r i j) / 100000)), div_count]

theorem var_eq (Z : Mat 100000 128) (hZ : FiniteM Z) : varOfSquares Z = varCentred Z := by
  obtain ⟨r, rfl⟩ := hZ.exists_real
  funext j
  rw [varOfSquares_coe, varCentred_coe]
  congr 1
  exact real_var (fun i => r i j) 100000 (by norm_num) (by simp)

theorem varCentred_nonneg (Z : Mat 100000 128) (hZ : FiniteM Z) :
    ∀ j, ∃ v : ℝ, 0 ≤ v ∧ varCentred Z j = (v : EReal) := by
  obtain ⟨r, rfl⟩ := hZ.exists_real
  intro j
  exact ⟨_, div_nonneg (Finset.sum_nonneg fun i _ => mul_self_nonneg _) (by norm_num), varCentred_coe r j⟩

theorem normRelu_finite {n : ℕ} (Z : Mat n 128) (mu var g be : Row 128) :
    FiniteM Z → FiniteR mu → (∀ j, ∃ v : ℝ, 0 ≤ v ∧ var j = (v : EReal)) → FiniteR g → FiniteR be →
      FiniteM (normRelu Z mu var g be) := by
  intro hZ hmu hvar hg hbe i j
  obtain ⟨z, hz⟩ := hZ i j
  obtain ⟨m, hm⟩ := hmu j
  obtain ⟨v, hv0, hv⟩ := hvar j
  obtain ⟨gg, hgg⟩ := hg j
  obtain ⟨bb, hbb⟩ := hbe j
  obtain ⟨e, he0, he⟩ := bnEps_pos
  obtain ⟨y, hy⟩ := rsqrt_pos (v + e) (add_pos_of_nonneg_of_pos hv0 he0)
  refine ⟨max ((z - m) * y * gg + bb) 0, ?_⟩
  simp only [normRelu]
  rw [hz, hm, hv, hgg, hbb, he, ← EReal.coe_add, hy, ← EReal.coe_sub, ← EReal.coe_mul, ← EReal.coe_mul,
    ← EReal.coe_add, ← EReal.coe_zero, ← coe_max]

theorem half_finite (X : Mat 100000 128) (W : Mat 128 128) (b g be : Row 128)
    (hX : FiniteM X) (hW : FiniteM W) (hb : FiniteR b) (hg : FiniteR g) (hbe : FiniteR be) :
    FiniteM (normRelu (lin X W b) (mean (lin X W b)) (varCentred (lin X W b)) g be) :=
  normRelu_finite _ _ _ _ _ (lin_finite X W b hX hW hb) (mean_finite _ (lin_finite X W b hX hW hb))
    (varCentred_nonneg _ (lin_finite X W b hX hW hb)) hg hbe

theorem layer_eq (p : LayerParams) (P : Mat 100000 128) (hp : p.Finite) (hP : FiniteM P) :
    layerK p P = layerR p P := by
  obtain ⟨hW1, hb1, hg1, hbe1, hW2, hb2, _, _⟩ := hp
  simp only [layerK, layerR, layerWith]
  rw [var_eq (lin P p.W1 p.b1) (lin_finite P p.W1 p.b1 hP hW1 hb1)]
  rw [var_eq _ (lin_finite _ p.W2 p.b2 (half_finite P p.W1 p.b1 p.g1 p.be1 hP hW1 hb1 hg1 hbe1) hW2 hb2)]

theorem layer_finite (p : LayerParams) (P : Mat 100000 128) (hp : p.Finite) (hP : FiniteM P) :
    FiniteM (layerR p P) := by
  obtain ⟨hW1, hb1, hg1, hbe1, hW2, hb2, hgbn, hbbn⟩ := hp
  simp only [layerR, layerWith]
  exact half_finite _ p.W2 p.b2 p.gbn p.bbn (half_finite P p.W1 p.b1 p.g1 p.be1 hP hW1 hb1 hg1 hbe1) hW2 hb2 hgbn hbbn

end Cert.Spec

end
-- ==== Proof.Link.Layers.lean ====
import proofs.«105940_j32358283608240_1_alg».proof.Proof.KI.Layer0
import proofs.«105940_j32358283608240_1_alg».proof.Proof.KI.Layer1
import proofs.«105940_j32358283608240_1_alg».proof.Proof.KI.Layer2
import proofs.«105940_j32358283608240_1_alg».proof.Proof.KI.Layer3
import proofs.«105940_j32358283608240_1_alg».proof.Proof.Ref.Layer0
import proofs.«105940_j32358283608240_1_alg».proof.Proof.Ref.Layer1
import proofs.«105940_j32358283608240_1_alg».proof.Proof.Ref.Layer2
import proofs.«105940_j32358283608240_1_alg».proof.Proof.Ref.Layer3
import proofs.«105940_j32358283608240_1_alg».proof.Proof.Link.PoolW
import proofs.«105940_j32358283608240_1_alg».proof.Proof.Link.Params
import proofs.«105940_j32358283608240_1_alg».proof.Proof.Link.Tail
import proofs.«105940_j32358283608240_1_alg».proof.Proof.SpecBridge

noncomputable section

namespace Cert.Proof.Link

open Idealize.ShloMosaic Idealize.ShloMosaic.TcCoe Idealize.SL.Sem
open Cert.Spec

theorem toMat_inj {a b : ℕ} {u v : (⟨2, ![a, b]⟩ : Shape).Idx → EReal} (h : toMat u = toMat v) : u = v := by
  funext j
  rw [ValueIdx.eq_ix2 j]
  exact congrFun (congrFun h (j 0)) (j 1)

theorem layer_step {hK hR PK PR : (⟨2, ![100000, 128]⟩ : Shape).Idx → EReal} {pK pR : LayerParams}
    (eK : toMat hK = layerK pK (toMat PK)) (eR : toMat hR = layerR pR (toMat PR))
    (hp : pR = pK) (hP : PR = PK) (fp : pK.Finite) (fP : FiniteM (toMat PK)) :
    hR = hK ∧ FiniteM (toMat hK) := by
  subst hp; subst hP
  have e := layer_eq pR (toMat PR) fp fP
  refine ⟨toMat_inj (eR.trans (e.symm.trans eK.symm)), ?_⟩
  rw [eK, e]
  exact layer_finite pR (toMat PR) fp fP

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

open Cert.KernelIdeal.Hand

theorem x_finite (hpre : Cert.Pre_KernelIdeal m) (c : Dev Cert.KernelIdeal.nD) :
    FiniteM (toMat (m ((c.tc : Thread Cert.KernelIdeal.nD Cert.KernelIdeal.τ).loc Cert.KernelIdeal.main_arg0) : Cert.KernelIdeal.S100000x128.Idx → EReal)) :=
  fun i j => finite_arg0 m hpre c (ValueIdx.ix2 i j)

theorem agree1 (hpre : Cert.Pre_KernelIdeal m) (hagree : Params.Agree m m') (c : Dev Cert.KernelIdeal.nD) :
    (Cert.ReferenceIdeal.Hand.A m' c (Proc.devRef .tc Cert.ReferenceIdeal.main_v79) : K.XT) = W6 m c (Proc.devRef .tc Cert.KernelIdeal.main_v52)
    ∧ FiniteM (toMat (W6 m c (Proc.devRef .tc Cert.KernelIdeal.main_v52) : K.XT)) := by
  have fP : FiniteM (toMat (W1 m c (Proc.devRef .tc Cert.KernelIdeal.main_v15) : K.XT)) := by
    rw [pooledK0_eq m c]
    exact K.pool_finite0 _ _ _ _ (x_finite m hpre c) (finite_arg5 m hpre c)
  exact layer_step (layerK0 m c) (Cert.ReferenceIdeal.Hand.layerR0 m' c) (params_link0 m m' c hagree) (pooled_link0 m m' (fun c => hagree c) c)
    (params_finite0 m c hpre) fP

theorem agree2 (hpre : Cert.Pre_KernelIdeal m) (hagree : Params.Agree m m') (c : Dev Cert.KernelIdeal.nD) :
    (Cert.ReferenceIdeal.Hand.A m' c (Proc.devRef .tc Cert.ReferenceIdeal.main_v159) : K.XT) = W12 m c (Proc.devRef .tc Cert.KernelIdeal.main_v105)
    ∧ FiniteM (toMat (W12 m c (Proc.devRef .tc Cert.KernelIdeal.main_v105) : K.XT)) := by
  obtain ⟨h1, f1⟩ := agree1 m m' hpre hagree c
  have fP : FiniteM (toMat (W7 m c (Proc.devRef .tc Cert.KernelIdeal.main_v68) : K.XT)) := by
    rw [pooledK1_eq m c]
    exact K.pool_finite1 _ _ _ _ f1 (finite_arg5 m hpre c)
  exact layer_step (layerK1 m c) (Cert.ReferenceIdeal.Hand.layerR1 m' c) (params_link1 m m' c hagree) (pooled_link1 m m' (fun c => hagree c) c h1)
    (params_finite1 m c hpre) fP

theorem agree3 (hpre : Cert.Pre_KernelIdeal m) (hagree : Params.Agree m m') (c : Dev Cert.KernelIdeal.nD) :
    (Cert.ReferenceIdeal.Hand.A m' c (Proc.devRef .tc Cert.ReferenceIdeal.main_v239) : K.XT) = W18 m c (Proc.devRef .tc Cert.KernelIdeal.main_v158)
    ∧ FiniteM (toMat (W18 m c (Proc.devRef .tc Cert.KernelIdeal.main_v158) : K.XT)) := by
  obtain ⟨h2, f2⟩ := agree2 m m' hpre hagree c
  have fP : FiniteM (toMat (W13 m c (Proc.devRef .tc Cert.KernelIdeal.main_v121) : K.XT)) := by
    rw [pooledK2_eq m c]
    exact K.pool_finite2 _ _ _ _ f2 (finite_arg5 m hpre c)
  exact layer_step (layerK2 m c) (Cert.ReferenceIdeal.Hand.layerR2 m' c) (params_link2 m m' c hagree) (pooled_link2 m m' (fun c => hagree c) c h2)
    (params_finite2 m c hpre) fP

theorem agree4 (hpre : Cert.Pre_KernelIdeal m) (hagree : Params.Agree m m') (c : Dev Cert.KernelIdeal.nD) :
    (Cert.ReferenceIdeal.Hand.A m' c (Proc.devRef .tc Cert.ReferenceIdeal.main_v319) : K.XT) = W24 m c (Proc.devRef .tc Cert.KernelIdeal.main_v211)
    ∧ FiniteM (toMat (W24 m c (Proc.devRef .tc Cert.KernelIdeal.main_v211) : K.XT)) := by
  obtain ⟨h3, f3⟩ := agree3 m m' hpre hagree c
  have fP : FiniteM (toMat (W19 m c (Proc.devRef .tc Cert.KernelIdeal.main_v174) : K.XT)) := by
    rw [pooledK3_eq m c]
    exact K.pool_finite3 _ _ _ _ f3 (finite_arg5 m hpre c)
  exact layer_step (layerK3 m c) (Cert.ReferenceIdeal.Hand.layerR3 m' c) (params_link3 m m' c hagree) (pooled_link3 m m' (fun c => hagree c) c h3)
    (params_finite3 m c hpre) fP

theorem result_link (hpre : Cert.Pre_KernelIdeal m) (hagree : Params.Agree m m') (c : Dev Cert.KernelIdeal.nD) :
    (AR m' c (Proc.devRef .tc Cert.ReferenceIdeal.main_v334) : (⟨2, ![100, 10]⟩ : Shape).Idx → EReal)
      = (W27 m c (Proc.devRef .tc Cert.KernelIdeal.main_v234) : (⟨2, ![100, 10]⟩ : Shape).Idx → EReal) :=
  tail_link m m' c hagree (agree1 m m' hpre hagree c).1 (agree2 m m' hpre hagree c).1 (agree3 m m' hpre hagree c).1
    (agree4 m m' hpre hagree c).1

end Cert.Proof.Link

end
-- ==== Proof.lean ====
import proofs.«105940_j32358283608240_1_alg».proof.Defs
import proofs.«105940_j32358283608240_1_alg».proof.Proof.Gen.Kernel
import proofs.«105940_j32358283608240_1_alg».proof.Proof.Gen.KernelIdeal
import proofs.«105940_j32358283608240_1_alg».proof.Proof.Gen.ReferenceIdeal
import proofs.«105940_j32358283608240_1_alg».proof.Proof.Gen.Pre_finite_inputs
import proofs.«105940_j32358283608240_1_alg».proof.Proof.K.Regs
import proofs.«105940_j32358283608240_1_alg».proof.Proof.KI.Regs
import proofs.«105940_j32358283608240_1_alg».proof.Proof.Ref.Run
import proofs.«105940_j32358283608240_1_alg».proof.Proof.Link.Layers
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem algebraic : Cert.algebraic_KernelIdeal_ReferenceIdeal := by
  intro m ρ m' ρ' hpre hagree
  refine ⟨fun c => Cert.KernelIdeal.Hand.W27 m c (Proc.devRef .tc Cert.KernelIdeal.main_v234),
    Cert.KernelIdeal.Hand.run_value m ρ, ?_⟩
  refine (θ_run Cert.ReferenceIdeal.defs _ _).mono (fun r h c => ⟨?_, ?_⟩) (Cert.ReferenceIdeal.Hand.run_after m' ρ')
  · exact (h c Cert.ReferenceIdeal.main_v334).trans (Cert.Proof.Link.result_link m m' hpre hagree c)
  · exact ⟨(h c Cert.ReferenceIdeal.main_arg0).trans (Cert.ReferenceIdeal.Hand.arg_kept0 m' c),
      (h c Cert.ReferenceIdeal.main_arg1).trans (Cert.ReferenceIdeal.Hand.arg_kept1 m' c),
      (h c Cert.ReferenceIdeal.main_arg2).trans (Cert.ReferenceIdeal.Hand.arg_kept2 m' c),
      (h c Cert.ReferenceIdeal.main_arg3).trans (Cert.ReferenceIdeal.Hand.arg_kept3 m' c),
      (h c Cert.ReferenceIdeal.main_arg4).trans (Cert.ReferenceIdeal.Hand.arg_kept4 m' c),
      (h c Cert.ReferenceIdeal.main_arg5).trans (Cert.ReferenceIdeal.Hand.arg_kept5 m' c),
      (h c Cert.ReferenceIdeal.main_arg6).trans (Cert.ReferenceIdeal.Hand.arg_kept6 m' c),
      (h c Cert.ReferenceIdeal.main_arg7).trans (Cert.ReferenceIdeal.Hand.arg_kept7 m' c),
      (h c Cert.ReferenceIdeal.main_arg8).trans (Cert.ReferenceIdeal.Hand.arg_kept8 m' c),
      (h c Cert.ReferenceIdeal.main_arg9).trans (Cert.ReferenceIdeal.Hand.arg_kept9 m' c),
      (h c Cert.ReferenceIdeal.main_arg10).trans (Cert.ReferenceIdeal.Hand.arg_kept10 m' c),
      (h c Cert.ReferenceIdeal.main_arg11).trans (Cert.ReferenceIdeal.Hand.arg_kept11 m' c),
      (h c Cert.ReferenceIdeal.main_arg12).trans (Cert.ReferenceIdeal.Hand.arg_kept12 m' c),
      (h c Cert.ReferenceIdeal.main_arg13).trans (Cert.ReferenceIdeal.Hand.arg_kept13 m' c),
      (h c Cert.ReferenceIdeal.main_arg14).trans (Cert.ReferenceIdeal.Hand.arg_kept14 m' c),
      (h c Cert.ReferenceIdeal.main_arg15).trans (Cert.ReferenceIdeal.Hand.arg_kept15 m' c),
      (h c Cert.ReferenceIdeal.main_arg16).trans (Cert.ReferenceIdeal.Hand.arg_kept16 m' c),
      (h c Cert.ReferenceIdeal.main_arg17).trans (Cert.ReferenceIdeal.Hand.arg_kept17 m' c)⟩

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.Hand.frame_ri, trivial, algebraic⟩

end Cert.Proof

end
